-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S4x8192 : Shape := ⟨2, ![4, 8192]⟩
abbrev S_ : Shape := ⟨0, ![]⟩
abbrev S4x128x64 : Shape := ⟨3, ![4, 128, 64]⟩
abbrev S4x128 : Shape := ⟨2, ![4, 128]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S4x8192 : S_.BroadcastsInDim S4x8192 (![] : Fin 0 → Fin S4x8192.rank)
  reducesTo_S4x8192_S_d0_1 : S4x8192.ReducesTo [0, 1] S_
  shapeCasts_S4x8192_S4x128x64 : S4x8192.ShapeCasts S4x128x64
  reducesTo_S4x128x64_S4x128_d2 : S4x128x64.ReducesTo [2] S4x128
  bcast_S_S4x128 : S_.BroadcastsInDim S4x128 (![] : Fin 0 → Fin S4x128.rank)
  reducesTo_S4x128_S_d0_1 : S4x128.ReducesTo [0, 1] S_

variable [Facts]

def fn_part1 {F : FTy → Type} [FloatOps F] (main_v8 : IVec S_ 1) (main_v15 : IVec S_ 1) : IVec S_ 1 :=
  let main_v16 : IVec S_ 1 := andi main_v8 main_v15
  main_v16

def fn {F : FTy → Type} [FloatOps F] (main_arg0 : FVec F S4x8192x1024 .f32) (main_arg1 : FVec F S4x8192 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x8192 .f32 := Host.absf main_arg1
  let main_cst_0 : FVec F S_ .f32 := constant S_ .f32 0x7F800000#32
  let main_v5 : FVec F S4x8192 .f32 := broadcastInDim S4x8192 ![] bcast_S_S4x8192 main_cst_0
  let main_v6 : IVec S4x8192 1 := cmpf .olt main_v4 main_v5
  let main_c_1 : IVec S_ 1 := constantI S_ 1 1#1
  let main_v7 : IVec S_ 1 := (fun x v => Host.reduce IntOp.andi x v reducesTo_S4x8192_S_d0_1 h_S_) main_v6 main_c_1
  let main_v8 : IVec S_ 1 := andi main_v3 main_v7
  let main_v9 : FVec F S4x128x64 .f32 := shapeCast S4x128x64 main_arg1 shapeCasts_S4x8192_S4x128x64
  let main_cst_2 : FVec F S_ .f32 := constant S_ .f32 0x00000000#32
  let main_v10 : FVec F S4x128 .f32 := (fun x v => Host.reduceAdd x v reducesTo_S4x128x64_S4x128_d2 h_S_) main_v9 main_cst_2
  let main_cst_3 : FVec F S_ .f32 := constant S_ .f32 0x38D1B717#32
  let main_v11 : FVec F S4x128 .f32 := broadcastInDim S4x128 ![] bcast_S_S4x128 main_cst_3
  let main_v12 : FVec F S4x128 .f32 := addf main_v10 main_v11
  let main_cst_4 : FVec F S_ .f32 := constant S_ .f32 0x00000000#32
  let main_v13 : FVec F S4x128 .f32 := broadcastInDim S4x128 ![] bcast_S_S4x128 main_cst_4
  let main_v14 : IVec S4x128 1 := cmpf .une main_v12 main_v13
  let main_c_5 : IVec S_ 1 := constantI S_ 1 1#1
  let main_v15 : IVec S_ 1 := (fun x v => Host.reduce IntOp.andi x v reducesTo_S4x128_S_d0_1 h_S_) main_v14 main_c_5
  fn_part1 (F := F) main_v8 main_v15
-- ==== Kernel.lean ====
abbrev S4x8192x1024 : Shape := ⟨3, ![4, 8192, 1024]⟩
abbrev S4x8192 : Shape := ⟨2, ![4, 8192]⟩
abbrev S512x64x1024 : Shape := ⟨3, ![512, 64, 1024]⟩
abbrev S512x64 : Shape := ⟨2, ![512, 64]⟩
abbrev S512x1024 : Shape := ⟨2, ![512, 1024]⟩
abbrev S512 : Shape := ⟨1, ![512]⟩
abbrev S64x512 : Shape := ⟨2, ![64, 512]⟩
abbrev S16x64 : Shape := ⟨2, ![16, 64]⟩
abbrev S1024 : Shape := ⟨1, ![1024]⟩
abbrev S16 : Shape := ⟨1, ![16]⟩
abbrev S_ : Shape := ⟨0, ![]⟩
abbrev S1x64x512 : Shape := ⟨3, ![1, 64, 512]⟩
abbrev S1x16 : Shape := ⟨2, ![1, 16]⟩
abbrev S1 : Shape := ⟨1, ![1]⟩
abbrev S1x1024 : Shape := ⟨2, ![1, 1024]⟩
abbrev S128 : Shape := ⟨1, ![128]⟩
abbrev S1x128 : Shape := ⟨2, ![1, 128]⟩
abbrev S4x128 : Shape := ⟨2, ![4, 128]⟩
abbrev S4x128x1024 : Shape := ⟨3, ![4, 128, 1024]⟩
abbrev S4x128x64x1024 : Shape := ⟨4, ![4, 128, 64, 1024]⟩

abbrev nBuf : Table → Nat
  | .hbm => 13
  | .local .scVector .vmem => 6
  | _ => 0

abbrev bufTy : (tb : Table) → Fin (nBuf tb) → BufTy
  | .hbm, ⟨0, _⟩ => ⟨S4x8192x1024, .f32⟩
  | .hbm, ⟨1, _⟩ => ⟨S4x8192, .f32⟩
  | .hbm, ⟨2, _⟩ => ⟨S512x64x1024, .f32⟩
  | .hbm, ⟨3, _⟩ => ⟨S512x64, .f32⟩
  | .hbm, ⟨4, _⟩ => ⟨S512x64x1024, .f32⟩
  | .hbm, ⟨5, _⟩ => ⟨S512x1024, .f32⟩
  | .hbm, ⟨6, _⟩ => ⟨S512, .f32⟩
  | .hbm, ⟨7, _⟩ => ⟨S128, .i32⟩
  | .hbm, ⟨8, _⟩ => ⟨S1x128, .i32⟩
  | .hbm, ⟨9, _⟩ => ⟨S4x128, .i32⟩
  | .hbm, ⟨10, _⟩ => ⟨S4x128x1024, .f32⟩
  | .hbm, ⟨11, _⟩ => ⟨S4x128, .f32⟩
  | .hbm, ⟨12, _⟩ => ⟨S4x128x64x1024, .f32⟩
  | .local .scVector .vmem, ⟨0, _⟩ => ⟨S64x512, .f32⟩
  | .local .scVector .vmem, ⟨1, _⟩ => ⟨S64x512, .f32⟩
  | .local .scVector .vmem, ⟨2, _⟩ => ⟨S64x512, .f32⟩
  | .local .scVector .vmem, ⟨3, _⟩ => ⟨S16x64, .f32⟩
  | .local .scVector .vmem, ⟨4, _⟩ => ⟨S1024, .f32⟩
  | .local .scVector .vmem, ⟨5, _⟩ => ⟨S16, .f32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v0_scv : Ref sig .scVector := ⟨.hbm, 2, rfl⟩
abbrev main_v1_scv : Ref sig .scVector := ⟨.hbm, 3, rfl⟩
abbrev main_v2_0_scv : Ref sig .scVector := ⟨.hbm, 4, rfl⟩
abbrev main_v2_1_scv : Ref sig .scVector := ⟨.hbm, 5, rfl⟩
abbrev main_v2_2_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_26_r0 : BitVec 32 := 0#32
  ![v3.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32 : BitVec 32 := 0#32
  let c0_i32_0 : BitVec 32 := 0#32
  ![v3.toNat, 0, 0]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_3 : BitVec 32 := 0#32
  let c512_i32 : BitVec 32 := 512#32
  ![v3.toNat, 0, 512]
@[reducible] def k0_t1_loop : Scf.Loop 32 :=
  let c0_i32_6 : BitVec 32 := 0#32
  let c16_i32_7 : BitVec 32 := 16#32
  let v13 : BitVec 32 := Scalar.addi c0_i32_6 c16_i32_7
  let c1_i32 : BitVec 32 := 1#32
  ⟨c0_i32_6, v13, c1_i32⟩
def k0_cond1 (k0_t1 : Fin k0_t1_loop.trips) : BitVec 1 :=
  let c0_i32_6 : BitVec 32 := 0#32
  let c1_i32 : BitVec 32 := 1#32
  let arg20 : BitVec 32 := Scf.iv c0_i32_6 c1_i32 k0_t1
  let c3_i32 : BitVec 32 := 3#32
  let c0_i32_26 : BitVec 32 := 0#32
  let v37 : BitVec 1 := Scalar.cmpi .eq c3_i32 c0_i32_26
  let c1_i32_27 : BitVec 32 := 1#32
  let v38 : BitVec 32 := Scalar.select v37 c1_i32_27 c3_i32
  let v39 : BitVec 32 := Scalar.remsi arg20 v38
  let c0_i32_29 : BitVec 32 := 0#32
  let v41 : BitVec 1 := Scalar.cmpi .slt v39 c0_i32_29
  let c0_i32_30 : BitVec 32 := 0#32
  let v42 : BitVec 1 := Scalar.cmpi .slt v38 c0_i32_30
  let v43 : BitVec 1 := Scalar.xori v41 v42
  let c0_i32_28 : BitVec 32 := 0#32
  let v40 : BitVec 1 := Scalar.cmpi .ne v39 c0_i32_28
  let v44 : BitVec 1 := Scalar.andi v43 v40
  let v45 : BitVec 32 := Scalar.addi v39 v38
  let v46 : BitVec 32 := Scalar.select v44 v45 v39
  let c0_i32_31 : BitVec 32 := 0#32
  let v47 : BitVec 32 := Scalar.maxsi v46 c0_i32_31
  let c2_i32_32 : BitVec 32 := 2#32
  let v48 : BitVec 32 := Scalar.minsi v47 c2_i32_32
  let c0_i32_33 : BitVec 32 := 0#32
  let v49 : BitVec 1 := Scalar.cmpi .ne v48 c0_i32_33
  v49

def k0_cond2 (k0_t1 : Fin k0_t1_loop.trips) : BitVec 1 :=
  let c0_i32_6 : BitVec 32 := 0#32
  let c1_i32 : BitVec 32 := 1#32
  let arg20 : BitVec 32 := Scf.iv c0_i32_6 c1_i32 k0_t1
  let c3_i32 : BitVec 32 := 3#32
  let c0_i32_26 : BitVec 32 := 0#32
  let v37 : BitVec 1 := Scalar.cmpi .eq c3_i32 c0_i32_26
  let c1_i32_27 : BitVec 32 := 1#32
  let v38 : BitVec 32 := Scalar.select v37 c1_i32_27 c3_i32
  let v39 : BitVec 32 := Scalar.remsi arg20 v38
  let c0_i32_29 : BitVec 32 := 0#32
  let v41 : BitVec 1 := Scalar.cmpi .slt v39 c0_i32_29
  let c0_i32_30 : BitVec 32 := 0#32
  let v42 : BitVec 1 := Scalar.cmpi .slt v38 c0_i32_30
  let v43 : BitVec 1 := Scalar.xori v41 v42
  let c0_i32_28 : BitVec 32 := 0#32
  let v40 : BitVec 1 := Scalar.cmpi .ne v39 c0_i32_28
  let v44 : BitVec 1 := Scalar.andi v43 v40
  let v45 : BitVec 32 := Scalar.addi v39 v38
  let v46 : BitVec 32 := Scalar.select v44 v45 v39
  let c0_i32_31 : BitVec 32 := 0#32
  let v47 : BitVec 32 := Scalar.maxsi v46 c0_i32_31
  let c2_i32_32 : BitVec 32 := 2#32
  let v48 : BitVec 32 := Scalar.minsi v47 c2_i32_32
  let c1_i32_35 : BitVec 32 := 1#32
  let v58 : BitVec 32 := Scalar.subi v48 c1_i32_35
  let c0_i32_36 : BitVec 32 := 0#32
  let v59 : BitVec 1 := Scalar.cmpi .ne v58 c0_i32_36
  v59

def k0_off4 (k0_t1 : Fin k0_t1_loop.trips) : Fin 2 → Nat :=
  let c0_i32_6 : BitVec 32 := 0#32
  let c1_i32 : BitVec 32 := 1#32
  let arg20 : BitVec 32 := Scf.iv c0_i32_6 c1_i32 k0_t1
  let v62 : Index := Scalar.indexCast arg20
  let c0_37 : Index := 0#32
  ![v62.toNat, 0]
def k0_off5 (k0_t1 : Fin k0_t1_loop.trips) : Fin 2 → Nat :=
  let c0_i32_6 : BitVec 32 := 0#32
  let c1_i32 : BitVec 32 := 1#32
  let arg20 : BitVec 32 := Scf.iv c0_i32_6 c1_i32 k0_t1
  let v65 : Index := Scalar.indexCast arg20
  let c16 : Index := 16#32
  ![v65.toNat, 16]
def k0_off6 (k0_t1 : Fin k0_t1_loop.trips) : Fin 2 → Nat :=
  let c0_i32_6 : BitVec 32 := 0#32
  let c1_i32 : BitVec 32 := 1#32
  let arg20 : BitVec 32 := Scf.iv c0_i32_6 c1_i32 k0_t1
  let v68 : Index := Scalar.indexCast arg20
  let c32 : Index := 32#32
  ![v68.toNat, 32]
def k0_off7 (k0_t1 : Fin k0_t1_loop.trips) : Fin 2 → Nat :=
  let c0_i32_6 : BitVec 32 := 0#32
  let c1_i32 : BitVec 32 := 1#32
  let arg20 : BitVec 32 := Scf.iv c0_i32_6 c1_i32 k0_t1
  let v71 : Index := Scalar.indexCast arg20
  let c48 : Index := 48#32
  ![v71.toNat, 48]
def k0_cond3 (k0_t1 : Fin k0_t1_loop.trips) : BitVec 1 :=
  let c0_i32_6 : BitVec 32 := 0#32
  let c1_i32 : BitVec 32 := 1#32
  let arg20 : BitVec 32 := Scf.iv c0_i32_6 c1_i32 k0_t1
  let c0_i32_40 : BitVec 32 := 0#32
  let v270 : BitVec 1 := Scalar.cmpi .sgt arg20 c0_i32_40
  let v271 : BitVec 32 := Scalar.extui v270
  let c0_i32_41 : BitVec 32 := 0#32
  let v272 : BitVec 1 := Scalar.cmpi .ne v271 c0_i32_41
  v272

def k0_off8 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v61 : BitVec 32 := Scalar.addi v3 arg20
  let c1_i32_75 : BitVec 32 := 1#32
  let v303 : BitVec 32 := Scalar.subi v61 c1_i32_75
  let c0_i32_76 : BitVec 32 := 0#32
  ![v303.toNat, 0]
def k0_off9 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v61 : BitVec 32 := Scalar.addi v3 arg20
  let c0_i32_42 : BitVec 32 := 0#32
  let c0_i32_43 : BitVec 32 := 0#32
  ![v61.toNat, 0, 0]
@[reducible] def k0_t2_loop : Scf.Loop 32 :=
  let c0_i32_47 : BitVec 32 := 0#32
  let c32_i32 : BitVec 32 := 32#32
  let v277 : BitVec 32 := Scalar.addi c0_i32_47 c32_i32
  let c1_i32_48 : BitVec 32 := 1#32
  ⟨c0_i32_47, v277, c1_i32_48⟩
def k0_mult1 (k0_t2 : Fin k0_t2_loop.trips) : BitVec 32 :=
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  v303
def k0_off10 (k0_t2 : Fin k0_t2_loop.trips) : Fin 2 → Nat :=
  let c0_i32_80 : BitVec 32 := 0#32
  let v309 : Index := Scalar.indexCast c0_i32_80
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v310 : Index := Scalar.indexCast v304
  ![0, v310.toNat]
def k0_off11 (k0_t2 : Fin k0_t2_loop.trips) : Fin 2 → Nat :=
  let c1_i32_82 : BitVec 32 := 1#32
  let v321 : Index := Scalar.indexCast c1_i32_82
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v322 : Index := Scalar.indexCast v304
  ![1, v322.toNat]
def k0_off12 (k0_t2 : Fin k0_t2_loop.trips) : Fin 2 → Nat :=
  let c2_i32_84 : BitVec 32 := 2#32
  let v333 : Index := Scalar.indexCast c2_i32_84
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v334 : Index := Scalar.indexCast v304
  ![2, v334.toNat]
def k0_off13 (k0_t2 : Fin k0_t2_loop.trips) : Fin 2 → Nat :=
  let c3_i32_86 : BitVec 32 := 3#32
  let v345 : Index := Scalar.indexCast c3_i32_86
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v346 : Index := Scalar.indexCast v304
  ![3, v346.toNat]
def k0_off14 (k0_t2 : Fin k0_t2_loop.trips) : Fin 2 → Nat :=
  let c4_i32 : BitVec 32 := 4#32
  let v357 : Index := Scalar.indexCast c4_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v358 : Index := Scalar.indexCast v304
  ![4, v358.toNat]
def k0_off15 (k0_t2 : Fin k0_t2_loop.trips) : Fin 2 → Nat :=
  let c5_i32 : BitVec 32 := 5#32
  let v369 : Index := Scalar.indexCast c5_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v370 : Index := Scalar.indexCast v304
  ![5, v370.toNat]
def k0_off16 (k0_t2 : Fin k0_t2_loop.trips) : Fin 2 → Nat :=
  let c6_i32 : BitVec 32 := 6#32
  let v381 : Index := Scalar.indexCast c6_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v382 : Index := Scalar.indexCast v304
  ![6, v382.toNat]
def k0_off17 (k0_t2 : Fin k0_t2_loop.trips) : Fin 2 → Nat :=
  let c7_i32 : BitVec 32 := 7#32
  let v393 : Index := Scalar.indexCast c7_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v394 : Index := Scalar.indexCast v304
  ![7, v394.toNat]
def k0_off18 (k0_t2 : Fin k0_t2_loop.trips) : Fin 2 → Nat :=
  let c8_i32 : BitVec 32 := 8#32
  let v405 : Index := Scalar.indexCast c8_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v406 : Index := Scalar.indexCast v304
  ![8, v406.toNat]
def k0_off19 (k0_t2 : Fin k0_t2_loop.trips) : Fin 2 → Nat :=
  let c9_i32 : BitVec 32 := 9#32
  let v417 : Index := Scalar.indexCast c9_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v418 : Index := Scalar.indexCast v304
  ![9, v418.toNat]
def k0_off20 (k0_t2 : Fin k0_t2_loop.trips) : Fin 2 → Nat :=
  let c10_i32 : BitVec 32 := 10#32
  let v429 : Index := Scalar.indexCast c10_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v430 : Index := Scalar.indexCast v304
  ![10, v430.toNat]
def k0_off21 (k0_t2 : Fin k0_t2_loop.trips) : Fin 2 → Nat :=
  let c11_i32 : BitVec 32 := 11#32
  let v441 : Index := Scalar.indexCast c11_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v442 : Index := Scalar.indexCast v304
  ![11, v442.toNat]
def k0_off22 (k0_t2 : Fin k0_t2_loop.trips) : Fin 2 → Nat :=
  let c12_i32 : BitVec 32 := 12#32
  let v453 : Index := Scalar.indexCast c12_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v454 : Index := Scalar.indexCast v304
  ![12, v454.toNat]
def k0_off23 (k0_t2 : Fin k0_t2_loop.trips) : Fin 2 → Nat :=
  let c13_i32 : BitVec 32 := 13#32
  let v465 : Index := Scalar.indexCast c13_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v466 : Index := Scalar.indexCast v304
  ![13, v466.toNat]
def k0_off24 (k0_t2 : Fin k0_t2_loop.trips) : Fin 2 → Nat :=
  let c14_i32 : BitVec 32 := 14#32
  let v477 : Index := Scalar.indexCast c14_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v478 : Index := Scalar.indexCast v304
  ![14, v478.toNat]
def k0_off25 (k0_t2 : Fin k0_t2_loop.trips) : Fin 2 → Nat :=
  let c15_i32 : BitVec 32 := 15#32
  let v489 : Index := Scalar.indexCast c15_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v490 : Index := Scalar.indexCast v304
  ![15, v490.toNat]
def k0_off26 (k0_t2 : Fin k0_t2_loop.trips) : Fin 2 → Nat :=
  let c16_i32_100 : BitVec 32 := 16#32
  let v501 : Index := Scalar.indexCast c16_i32_100
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v502 : Index := Scalar.indexCast v304
  ![16, v502.toNat]
def k0_off27 (k0_t2 : Fin k0_t2_loop.trips) : Fin 2 → Nat :=
  let c17_i32 : BitVec 32 := 17#32
  let v513 : Index := Scalar.indexCast c17_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v514 : Index := Scalar.indexCast v304
  ![17, v514.toNat]
def k0_off28 (k0_t2 : Fin k0_t2_loop.trips) : Fin 2 → Nat :=
  let c18_i32 : BitVec 32 := 18#32
  let v525 : Index := Scalar.indexCast c18_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v526 : Index := Scalar.indexCast v304
  ![18, v526.toNat]
def k0_off29 (k0_t2 : Fin k0_t2_loop.trips) : Fin 2 → Nat :=
  let c19_i32 : BitVec 32 := 19#32
  let v537 : Index := Scalar.indexCast c19_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v538 : Index := Scalar.indexCast v304
  ![19, v538.toNat]
def k0_off30 (k0_t2 : Fin k0_t2_loop.trips) : Fin 2 → Nat :=
  let c20_i32 : BitVec 32 := 20#32
  let v549 : Index := Scalar.indexCast c20_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v550 : Index := Scalar.indexCast v304
  ![20, v550.toNat]
def k0_off31 (k0_t2 : Fin k0_t2_loop.trips) : Fin 2 → Nat :=
  let c21_i32 : BitVec 32 := 21#32
  let v561 : Index := Scalar.indexCast c21_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v562 : Index := Scalar.indexCast v304
  ![21, v562.toNat]
def k0_off32 (k0_t2 : Fin k0_t2_loop.trips) : Fin 2 → Nat :=
  let c22_i32 : BitVec 32 := 22#32
  let v573 : Index := Scalar.indexCast c22_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v574 : Index := Scalar.indexCast v304
  ![22, v574.toNat]
def k0_off33 (k0_t2 : Fin k0_t2_loop.trips) : Fin 2 → Nat :=
  let c23_i32 : BitVec 32 := 23#32
  let v585 : Index := Scalar.indexCast c23_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v586 : Index := Scalar.indexCast v304
  ![23, v586.toNat]
def k0_off34 (k0_t2 : Fin k0_t2_loop.trips) : Fin 2 → Nat :=
  let c24_i32 : BitVec 32 := 24#32
  let v597 : Index := Scalar.indexCast c24_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v598 : Index := Scalar.indexCast v304
  ![24, v598.toNat]
def k0_off35 (k0_t2 : Fin k0_t2_loop.trips) : Fin 2 → Nat :=
  let c25_i32 : BitVec 32 := 25#32
  let v609 : Index := Scalar.indexCast c25_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v610 : Index := Scalar.indexCast v304
  ![25, v610.toNat]
def k0_off36 (k0_t2 : Fin k0_t2_loop.trips) : Fin 2 → Nat :=
  let c26_i32 : BitVec 32 := 26#32
  let v621 : Index := Scalar.indexCast c26_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v622 : Index := Scalar.indexCast v304
  ![26, v622.toNat]
def k0_off37 (k0_t2 : Fin k0_t2_loop.trips) : Fin 2 → Nat :=
  let c27_i32 : BitVec 32 := 27#32
  let v633 : Index := Scalar.indexCast c27_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v634 : Index := Scalar.indexCast v304
  ![27, v634.toNat]
def k0_off38 (k0_t2 : Fin k0_t2_loop.trips) : Fin 2 → Nat :=
  let c28_i32 : BitVec 32 := 28#32
  let v645 : Index := Scalar.indexCast c28_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v646 : Index := Scalar.indexCast v304
  ![28, v646.toNat]
def k0_off39 (k0_t2 : Fin k0_t2_loop.trips) : Fin 2 → Nat :=
  let c29_i32 : BitVec 32 := 29#32
  let v657 : Index := Scalar.indexCast c29_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v658 : Index := Scalar.indexCast v304
  ![29, v658.toNat]
def k0_off40 (k0_t2 : Fin k0_t2_loop.trips) : Fin 2 → Nat :=
  let c30_i32 : BitVec 32 := 30#32
  let v669 : Index := Scalar.indexCast c30_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v670 : Index := Scalar.indexCast v304
  ![30, v670.toNat]
def k0_off41 (k0_t2 : Fin k0_t2_loop.trips) : Fin 2 → Nat :=
  let c31_i32 : BitVec 32 := 31#32
  let v681 : Index := Scalar.indexCast c31_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v682 : Index := Scalar.indexCast v304
  ![31, v682.toNat]
def k0_off42 (k0_t2 : Fin k0_t2_loop.trips) : Fin 2 → Nat :=
  let c32_i32_117 : BitVec 32 := 32#32
  let v693 : Index := Scalar.indexCast c32_i32_117
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v694 : Index := Scalar.indexCast v304
  ![32, v694.toNat]
def k0_off43 (k0_t2 : Fin k0_t2_loop.trips) : Fin 2 → Nat :=
  let c33_i32 : BitVec 32 := 33#32
  let v705 : Index := Scalar.indexCast c33_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v706 : Index := Scalar.indexCast v304
  ![33, v706.toNat]
def k0_off44 (k0_t2 : Fin k0_t2_loop.trips) : Fin 2 → Nat :=
  let c34_i32 : BitVec 32 := 34#32
  let v717 : Index := Scalar.indexCast c34_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v718 : Index := Scalar.indexCast v304
  ![34, v718.toNat]
def k0_off45 (k0_t2 : Fin k0_t2_loop.trips) : Fin 2 → Nat :=
  let c35_i32 : BitVec 32 := 35#32
  let v729 : Index := Scalar.indexCast c35_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v730 : Index := Scalar.indexCast v304
  ![35, v730.toNat]
def k0_off46 (k0_t2 : Fin k0_t2_loop.trips) : Fin 2 → Nat :=
  let c36_i32 : BitVec 32 := 36#32
  let v741 : Index := Scalar.indexCast c36_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v742 : Index := Scalar.indexCast v304
  ![36, v742.toNat]
def k0_off47 (k0_t2 : Fin k0_t2_loop.trips) : Fin 2 → Nat :=
  let c37_i32 : BitVec 32 := 37#32
  let v753 : Index := Scalar.indexCast c37_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v754 : Index := Scalar.indexCast v304
  ![37, v754.toNat]
def k0_off48 (k0_t2 : Fin k0_t2_loop.trips) : Fin 2 → Nat :=
  let c38_i32 : BitVec 32 := 38#32
  let v765 : Index := Scalar.indexCast c38_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v766 : Index := Scalar.indexCast v304
  ![38, v766.toNat]
def k0_off49 (k0_t2 : Fin k0_t2_loop.trips) : Fin 2 → Nat :=
  let c39_i32 : BitVec 32 := 39#32
  let v777 : Index := Scalar.indexCast c39_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v778 : Index := Scalar.indexCast v304
  ![39, v778.toNat]
def k0_off50 (k0_t2 : Fin k0_t2_loop.trips) : Fin 2 → Nat :=
  let c40_i32 : BitVec 32 := 40#32
  let v789 : Index := Scalar.indexCast c40_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v790 : Index := Scalar.indexCast v304
  ![40, v790.toNat]
def k0_off51 (k0_t2 : Fin k0_t2_loop.trips) : Fin 2 → Nat :=
  let c41_i32 : BitVec 32 := 41#32
  let v801 : Index := Scalar.indexCast c41_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v802 : Index := Scalar.indexCast v304
  ![41, v802.toNat]
def k0_off52 (k0_t2 : Fin k0_t2_loop.trips) : Fin 2 → Nat :=
  let c42_i32 : BitVec 32 := 42#32
  let v813 : Index := Scalar.indexCast c42_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v814 : Index := Scalar.indexCast v304
  ![42, v814.toNat]
def k0_off53 (k0_t2 : Fin k0_t2_loop.trips) : Fin 2 → Nat :=
  let c43_i32 : BitVec 32 := 43#32
  let v825 : Index := Scalar.indexCast c43_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v826 : Index := Scalar.indexCast v304
  ![43, v826.toNat]
def k0_off54 (k0_t2 : Fin k0_t2_loop.trips) : Fin 2 → Nat :=
  let c44_i32 : BitVec 32 := 44#32
  let v837 : Index := Scalar.indexCast c44_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v838 : Index := Scalar.indexCast v304
  ![44, v838.toNat]
def k0_off55 (k0_t2 : Fin k0_t2_loop.trips) : Fin 2 → Nat :=
  let c45_i32 : BitVec 32 := 45#32
  let v849 : Index := Scalar.indexCast c45_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v850 : Index := Scalar.indexCast v304
  ![45, v850.toNat]
def k0_off56 (k0_t2 : Fin k0_t2_loop.trips) : Fin 2 → Nat :=
  let c46_i32 : BitVec 32 := 46#32
  let v861 : Index := Scalar.indexCast c46_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v862 : Index := Scalar.indexCast v304
  ![46, v862.toNat]
def k0_off57 (k0_t2 : Fin k0_t2_loop.trips) : Fin 2 → Nat :=
  let c47_i32 : BitVec 32 := 47#32
  let v873 : Index := Scalar.indexCast c47_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v874 : Index := Scalar.indexCast v304
  ![47, v874.toNat]
def k0_off58 (k0_t2 : Fin k0_t2_loop.trips) : Fin 2 → Nat :=
  let c48_i32 : BitVec 32 := 48#32
  let v885 : Index := Scalar.indexCast c48_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v886 : Index := Scalar.indexCast v304
  ![48, v886.toNat]
def k0_off59 (k0_t2 : Fin k0_t2_loop.trips) : Fin 2 → Nat :=
  let c49_i32 : BitVec 32 := 49#32
  let v897 : Index := Scalar.indexCast c49_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v898 : Index := Scalar.indexCast v304
  ![49, v898.toNat]
def k0_off60 (k0_t2 : Fin k0_t2_loop.trips) : Fin 2 → Nat :=
  let c50_i32 : BitVec 32 := 50#32
  let v909 : Index := Scalar.indexCast c50_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v910 : Index := Scalar.indexCast v304
  ![50, v910.toNat]
def k0_off61 (k0_t2 : Fin k0_t2_loop.trips) : Fin 2 → Nat :=
  let c51_i32 : BitVec 32 := 51#32
  let v921 : Index := Scalar.indexCast c51_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v922 : Index := Scalar.indexCast v304
  ![51, v922.toNat]
def k0_off62 (k0_t2 : Fin k0_t2_loop.trips) : Fin 2 → Nat :=
  let c52_i32 : BitVec 32 := 52#32
  let v933 : Index := Scalar.indexCast c52_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v934 : Index := Scalar.indexCast v304
  ![52, v934.toNat]
def k0_off63 (k0_t2 : Fin k0_t2_loop.trips) : Fin 2 → Nat :=
  let c53_i32 : BitVec 32 := 53#32
  let v945 : Index := Scalar.indexCast c53_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v946 : Index := Scalar.indexCast v304
  ![53, v946.toNat]
def k0_off64 (k0_t2 : Fin k0_t2_loop.trips) : Fin 2 → Nat :=
  let c54_i32 : BitVec 32 := 54#32
  let v957 : Index := Scalar.indexCast c54_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v958 : Index := Scalar.indexCast v304
  ![54, v958.toNat]
def k0_off65 (k0_t2 : Fin k0_t2_loop.trips) : Fin 2 → Nat :=
  let c55_i32 : BitVec 32 := 55#32
  let v969 : Index := Scalar.indexCast c55_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v970 : Index := Scalar.indexCast v304
  ![55, v970.toNat]
def k0_off66 (k0_t2 : Fin k0_t2_loop.trips) : Fin 2 → Nat :=
  let c56_i32 : BitVec 32 := 56#32
  let v981 : Index := Scalar.indexCast c56_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v982 : Index := Scalar.indexCast v304
  ![56, v982.toNat]
def k0_off67 (k0_t2 : Fin k0_t2_loop.trips) : Fin 2 → Nat :=
  let c57_i32 : BitVec 32 := 57#32
  let v993 : Index := Scalar.indexCast c57_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v994 : Index := Scalar.indexCast v304
  ![57, v994.toNat]
def k0_off68 (k0_t2 : Fin k0_t2_loop.trips) : Fin 2 → Nat :=
  let c58_i32 : BitVec 32 := 58#32
  let v1005 : Index := Scalar.indexCast c58_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v1006 : Index := Scalar.indexCast v304
  ![58, v1006.toNat]
def k0_off69 (k0_t2 : Fin k0_t2_loop.trips) : Fin 2 → Nat :=
  let c59_i32 : BitVec 32 := 59#32
  let v1017 : Index := Scalar.indexCast c59_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v1018 : Index := Scalar.indexCast v304
  ![59, v1018.toNat]
def k0_off70 (k0_t2 : Fin k0_t2_loop.trips) : Fin 2 → Nat :=
  let c60_i32 : BitVec 32 := 60#32
  let v1029 : Index := Scalar.indexCast c60_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v1030 : Index := Scalar.indexCast v304
  ![60, v1030.toNat]
def k0_off71 (k0_t2 : Fin k0_t2_loop.trips) : Fin 2 → Nat :=
  let c61_i32 : BitVec 32 := 61#32
  let v1041 : Index := Scalar.indexCast c61_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v1042 : Index := Scalar.indexCast v304
  ![61, v1042.toNat]
def k0_off72 (k0_t2 : Fin k0_t2_loop.trips) : Fin 2 → Nat :=
  let c62_i32 : BitVec 32 := 62#32
  let v1053 : Index := Scalar.indexCast c62_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v1054 : Index := Scalar.indexCast v304
  ![62, v1054.toNat]
def k0_off73 (k0_t2 : Fin k0_t2_loop.trips) : Fin 2 → Nat :=
  let c63_i32 : BitVec 32 := 63#32
  let v1065 : Index := Scalar.indexCast c63_i32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v1066 : Index := Scalar.indexCast v304
  ![63, v1066.toNat]
def k0_off74 (k0_t2 : Fin k0_t2_loop.trips) : Fin 1 → Nat :=
  let c0_i32_150 : BitVec 32 := 0#32
  let c0_i32_47 : BitVec 32 := 0#32
  let c1_i32_48 : BitVec 32 := 1#32
  let arg22 : BitVec 32 := Scf.iv c0_i32_47 c1_i32_48 k0_t2
  let c16_i32_75 : BitVec 32 := 16#32
  let v303 : BitVec 32 := Scalar.muli arg22 c16_i32_75
  let v304 : BitVec 32 := v303
  let v1081 : BitVec 32 := Scalar.addi c0_i32_150 v304
  let v1082 : Index := Scalar.indexCast v1081
  ![v1082.toNat]
def k0_cond4 (k0_t1 : Fin k0_t1_loop.trips) : BitVec 1 :=
  let c0_i32_6 : BitVec 32 := 0#32
  let c1_i32 : BitVec 32 := 1#32
  let arg20 : BitVec 32 := Scf.iv c0_i32_6 c1_i32 k0_t1
  let c1_i32_54 : BitVec 32 := 1#32
  let v282 : BitVec 32 := Scalar.addi arg20 c1_i32_54
  let c16_i32_55 : BitVec 32 := 16#32
  let v283 : BitVec 1 := Scalar.cmpi .slt v282 c16_i32_55
  let v284 : BitVec 32 := Scalar.extui v283
  let c0_i32_56 : BitVec 32 := 0#32
  let v285 : BitVec 1 := Scalar.cmpi .ne v284 c0_i32_56
  v285

def k0_cond5 (k0_t1 : Fin k0_t1_loop.trips) : BitVec 1 :=
  let c0_i32_6 : BitVec 32 := 0#32
  let c1_i32 : BitVec 32 := 1#32
  let arg20 : BitVec 32 := Scf.iv c0_i32_6 c1_i32 k0_t1
  let c0_i32_75 : BitVec 32 := 0#32
  let v303 : BitVec 1 := Scalar.cmpi .sgt arg20 c0_i32_75
  let v304 : BitVec 32 := Scalar.extui v303
  let c0_i32_76 : BitVec 32 := 0#32
  let v305 : BitVec 1 := Scalar.cmpi .ne v304 c0_i32_76
  v305

def k0_off75 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v61 : BitVec 32 := Scalar.addi v3 arg20
  let c1_i32_82 : BitVec 32 := 1#32
  let v311 : BitVec 32 := Scalar.subi v61 c1_i32_82
  let c0_i32_83 : BitVec 32 := 0#32
  let c512_i32_84 : BitVec 32 := 512#32
  ![v311.toNat, 0, 512]
def k0_off76 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v61 : BitVec 32 := Scalar.addi v3 arg20
  let c1_i32_77 : BitVec 32 := 1#32
  let v306 : BitVec 32 := Scalar.addi v61 c1_i32_77
  let c0_i32_78 : BitVec 32 := 0#32
  let c0_i32_79 : BitVec 32 := 0#32
  ![v306.toNat, 0, 0]
def k0_off77 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v61 : BitVec 32 := Scalar.addi v3 arg20
  let c0_i32_57 : BitVec 32 := 0#32
  let c512_i32_58 : BitVec 32 := 512#32
  ![v61.toNat, 0, 512]
@[reducible] def k0_t3_loop : Scf.Loop 32 :=
  let c0_i32_62 : BitVec 32 := 0#32
  let c32_i32_63 : BitVec 32 := 32#32
  let v290 : BitVec 32 := Scalar.addi c0_i32_62 c32_i32_63
  let c1_i32_64 : BitVec 32 := 1#32
  ⟨c0_i32_62, v290, c1_i32_64⟩
def k0_mult2 (k0_t3 : Fin k0_t3_loop.trips) : BitVec 32 :=
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  v303
def k0_off78 (k0_t3 : Fin k0_t3_loop.trips) : Fin 2 → Nat :=
  let c0_i32_80 : BitVec 32 := 0#32
  let v309 : Index := Scalar.indexCast c0_i32_80
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v310 : Index := Scalar.indexCast v304
  ![0, v310.toNat]
def k0_off79 (k0_t3 : Fin k0_t3_loop.trips) : Fin 2 → Nat :=
  let c1_i32_82 : BitVec 32 := 1#32
  let v321 : Index := Scalar.indexCast c1_i32_82
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v322 : Index := Scalar.indexCast v304
  ![1, v322.toNat]
def k0_off80 (k0_t3 : Fin k0_t3_loop.trips) : Fin 2 → Nat :=
  let c2_i32_84 : BitVec 32 := 2#32
  let v333 : Index := Scalar.indexCast c2_i32_84
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v334 : Index := Scalar.indexCast v304
  ![2, v334.toNat]
def k0_off81 (k0_t3 : Fin k0_t3_loop.trips) : Fin 2 → Nat :=
  let c3_i32_86 : BitVec 32 := 3#32
  let v345 : Index := Scalar.indexCast c3_i32_86
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v346 : Index := Scalar.indexCast v304
  ![3, v346.toNat]
def k0_off82 (k0_t3 : Fin k0_t3_loop.trips) : Fin 2 → Nat :=
  let c4_i32 : BitVec 32 := 4#32
  let v357 : Index := Scalar.indexCast c4_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v358 : Index := Scalar.indexCast v304
  ![4, v358.toNat]
def k0_off83 (k0_t3 : Fin k0_t3_loop.trips) : Fin 2 → Nat :=
  let c5_i32 : BitVec 32 := 5#32
  let v369 : Index := Scalar.indexCast c5_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v370 : Index := Scalar.indexCast v304
  ![5, v370.toNat]
def k0_off84 (k0_t3 : Fin k0_t3_loop.trips) : Fin 2 → Nat :=
  let c6_i32 : BitVec 32 := 6#32
  let v381 : Index := Scalar.indexCast c6_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v382 : Index := Scalar.indexCast v304
  ![6, v382.toNat]
def k0_off85 (k0_t3 : Fin k0_t3_loop.trips) : Fin 2 → Nat :=
  let c7_i32 : BitVec 32 := 7#32
  let v393 : Index := Scalar.indexCast c7_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v394 : Index := Scalar.indexCast v304
  ![7, v394.toNat]
def k0_off86 (k0_t3 : Fin k0_t3_loop.trips) : Fin 2 → Nat :=
  let c8_i32 : BitVec 32 := 8#32
  let v405 : Index := Scalar.indexCast c8_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v406 : Index := Scalar.indexCast v304
  ![8, v406.toNat]
def k0_off87 (k0_t3 : Fin k0_t3_loop.trips) : Fin 2 → Nat :=
  let c9_i32 : BitVec 32 := 9#32
  let v417 : Index := Scalar.indexCast c9_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v418 : Index := Scalar.indexCast v304
  ![9, v418.toNat]
def k0_off88 (k0_t3 : Fin k0_t3_loop.trips) : Fin 2 → Nat :=
  let c10_i32 : BitVec 32 := 10#32
  let v429 : Index := Scalar.indexCast c10_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v430 : Index := Scalar.indexCast v304
  ![10, v430.toNat]
def k0_off89 (k0_t3 : Fin k0_t3_loop.trips) : Fin 2 → Nat :=
  let c11_i32 : BitVec 32 := 11#32
  let v441 : Index := Scalar.indexCast c11_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v442 : Index := Scalar.indexCast v304
  ![11, v442.toNat]
def k0_off90 (k0_t3 : Fin k0_t3_loop.trips) : Fin 2 → Nat :=
  let c12_i32 : BitVec 32 := 12#32
  let v453 : Index := Scalar.indexCast c12_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v454 : Index := Scalar.indexCast v304
  ![12, v454.toNat]
def k0_off91 (k0_t3 : Fin k0_t3_loop.trips) : Fin 2 → Nat :=
  let c13_i32 : BitVec 32 := 13#32
  let v465 : Index := Scalar.indexCast c13_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v466 : Index := Scalar.indexCast v304
  ![13, v466.toNat]
def k0_off92 (k0_t3 : Fin k0_t3_loop.trips) : Fin 2 → Nat :=
  let c14_i32 : BitVec 32 := 14#32
  let v477 : Index := Scalar.indexCast c14_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v478 : Index := Scalar.indexCast v304
  ![14, v478.toNat]
def k0_off93 (k0_t3 : Fin k0_t3_loop.trips) : Fin 2 → Nat :=
  let c15_i32 : BitVec 32 := 15#32
  let v489 : Index := Scalar.indexCast c15_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v490 : Index := Scalar.indexCast v304
  ![15, v490.toNat]
def k0_off94 (k0_t3 : Fin k0_t3_loop.trips) : Fin 2 → Nat :=
  let c16_i32_100 : BitVec 32 := 16#32
  let v501 : Index := Scalar.indexCast c16_i32_100
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v502 : Index := Scalar.indexCast v304
  ![16, v502.toNat]
def k0_off95 (k0_t3 : Fin k0_t3_loop.trips) : Fin 2 → Nat :=
  let c17_i32 : BitVec 32 := 17#32
  let v513 : Index := Scalar.indexCast c17_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v514 : Index := Scalar.indexCast v304
  ![17, v514.toNat]
def k0_off96 (k0_t3 : Fin k0_t3_loop.trips) : Fin 2 → Nat :=
  let c18_i32 : BitVec 32 := 18#32
  let v525 : Index := Scalar.indexCast c18_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v526 : Index := Scalar.indexCast v304
  ![18, v526.toNat]
def k0_off97 (k0_t3 : Fin k0_t3_loop.trips) : Fin 2 → Nat :=
  let c19_i32 : BitVec 32 := 19#32
  let v537 : Index := Scalar.indexCast c19_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v538 : Index := Scalar.indexCast v304
  ![19, v538.toNat]
def k0_off98 (k0_t3 : Fin k0_t3_loop.trips) : Fin 2 → Nat :=
  let c20_i32 : BitVec 32 := 20#32
  let v549 : Index := Scalar.indexCast c20_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v550 : Index := Scalar.indexCast v304
  ![20, v550.toNat]
def k0_off99 (k0_t3 : Fin k0_t3_loop.trips) : Fin 2 → Nat :=
  let c21_i32 : BitVec 32 := 21#32
  let v561 : Index := Scalar.indexCast c21_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v562 : Index := Scalar.indexCast v304
  ![21, v562.toNat]
def k0_off100 (k0_t3 : Fin k0_t3_loop.trips) : Fin 2 → Nat :=
  let c22_i32 : BitVec 32 := 22#32
  let v573 : Index := Scalar.indexCast c22_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v574 : Index := Scalar.indexCast v304
  ![22, v574.toNat]
def k0_off101 (k0_t3 : Fin k0_t3_loop.trips) : Fin 2 → Nat :=
  let c23_i32 : BitVec 32 := 23#32
  let v585 : Index := Scalar.indexCast c23_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v586 : Index := Scalar.indexCast v304
  ![23, v586.toNat]
def k0_off102 (k0_t3 : Fin k0_t3_loop.trips) : Fin 2 → Nat :=
  let c24_i32 : BitVec 32 := 24#32
  let v597 : Index := Scalar.indexCast c24_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v598 : Index := Scalar.indexCast v304
  ![24, v598.toNat]
def k0_off103 (k0_t3 : Fin k0_t3_loop.trips) : Fin 2 → Nat :=
  let c25_i32 : BitVec 32 := 25#32
  let v609 : Index := Scalar.indexCast c25_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v610 : Index := Scalar.indexCast v304
  ![25, v610.toNat]
def k0_off104 (k0_t3 : Fin k0_t3_loop.trips) : Fin 2 → Nat :=
  let c26_i32 : BitVec 32 := 26#32
  let v621 : Index := Scalar.indexCast c26_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v622 : Index := Scalar.indexCast v304
  ![26, v622.toNat]
def k0_off105 (k0_t3 : Fin k0_t3_loop.trips) : Fin 2 → Nat :=
  let c27_i32 : BitVec 32 := 27#32
  let v633 : Index := Scalar.indexCast c27_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v634 : Index := Scalar.indexCast v304
  ![27, v634.toNat]
def k0_off106 (k0_t3 : Fin k0_t3_loop.trips) : Fin 2 → Nat :=
  let c28_i32 : BitVec 32 := 28#32
  let v645 : Index := Scalar.indexCast c28_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v646 : Index := Scalar.indexCast v304
  ![28, v646.toNat]
def k0_off107 (k0_t3 : Fin k0_t3_loop.trips) : Fin 2 → Nat :=
  let c29_i32 : BitVec 32 := 29#32
  let v657 : Index := Scalar.indexCast c29_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v658 : Index := Scalar.indexCast v304
  ![29, v658.toNat]
def k0_off108 (k0_t3 : Fin k0_t3_loop.trips) : Fin 2 → Nat :=
  let c30_i32 : BitVec 32 := 30#32
  let v669 : Index := Scalar.indexCast c30_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v670 : Index := Scalar.indexCast v304
  ![30, v670.toNat]
def k0_off109 (k0_t3 : Fin k0_t3_loop.trips) : Fin 2 → Nat :=
  let c31_i32 : BitVec 32 := 31#32
  let v681 : Index := Scalar.indexCast c31_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v682 : Index := Scalar.indexCast v304
  ![31, v682.toNat]
def k0_off110 (k0_t3 : Fin k0_t3_loop.trips) : Fin 2 → Nat :=
  let c32_i32_117 : BitVec 32 := 32#32
  let v693 : Index := Scalar.indexCast c32_i32_117
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v694 : Index := Scalar.indexCast v304
  ![32, v694.toNat]
def k0_off111 (k0_t3 : Fin k0_t3_loop.trips) : Fin 2 → Nat :=
  let c33_i32 : BitVec 32 := 33#32
  let v705 : Index := Scalar.indexCast c33_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v706 : Index := Scalar.indexCast v304
  ![33, v706.toNat]
def k0_off112 (k0_t3 : Fin k0_t3_loop.trips) : Fin 2 → Nat :=
  let c34_i32 : BitVec 32 := 34#32
  let v717 : Index := Scalar.indexCast c34_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v718 : Index := Scalar.indexCast v304
  ![34, v718.toNat]
def k0_off113 (k0_t3 : Fin k0_t3_loop.trips) : Fin 2 → Nat :=
  let c35_i32 : BitVec 32 := 35#32
  let v729 : Index := Scalar.indexCast c35_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v730 : Index := Scalar.indexCast v304
  ![35, v730.toNat]
def k0_off114 (k0_t3 : Fin k0_t3_loop.trips) : Fin 2 → Nat :=
  let c36_i32 : BitVec 32 := 36#32
  let v741 : Index := Scalar.indexCast c36_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v742 : Index := Scalar.indexCast v304
  ![36, v742.toNat]
def k0_off115 (k0_t3 : Fin k0_t3_loop.trips) : Fin 2 → Nat :=
  let c37_i32 : BitVec 32 := 37#32
  let v753 : Index := Scalar.indexCast c37_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v754 : Index := Scalar.indexCast v304
  ![37, v754.toNat]
def k0_off116 (k0_t3 : Fin k0_t3_loop.trips) : Fin 2 → Nat :=
  let c38_i32 : BitVec 32 := 38#32
  let v765 : Index := Scalar.indexCast c38_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v766 : Index := Scalar.indexCast v304
  ![38, v766.toNat]
def k0_off117 (k0_t3 : Fin k0_t3_loop.trips) : Fin 2 → Nat :=
  let c39_i32 : BitVec 32 := 39#32
  let v777 : Index := Scalar.indexCast c39_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v778 : Index := Scalar.indexCast v304
  ![39, v778.toNat]
def k0_off118 (k0_t3 : Fin k0_t3_loop.trips) : Fin 2 → Nat :=
  let c40_i32 : BitVec 32 := 40#32
  let v789 : Index := Scalar.indexCast c40_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v790 : Index := Scalar.indexCast v304
  ![40, v790.toNat]
def k0_off119 (k0_t3 : Fin k0_t3_loop.trips) : Fin 2 → Nat :=
  let c41_i32 : BitVec 32 := 41#32
  let v801 : Index := Scalar.indexCast c41_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v802 : Index := Scalar.indexCast v304
  ![41, v802.toNat]
def k0_off120 (k0_t3 : Fin k0_t3_loop.trips) : Fin 2 → Nat :=
  let c42_i32 : BitVec 32 := 42#32
  let v813 : Index := Scalar.indexCast c42_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v814 : Index := Scalar.indexCast v304
  ![42, v814.toNat]
def k0_off121 (k0_t3 : Fin k0_t3_loop.trips) : Fin 2 → Nat :=
  let c43_i32 : BitVec 32 := 43#32
  let v825 : Index := Scalar.indexCast c43_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v826 : Index := Scalar.indexCast v304
  ![43, v826.toNat]
def k0_off122 (k0_t3 : Fin k0_t3_loop.trips) : Fin 2 → Nat :=
  let c44_i32 : BitVec 32 := 44#32
  let v837 : Index := Scalar.indexCast c44_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v838 : Index := Scalar.indexCast v304
  ![44, v838.toNat]
def k0_off123 (k0_t3 : Fin k0_t3_loop.trips) : Fin 2 → Nat :=
  let c45_i32 : BitVec 32 := 45#32
  let v849 : Index := Scalar.indexCast c45_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v850 : Index := Scalar.indexCast v304
  ![45, v850.toNat]
def k0_off124 (k0_t3 : Fin k0_t3_loop.trips) : Fin 2 → Nat :=
  let c46_i32 : BitVec 32 := 46#32
  let v861 : Index := Scalar.indexCast c46_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v862 : Index := Scalar.indexCast v304
  ![46, v862.toNat]
def k0_off125 (k0_t3 : Fin k0_t3_loop.trips) : Fin 2 → Nat :=
  let c47_i32 : BitVec 32 := 47#32
  let v873 : Index := Scalar.indexCast c47_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v874 : Index := Scalar.indexCast v304
  ![47, v874.toNat]
def k0_off126 (k0_t3 : Fin k0_t3_loop.trips) : Fin 2 → Nat :=
  let c48_i32 : BitVec 32 := 48#32
  let v885 : Index := Scalar.indexCast c48_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v886 : Index := Scalar.indexCast v304
  ![48, v886.toNat]
def k0_off127 (k0_t3 : Fin k0_t3_loop.trips) : Fin 2 → Nat :=
  let c49_i32 : BitVec 32 := 49#32
  let v897 : Index := Scalar.indexCast c49_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v898 : Index := Scalar.indexCast v304
  ![49, v898.toNat]
def k0_off128 (k0_t3 : Fin k0_t3_loop.trips) : Fin 2 → Nat :=
  let c50_i32 : BitVec 32 := 50#32
  let v909 : Index := Scalar.indexCast c50_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v910 : Index := Scalar.indexCast v304
  ![50, v910.toNat]
def k0_off129 (k0_t3 : Fin k0_t3_loop.trips) : Fin 2 → Nat :=
  let c51_i32 : BitVec 32 := 51#32
  let v921 : Index := Scalar.indexCast c51_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v922 : Index := Scalar.indexCast v304
  ![51, v922.toNat]
def k0_off130 (k0_t3 : Fin k0_t3_loop.trips) : Fin 2 → Nat :=
  let c52_i32 : BitVec 32 := 52#32
  let v933 : Index := Scalar.indexCast c52_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v934 : Index := Scalar.indexCast v304
  ![52, v934.toNat]
def k0_off131 (k0_t3 : Fin k0_t3_loop.trips) : Fin 2 → Nat :=
  let c53_i32 : BitVec 32 := 53#32
  let v945 : Index := Scalar.indexCast c53_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v946 : Index := Scalar.indexCast v304
  ![53, v946.toNat]
def k0_off132 (k0_t3 : Fin k0_t3_loop.trips) : Fin 2 → Nat :=
  let c54_i32 : BitVec 32 := 54#32
  let v957 : Index := Scalar.indexCast c54_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v958 : Index := Scalar.indexCast v304
  ![54, v958.toNat]
def k0_off133 (k0_t3 : Fin k0_t3_loop.trips) : Fin 2 → Nat :=
  let c55_i32 : BitVec 32 := 55#32
  let v969 : Index := Scalar.indexCast c55_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v970 : Index := Scalar.indexCast v304
  ![55, v970.toNat]
def k0_off134 (k0_t3 : Fin k0_t3_loop.trips) : Fin 2 → Nat :=
  let c56_i32 : BitVec 32 := 56#32
  let v981 : Index := Scalar.indexCast c56_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v982 : Index := Scalar.indexCast v304
  ![56, v982.toNat]
def k0_off135 (k0_t3 : Fin k0_t3_loop.trips) : Fin 2 → Nat :=
  let c57_i32 : BitVec 32 := 57#32
  let v993 : Index := Scalar.indexCast c57_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v994 : Index := Scalar.indexCast v304
  ![57, v994.toNat]
def k0_off136 (k0_t3 : Fin k0_t3_loop.trips) : Fin 2 → Nat :=
  let c58_i32 : BitVec 32 := 58#32
  let v1005 : Index := Scalar.indexCast c58_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v1006 : Index := Scalar.indexCast v304
  ![58, v1006.toNat]
def k0_off137 (k0_t3 : Fin k0_t3_loop.trips) : Fin 2 → Nat :=
  let c59_i32 : BitVec 32 := 59#32
  let v1017 : Index := Scalar.indexCast c59_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v1018 : Index := Scalar.indexCast v304
  ![59, v1018.toNat]
def k0_off138 (k0_t3 : Fin k0_t3_loop.trips) : Fin 2 → Nat :=
  let c60_i32 : BitVec 32 := 60#32
  let v1029 : Index := Scalar.indexCast c60_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v1030 : Index := Scalar.indexCast v304
  ![60, v1030.toNat]
def k0_off139 (k0_t3 : Fin k0_t3_loop.trips) : Fin 2 → Nat :=
  let c61_i32 : BitVec 32 := 61#32
  let v1041 : Index := Scalar.indexCast c61_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v1042 : Index := Scalar.indexCast v304
  ![61, v1042.toNat]
def k0_off140 (k0_t3 : Fin k0_t3_loop.trips) : Fin 2 → Nat :=
  let c62_i32 : BitVec 32 := 62#32
  let v1053 : Index := Scalar.indexCast c62_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v1054 : Index := Scalar.indexCast v304
  ![62, v1054.toNat]
def k0_off141 (k0_t3 : Fin k0_t3_loop.trips) : Fin 2 → Nat :=
  let c63_i32 : BitVec 32 := 63#32
  let v1065 : Index := Scalar.indexCast c63_i32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v1066 : Index := Scalar.indexCast v304
  ![63, v1066.toNat]
def k0_off142 (k0_t3 : Fin k0_t3_loop.trips) : Fin 1 → Nat :=
  let c512_i32_150 : BitVec 32 := 512#32
  let c0_i32_62 : BitVec 32 := 0#32
  let c1_i32_64 : BitVec 32 := 1#32
  let arg22 : BitVec 32 := Scf.iv c0_i32_62 c1_i32_64 k0_t3
  let c16_i32_75 : BitVec 32 := 16#32
  let v303 : BitVec 32 := Scalar.muli arg22 c16_i32_75
  let v304 : BitVec 32 := v303
  let v1081 : BitVec 32 := Scalar.addi c512_i32_150 v304
  let v1082 : Index := Scalar.indexCast v1081
  ![v1082.toNat]
def k0_cond6 (k0_t1 : Fin k0_t1_loop.trips) : BitVec 1 :=
  let c0_i32_6 : BitVec 32 := 0#32
  let c1_i32 : BitVec 32 := 1#32
  let arg20 : BitVec 32 := Scf.iv c0_i32_6 c1_i32 k0_t1
  let c1_i32_70 : BitVec 32 := 1#32
  let v295 : BitVec 32 := Scalar.addi arg20 c1_i32_70
  let c16_i32_71 : BitVec 32 := 16#32
  let v296 : BitVec 1 := Scalar.cmpi .slt v295 c16_i32_71
  let v297 : BitVec 32 := Scalar.extui v296
  let c0_i32_72 : BitVec 32 := 0#32
  let v298 : BitVec 1 := Scalar.cmpi .ne v297 c0_i32_72
  v298

def k0_off143 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v61 : BitVec 32 := Scalar.addi v3 arg20
  let c0_i32_75 : BitVec 32 := 0#32
  let c0_i32_76 : BitVec 32 := 0#32
  ![v61.toNat, 0, 0]
def k0_off144 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v61 : BitVec 32 := Scalar.addi v3 arg20
  let c1_i32_79 : BitVec 32 := 1#32
  let v307 : BitVec 32 := Scalar.addi v61 c1_i32_79
  let c0_i32_80 : BitVec 32 := 0#32
  let c512_i32_81 : BitVec 32 := 512#32
  ![v307.toNat, 0, 512]
def k0_off145 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v61 : BitVec 32 := Scalar.addi v3 arg20
  let c0_i32_73 : BitVec 32 := 0#32
  ![v61.toNat, 0]
def k0_off146 (k0_t1 : Fin k0_t1_loop.trips) : Fin 2 → Nat :=
  let c0_i32_6 : BitVec 32 := 0#32
  let c1_i32 : BitVec 32 := 1#32
  let arg20 : BitVec 32 := Scf.iv c0_i32_6 c1_i32 k0_t1
  let v62 : Index := Scalar.indexCast arg20
  let c0_37 : Index := 0#32
  ![v62.toNat, 0]
def k0_off147 (k0_t1 : Fin k0_t1_loop.trips) : Fin 2 → Nat :=
  let c0_i32_6 : BitVec 32 := 0#32
  let c1_i32 : BitVec 32 := 1#32
  let arg20 : BitVec 32 := Scf.iv c0_i32_6 c1_i32 k0_t1
  let v65 : Index := Scalar.indexCast arg20
  let c16 : Index := 16#32
  ![v65.toNat, 16]
def k0_off148 (k0_t1 : Fin k0_t1_loop.trips) : Fin 2 → Nat :=
  let c0_i32_6 : BitVec 32 := 0#32
  let c1_i32 : BitVec 32 := 1#32
  let arg20 : BitVec 32 := Scf.iv c0_i32_6 c1_i32 k0_t1
  let v68 : Index := Scalar.indexCast arg20
  let c32 : Index := 32#32
  ![v68.toNat, 32]
def k0_off149 (k0_t1 : Fin k0_t1_loop.trips) : Fin 2 → Nat :=
  let c0_i32_6 : BitVec 32 := 0#32
  let c1_i32 : BitVec 32 := 1#32
  let arg20 : BitVec 32 := Scf.iv c0_i32_6 c1_i32 k0_t1
  let v71 : Index := Scalar.indexCast arg20
  let c48 : Index := 48#32
  ![v71.toNat, 48]
def k0_cond7 (k0_t1 : Fin k0_t1_loop.trips) : BitVec 1 :=
  let c0_i32_6 : BitVec 32 := 0#32
  let c1_i32 : BitVec 32 := 1#32
  let arg20 : BitVec 32 := Scf.iv c0_i32_6 c1_i32 k0_t1
  let c0_i32_40 : BitVec 32 := 0#32
  let v270 : BitVec 1 := Scalar.cmpi .sgt arg20 c0_i32_40
  let v271 : BitVec 32 := Scalar.extui v270
  let c0_i32_41 : BitVec 32 := 0#32
  let v272 : BitVec 1 := Scalar.cmpi .ne v271 c0_i32_41
  v272

def k0_off150 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v61 : BitVec 32 := Scalar.addi v3 arg20
  let c1_i32_75 : BitVec 32 := 1#32
  let v303 : BitVec 32 := Scalar.subi v61 c1_i32_75
  let c0_i32_76 : BitVec 32 := 0#32
  ![v303.toNat, 0]
def k0_off151 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v61 : BitVec 32 := Scalar.addi v3 arg20
  let c0_i32_42 : BitVec 32 := 0#32
  let c0_i32_43 : BitVec 32 := 0#32
  ![v61.toNat, 0, 0]
@[reducible] def k0_t4_loop : Scf.Loop 32 :=
  let c0_i32_47 : BitVec 32 := 0#32
  let c32_i32 : BitVec 32 := 32#32
  let v277 : BitVec 32 := Scalar.addi c0_i32_47 c32_i32
  let c1_i32_48 : BitVec 32 := 1#32
  ⟨c0_i32_47, v277, c1_i32_48⟩
def k0_mult3 (k0_t4 : Fin k0_t4_loop.trips) : BitVec 32 :=
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  v303
def k0_off152 (k0_t4 : Fin k0_t4_loop.trips) : Fin 2 → Nat :=
  let c0_i32_80 : BitVec 32 := 0#32
  let v309 : Index := Scalar.indexCast c0_i32_80
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v310 : Index := Scalar.indexCast v304
  ![0, v310.toNat]
def k0_off153 (k0_t4 : Fin k0_t4_loop.trips) : Fin 2 → Nat :=
  let c1_i32_82 : BitVec 32 := 1#32
  let v321 : Index := Scalar.indexCast c1_i32_82
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v322 : Index := Scalar.indexCast v304
  ![1, v322.toNat]
def k0_off154 (k0_t4 : Fin k0_t4_loop.trips) : Fin 2 → Nat :=
  let c2_i32_84 : BitVec 32 := 2#32
  let v333 : Index := Scalar.indexCast c2_i32_84
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v334 : Index := Scalar.indexCast v304
  ![2, v334.toNat]
def k0_off155 (k0_t4 : Fin k0_t4_loop.trips) : Fin 2 → Nat :=
  let c3_i32_86 : BitVec 32 := 3#32
  let v345 : Index := Scalar.indexCast c3_i32_86
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v346 : Index := Scalar.indexCast v304
  ![3, v346.toNat]
def k0_off156 (k0_t4 : Fin k0_t4_loop.trips) : Fin 2 → Nat :=
  let c4_i32 : BitVec 32 := 4#32
  let v357 : Index := Scalar.indexCast c4_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v358 : Index := Scalar.indexCast v304
  ![4, v358.toNat]
def k0_off157 (k0_t4 : Fin k0_t4_loop.trips) : Fin 2 → Nat :=
  let c5_i32 : BitVec 32 := 5#32
  let v369 : Index := Scalar.indexCast c5_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v370 : Index := Scalar.indexCast v304
  ![5, v370.toNat]
def k0_off158 (k0_t4 : Fin k0_t4_loop.trips) : Fin 2 → Nat :=
  let c6_i32 : BitVec 32 := 6#32
  let v381 : Index := Scalar.indexCast c6_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v382 : Index := Scalar.indexCast v304
  ![6, v382.toNat]
def k0_off159 (k0_t4 : Fin k0_t4_loop.trips) : Fin 2 → Nat :=
  let c7_i32 : BitVec 32 := 7#32
  let v393 : Index := Scalar.indexCast c7_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v394 : Index := Scalar.indexCast v304
  ![7, v394.toNat]
def k0_off160 (k0_t4 : Fin k0_t4_loop.trips) : Fin 2 → Nat :=
  let c8_i32 : BitVec 32 := 8#32
  let v405 : Index := Scalar.indexCast c8_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v406 : Index := Scalar.indexCast v304
  ![8, v406.toNat]
def k0_off161 (k0_t4 : Fin k0_t4_loop.trips) : Fin 2 → Nat :=
  let c9_i32 : BitVec 32 := 9#32
  let v417 : Index := Scalar.indexCast c9_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v418 : Index := Scalar.indexCast v304
  ![9, v418.toNat]
def k0_off162 (k0_t4 : Fin k0_t4_loop.trips) : Fin 2 → Nat :=
  let c10_i32 : BitVec 32 := 10#32
  let v429 : Index := Scalar.indexCast c10_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v430 : Index := Scalar.indexCast v304
  ![10, v430.toNat]
def k0_off163 (k0_t4 : Fin k0_t4_loop.trips) : Fin 2 → Nat :=
  let c11_i32 : BitVec 32 := 11#32
  let v441 : Index := Scalar.indexCast c11_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v442 : Index := Scalar.indexCast v304
  ![11, v442.toNat]
def k0_off164 (k0_t4 : Fin k0_t4_loop.trips) : Fin 2 → Nat :=
  let c12_i32 : BitVec 32 := 12#32
  let v453 : Index := Scalar.indexCast c12_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v454 : Index := Scalar.indexCast v304
  ![12, v454.toNat]
def k0_off165 (k0_t4 : Fin k0_t4_loop.trips) : Fin 2 → Nat :=
  let c13_i32 : BitVec 32 := 13#32
  let v465 : Index := Scalar.indexCast c13_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v466 : Index := Scalar.indexCast v304
  ![13, v466.toNat]
def k0_off166 (k0_t4 : Fin k0_t4_loop.trips) : Fin 2 → Nat :=
  let c14_i32 : BitVec 32 := 14#32
  let v477 : Index := Scalar.indexCast c14_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v478 : Index := Scalar.indexCast v304
  ![14, v478.toNat]
def k0_off167 (k0_t4 : Fin k0_t4_loop.trips) : Fin 2 → Nat :=
  let c15_i32 : BitVec 32 := 15#32
  let v489 : Index := Scalar.indexCast c15_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v490 : Index := Scalar.indexCast v304
  ![15, v490.toNat]
def k0_off168 (k0_t4 : Fin k0_t4_loop.trips) : Fin 2 → Nat :=
  let c16_i32_100 : BitVec 32 := 16#32
  let v501 : Index := Scalar.indexCast c16_i32_100
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v502 : Index := Scalar.indexCast v304
  ![16, v502.toNat]
def k0_off169 (k0_t4 : Fin k0_t4_loop.trips) : Fin 2 → Nat :=
  let c17_i32 : BitVec 32 := 17#32
  let v513 : Index := Scalar.indexCast c17_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v514 : Index := Scalar.indexCast v304
  ![17, v514.toNat]
def k0_off170 (k0_t4 : Fin k0_t4_loop.trips) : Fin 2 → Nat :=
  let c18_i32 : BitVec 32 := 18#32
  let v525 : Index := Scalar.indexCast c18_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v526 : Index := Scalar.indexCast v304
  ![18, v526.toNat]
def k0_off171 (k0_t4 : Fin k0_t4_loop.trips) : Fin 2 → Nat :=
  let c19_i32 : BitVec 32 := 19#32
  let v537 : Index := Scalar.indexCast c19_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v538 : Index := Scalar.indexCast v304
  ![19, v538.toNat]
def k0_off172 (k0_t4 : Fin k0_t4_loop.trips) : Fin 2 → Nat :=
  let c20_i32 : BitVec 32 := 20#32
  let v549 : Index := Scalar.indexCast c20_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v550 : Index := Scalar.indexCast v304
  ![20, v550.toNat]
def k0_off173 (k0_t4 : Fin k0_t4_loop.trips) : Fin 2 → Nat :=
  let c21_i32 : BitVec 32 := 21#32
  let v561 : Index := Scalar.indexCast c21_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v562 : Index := Scalar.indexCast v304
  ![21, v562.toNat]
def k0_off174 (k0_t4 : Fin k0_t4_loop.trips) : Fin 2 → Nat :=
  let c22_i32 : BitVec 32 := 22#32
  let v573 : Index := Scalar.indexCast c22_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v574 : Index := Scalar.indexCast v304
  ![22, v574.toNat]
def k0_off175 (k0_t4 : Fin k0_t4_loop.trips) : Fin 2 → Nat :=
  let c23_i32 : BitVec 32 := 23#32
  let v585 : Index := Scalar.indexCast c23_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v586 : Index := Scalar.indexCast v304
  ![23, v586.toNat]
def k0_off176 (k0_t4 : Fin k0_t4_loop.trips) : Fin 2 → Nat :=
  let c24_i32 : BitVec 32 := 24#32
  let v597 : Index := Scalar.indexCast c24_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v598 : Index := Scalar.indexCast v304
  ![24, v598.toNat]
def k0_off177 (k0_t4 : Fin k0_t4_loop.trips) : Fin 2 → Nat :=
  let c25_i32 : BitVec 32 := 25#32
  let v609 : Index := Scalar.indexCast c25_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v610 : Index := Scalar.indexCast v304
  ![25, v610.toNat]
def k0_off178 (k0_t4 : Fin k0_t4_loop.trips) : Fin 2 → Nat :=
  let c26_i32 : BitVec 32 := 26#32
  let v621 : Index := Scalar.indexCast c26_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v622 : Index := Scalar.indexCast v304
  ![26, v622.toNat]
def k0_off179 (k0_t4 : Fin k0_t4_loop.trips) : Fin 2 → Nat :=
  let c27_i32 : BitVec 32 := 27#32
  let v633 : Index := Scalar.indexCast c27_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v634 : Index := Scalar.indexCast v304
  ![27, v634.toNat]
def k0_off180 (k0_t4 : Fin k0_t4_loop.trips) : Fin 2 → Nat :=
  let c28_i32 : BitVec 32 := 28#32
  let v645 : Index := Scalar.indexCast c28_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v646 : Index := Scalar.indexCast v304
  ![28, v646.toNat]
def k0_off181 (k0_t4 : Fin k0_t4_loop.trips) : Fin 2 → Nat :=
  let c29_i32 : BitVec 32 := 29#32
  let v657 : Index := Scalar.indexCast c29_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v658 : Index := Scalar.indexCast v304
  ![29, v658.toNat]
def k0_off182 (k0_t4 : Fin k0_t4_loop.trips) : Fin 2 → Nat :=
  let c30_i32 : BitVec 32 := 30#32
  let v669 : Index := Scalar.indexCast c30_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v670 : Index := Scalar.indexCast v304
  ![30, v670.toNat]
def k0_off183 (k0_t4 : Fin k0_t4_loop.trips) : Fin 2 → Nat :=
  let c31_i32 : BitVec 32 := 31#32
  let v681 : Index := Scalar.indexCast c31_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v682 : Index := Scalar.indexCast v304
  ![31, v682.toNat]
def k0_off184 (k0_t4 : Fin k0_t4_loop.trips) : Fin 2 → Nat :=
  let c32_i32_117 : BitVec 32 := 32#32
  let v693 : Index := Scalar.indexCast c32_i32_117
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v694 : Index := Scalar.indexCast v304
  ![32, v694.toNat]
def k0_off185 (k0_t4 : Fin k0_t4_loop.trips) : Fin 2 → Nat :=
  let c33_i32 : BitVec 32 := 33#32
  let v705 : Index := Scalar.indexCast c33_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v706 : Index := Scalar.indexCast v304
  ![33, v706.toNat]
def k0_off186 (k0_t4 : Fin k0_t4_loop.trips) : Fin 2 → Nat :=
  let c34_i32 : BitVec 32 := 34#32
  let v717 : Index := Scalar.indexCast c34_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v718 : Index := Scalar.indexCast v304
  ![34, v718.toNat]
def k0_off187 (k0_t4 : Fin k0_t4_loop.trips) : Fin 2 → Nat :=
  let c35_i32 : BitVec 32 := 35#32
  let v729 : Index := Scalar.indexCast c35_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v730 : Index := Scalar.indexCast v304
  ![35, v730.toNat]
def k0_off188 (k0_t4 : Fin k0_t4_loop.trips) : Fin 2 → Nat :=
  let c36_i32 : BitVec 32 := 36#32
  let v741 : Index := Scalar.indexCast c36_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v742 : Index := Scalar.indexCast v304
  ![36, v742.toNat]
def k0_off189 (k0_t4 : Fin k0_t4_loop.trips) : Fin 2 → Nat :=
  let c37_i32 : BitVec 32 := 37#32
  let v753 : Index := Scalar.indexCast c37_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v754 : Index := Scalar.indexCast v304
  ![37, v754.toNat]
def k0_off190 (k0_t4 : Fin k0_t4_loop.trips) : Fin 2 → Nat :=
  let c38_i32 : BitVec 32 := 38#32
  let v765 : Index := Scalar.indexCast c38_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v766 : Index := Scalar.indexCast v304
  ![38, v766.toNat]
def k0_off191 (k0_t4 : Fin k0_t4_loop.trips) : Fin 2 → Nat :=
  let c39_i32 : BitVec 32 := 39#32
  let v777 : Index := Scalar.indexCast c39_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v778 : Index := Scalar.indexCast v304
  ![39, v778.toNat]
def k0_off192 (k0_t4 : Fin k0_t4_loop.trips) : Fin 2 → Nat :=
  let c40_i32 : BitVec 32 := 40#32
  let v789 : Index := Scalar.indexCast c40_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v790 : Index := Scalar.indexCast v304
  ![40, v790.toNat]
def k0_off193 (k0_t4 : Fin k0_t4_loop.trips) : Fin 2 → Nat :=
  let c41_i32 : BitVec 32 := 41#32
  let v801 : Index := Scalar.indexCast c41_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v802 : Index := Scalar.indexCast v304
  ![41, v802.toNat]
def k0_off194 (k0_t4 : Fin k0_t4_loop.trips) : Fin 2 → Nat :=
  let c42_i32 : BitVec 32 := 42#32
  let v813 : Index := Scalar.indexCast c42_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v814 : Index := Scalar.indexCast v304
  ![42, v814.toNat]
def k0_off195 (k0_t4 : Fin k0_t4_loop.trips) : Fin 2 → Nat :=
  let c43_i32 : BitVec 32 := 43#32
  let v825 : Index := Scalar.indexCast c43_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v826 : Index := Scalar.indexCast v304
  ![43, v826.toNat]
def k0_off196 (k0_t4 : Fin k0_t4_loop.trips) : Fin 2 → Nat :=
  let c44_i32 : BitVec 32 := 44#32
  let v837 : Index := Scalar.indexCast c44_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v838 : Index := Scalar.indexCast v304
  ![44, v838.toNat]
def k0_off197 (k0_t4 : Fin k0_t4_loop.trips) : Fin 2 → Nat :=
  let c45_i32 : BitVec 32 := 45#32
  let v849 : Index := Scalar.indexCast c45_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v850 : Index := Scalar.indexCast v304
  ![45, v850.toNat]
def k0_off198 (k0_t4 : Fin k0_t4_loop.trips) : Fin 2 → Nat :=
  let c46_i32 : BitVec 32 := 46#32
  let v861 : Index := Scalar.indexCast c46_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v862 : Index := Scalar.indexCast v304
  ![46, v862.toNat]
def k0_off199 (k0_t4 : Fin k0_t4_loop.trips) : Fin 2 → Nat :=
  let c47_i32 : BitVec 32 := 47#32
  let v873 : Index := Scalar.indexCast c47_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v874 : Index := Scalar.indexCast v304
  ![47, v874.toNat]
def k0_off200 (k0_t4 : Fin k0_t4_loop.trips) : Fin 2 → Nat :=
  let c48_i32 : BitVec 32 := 48#32
  let v885 : Index := Scalar.indexCast c48_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v886 : Index := Scalar.indexCast v304
  ![48, v886.toNat]
def k0_off201 (k0_t4 : Fin k0_t4_loop.trips) : Fin 2 → Nat :=
  let c49_i32 : BitVec 32 := 49#32
  let v897 : Index := Scalar.indexCast c49_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v898 : Index := Scalar.indexCast v304
  ![49, v898.toNat]
def k0_off202 (k0_t4 : Fin k0_t4_loop.trips) : Fin 2 → Nat :=
  let c50_i32 : BitVec 32 := 50#32
  let v909 : Index := Scalar.indexCast c50_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v910 : Index := Scalar.indexCast v304
  ![50, v910.toNat]
def k0_off203 (k0_t4 : Fin k0_t4_loop.trips) : Fin 2 → Nat :=
  let c51_i32 : BitVec 32 := 51#32
  let v921 : Index := Scalar.indexCast c51_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v922 : Index := Scalar.indexCast v304
  ![51, v922.toNat]
def k0_off204 (k0_t4 : Fin k0_t4_loop.trips) : Fin 2 → Nat :=
  let c52_i32 : BitVec 32 := 52#32
  let v933 : Index := Scalar.indexCast c52_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v934 : Index := Scalar.indexCast v304
  ![52, v934.toNat]
def k0_off205 (k0_t4 : Fin k0_t4_loop.trips) : Fin 2 → Nat :=
  let c53_i32 : BitVec 32 := 53#32
  let v945 : Index := Scalar.indexCast c53_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v946 : Index := Scalar.indexCast v304
  ![53, v946.toNat]
def k0_off206 (k0_t4 : Fin k0_t4_loop.trips) : Fin 2 → Nat :=
  let c54_i32 : BitVec 32 := 54#32
  let v957 : Index := Scalar.indexCast c54_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v958 : Index := Scalar.indexCast v304
  ![54, v958.toNat]
def k0_off207 (k0_t4 : Fin k0_t4_loop.trips) : Fin 2 → Nat :=
  let c55_i32 : BitVec 32 := 55#32
  let v969 : Index := Scalar.indexCast c55_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v970 : Index := Scalar.indexCast v304
  ![55, v970.toNat]
def k0_off208 (k0_t4 : Fin k0_t4_loop.trips) : Fin 2 → Nat :=
  let c56_i32 : BitVec 32 := 56#32
  let v981 : Index := Scalar.indexCast c56_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v982 : Index := Scalar.indexCast v304
  ![56, v982.toNat]
def k0_off209 (k0_t4 : Fin k0_t4_loop.trips) : Fin 2 → Nat :=
  let c57_i32 : BitVec 32 := 57#32
  let v993 : Index := Scalar.indexCast c57_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v994 : Index := Scalar.indexCast v304
  ![57, v994.toNat]
def k0_off210 (k0_t4 : Fin k0_t4_loop.trips) : Fin 2 → Nat :=
  let c58_i32 : BitVec 32 := 58#32
  let v1005 : Index := Scalar.indexCast c58_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v1006 : Index := Scalar.indexCast v304
  ![58, v1006.toNat]
def k0_off211 (k0_t4 : Fin k0_t4_loop.trips) : Fin 2 → Nat :=
  let c59_i32 : BitVec 32 := 59#32
  let v1017 : Index := Scalar.indexCast c59_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v1018 : Index := Scalar.indexCast v304
  ![59, v1018.toNat]
def k0_off212 (k0_t4 : Fin k0_t4_loop.trips) : Fin 2 → Nat :=
  let c60_i32 : BitVec 32 := 60#32
  let v1029 : Index := Scalar.indexCast c60_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v1030 : Index := Scalar.indexCast v304
  ![60, v1030.toNat]
def k0_off213 (k0_t4 : Fin k0_t4_loop.trips) : Fin 2 → Nat :=
  let c61_i32 : BitVec 32 := 61#32
  let v1041 : Index := Scalar.indexCast c61_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v1042 : Index := Scalar.indexCast v304
  ![61, v1042.toNat]
def k0_off214 (k0_t4 : Fin k0_t4_loop.trips) : Fin 2 → Nat :=
  let c62_i32 : BitVec 32 := 62#32
  let v1053 : Index := Scalar.indexCast c62_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v1054 : Index := Scalar.indexCast v304
  ![62, v1054.toNat]
def k0_off215 (k0_t4 : Fin k0_t4_loop.trips) : Fin 2 → Nat :=
  let c63_i32 : BitVec 32 := 63#32
  let v1065 : Index := Scalar.indexCast c63_i32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v1066 : Index := Scalar.indexCast v304
  ![63, v1066.toNat]
def k0_off216 (k0_t4 : Fin k0_t4_loop.trips) : Fin 1 → Nat :=
  let c0_i32_150 : BitVec 32 := 0#32
  let c0_i32_47 : BitVec 32 := 0#32
  let c1_i32_48 : BitVec 32 := 1#32
  let arg22 : BitVec 32 := Scf.iv c0_i32_47 c1_i32_48 k0_t4
  let c16_i32_75 : BitVec 32 := 16#32
  let v303 : BitVec 32 := Scalar.muli arg22 c16_i32_75
  let v304 : BitVec 32 := v303
  let v1081 : BitVec 32 := Scalar.addi c0_i32_150 v304
  let v1082 : Index := Scalar.indexCast v1081
  ![v1082.toNat]
def k0_cond8 (k0_t1 : Fin k0_t1_loop.trips) : BitVec 1 :=
  let c0_i32_6 : BitVec 32 := 0#32
  let c1_i32 : BitVec 32 := 1#32
  let arg20 : BitVec 32 := Scf.iv c0_i32_6 c1_i32 k0_t1
  let c1_i32_54 : BitVec 32 := 1#32
  let v282 : BitVec 32 := Scalar.addi arg20 c1_i32_54
  let c16_i32_55 : BitVec 32 := 16#32
  let v283 : BitVec 1 := Scalar.cmpi .slt v282 c16_i32_55
  let v284 : BitVec 32 := Scalar.extui v283
  let c0_i32_56 : BitVec 32 := 0#32
  let v285 : BitVec 1 := Scalar.cmpi .ne v284 c0_i32_56
  v285

def k0_cond9 (k0_t1 : Fin k0_t1_loop.trips) : BitVec 1 :=
  let c0_i32_6 : BitVec 32 := 0#32
  let c1_i32 : BitVec 32 := 1#32
  let arg20 : BitVec 32 := Scf.iv c0_i32_6 c1_i32 k0_t1
  let c0_i32_75 : BitVec 32 := 0#32
  let v303 : BitVec 1 := Scalar.cmpi .sgt arg20 c0_i32_75
  let v304 : BitVec 32 := Scalar.extui v303
  let c0_i32_76 : BitVec 32 := 0#32
  let v305 : BitVec 1 := Scalar.cmpi .ne v304 c0_i32_76
  v305

def k0_off217 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v61 : BitVec 32 := Scalar.addi v3 arg20
  let c1_i32_82 : BitVec 32 := 1#32
  let v311 : BitVec 32 := Scalar.subi v61 c1_i32_82
  let c0_i32_83 : BitVec 32 := 0#32
  let c512_i32_84 : BitVec 32 := 512#32
  ![v311.toNat, 0, 512]
def k0_off218 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v61 : BitVec 32 := Scalar.addi v3 arg20
  let c1_i32_77 : BitVec 32 := 1#32
  let v306 : BitVec 32 := Scalar.addi v61 c1_i32_77
  let c0_i32_78 : BitVec 32 := 0#32
  let c0_i32_79 : BitVec 32 := 0#32
  ![v306.toNat, 0, 0]
def k0_off219 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v61 : BitVec 32 := Scalar.addi v3 arg20
  let c0_i32_57 : BitVec 32 := 0#32
  let c512_i32_58 : BitVec 32 := 512#32
  ![v61.toNat, 0, 512]
@[reducible] def k0_t5_loop : Scf.Loop 32 :=
  let c0_i32_62 : BitVec 32 := 0#32
  let c32_i32_63 : BitVec 32 := 32#32
  let v290 : BitVec 32 := Scalar.addi c0_i32_62 c32_i32_63
  let c1_i32_64 : BitVec 32 := 1#32
  ⟨c0_i32_62, v290, c1_i32_64⟩
def k0_mult4 (k0_t5 : Fin k0_t5_loop.trips) : BitVec 32 :=
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  v303
def k0_off220 (k0_t5 : Fin k0_t5_loop.trips) : Fin 2 → Nat :=
  let c0_i32_80 : BitVec 32 := 0#32
  let v309 : Index := Scalar.indexCast c0_i32_80
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v310 : Index := Scalar.indexCast v304
  ![0, v310.toNat]
def k0_off221 (k0_t5 : Fin k0_t5_loop.trips) : Fin 2 → Nat :=
  let c1_i32_82 : BitVec 32 := 1#32
  let v321 : Index := Scalar.indexCast c1_i32_82
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v322 : Index := Scalar.indexCast v304
  ![1, v322.toNat]
def k0_off222 (k0_t5 : Fin k0_t5_loop.trips) : Fin 2 → Nat :=
  let c2_i32_84 : BitVec 32 := 2#32
  let v333 : Index := Scalar.indexCast c2_i32_84
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v334 : Index := Scalar.indexCast v304
  ![2, v334.toNat]
def k0_off223 (k0_t5 : Fin k0_t5_loop.trips) : Fin 2 → Nat :=
  let c3_i32_86 : BitVec 32 := 3#32
  let v345 : Index := Scalar.indexCast c3_i32_86
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v346 : Index := Scalar.indexCast v304
  ![3, v346.toNat]
def k0_off224 (k0_t5 : Fin k0_t5_loop.trips) : Fin 2 → Nat :=
  let c4_i32 : BitVec 32 := 4#32
  let v357 : Index := Scalar.indexCast c4_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v358 : Index := Scalar.indexCast v304
  ![4, v358.toNat]
def k0_off225 (k0_t5 : Fin k0_t5_loop.trips) : Fin 2 → Nat :=
  let c5_i32 : BitVec 32 := 5#32
  let v369 : Index := Scalar.indexCast c5_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v370 : Index := Scalar.indexCast v304
  ![5, v370.toNat]
def k0_off226 (k0_t5 : Fin k0_t5_loop.trips) : Fin 2 → Nat :=
  let c6_i32 : BitVec 32 := 6#32
  let v381 : Index := Scalar.indexCast c6_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v382 : Index := Scalar.indexCast v304
  ![6, v382.toNat]
def k0_off227 (k0_t5 : Fin k0_t5_loop.trips) : Fin 2 → Nat :=
  let c7_i32 : BitVec 32 := 7#32
  let v393 : Index := Scalar.indexCast c7_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v394 : Index := Scalar.indexCast v304
  ![7, v394.toNat]
def k0_off228 (k0_t5 : Fin k0_t5_loop.trips) : Fin 2 → Nat :=
  let c8_i32 : BitVec 32 := 8#32
  let v405 : Index := Scalar.indexCast c8_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v406 : Index := Scalar.indexCast v304
  ![8, v406.toNat]
def k0_off229 (k0_t5 : Fin k0_t5_loop.trips) : Fin 2 → Nat :=
  let c9_i32 : BitVec 32 := 9#32
  let v417 : Index := Scalar.indexCast c9_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v418 : Index := Scalar.indexCast v304
  ![9, v418.toNat]
def k0_off230 (k0_t5 : Fin k0_t5_loop.trips) : Fin 2 → Nat :=
  let c10_i32 : BitVec 32 := 10#32
  let v429 : Index := Scalar.indexCast c10_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v430 : Index := Scalar.indexCast v304
  ![10, v430.toNat]
def k0_off231 (k0_t5 : Fin k0_t5_loop.trips) : Fin 2 → Nat :=
  let c11_i32 : BitVec 32 := 11#32
  let v441 : Index := Scalar.indexCast c11_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v442 : Index := Scalar.indexCast v304
  ![11, v442.toNat]
def k0_off232 (k0_t5 : Fin k0_t5_loop.trips) : Fin 2 → Nat :=
  let c12_i32 : BitVec 32 := 12#32
  let v453 : Index := Scalar.indexCast c12_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v454 : Index := Scalar.indexCast v304
  ![12, v454.toNat]
def k0_off233 (k0_t5 : Fin k0_t5_loop.trips) : Fin 2 → Nat :=
  let c13_i32 : BitVec 32 := 13#32
  let v465 : Index := Scalar.indexCast c13_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v466 : Index := Scalar.indexCast v304
  ![13, v466.toNat]
def k0_off234 (k0_t5 : Fin k0_t5_loop.trips) : Fin 2 → Nat :=
  let c14_i32 : BitVec 32 := 14#32
  let v477 : Index := Scalar.indexCast c14_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v478 : Index := Scalar.indexCast v304
  ![14, v478.toNat]
def k0_off235 (k0_t5 : Fin k0_t5_loop.trips) : Fin 2 → Nat :=
  let c15_i32 : BitVec 32 := 15#32
  let v489 : Index := Scalar.indexCast c15_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v490 : Index := Scalar.indexCast v304
  ![15, v490.toNat]
def k0_off236 (k0_t5 : Fin k0_t5_loop.trips) : Fin 2 → Nat :=
  let c16_i32_100 : BitVec 32 := 16#32
  let v501 : Index := Scalar.indexCast c16_i32_100
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v502 : Index := Scalar.indexCast v304
  ![16, v502.toNat]
def k0_off237 (k0_t5 : Fin k0_t5_loop.trips) : Fin 2 → Nat :=
  let c17_i32 : BitVec 32 := 17#32
  let v513 : Index := Scalar.indexCast c17_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v514 : Index := Scalar.indexCast v304
  ![17, v514.toNat]
def k0_off238 (k0_t5 : Fin k0_t5_loop.trips) : Fin 2 → Nat :=
  let c18_i32 : BitVec 32 := 18#32
  let v525 : Index := Scalar.indexCast c18_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v526 : Index := Scalar.indexCast v304
  ![18, v526.toNat]
def k0_off239 (k0_t5 : Fin k0_t5_loop.trips) : Fin 2 → Nat :=
  let c19_i32 : BitVec 32 := 19#32
  let v537 : Index := Scalar.indexCast c19_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v538 : Index := Scalar.indexCast v304
  ![19, v538.toNat]
def k0_off240 (k0_t5 : Fin k0_t5_loop.trips) : Fin 2 → Nat :=
  let c20_i32 : BitVec 32 := 20#32
  let v549 : Index := Scalar.indexCast c20_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v550 : Index := Scalar.indexCast v304
  ![20, v550.toNat]
def k0_off241 (k0_t5 : Fin k0_t5_loop.trips) : Fin 2 → Nat :=
  let c21_i32 : BitVec 32 := 21#32
  let v561 : Index := Scalar.indexCast c21_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v562 : Index := Scalar.indexCast v304
  ![21, v562.toNat]
def k0_off242 (k0_t5 : Fin k0_t5_loop.trips) : Fin 2 → Nat :=
  let c22_i32 : BitVec 32 := 22#32
  let v573 : Index := Scalar.indexCast c22_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v574 : Index := Scalar.indexCast v304
  ![22, v574.toNat]
def k0_off243 (k0_t5 : Fin k0_t5_loop.trips) : Fin 2 → Nat :=
  let c23_i32 : BitVec 32 := 23#32
  let v585 : Index := Scalar.indexCast c23_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v586 : Index := Scalar.indexCast v304
  ![23, v586.toNat]
def k0_off244 (k0_t5 : Fin k0_t5_loop.trips) : Fin 2 → Nat :=
  let c24_i32 : BitVec 32 := 24#32
  let v597 : Index := Scalar.indexCast c24_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v598 : Index := Scalar.indexCast v304
  ![24, v598.toNat]
def k0_off245 (k0_t5 : Fin k0_t5_loop.trips) : Fin 2 → Nat :=
  let c25_i32 : BitVec 32 := 25#32
  let v609 : Index := Scalar.indexCast c25_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v610 : Index := Scalar.indexCast v304
  ![25, v610.toNat]
def k0_off246 (k0_t5 : Fin k0_t5_loop.trips) : Fin 2 → Nat :=
  let c26_i32 : BitVec 32 := 26#32
  let v621 : Index := Scalar.indexCast c26_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v622 : Index := Scalar.indexCast v304
  ![26, v622.toNat]
def k0_off247 (k0_t5 : Fin k0_t5_loop.trips) : Fin 2 → Nat :=
  let c27_i32 : BitVec 32 := 27#32
  let v633 : Index := Scalar.indexCast c27_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v634 : Index := Scalar.indexCast v304
  ![27, v634.toNat]
def k0_off248 (k0_t5 : Fin k0_t5_loop.trips) : Fin 2 → Nat :=
  let c28_i32 : BitVec 32 := 28#32
  let v645 : Index := Scalar.indexCast c28_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v646 : Index := Scalar.indexCast v304
  ![28, v646.toNat]
def k0_off249 (k0_t5 : Fin k0_t5_loop.trips) : Fin 2 → Nat :=
  let c29_i32 : BitVec 32 := 29#32
  let v657 : Index := Scalar.indexCast c29_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v658 : Index := Scalar.indexCast v304
  ![29, v658.toNat]
def k0_off250 (k0_t5 : Fin k0_t5_loop.trips) : Fin 2 → Nat :=
  let c30_i32 : BitVec 32 := 30#32
  let v669 : Index := Scalar.indexCast c30_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v670 : Index := Scalar.indexCast v304
  ![30, v670.toNat]
def k0_off251 (k0_t5 : Fin k0_t5_loop.trips) : Fin 2 → Nat :=
  let c31_i32 : BitVec 32 := 31#32
  let v681 : Index := Scalar.indexCast c31_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v682 : Index := Scalar.indexCast v304
  ![31, v682.toNat]
def k0_off252 (k0_t5 : Fin k0_t5_loop.trips) : Fin 2 → Nat :=
  let c32_i32_117 : BitVec 32 := 32#32
  let v693 : Index := Scalar.indexCast c32_i32_117
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v694 : Index := Scalar.indexCast v304
  ![32, v694.toNat]
def k0_off253 (k0_t5 : Fin k0_t5_loop.trips) : Fin 2 → Nat :=
  let c33_i32 : BitVec 32 := 33#32
  let v705 : Index := Scalar.indexCast c33_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v706 : Index := Scalar.indexCast v304
  ![33, v706.toNat]
def k0_off254 (k0_t5 : Fin k0_t5_loop.trips) : Fin 2 → Nat :=
  let c34_i32 : BitVec 32 := 34#32
  let v717 : Index := Scalar.indexCast c34_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v718 : Index := Scalar.indexCast v304
  ![34, v718.toNat]
def k0_off255 (k0_t5 : Fin k0_t5_loop.trips) : Fin 2 → Nat :=
  let c35_i32 : BitVec 32 := 35#32
  let v729 : Index := Scalar.indexCast c35_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v730 : Index := Scalar.indexCast v304
  ![35, v730.toNat]
def k0_off256 (k0_t5 : Fin k0_t5_loop.trips) : Fin 2 → Nat :=
  let c36_i32 : BitVec 32 := 36#32
  let v741 : Index := Scalar.indexCast c36_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v742 : Index := Scalar.indexCast v304
  ![36, v742.toNat]
def k0_off257 (k0_t5 : Fin k0_t5_loop.trips) : Fin 2 → Nat :=
  let c37_i32 : BitVec 32 := 37#32
  let v753 : Index := Scalar.indexCast c37_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v754 : Index := Scalar.indexCast v304
  ![37, v754.toNat]
def k0_off258 (k0_t5 : Fin k0_t5_loop.trips) : Fin 2 → Nat :=
  let c38_i32 : BitVec 32 := 38#32
  let v765 : Index := Scalar.indexCast c38_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v766 : Index := Scalar.indexCast v304
  ![38, v766.toNat]
def k0_off259 (k0_t5 : Fin k0_t5_loop.trips) : Fin 2 → Nat :=
  let c39_i32 : BitVec 32 := 39#32
  let v777 : Index := Scalar.indexCast c39_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v778 : Index := Scalar.indexCast v304
  ![39, v778.toNat]
def k0_off260 (k0_t5 : Fin k0_t5_loop.trips) : Fin 2 → Nat :=
  let c40_i32 : BitVec 32 := 40#32
  let v789 : Index := Scalar.indexCast c40_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v790 : Index := Scalar.indexCast v304
  ![40, v790.toNat]
def k0_off261 (k0_t5 : Fin k0_t5_loop.trips) : Fin 2 → Nat :=
  let c41_i32 : BitVec 32 := 41#32
  let v801 : Index := Scalar.indexCast c41_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v802 : Index := Scalar.indexCast v304
  ![41, v802.toNat]
def k0_off262 (k0_t5 : Fin k0_t5_loop.trips) : Fin 2 → Nat :=
  let c42_i32 : BitVec 32 := 42#32
  let v813 : Index := Scalar.indexCast c42_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v814 : Index := Scalar.indexCast v304
  ![42, v814.toNat]
def k0_off263 (k0_t5 : Fin k0_t5_loop.trips) : Fin 2 → Nat :=
  let c43_i32 : BitVec 32 := 43#32
  let v825 : Index := Scalar.indexCast c43_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v826 : Index := Scalar.indexCast v304
  ![43, v826.toNat]
def k0_off264 (k0_t5 : Fin k0_t5_loop.trips) : Fin 2 → Nat :=
  let c44_i32 : BitVec 32 := 44#32
  let v837 : Index := Scalar.indexCast c44_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v838 : Index := Scalar.indexCast v304
  ![44, v838.toNat]
def k0_off265 (k0_t5 : Fin k0_t5_loop.trips) : Fin 2 → Nat :=
  let c45_i32 : BitVec 32 := 45#32
  let v849 : Index := Scalar.indexCast c45_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v850 : Index := Scalar.indexCast v304
  ![45, v850.toNat]
def k0_off266 (k0_t5 : Fin k0_t5_loop.trips) : Fin 2 → Nat :=
  let c46_i32 : BitVec 32 := 46#32
  let v861 : Index := Scalar.indexCast c46_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v862 : Index := Scalar.indexCast v304
  ![46, v862.toNat]
def k0_off267 (k0_t5 : Fin k0_t5_loop.trips) : Fin 2 → Nat :=
  let c47_i32 : BitVec 32 := 47#32
  let v873 : Index := Scalar.indexCast c47_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v874 : Index := Scalar.indexCast v304
  ![47, v874.toNat]
def k0_off268 (k0_t5 : Fin k0_t5_loop.trips) : Fin 2 → Nat :=
  let c48_i32 : BitVec 32 := 48#32
  let v885 : Index := Scalar.indexCast c48_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v886 : Index := Scalar.indexCast v304
  ![48, v886.toNat]
def k0_off269 (k0_t5 : Fin k0_t5_loop.trips) : Fin 2 → Nat :=
  let c49_i32 : BitVec 32 := 49#32
  let v897 : Index := Scalar.indexCast c49_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v898 : Index := Scalar.indexCast v304
  ![49, v898.toNat]
def k0_off270 (k0_t5 : Fin k0_t5_loop.trips) : Fin 2 → Nat :=
  let c50_i32 : BitVec 32 := 50#32
  let v909 : Index := Scalar.indexCast c50_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v910 : Index := Scalar.indexCast v304
  ![50, v910.toNat]
def k0_off271 (k0_t5 : Fin k0_t5_loop.trips) : Fin 2 → Nat :=
  let c51_i32 : BitVec 32 := 51#32
  let v921 : Index := Scalar.indexCast c51_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v922 : Index := Scalar.indexCast v304
  ![51, v922.toNat]
def k0_off272 (k0_t5 : Fin k0_t5_loop.trips) : Fin 2 → Nat :=
  let c52_i32 : BitVec 32 := 52#32
  let v933 : Index := Scalar.indexCast c52_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v934 : Index := Scalar.indexCast v304
  ![52, v934.toNat]
def k0_off273 (k0_t5 : Fin k0_t5_loop.trips) : Fin 2 → Nat :=
  let c53_i32 : BitVec 32 := 53#32
  let v945 : Index := Scalar.indexCast c53_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v946 : Index := Scalar.indexCast v304
  ![53, v946.toNat]
def k0_off274 (k0_t5 : Fin k0_t5_loop.trips) : Fin 2 → Nat :=
  let c54_i32 : BitVec 32 := 54#32
  let v957 : Index := Scalar.indexCast c54_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v958 : Index := Scalar.indexCast v304
  ![54, v958.toNat]
def k0_off275 (k0_t5 : Fin k0_t5_loop.trips) : Fin 2 → Nat :=
  let c55_i32 : BitVec 32 := 55#32
  let v969 : Index := Scalar.indexCast c55_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v970 : Index := Scalar.indexCast v304
  ![55, v970.toNat]
def k0_off276 (k0_t5 : Fin k0_t5_loop.trips) : Fin 2 → Nat :=
  let c56_i32 : BitVec 32 := 56#32
  let v981 : Index := Scalar.indexCast c56_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v982 : Index := Scalar.indexCast v304
  ![56, v982.toNat]
def k0_off277 (k0_t5 : Fin k0_t5_loop.trips) : Fin 2 → Nat :=
  let c57_i32 : BitVec 32 := 57#32
  let v993 : Index := Scalar.indexCast c57_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v994 : Index := Scalar.indexCast v304
  ![57, v994.toNat]
def k0_off278 (k0_t5 : Fin k0_t5_loop.trips) : Fin 2 → Nat :=
  let c58_i32 : BitVec 32 := 58#32
  let v1005 : Index := Scalar.indexCast c58_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v1006 : Index := Scalar.indexCast v304
  ![58, v1006.toNat]
def k0_off279 (k0_t5 : Fin k0_t5_loop.trips) : Fin 2 → Nat :=
  let c59_i32 : BitVec 32 := 59#32
  let v1017 : Index := Scalar.indexCast c59_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v1018 : Index := Scalar.indexCast v304
  ![59, v1018.toNat]
def k0_off280 (k0_t5 : Fin k0_t5_loop.trips) : Fin 2 → Nat :=
  let c60_i32 : BitVec 32 := 60#32
  let v1029 : Index := Scalar.indexCast c60_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v1030 : Index := Scalar.indexCast v304
  ![60, v1030.toNat]
def k0_off281 (k0_t5 : Fin k0_t5_loop.trips) : Fin 2 → Nat :=
  let c61_i32 : BitVec 32 := 61#32
  let v1041 : Index := Scalar.indexCast c61_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v1042 : Index := Scalar.indexCast v304
  ![61, v1042.toNat]
def k0_off282 (k0_t5 : Fin k0_t5_loop.trips) : Fin 2 → Nat :=
  let c62_i32 : BitVec 32 := 62#32
  let v1053 : Index := Scalar.indexCast c62_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v1054 : Index := Scalar.indexCast v304
  ![62, v1054.toNat]
def k0_off283 (k0_t5 : Fin k0_t5_loop.trips) : Fin 2 → Nat :=
  let c63_i32 : BitVec 32 := 63#32
  let v1065 : Index := Scalar.indexCast c63_i32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v1066 : Index := Scalar.indexCast v304
  ![63, v1066.toNat]
def k0_off284 (k0_t5 : Fin k0_t5_loop.trips) : Fin 1 → Nat :=
  let c512_i32_150 : BitVec 32 := 512#32
  let c0_i32_62 : BitVec 32 := 0#32
  let c1_i32_64 : BitVec 32 := 1#32
  let arg22 : BitVec 32 := Scf.iv c0_i32_62 c1_i32_64 k0_t5
  let c16_i32_75 : BitVec 32 := 16#32
  let v303 : BitVec 32 := Scalar.muli arg22 c16_i32_75
  let v304 : BitVec 32 := v303
  let v1081 : BitVec 32 := Scalar.addi c512_i32_150 v304
  let v1082 : Index := Scalar.indexCast v1081
  ![v1082.toNat]
def k0_cond10 (k0_t1 : Fin k0_t1_loop.trips) : BitVec 1 :=
  let c0_i32_6 : BitVec 32 := 0#32
  let c1_i32 : BitVec 32 := 1#32
  let arg20 : BitVec 32 := Scf.iv c0_i32_6 c1_i32 k0_t1
  let c1_i32_70 : BitVec 32 := 1#32
  let v295 : BitVec 32 := Scalar.addi arg20 c1_i32_70
  let c16_i32_71 : BitVec 32 := 16#32
  let v296 : BitVec 1 := Scalar.cmpi .slt v295 c16_i32_71
  let v297 : BitVec 32 := Scalar.extui v296
  let c0_i32_72 : BitVec 32 := 0#32
  let v298 : BitVec 1 := Scalar.cmpi .ne v297 c0_i32_72
  v298

def k0_off285 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v61 : BitVec 32 := Scalar.addi v3 arg20
  let c0_i32_75 : BitVec 32 := 0#32
  let c0_i32_76 : BitVec 32 := 0#32
  ![v61.toNat, 0, 0]
def k0_off286 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v61 : BitVec 32 := Scalar.addi v3 arg20
  let c1_i32_79 : BitVec 32 := 1#32
  let v307 : BitVec 32 := Scalar.addi v61 c1_i32_79
  let c0_i32_80 : BitVec 32 := 0#32
  let c512_i32_81 : BitVec 32 := 512#32
  ![v307.toNat, 0, 512]
def k0_off287 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v61 : BitVec 32 := Scalar.addi v3 arg20
  let c0_i32_73 : BitVec 32 := 0#32
  ![v61.toNat, 0]
def k0_off288 (k0_t1 : Fin k0_t1_loop.trips) : Fin 2 → Nat :=
  let c0_i32_6 : BitVec 32 := 0#32
  let c1_i32 : BitVec 32 := 1#32
  let arg20 : BitVec 32 := Scf.iv c0_i32_6 c1_i32 k0_t1
  let v59 : Index := Scalar.indexCast arg20
  let c0_35 : Index := 0#32
  ![v59.toNat, 0]
def k0_off289 (k0_t1 : Fin k0_t1_loop.trips) : Fin 2 → Nat :=
  let c0_i32_6 : BitVec 32 := 0#32
  let c1_i32 : BitVec 32 := 1#32
  let arg20 : BitVec 32 := Scf.iv c0_i32_6 c1_i32 k0_t1
  let v62 : Index := Scalar.indexCast arg20
  let c16 : Index := 16#32
  ![v62.toNat, 16]
def k0_off290 (k0_t1 : Fin k0_t1_loop.trips) : Fin 2 → Nat :=
  let c0_i32_6 : BitVec 32 := 0#32
  let c1_i32 : BitVec 32 := 1#32
  let arg20 : BitVec 32 := Scf.iv c0_i32_6 c1_i32 k0_t1
  let v65 : Index := Scalar.indexCast arg20
  let c32 : Index := 32#32
  ![v65.toNat, 32]
def k0_off291 (k0_t1 : Fin k0_t1_loop.trips) : Fin 2 → Nat :=
  let c0_i32_6 : BitVec 32 := 0#32
  let c1_i32 : BitVec 32 := 1#32
  let arg20 : BitVec 32 := Scf.iv c0_i32_6 c1_i32 k0_t1
  let v68 : Index := Scalar.indexCast arg20
  let c48 : Index := 48#32
  ![v68.toNat, 48]
def k0_cond11 (k0_t1 : Fin k0_t1_loop.trips) : BitVec 1 :=
  let c0_i32_6 : BitVec 32 := 0#32
  let c1_i32 : BitVec 32 := 1#32
  let arg20 : BitVec 32 := Scf.iv c0_i32_6 c1_i32 k0_t1
  let c0_i32_38 : BitVec 32 := 0#32
  let v267 : BitVec 1 := Scalar.cmpi .sgt arg20 c0_i32_38
  let v268 : BitVec 32 := Scalar.extui v267
  let c0_i32_39 : BitVec 32 := 0#32
  let v269 : BitVec 1 := Scalar.cmpi .ne v268 c0_i32_39
  v269

def k0_off292 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v58 : BitVec 32 := Scalar.addi v3 arg20
  let c1_i32_73 : BitVec 32 := 1#32
  let v300 : BitVec 32 := Scalar.subi v58 c1_i32_73
  let c0_i32_74 : BitVec 32 := 0#32
  ![v300.toNat, 0]
def k0_off293 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v58 : BitVec 32 := Scalar.addi v3 arg20
  let c0_i32_40 : BitVec 32 := 0#32
  let c0_i32_41 : BitVec 32 := 0#32
  ![v58.toNat, 0, 0]
@[reducible] def k0_t6_loop : Scf.Loop 32 :=
  let c0_i32_45 : BitVec 32 := 0#32
  let c32_i32 : BitVec 32 := 32#32
  let v274 : BitVec 32 := Scalar.addi c0_i32_45 c32_i32
  let c1_i32_46 : BitVec 32 := 1#32
  ⟨c0_i32_45, v274, c1_i32_46⟩
def k0_mult5 (k0_t6 : Fin k0_t6_loop.trips) : BitVec 32 :=
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  v300
def k0_off294 (k0_t6 : Fin k0_t6_loop.trips) : Fin 2 → Nat :=
  let c0_i32_78 : BitVec 32 := 0#32
  let v306 : Index := Scalar.indexCast c0_i32_78
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v307 : Index := Scalar.indexCast v301
  ![0, v307.toNat]
def k0_off295 (k0_t6 : Fin k0_t6_loop.trips) : Fin 2 → Nat :=
  let c1_i32_80 : BitVec 32 := 1#32
  let v318 : Index := Scalar.indexCast c1_i32_80
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v319 : Index := Scalar.indexCast v301
  ![1, v319.toNat]
def k0_off296 (k0_t6 : Fin k0_t6_loop.trips) : Fin 2 → Nat :=
  let c2_i32_82 : BitVec 32 := 2#32
  let v330 : Index := Scalar.indexCast c2_i32_82
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v331 : Index := Scalar.indexCast v301
  ![2, v331.toNat]
def k0_off297 (k0_t6 : Fin k0_t6_loop.trips) : Fin 2 → Nat :=
  let c3_i32_84 : BitVec 32 := 3#32
  let v342 : Index := Scalar.indexCast c3_i32_84
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v343 : Index := Scalar.indexCast v301
  ![3, v343.toNat]
def k0_off298 (k0_t6 : Fin k0_t6_loop.trips) : Fin 2 → Nat :=
  let c4_i32 : BitVec 32 := 4#32
  let v354 : Index := Scalar.indexCast c4_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v355 : Index := Scalar.indexCast v301
  ![4, v355.toNat]
def k0_off299 (k0_t6 : Fin k0_t6_loop.trips) : Fin 2 → Nat :=
  let c5_i32 : BitVec 32 := 5#32
  let v366 : Index := Scalar.indexCast c5_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v367 : Index := Scalar.indexCast v301
  ![5, v367.toNat]
def k0_off300 (k0_t6 : Fin k0_t6_loop.trips) : Fin 2 → Nat :=
  let c6_i32 : BitVec 32 := 6#32
  let v378 : Index := Scalar.indexCast c6_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v379 : Index := Scalar.indexCast v301
  ![6, v379.toNat]
def k0_off301 (k0_t6 : Fin k0_t6_loop.trips) : Fin 2 → Nat :=
  let c7_i32 : BitVec 32 := 7#32
  let v390 : Index := Scalar.indexCast c7_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v391 : Index := Scalar.indexCast v301
  ![7, v391.toNat]
def k0_off302 (k0_t6 : Fin k0_t6_loop.trips) : Fin 2 → Nat :=
  let c8_i32 : BitVec 32 := 8#32
  let v402 : Index := Scalar.indexCast c8_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v403 : Index := Scalar.indexCast v301
  ![8, v403.toNat]
def k0_off303 (k0_t6 : Fin k0_t6_loop.trips) : Fin 2 → Nat :=
  let c9_i32 : BitVec 32 := 9#32
  let v414 : Index := Scalar.indexCast c9_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v415 : Index := Scalar.indexCast v301
  ![9, v415.toNat]
def k0_off304 (k0_t6 : Fin k0_t6_loop.trips) : Fin 2 → Nat :=
  let c10_i32 : BitVec 32 := 10#32
  let v426 : Index := Scalar.indexCast c10_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v427 : Index := Scalar.indexCast v301
  ![10, v427.toNat]
def k0_off305 (k0_t6 : Fin k0_t6_loop.trips) : Fin 2 → Nat :=
  let c11_i32 : BitVec 32 := 11#32
  let v438 : Index := Scalar.indexCast c11_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v439 : Index := Scalar.indexCast v301
  ![11, v439.toNat]
def k0_off306 (k0_t6 : Fin k0_t6_loop.trips) : Fin 2 → Nat :=
  let c12_i32 : BitVec 32 := 12#32
  let v450 : Index := Scalar.indexCast c12_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v451 : Index := Scalar.indexCast v301
  ![12, v451.toNat]
def k0_off307 (k0_t6 : Fin k0_t6_loop.trips) : Fin 2 → Nat :=
  let c13_i32 : BitVec 32 := 13#32
  let v462 : Index := Scalar.indexCast c13_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v463 : Index := Scalar.indexCast v301
  ![13, v463.toNat]
def k0_off308 (k0_t6 : Fin k0_t6_loop.trips) : Fin 2 → Nat :=
  let c14_i32 : BitVec 32 := 14#32
  let v474 : Index := Scalar.indexCast c14_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v475 : Index := Scalar.indexCast v301
  ![14, v475.toNat]
def k0_off309 (k0_t6 : Fin k0_t6_loop.trips) : Fin 2 → Nat :=
  let c15_i32 : BitVec 32 := 15#32
  let v486 : Index := Scalar.indexCast c15_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v487 : Index := Scalar.indexCast v301
  ![15, v487.toNat]
def k0_off310 (k0_t6 : Fin k0_t6_loop.trips) : Fin 2 → Nat :=
  let c16_i32_98 : BitVec 32 := 16#32
  let v498 : Index := Scalar.indexCast c16_i32_98
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v499 : Index := Scalar.indexCast v301
  ![16, v499.toNat]
def k0_off311 (k0_t6 : Fin k0_t6_loop.trips) : Fin 2 → Nat :=
  let c17_i32 : BitVec 32 := 17#32
  let v510 : Index := Scalar.indexCast c17_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v511 : Index := Scalar.indexCast v301
  ![17, v511.toNat]
def k0_off312 (k0_t6 : Fin k0_t6_loop.trips) : Fin 2 → Nat :=
  let c18_i32 : BitVec 32 := 18#32
  let v522 : Index := Scalar.indexCast c18_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v523 : Index := Scalar.indexCast v301
  ![18, v523.toNat]
def k0_off313 (k0_t6 : Fin k0_t6_loop.trips) : Fin 2 → Nat :=
  let c19_i32 : BitVec 32 := 19#32
  let v534 : Index := Scalar.indexCast c19_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v535 : Index := Scalar.indexCast v301
  ![19, v535.toNat]
def k0_off314 (k0_t6 : Fin k0_t6_loop.trips) : Fin 2 → Nat :=
  let c20_i32 : BitVec 32 := 20#32
  let v546 : Index := Scalar.indexCast c20_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v547 : Index := Scalar.indexCast v301
  ![20, v547.toNat]
def k0_off315 (k0_t6 : Fin k0_t6_loop.trips) : Fin 2 → Nat :=
  let c21_i32 : BitVec 32 := 21#32
  let v558 : Index := Scalar.indexCast c21_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v559 : Index := Scalar.indexCast v301
  ![21, v559.toNat]
def k0_off316 (k0_t6 : Fin k0_t6_loop.trips) : Fin 2 → Nat :=
  let c22_i32 : BitVec 32 := 22#32
  let v570 : Index := Scalar.indexCast c22_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v571 : Index := Scalar.indexCast v301
  ![22, v571.toNat]
def k0_off317 (k0_t6 : Fin k0_t6_loop.trips) : Fin 2 → Nat :=
  let c23_i32 : BitVec 32 := 23#32
  let v582 : Index := Scalar.indexCast c23_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v583 : Index := Scalar.indexCast v301
  ![23, v583.toNat]
def k0_off318 (k0_t6 : Fin k0_t6_loop.trips) : Fin 2 → Nat :=
  let c24_i32 : BitVec 32 := 24#32
  let v594 : Index := Scalar.indexCast c24_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v595 : Index := Scalar.indexCast v301
  ![24, v595.toNat]
def k0_off319 (k0_t6 : Fin k0_t6_loop.trips) : Fin 2 → Nat :=
  let c25_i32 : BitVec 32 := 25#32
  let v606 : Index := Scalar.indexCast c25_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v607 : Index := Scalar.indexCast v301
  ![25, v607.toNat]
def k0_off320 (k0_t6 : Fin k0_t6_loop.trips) : Fin 2 → Nat :=
  let c26_i32 : BitVec 32 := 26#32
  let v618 : Index := Scalar.indexCast c26_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v619 : Index := Scalar.indexCast v301
  ![26, v619.toNat]
def k0_off321 (k0_t6 : Fin k0_t6_loop.trips) : Fin 2 → Nat :=
  let c27_i32 : BitVec 32 := 27#32
  let v630 : Index := Scalar.indexCast c27_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v631 : Index := Scalar.indexCast v301
  ![27, v631.toNat]
def k0_off322 (k0_t6 : Fin k0_t6_loop.trips) : Fin 2 → Nat :=
  let c28_i32 : BitVec 32 := 28#32
  let v642 : Index := Scalar.indexCast c28_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v643 : Index := Scalar.indexCast v301
  ![28, v643.toNat]
def k0_off323 (k0_t6 : Fin k0_t6_loop.trips) : Fin 2 → Nat :=
  let c29_i32 : BitVec 32 := 29#32
  let v654 : Index := Scalar.indexCast c29_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v655 : Index := Scalar.indexCast v301
  ![29, v655.toNat]
def k0_off324 (k0_t6 : Fin k0_t6_loop.trips) : Fin 2 → Nat :=
  let c30_i32 : BitVec 32 := 30#32
  let v666 : Index := Scalar.indexCast c30_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v667 : Index := Scalar.indexCast v301
  ![30, v667.toNat]
def k0_off325 (k0_t6 : Fin k0_t6_loop.trips) : Fin 2 → Nat :=
  let c31_i32 : BitVec 32 := 31#32
  let v678 : Index := Scalar.indexCast c31_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v679 : Index := Scalar.indexCast v301
  ![31, v679.toNat]
def k0_off326 (k0_t6 : Fin k0_t6_loop.trips) : Fin 2 → Nat :=
  let c32_i32_115 : BitVec 32 := 32#32
  let v690 : Index := Scalar.indexCast c32_i32_115
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v691 : Index := Scalar.indexCast v301
  ![32, v691.toNat]
def k0_off327 (k0_t6 : Fin k0_t6_loop.trips) : Fin 2 → Nat :=
  let c33_i32 : BitVec 32 := 33#32
  let v702 : Index := Scalar.indexCast c33_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v703 : Index := Scalar.indexCast v301
  ![33, v703.toNat]
def k0_off328 (k0_t6 : Fin k0_t6_loop.trips) : Fin 2 → Nat :=
  let c34_i32 : BitVec 32 := 34#32
  let v714 : Index := Scalar.indexCast c34_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v715 : Index := Scalar.indexCast v301
  ![34, v715.toNat]
def k0_off329 (k0_t6 : Fin k0_t6_loop.trips) : Fin 2 → Nat :=
  let c35_i32 : BitVec 32 := 35#32
  let v726 : Index := Scalar.indexCast c35_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v727 : Index := Scalar.indexCast v301
  ![35, v727.toNat]
def k0_off330 (k0_t6 : Fin k0_t6_loop.trips) : Fin 2 → Nat :=
  let c36_i32 : BitVec 32 := 36#32
  let v738 : Index := Scalar.indexCast c36_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v739 : Index := Scalar.indexCast v301
  ![36, v739.toNat]
def k0_off331 (k0_t6 : Fin k0_t6_loop.trips) : Fin 2 → Nat :=
  let c37_i32 : BitVec 32 := 37#32
  let v750 : Index := Scalar.indexCast c37_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v751 : Index := Scalar.indexCast v301
  ![37, v751.toNat]
def k0_off332 (k0_t6 : Fin k0_t6_loop.trips) : Fin 2 → Nat :=
  let c38_i32 : BitVec 32 := 38#32
  let v762 : Index := Scalar.indexCast c38_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v763 : Index := Scalar.indexCast v301
  ![38, v763.toNat]
def k0_off333 (k0_t6 : Fin k0_t6_loop.trips) : Fin 2 → Nat :=
  let c39_i32 : BitVec 32 := 39#32
  let v774 : Index := Scalar.indexCast c39_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v775 : Index := Scalar.indexCast v301
  ![39, v775.toNat]
def k0_off334 (k0_t6 : Fin k0_t6_loop.trips) : Fin 2 → Nat :=
  let c40_i32 : BitVec 32 := 40#32
  let v786 : Index := Scalar.indexCast c40_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v787 : Index := Scalar.indexCast v301
  ![40, v787.toNat]
def k0_off335 (k0_t6 : Fin k0_t6_loop.trips) : Fin 2 → Nat :=
  let c41_i32 : BitVec 32 := 41#32
  let v798 : Index := Scalar.indexCast c41_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v799 : Index := Scalar.indexCast v301
  ![41, v799.toNat]
def k0_off336 (k0_t6 : Fin k0_t6_loop.trips) : Fin 2 → Nat :=
  let c42_i32 : BitVec 32 := 42#32
  let v810 : Index := Scalar.indexCast c42_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v811 : Index := Scalar.indexCast v301
  ![42, v811.toNat]
def k0_off337 (k0_t6 : Fin k0_t6_loop.trips) : Fin 2 → Nat :=
  let c43_i32 : BitVec 32 := 43#32
  let v822 : Index := Scalar.indexCast c43_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v823 : Index := Scalar.indexCast v301
  ![43, v823.toNat]
def k0_off338 (k0_t6 : Fin k0_t6_loop.trips) : Fin 2 → Nat :=
  let c44_i32 : BitVec 32 := 44#32
  let v834 : Index := Scalar.indexCast c44_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v835 : Index := Scalar.indexCast v301
  ![44, v835.toNat]
def k0_off339 (k0_t6 : Fin k0_t6_loop.trips) : Fin 2 → Nat :=
  let c45_i32 : BitVec 32 := 45#32
  let v846 : Index := Scalar.indexCast c45_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v847 : Index := Scalar.indexCast v301
  ![45, v847.toNat]
def k0_off340 (k0_t6 : Fin k0_t6_loop.trips) : Fin 2 → Nat :=
  let c46_i32 : BitVec 32 := 46#32
  let v858 : Index := Scalar.indexCast c46_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v859 : Index := Scalar.indexCast v301
  ![46, v859.toNat]
def k0_off341 (k0_t6 : Fin k0_t6_loop.trips) : Fin 2 → Nat :=
  let c47_i32 : BitVec 32 := 47#32
  let v870 : Index := Scalar.indexCast c47_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v871 : Index := Scalar.indexCast v301
  ![47, v871.toNat]
def k0_off342 (k0_t6 : Fin k0_t6_loop.trips) : Fin 2 → Nat :=
  let c48_i32 : BitVec 32 := 48#32
  let v882 : Index := Scalar.indexCast c48_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v883 : Index := Scalar.indexCast v301
  ![48, v883.toNat]
def k0_off343 (k0_t6 : Fin k0_t6_loop.trips) : Fin 2 → Nat :=
  let c49_i32 : BitVec 32 := 49#32
  let v894 : Index := Scalar.indexCast c49_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v895 : Index := Scalar.indexCast v301
  ![49, v895.toNat]
def k0_off344 (k0_t6 : Fin k0_t6_loop.trips) : Fin 2 → Nat :=
  let c50_i32 : BitVec 32 := 50#32
  let v906 : Index := Scalar.indexCast c50_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v907 : Index := Scalar.indexCast v301
  ![50, v907.toNat]
def k0_off345 (k0_t6 : Fin k0_t6_loop.trips) : Fin 2 → Nat :=
  let c51_i32 : BitVec 32 := 51#32
  let v918 : Index := Scalar.indexCast c51_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v919 : Index := Scalar.indexCast v301
  ![51, v919.toNat]
def k0_off346 (k0_t6 : Fin k0_t6_loop.trips) : Fin 2 → Nat :=
  let c52_i32 : BitVec 32 := 52#32
  let v930 : Index := Scalar.indexCast c52_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v931 : Index := Scalar.indexCast v301
  ![52, v931.toNat]
def k0_off347 (k0_t6 : Fin k0_t6_loop.trips) : Fin 2 → Nat :=
  let c53_i32 : BitVec 32 := 53#32
  let v942 : Index := Scalar.indexCast c53_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v943 : Index := Scalar.indexCast v301
  ![53, v943.toNat]
def k0_off348 (k0_t6 : Fin k0_t6_loop.trips) : Fin 2 → Nat :=
  let c54_i32 : BitVec 32 := 54#32
  let v954 : Index := Scalar.indexCast c54_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v955 : Index := Scalar.indexCast v301
  ![54, v955.toNat]
def k0_off349 (k0_t6 : Fin k0_t6_loop.trips) : Fin 2 → Nat :=
  let c55_i32 : BitVec 32 := 55#32
  let v966 : Index := Scalar.indexCast c55_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v967 : Index := Scalar.indexCast v301
  ![55, v967.toNat]
def k0_off350 (k0_t6 : Fin k0_t6_loop.trips) : Fin 2 → Nat :=
  let c56_i32 : BitVec 32 := 56#32
  let v978 : Index := Scalar.indexCast c56_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v979 : Index := Scalar.indexCast v301
  ![56, v979.toNat]
def k0_off351 (k0_t6 : Fin k0_t6_loop.trips) : Fin 2 → Nat :=
  let c57_i32 : BitVec 32 := 57#32
  let v990 : Index := Scalar.indexCast c57_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v991 : Index := Scalar.indexCast v301
  ![57, v991.toNat]
def k0_off352 (k0_t6 : Fin k0_t6_loop.trips) : Fin 2 → Nat :=
  let c58_i32 : BitVec 32 := 58#32
  let v1002 : Index := Scalar.indexCast c58_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v1003 : Index := Scalar.indexCast v301
  ![58, v1003.toNat]
def k0_off353 (k0_t6 : Fin k0_t6_loop.trips) : Fin 2 → Nat :=
  let c59_i32 : BitVec 32 := 59#32
  let v1014 : Index := Scalar.indexCast c59_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v1015 : Index := Scalar.indexCast v301
  ![59, v1015.toNat]
def k0_off354 (k0_t6 : Fin k0_t6_loop.trips) : Fin 2 → Nat :=
  let c60_i32 : BitVec 32 := 60#32
  let v1026 : Index := Scalar.indexCast c60_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v1027 : Index := Scalar.indexCast v301
  ![60, v1027.toNat]
def k0_off355 (k0_t6 : Fin k0_t6_loop.trips) : Fin 2 → Nat :=
  let c61_i32 : BitVec 32 := 61#32
  let v1038 : Index := Scalar.indexCast c61_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v1039 : Index := Scalar.indexCast v301
  ![61, v1039.toNat]
def k0_off356 (k0_t6 : Fin k0_t6_loop.trips) : Fin 2 → Nat :=
  let c62_i32 : BitVec 32 := 62#32
  let v1050 : Index := Scalar.indexCast c62_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v1051 : Index := Scalar.indexCast v301
  ![62, v1051.toNat]
def k0_off357 (k0_t6 : Fin k0_t6_loop.trips) : Fin 2 → Nat :=
  let c63_i32 : BitVec 32 := 63#32
  let v1062 : Index := Scalar.indexCast c63_i32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v1063 : Index := Scalar.indexCast v301
  ![63, v1063.toNat]
def k0_off358 (k0_t6 : Fin k0_t6_loop.trips) : Fin 1 → Nat :=
  let c0_i32_148 : BitVec 32 := 0#32
  let c0_i32_45 : BitVec 32 := 0#32
  let c1_i32_46 : BitVec 32 := 1#32
  let arg22 : BitVec 32 := Scf.iv c0_i32_45 c1_i32_46 k0_t6
  let c16_i32_73 : BitVec 32 := 16#32
  let v300 : BitVec 32 := Scalar.muli arg22 c16_i32_73
  let v301 : BitVec 32 := v300
  let v1078 : BitVec 32 := Scalar.addi c0_i32_148 v301
  let v1079 : Index := Scalar.indexCast v1078
  ![v1079.toNat]
def k0_cond12 (k0_t1 : Fin k0_t1_loop.trips) : BitVec 1 :=
  let c0_i32_6 : BitVec 32 := 0#32
  let c1_i32 : BitVec 32 := 1#32
  let arg20 : BitVec 32 := Scf.iv c0_i32_6 c1_i32 k0_t1
  let c1_i32_52 : BitVec 32 := 1#32
  let v279 : BitVec 32 := Scalar.addi arg20 c1_i32_52
  let c16_i32_53 : BitVec 32 := 16#32
  let v280 : BitVec 1 := Scalar.cmpi .slt v279 c16_i32_53
  let v281 : BitVec 32 := Scalar.extui v280
  let c0_i32_54 : BitVec 32 := 0#32
  let v282 : BitVec 1 := Scalar.cmpi .ne v281 c0_i32_54
  v282

def k0_cond13 (k0_t1 : Fin k0_t1_loop.trips) : BitVec 1 :=
  let c0_i32_6 : BitVec 32 := 0#32
  let c1_i32 : BitVec 32 := 1#32
  let arg20 : BitVec 32 := Scf.iv c0_i32_6 c1_i32 k0_t1
  let c0_i32_73 : BitVec 32 := 0#32
  let v300 : BitVec 1 := Scalar.cmpi .sgt arg20 c0_i32_73
  let v301 : BitVec 32 := Scalar.extui v300
  let c0_i32_74 : BitVec 32 := 0#32
  let v302 : BitVec 1 := Scalar.cmpi .ne v301 c0_i32_74
  v302

def k0_off359 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v58 : BitVec 32 := Scalar.addi v3 arg20
  let c1_i32_80 : BitVec 32 := 1#32
  let v308 : BitVec 32 := Scalar.subi v58 c1_i32_80
  let c0_i32_81 : BitVec 32 := 0#32
  let c512_i32_82 : BitVec 32 := 512#32
  ![v308.toNat, 0, 512]
def k0_off360 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v58 : BitVec 32 := Scalar.addi v3 arg20
  let c1_i32_75 : BitVec 32 := 1#32
  let v303 : BitVec 32 := Scalar.addi v58 c1_i32_75
  let c0_i32_76 : BitVec 32 := 0#32
  let c0_i32_77 : BitVec 32 := 0#32
  ![v303.toNat, 0, 0]
def k0_off361 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v58 : BitVec 32 := Scalar.addi v3 arg20
  let c0_i32_55 : BitVec 32 := 0#32
  let c512_i32_56 : BitVec 32 := 512#32
  ![v58.toNat, 0, 512]
@[reducible] def k0_t7_loop : Scf.Loop 32 :=
  let c0_i32_60 : BitVec 32 := 0#32
  let c32_i32_61 : BitVec 32 := 32#32
  let v287 : BitVec 32 := Scalar.addi c0_i32_60 c32_i32_61
  let c1_i32_62 : BitVec 32 := 1#32
  ⟨c0_i32_60, v287, c1_i32_62⟩
def k0_mult6 (k0_t7 : Fin k0_t7_loop.trips) : BitVec 32 :=
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  v300
def k0_off362 (k0_t7 : Fin k0_t7_loop.trips) : Fin 2 → Nat :=
  let c0_i32_78 : BitVec 32 := 0#32
  let v306 : Index := Scalar.indexCast c0_i32_78
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v307 : Index := Scalar.indexCast v301
  ![0, v307.toNat]
def k0_off363 (k0_t7 : Fin k0_t7_loop.trips) : Fin 2 → Nat :=
  let c1_i32_80 : BitVec 32 := 1#32
  let v318 : Index := Scalar.indexCast c1_i32_80
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v319 : Index := Scalar.indexCast v301
  ![1, v319.toNat]
def k0_off364 (k0_t7 : Fin k0_t7_loop.trips) : Fin 2 → Nat :=
  let c2_i32_82 : BitVec 32 := 2#32
  let v330 : Index := Scalar.indexCast c2_i32_82
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v331 : Index := Scalar.indexCast v301
  ![2, v331.toNat]
def k0_off365 (k0_t7 : Fin k0_t7_loop.trips) : Fin 2 → Nat :=
  let c3_i32_84 : BitVec 32 := 3#32
  let v342 : Index := Scalar.indexCast c3_i32_84
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v343 : Index := Scalar.indexCast v301
  ![3, v343.toNat]
def k0_off366 (k0_t7 : Fin k0_t7_loop.trips) : Fin 2 → Nat :=
  let c4_i32 : BitVec 32 := 4#32
  let v354 : Index := Scalar.indexCast c4_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v355 : Index := Scalar.indexCast v301
  ![4, v355.toNat]
def k0_off367 (k0_t7 : Fin k0_t7_loop.trips) : Fin 2 → Nat :=
  let c5_i32 : BitVec 32 := 5#32
  let v366 : Index := Scalar.indexCast c5_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v367 : Index := Scalar.indexCast v301
  ![5, v367.toNat]
def k0_off368 (k0_t7 : Fin k0_t7_loop.trips) : Fin 2 → Nat :=
  let c6_i32 : BitVec 32 := 6#32
  let v378 : Index := Scalar.indexCast c6_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v379 : Index := Scalar.indexCast v301
  ![6, v379.toNat]
def k0_off369 (k0_t7 : Fin k0_t7_loop.trips) : Fin 2 → Nat :=
  let c7_i32 : BitVec 32 := 7#32
  let v390 : Index := Scalar.indexCast c7_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v391 : Index := Scalar.indexCast v301
  ![7, v391.toNat]
def k0_off370 (k0_t7 : Fin k0_t7_loop.trips) : Fin 2 → Nat :=
  let c8_i32 : BitVec 32 := 8#32
  let v402 : Index := Scalar.indexCast c8_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v403 : Index := Scalar.indexCast v301
  ![8, v403.toNat]
def k0_off371 (k0_t7 : Fin k0_t7_loop.trips) : Fin 2 → Nat :=
  let c9_i32 : BitVec 32 := 9#32
  let v414 : Index := Scalar.indexCast c9_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v415 : Index := Scalar.indexCast v301
  ![9, v415.toNat]
def k0_off372 (k0_t7 : Fin k0_t7_loop.trips) : Fin 2 → Nat :=
  let c10_i32 : BitVec 32 := 10#32
  let v426 : Index := Scalar.indexCast c10_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v427 : Index := Scalar.indexCast v301
  ![10, v427.toNat]
def k0_off373 (k0_t7 : Fin k0_t7_loop.trips) : Fin 2 → Nat :=
  let c11_i32 : BitVec 32 := 11#32
  let v438 : Index := Scalar.indexCast c11_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v439 : Index := Scalar.indexCast v301
  ![11, v439.toNat]
def k0_off374 (k0_t7 : Fin k0_t7_loop.trips) : Fin 2 → Nat :=
  let c12_i32 : BitVec 32 := 12#32
  let v450 : Index := Scalar.indexCast c12_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v451 : Index := Scalar.indexCast v301
  ![12, v451.toNat]
def k0_off375 (k0_t7 : Fin k0_t7_loop.trips) : Fin 2 → Nat :=
  let c13_i32 : BitVec 32 := 13#32
  let v462 : Index := Scalar.indexCast c13_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v463 : Index := Scalar.indexCast v301
  ![13, v463.toNat]
def k0_off376 (k0_t7 : Fin k0_t7_loop.trips) : Fin 2 → Nat :=
  let c14_i32 : BitVec 32 := 14#32
  let v474 : Index := Scalar.indexCast c14_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v475 : Index := Scalar.indexCast v301
  ![14, v475.toNat]
def k0_off377 (k0_t7 : Fin k0_t7_loop.trips) : Fin 2 → Nat :=
  let c15_i32 : BitVec 32 := 15#32
  let v486 : Index := Scalar.indexCast c15_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v487 : Index := Scalar.indexCast v301
  ![15, v487.toNat]
def k0_off378 (k0_t7 : Fin k0_t7_loop.trips) : Fin 2 → Nat :=
  let c16_i32_98 : BitVec 32 := 16#32
  let v498 : Index := Scalar.indexCast c16_i32_98
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v499 : Index := Scalar.indexCast v301
  ![16, v499.toNat]
def k0_off379 (k0_t7 : Fin k0_t7_loop.trips) : Fin 2 → Nat :=
  let c17_i32 : BitVec 32 := 17#32
  let v510 : Index := Scalar.indexCast c17_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v511 : Index := Scalar.indexCast v301
  ![17, v511.toNat]
def k0_off380 (k0_t7 : Fin k0_t7_loop.trips) : Fin 2 → Nat :=
  let c18_i32 : BitVec 32 := 18#32
  let v522 : Index := Scalar.indexCast c18_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v523 : Index := Scalar.indexCast v301
  ![18, v523.toNat]
def k0_off381 (k0_t7 : Fin k0_t7_loop.trips) : Fin 2 → Nat :=
  let c19_i32 : BitVec 32 := 19#32
  let v534 : Index := Scalar.indexCast c19_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v535 : Index := Scalar.indexCast v301
  ![19, v535.toNat]
def k0_off382 (k0_t7 : Fin k0_t7_loop.trips) : Fin 2 → Nat :=
  let c20_i32 : BitVec 32 := 20#32
  let v546 : Index := Scalar.indexCast c20_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v547 : Index := Scalar.indexCast v301
  ![20, v547.toNat]
def k0_off383 (k0_t7 : Fin k0_t7_loop.trips) : Fin 2 → Nat :=
  let c21_i32 : BitVec 32 := 21#32
  let v558 : Index := Scalar.indexCast c21_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v559 : Index := Scalar.indexCast v301
  ![21, v559.toNat]
def k0_off384 (k0_t7 : Fin k0_t7_loop.trips) : Fin 2 → Nat :=
  let c22_i32 : BitVec 32 := 22#32
  let v570 : Index := Scalar.indexCast c22_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v571 : Index := Scalar.indexCast v301
  ![22, v571.toNat]
def k0_off385 (k0_t7 : Fin k0_t7_loop.trips) : Fin 2 → Nat :=
  let c23_i32 : BitVec 32 := 23#32
  let v582 : Index := Scalar.indexCast c23_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v583 : Index := Scalar.indexCast v301
  ![23, v583.toNat]
def k0_off386 (k0_t7 : Fin k0_t7_loop.trips) : Fin 2 → Nat :=
  let c24_i32 : BitVec 32 := 24#32
  let v594 : Index := Scalar.indexCast c24_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v595 : Index := Scalar.indexCast v301
  ![24, v595.toNat]
def k0_off387 (k0_t7 : Fin k0_t7_loop.trips) : Fin 2 → Nat :=
  let c25_i32 : BitVec 32 := 25#32
  let v606 : Index := Scalar.indexCast c25_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v607 : Index := Scalar.indexCast v301
  ![25, v607.toNat]
def k0_off388 (k0_t7 : Fin k0_t7_loop.trips) : Fin 2 → Nat :=
  let c26_i32 : BitVec 32 := 26#32
  let v618 : Index := Scalar.indexCast c26_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v619 : Index := Scalar.indexCast v301
  ![26, v619.toNat]
def k0_off389 (k0_t7 : Fin k0_t7_loop.trips) : Fin 2 → Nat :=
  let c27_i32 : BitVec 32 := 27#32
  let v630 : Index := Scalar.indexCast c27_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v631 : Index := Scalar.indexCast v301
  ![27, v631.toNat]
def k0_off390 (k0_t7 : Fin k0_t7_loop.trips) : Fin 2 → Nat :=
  let c28_i32 : BitVec 32 := 28#32
  let v642 : Index := Scalar.indexCast c28_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v643 : Index := Scalar.indexCast v301
  ![28, v643.toNat]
def k0_off391 (k0_t7 : Fin k0_t7_loop.trips) : Fin 2 → Nat :=
  let c29_i32 : BitVec 32 := 29#32
  let v654 : Index := Scalar.indexCast c29_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v655 : Index := Scalar.indexCast v301
  ![29, v655.toNat]
def k0_off392 (k0_t7 : Fin k0_t7_loop.trips) : Fin 2 → Nat :=
  let c30_i32 : BitVec 32 := 30#32
  let v666 : Index := Scalar.indexCast c30_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v667 : Index := Scalar.indexCast v301
  ![30, v667.toNat]
def k0_off393 (k0_t7 : Fin k0_t7_loop.trips) : Fin 2 → Nat :=
  let c31_i32 : BitVec 32 := 31#32
  let v678 : Index := Scalar.indexCast c31_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v679 : Index := Scalar.indexCast v301
  ![31, v679.toNat]
def k0_off394 (k0_t7 : Fin k0_t7_loop.trips) : Fin 2 → Nat :=
  let c32_i32_115 : BitVec 32 := 32#32
  let v690 : Index := Scalar.indexCast c32_i32_115
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v691 : Index := Scalar.indexCast v301
  ![32, v691.toNat]
def k0_off395 (k0_t7 : Fin k0_t7_loop.trips) : Fin 2 → Nat :=
  let c33_i32 : BitVec 32 := 33#32
  let v702 : Index := Scalar.indexCast c33_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v703 : Index := Scalar.indexCast v301
  ![33, v703.toNat]
def k0_off396 (k0_t7 : Fin k0_t7_loop.trips) : Fin 2 → Nat :=
  let c34_i32 : BitVec 32 := 34#32
  let v714 : Index := Scalar.indexCast c34_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v715 : Index := Scalar.indexCast v301
  ![34, v715.toNat]
def k0_off397 (k0_t7 : Fin k0_t7_loop.trips) : Fin 2 → Nat :=
  let c35_i32 : BitVec 32 := 35#32
  let v726 : Index := Scalar.indexCast c35_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v727 : Index := Scalar.indexCast v301
  ![35, v727.toNat]
def k0_off398 (k0_t7 : Fin k0_t7_loop.trips) : Fin 2 → Nat :=
  let c36_i32 : BitVec 32 := 36#32
  let v738 : Index := Scalar.indexCast c36_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v739 : Index := Scalar.indexCast v301
  ![36, v739.toNat]
def k0_off399 (k0_t7 : Fin k0_t7_loop.trips) : Fin 2 → Nat :=
  let c37_i32 : BitVec 32 := 37#32
  let v750 : Index := Scalar.indexCast c37_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v751 : Index := Scalar.indexCast v301
  ![37, v751.toNat]
def k0_off400 (k0_t7 : Fin k0_t7_loop.trips) : Fin 2 → Nat :=
  let c38_i32 : BitVec 32 := 38#32
  let v762 : Index := Scalar.indexCast c38_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v763 : Index := Scalar.indexCast v301
  ![38, v763.toNat]
def k0_off401 (k0_t7 : Fin k0_t7_loop.trips) : Fin 2 → Nat :=
  let c39_i32 : BitVec 32 := 39#32
  let v774 : Index := Scalar.indexCast c39_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v775 : Index := Scalar.indexCast v301
  ![39, v775.toNat]
def k0_off402 (k0_t7 : Fin k0_t7_loop.trips) : Fin 2 → Nat :=
  let c40_i32 : BitVec 32 := 40#32
  let v786 : Index := Scalar.indexCast c40_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v787 : Index := Scalar.indexCast v301
  ![40, v787.toNat]
def k0_off403 (k0_t7 : Fin k0_t7_loop.trips) : Fin 2 → Nat :=
  let c41_i32 : BitVec 32 := 41#32
  let v798 : Index := Scalar.indexCast c41_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v799 : Index := Scalar.indexCast v301
  ![41, v799.toNat]
def k0_off404 (k0_t7 : Fin k0_t7_loop.trips) : Fin 2 → Nat :=
  let c42_i32 : BitVec 32 := 42#32
  let v810 : Index := Scalar.indexCast c42_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v811 : Index := Scalar.indexCast v301
  ![42, v811.toNat]
def k0_off405 (k0_t7 : Fin k0_t7_loop.trips) : Fin 2 → Nat :=
  let c43_i32 : BitVec 32 := 43#32
  let v822 : Index := Scalar.indexCast c43_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v823 : Index := Scalar.indexCast v301
  ![43, v823.toNat]
def k0_off406 (k0_t7 : Fin k0_t7_loop.trips) : Fin 2 → Nat :=
  let c44_i32 : BitVec 32 := 44#32
  let v834 : Index := Scalar.indexCast c44_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v835 : Index := Scalar.indexCast v301
  ![44, v835.toNat]
def k0_off407 (k0_t7 : Fin k0_t7_loop.trips) : Fin 2 → Nat :=
  let c45_i32 : BitVec 32 := 45#32
  let v846 : Index := Scalar.indexCast c45_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v847 : Index := Scalar.indexCast v301
  ![45, v847.toNat]
def k0_off408 (k0_t7 : Fin k0_t7_loop.trips) : Fin 2 → Nat :=
  let c46_i32 : BitVec 32 := 46#32
  let v858 : Index := Scalar.indexCast c46_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v859 : Index := Scalar.indexCast v301
  ![46, v859.toNat]
def k0_off409 (k0_t7 : Fin k0_t7_loop.trips) : Fin 2 → Nat :=
  let c47_i32 : BitVec 32 := 47#32
  let v870 : Index := Scalar.indexCast c47_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v871 : Index := Scalar.indexCast v301
  ![47, v871.toNat]
def k0_off410 (k0_t7 : Fin k0_t7_loop.trips) : Fin 2 → Nat :=
  let c48_i32 : BitVec 32 := 48#32
  let v882 : Index := Scalar.indexCast c48_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v883 : Index := Scalar.indexCast v301
  ![48, v883.toNat]
def k0_off411 (k0_t7 : Fin k0_t7_loop.trips) : Fin 2 → Nat :=
  let c49_i32 : BitVec 32 := 49#32
  let v894 : Index := Scalar.indexCast c49_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v895 : Index := Scalar.indexCast v301
  ![49, v895.toNat]
def k0_off412 (k0_t7 : Fin k0_t7_loop.trips) : Fin 2 → Nat :=
  let c50_i32 : BitVec 32 := 50#32
  let v906 : Index := Scalar.indexCast c50_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v907 : Index := Scalar.indexCast v301
  ![50, v907.toNat]
def k0_off413 (k0_t7 : Fin k0_t7_loop.trips) : Fin 2 → Nat :=
  let c51_i32 : BitVec 32 := 51#32
  let v918 : Index := Scalar.indexCast c51_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v919 : Index := Scalar.indexCast v301
  ![51, v919.toNat]
def k0_off414 (k0_t7 : Fin k0_t7_loop.trips) : Fin 2 → Nat :=
  let c52_i32 : BitVec 32 := 52#32
  let v930 : Index := Scalar.indexCast c52_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v931 : Index := Scalar.indexCast v301
  ![52, v931.toNat]
def k0_off415 (k0_t7 : Fin k0_t7_loop.trips) : Fin 2 → Nat :=
  let c53_i32 : BitVec 32 := 53#32
  let v942 : Index := Scalar.indexCast c53_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v943 : Index := Scalar.indexCast v301
  ![53, v943.toNat]
def k0_off416 (k0_t7 : Fin k0_t7_loop.trips) : Fin 2 → Nat :=
  let c54_i32 : BitVec 32 := 54#32
  let v954 : Index := Scalar.indexCast c54_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v955 : Index := Scalar.indexCast v301
  ![54, v955.toNat]
def k0_off417 (k0_t7 : Fin k0_t7_loop.trips) : Fin 2 → Nat :=
  let c55_i32 : BitVec 32 := 55#32
  let v966 : Index := Scalar.indexCast c55_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v967 : Index := Scalar.indexCast v301
  ![55, v967.toNat]
def k0_off418 (k0_t7 : Fin k0_t7_loop.trips) : Fin 2 → Nat :=
  let c56_i32 : BitVec 32 := 56#32
  let v978 : Index := Scalar.indexCast c56_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v979 : Index := Scalar.indexCast v301
  ![56, v979.toNat]
def k0_off419 (k0_t7 : Fin k0_t7_loop.trips) : Fin 2 → Nat :=
  let c57_i32 : BitVec 32 := 57#32
  let v990 : Index := Scalar.indexCast c57_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v991 : Index := Scalar.indexCast v301
  ![57, v991.toNat]
def k0_off420 (k0_t7 : Fin k0_t7_loop.trips) : Fin 2 → Nat :=
  let c58_i32 : BitVec 32 := 58#32
  let v1002 : Index := Scalar.indexCast c58_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v1003 : Index := Scalar.indexCast v301
  ![58, v1003.toNat]
def k0_off421 (k0_t7 : Fin k0_t7_loop.trips) : Fin 2 → Nat :=
  let c59_i32 : BitVec 32 := 59#32
  let v1014 : Index := Scalar.indexCast c59_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v1015 : Index := Scalar.indexCast v301
  ![59, v1015.toNat]
def k0_off422 (k0_t7 : Fin k0_t7_loop.trips) : Fin 2 → Nat :=
  let c60_i32 : BitVec 32 := 60#32
  let v1026 : Index := Scalar.indexCast c60_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v1027 : Index := Scalar.indexCast v301
  ![60, v1027.toNat]
def k0_off423 (k0_t7 : Fin k0_t7_loop.trips) : Fin 2 → Nat :=
  let c61_i32 : BitVec 32 := 61#32
  let v1038 : Index := Scalar.indexCast c61_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v1039 : Index := Scalar.indexCast v301
  ![61, v1039.toNat]
def k0_off424 (k0_t7 : Fin k0_t7_loop.trips) : Fin 2 → Nat :=
  let c62_i32 : BitVec 32 := 62#32
  let v1050 : Index := Scalar.indexCast c62_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v1051 : Index := Scalar.indexCast v301
  ![62, v1051.toNat]
def k0_off425 (k0_t7 : Fin k0_t7_loop.trips) : Fin 2 → Nat :=
  let c63_i32 : BitVec 32 := 63#32
  let v1062 : Index := Scalar.indexCast c63_i32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v1063 : Index := Scalar.indexCast v301
  ![63, v1063.toNat]
def k0_off426 (k0_t7 : Fin k0_t7_loop.trips) : Fin 1 → Nat :=
  let c512_i32_148 : BitVec 32 := 512#32
  let c0_i32_60 : BitVec 32 := 0#32
  let c1_i32_62 : BitVec 32 := 1#32
  let arg22 : BitVec 32 := Scf.iv c0_i32_60 c1_i32_62 k0_t7
  let c16_i32_73 : BitVec 32 := 16#32
  let v300 : BitVec 32 := Scalar.muli arg22 c16_i32_73
  let v301 : BitVec 32 := v300
  let v1078 : BitVec 32 := Scalar.addi c512_i32_148 v301
  let v1079 : Index := Scalar.indexCast v1078
  ![v1079.toNat]
def k0_cond14 (k0_t1 : Fin k0_t1_loop.trips) : BitVec 1 :=
  let c0_i32_6 : BitVec 32 := 0#32
  let c1_i32 : BitVec 32 := 1#32
  let arg20 : BitVec 32 := Scf.iv c0_i32_6 c1_i32 k0_t1
  let c1_i32_68 : BitVec 32 := 1#32
  let v292 : BitVec 32 := Scalar.addi arg20 c1_i32_68
  let c16_i32_69 : BitVec 32 := 16#32
  let v293 : BitVec 1 := Scalar.cmpi .slt v292 c16_i32_69
  let v294 : BitVec 32 := Scalar.extui v293
  let c0_i32_70 : BitVec 32 := 0#32
  let v295 : BitVec 1 := Scalar.cmpi .ne v294 c0_i32_70
  v295

def k0_off427 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v58 : BitVec 32 := Scalar.addi v3 arg20
  let c0_i32_73 : BitVec 32 := 0#32
  let c0_i32_74 : BitVec 32 := 0#32
  ![v58.toNat, 0, 0]
def k0_off428 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v58 : BitVec 32 := Scalar.addi v3 arg20
  let c1_i32_77 : BitVec 32 := 1#32
  let v304 : BitVec 32 := Scalar.addi v58 c1_i32_77
  let c0_i32_78 : BitVec 32 := 0#32
  let c512_i32_79 : BitVec 32 := 512#32
  ![v304.toNat, 0, 512]
def k0_off429 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_6 : BitVec 32 := 0#32
  let c1_i32 : BitVec 32 := 1#32
  let arg20 : BitVec 32 := Scf.iv c0_i32_6 c1_i32 k0_t1
  let v58 : BitVec 32 := Scalar.addi v3 arg20
  let c0_i32_71 : BitVec 32 := 0#32
  ![v58.toNat, 0]
def k0_off430 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c16_i32_9 : BitVec 32 := 16#32
  let v15 : BitVec 32 := Scalar.addi v3 c16_i32_9
  let c1_i32_10 : BitVec 32 := 1#32
  let v16 : BitVec 32 := Scalar.subi v15 c1_i32_10
  let c0_i32_11 : BitVec 32 := 0#32
  ![v16.toNat, 0]
def k0_off431 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c16_i32_9 : BitVec 32 := 16#32
  let v15 : BitVec 32 := Scalar.addi v3 c16_i32_9
  let c1_i32_10 : BitVec 32 := 1#32
  let v16 : BitVec 32 := Scalar.subi v15 c1_i32_10
  let c1_i32_13 : BitVec 32 := 1#32
  let v21 : BitVec 32 := Scalar.subi v16 c1_i32_13
  let c0_i32_14 : BitVec 32 := 0#32
  let c512_i32_15 : BitVec 32 := 512#32
  ![v21.toNat, 0, 512]
def k0_off432 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c16_i32_9 : BitVec 32 := 16#32
  let v15 : BitVec 32 := Scalar.addi v3 c16_i32_9
  let c1_i32_10 : BitVec 32 := 1#32
  let v16 : BitVec 32 := Scalar.subi v15 c1_i32_10
  let c0_i32_18 : BitVec 32 := 0#32
  let c0_i32_19 : BitVec 32 := 0#32
  ![v16.toNat, 0, 0]
def k0_off433 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c16_i32_9 : BitVec 32 := 16#32
  let v15 : BitVec 32 := Scalar.addi v3 c16_i32_9
  let c1_i32_10 : BitVec 32 := 1#32
  let v16 : BitVec 32 := Scalar.subi v15 c1_i32_10
  let c0_i32_22 : BitVec 32 := 0#32
  let c512_i32_23 : BitVec 32 := 512#32
  ![v16.toNat, 0, 512]
def k0_off434 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  ![v3.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x8192x1024_S512x64x1024 : S4x8192x1024.ShapeCasts S512x64x1024
  shapeCasts_S4x8192_S512x64 : S4x8192.ShapeCasts S512x64
  iota_S16_d0_w32_scVector : S16.Iotas .scVector 32 [0]
  squeezes_S1x64x512_S64x512 : S1x64x512.Squeezes S64x512
  h_S1x16 : 0 < S1x16.numel
  shapeCasts_S1x16_S16 : S1x16.ShapeCasts S16
  slices_S16_o0_S1 : S16.Slices ![0] S1
  inpos_S1_p0 : ∀ a, (![0] : Fin 1 → Nat) a < S1.size a
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  squeezes_S1x1024_S1024 : S1x1024.Squeezes S1024
  shapeCasts_S16_S1x16 : S16.ShapeCasts S1x16
  h_S16 : 0 < S16.numel
  shapeCasts_S16_S16 : S16.ShapeCasts S16
  inb_S16_S16_0 : ∀ a, (![0] : Fin 1 → Nat) a + S16.size a ≤ S16.size a
  bcast_S128_S1x128_1 : S128.BroadcastsInDim S1x128 (![1] : Fin 1 → Fin S1x128.rank)
  bcast_S1x128_S4x128_0_1 : S1x128.BroadcastsInDim S4x128 (![0, 1] : Fin 2 → Fin S4x128.rank)
  shapeCasts_S512x1024_S4x128x1024 : S512x1024.ShapeCasts S4x128x1024
  shapeCasts_S512_S4x128 : S512.ShapeCasts S4x128
  shapeCasts_S512x64x1024_S4x128x64x1024 : S512x64x1024.ShapeCasts S4x128x64x1024
  hcc0_scratch6 : 0 + S_.numel ≤ 9
  hcc0_scratch7 : 1 + S_.numel ≤ 9
  hcc0_scratch8 : 2 + S_.numel ≤ 9
  hcc0_scratch9 : 3 + S_.numel ≤ 9
  hcc0_scratch10 : 4 + S_.numel ≤ 9
  hcc0_scratch11 : 5 + S_.numel ≤ 9
  hcc0_scratch12 : 6 + S_.numel ≤ 9
  hcc0_scoped0 : 7 + S_.numel ≤ 9
  hcc0_scoped1 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S16x64.size a ≤ S512x64.size a
  k0_off2_inb : ∀ i : grid0.Coords, ∀ a, (k0_off2 i) a + S1x64x512.size a ≤ S512x64x1024.size a
  k0_off3_inb : ∀ i : grid0.Coords, ∀ a, (k0_off3 i) a + S1x64x512.size a ≤ S512x64x1024.size a
  k0_t1_ok : k0_t1_loop.OK
  k0_off4_inb : ∀ k0_t1 : Fin k0_t1_loop.trips, ∀ (k0_h1 : k0_cond1 k0_t1 = 1#1), ∀ (k0_h2 : k0_cond2 k0_t1 = 1#1), ∀ a, (k0_off4 k0_t1) a + S1x16.size a ≤ S16x64.size a
  k0_off5_inb : ∀ k0_t1 : Fin k0_t1_loop.trips, ∀ (k0_h1 : k0_cond1 k0_t1 = 1#1), ∀ (k0_h2 : k0_cond2 k0_t1 = 1#1), ∀ a, (k0_off5 k0_t1) a + S1x16.size a ≤ S16x64.size a
  k0_off6_inb : ∀ k0_t1 : Fin k0_t1_loop.trips, ∀ (k0_h1 : k0_cond1 k0_t1 = 1#1), ∀ (k0_h2 : k0_cond2 k0_t1 = 1#1), ∀ a, (k0_off6 k0_t1) a + S1x16.size a ≤ S16x64.size a
  k0_off7_inb : ∀ k0_t1 : Fin k0_t1_loop.trips, ∀ (k0_h1 : k0_cond1 k0_t1 = 1#1), ∀ (k0_h2 : k0_cond2 k0_t1 = 1#1), ∀ a, (k0_off7 k0_t1) a + S1x16.size a ≤ S16x64.size a
  k0_off8_inb : ∀ (i : grid0.Coords) (k0_t1 : Fin k0_t1_loop.trips), ∀ (k0_h1 : k0_cond1 k0_t1 = 1#1), ∀ (k0_h2 : k0_cond2 k0_t1 = 1#1), ∀ (k0_h3 : k0_cond3 k0_t1 = 1#1), ∀ a, (k0_off8 i k0_t1) a + S1x1024.size a ≤ S512x1024.size a
  k0_off9_inb : ∀ (i : grid0.Coords) (k0_t1 : Fin k0_t1_loop.trips), ∀ (k0_h1 : k0_cond1 k0_t1 = 1#1), ∀ (k0_h2 : k0_cond2 k0_t1 = 1#1), ∀ a, (k0_off9 i k0_t1) a + S1x64x512.size a ≤ S512x64x1024.size a
  k0_t2_ok : ∀ k0_t1 : Fin k0_t1_loop.trips, ∀ (k0_h1 : k0_cond1 k0_t1 = 1#1), ∀ (k0_h2 : k0_cond2 k0_t1 = 1#1), k0_t2_loop.OK
  k0_mult1_dvd : ∀ (k0_t1 : Fin k0_t1_loop.trips) (k0_t2 : Fin k0_t2_loop.trips), ∀ (k0_h1 : k0_cond1 k0_t1 = 1#1), ∀ (k0_h2 : k0_cond2 k0_t1 = 1#1), 16 ∣ (k0_mult1 k0_t2).toNat
  k0_off10_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off10 k0_t2) a + S1x16.size a ≤ S64x512.size a
  k0_off11_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off11 k0_t2) a + S1x16.size a ≤ S64x512.size a
  k0_off12_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off12 k0_t2) a + S1x16.size a ≤ S64x512.size a
  k0_off13_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off13 k0_t2) a + S1x16.size a ≤ S64x512.size a
  k0_off14_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off14 k0_t2) a + S1x16.size a ≤ S64x512.size a
  k0_off15_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off15 k0_t2) a + S1x16.size a ≤ S64x512.size a
  k0_off16_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off16 k0_t2) a + S1x16.size a ≤ S64x512.size a
  k0_off17_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off17 k0_t2) a + S1x16.size a ≤ S64x512.size a
  k0_off18_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off18 k0_t2) a + S1x16.size a ≤ S64x512.size a
  k0_off19_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off19 k0_t2) a + S1x16.size a ≤ S64x512.size a
  k0_off20_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off20 k0_t2) a + S1x16.size a ≤ S64x512.size a
  k0_off21_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off21 k0_t2) a + S1x16.size a ≤ S64x512.size a
  k0_off22_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off22 k0_t2) a + S1x16.size a ≤ S64x512.size a
  k0_off23_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off23 k0_t2) a + S1x16.size a ≤ S64x512.size a
  k0_off24_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off24 k0_t2) a + S1x16.size a ≤ S64x512.size a
  k0_off25_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off25 k0_t2) a + S1x16.size a ≤ S64x512.size a
  k0_off26_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off26 k0_t2) a + S1x16.size a ≤ S64x512.size a
  k0_off27_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off27 k0_t2) a + S1x16.size a ≤ S64x512.size a
  k0_off28_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off28 k0_t2) a + S1x16.size a ≤ S64x512.size a
  k0_off29_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off29 k0_t2) a + S1x16.size a ≤ S64x512.size a
  k0_off30_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off30 k0_t2) a + S1x16.size a ≤ S64x512.size a
  k0_off31_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off31 k0_t2) a + S1x16.size a ≤ S64x512.size a
  k0_off32_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off32 k0_t2) a + S1x16.size a ≤ S64x512.size a
  k0_off33_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off33 k0_t2) a + S1x16.size a ≤ S64x512.size a
  k0_off34_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off34 k0_t2) a + S1x16.size a ≤ S64x512.size a
  k0_off35_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off35 k0_t2) a + S1x16.size a ≤ S64x512.size a
  k0_off36_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off36 k0_t2) a + S1x16.size a ≤ S64x512.size a
  k0_off37_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off37 k0_t2) a + S1x16.size a ≤ S64x512.size a
  k0_off38_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off38 k0_t2) a + S1x16.size a ≤ S64x512.size a
  k0_off39_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off39 k0_t2) a + S1x16.size a ≤ S64x512.size a
  k0_off40_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off40 k0_t2) a + S1x16.size a ≤ S64x512.size a
  k0_off41_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off41 k0_t2) a + S1x16.size a ≤ S64x512.size a
  k0_off42_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off42 k0_t2) a + S1x16.size a ≤ S64x512.size a
  k0_off43_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off43 k0_t2) a + S1x16.size a ≤ S64x512.size a
  k0_off44_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off44 k0_t2) a + S1x16.size a ≤ S64x512.size a
  k0_off45_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off45 k0_t2) a + S1x16.size a ≤ S64x512.size a
  k0_off46_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off46 k0_t2) a + S1x16.size a ≤ S64x512.size a
  k0_off47_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off47 k0_t2) a + S1x16.size a ≤ S64x512.size a
  k0_off48_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off48 k0_t2) a + S1x16.size a ≤ S64x512.size a
  k0_off49_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off49 k0_t2) a + S1x16.size a ≤ S64x512.size a
  k0_off50_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off50 k0_t2) a + S1x16.size a ≤ S64x512.size a
  k0_off51_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off51 k0_t2) a + S1x16.size a ≤ S64x512.size a
  k0_off52_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off52 k0_t2) a + S1x16.size a ≤ S64x512.size a
  k0_off53_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off53 k0_t2) a + S1x16.size a ≤ S64x512.size a
  k0_off54_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off54 k0_t2) a + S1x16.size a ≤ S64x512.size a
  k0_off55_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off55 k0_t2) a + S1x16.size a ≤ S64x512.size a
  k0_off56_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off56 k0_t2) a + S1x16.size a ≤ S64x512.size a
  k0_off57_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off57 k0_t2) a + S1x16.size a ≤ S64x512.size a
  k0_off58_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off58 k0_t2) a + S1x16.size a ≤ S64x512.size a
  k0_off59_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off59 k0_t2) a + S1x16.size a ≤ S64x512.size a
  k0_off60_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off60 k0_t2) a + S1x16.size a ≤ S64x512.size a
  k0_off61_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off61 k0_t2) a + S1x16.size a ≤ S64x512.size a
  k0_off62_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off62 k0_t2) a + S1x16.size a ≤ S64x512.size a
  k0_off63_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off63 k0_t2) a + S1x16.size a ≤ S64x512.size a
  k0_off64_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off64 k0_t2) a + S1x16.size a ≤ S64x512.size a
  k0_off65_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off65 k0_t2) a + S1x16.size a ≤ S64x512.size a
  k0_off66_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off66 k0_t2) a + S1x16.size a ≤ S64x512.size a
  k0_off67_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off67 k0_t2) a + S1x16.size a ≤ S64x512.size a
  k0_off68_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off68 k0_t2) a + S1x16.size a ≤ S64x512.size a
  k0_off69_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off69 k0_t2) a + S1x16.size a ≤ S64x512.size a
  k0_off70_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off70 k0_t2) a + S1x16.size a ≤ S64x512.size a
  k0_off71_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off71 k0_t2) a + S1x16.size a ≤ S64x512.size a
  k0_off72_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off72 k0_t2) a + S1x16.size a ≤ S64x512.size a
  k0_off73_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off73 k0_t2) a + S1x16.size a ≤ S64x512.size a
  k0_off74_inb : ∀ (k0_t1 : Fin k0_t1_loop.trips) (k0_t2 : Fin k0_t2_loop.trips), ∀ (k0_h1 : k0_cond1 k0_t1 = 1#1), ∀ (k0_h2 : k0_cond2 k0_t1 = 1#1), ∀ a, (k0_off74 k0_t2) a + S16.size a ≤ S1024.size a
  k0_off75_inb : ∀ (i : grid0.Coords) (k0_t1 : Fin k0_t1_loop.trips), ∀ (k0_h1 : k0_cond1 k0_t1 = 1#1), ∀ (k0_h2 : k0_cond2 k0_t1 = 1#1), ∀ (k0_h4 : k0_cond4 k0_t1 = 1#1), ∀ (k0_h5 : k0_cond5 k0_t1 = 1#1), ∀ a, (k0_off75 i k0_t1) a + S1x64x512.size a ≤ S512x64x1024.size a
  k0_off76_inb : ∀ (i : grid0.Coords) (k0_t1 : Fin k0_t1_loop.trips), ∀ (k0_h1 : k0_cond1 k0_t1 = 1#1), ∀ (k0_h2 : k0_cond2 k0_t1 = 1#1), ∀ (k0_h4 : k0_cond4 k0_t1 = 1#1), ∀ a, (k0_off76 i k0_t1) a + S1x64x512.size a ≤ S512x64x1024.size a
  k0_off77_inb : ∀ (i : grid0.Coords) (k0_t1 : Fin k0_t1_loop.trips), ∀ (k0_h1 : k0_cond1 k0_t1 = 1#1), ∀ (k0_h2 : k0_cond2 k0_t1 = 1#1), ∀ a, (k0_off77 i k0_t1) a + S1x64x512.size a ≤ S512x64x1024.size a
  k0_t3_ok : ∀ k0_t1 : Fin k0_t1_loop.trips, ∀ (k0_h1 : k0_cond1 k0_t1 = 1#1), ∀ (k0_h2 : k0_cond2 k0_t1 = 1#1), k0_t3_loop.OK
  k0_mult2_dvd : ∀ (k0_t1 : Fin k0_t1_loop.trips) (k0_t3 : Fin k0_t3_loop.trips), ∀ (k0_h1 : k0_cond1 k0_t1 = 1#1), ∀ (k0_h2 : k0_cond2 k0_t1 = 1#1), 16 ∣ (k0_mult2 k0_t3).toNat
  k0_off78_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off78 k0_t3) a + S1x16.size a ≤ S64x512.size a
  k0_off79_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off79 k0_t3) a + S1x16.size a ≤ S64x512.size a
  k0_off80_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off80 k0_t3) a + S1x16.size a ≤ S64x512.size a
  k0_off81_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off81 k0_t3) a + S1x16.size a ≤ S64x512.size a
  k0_off82_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off82 k0_t3) a + S1x16.size a ≤ S64x512.size a
  k0_off83_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off83 k0_t3) a + S1x16.size a ≤ S64x512.size a
  k0_off84_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off84 k0_t3) a + S1x16.size a ≤ S64x512.size a
  k0_off85_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off85 k0_t3) a + S1x16.size a ≤ S64x512.size a
  k0_off86_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off86 k0_t3) a + S1x16.size a ≤ S64x512.size a
  k0_off87_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off87 k0_t3) a + S1x16.size a ≤ S64x512.size a
  k0_off88_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off88 k0_t3) a + S1x16.size a ≤ S64x512.size a
  k0_off89_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off89 k0_t3) a + S1x16.size a ≤ S64x512.size a
  k0_off90_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off90 k0_t3) a + S1x16.size a ≤ S64x512.size a
  k0_off91_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off91 k0_t3) a + S1x16.size a ≤ S64x512.size a
  k0_off92_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off92 k0_t3) a + S1x16.size a ≤ S64x512.size a
  k0_off93_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off93 k0_t3) a + S1x16.size a ≤ S64x512.size a
  k0_off94_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off94 k0_t3) a + S1x16.size a ≤ S64x512.size a
  k0_off95_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off95 k0_t3) a + S1x16.size a ≤ S64x512.size a
  k0_off96_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off96 k0_t3) a + S1x16.size a ≤ S64x512.size a
  k0_off97_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off97 k0_t3) a + S1x16.size a ≤ S64x512.size a
  k0_off98_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off98 k0_t3) a + S1x16.size a ≤ S64x512.size a
  k0_off99_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off99 k0_t3) a + S1x16.size a ≤ S64x512.size a
  k0_off100_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off100 k0_t3) a + S1x16.size a ≤ S64x512.size a
  k0_off101_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off101 k0_t3) a + S1x16.size a ≤ S64x512.size a
  k0_off102_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off102 k0_t3) a + S1x16.size a ≤ S64x512.size a
  k0_off103_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off103 k0_t3) a + S1x16.size a ≤ S64x512.size a
  k0_off104_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off104 k0_t3) a + S1x16.size a ≤ S64x512.size a
  k0_off105_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off105 k0_t3) a + S1x16.size a ≤ S64x512.size a
  k0_off106_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off106 k0_t3) a + S1x16.size a ≤ S64x512.size a
  k0_off107_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off107 k0_t3) a + S1x16.size a ≤ S64x512.size a
  k0_off108_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off108 k0_t3) a + S1x16.size a ≤ S64x512.size a
  k0_off109_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off109 k0_t3) a + S1x16.size a ≤ S64x512.size a
  k0_off110_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off110 k0_t3) a + S1x16.size a ≤ S64x512.size a
  k0_off111_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off111 k0_t3) a + S1x16.size a ≤ S64x512.size a
  k0_off112_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off112 k0_t3) a + S1x16.size a ≤ S64x512.size a
  k0_off113_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off113 k0_t3) a + S1x16.size a ≤ S64x512.size a
  k0_off114_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off114 k0_t3) a + S1x16.size a ≤ S64x512.size a
  k0_off115_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off115 k0_t3) a + S1x16.size a ≤ S64x512.size a
  k0_off116_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off116 k0_t3) a + S1x16.size a ≤ S64x512.size a
  k0_off117_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off117 k0_t3) a + S1x16.size a ≤ S64x512.size a
  k0_off118_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off118 k0_t3) a + S1x16.size a ≤ S64x512.size a
  k0_off119_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off119 k0_t3) a + S1x16.size a ≤ S64x512.size a
  k0_off120_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off120 k0_t3) a + S1x16.size a ≤ S64x512.size a
  k0_off121_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off121 k0_t3) a + S1x16.size a ≤ S64x512.size a
  k0_off122_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off122 k0_t3) a + S1x16.size a ≤ S64x512.size a
  k0_off123_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off123 k0_t3) a + S1x16.size a ≤ S64x512.size a
  k0_off124_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off124 k0_t3) a + S1x16.size a ≤ S64x512.size a
  k0_off125_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off125 k0_t3) a + S1x16.size a ≤ S64x512.size a
  k0_off126_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off126 k0_t3) a + S1x16.size a ≤ S64x512.size a
  k0_off127_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off127 k0_t3) a + S1x16.size a ≤ S64x512.size a
  k0_off128_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off128 k0_t3) a + S1x16.size a ≤ S64x512.size a
  k0_off129_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off129 k0_t3) a + S1x16.size a ≤ S64x512.size a
  k0_off130_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off130 k0_t3) a + S1x16.size a ≤ S64x512.size a
  k0_off131_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off131 k0_t3) a + S1x16.size a ≤ S64x512.size a
  k0_off132_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off132 k0_t3) a + S1x16.size a ≤ S64x512.size a
  k0_off133_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off133 k0_t3) a + S1x16.size a ≤ S64x512.size a
  k0_off134_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off134 k0_t3) a + S1x16.size a ≤ S64x512.size a
  k0_off135_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off135 k0_t3) a + S1x16.size a ≤ S64x512.size a
  k0_off136_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off136 k0_t3) a + S1x16.size a ≤ S64x512.size a
  k0_off137_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off137 k0_t3) a + S1x16.size a ≤ S64x512.size a
  k0_off138_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off138 k0_t3) a + S1x16.size a ≤ S64x512.size a
  k0_off139_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off139 k0_t3) a + S1x16.size a ≤ S64x512.size a
  k0_off140_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off140 k0_t3) a + S1x16.size a ≤ S64x512.size a
  k0_off141_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off141 k0_t3) a + S1x16.size a ≤ S64x512.size a
  k0_off142_inb : ∀ (k0_t1 : Fin k0_t1_loop.trips) (k0_t3 : Fin k0_t3_loop.trips), ∀ (k0_h1 : k0_cond1 k0_t1 = 1#1), ∀ (k0_h2 : k0_cond2 k0_t1 = 1#1), ∀ a, (k0_off142 k0_t3) a + S16.size a ≤ S1024.size a
  k0_off143_inb : ∀ (i : grid0.Coords) (k0_t1 : Fin k0_t1_loop.trips), ∀ (k0_h1 : k0_cond1 k0_t1 = 1#1), ∀ (k0_h2 : k0_cond2 k0_t1 = 1#1), ∀ (k0_h6 : k0_cond6 k0_t1 = 1#1), ∀ a, (k0_off143 i k0_t1) a + S1x64x512.size a ≤ S512x64x1024.size a
  k0_off144_inb : ∀ (i : grid0.Coords) (k0_t1 : Fin k0_t1_loop.trips), ∀ (k0_h1 : k0_cond1 k0_t1 = 1#1), ∀ (k0_h2 : k0_cond2 k0_t1 = 1#1), ∀ (k0_h6 : k0_cond6 k0_t1 = 1#1), ∀ a, (k0_off144 i k0_t1) a + S1x64x512.size a ≤ S512x64x1024.size a
  k0_off145_inb : ∀ (i : grid0.Coords) (k0_t1 : Fin k0_t1_loop.trips), ∀ (k0_h1 : k0_cond1 k0_t1 = 1#1), ∀ (k0_h2 : k0_cond2 k0_t1 = 1#1), ∀ a, (k0_off145 i k0_t1) a + S1x1024.size a ≤ S512x1024.size a
  k0_off146_inb : ∀ k0_t1 : Fin k0_t1_loop.trips, ∀ (k0_h1 : k0_cond1 k0_t1 = 1#1), ∀ (k0_h2 : ¬(k0_cond2 k0_t1 = 1#1)), ∀ a, (k0_off146 k0_t1) a + S1x16.size a ≤ S16x64.size a
  k0_off147_inb : ∀ k0_t1 : Fin k0_t1_loop.trips, ∀ (k0_h1 : k0_cond1 k0_t1 = 1#1), ∀ (k0_h2 : ¬(k0_cond2 k0_t1 = 1#1)), ∀ a, (k0_off147 k0_t1) a + S1x16.size a ≤ S16x64.size a
  k0_off148_inb : ∀ k0_t1 : Fin k0_t1_loop.trips, ∀ (k0_h1 : k0_cond1 k0_t1 = 1#1), ∀ (k0_h2 : ¬(k0_cond2 k0_t1 = 1#1)), ∀ a, (k0_off148 k0_t1) a + S1x16.size a ≤ S16x64.size a
  k0_off149_inb : ∀ k0_t1 : Fin k0_t1_loop.trips, ∀ (k0_h1 : k0_cond1 k0_t1 = 1#1), ∀ (k0_h2 : ¬(k0_cond2 k0_t1 = 1#1)), ∀ a, (k0_off149 k0_t1) a + S1x16.size a ≤ S16x64.size a
  k0_off150_inb : ∀ (i : grid0.Coords) (k0_t1 : Fin k0_t1_loop.trips), ∀ (k0_h1 : k0_cond1 k0_t1 = 1#1), ∀ (k0_h2 : ¬(k0_cond2 k0_t1 = 1#1)), ∀ (k0_h7 : k0_cond7 k0_t1 = 1#1), ∀ a, (k0_off150 i k0_t1) a + S1x1024.size a ≤ S512x1024.size a
  k0_off151_inb : ∀ (i : grid0.Coords) (k0_t1 : Fin k0_t1_loop.trips), ∀ (k0_h1 : k0_cond1 k0_t1 = 1#1), ∀ (k0_h2 : ¬(k0_cond2 k0_t1 = 1#1)), ∀ a, (k0_off151 i k0_t1) a + S1x64x512.size a ≤ S512x64x1024.size a
  k0_t4_ok : ∀ k0_t1 : Fin k0_t1_loop.trips, ∀ (k0_h1 : k0_cond1 k0_t1 = 1#1), ∀ (k0_h2 : ¬(k0_cond2 k0_t1 = 1#1)), k0_t4_loop.OK
  k0_mult3_dvd : ∀ (k0_t1 : Fin k0_t1_loop.trips) (k0_t4 : Fin k0_t4_loop.trips), ∀ (k0_h1 : k0_cond1 k0_t1 = 1#1), ∀ (k0_h2 : ¬(k0_cond2 k0_t1 = 1#1)), 16 ∣ (k0_mult3 k0_t4).toNat
  k0_off152_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off152 k0_t4) a + S1x16.size a ≤ S64x512.size a
  k0_off153_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off153 k0_t4) a + S1x16.size a ≤ S64x512.size a
  k0_off154_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off154 k0_t4) a + S1x16.size a ≤ S64x512.size a
  k0_off155_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off155 k0_t4) a + S1x16.size a ≤ S64x512.size a
  k0_off156_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off156 k0_t4) a + S1x16.size a ≤ S64x512.size a
  k0_off157_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off157 k0_t4) a + S1x16.size a ≤ S64x512.size a
  k0_off158_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off158 k0_t4) a + S1x16.size a ≤ S64x512.size a
  k0_off159_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off159 k0_t4) a + S1x16.size a ≤ S64x512.size a
  k0_off160_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off160 k0_t4) a + S1x16.size a ≤ S64x512.size a
  k0_off161_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off161 k0_t4) a + S1x16.size a ≤ S64x512.size a
  k0_off162_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off162 k0_t4) a + S1x16.size a ≤ S64x512.size a
  k0_off163_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off163 k0_t4) a + S1x16.size a ≤ S64x512.size a
  k0_off164_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off164 k0_t4) a + S1x16.size a ≤ S64x512.size a
  k0_off165_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off165 k0_t4) a + S1x16.size a ≤ S64x512.size a
  k0_off166_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off166 k0_t4) a + S1x16.size a ≤ S64x512.size a
  k0_off167_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off167 k0_t4) a + S1x16.size a ≤ S64x512.size a
  k0_off168_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off168 k0_t4) a + S1x16.size a ≤ S64x512.size a
  k0_off169_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off169 k0_t4) a + S1x16.size a ≤ S64x512.size a
  k0_off170_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off170 k0_t4) a + S1x16.size a ≤ S64x512.size a
  k0_off171_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off171 k0_t4) a + S1x16.size a ≤ S64x512.size a
  k0_off172_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off172 k0_t4) a + S1x16.size a ≤ S64x512.size a
  k0_off173_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off173 k0_t4) a + S1x16.size a ≤ S64x512.size a
  k0_off174_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off174 k0_t4) a + S1x16.size a ≤ S64x512.size a
  k0_off175_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off175 k0_t4) a + S1x16.size a ≤ S64x512.size a
  k0_off176_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off176 k0_t4) a + S1x16.size a ≤ S64x512.size a
  k0_off177_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off177 k0_t4) a + S1x16.size a ≤ S64x512.size a
  k0_off178_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off178 k0_t4) a + S1x16.size a ≤ S64x512.size a
  k0_off179_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off179 k0_t4) a + S1x16.size a ≤ S64x512.size a
  k0_off180_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off180 k0_t4) a + S1x16.size a ≤ S64x512.size a
  k0_off181_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off181 k0_t4) a + S1x16.size a ≤ S64x512.size a
  k0_off182_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off182 k0_t4) a + S1x16.size a ≤ S64x512.size a
  k0_off183_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off183 k0_t4) a + S1x16.size a ≤ S64x512.size a
  k0_off184_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off184 k0_t4) a + S1x16.size a ≤ S64x512.size a
  k0_off185_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off185 k0_t4) a + S1x16.size a ≤ S64x512.size a
  k0_off186_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off186 k0_t4) a + S1x16.size a ≤ S64x512.size a
  k0_off187_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off187 k0_t4) a + S1x16.size a ≤ S64x512.size a
  k0_off188_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off188 k0_t4) a + S1x16.size a ≤ S64x512.size a
  k0_off189_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off189 k0_t4) a + S1x16.size a ≤ S64x512.size a
  k0_off190_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off190 k0_t4) a + S1x16.size a ≤ S64x512.size a
  k0_off191_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off191 k0_t4) a + S1x16.size a ≤ S64x512.size a
  k0_off192_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off192 k0_t4) a + S1x16.size a ≤ S64x512.size a
  k0_off193_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off193 k0_t4) a + S1x16.size a ≤ S64x512.size a
  k0_off194_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off194 k0_t4) a + S1x16.size a ≤ S64x512.size a
  k0_off195_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off195 k0_t4) a + S1x16.size a ≤ S64x512.size a
  k0_off196_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off196 k0_t4) a + S1x16.size a ≤ S64x512.size a
  k0_off197_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off197 k0_t4) a + S1x16.size a ≤ S64x512.size a
  k0_off198_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off198 k0_t4) a + S1x16.size a ≤ S64x512.size a
  k0_off199_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off199 k0_t4) a + S1x16.size a ≤ S64x512.size a
  k0_off200_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off200 k0_t4) a + S1x16.size a ≤ S64x512.size a
  k0_off201_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off201 k0_t4) a + S1x16.size a ≤ S64x512.size a
  k0_off202_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off202 k0_t4) a + S1x16.size a ≤ S64x512.size a
  k0_off203_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off203 k0_t4) a + S1x16.size a ≤ S64x512.size a
  k0_off204_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off204 k0_t4) a + S1x16.size a ≤ S64x512.size a
  k0_off205_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off205 k0_t4) a + S1x16.size a ≤ S64x512.size a
  k0_off206_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off206 k0_t4) a + S1x16.size a ≤ S64x512.size a
  k0_off207_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off207 k0_t4) a + S1x16.size a ≤ S64x512.size a
  k0_off208_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off208 k0_t4) a + S1x16.size a ≤ S64x512.size a
  k0_off209_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off209 k0_t4) a + S1x16.size a ≤ S64x512.size a
  k0_off210_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off210 k0_t4) a + S1x16.size a ≤ S64x512.size a
  k0_off211_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off211 k0_t4) a + S1x16.size a ≤ S64x512.size a
  k0_off212_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off212 k0_t4) a + S1x16.size a ≤ S64x512.size a
  k0_off213_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off213 k0_t4) a + S1x16.size a ≤ S64x512.size a
  k0_off214_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off214 k0_t4) a + S1x16.size a ≤ S64x512.size a
  k0_off215_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off215 k0_t4) a + S1x16.size a ≤ S64x512.size a
  k0_off216_inb : ∀ (k0_t1 : Fin k0_t1_loop.trips) (k0_t4 : Fin k0_t4_loop.trips), ∀ (k0_h1 : k0_cond1 k0_t1 = 1#1), ∀ (k0_h2 : ¬(k0_cond2 k0_t1 = 1#1)), ∀ a, (k0_off216 k0_t4) a + S16.size a ≤ S1024.size a
  k0_off217_inb : ∀ (i : grid0.Coords) (k0_t1 : Fin k0_t1_loop.trips), ∀ (k0_h1 : k0_cond1 k0_t1 = 1#1), ∀ (k0_h2 : ¬(k0_cond2 k0_t1 = 1#1)), ∀ (k0_h8 : k0_cond8 k0_t1 = 1#1), ∀ (k0_h9 : k0_cond9 k0_t1 = 1#1), ∀ a, (k0_off217 i k0_t1) a + S1x64x512.size a ≤ S512x64x1024.size a
  k0_off218_inb : ∀ (i : grid0.Coords) (k0_t1 : Fin k0_t1_loop.trips), ∀ (k0_h1 : k0_cond1 k0_t1 = 1#1), ∀ (k0_h2 : ¬(k0_cond2 k0_t1 = 1#1)), ∀ (k0_h8 : k0_cond8 k0_t1 = 1#1), ∀ a, (k0_off218 i k0_t1) a + S1x64x512.size a ≤ S512x64x1024.size a
  k0_off219_inb : ∀ (i : grid0.Coords) (k0_t1 : Fin k0_t1_loop.trips), ∀ (k0_h1 : k0_cond1 k0_t1 = 1#1), ∀ (k0_h2 : ¬(k0_cond2 k0_t1 = 1#1)), ∀ a, (k0_off219 i k0_t1) a + S1x64x512.size a ≤ S512x64x1024.size a
  k0_t5_ok : ∀ k0_t1 : Fin k0_t1_loop.trips, ∀ (k0_h1 : k0_cond1 k0_t1 = 1#1), ∀ (k0_h2 : ¬(k0_cond2 k0_t1 = 1#1)), k0_t5_loop.OK
  k0_mult4_dvd : ∀ (k0_t1 : Fin k0_t1_loop.trips) (k0_t5 : Fin k0_t5_loop.trips), ∀ (k0_h1 : k0_cond1 k0_t1 = 1#1), ∀ (k0_h2 : ¬(k0_cond2 k0_t1 = 1#1)), 16 ∣ (k0_mult4 k0_t5).toNat
  k0_off220_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off220 k0_t5) a + S1x16.size a ≤ S64x512.size a
  k0_off221_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off221 k0_t5) a + S1x16.size a ≤ S64x512.size a
  k0_off222_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off222 k0_t5) a + S1x16.size a ≤ S64x512.size a
  k0_off223_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off223 k0_t5) a + S1x16.size a ≤ S64x512.size a
  k0_off224_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off224 k0_t5) a + S1x16.size a ≤ S64x512.size a
  k0_off225_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off225 k0_t5) a + S1x16.size a ≤ S64x512.size a
  k0_off226_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off226 k0_t5) a + S1x16.size a ≤ S64x512.size a
  k0_off227_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off227 k0_t5) a + S1x16.size a ≤ S64x512.size a
  k0_off228_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off228 k0_t5) a + S1x16.size a ≤ S64x512.size a
  k0_off229_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off229 k0_t5) a + S1x16.size a ≤ S64x512.size a
  k0_off230_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off230 k0_t5) a + S1x16.size a ≤ S64x512.size a
  k0_off231_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off231 k0_t5) a + S1x16.size a ≤ S64x512.size a
  k0_off232_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off232 k0_t5) a + S1x16.size a ≤ S64x512.size a
  k0_off233_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off233 k0_t5) a + S1x16.size a ≤ S64x512.size a
  k0_off234_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off234 k0_t5) a + S1x16.size a ≤ S64x512.size a
  k0_off235_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off235 k0_t5) a + S1x16.size a ≤ S64x512.size a
  k0_off236_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off236 k0_t5) a + S1x16.size a ≤ S64x512.size a
  k0_off237_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off237 k0_t5) a + S1x16.size a ≤ S64x512.size a
  k0_off238_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off238 k0_t5) a + S1x16.size a ≤ S64x512.size a
  k0_off239_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off239 k0_t5) a + S1x16.size a ≤ S64x512.size a
  k0_off240_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off240 k0_t5) a + S1x16.size a ≤ S64x512.size a
  k0_off241_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off241 k0_t5) a + S1x16.size a ≤ S64x512.size a
  k0_off242_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off242 k0_t5) a + S1x16.size a ≤ S64x512.size a
  k0_off243_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off243 k0_t5) a + S1x16.size a ≤ S64x512.size a
  k0_off244_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off244 k0_t5) a + S1x16.size a ≤ S64x512.size a
  k0_off245_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off245 k0_t5) a + S1x16.size a ≤ S64x512.size a
  k0_off246_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off246 k0_t5) a + S1x16.size a ≤ S64x512.size a
  k0_off247_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off247 k0_t5) a + S1x16.size a ≤ S64x512.size a
  k0_off248_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off248 k0_t5) a + S1x16.size a ≤ S64x512.size a
  k0_off249_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off249 k0_t5) a + S1x16.size a ≤ S64x512.size a
  k0_off250_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off250 k0_t5) a + S1x16.size a ≤ S64x512.size a
  k0_off251_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off251 k0_t5) a + S1x16.size a ≤ S64x512.size a
  k0_off252_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off252 k0_t5) a + S1x16.size a ≤ S64x512.size a
  k0_off253_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off253 k0_t5) a + S1x16.size a ≤ S64x512.size a
  k0_off254_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off254 k0_t5) a + S1x16.size a ≤ S64x512.size a
  k0_off255_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off255 k0_t5) a + S1x16.size a ≤ S64x512.size a
  k0_off256_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off256 k0_t5) a + S1x16.size a ≤ S64x512.size a
  k0_off257_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off257 k0_t5) a + S1x16.size a ≤ S64x512.size a
  k0_off258_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off258 k0_t5) a + S1x16.size a ≤ S64x512.size a
  k0_off259_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off259 k0_t5) a + S1x16.size a ≤ S64x512.size a
  k0_off260_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off260 k0_t5) a + S1x16.size a ≤ S64x512.size a
  k0_off261_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off261 k0_t5) a + S1x16.size a ≤ S64x512.size a
  k0_off262_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off262 k0_t5) a + S1x16.size a ≤ S64x512.size a
  k0_off263_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off263 k0_t5) a + S1x16.size a ≤ S64x512.size a
  k0_off264_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off264 k0_t5) a + S1x16.size a ≤ S64x512.size a
  k0_off265_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off265 k0_t5) a + S1x16.size a ≤ S64x512.size a
  k0_off266_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off266 k0_t5) a + S1x16.size a ≤ S64x512.size a
  k0_off267_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off267 k0_t5) a + S1x16.size a ≤ S64x512.size a
  k0_off268_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off268 k0_t5) a + S1x16.size a ≤ S64x512.size a
  k0_off269_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off269 k0_t5) a + S1x16.size a ≤ S64x512.size a
  k0_off270_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off270 k0_t5) a + S1x16.size a ≤ S64x512.size a
  k0_off271_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off271 k0_t5) a + S1x16.size a ≤ S64x512.size a
  k0_off272_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off272 k0_t5) a + S1x16.size a ≤ S64x512.size a
  k0_off273_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off273 k0_t5) a + S1x16.size a ≤ S64x512.size a
  k0_off274_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off274 k0_t5) a + S1x16.size a ≤ S64x512.size a
  k0_off275_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off275 k0_t5) a + S1x16.size a ≤ S64x512.size a
  k0_off276_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off276 k0_t5) a + S1x16.size a ≤ S64x512.size a
  k0_off277_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off277 k0_t5) a + S1x16.size a ≤ S64x512.size a
  k0_off278_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off278 k0_t5) a + S1x16.size a ≤ S64x512.size a
  k0_off279_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off279 k0_t5) a + S1x16.size a ≤ S64x512.size a
  k0_off280_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off280 k0_t5) a + S1x16.size a ≤ S64x512.size a
  k0_off281_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off281 k0_t5) a + S1x16.size a ≤ S64x512.size a
  k0_off282_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off282 k0_t5) a + S1x16.size a ≤ S64x512.size a
  k0_off283_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off283 k0_t5) a + S1x16.size a ≤ S64x512.size a
  k0_off284_inb : ∀ (k0_t1 : Fin k0_t1_loop.trips) (k0_t5 : Fin k0_t5_loop.trips), ∀ (k0_h1 : k0_cond1 k0_t1 = 1#1), ∀ (k0_h2 : ¬(k0_cond2 k0_t1 = 1#1)), ∀ a, (k0_off284 k0_t5) a + S16.size a ≤ S1024.size a
  k0_off285_inb : ∀ (i : grid0.Coords) (k0_t1 : Fin k0_t1_loop.trips), ∀ (k0_h1 : k0_cond1 k0_t1 = 1#1), ∀ (k0_h2 : ¬(k0_cond2 k0_t1 = 1#1)), ∀ (k0_h10 : k0_cond10 k0_t1 = 1#1), ∀ a, (k0_off285 i k0_t1) a + S1x64x512.size a ≤ S512x64x1024.size a
  k0_off286_inb : ∀ (i : grid0.Coords) (k0_t1 : Fin k0_t1_loop.trips), ∀ (k0_h1 : k0_cond1 k0_t1 = 1#1), ∀ (k0_h2 : ¬(k0_cond2 k0_t1 = 1#1)), ∀ (k0_h10 : k0_cond10 k0_t1 = 1#1), ∀ a, (k0_off286 i k0_t1) a + S1x64x512.size a ≤ S512x64x1024.size a
  k0_off287_inb : ∀ (i : grid0.Coords) (k0_t1 : Fin k0_t1_loop.trips), ∀ (k0_h1 : k0_cond1 k0_t1 = 1#1), ∀ (k0_h2 : ¬(k0_cond2 k0_t1 = 1#1)), ∀ a, (k0_off287 i k0_t1) a + S1x1024.size a ≤ S512x1024.size a
  k0_off288_inb : ∀ k0_t1 : Fin k0_t1_loop.trips, ∀ (k0_h1 : ¬(k0_cond1 k0_t1 = 1#1)), ∀ a, (k0_off288 k0_t1) a + S1x16.size a ≤ S16x64.size a
  k0_off289_inb : ∀ k0_t1 : Fin k0_t1_loop.trips, ∀ (k0_h1 : ¬(k0_cond1 k0_t1 = 1#1)), ∀ a, (k0_off289 k0_t1) a + S1x16.size a ≤ S16x64.size a
  k0_off290_inb : ∀ k0_t1 : Fin k0_t1_loop.trips, ∀ (k0_h1 : ¬(k0_cond1 k0_t1 = 1#1)), ∀ a, (k0_off290 k0_t1) a + S1x16.size a ≤ S16x64.size a
  k0_off291_inb : ∀ k0_t1 : Fin k0_t1_loop.trips, ∀ (k0_h1 : ¬(k0_cond1 k0_t1 = 1#1)), ∀ a, (k0_off291 k0_t1) a + S1x16.size a ≤ S16x64.size a
  k0_off292_inb : ∀ (i : grid0.Coords) (k0_t1 : Fin k0_t1_loop.trips), ∀ (k0_h1 : ¬(k0_cond1 k0_t1 = 1#1)), ∀ (k0_h11 : k0_cond11 k0_t1 = 1#1), ∀ a, (k0_off292 i k0_t1) a + S1x1024.size a ≤ S512x1024.size a
  k0_off293_inb : ∀ (i : grid0.Coords) (k0_t1 : Fin k0_t1_loop.trips), ∀ (k0_h1 : ¬(k0_cond1 k0_t1 = 1#1)), ∀ a, (k0_off293 i k0_t1) a + S1x64x512.size a ≤ S512x64x1024.size a
  k0_t6_ok : ∀ k0_t1 : Fin k0_t1_loop.trips, ∀ (k0_h1 : ¬(k0_cond1 k0_t1 = 1#1)), k0_t6_loop.OK
  k0_mult5_dvd : ∀ (k0_t1 : Fin k0_t1_loop.trips) (k0_t6 : Fin k0_t6_loop.trips), ∀ (k0_h1 : ¬(k0_cond1 k0_t1 = 1#1)), 16 ∣ (k0_mult5 k0_t6).toNat
  k0_off294_inb : ∀ (k0_t1 : Fin k0_t1_loop.trips) (k0_t6 : Fin k0_t6_loop.trips), ∀ (k0_h1 : ¬(k0_cond1 k0_t1 = 1#1)), ∀ a, (k0_off294 k0_t6) a + S1x16.size a ≤ S64x512.size a
  k0_off295_inb : ∀ (k0_t1 : Fin k0_t1_loop.trips) (k0_t6 : Fin k0_t6_loop.trips), ∀ (k0_h1 : ¬(k0_cond1 k0_t1 = 1#1)), ∀ a, (k0_off295 k0_t6) a + S1x16.size a ≤ S64x512.size a
  k0_off296_inb : ∀ (k0_t1 : Fin k0_t1_loop.trips) (k0_t6 : Fin k0_t6_loop.trips), ∀ (k0_h1 : ¬(k0_cond1 k0_t1 = 1#1)), ∀ a, (k0_off296 k0_t6) a + S1x16.size a ≤ S64x512.size a
  k0_off297_inb : ∀ (k0_t1 : Fin k0_t1_loop.trips) (k0_t6 : Fin k0_t6_loop.trips), ∀ (k0_h1 : ¬(k0_cond1 k0_t1 = 1#1)), ∀ a, (k0_off297 k0_t6) a + S1x16.size a ≤ S64x512.size a
  k0_off298_inb : ∀ (k0_t1 : Fin k0_t1_loop.trips) (k0_t6 : Fin k0_t6_loop.trips), ∀ (k0_h1 : ¬(k0_cond1 k0_t1 = 1#1)), ∀ a, (k0_off298 k0_t6) a + S1x16.size a ≤ S64x512.size a
  k0_off299_inb : ∀ (k0_t1 : Fin k0_t1_loop.trips) (k0_t6 : Fin k0_t6_loop.trips), ∀ (k0_h1 : ¬(k0_cond1 k0_t1 = 1#1)), ∀ a, (k0_off299 k0_t6) a + S1x16.size a ≤ S64x512.size a
  k0_off300_inb : ∀ (k0_t1 : Fin k0_t1_loop.trips) (k0_t6 : Fin k0_t6_loop.trips), ∀ (k0_h1 : ¬(k0_cond1 k0_t1 = 1#1)), ∀ a, (k0_off300 k0_t6) a + S1x16.size a ≤ S64x512.size a
  k0_off301_inb : ∀ (k0_t1 : Fin k0_t1_loop.trips) (k0_t6 : Fin k0_t6_loop.trips), ∀ (k0_h1 : ¬(k0_cond1 k0_t1 = 1#1)), ∀ a, (k0_off301 k0_t6) a + S1x16.size a ≤ S64x512.size a
  k0_off302_inb : ∀ (k0_t1 : Fin k0_t1_loop.trips) (k0_t6 : Fin k0_t6_loop.trips), ∀ (k0_h1 : ¬(k0_cond1 k0_t1 = 1#1)), ∀ a, (k0_off302 k0_t6) a + S1x16.size a ≤ S64x512.size a
  k0_off303_inb : ∀ (k0_t1 : Fin k0_t1_loop.trips) (k0_t6 : Fin k0_t6_loop.trips), ∀ (k0_h1 : ¬(k0_cond1 k0_t1 = 1#1)), ∀ a, (k0_off303 k0_t6) a + S1x16.size a ≤ S64x512.size a
  k0_off304_inb : ∀ (k0_t1 : Fin k0_t1_loop.trips) (k0_t6 : Fin k0_t6_loop.trips), ∀ (k0_h1 : ¬(k0_cond1 k0_t1 = 1#1)), ∀ a, (k0_off304 k0_t6) a + S1x16.size a ≤ S64x512.size a
  k0_off305_inb : ∀ (k0_t1 : Fin k0_t1_loop.trips) (k0_t6 : Fin k0_t6_loop.trips), ∀ (k0_h1 : ¬(k0_cond1 k0_t1 = 1#1)), ∀ a, (k0_off305 k0_t6) a + S1x16.size a ≤ S64x512.size a
  k0_off306_inb : ∀ (k0_t1 : Fin k0_t1_loop.trips) (k0_t6 : Fin k0_t6_loop.trips), ∀ (k0_h1 : ¬(k0_cond1 k0_t1 = 1#1)), ∀ a, (k0_off306 k0_t6) a + S1x16.size a ≤ S64x512.size a
  k0_off307_inb : ∀ (k0_t1 : Fin k0_t1_loop.trips) (k0_t6 : Fin k0_t6_loop.trips), ∀ (k0_h1 : ¬(k0_cond1 k0_t1 = 1#1)), ∀ a, (k0_off307 k0_t6) a + S1x16.size a ≤ S64x512.size a
  k0_off308_inb : ∀ (k0_t1 : Fin k0_t1_loop.trips) (k0_t6 : Fin k0_t6_loop.trips), ∀ (k0_h1 : ¬(k0_cond1 k0_t1 = 1#1)), ∀ a, (k0_off308 k0_t6) a + S1x16.size a ≤ S64x512.size a
  k0_off309_inb : ∀ (k0_t1 : Fin k0_t1_loop.trips) (k0_t6 : Fin k0_t6_loop.trips), ∀ (k0_h1 : ¬(k0_cond1 k0_t1 = 1#1)), ∀ a, (k0_off309 k0_t6) a + S1x16.size a ≤ S64x512.size a
  k0_off310_inb : ∀ (k0_t1 : Fin k0_t1_loop.trips) (k0_t6 : Fin k0_t6_loop.trips), ∀ (k0_h1 : ¬(k0_cond1 k0_t1 = 1#1)), ∀ a, (k0_off310 k0_t6) a + S1x16.size a ≤ S64x512.size a
  k0_off311_inb : ∀ (k0_t1 : Fin k0_t1_loop.trips) (k0_t6 : Fin k0_t6_loop.trips), ∀ (k0_h1 : ¬(k0_cond1 k0_t1 = 1#1)), ∀ a, (k0_off311 k0_t6) a + S1x16.size a ≤ S64x512.size a
  k0_off312_inb : ∀ (k0_t1 : Fin k0_t1_loop.trips) (k0_t6 : Fin k0_t6_loop.trips), ∀ (k0_h1 : ¬(k0_cond1 k0_t1 = 1#1)), ∀ a, (k0_off312 k0_t6) a + S1x16.size a ≤ S64x512.size a
  k0_off313_inb : ∀ (k0_t1 : Fin k0_t1_loop.trips) (k0_t6 : Fin k0_t6_loop.trips), ∀ (k0_h1 : ¬(k0_cond1 k0_t1 = 1#1)), ∀ a, (k0_off313 k0_t6) a + S1x16.size a ≤ S64x512.size a
  k0_off314_inb : ∀ (k0_t1 : Fin k0_t1_loop.trips) (k0_t6 : Fin k0_t6_loop.trips), ∀ (k0_h1 : ¬(k0_cond1 k0_t1 = 1#1)), ∀ a, (k0_off314 k0_t6) a + S1x16.size a ≤ S64x512.size a
  k0_off315_inb : ∀ (k0_t1 : Fin k0_t1_loop.trips) (k0_t6 : Fin k0_t6_loop.trips), ∀ (k0_h1 : ¬(k0_cond1 k0_t1 = 1#1)), ∀ a, (k0_off315 k0_t6) a + S1x16.size a ≤ S64x512.size a
  k0_off316_inb : ∀ (k0_t1 : Fin k0_t1_loop.trips) (k0_t6 : Fin k0_t6_loop.trips), ∀ (k0_h1 : ¬(k0_cond1 k0_t1 = 1#1)), ∀ a, (k0_off316 k0_t6) a + S1x16.size a ≤ S64x512.size a
  k0_off317_inb : ∀ (k0_t1 : Fin k0_t1_loop.trips) (k0_t6 : Fin k0_t6_loop.trips), ∀ (k0_h1 : ¬(k0_cond1 k0_t1 = 1#1)), ∀ a, (k0_off317 k0_t6) a + S1x16.size a ≤ S64x512.size a
  k0_off318_inb : ∀ (k0_t1 : Fin k0_t1_loop.trips) (k0_t6 : Fin k0_t6_loop.trips), ∀ (k0_h1 : ¬(k0_cond1 k0_t1 = 1#1)), ∀ a, (k0_off318 k0_t6) a + S1x16.size a ≤ S64x512.size a
  k0_off319_inb : ∀ (k0_t1 : Fin k0_t1_loop.trips) (k0_t6 : Fin k0_t6_loop.trips), ∀ (k0_h1 : ¬(k0_cond1 k0_t1 = 1#1)), ∀ a, (k0_off319 k0_t6) a + S1x16.size a ≤ S64x512.size a
  k0_off320_inb : ∀ (k0_t1 : Fin k0_t1_loop.trips) (k0_t6 : Fin k0_t6_loop.trips), ∀ (k0_h1 : ¬(k0_cond1 k0_t1 = 1#1)), ∀ a, (k0_off320 k0_t6) a + S1x16.size a ≤ S64x512.size a
  k0_off321_inb : ∀ (k0_t1 : Fin k0_t1_loop.trips) (k0_t6 : Fin k0_t6_loop.trips), ∀ (k0_h1 : ¬(k0_cond1 k0_t1 = 1#1)), ∀ a, (k0_off321 k0_t6) a + S1x16.size a ≤ S64x512.size a
  k0_off322_inb : ∀ (k0_t1 : Fin k0_t1_loop.trips) (k0_t6 : Fin k0_t6_loop.trips), ∀ (k0_h1 : ¬(k0_cond1 k0_t1 = 1#1)), ∀ a, (k0_off322 k0_t6) a + S1x16.size a ≤ S64x512.size a
  k0_off323_inb : ∀ (k0_t1 : Fin k0_t1_loop.trips) (k0_t6 : Fin k0_t6_loop.trips), ∀ (k0_h1 : ¬(k0_cond1 k0_t1 = 1#1)), ∀ a, (k0_off323 k0_t6) a + S1x16.size a ≤ S64x512.size a
  k0_off324_inb : ∀ (k0_t1 : Fin k0_t1_loop.trips) (k0_t6 : Fin k0_t6_loop.trips), ∀ (k0_h1 : ¬(k0_cond1 k0_t1 = 1#1)), ∀ a, (k0_off324 k0_t6) a + S1x16.size a ≤ S64x512.size a
  k0_off325_inb : ∀ (k0_t1 : Fin k0_t1_loop.trips) (k0_t6 : Fin k0_t6_loop.trips), ∀ (k0_h1 : ¬(k0_cond1 k0_t1 = 1#1)), ∀ a, (k0_off325 k0_t6) a + S1x16.size a ≤ S64x512.size a
  k0_off326_inb : ∀ (k0_t1 : Fin k0_t1_loop.trips) (k0_t6 : Fin k0_t6_loop.trips), ∀ (k0_h1 : ¬(k0_cond1 k0_t1 = 1#1)), ∀ a, (k0_off326 k0_t6) a + S1x16.size a ≤ S64x512.size a
  k0_off327_inb : ∀ (k0_t1 : Fin k0_t1_loop.trips) (k0_t6 : Fin k0_t6_loop.trips), ∀ (k0_h1 : ¬(k0_cond1 k0_t1 = 1#1)), ∀ a, (k0_off327 k0_t6) a + S1x16.size a ≤ S64x512.size a
  k0_off328_inb : ∀ (k0_t1 : Fin k0_t1_loop.trips) (k0_t6 : Fin k0_t6_loop.trips), ∀ (k0_h1 : ¬(k0_cond1 k0_t1 = 1#1)), ∀ a, (k0_off328 k0_t6) a + S1x16.size a ≤ S64x512.size a
  k0_off329_inb : ∀ (k0_t1 : Fin k0_t1_loop.trips) (k0_t6 : Fin k0_t6_loop.trips), ∀ (k0_h1 : ¬(k0_cond1 k0_t1 = 1#1)), ∀ a, (k0_off329 k0_t6) a + S1x16.size a ≤ S64x512.size a
  k0_off330_inb : ∀ (k0_t1 : Fin k0_t1_loop.trips) (k0_t6 : Fin k0_t6_loop.trips), ∀ (k0_h1 : ¬(k0_cond1 k0_t1 = 1#1)), ∀ a, (k0_off330 k0_t6) a + S1x16.size a ≤ S64x512.size a
  k0_off331_inb : ∀ (k0_t1 : Fin k0_t1_loop.trips) (k0_t6 : Fin k0_t6_loop.trips), ∀ (k0_h1 : ¬(k0_cond1 k0_t1 = 1#1)), ∀ a, (k0_off331 k0_t6) a + S1x16.size a ≤ S64x512.size a
  k0_off332_inb : ∀ (k0_t1 : Fin k0_t1_loop.trips) (k0_t6 : Fin k0_t6_loop.trips), ∀ (k0_h1 : ¬(k0_cond1 k0_t1 = 1#1)), ∀ a, (k0_off332 k0_t6) a + S1x16.size a ≤ S64x512.size a
  k0_off333_inb : ∀ (k0_t1 : Fin k0_t1_loop.trips) (k0_t6 : Fin k0_t6_loop.trips), ∀ (k0_h1 : ¬(k0_cond1 k0_t1 = 1#1)), ∀ a, (k0_off333 k0_t6) a + S1x16.size a ≤ S64x512.size a
  k0_off334_inb : ∀ (k0_t1 : Fin k0_t1_loop.trips) (k0_t6 : Fin k0_t6_loop.trips), ∀ (k0_h1 : ¬(k0_cond1 k0_t1 = 1#1)), ∀ a, (k0_off334 k0_t6) a + S1x16.size a ≤ S64x512.size a
  k0_off335_inb : ∀ (k0_t1 : Fin k0_t1_loop.trips) (k0_t6 : Fin k0_t6_loop.trips), ∀ (k0_h1 : ¬(k0_cond1 k0_t1 = 1#1)), ∀ a, (k0_off335 k0_t6) a + S1x16.size a ≤ S64x512.size a
  k0_off336_inb : ∀ (k0_t1 : Fin k0_t1_loop.trips) (k0_t6 : Fin k0_t6_loop.trips), ∀ (k0_h1 : ¬(k0_cond1 k0_t1 = 1#1)), ∀ a, (k0_off336 k0_t6) a + S1x16.size a ≤ S64x512.size a
  k0_off337_inb : ∀ (k0_t1 : Fin k0_t1_loop.trips) (k0_t6 : Fin k0_t6_loop.trips), ∀ (k0_h1 : ¬(k0_cond1 k0_t1 = 1#1)), ∀ a, (k0_off337 k0_t6) a + S1x16.size a ≤ S64x512.size a
  k0_off338_inb : ∀ (k0_t1 : Fin k0_t1_loop.trips) (k0_t6 : Fin k0_t6_loop.trips), ∀ (k0_h1 : ¬(k0_cond1 k0_t1 = 1#1)), ∀ a, (k0_off338 k0_t6) a + S1x16.size a ≤ S64x512.size a
  k0_off339_inb : ∀ (k0_t1 : Fin k0_t1_loop.trips) (k0_t6 : Fin k0_t6_loop.trips), ∀ (k0_h1 : ¬(k0_cond1 k0_t1 = 1#1)), ∀ a, (k0_off339 k0_t6) a + S1x16.size a ≤ S64x512.size a
  k0_off340_inb : ∀ (k0_t1 : Fin k0_t1_loop.trips) (k0_t6 : Fin k0_t6_loop.trips), ∀ (k0_h1 : ¬(k0_cond1 k0_t1 = 1#1)), ∀ a, (k0_off340 k0_t6) a + S1x16.size a ≤ S64x512.size a
  k0_off341_inb : ∀ (k0_t1 : Fin k0_t1_loop.trips) (k0_t6 : Fin k0_t6_loop.trips), ∀ (k0_h1 : ¬(k0_cond1 k0_t1 = 1#1)), ∀ a, (k0_off341 k0_t6) a + S1x16.size a ≤ S64x512.size a
  k0_off342_inb : ∀ (k0_t1 : Fin k0_t1_loop.trips) (k0_t6 : Fin k0_t6_loop.trips), ∀ (k0_h1 : ¬(k0_cond1 k0_t1 = 1#1)), ∀ a, (k0_off342 k0_t6) a + S1x16.size a ≤ S64x512.size a
  k0_off343_inb : ∀ (k0_t1 : Fin k0_t1_loop.trips) (k0_t6 : Fin k0_t6_loop.trips), ∀ (k0_h1 : ¬(k0_cond1 k0_t1 = 1#1)), ∀ a, (k0_off343 k0_t6) a + S1x16.size a ≤ S64x512.size a
  k0_off344_inb : ∀ (k0_t1 : Fin k0_t1_loop.trips) (k0_t6 : Fin k0_t6_loop.trips), ∀ (k0_h1 : ¬(k0_cond1 k0_t1 = 1#1)), ∀ a, (k0_off344 k0_t6) a + S1x16.size a ≤ S64x512.size a
  k0_off345_inb : ∀ (k0_t1 : Fin k0_t1_loop.trips) (k0_t6 : Fin k0_t6_loop.trips), ∀ (k0_h1 : ¬(k0_cond1 k0_t1 = 1#1)), ∀ a, (k0_off345 k0_t6) a + S1x16.size a ≤ S64x512.size a
  k0_off346_inb : ∀ (k0_t1 : Fin k0_t1_loop.trips) (k0_t6 : Fin k0_t6_loop.trips), ∀ (k0_h1 : ¬(k0_cond1 k0_t1 = 1#1)), ∀ a, (k0_off346 k0_t6) a + S1x16.size a ≤ S64x512.size a
  k0_off347_inb : ∀ (k0_t1 : Fin k0_t1_loop.trips) (k0_t6 : Fin k0_t6_loop.trips), ∀ (k0_h1 : ¬(k0_cond1 k0_t1 = 1#1)), ∀ a, (k0_off347 k0_t6) a + S1x16.size a ≤ S64x512.size a
  k0_off348_inb : ∀ (k0_t1 : Fin k0_t1_loop.trips) (k0_t6 : Fin k0_t6_loop.trips), ∀ (k0_h1 : ¬(k0_cond1 k0_t1 = 1#1)), ∀ a, (k0_off348 k0_t6) a + S1x16.size a ≤ S64x512.size a
  k0_off349_inb : ∀ (k0_t1 : Fin k0_t1_loop.trips) (k0_t6 : Fin k0_t6_loop.trips), ∀ (k0_h1 : ¬(k0_cond1 k0_t1 = 1#1)), ∀ a, (k0_off349 k0_t6) a + S1x16.size a ≤ S64x512.size a
  k0_off350_inb : ∀ (k0_t1 : Fin k0_t1_loop.trips) (k0_t6 : Fin k0_t6_loop.trips), ∀ (k0_h1 : ¬(k0_cond1 k0_t1 = 1#1)), ∀ a, (k0_off350 k0_t6) a + S1x16.size a ≤ S64x512.size a
  k0_off351_inb : ∀ (k0_t1 : Fin k0_t1_loop.trips) (k0_t6 : Fin k0_t6_loop.trips), ∀ (k0_h1 : ¬(k0_cond1 k0_t1 = 1#1)), ∀ a, (k0_off351 k0_t6) a + S1x16.size a ≤ S64x512.size a
  k0_off352_inb : ∀ (k0_t1 : Fin k0_t1_loop.trips) (k0_t6 : Fin k0_t6_loop.trips), ∀ (k0_h1 : ¬(k0_cond1 k0_t1 = 1#1)), ∀ a, (k0_off352 k0_t6) a + S1x16.size a ≤ S64x512.size a
  k0_off353_inb : ∀ (k0_t1 : Fin k0_t1_loop.trips) (k0_t6 : Fin k0_t6_loop.trips), ∀ (k0_h1 : ¬(k0_cond1 k0_t1 = 1#1)), ∀ a, (k0_off353 k0_t6) a + S1x16.size a ≤ S64x512.size a
  k0_off354_inb : ∀ (k0_t1 : Fin k0_t1_loop.trips) (k0_t6 : Fin k0_t6_loop.trips), ∀ (k0_h1 : ¬(k0_cond1 k0_t1 = 1#1)), ∀ a, (k0_off354 k0_t6) a + S1x16.size a ≤ S64x512.size a
  k0_off355_inb : ∀ (k0_t1 : Fin k0_t1_loop.trips) (k0_t6 : Fin k0_t6_loop.trips), ∀ (k0_h1 : ¬(k0_cond1 k0_t1 = 1#1)), ∀ a, (k0_off355 k0_t6) a + S1x16.size a ≤ S64x512.size a
  k0_off356_inb : ∀ (k0_t1 : Fin k0_t1_loop.trips) (k0_t6 : Fin k0_t6_loop.trips), ∀ (k0_h1 : ¬(k0_cond1 k0_t1 = 1#1)), ∀ a, (k0_off356 k0_t6) a + S1x16.size a ≤ S64x512.size a
  k0_off357_inb : ∀ (k0_t1 : Fin k0_t1_loop.trips) (k0_t6 : Fin k0_t6_loop.trips), ∀ (k0_h1 : ¬(k0_cond1 k0_t1 = 1#1)), ∀ a, (k0_off357 k0_t6) a + S1x16.size a ≤ S64x512.size a
  k0_off358_inb : ∀ (k0_t1 : Fin k0_t1_loop.trips) (k0_t6 : Fin k0_t6_loop.trips), ∀ (k0_h1 : ¬(k0_cond1 k0_t1 = 1#1)), ∀ a, (k0_off358 k0_t6) a + S16.size a ≤ S1024.size a
  k0_off359_inb : ∀ (i : grid0.Coords) (k0_t1 : Fin k0_t1_loop.trips), ∀ (k0_h1 : ¬(k0_cond1 k0_t1 = 1#1)), ∀ (k0_h12 : k0_cond12 k0_t1 = 1#1), ∀ (k0_h13 : k0_cond13 k0_t1 = 1#1), ∀ a, (k0_off359 i k0_t1) a + S1x64x512.size a ≤ S512x64x1024.size a
  k0_off360_inb : ∀ (i : grid0.Coords) (k0_t1 : Fin k0_t1_loop.trips), ∀ (k0_h1 : ¬(k0_cond1 k0_t1 = 1#1)), ∀ (k0_h12 : k0_cond12 k0_t1 = 1#1), ∀ a, (k0_off360 i k0_t1) a + S1x64x512.size a ≤ S512x64x1024.size a
  k0_off361_inb : ∀ (i : grid0.Coords) (k0_t1 : Fin k0_t1_loop.trips), ∀ (k0_h1 : ¬(k0_cond1 k0_t1 = 1#1)), ∀ a, (k0_off361 i k0_t1) a + S1x64x512.size a ≤ S512x64x1024.size a
  k0_t7_ok : ∀ k0_t1 : Fin k0_t1_loop.trips, ∀ (k0_h1 : ¬(k0_cond1 k0_t1 = 1#1)), k0_t7_loop.OK
  k0_mult6_dvd : ∀ (k0_t1 : Fin k0_t1_loop.trips) (k0_t7 : Fin k0_t7_loop.trips), ∀ (k0_h1 : ¬(k0_cond1 k0_t1 = 1#1)), 16 ∣ (k0_mult6 k0_t7).toNat
  k0_off362_inb : ∀ (k0_t1 : Fin k0_t1_loop.trips) (k0_t7 : Fin k0_t7_loop.trips), ∀ (k0_h1 : ¬(k0_cond1 k0_t1 = 1#1)), ∀ a, (k0_off362 k0_t7) a + S1x16.size a ≤ S64x512.size a
  k0_off363_inb : ∀ (k0_t1 : Fin k0_t1_loop.trips) (k0_t7 : Fin k0_t7_loop.trips), ∀ (k0_h1 : ¬(k0_cond1 k0_t1 = 1#1)), ∀ a, (k0_off363 k0_t7) a + S1x16.size a ≤ S64x512.size a
  k0_off364_inb : ∀ (k0_t1 : Fin k0_t1_loop.trips) (k0_t7 : Fin k0_t7_loop.trips), ∀ (k0_h1 : ¬(k0_cond1 k0_t1 = 1#1)), ∀ a, (k0_off364 k0_t7) a + S1x16.size a ≤ S64x512.size a
  k0_off365_inb : ∀ (k0_t1 : Fin k0_t1_loop.trips) (k0_t7 : Fin k0_t7_loop.trips), ∀ (k0_h1 : ¬(k0_cond1 k0_t1 = 1#1)), ∀ a, (k0_off365 k0_t7) a + S1x16.size a ≤ S64x512.size a
  k0_off366_inb : ∀ (k0_t1 : Fin k0_t1_loop.trips) (k0_t7 : Fin k0_t7_loop.trips), ∀ (k0_h1 : ¬(k0_cond1 k0_t1 = 1#1)), ∀ a, (k0_off366 k0_t7) a + S1x16.size a ≤ S64x512.size a
  k0_off367_inb : ∀ (k0_t1 : Fin k0_t1_loop.trips) (k0_t7 : Fin k0_t7_loop.trips), ∀ (k0_h1 : ¬(k0_cond1 k0_t1 = 1#1)), ∀ a, (k0_off367 k0_t7) a + S1x16.size a ≤ S64x512.size a
  k0_off368_inb : ∀ (k0_t1 : Fin k0_t1_loop.trips) (k0_t7 : Fin k0_t7_loop.trips), ∀ (k0_h1 : ¬(k0_cond1 k0_t1 = 1#1)), ∀ a, (k0_off368 k0_t7) a + S1x16.size a ≤ S64x512.size a
  k0_off369_inb : ∀ (k0_t1 : Fin k0_t1_loop.trips) (k0_t7 : Fin k0_t7_loop.trips), ∀ (k0_h1 : ¬(k0_cond1 k0_t1 = 1#1)), ∀ a, (k0_off369 k0_t7) a + S1x16.size a ≤ S64x512.size a
  k0_off370_inb : ∀ (k0_t1 : Fin k0_t1_loop.trips) (k0_t7 : Fin k0_t7_loop.trips), ∀ (k0_h1 : ¬(k0_cond1 k0_t1 = 1#1)), ∀ a, (k0_off370 k0_t7) a + S1x16.size a ≤ S64x512.size a
  k0_off371_inb : ∀ (k0_t1 : Fin k0_t1_loop.trips) (k0_t7 : Fin k0_t7_loop.trips), ∀ (k0_h1 : ¬(k0_cond1 k0_t1 = 1#1)), ∀ a, (k0_off371 k0_t7) a + S1x16.size a ≤ S64x512.size a
  k0_off372_inb : ∀ (k0_t1 : Fin k0_t1_loop.trips) (k0_t7 : Fin k0_t7_loop.trips), ∀ (k0_h1 : ¬(k0_cond1 k0_t1 = 1#1)), ∀ a, (k0_off372 k0_t7) a + S1x16.size a ≤ S64x512.size a
  k0_off373_inb : ∀ (k0_t1 : Fin k0_t1_loop.trips) (k0_t7 : Fin k0_t7_loop.trips), ∀ (k0_h1 : ¬(k0_cond1 k0_t1 = 1#1)), ∀ a, (k0_off373 k0_t7) a + S1x16.size a ≤ S64x512.size a
  k0_off374_inb : ∀ (k0_t1 : Fin k0_t1_loop.trips) (k0_t7 : Fin k0_t7_loop.trips), ∀ (k0_h1 : ¬(k0_cond1 k0_t1 = 1#1)), ∀ a, (k0_off374 k0_t7) a + S1x16.size a ≤ S64x512.size a
  k0_off375_inb : ∀ (k0_t1 : Fin k0_t1_loop.trips) (k0_t7 : Fin k0_t7_loop.trips), ∀ (k0_h1 : ¬(k0_cond1 k0_t1 = 1#1)), ∀ a, (k0_off375 k0_t7) a + S1x16.size a ≤ S64x512.size a
  k0_off376_inb : ∀ (k0_t1 : Fin k0_t1_loop.trips) (k0_t7 : Fin k0_t7_loop.trips), ∀ (k0_h1 : ¬(k0_cond1 k0_t1 = 1#1)), ∀ a, (k0_off376 k0_t7) a + S1x16.size a ≤ S64x512.size a
  k0_off377_inb : ∀ (k0_t1 : Fin k0_t1_loop.trips) (k0_t7 : Fin k0_t7_loop.trips), ∀ (k0_h1 : ¬(k0_cond1 k0_t1 = 1#1)), ∀ a, (k0_off377 k0_t7) a + S1x16.size a ≤ S64x512.size a
  k0_off378_inb : ∀ (k0_t1 : Fin k0_t1_loop.trips) (k0_t7 : Fin k0_t7_loop.trips), ∀ (k0_h1 : ¬(k0_cond1 k0_t1 = 1#1)), ∀ a, (k0_off378 k0_t7) a + S1x16.size a ≤ S64x512.size a
  k0_off379_inb : ∀ (k0_t1 : Fin k0_t1_loop.trips) (k0_t7 : Fin k0_t7_loop.trips), ∀ (k0_h1 : ¬(k0_cond1 k0_t1 = 1#1)), ∀ a, (k0_off379 k0_t7) a + S1x16.size a ≤ S64x512.size a
  k0_off380_inb : ∀ (k0_t1 : Fin k0_t1_loop.trips) (k0_t7 : Fin k0_t7_loop.trips), ∀ (k0_h1 : ¬(k0_cond1 k0_t1 = 1#1)), ∀ a, (k0_off380 k0_t7) a + S1x16.size a ≤ S64x512.size a
  k0_off381_inb : ∀ (k0_t1 : Fin k0_t1_loop.trips) (k0_t7 : Fin k0_t7_loop.trips), ∀ (k0_h1 : ¬(k0_cond1 k0_t1 = 1#1)), ∀ a, (k0_off381 k0_t7) a + S1x16.size a ≤ S64x512.size a
  k0_off382_inb : ∀ (k0_t1 : Fin k0_t1_loop.trips) (k0_t7 : Fin k0_t7_loop.trips), ∀ (k0_h1 : ¬(k0_cond1 k0_t1 = 1#1)), ∀ a, (k0_off382 k0_t7) a + S1x16.size a ≤ S64x512.size a
  k0_off383_inb : ∀ (k0_t1 : Fin k0_t1_loop.trips) (k0_t7 : Fin k0_t7_loop.trips), ∀ (k0_h1 : ¬(k0_cond1 k0_t1 = 1#1)), ∀ a, (k0_off383 k0_t7) a + S1x16.size a ≤ S64x512.size a
  k0_off384_inb : ∀ (k0_t1 : Fin k0_t1_loop.trips) (k0_t7 : Fin k0_t7_loop.trips), ∀ (k0_h1 : ¬(k0_cond1 k0_t1 = 1#1)), ∀ a, (k0_off384 k0_t7) a + S1x16.size a ≤ S64x512.size a
  k0_off385_inb : ∀ (k0_t1 : Fin k0_t1_loop.trips) (k0_t7 : Fin k0_t7_loop.trips), ∀ (k0_h1 : ¬(k0_cond1 k0_t1 = 1#1)), ∀ a, (k0_off385 k0_t7) a + S1x16.size a ≤ S64x512.size a
  k0_off386_inb : ∀ (k0_t1 : Fin k0_t1_loop.trips) (k0_t7 : Fin k0_t7_loop.trips), ∀ (k0_h1 : ¬(k0_cond1 k0_t1 = 1#1)), ∀ a, (k0_off386 k0_t7) a + S1x16.size a ≤ S64x512.size a
  k0_off387_inb : ∀ (k0_t1 : Fin k0_t1_loop.trips) (k0_t7 : Fin k0_t7_loop.trips), ∀ (k0_h1 : ¬(k0_cond1 k0_t1 = 1#1)), ∀ a, (k0_off387 k0_t7) a + S1x16.size a ≤ S64x512.size a
  k0_off388_inb : ∀ (k0_t1 : Fin k0_t1_loop.trips) (k0_t7 : Fin k0_t7_loop.trips), ∀ (k0_h1 : ¬(k0_cond1 k0_t1 = 1#1)), ∀ a, (k0_off388 k0_t7) a + S1x16.size a ≤ S64x512.size a
  k0_off389_inb : ∀ (k0_t1 : Fin k0_t1_loop.trips) (k0_t7 : Fin k0_t7_loop.trips), ∀ (k0_h1 : ¬(k0_cond1 k0_t1 = 1#1)), ∀ a, (k0_off389 k0_t7) a + S1x16.size a ≤ S64x512.size a
  k0_off390_inb : ∀ (k0_t1 : Fin k0_t1_loop.trips) (k0_t7 : Fin k0_t7_loop.trips), ∀ (k0_h1 : ¬(k0_cond1 k0_t1 = 1#1)), ∀ a, (k0_off390 k0_t7) a + S1x16.size a ≤ S64x512.size a
  k0_off391_inb : ∀ (k0_t1 : Fin k0_t1_loop.trips) (k0_t7 : Fin k0_t7_loop.trips), ∀ (k0_h1 : ¬(k0_cond1 k0_t1 = 1#1)), ∀ a, (k0_off391 k0_t7) a + S1x16.size a ≤ S64x512.size a
  k0_off392_inb : ∀ (k0_t1 : Fin k0_t1_loop.trips) (k0_t7 : Fin k0_t7_loop.trips), ∀ (k0_h1 : ¬(k0_cond1 k0_t1 = 1#1)), ∀ a, (k0_off392 k0_t7) a + S1x16.size a ≤ S64x512.size a
  k0_off393_inb : ∀ (k0_t1 : Fin k0_t1_loop.trips) (k0_t7 : Fin k0_t7_loop.trips), ∀ (k0_h1 : ¬(k0_cond1 k0_t1 = 1#1)), ∀ a, (k0_off393 k0_t7) a + S1x16.size a ≤ S64x512.size a
  k0_off394_inb : ∀ (k0_t1 : Fin k0_t1_loop.trips) (k0_t7 : Fin k0_t7_loop.trips), ∀ (k0_h1 : ¬(k0_cond1 k0_t1 = 1#1)), ∀ a, (k0_off394 k0_t7) a + S1x16.size a ≤ S64x512.size a
  k0_off395_inb : ∀ (k0_t1 : Fin k0_t1_loop.trips) (k0_t7 : Fin k0_t7_loop.trips), ∀ (k0_h1 : ¬(k0_cond1 k0_t1 = 1#1)), ∀ a, (k0_off395 k0_t7) a + S1x16.size a ≤ S64x512.size a
  k0_off396_inb : ∀ (k0_t1 : Fin k0_t1_loop.trips) (k0_t7 : Fin k0_t7_loop.trips), ∀ (k0_h1 : ¬(k0_cond1 k0_t1 = 1#1)), ∀ a, (k0_off396 k0_t7) a + S1x16.size a ≤ S64x512.size a
  k0_off397_inb : ∀ (k0_t1 : Fin k0_t1_loop.trips) (k0_t7 : Fin k0_t7_loop.trips), ∀ (k0_h1 : ¬(k0_cond1 k0_t1 = 1#1)), ∀ a, (k0_off397 k0_t7) a + S1x16.size a ≤ S64x512.size a
  k0_off398_inb : ∀ (k0_t1 : Fin k0_t1_loop.trips) (k0_t7 : Fin k0_t7_loop.trips), ∀ (k0_h1 : ¬(k0_cond1 k0_t1 = 1#1)), ∀ a, (k0_off398 k0_t7) a + S1x16.size a ≤ S64x512.size a
  k0_off399_inb : ∀ (k0_t1 : Fin k0_t1_loop.trips) (k0_t7 : Fin k0_t7_loop.trips), ∀ (k0_h1 : ¬(k0_cond1 k0_t1 = 1#1)), ∀ a, (k0_off399 k0_t7) a + S1x16.size a ≤ S64x512.size a
  k0_off400_inb : ∀ (k0_t1 : Fin k0_t1_loop.trips) (k0_t7 : Fin k0_t7_loop.trips), ∀ (k0_h1 : ¬(k0_cond1 k0_t1 = 1#1)), ∀ a, (k0_off400 k0_t7) a + S1x16.size a ≤ S64x512.size a
  k0_off401_inb : ∀ (k0_t1 : Fin k0_t1_loop.trips) (k0_t7 : Fin k0_t7_loop.trips), ∀ (k0_h1 : ¬(k0_cond1 k0_t1 = 1#1)), ∀ a, (k0_off401 k0_t7) a + S1x16.size a ≤ S64x512.size a
  k0_off402_inb : ∀ (k0_t1 : Fin k0_t1_loop.trips) (k0_t7 : Fin k0_t7_loop.trips), ∀ (k0_h1 : ¬(k0_cond1 k0_t1 = 1#1)), ∀ a, (k0_off402 k0_t7) a + S1x16.size a ≤ S64x512.size a
  k0_off403_inb : ∀ (k0_t1 : Fin k0_t1_loop.trips) (k0_t7 : Fin k0_t7_loop.trips), ∀ (k0_h1 : ¬(k0_cond1 k0_t1 = 1#1)), ∀ a, (k0_off403 k0_t7) a + S1x16.size a ≤ S64x512.size a
  k0_off404_inb : ∀ (k0_t1 : Fin k0_t1_loop.trips) (k0_t7 : Fin k0_t7_loop.trips), ∀ (k0_h1 : ¬(k0_cond1 k0_t1 = 1#1)), ∀ a, (k0_off404 k0_t7) a + S1x16.size a ≤ S64x512.size a
  k0_off405_inb : ∀ (k0_t1 : Fin k0_t1_loop.trips) (k0_t7 : Fin k0_t7_loop.trips), ∀ (k0_h1 : ¬(k0_cond1 k0_t1 = 1#1)), ∀ a, (k0_off405 k0_t7) a + S1x16.size a ≤ S64x512.size a
  k0_off406_inb : ∀ (k0_t1 : Fin k0_t1_loop.trips) (k0_t7 : Fin k0_t7_loop.trips), ∀ (k0_h1 : ¬(k0_cond1 k0_t1 = 1#1)), ∀ a, (k0_off406 k0_t7) a + S1x16.size a ≤ S64x512.size a
  k0_off407_inb : ∀ (k0_t1 : Fin k0_t1_loop.trips) (k0_t7 : Fin k0_t7_loop.trips), ∀ (k0_h1 : ¬(k0_cond1 k0_t1 = 1#1)), ∀ a, (k0_off407 k0_t7) a + S1x16.size a ≤ S64x512.size a
  k0_off408_inb : ∀ (k0_t1 : Fin k0_t1_loop.trips) (k0_t7 : Fin k0_t7_loop.trips), ∀ (k0_h1 : ¬(k0_cond1 k0_t1 = 1#1)), ∀ a, (k0_off408 k0_t7) a + S1x16.size a ≤ S64x512.size a
  k0_off409_inb : ∀ (k0_t1 : Fin k0_t1_loop.trips) (k0_t7 : Fin k0_t7_loop.trips), ∀ (k0_h1 : ¬(k0_cond1 k0_t1 = 1#1)), ∀ a, (k0_off409 k0_t7) a + S1x16.size a ≤ S64x512.size a
  k0_off410_inb : ∀ (k0_t1 : Fin k0_t1_loop.trips) (k0_t7 : Fin k0_t7_loop.trips), ∀ (k0_h1 : ¬(k0_cond1 k0_t1 = 1#1)), ∀ a, (k0_off410 k0_t7) a + S1x16.size a ≤ S64x512.size a
  k0_off411_inb : ∀ (k0_t1 : Fin k0_t1_loop.trips) (k0_t7 : Fin k0_t7_loop.trips), ∀ (k0_h1 : ¬(k0_cond1 k0_t1 = 1#1)), ∀ a, (k0_off411 k0_t7) a + S1x16.size a ≤ S64x512.size a
  k0_off412_inb : ∀ (k0_t1 : Fin k0_t1_loop.trips) (k0_t7 : Fin k0_t7_loop.trips), ∀ (k0_h1 : ¬(k0_cond1 k0_t1 = 1#1)), ∀ a, (k0_off412 k0_t7) a + S1x16.size a ≤ S64x512.size a
  k0_off413_inb : ∀ (k0_t1 : Fin k0_t1_loop.trips) (k0_t7 : Fin k0_t7_loop.trips), ∀ (k0_h1 : ¬(k0_cond1 k0_t1 = 1#1)), ∀ a, (k0_off413 k0_t7) a + S1x16.size a ≤ S64x512.size a
  k0_off414_inb : ∀ (k0_t1 : Fin k0_t1_loop.trips) (k0_t7 : Fin k0_t7_loop.trips), ∀ (k0_h1 : ¬(k0_cond1 k0_t1 = 1#1)), ∀ a, (k0_off414 k0_t7) a + S1x16.size a ≤ S64x512.size a
  k0_off415_inb : ∀ (k0_t1 : Fin k0_t1_loop.trips) (k0_t7 : Fin k0_t7_loop.trips), ∀ (k0_h1 : ¬(k0_cond1 k0_t1 = 1#1)), ∀ a, (k0_off415 k0_t7) a + S1x16.size a ≤ S64x512.size a
  k0_off416_inb : ∀ (k0_t1 : Fin k0_t1_loop.trips) (k0_t7 : Fin k0_t7_loop.trips), ∀ (k0_h1 : ¬(k0_cond1 k0_t1 = 1#1)), ∀ a, (k0_off416 k0_t7) a + S1x16.size a ≤ S64x512.size a
  k0_off417_inb : ∀ (k0_t1 : Fin k0_t1_loop.trips) (k0_t7 : Fin k0_t7_loop.trips), ∀ (k0_h1 : ¬(k0_cond1 k0_t1 = 1#1)), ∀ a, (k0_off417 k0_t7) a + S1x16.size a ≤ S64x512.size a
  k0_off418_inb : ∀ (k0_t1 : Fin k0_t1_loop.trips) (k0_t7 : Fin k0_t7_loop.trips), ∀ (k0_h1 : ¬(k0_cond1 k0_t1 = 1#1)), ∀ a, (k0_off418 k0_t7) a + S1x16.size a ≤ S64x512.size a
  k0_off419_inb : ∀ (k0_t1 : Fin k0_t1_loop.trips) (k0_t7 : Fin k0_t7_loop.trips), ∀ (k0_h1 : ¬(k0_cond1 k0_t1 = 1#1)), ∀ a, (k0_off419 k0_t7) a + S1x16.size a ≤ S64x512.size a
  k0_off420_inb : ∀ (k0_t1 : Fin k0_t1_loop.trips) (k0_t7 : Fin k0_t7_loop.trips), ∀ (k0_h1 : ¬(k0_cond1 k0_t1 = 1#1)), ∀ a, (k0_off420 k0_t7) a + S1x16.size a ≤ S64x512.size a
  k0_off421_inb : ∀ (k0_t1 : Fin k0_t1_loop.trips) (k0_t7 : Fin k0_t7_loop.trips), ∀ (k0_h1 : ¬(k0_cond1 k0_t1 = 1#1)), ∀ a, (k0_off421 k0_t7) a + S1x16.size a ≤ S64x512.size a
  k0_off422_inb : ∀ (k0_t1 : Fin k0_t1_loop.trips) (k0_t7 : Fin k0_t7_loop.trips), ∀ (k0_h1 : ¬(k0_cond1 k0_t1 = 1#1)), ∀ a, (k0_off422 k0_t7) a + S1x16.size a ≤ S64x512.size a
  k0_off423_inb : ∀ (k0_t1 : Fin k0_t1_loop.trips) (k0_t7 : Fin k0_t7_loop.trips), ∀ (k0_h1 : ¬(k0_cond1 k0_t1 = 1#1)), ∀ a, (k0_off423 k0_t7) a + S1x16.size a ≤ S64x512.size a
  k0_off424_inb : ∀ (k0_t1 : Fin k0_t1_loop.trips) (k0_t7 : Fin k0_t7_loop.trips), ∀ (k0_h1 : ¬(k0_cond1 k0_t1 = 1#1)), ∀ a, (k0_off424 k0_t7) a + S1x16.size a ≤ S64x512.size a
  k0_off425_inb : ∀ (k0_t1 : Fin k0_t1_loop.trips) (k0_t7 : Fin k0_t7_loop.trips), ∀ (k0_h1 : ¬(k0_cond1 k0_t1 = 1#1)), ∀ a, (k0_off425 k0_t7) a + S1x16.size a ≤ S64x512.size a
  k0_off426_inb : ∀ (k0_t1 : Fin k0_t1_loop.trips) (k0_t7 : Fin k0_t7_loop.trips), ∀ (k0_h1 : ¬(k0_cond1 k0_t1 = 1#1)), ∀ a, (k0_off426 k0_t7) a + S16.size a ≤ S1024.size a
  k0_off427_inb : ∀ (i : grid0.Coords) (k0_t1 : Fin k0_t1_loop.trips), ∀ (k0_h1 : ¬(k0_cond1 k0_t1 = 1#1)), ∀ (k0_h14 : k0_cond14 k0_t1 = 1#1), ∀ a, (k0_off427 i k0_t1) a + S1x64x512.size a ≤ S512x64x1024.size a
  k0_off428_inb : ∀ (i : grid0.Coords) (k0_t1 : Fin k0_t1_loop.trips), ∀ (k0_h1 : ¬(k0_cond1 k0_t1 = 1#1)), ∀ (k0_h14 : k0_cond14 k0_t1 = 1#1), ∀ a, (k0_off428 i k0_t1) a + S1x64x512.size a ≤ S512x64x1024.size a
  k0_off429_inb : ∀ (i : grid0.Coords) (k0_t1 : Fin k0_t1_loop.trips), ∀ (k0_h1 : ¬(k0_cond1 k0_t1 = 1#1)), ∀ a, (k0_off429 i k0_t1) a + S1x1024.size a ≤ S512x1024.size a
  k0_off430_inb : ∀ i : grid0.Coords, ∀ a, (k0_off430 i) a + S1x1024.size a ≤ S512x1024.size a
  k0_off431_inb : ∀ i : grid0.Coords, ∀ a, (k0_off431 i) a + S1x64x512.size a ≤ S512x64x1024.size a
  k0_off432_inb : ∀ i : grid0.Coords, ∀ a, (k0_off432 i) a + S1x64x512.size a ≤ S512x64x1024.size a
  k0_off433_inb : ∀ i : grid0.Coords, ∀ a, (k0_off433 i) a + S1x64x512.size a ≤ S512x64x1024.size a
  k0_off434_inb : ∀ i : grid0.Coords, ∀ a, (k0_off434 i) a + S16.size a ≤ S512.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scratch10 : DmaSems sig S_ := SemArray.consecutive 4 S_ hcc0_scratch10
abbrev cc0_scratch11 : DmaSems sig S_ := SemArray.consecutive 5 S_ hcc0_scratch11
abbrev cc0_scratch12 : DmaSems sig S_ := SemArray.consecutive 6 S_ hcc0_scratch12
abbrev cc0_scoped0 : DmaSems sig S_ := SemArray.consecutive 7 S_ hcc0_scoped0
abbrev cc0_scoped1 : DmaSems sig S_ := SemArray.consecutive 8 S_ hcc0_scoped1

class Facts : Prop extends Facts₀ where

variable [Facts]
-- ==== ReferenceIdeal.lean ====
abbrev S4x8192x1024 : Shape := ⟨3, ![4, 8192, 1024]⟩
abbrev S4x8192 : Shape := ⟨2, ![4, 8192]⟩
abbrev S4x8192x1 : Shape := ⟨3, ![4, 8192, 1]⟩
abbrev S4x128x64x1024 : Shape := ⟨4, ![4, 128, 64, 1024]⟩
abbrev S4x128x64 : Shape := ⟨3, ![4, 128, 64]⟩
abbrev S_ : Shape := ⟨0, ![]⟩
abbrev S4x128 : Shape := ⟨2, ![4, 128]⟩
abbrev S4x128x1024 : Shape := ⟨3, ![4, 128, 1024]⟩
abbrev S4x128x1 : Shape := ⟨3, ![4, 128, 1]⟩
abbrev S4x128x1x1024 : Shape := ⟨4, ![4, 128, 1, 1024]⟩
abbrev S128 : Shape := ⟨1, ![128]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .f32⟩
  | .hbm, ⟨2, _⟩ => ⟨S4x8192x1, .f32⟩
  | .hbm, ⟨3, _⟩ => ⟨S4x8192x1024, .f32⟩
  | .hbm, ⟨4, _⟩ => ⟨S4x8192x1024, .f32⟩
  | .hbm, ⟨5, _⟩ => ⟨S4x128x64x1024, .f32⟩
  | .hbm, ⟨6, _⟩ => ⟨S4x128x64, .f32⟩
  | .hbm, ⟨7, _⟩ => ⟨S_, .f32⟩
  | .hbm, ⟨8, _⟩ => ⟨S4x128, .f32⟩
  | .hbm, ⟨9, _⟩ => ⟨S_, .f32⟩
  | .hbm, ⟨10, _⟩ => ⟨S4x128x1024, .f32⟩
  | .hbm, ⟨11, _⟩ => ⟨S4x128x1, .f32⟩
  | .hbm, ⟨12, _⟩ => ⟨S_, .f32⟩
  | .hbm, ⟨13, _⟩ => ⟨S4x128x1, .f32⟩
  | .hbm, ⟨14, _⟩ => ⟨S4x128x1, .f32⟩
  | .hbm, ⟨15, _⟩ => ⟨S4x128x1024, .f32⟩
  | .hbm, ⟨16, _⟩ => ⟨S4x128x1024, .f32⟩
  | .hbm, ⟨17, _⟩ => ⟨S_, .f32⟩
  | .hbm, ⟨18, _⟩ => ⟨S4x128, .f32⟩
  | .hbm, ⟨19, _⟩ => ⟨S4x128, .i1⟩
  | .hbm, ⟨20, _⟩ => ⟨S4x128, .f32⟩
  | .hbm, ⟨21, _⟩ => ⟨S4x128x1x1024, .f32⟩
  | .hbm, ⟨22, _⟩ => ⟨S4x128x64x1024, .f32⟩
  | .hbm, ⟨23, _⟩ => ⟨S4x128x64x1024, .f32⟩
  | .hbm, ⟨24, _⟩ => ⟨S128, .i32⟩
  | .hbm, ⟨25, _⟩ => ⟨S1x128, .i32⟩
  | .hbm, ⟨26, _⟩ => ⟨S4x128, .i32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S4x8192_S4x8192x1_0_1 : S4x8192.BroadcastsInDim S4x8192x1 (![0, 1] : Fin 2 → Fin S4x8192x1.rank)
  bcast_S4x8192x1_S4x8192x1024_0_1_2 : S4x8192x1.BroadcastsInDim S4x8192x1024 (![0, 1, 2] : Fin 3 → Fin S4x8192x1024.rank)
  shapeCasts_S4x8192x1024_S4x128x64x1024 : S4x8192x1024.ShapeCasts S4x128x64x1024
  shapeCasts_S4x8192_S4x128x64 : S4x8192.ShapeCasts S4x128x64
  reducesTo_S4x128x64_S4x128_d2 : S4x128x64.ReducesTo [2] S4x128
  h_S_ : 0 < S_.numel
  reducesTo_S4x128x64x1024_S4x128x1024_d2 : S4x128x64x1024.ReducesTo [2] S4x128x1024
  bcast_S4x128_S4x128x1_0_1 : S4x128.BroadcastsInDim S4x128x1 (![0, 1] : Fin 2 → Fin S4x128x1.rank)
  bcast_S_S4x128x1 : S_.BroadcastsInDim S4x128x1 (![] : Fin 0 → Fin S4x128x1.rank)
  bcast_S4x128x1_S4x128x1024_0_1_2 : S4x128x1.BroadcastsInDim S4x128x1024 (![0, 1, 2] : Fin 3 → Fin S4x128x1024.rank)
  bcast_S_S4x128 : S_.BroadcastsInDim S4x128 (![] : Fin 0 → Fin S4x128.rank)
  bcast_S4x128x1024_S4x128x1x1024_0_1_3 : S4x128x1024.BroadcastsInDim S4x128x1x1024 (![0, 1, 3] : Fin 3 → Fin S4x128x1x1024.rank)
  bcast_S4x128x1x1024_S4x128x64x1024_0_1_2_3 : S4x128x1x1024.BroadcastsInDim S4x128x64x1024 (![0, 1, 2, 3] : Fin 4 → Fin S4x128x64x1024.rank)
  bcast_S128_S1x128_1 : S128.BroadcastsInDim S1x128 (![1] : Fin 1 → Fin S1x128.rank)
  bcast_S1x128_S4x128_0_1 : S1x128.BroadcastsInDim S4x128 (![0, 1] : Fin 2 → Fin S4x128.rank)

variable [Facts₀]

class Facts : Prop extends Facts₀ where

variable [Facts]
-- ==== Proof.RefImports.lean ====
import proofs.«204522_g36051955483029_cont_8to1_b_1192_15_alg».proof.Proof.Gen.ReferenceIdeal.Run
import proofs.«204522_g36051955483029_cont_8to1_b_1192_15_alg».proof.Proof.Gen.ReferenceIdeal.Read
-- ==== Proof.RefSide.lean ====
import proofs.«204522_g36051955483029_cont_8to1_b_1192_15_alg».proof.Proof.RefImports
import proofs.«204522_g36051955483029_cont_8to1_b_1192_15_alg».proof.Defs
import proofs.«204522_g36051955483029_cont_8to1_b_1192_15_alg».proof.Proof.Gen.Pre_finite_inputs
import Idealize.ShloMosaic.Lib.ValueIdx
import Idealize.ShloMosaic.Lib.ReduceAll
import Idealize.ShloMosaic.PureOps.Ideal.Laws

noncomputable section

namespace Cert.Proof.RefSide

open Idealize.ShloMosaic Idealize.ShloMosaic.ValueIdx Idealize.ShloMosaic.TcCoe Idealize.SL.Sem
open Cert.ReferenceIdeal Cert.ReferenceIdeal.Gen Cert.ReferenceIdeal.Read
open scoped BigOperators

theorem mean_mul_recip (S d : EReal) (hd : d ≠ 0) : S * Ideal.div 1 d = Ideal.div S d := by
  unfold Ideal.div
  rw [if_neg hd, if_neg hd, one_mul]

abbrev blockRow (n : Fin 128) (r : Fin 64) : Fin 8192 := ⟨64 * n.val + r.val, by omega⟩

abbrev eps : EReal := Ideal.ofBits .f32 0x38D1B717#32

def countR (mk : FVec Ideal S4x8192 .f32) (b : Fin 4) (n : Fin 128) : EReal :=
  ∑ r : Fin 64, mk (ix2 b (blockRow n r))

def sumR (x : FVec Ideal S4x8192x1024 .f32) (mk : FVec Ideal S4x8192 .f32) (b : Fin 4) (n : Fin 128) (c : Fin 1024) : EReal :=
  ∑ r : Fin 64, x (ix3 b (blockRow n r) c) * mk (ix2 b (blockRow n r))

def meanR (x : FVec Ideal S4x8192x1024 .f32) (mk : FVec Ideal S4x8192 .f32) : FVec Ideal S4x128x1024 .f32 :=
  fun i => Ideal.div (sumR x mk (i 0) (i 1) (i 2)) (countR mk (i 0) (i 1) + eps)

theorem meanR_apply (x : FVec Ideal S4x8192x1024 .f32) (mk : FVec Ideal S4x8192 .f32) (b : Fin 4) (n : Fin 128) (c : Fin 1024) :
    meanR x mk (ix3 b n c) = Ideal.div (sumR x mk b n c) (countR mk b n + eps) := rfl

def cmR (mk : FVec Ideal S4x8192 .f32) : FVec Ideal S4x128 .f32 :=
  fun i => FloatOps.uitofp .f32 (Ideal.cmp .ogt (countR mk (i 0) (i 1)) 0)

theorem cmR_apply (mk : FVec Ideal S4x8192 .f32) (b : Fin 4) (n : Fin 128) :
    cmR mk (ix2 b n) = FloatOps.uitofp .f32 (Ideal.cmp .ogt (countR mk b n) 0) := rfl

def diffR (x : FVec Ideal S4x8192x1024 .f32) (mk : FVec Ideal S4x8192 .f32) : FVec Ideal S4x128x64x1024 .f32 :=
  fun i => meanR x mk (ix3 (i 0) (i 1) (i 3))
    - x (ix3 (i 0) (blockRow (i 1) (i 2)) (i 3)) * mk (ix2 (i 0) (blockRow (i 1) (i 2)))

theorem diffR_apply (x : FVec Ideal S4x8192x1024 .f32) (mk : FVec Ideal S4x8192 .f32) (b : Fin 4) (n : Fin 128) (r : Fin 64) (c : Fin 1024) :
    diffR x mk (ix4 b n r c) = meanR x mk (ix3 b n c) - x (ix3 b (blockRow n r) c) * mk (ix2 b (blockRow n r)) := rfl

def idxR : IVec S4x128 32 := fun i => BitVec.ofNat 32 (i 1).val

theorem idxR_apply (b : Fin 4) (n : Fin 128) : idxR (ix2 b n) = BitVec.ofNat 32 n.val := rfl

theorem idx_reshape_x (b : Fin 4) (n : Fin 128) (r : Fin 64) (c : Fin 1024) :
    idx_main_v3 (ix4 b n r c) = ix3 b (blockRow n r) c := by
  funext a; refine Fin.ext ?_
  have hb := b.isLt; have hn := n.isLt; have hr := r.isLt; have hc := c.isLt
  match a with
  | ⟨0, _⟩ => show (((b.val * 128 + n.val) * 64 + r.val) * 1024 + c.val) / 8388608 = b.val; omega
  | ⟨1, _⟩ => show (((b.val * 128 + n.val) * 64 + r.val) * 1024 + c.val) / 1024 % 8192 = 64 * n.val + r.val; omega
  | ⟨2, _⟩ => show (((b.val * 128 + n.val) * 64 + r.val) * 1024 + c.val) % 1024 = c.val; omega

theorem idx_reshape_mk (b : Fin 4) (n : Fin 128) (r : Fin 64) :
    idx_main_v4 (ix3 b n r) = ix2 b (blockRow n r) := by
  funext a; refine Fin.ext ?_
  have hb := b.isLt; have hn := n.isLt; have hr := r.isLt
  match a with
  | ⟨0, _⟩ => show ((b.val * 128 + n.val) * 64 + r.val) / 8192 = b.val; omega
  | ⟨1, _⟩ => show ((b.val * 128 + n.val) * 64 + r.val) % 8192 = 64 * n.val + r.val; omega

theorem idx_bcast_mk (b : Fin 4) (ρ : Fin 8192) (c : Fin 1024) :
    idx_main_v0 (idx_main_v1 (ix3 b ρ c)) = ix2 b ρ := by
  funext a; refine Fin.ext ?_
  match a with
  | ⟨0, _⟩ => rfl
  | ⟨1, _⟩ => rfl

theorem idx_sum_mk (b : Fin 4) (n : Fin 128) (k : Fin 64) : idx_main_v5 (ix2 b n) k = ix3 b n k := by
  funext a; refine Fin.ext ?_
  match a with
  | ⟨0, _⟩ => rfl
  | ⟨1, _⟩ => rfl
  | ⟨2, _⟩ => rfl

theorem idx_sum_x (b : Fin 4) (n : Fin 128) (c : Fin 1024) (k : Fin 64) : idx_main_v6 (ix3 b n c) k = ix4 b n k c := by
  funext a; refine Fin.ext ?_
  match a with
  | ⟨0, _⟩ => rfl
  | ⟨1, _⟩ => rfl
  | ⟨2, _⟩ => rfl
  | ⟨3, _⟩ => rfl

theorem idx_bcast_den (b : Fin 4) (n : Fin 128) (c : Fin 1024) : idx_main_v7 (idx_main_v10 (ix3 b n c)) = ix2 b n := by
  funext a; refine Fin.ext ?_
  match a with
  | ⟨0, _⟩ => rfl
  | ⟨1, _⟩ => rfl

theorem idx_bcast_mean (b : Fin 4) (n : Fin 128) (r : Fin 64) (c : Fin 1024) :
    idx_main_v15 (idx_main_v16 (ix4 b n r c)) = ix3 b n c := by
  funext a; refine Fin.ext ?_
  match a with
  | ⟨0, _⟩ => rfl
  | ⟨1, _⟩ => rfl
  | ⟨2, _⟩ => rfl

theorem masked_at (x : FVec Ideal S4x8192x1024 .f32) (mk : FVec Ideal S4x8192 .f32) (b : Fin 4) (n : Fin 128) (r : Fin 64) (c : Fin 1024) :
    val_main_v3 (F := Ideal) x mk (ix4 b n r c) = x (ix3 b (blockRow n r) c) * mk (ix2 b (blockRow n r)) := by
  rw [val_main_v3_apply, idx_reshape_x, val_main_v2_apply, val_main_v1_apply, val_main_v0_apply, idx_bcast_mk]
  rfl

theorem count_at (mk : FVec Ideal S4x8192 .f32) (b : Fin 4) (n : Fin 128) :
    val_main_v5 (F := Ideal) mk (ix2 b n) = countR mk b n := by
  rw [val_main_v5_apply, val_main_cst_apply]
  simp only [Ideal.ofBits_def, Ideal.ofBits_zero_f32, zero_add, idx_sum_mk, val_main_v4_apply, idx_reshape_mk]
  rfl

theorem sum_at (x : FVec Ideal S4x8192x1024 .f32) (mk : FVec Ideal S4x8192 .f32) (b : Fin 4) (n : Fin 128) (c : Fin 1024) :
    val_main_v6 (F := Ideal) x mk (ix3 b n c) = sumR x mk b n c := by
  rw [val_main_v6_apply, val_main_cst_0_apply]
  simp only [Ideal.ofBits_def, Ideal.ofBits_zero_f32, zero_add, idx_sum_x, masked_at]
  rfl

theorem den_at (mk : FVec Ideal S4x8192 .f32) (b : Fin 4) (n : Fin 128) (c : Fin 1024) :
    val_main_v10 (F := Ideal) mk (ix3 b n c) = countR mk b n + eps := by
  rw [val_main_v10_apply, val_main_v9_apply, val_main_v7_apply, idx_bcast_den, count_at, val_main_v8_apply, val_main_cst_1_apply]
  rfl

theorem mean_at (x : FVec Ideal S4x8192x1024 .f32) (mk : FVec Ideal S4x8192 .f32) (b : Fin 4) (n : Fin 128) (c : Fin 1024) :
    val_main_v11 (F := Ideal) x mk (ix3 b n c) = Ideal.div (sumR x mk b n c) (countR mk b n + eps) := by
  rw [val_main_v11_apply, sum_at, den_at]
  rfl

theorem mean_eq (x : FVec Ideal S4x8192x1024 .f32) (mk : FVec Ideal S4x8192 .f32) :
    val_main_v11 (F := Ideal) x mk = meanR x mk := by
  funext i
  obtain ⟨b, n, c, rfl⟩ : ∃ (b : Fin 4) (n : Fin 128) (c : Fin 1024), i = ix3 b n c := ⟨i 0, i 1, i 2, eq_ix3 i⟩
  rw [mean_at, meanR_apply]

theorem cm_eq (mk : FVec Ideal S4x8192 .f32) : val_main_v14 (F := Ideal) mk = cmR mk := by
  funext i
  obtain ⟨b, n, rfl⟩ : ∃ (b : Fin 4) (n : Fin 128), i = ix2 b n := ⟨i 0, i 1, eq_ix2 i⟩
  rw [val_main_v14_apply, val_main_v13_apply, count_at, val_main_v12_apply, val_main_cst_2_apply, cmR_apply]
  simp only [Ideal.ofBits_def, Ideal.ofBits_zero_f32, Ideal.cmpf_def]

theorem diff_eq (x : FVec Ideal S4x8192x1024 .f32) (mk : FVec Ideal S4x8192 .f32) :
    val_main_v17 (F := Ideal) x mk = diffR x mk := by
  funext i
  obtain ⟨b, n, r, c, rfl⟩ : ∃ (b : Fin 4) (n : Fin 128) (r : Fin 64) (c : Fin 1024), i = ix4 b n r c :=
    ⟨i 0, i 1, i 2, i 3, eq_ix4 i⟩
  rw [val_main_v17_apply, val_main_v16_apply, val_main_v15_apply, idx_bcast_mean, mean_eq, masked_at, diffR_apply]
  rfl

theorem idx_eq : val_main_v20 (F := Ideal) = idxR := by
  funext i
  obtain ⟨b, n, rfl⟩ : ∃ (b : Fin 4) (n : Fin 128), i = ix2 b n := ⟨i 0, i 1, eq_ix2 i⟩
  rw [val_main_v20_apply, val_main_v19_apply, val_main_v18_apply, idxR_apply]

theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v11)
            = meanR (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v14)
            = cmR (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v17)
            = diffR (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v20) = idxR
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans ((val_main_v11_eq _ _).trans (mean_eq _ _)),
      (h c).2.1.trans ((val_main_v14_eq _).trans (cm_eq _)),
      (h c).2.2.1.trans ((val_main_v17_eq _ _).trans (diff_eq _ _)),
      (h c).2.2.2.1.trans (val_main_v20_eq.trans idx_eq),
      (h c).2.2.2.2.1, (h c).2.2.2.2.2⟩)
    (Cert.ReferenceIdeal.Value.run (F := Ideal) m' ρ')

instance scalarIdx_subsingleton : Subsingleton (⟨0, ![]⟩ : Shape).Idx := ⟨fun a b => funext fun d => d.elim0⟩

theorem ne_of_cmp_une {a b : EReal} (e : Ideal.cmp .une a b = 1#1) : a ≠ b := by
  intro hab
  simp [Ideal.cmp, hab] at e

theorem den_ne_zero (mk : FVec Ideal Cert.Pre_finite_inputs.S4x8192 .f32) (x : FVec Ideal Cert.Pre_finite_inputs.S4x8192x1024 .f32)
    (h : Cert.Pre_finite_inputs.fn (F := Ideal) x mk = fun _ => 1#1) (b : Fin 4) (n : Fin 128) :
    (∑ r : Fin 64, mk (ix2 b ⟨64 * n.val + r.val, by omega⟩)) + Ideal.ofBits .f32 0x38D1B717#32 ≠ 0 := by
  have e := congrFun h ix0
  dsimp only [Cert.Pre_finite_inputs.fn, Cert.Pre_finite_inputs.fn_part1] at e
  have e15 := (IntOp.andi_eq_one.1 e).2
  have e14 := Host.reduce_andi_all _ _ _ _ _ e15 (ix2 b n)
  have e14' : Ideal.cmp .une (val_main_v5 (F := Ideal) mk (ix2 b n) + eps) (Ideal.ofBits .f32 0x00000000#32) = 1#1 := e14
  rw [count_at, Ideal.ofBits_zero_f32] at e14'
  exact ne_of_cmp_une e14'

theorem den_ne_zero' (mk : FVec Ideal S4x8192 .f32) (x : FVec Ideal S4x8192x1024 .f32)
    (h : Cert.Pre_finite_inputs.fn (F := Ideal) x mk = fun _ => 1#1) (b : Fin 4) (n : Fin 128) :
    countR mk b n + eps ≠ 0 :=
  den_ne_zero mk x h b n

theorem meanR_eq_mul_recip (mk : FVec Ideal S4x8192 .f32) (x : FVec Ideal S4x8192x1024 .f32)
    (h : Cert.Pre_finite_inputs.fn (F := Ideal) x mk = fun _ => 1#1) (b : Fin 4) (n : Fin 128) (c : Fin 1024) :
    sumR x mk b n c * Ideal.div 1 (countR mk b n + eps) = meanR x mk (ix3 b n c) := by
  rw [meanR_apply]
  exact mean_mul_recip _ _ (den_ne_zero' mk x h b n)

end Cert.Proof.RefSide

end
-- ==== Proof.KB_Common.lean ====
/-
  What every part of the kernel's proof shares: the program as the launch theorem reads it (its label
  signature, the SparseCore call's configuration and its facts), the resource algebra (the handshakes'
  rounds beside a copy of the transfer counters: every copy this kernel makes is local, issued and waited
  by the same tile on a semaphore of its own, one at a time), and the names of a tile's thread, arrays,
  scratch buffers and semaphores.
-/
import proofs.«204522_g36051955483029_cont_8to1_b_1192_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204522_g36051955483029_cont_8to1_b_1192_15_alg».proof.Proof.Gen.Kernel
import proofs.«204522_g36051955483029_cont_8to1_b_1192_15_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

/-- The handshakes' rounds library is the left factor; the transfers' counters are found by instance in the right. -/
abbrev EH : Emb UH (MT nD τ sig (HIx 1) (Elt F) ℕ UU ℕ) := embL

/-! ## A tile: its thread and coordinates -/

abbrev cV (L : grid0.Coords) : Fin τ.nSC := (L 0).castLE hcore0
abbrev jV (L : grid0.Coords) : Fin τ.nSub := (L 1).castLE hsub0
/-- The thread of the vector subcore at grid coordinates `L` on device `d`. -/
abbrev thr (d : Dev nD) (L : grid0.Coords) : Thread nD τ := V d (cV L) (jV L)

def coordsV (c : Fin (grid0.bound 0)) (s : Fin (grid0.bound 1)) : grid0.Coords :=
  fun | 0 => c | 1 => s | ⟨_ + 2, h⟩ => absurd h (Nat.not_lt.2 (Nat.le_add_left _ _))

end Cert.Proof.KB

end
-- ==== Proof.KB_Pay.lean ====
/-
  What the SparseCore call's handshakes carry. The call takes, per tile, a read token of the two input
  arrays (the reshaped states and mask, each whole, at one thirty-second of a share: every tile reads only
  its own sixteen blocks, but reads them through the whole array) and the tile's own sixteen rows of each of
  the three results (block `2·s + c` of thirty-two equal parts along the leading axis, for the tile at
  subcore `s` of core `c`: the kernel's `wid`), and brings them back, the result rows at whatever the tile left.
  A SparseCore's share is its sixteen tiles' shares side by side, so the split among the tiles is the identity.
-/
import proofs.«204522_g36051955483029_cont_8to1_b_1192_15_alg».proof.Proof.KB_Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

/-! ## The arrays as the TensorCore holds them -/

abbrev xLoc (d : Dev nD) : Loc nD τ sig := (SparseCore.T d).loc main_v0
abbrev mLoc (d : Dev nD) : Loc nD τ sig := (SparseCore.T d).loc main_v1
abbrev dLoc (d : Dev nD) : Loc nD τ sig := (SparseCore.T d).loc main_v2_0
abbrev eLoc (d : Dev nD) : Loc nD τ sig := (SparseCore.T d).loc main_v2_1
abbrev cLoc (d : Dev nD) : Loc nD τ sig := (SparseCore.T d).loc main_v2_2

/-! ## The thirty-two tiles' parts -/

theorem hdivD : 32 ∣ S512x64x1024.size 0 := ⟨16, rfl⟩
theorem hdivE : 32 ∣ S512x1024.size 0 := ⟨16, rfl⟩
theorem hdivC : 32 ∣ S512.size 0 := ⟨16, rfl⟩

/-- The flat number of the tile at subcore `i` of core `c`: the kernel's `wid = s·2 + c`. -/
abbrev widN (c : Fin 2) (i : Fin 16) : Fin 32 := ⟨2 * i.val + c.val, by omega⟩

abbrev dRect (j : Fin 32) : Rect S512x64x1024 := Rect.part (s := S512x64x1024) (a₀ := 0) hdivD j
abbrev eRect (j : Fin 32) : Rect S512x1024 := Rect.part (s := S512x1024) (a₀ := 0) hdivE j
abbrev cRect (j : Fin 32) : Rect S512 := Rect.part (s := S512) (a₀ := 0) hdivC j
abbrev dPart (j : Fin 32) : Finset S512x64x1024.Idx := ((dV).view.slice (dRect j)).set
abbrev ePart (j : Fin 32) : Finset S512x1024.Idx := ((eV).view.slice (eRect j)).set
abbrev cPart (j : Fin 32) : Finset S512.Idx := ((cV').view.slice (cRect j)).set

/-- Tile `j`'s read token of a full share split thirty-two ways. -/
abbrev tok (j : Fin 32) : PosShare TreeShare := Transfers.shareTok fullShare 32 j

variable (m : (ℓ : Loc nD τ sig) → Buf (Elt F) ℓ)
variable (Xv : (d : Dev nD) → Buf (Elt F) (xLoc d)) (Mv : (d : Dev nD) → Buf (Elt F) (mLoc d))

/-- What tile `j` of device `d` is handed. -/
def tileGo (d : Dev nD) (j : Fin 32) : sProp 𝕄 :=
  iprop((xLoc d ↦{tok j} Xv d) ∗ (mLoc d ↦{tok j} Mv d) ∗ (dLoc d ↦[dPart j]{fullShare} m (dLoc d))
    ∗ (eLoc d ↦[ePart j]{fullShare} m (eLoc d)) ∗ (cLoc d ↦[cPart j]{fullShare} m (cLoc d)))

/-- What it hands back. -/
def tileTd (d : Dev nD) (j : Fin 32) : sProp 𝕄 :=
  iprop((xLoc d ↦{tok j} Xv d) ∗ (mLoc d ↦{tok j} Mv d) ∗ (∃ f, dLoc d ↦[dPart j]{fullShare} f)
    ∗ (∃ f, eLoc d ↦[ePart j]{fullShare} f) ∗ (∃ f, cLoc d ↦[cPart j]{fullShare} f))

instance tileGo_storable (d : Dev nD) (j : Fin 32) : BI.Storable (upEmb : UEmb _ 𝕄) (tileGo m Xv Mv d j) := by
  unfold tileGo; infer_instance
instance tileTd_storable (d : Dev nD) (j : Fin 32) : BI.Storable (upEmb : UEmb _ 𝕄) (tileTd (F := F) Xv Mv d j) := by
  unfold tileTd; infer_instance

def P : (K (F := F)).Pay (nD := nD) (Val := Elt F) (Name := ℕ) (U := UU) where
  st := fun q d c => match q with
    | 0 => bigSep Finset.univ fun i : Fin 16 => tileGo m Xv Mv d (widN (Fin.cast nCore_zero c) i)
  dn := fun q d c => match q with
    | 0 => bigSep Finset.univ fun i : Fin 16 => tileTd (F := F) Xv Mv d (widN (Fin.cast nCore_zero c) i)
  go := fun q d c i => match q with
    | 0 => tileGo m Xv Mv d (widN (Fin.cast nCore_zero c) (Fin.cast nSub_zero i))
  td := fun q d c i => match q with
    | 0 => tileTd (F := F) Xv Mv d (widN (Fin.cast nCore_zero c) (Fin.cast nSub_zero i))
  x := fun _ _ => iprop(emp)

instance P_storable : (P (F := F) m Xv Mv).IsStorable where
  st q d c := match q with
    | 0 => (inferInstance : BI.Storable (upEmb : UEmb _ 𝕄) (bigSep Finset.univ fun i : Fin 16 => tileGo m Xv Mv d (widN (Fin.cast nCore_zero c) i)))
  dn q d c := match q with
    | 0 => (inferInstance : BI.Storable (upEmb : UEmb _ 𝕄) (bigSep Finset.univ fun i : Fin 16 => tileTd (F := F) Xv Mv d (widN (Fin.cast nCore_zero c) i)))
  go q d c i := match q with
    | 0 => (inferInstance : BI.Storable (upEmb : UEmb _ 𝕄) (tileGo m Xv Mv d (widN (Fin.cast nCore_zero c) (Fin.cast nSub_zero i))))
  td q d c i := match q with
    | 0 => (inferInstance : BI.Storable (upEmb : UEmb _ 𝕄) (tileTd (F := F) Xv Mv d (widN (Fin.cast nCore_zero c) (Fin.cast nSub_zero i))))

end Cert.Proof.KB

end
-- ==== Proof.KB_Launch.lean ====
/-
  The launch: from "every tile's task is proved" (`TileObl`) to the run of the whole program. @main on the
  TensorCore reshapes the two arguments, calls the SparseCore kernel, and reshapes the call's three results
  (beside an iota broadcast that reads none of them). The call is met with what the handshakes carry: each
  reshaped argument is split into thirty-two read tokens (one per tile) and a remainder the TensorCore keeps
  across the call; each result array is cut into its thirty-two equal parts along the leading axis; tile
  `(c, i)` takes token and parts number `2·i + c`. After the call the tokens rejoin the remainder, the parts
  (at whatever the tiles left) rejoin into whole arrays, and the tail of @main runs over them. The two
  arguments are never written, which is what the claim's frame reads off the final memory.
-/
import proofs.«204522_g36051955483029_cont_8to1_b_1192_15_alg».proof.Proof.KB_Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr held_split held_sdiff_result wp_hlo_within tcRefs after)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The arguments, and what @main's two reshapes leave the call -/

abbrev aLoc (d : Dev nD) : Loc nD τ sig := (SparseCore.T d).loc main_arg0
abbrev bLoc (d : Dev nD) : Loc nD τ sig := (SparseCore.T d).loc main_arg1

/-- The states as the call reads them: the first argument, row-major, at shape 512 × 64 × 1024. -/
def Xv (d : Dev nD) : Buf (Elt F) (xLoc d) := shapeCast S512x64x1024 (m (aLoc d)) shapeCasts_S4x8192x1024_S512x64x1024
/-- The mask as the call reads it: the second argument at shape 512 × 64. -/
def Mv (d : Dev nD) : Buf (Elt F) (mLoc d) := shapeCast S512x64 (m (bLoc d)) shapeCasts_S4x8192_S512x64

theorem Xv_eq (d : Dev nD) : Xv m d = shapeCast S512x64x1024 (m ((SparseCore.T d).loc main_arg0)) shapeCasts_S4x8192x1024_S512x64x1024 := rfl
theorem Mv_eq (d : Dev nD) : Mv m d = shapeCast S512x64 (m ((SparseCore.T d).loc main_arg1)) shapeCasts_S4x8192_S512x64 := rfl

variable [FloatOps F]

/-! ## A SparseCore's operands are its tiles' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m (Xv m) (Mv m)) 0 := by
  intro d c
  show (bigSep Finset.univ fun i : Fin 16 => tileGo m (Xv m) (Mv m) d (widN (Fin.cast nCore_zero c) i)) ⊢ |={Set.univ}=> iprop(
      (bigSep Finset.univ fun i : Fin ((K (F := F)).nSub 0) => tileGo m (Xv m) (Mv m) d (widN (Fin.cast nCore_zero c) (Fin.cast nSub_zero i)))
      ∗ ((bigSep Finset.univ fun i : Fin ((K (F := F)).nSub 0) => tileTd (F := F) (Xv m) (Mv m) d (widN (Fin.cast nCore_zero c) (Fin.cast nSub_zero i)))
          -∗ bigSep Finset.univ fun i : Fin 16 => tileTd (F := F) (Xv m) (Mv m) d (widN (Fin.cast nCore_zero c) i)))
  rw [bigSep_tasks (F := F) (fun i => tileGo m (Xv m) (Mv m) d (widN (Fin.cast nCore_zero c) i)),
    bigSep_tasks (F := F) (fun i => tileTd (F := F) (Xv m) (Mv m) d (widN (Fin.cast nCore_zero c) i))]
  iintro H; imodintro
  isplitl [H]; · iexact H
  iintro H; iexact H

/-! ## The launch element: the handshakes' rounds; the transfer counters are not needed at the launch -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m (Xv m) (Mv m)).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev b' : DevRef τ sig := Proc.devRef .tc (main_arg1 : Ref sig .tc)
abbrev x' : DevRef τ sig := Proc.devRef .tc (main_v0 : Ref sig .tc)
abbrev m' : DevRef τ sig := Proc.devRef .tc (main_v1 : Ref sig .tc)
abbrev d' : DevRef τ sig := Proc.devRef .tc (main_v2_0 : Ref sig .tc)
abbrev e' : DevRef τ sig := Proc.devRef .tc (main_v2_1 : Ref sig .tc)
abbrev c' : DevRef τ sig := Proc.devRef .tc (main_v2_2 : Ref sig .tc)
abbrev r5' : DevRef τ sig := Proc.devRef .tc (main_v5 : Ref sig .tc)
abbrev r6' : DevRef τ sig := Proc.devRef .tc (main_v6 : Ref sig .tc)
abbrev r7' : DevRef τ sig := Proc.devRef .tc (main_v7 : Ref sig .tc)
abbrev r8' : DevRef τ sig := Proc.devRef .tc (main_v8 : Ref sig .tc)

/-- @main's operations before the call: the two reshapes; -/
abbrev opX : HloOp τ sig (Elt F) := StableHlo.reshape main_arg0 main_v0 rfl shapeCasts_S4x8192x1024_S512x64x1024
abbrev opM : HloOp τ sig (Elt F) := StableHlo.reshape main_arg1 main_v1 rfl shapeCasts_S4x8192_S512x64
/-- and after it: the block indices (an iota, broadcast twice) and the three results reshaped. -/
abbrev op3 : HloOp τ sig (Elt F) := StableHlo.nullary main_v3 (iotaInDim S128 32 0)
abbrev op4 : HloOp τ sig (Elt F) := StableHlo.unary main_v3 main_v4 (broadcastInDim S1x128 ![1] bcast_S128_S1x128_1 : (⟨S128, .i32⟩ : BufTy).Contents (Elt F) → (⟨S1x128, .i32⟩ : BufTy).Contents (Elt F))
abbrev op5 : HloOp τ sig (Elt F) := StableHlo.unary main_v4 main_v5 (broadcastInDim S4x128 ![0, 1] bcast_S1x128_S4x128_0_1 : (⟨S1x128, .i32⟩ : BufTy).Contents (Elt F) → (⟨S4x128, .i32⟩ : BufTy).Contents (Elt F))
abbrev op6 : HloOp τ sig (Elt F) := StableHlo.reshape main_v2_1 main_v6 rfl shapeCasts_S512x1024_S4x128x1024
abbrev op7 : HloOp τ sig (Elt F) := StableHlo.reshape main_v2_2 main_v7 rfl shapeCasts_S512_S4x128
abbrev op8 : HloOp τ sig (Elt F) := StableHlo.reshape main_v2_0 main_v8 rfl shapeCasts_S512x64x1024_S4x128x64x1024
abbrev tailOps : List (HloOp τ sig (Elt F)) := [op3, op4, op5, op6, op7, op8]

/-- The launch contents of device `d`'s arrays; after the two reshapes; and when the call returns, its three
    results at `fd`, `fe`, `fc`. -/
def V0 (d : Dev nD) : Valuation τ sig (Elt F) := fun b => m (d, b)
def V2 (d : Dev nD) : Valuation τ sig (Elt F) := (opM (F := F)).result ((opX (F := F)).result (V0 m d))
def V3 (d : Dev nD) (fd : Buf (Elt F) (dLoc d)) (fe : Buf (Elt F) (eLoc d)) (fc : Buf (Elt F) (cLoc d)) : Valuation τ sig (Elt F) :=
  Function.update (Function.update (Function.update (V2 m d) d' fd) e' fe) c' fc
/-- What @main's tail leaves from there. -/
def VF (d : Dev nD) (fd : Buf (Elt F) (dLoc d)) (fe : Buf (Elt F) (eLoc d)) (fc : Buf (Elt F) (cLoc d)) : Valuation τ sig (Elt F) :=
  after (tailOps (F := F)) (V3 m d fd fe fc)

/-- The four arrays @main returns. -/
abbrev SR : Finset (DevRef τ sig) := {r6', r7', r8', r5'}

/-! ### The TensorCore's arrays under one valuation -/

omit [FloatOps F] in
theorem unscoped_held (d : Dev nD) :
    (unscopedBufs d (fun b => m ((SparseCore.T d).loc b)) : sProp 𝕄) = held (T d) (tcRefs τ sig) (V0 m d) := by
  unfold unscopedBufs held tcRefs
  rw [show (Finset.univ.filter fun b : Ref sig .tc => ¬ b.isScoped) = Finset.univ by decide, bigSep_map]
  rfl

theorem V2_x (d : Dev nD) : V2 m d x' = Xv m d := by
  unfold V2
  rw [StableHlo.reshape_result_ne (h := show (main_v0 : Ref sig .tc) ≠ main_v1 by decide)]
  exact StableHlo.reshape_result main_arg0 main_v0 rfl shapeCasts_S4x8192x1024_S512x64x1024 _ _ (V0 m d)
theorem V2_m (d : Dev nD) : V2 m d m' = Mv m d := by
  unfold V2
  refine (StableHlo.reshape_result main_arg1 main_v1 rfl shapeCasts_S4x8192_S512x64 _ _ _).trans ?_
  rw [StableHlo.reshape_result_ne (h := show (main_arg1 : Ref sig .tc) ≠ main_v0 by decide)]
  rfl
theorem V2_of_ne (d : Dev nD) {r : Ref sig .tc} (h0 : r ≠ main_v0) (h1 : r ≠ main_v1) :
    V2 m d (Proc.devRef .tc r) = m ((SparseCore.T d).loc r) := by
  unfold V2
  rw [StableHlo.reshape_result_ne (h := h1), StableHlo.reshape_result_ne (h := h0)]
  rfl

section Returned
variable (d : Dev nD) (fd : Buf (Elt F) (dLoc d)) (fe : Buf (Elt F) (eLoc d)) (fc : Buf (Elt F) (cLoc d))

theorem V3_d : V3 m d fd fe fc d' = fd := by
  unfold V3
  rw [Function.update_of_ne (show d' ≠ c' by decide), Function.update_of_ne (show d' ≠ e' by decide), Function.update_self]
theorem V3_e : V3 m d fd fe fc e' = fe := by
  unfold V3
  rw [Function.update_of_ne (show e' ≠ c' by decide), Function.update_self]
theorem V3_c : V3 m d fd fe fc c' = fc := by
  unfold V3
  rw [Function.update_self]
theorem V3_of_ne {b : DevRef τ sig} (hd : b ≠ d') (he : b ≠ e') (hc : b ≠ c') : V3 m d fd fe fc b = V2 m d b := by
  unfold V3
  rw [Function.update_of_ne hc, Function.update_of_ne he, Function.update_of_ne hd]

end Returned

/-! ### Thirty-two equal parts of an array, and thirty-two read tokens -/

omit [FloatOps F] in
/-- An array held whole is its parts held side by side; -/
theorem pts_parts {ℓ : Loc nD τ sig} (Kp : Fin 32 → Finset (Idx ℓ))
    (hd : ∀ i ∈ (Finset.univ : Finset (Fin 32)), ∀ j ∈ (Finset.univ : Finset (Fin 32)), i ≠ j → Disjoint (Kp i) (Kp j))
    (hc : (Finset.univ : Finset (Fin 32)).biUnion Kp = Finset.univ) (f : Buf (Elt F) ℓ) :
    (ℓ ↦{fullShare} f : sProp 𝕄) = bigSep Finset.univ fun j : Fin 32 => ℓ ↦[Kp j]{fullShare} f := by
  rw [← pointsTo_biUnion Finset.univ (ℓ := ℓ) Kp hd, hc]

/-- and parts held at whatever contents each has are the array held whole at some contents. -/
theorem parts_join {ℓ : Loc nD τ sig} (Kp : Fin 32 → Finset (Idx ℓ))
    (hd : ∀ i ∈ (Finset.univ : Finset (Fin 32)), ∀ j ∈ (Finset.univ : Finset (Fin 32)), i ≠ j → Disjoint (Kp i) (Kp j))
    (hc : (Finset.univ : Finset (Fin 32)).biUnion Kp = Finset.univ) :
    (bigSep Finset.univ fun j : Fin 32 => iprop(∃ f : Buf (Elt F) ℓ, ℓ ↦[Kp j]{fullShare} f)) ⊢ (iprop(∃ f : Buf (Elt F) ℓ, ℓ ↦{fullShare} f) : sProp 𝕄) := by
  refine (bigSep_exists_pi Finset.univ (fun (j : Fin 32) (f : Buf (Elt F) ℓ) => (ℓ ↦[Kp j]{fullShare} f : sProp 𝕄))).trans ?_
  iintro ⟨%fs, H⟩
  ihave H' := (pointsTo_biUnion_join Finset.univ Kp fs (fs 0) hd) $$ H
  icases H' with ⟨%g, -, Hg⟩
  rw [hc]
  iexists g; iexact Hg

omit [FloatOps F] in
theorem dPart_eq (j : Fin 32) : dPart j = (dRect j).set := by
  show ((View.whole (main_v2_0_scv : Ref sig .scVector)).slice (dRect j)).set = _
  rw [View.set_slice]; exact Finset.map_refl
omit [FloatOps F] in
theorem ePart_eq (j : Fin 32) : ePart j = (eRect j).set := by
  show ((View.whole (main_v2_1_scv : Ref sig .scVector)).slice (eRect j)).set = _
  rw [View.set_slice]; exact Finset.map_refl
omit [FloatOps F] in
theorem cPart_eq (j : Fin 32) : cPart j = (cRect j).set := by
  show ((View.whole (main_v2_2_scv : Ref sig .scVector)).slice (cRect j)).set = _
  rw [View.set_slice]; exact Finset.map_refl

omit [FloatOps F] in
theorem dParts_disjoint : ∀ i ∈ (Finset.univ : Finset (Fin 32)), ∀ j ∈ (Finset.univ : Finset (Fin 32)), i ≠ j → Disjoint (dPart i) (dPart j) :=
  fun i _ j _ h => by rw [dPart_eq, dPart_eq]; exact Rect.part_disjoint hdivD h
omit [FloatOps F] in
theorem eParts_disjoint : ∀ i ∈ (Finset.univ : Finset (Fin 32)), ∀ j ∈ (Finset.univ : Finset (Fin 32)), i ≠ j → Disjoint (ePart i) (ePart j) :=
  fun i _ j _ h => by rw [ePart_eq, ePart_eq]; exact Rect.part_disjoint hdivE h
omit [FloatOps F] in
theorem cParts_disjoint : ∀ i ∈ (Finset.univ : Finset (Fin 32)), ∀ j ∈ (Finset.univ : Finset (Fin 32)), i ≠ j → Disjoint (cPart i) (cPart j) :=
  fun i _ j _ h => by rw [cPart_eq, cPart_eq]; exact Rect.part_disjoint hdivC h
omit [FloatOps F] in
theorem dParts_cover : (Finset.univ : Finset (Fin 32)).biUnion dPart = Finset.univ :=
  (Finset.biUnion_congr rfl fun i _ => dPart_eq i).trans (Rect.biUnion_part hdivD)
omit [FloatOps F] in
theorem eParts_cover : (Finset.univ : Finset (Fin 32)).biUnion ePart = Finset.univ :=
  (Finset.biUnion_congr rfl fun i _ => ePart_eq i).trans (Rect.biUnion_part hdivE)
omit [FloatOps F] in
theorem cParts_cover : (Finset.univ : Finset (Fin 32)).biUnion cPart = Finset.univ :=
  (Finset.biUnion_congr rfl fun i _ => cPart_eq i).trans (Rect.biUnion_part hdivC)

/-! ### The tiles, numbered flat -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- Tile `(c, i)` ↦ `2·i + c` is a bijection of the 2 × 16 tiles with the thirty-two flat numbers. -/
theorem wid_image : ((Finset.univ : Finset (Fin 2 × Fin 16)).image fun p => widN p.1 p.2) = Finset.univ := by
  refine Finset.eq_univ_iff_forall.mpr fun j => Finset.mem_image.mpr
    ⟨(⟨j.val % 2, Nat.mod_lt _ (by decide)⟩, ⟨j.val / 2, by have := j.isLt; omega⟩), Finset.mem_univ _, Fin.ext ?_⟩
  show 2 * (j.val / 2) + j.val % 2 = j.val
  omega
theorem wid_injOn : Set.InjOn (fun p : Fin 2 × Fin 16 => widN p.1 p.2) ((Finset.univ : Finset (Fin 2 × Fin 16)) : Set _) := by
  intro a _ b _ h
  have h' : 2 * a.2.val + a.1.val = 2 * b.2.val + b.1.val := congrArg Fin.val h
  have := a.1.isLt; have := b.1.isLt
  exact Prod.ext (Fin.ext (by omega)) (Fin.ext (by omega))

omit [FloatOps F] in
/-- So a family over the tiles, core by core, is the family over the flat numbers. -/
theorem bigSep_wid (Φ : Fin 32 → sProp 𝕄) :
    (bigSep Finset.univ fun c : Fin 2 => bigSep Finset.univ fun i : Fin 16 => Φ (widN c i)) = bigSep Finset.univ Φ := by
  refine (bigSep_univ_prod (fun p : Fin 2 × Fin 16 => Φ (widN p.1 p.2))).symm.trans ?_
  refine (SparseCore.bigSep_image_of_injOn wid_injOn Φ).symm.trans ?_
  rw [wid_image]

/-! ### What the call takes from the TensorCore, and what it brings back -/

section Call
variable (X : (d : Dev nD) → Buf (Elt F) (xLoc d)) (M : (d : Dev nD) → Buf (Elt F) (mLoc d)) (d : Dev nD)

theorem st0_eq : (bigSep Finset.univ fun c : Fin ((K (F := F)).nCore 0) => (P m X M).st 0 d c) = bigSep Finset.univ fun j : Fin 32 => tileGo m X M d j := by
  show (bigSep Finset.univ fun c : Fin ((K (F := F)).nCore 0) => bigSep Finset.univ fun i : Fin 16 => tileGo m X M d (widN (Fin.cast nCore_zero c) i)) = _
  rw [bigSep_cores (F := F) (fun c => bigSep Finset.univ fun i : Fin 16 => tileGo m X M d (widN c i)), bigSep_wid (F := F) (fun j => tileGo m X M d j)]
theorem dn0_eq : (bigSep Finset.univ fun c : Fin ((K (F := F)).nCore 0) => (P m X M).dn 0 d c) = bigSep Finset.univ fun j : Fin 32 => tileTd (F := F) X M d j := by
  show (bigSep Finset.univ fun c : Fin ((K (F := F)).nCore 0) => bigSep Finset.univ fun i : Fin 16 => tileTd (F := F) X M d (widN (Fin.cast nCore_zero c) i)) = _
  rw [bigSep_cores (F := F) (fun c => bigSep Finset.univ fun i : Fin 16 => tileTd (F := F) X M d (widN c i)), bigSep_wid (F := F) (fun j => tileTd (F := F) X M d j)]

theorem go_split : (bigSep Finset.univ fun j : Fin 32 => tileGo m X M d j)
    = iprop((bigSep Finset.univ fun j : Fin 32 => xLoc d ↦{tok j} X d) ∗ (bigSep Finset.univ fun j : Fin 32 => mLoc d ↦{tok j} M d)
        ∗ (bigSep Finset.univ fun j : Fin 32 => dLoc d ↦[dPart j]{fullShare} m (dLoc d))
        ∗ (bigSep Finset.univ fun j : Fin 32 => eLoc d ↦[ePart j]{fullShare} m (eLoc d))
        ∗ (bigSep Finset.univ fun j : Fin 32 => cLoc d ↦[cPart j]{fullShare} m (cLoc d))) := by
  unfold tileGo
  rw [bigSep_sep', bigSep_sep', bigSep_sep', bigSep_sep']
theorem td_split : (bigSep Finset.univ fun j : Fin 32 => tileTd (F := F) X M d j)
    = iprop((bigSep Finset.univ fun j : Fin 32 => xLoc d ↦{tok j} X d) ∗ (bigSep Finset.univ fun j : Fin 32 => mLoc d ↦{tok j} M d)
        ∗ (bigSep Finset.univ fun j : Fin 32 => iprop(∃ f, dLoc d ↦[dPart j]{fullShare} f))
        ∗ (bigSep Finset.univ fun j : Fin 32 => iprop(∃ f, eLoc d ↦[ePart j]{fullShare} f))
        ∗ (bigSep Finset.univ fun j : Fin 32 => iprop(∃ f, cLoc d ↦[cPart j]{fullShare} f))) := by
  unfold tileTd
  rw [bigSep_sep', bigSep_sep', bigSep_sep', bigSep_sep']

/-- Into the call: each input gives up its thirty-two tokens and keeps the remainder; each result goes whole, in parts. -/
theorem call_in :
    (iprop((xLoc d ↦{fullShare} X d) ∗ (mLoc d ↦{fullShare} M d) ∗ (dLoc d ↦{fullShare} m (dLoc d)) ∗ (eLoc d ↦{fullShare} m (eLoc d))
        ∗ (cLoc d ↦{fullShare} m (cLoc d))) : sProp 𝕄)
      ⊢ iprop((xLoc d ↦{Transfers.shareDrop fullShare 32} X d) ∗ (mLoc d ↦{Transfers.shareDrop fullShare 32} M d)
          ∗ bigSep Finset.univ fun c : Fin ((K (F := F)).nCore 0) => (P m X M).st 0 d c) := by
  rw [st0_eq, go_split, pts_parts (F := F) (ℓ := dLoc d) dPart dParts_disjoint dParts_cover, pts_parts (F := F) (ℓ := eLoc d) ePart eParts_disjoint eParts_cover,
    pts_parts (F := F) (ℓ := cLoc d) cPart cParts_disjoint cParts_cover]
  iintro ⟨Hx, Hm, Hd, He, Hc⟩
  ihave Hx' := (Transfers.pointsTo_toks_split fullShare 32) $$ Hx
  ihave Hm' := (Transfers.pointsTo_toks_split fullShare 32) $$ Hm
  icases Hx' with ⟨Hxk, Hxt⟩
  icases Hm' with ⟨Hmk, Hmt⟩
  isplitl [Hxk]; · iexact Hxk
  isplitl [Hmk]; · iexact Hmk
  isplitl [Hxt]; · iexact Hxt
  isplitl [Hmt]; · iexact Hmt
  isplitl [Hd]; · iexact Hd
  isplitl [He]; · iexact He
  iexact Hc

/-- Out of it: the tokens rejoin the remainders; the results' parts, at whatever the tiles left, make whole arrays. -/
theorem call_out :
    (iprop((xLoc d ↦{Transfers.shareDrop fullShare 32} X d) ∗ (mLoc d ↦{Transfers.shareDrop fullShare 32} M d)
        ∗ bigSep Finset.univ fun c : Fin ((K (F := F)).nCore 0) => (P m X M).dn 0 d c) : sProp 𝕄)
      ⊢ iprop((xLoc d ↦{fullShare} X d) ∗ (mLoc d ↦{fullShare} M d) ∗ (∃ f, dLoc d ↦{fullShare} f) ∗ (∃ f, eLoc d ↦{fullShare} f)
          ∗ ∃ f, cLoc d ↦{fullShare} f) := by
  rw [dn0_eq, td_split]
  iintro ⟨Hxk, Hmk, Hxt, Hmt, Hd, He, Hc⟩
  isplitl [Hxk Hxt]
  · iapply (Transfers.pointsTo_toks_join fullShare 32)
    isplitl [Hxk]; · iexact Hxk
    iexact Hxt
  isplitl [Hmk Hmt]
  · iapply (Transfers.pointsTo_toks_join fullShare 32)
    isplitl [Hmk]; · iexact Hmk
    iexact Hmt
  isplitl [Hd]; · iapply (parts_join (F := F) (ℓ := dLoc d) dPart dParts_disjoint dParts_cover); iexact Hd
  isplitl [He]; · iapply (parts_join (F := F) (ℓ := eLoc d) ePart eParts_disjoint eParts_cover); iexact He
  iapply (parts_join (F := F) (ℓ := cLoc d) cPart cParts_disjoint cParts_cover); iexact Hc

end Call

/-! ### The arrays the call touches, out of the valuation and back -/

abbrev T5 : Finset (DevRef τ sig) := {x', m', d', e', c'}
abbrev TA : Finset (DevRef τ sig) := {a', b'}

omit [FloatOps F] in
theorem T5_sub : T5 ⊆ tcRefs τ sig := by
  intro b hb
  simp only [T5, Finset.mem_insert, Finset.mem_singleton] at hb
  rcases hb with rfl | rfl | rfl | rfl | rfl <;> exact StableHlo.devRef_mem_tcRefs _
omit [FloatOps F] in
theorem TA_sub : TA ⊆ tcRefs τ sig := by
  intro b hb
  simp only [TA, Finset.mem_insert, Finset.mem_singleton] at hb
  rcases hb with rfl | rfl <;> exact StableHlo.devRef_mem_tcRefs _
omit [FloatOps F] in
theorem SR_sub : SR ⊆ tcRefs τ sig \ TA := by
  intro b hb
  simp only [SR, Finset.mem_insert, Finset.mem_singleton] at hb
  rcases hb with rfl | rfl | rfl | rfl <;> exact Finset.mem_sdiff.mpr ⟨StableHlo.devRef_mem_tcRefs _, by decide⟩

omit [FloatOps F] in
theorem held_T5 (d : Dev nD) (W : Valuation τ sig (Elt F)) :
    (held (T d) T5 W : sProp 𝕄) = iprop((xLoc d ↦{fullShare} W x') ∗ (mLoc d ↦{fullShare} W m') ∗ (dLoc d ↦{fullShare} W d')
      ∗ (eLoc d ↦{fullShare} W e') ∗ (cLoc d ↦{fullShare} W c')) := by
  unfold held T5
  rw [SparseCore.bigSep_insert' (by decide), SparseCore.bigSep_insert' (by decide), SparseCore.bigSep_insert' (by decide),
    SparseCore.bigSep_insert' (by decide), bigSep_singleton]
omit [FloatOps F] in
theorem held_TA (d : Dev nD) (W : Valuation τ sig (Elt F)) :
    (held (T d) TA W : sProp 𝕄) = iprop((aLoc d ↦{fullShare} W a') ∗ (bLoc d ↦{fullShare} W b')) := by
  unfold held TA
  rw [SparseCore.bigSep_insert' (by decide), bigSep_singleton]

theorem held5_V2 (d : Dev nD) :
    (held (T d) T5 (V2 m d) : sProp 𝕄) = iprop((xLoc d ↦{fullShare} Xv m d) ∗ (mLoc d ↦{fullShare} Mv m d) ∗ (dLoc d ↦{fullShare} m (dLoc d))
      ∗ (eLoc d ↦{fullShare} m (eLoc d)) ∗ (cLoc d ↦{fullShare} m (cLoc d))) := by
  rw [held_T5, V2_x, V2_m, V2_of_ne m d (r := main_v2_0) (by decide) (by decide), V2_of_ne m d (r := main_v2_1) (by decide) (by decide),
    V2_of_ne m d (r := main_v2_2) (by decide) (by decide)]

section Returned'
variable (d : Dev nD) (fd : Buf (Elt F) (dLoc d)) (fe : Buf (Elt F) (eLoc d)) (fc : Buf (Elt F) (cLoc d))

theorem held5_V3 :
    (held (T d) T5 (V3 m d fd fe fc) : sProp 𝕄) = iprop((xLoc d ↦{fullShare} Xv m d) ∗ (mLoc d ↦{fullShare} Mv m d) ∗ (dLoc d ↦{fullShare} fd)
      ∗ (eLoc d ↦{fullShare} fe) ∗ (cLoc d ↦{fullShare} fc)) := by
  rw [held_T5, V3_of_ne m d fd fe fc (b := x') (by decide) (by decide) (by decide), V3_of_ne m d fd fe fc (b := m') (by decide) (by decide) (by decide),
    V3_d, V3_e, V3_c, V2_x, V2_m]

theorem heldRest_V3 : (held (T d) (tcRefs τ sig \ T5) (V3 m d fd fe fc) : sProp 𝕄) = held (T d) (tcRefs τ sig \ T5) (V2 m d) :=
  held_congr (T d) fun b hb => by
    have hb' := (Finset.mem_sdiff.mp hb).2
    simp only [T5, Finset.mem_insert, Finset.mem_singleton, not_or] at hb'
    exact V3_of_ne m d fd fe fc hb'.2.2.1 hb'.2.2.2.1 hb'.2.2.2.2

/-- The tail writes none of the arrays it does not name as a result. -/
theorem tail_keeps {b : DevRef τ sig}
    (hb : b ∉ ({Proc.devRef .tc (main_v3 : Ref sig .tc), Proc.devRef .tc (main_v4 : Ref sig .tc), r5', r6', r7', r8'} : Finset (DevRef τ sig)))
    (W : Valuation τ sig (Elt F)) : after (tailOps (F := F)) W b = W b :=
  StableHlo.after_of_forall_not_mem _ _ fun op hop hw => by
    simp only [tailOps, List.mem_cons, List.not_mem_nil, or_false] at hop
    rcases hop with rfl | rfl | rfl | rfl | rfl | rfl <;> exact hb (by rw [Finset.mem_singleton.mp hw]; decide)

theorem VF_a : VF m d fd fe fc a' = m (aLoc d) := by
  unfold VF
  rw [tail_keeps (by decide), V3_of_ne m d fd fe fc (b := a') (by decide) (by decide) (by decide), V2_of_ne m d (r := main_arg0) (by decide) (by decide)]
theorem VF_b : VF m d fd fe fc b' = m (bLoc d) := by
  unfold VF
  rw [tail_keeps (by decide), V3_of_ne m d fd fe fc (b := b') (by decide) (by decide) (by decide), V2_of_ne m d (r := main_arg1) (by decide) (by decide)]

/-- All the TensorCore's arrays after the tail: the two arguments at their launch contents, and the four results. -/
theorem fin_of_held :
    (held (T d) (tcRefs τ sig) (VF m d fd fe fc) : sProp 𝕄)
      ⊢ iprop((aLoc d ↦{fullShare} m (aLoc d)) ∗ (bLoc d ↦{fullShare} m (bLoc d)) ∗ held (T d) SR (VF m d fd fe fc)) := by
  rw [held_sub_split (T d) TA_sub, held_TA, VF_a, VF_b, held_sub_split (T d) SR_sub]
  iintro ⟨⟨Ha, Hb⟩, HR, -⟩
  isplitl [Ha]; · iexact Ha
  isplitl [Hb]; · iexact Hb
  iexact HR

end Returned'

/-- What @main leaves the claim: the two arguments at their launch contents, and the four results at the tail's
    operations of whatever the call left in its three. -/
def FIN (d : Dev nD) : sProp 𝕄 :=
  iprop((aLoc d ↦{fullShare} m (aLoc d)) ∗ (bLoc d ↦{fullShare} m (bLoc d)) ∗ ∃ fd fe fc, held (T d) SR (VF m d fd fe fc))

theorem VF_eq (d : Dev nD) (fd : Buf (Elt F) (dLoc d)) (fe : Buf (Elt F) (eLoc d)) (fc : Buf (Elt F) (cLoc d)) :
    VF m d fd fe fc = (op8 (F := F)).result ((op7 (F := F)).result ((op6 (F := F)).result ((op5 (F := F)).result ((op4 (F := F)).result ((op3 (F := F)).result (V3 m d fd fe fc)))))) := rfl

theorem held_V2 (d : Dev nD) :
    (held (T d) (tcRefs τ sig) ((opM (F := F)).result ((opX (F := F)).result (V0 m d))) : sProp 𝕄)
      = iprop(held (T d) T5 (V2 m d) ∗ held (T d) (tcRefs τ sig \ T5) (V2 m d)) :=
  held_sub_split (T d) T5_sub (V2 m d)

/-- @main on device `d`'s TensorCore: the two reshapes; the call, from the reshaped arguments' tokens and the results'
    parts; the tail over what came back. The arguments are read, never written. -/
theorem hmain (κ : GSem nD τ sig → ℕ) (d : Dev nD) :
    iprop((K (F := F)).ctx EH (P m (Xv m) (Mv m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the two reshapes
  iapply (wp_hlo_within 𝒱 (SparseCore.T d) none Set.univ (op := opX) (S := tcRefs τ sig) (StableHlo.reshape_bufs_sub _ _ _ _ _ _) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opM) (S := tcRefs τ sig) (StableHlo.reshape_bufs_sub _ _ _ _ _ _) (V := (opX (F := F)).result (V0 m d))) $$ [Hb Hheld]
  · isplitl [Hb]; · iexact Hb
    iexact Hheld
  iintro ⟨Hb, Hheld⟩
  rw [wp_ret]; imodintro
  -- the call's arrays out of the valuation
  ihave Hh := (Entails.of_eq (held_V2 m d)) $$ Hheld
  icases Hh with ⟨H5, Hrest⟩
  ihave H5' := (Entails.of_eq (held5_V2 m d)) $$ H5
  ihave Hin := (call_in m (Xv m) (Mv m) d) $$ H5'
  icases Hin with ⟨Hxk, Hmk, Hgo⟩
  iapply ((K (F := F)).wp_run (D (F := F)) 𝒱 (EH := EH) (P := P m (Xv m) (Mv m)) κ d 0) $$ [Hst Hgo Hb Hrest Hxk Hmk]
  isplitr; · iexact Hctx
  isplitl [Hst]; · iexact Hst
  isplitl [Hgo]; · iexact Hgo
  iintro ⟨Hst, Hdn⟩
  -- and back into it, the results at whatever the tiles left
  ihave Hout := (call_out m (Xv m) (Mv m) d) $$ [Hxk Hmk Hdn]
  · isplitl [Hxk]; · iexact Hxk
    isplitl [Hmk]; · iexact Hmk
    iexact Hdn
  icases Hout with ⟨Hx, Hm, ⟨%fd, Hd⟩, ⟨%fe, He⟩, ⟨%fc, Hc⟩⟩
  ihave Hheld := (Entails.of_eq (held_sub_split (SparseCore.T d) T5_sub (V3 m d fd fe fc)).symm) $$ [Hx Hm Hd He Hc Hrest]
  · rw [held5_V3, heldRest_V3]
    isplitr [Hrest]
    · isplitl [Hx]; · iexact Hx
      isplitl [Hm]; · iexact Hm
      isplitl [Hd]; · iexact Hd
      isplitl [He]; · iexact He
      iexact Hc
    · iexact Hrest
  -- the tail
  iapply (wp_hlo_within 𝒱 (SparseCore.T d) none Set.univ (op := op3) (S := tcRefs τ sig) (StableHlo.nullary_bufs_sub _ _ _) (V := V3 m d fd fe fc)) $$ [Hb Hheld]
  · isplitl [Hb]; · iexact Hb
    iexact Hheld
  iintro ⟨Hb, Hheld⟩
  rw [wp_ret]; imodintro
  iapply (wp_hlo_within 𝒱 (SparseCore.T d) none Set.univ (op := op4) (S := tcRefs τ sig) (StableHlo.unary_bufs_sub _ _ _ _ _) (V := (op3 (F := F)).result (V3 m d fd fe fc))) $$ [Hb Hheld]
  · isplitl [Hb]; · iexact Hb
    iexact Hheld
  iintro ⟨Hb, Hheld⟩
  rw [wp_ret]; imodintro
  iapply (wp_hlo_within 𝒱 (SparseCore.T d) none Set.univ (op := op5) (S := tcRefs τ sig) (StableHlo.unary_bufs_sub _ _ _ _ _) (V := (op4 (F := F)).result ((op3 (F := F)).result (V3 m d fd fe fc)))) $$ [Hb Hheld]
  · isplitl [Hb]; · iexact Hb
    iexact Hheld
  iintro ⟨Hb, Hheld⟩
  rw [wp_ret]; imodintro
  iapply (wp_hlo_within 𝒱 (SparseCore.T d) none Set.univ (op := op6) (S := tcRefs τ sig) (StableHlo.reshape_bufs_sub _ _ _ _ _ _) (V := (op5 (F := F)).result ((op4 (F := F)).result ((op3 (F := F)).result (V3 m d fd fe fc))))) $$ [Hb Hheld]
  · isplitl [Hb]; · iexact Hb
    iexact Hheld
  iintro ⟨Hb, Hheld⟩
  rw [wp_ret]; imodintro
  iapply (wp_hlo_within 𝒱 (SparseCore.T d) none Set.univ (op := op7) (S := tcRefs τ sig) (StableHlo.reshape_bufs_sub _ _ _ _ _ _) (V := (op6 (F := F)).result ((op5 (F := F)).result ((op4 (F := F)).result ((op3 (F := F)).result (V3 m d fd fe fc)))))) $$ [Hb Hheld]
  · isplitl [Hb]; · iexact Hb
    iexact Hheld
  iintro ⟨Hb, Hheld⟩
  rw [wp_ret]; imodintro
  iapply (wp_hlo_within 𝒱 (SparseCore.T d) none Set.univ (op := op8) (S := tcRefs τ sig) (StableHlo.reshape_bufs_sub _ _ _ _ _ _) (V := (op7 (F := F)).result ((op6 (F := F)).result ((op5 (F := F)).result ((op4 (F := F)).result ((op3 (F := F)).result (V3 m d fd fe fc))))))) $$ [Hb Hheld]
  · isplitl [Hb]; · iexact Hb
    iexact Hheld
  iintro ⟨Hb, Hheld⟩
  rw [wp_ret]; imodintro
  imodintro
  ihave Hf := (fin_of_held m d fd fe fc) $$ [Hheld]
  · rw [VF_eq]; iexact Hheld
  icases Hf with ⟨Ha, Hb', HR⟩
  isplitl [Hst]; · iexact Hst
  unfold FIN
  isplitl [Ha]; · iexact Ha
  isplitl [Hb']; · iexact Hb'
  iexists fd, fe, fc; iexact HR

/-! ## The claim, off the final memory -/

def fq (d : Dev nD) (s' : Phys nD τ sig (Elt F)) : Prop := s'.mem.mem (aLoc d) = m (aLoc d) ∧ s'.mem.mem (bLoc d) = m (bLoc d)

theorem hfin (d : Dev nD) (s' : Phys nD τ sig (Elt F)) : iprop(FIN m d ∗ SI s') ⊢ (⌜fq m d s'⌝ : sProp 𝕄) := by
  unfold FIN
  iintro ⟨⟨Ha, Hb, -⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := bLoc d) (I := Finset.univ) (q := fullShare) (f := m (bLoc d))) $$ [HSI Hb]
  · isplitl [HSI] <;> iassumption
  icases H with %h2
  ipureintro; exact ⟨funext fun i => h1 i (Finset.mem_univ i), funext fun i => h2 i (Finset.mem_univ i)⟩

def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)

/-- The program's run, from the tiles' obligation. -/
theorem run_main [∀ e, Nonempty (Elt F e)] (hobl : (K (F := F)).TileObl (D (F := F)) 𝒱 (P m (Xv m) (Mv m)) v₀ 0) :
    θ_run (defs (F := F)) (threads (F := F)) ⟨m, fun _ => 0, ρ⟩ (QC m) :=
  SparseCore.Cfg.θ_run_sc (K := K (F := F)) (D := D (F := F)) (𝒱 := 𝒱) (EH := EH) (P := P m (Xv m) (Mv m)) facts v₀
    (fun q hq => match q with | 0 => nomatch hq)
    (fun q _ => match q with | 0 => hobl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KB_SliceDefs.lean ====
/-
  The HBM slices a tile's copies read and write, under canonical names: half block `c ∈ {0, 512}` (its first
  column) of the tile's unit `j` of the states array (`xsl`) and of the difference array (`dsl`), mean row `j`
  (`esl`), and the tile's sixteen coarse-mask words (`csl`), each as the memref the kernel slices, at offsets
  given as functions; and the tile's canonical offsets (unit `j` of the tile at subcore `L 1` of core `L 0` is
  unit `32·(L 1) + 16·(L 0) + j` of the 512; `j` and `c` are capped so that the offsets are in range for every
  natural number, which spares the invariant a dependent case split).
-/
import proofs.«204522_g36051955483029_cont_8to1_b_1192_15_alg».proof.Proof.KB_Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

/-! ## The slices as the kernel spells them, at given offsets -/

abbrev xsl (o : Fin 3 → Nat) (ho : ∀ a, o a + S1x64x512.size a ≤ S512x64x1024.size a) : Memref sig .scVector .hbm S64x512 .f32 :=
  ((xV).slice (Rect.unit (s := S512x64x1024) o S1x64x512.size ho) (fun _ => rfl)).squeeze S64x512 squeezes_S1x64x512_S64x512
abbrev dsl (o : Fin 3 → Nat) (ho : ∀ a, o a + S1x64x512.size a ≤ S512x64x1024.size a) : Memref sig .scVector .hbm S64x512 .f32 :=
  ((dV).slice (Rect.unit (s := S512x64x1024) o S1x64x512.size ho) (fun _ => rfl)).squeeze S64x512 squeezes_S1x64x512_S64x512
abbrev esl (o : Fin 2 → Nat) (ho : ∀ a, o a + S1x1024.size a ≤ S512x1024.size a) : Memref sig .scVector .hbm S1024 .f32 :=
  ((eV).slice (Rect.unit (s := S512x1024) o S1x1024.size ho) (fun _ => rfl)).squeeze S1024 squeezes_S1x1024_S1024
abbrev csl (o : Fin 1 → Nat) (ho : ∀ a, o a + S16.size a ≤ S512.size a) : Memref sig .scVector .hbm S16 .f32 :=
  (cV').slice (Rect.unit (s := S512) o S16.size ho) (fun _ => rfl)

/-! ## The tile's canonical offsets -/

/-- The tile's first unit. -/
def base (L : grid0.Coords) : ℕ := 32 * (L 1).val + 16 * (L 0).val

theorem base_le (L : grid0.Coords) : base L ≤ 496 := by
  have h1 : (L 1).val < 16 := (L 1).isLt
  have h0 : (L 0).val < 2 := (L 0).isLt
  unfold base; omega

/-- Unit `j` of the tile, half block starting at column `c`. -/
def uo3 (L : grid0.Coords) (j c : ℕ) : Fin 3 → Nat := ![base L + min j 15, 0, min c 512]
/-- Unit `j` of the tile, as a row of the mean array. -/
def uo2 (L : grid0.Coords) (j : ℕ) : Fin 2 → Nat := ![base L + min j 15, 0]
/-- The tile's sixteen words of the coarse mask. -/
def uo1 (L : grid0.Coords) : Fin 1 → Nat := ![base L]

theorem uo3_inb (L : grid0.Coords) (j c : ℕ) : ∀ a, uo3 L j c a + S1x64x512.size a ≤ S512x64x1024.size a := by
  have hb := base_le L
  intro a; fin_cases a <;> simp [uo3] <;> omega
theorem uo2_inb (L : grid0.Coords) (j : ℕ) : ∀ a, uo2 L j a + S1x1024.size a ≤ S512x1024.size a := by
  have hb := base_le L
  intro a; fin_cases a <;> simp [uo2] <;> omega
theorem uo1_inb (L : grid0.Coords) : ∀ a, uo1 L a + S16.size a ≤ S512.size a := by
  have hb := base_le L
  intro a; fin_cases a; simp [uo1]; omega

/-- The element sets of the canonical slices. -/
abbrev xS (L : grid0.Coords) (j c : ℕ) : Finset S512x64x1024.Idx := (xsl (uo3 L j c) (uo3_inb L j c)).view.set
abbrev dS (L : grid0.Coords) (j c : ℕ) : Finset S512x64x1024.Idx := (dsl (uo3 L j c) (uo3_inb L j c)).view.set
abbrev eS (L : grid0.Coords) (j : ℕ) : Finset S512x1024.Idx := (esl (uo2 L j) (uo2_inb L j)).view.set
abbrev cS (L : grid0.Coords) : Finset S512.Idx := (csl (uo1 L) (uo1_inb L)).view.set

/-- The tile's flat number, the kernel's `wid`. -/
def wid (L : grid0.Coords) : Fin 32 := ⟨2 * (L 1).val + (L 0).val, by
  have h1 : (L 1).val < 16 := (L 1).isLt
  have h0 : (L 0).val < 2 := (L 0).isLt
  omega⟩

end Cert.Proof.KB

end
-- ==== Proof.KB_Slices.lean ====
/-
  The geometry of the HBM slices a tile's copies go through, as sets of elements of the whole arrays. A half block
  of a unit is one row of the `[512, 64, 1024]` array (its unit) at 512 consecutive columns; a mean row is one
  row of the `[512, 1024]` array; the tile's coarse-mask words are sixteen consecutive words. From that: every
  slice of the tile lies in the tile's part of its array (one thirty-second, along the leading axis), slices of
  different units or halves share no element, the tile's mask words ARE its part, and the tile's flat number is
  the one the launch hands its resources out by.
-/
import proofs.«204522_g36051955483029_cont_8to1_b_1192_15_alg».proof.Proof.KB_SliceDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "xV" => (Memref.whole Cert.Kernel.main_v0_scv : Memref Cert.Kernel.sig Kind.scVector Space.hbm Cert.Kernel.S512x64x1024 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)

/-! ## A slice's elements are its rectangle's (squeezing re-indexes, the whole array places each index at itself) -/

theorem xsl_set (o : Fin 3 → Nat) (ho : ∀ a, o a + S1x64x512.size a ≤ S512x64x1024.size a) :
    (xsl o ho).view.set = (Rect.unit (s := S512x64x1024) o S1x64x512.size ho).set := by
  show (((View.whole (main_v0_scv : Ref sig .scVector)).slice (Rect.unit (s := S512x64x1024) o S1x64x512.size ho)).reshape S64x512
    squeezes_S1x64x512_S64x512.numel_eq).set = _
  rw [View.set_reshape, View.set_slice_whole]
theorem dsl_set (o : Fin 3 → Nat) (ho : ∀ a, o a + S1x64x512.size a ≤ S512x64x1024.size a) :
    (dsl o ho).view.set = (Rect.unit (s := S512x64x1024) o S1x64x512.size ho).set := by
  show (((View.whole (main_v2_0_scv : Ref sig .scVector)).slice (Rect.unit (s := S512x64x1024) o S1x64x512.size ho)).reshape S64x512
    squeezes_S1x64x512_S64x512.numel_eq).set = _
  rw [View.set_reshape, View.set_slice_whole]
theorem esl_set (o : Fin 2 → Nat) (ho : ∀ a, o a + S1x1024.size a ≤ S512x1024.size a) :
    (esl o ho).view.set = (Rect.unit (s := S512x1024) o S1x1024.size ho).set := by
  show (((View.whole (main_v2_1_scv : Ref sig .scVector)).slice (Rect.unit (s := S512x1024) o S1x1024.size ho)).reshape S1024
    squeezes_S1x1024_S1024.numel_eq).set = _
  rw [View.set_reshape, View.set_slice_whole]
theorem csl_set (o : Fin 1 → Nat) (ho : ∀ a, o a + S16.size a ≤ S512.size a) :
    (csl o ho).view.set = (Rect.unit (s := S512) o S16.size ho).set := by
  show ((View.whole (main_v2_2_scv : Ref sig .scVector)).slice (Rect.unit (s := S512) o S16.size ho)).set = _
  rw [View.set_slice_whole]

/-- The states' and the result's half blocks at the same offsets are the same set of indices. -/
theorem dsl_set_eq_xsl_set (o : Fin 3 → Nat) (ho : ∀ a, o a + S1x64x512.size a ≤ S512x64x1024.size a) :
    (dsl o ho).view.set = (xsl o ho).view.set := by rw [dsl_set, xsl_set]

theorem dPart_eq_rect (j : Fin 32) : dPart j = (dRect j).set := by
  show ((View.whole (main_v2_0_scv : Ref sig .scVector)).slice (dRect j)).set = _
  rw [View.set_slice_whole]
theorem ePart_eq_rect (j : Fin 32) : ePart j = (eRect j).set := by
  show ((View.whole (main_v2_1_scv : Ref sig .scVector)).slice (eRect j)).set = _
  rw [View.set_slice_whole]
theorem cPart_eq_rect (j : Fin 32) : cPart j = (cRect j).set := by
  show ((View.whole (main_v2_2_scv : Ref sig .scVector)).slice (cRect j)).set = _
  rw [View.set_slice_whole]

/-! ## Membership by coordinates -/

/-- An index lies in a half block iff its unit is the block's and its column lies in the block's 512 (its middle
    coordinate is free: the block keeps all 64). -/
theorem mem_unit3 (o : Fin 3 → Nat) (ho : ∀ a, o a + S1x64x512.size a ≤ S512x64x1024.size a) (i : S512x64x1024.Idx) :
    i ∈ (Rect.unit (s := S512x64x1024) o S1x64x512.size ho).set ↔ (i 0 : Nat) = o 0 ∧ o 2 ≤ (i 2 : Nat) ∧ (i 2 : Nat) < o 2 + 512 := by
  rw [Rect.mem_set_unit]
  constructor
  · intro H
    have H0 : o 0 ≤ (i 0 : Nat) ∧ (i 0 : Nat) < o 0 + 1 := H 0
    have H2 : o 2 ≤ (i 2 : Nat) ∧ (i 2 : Nat) < o 2 + 512 := H 2
    omega
  · rintro ⟨e0, l2, u2⟩ a
    match a with
    | 0 => show o 0 ≤ (i 0 : Nat) ∧ (i 0 : Nat) < o 0 + 1; omega
    | 1 => have h1 : (i 1 : Nat) < 64 := (i 1).isLt
           have ho1 : o 1 + 64 ≤ 64 := ho 1
           show o 1 ≤ (i 1 : Nat) ∧ (i 1 : Nat) < o 1 + 64; omega
    | 2 => show o 2 ≤ (i 2 : Nat) ∧ (i 2 : Nat) < o 2 + 512; omega

/-- An index lies in a mean row iff its unit is the row's. -/
theorem mem_unit2 (o : Fin 2 → Nat) (ho : ∀ a, o a + S1x1024.size a ≤ S512x1024.size a) (i : S512x1024.Idx) :
    i ∈ (Rect.unit (s := S512x1024) o S1x1024.size ho).set ↔ (i 0 : Nat) = o 0 := by
  rw [Rect.mem_set_unit]
  constructor
  · intro H
    have H0 : o 0 ≤ (i 0 : Nat) ∧ (i 0 : Nat) < o 0 + 1 := H 0
    omega
  · intro e0 a
    match a with
    | 0 => show o 0 ≤ (i 0 : Nat) ∧ (i 0 : Nat) < o 0 + 1; omega
    | 1 => have h1 : (i 1 : Nat) < 1024 := (i 1).isLt
           have ho1 : o 1 + 1024 ≤ 1024 := ho 1
           show o 1 ≤ (i 1 : Nat) ∧ (i 1 : Nat) < o 1 + 1024; omega

theorem mem_unit1 (o : Fin 1 → Nat) (ho : ∀ a, o a + S16.size a ≤ S512.size a) (i : S512.Idx) :
    i ∈ (Rect.unit (s := S512) o S16.size ho).set ↔ o 0 ≤ (i 0 : Nat) ∧ (i 0 : Nat) < o 0 + 16 := by
  rw [Rect.mem_set_unit]
  constructor
  · intro H; exact H 0
  · intro H a
    match a with
    | 0 => exact H

theorem mem_xsl (o : Fin 3 → Nat) (ho : ∀ a, o a + S1x64x512.size a ≤ S512x64x1024.size a) (i : S512x64x1024.Idx) :
    i ∈ (xsl o ho).view.set ↔ (i 0 : Nat) = o 0 ∧ o 2 ≤ (i 2 : Nat) ∧ (i 2 : Nat) < o 2 + 512 := by rw [xsl_set, mem_unit3]
theorem mem_dsl (o : Fin 3 → Nat) (ho : ∀ a, o a + S1x64x512.size a ≤ S512x64x1024.size a) (i : S512x64x1024.Idx) :
    i ∈ (dsl o ho).view.set ↔ (i 0 : Nat) = o 0 ∧ o 2 ≤ (i 2 : Nat) ∧ (i 2 : Nat) < o 2 + 512 := by rw [dsl_set, mem_unit3]
theorem mem_esl (o : Fin 2 → Nat) (ho : ∀ a, o a + S1x1024.size a ≤ S512x1024.size a) (i : S512x1024.Idx) :
    i ∈ (esl o ho).view.set ↔ (i 0 : Nat) = o 0 := by rw [esl_set, mem_unit2]
theorem mem_csl (o : Fin 1 → Nat) (ho : ∀ a, o a + S16.size a ≤ S512.size a) (i : S512.Idx) :
    i ∈ (csl o ho).view.set ↔ o 0 ≤ (i 0 : Nat) ∧ (i 0 : Nat) < o 0 + 16 := by rw [csl_set, mem_unit1]

/-- The canonical slices, by coordinates. -/
theorem mem_xS (L : grid0.Coords) (j c : ℕ) (i : S512x64x1024.Idx) :
    i ∈ xS L j c ↔ (i 0 : Nat) = base L + min j 15 ∧ min c 512 ≤ (i 2 : Nat) ∧ (i 2 : Nat) < min c 512 + 512 := mem_xsl _ _ i
theorem mem_dS (L : grid0.Coords) (j c : ℕ) (i : S512x64x1024.Idx) :
    i ∈ dS L j c ↔ (i 0 : Nat) = base L + min j 15 ∧ min c 512 ≤ (i 2 : Nat) ∧ (i 2 : Nat) < min c 512 + 512 := mem_dsl _ _ i
theorem mem_eS (L : grid0.Coords) (j : ℕ) (i : S512x1024.Idx) : i ∈ eS L j ↔ (i 0 : Nat) = base L + min j 15 := mem_esl _ _ i
theorem mem_cS (L : grid0.Coords) (i : S512.Idx) : i ∈ cS L ↔ base L ≤ (i 0 : Nat) ∧ (i 0 : Nat) < base L + 16 := mem_csl _ _ i

theorem dS_eq_xS (L : grid0.Coords) (j c : ℕ) : dS L j c = xS L j c := dsl_set_eq_xsl_set _ _

/-- A part of the thirty-two, by coordinates: sixteen consecutive units. -/
theorem mem_dPart (j : Fin 32) (i : S512x64x1024.Idx) : i ∈ dPart j ↔ 16 * j.val ≤ (i 0 : Nat) ∧ (i 0 : Nat) < 16 * j.val + 16 := by
  rw [dPart_eq_rect, Rect.mem_set_unit]
  constructor
  · intro H
    have H0 : j.val * 16 ≤ (i 0 : Nat) ∧ (i 0 : Nat) < j.val * 16 + 16 := H 0
    omega
  · intro H a
    match a with
    | 0 => show j.val * 16 ≤ (i 0 : Nat) ∧ (i 0 : Nat) < j.val * 16 + 16; omega
    | 1 => have h1 : (i 1 : Nat) < 64 := (i 1).isLt
           show 0 * 64 ≤ (i 1 : Nat) ∧ (i 1 : Nat) < 0 * 64 + 64; omega
    | 2 => have h2 : (i 2 : Nat) < 1024 := (i 2).isLt
           show 0 * 1024 ≤ (i 2 : Nat) ∧ (i 2 : Nat) < 0 * 1024 + 1024; omega
theorem mem_ePart (j : Fin 32) (i : S512x1024.Idx) : i ∈ ePart j ↔ 16 * j.val ≤ (i 0 : Nat) ∧ (i 0 : Nat) < 16 * j.val + 16 := by
  rw [ePart_eq_rect, Rect.mem_set_unit]
  constructor
  · intro H
    have H0 : j.val * 16 ≤ (i 0 : Nat) ∧ (i 0 : Nat) < j.val * 16 + 16 := H 0
    omega
  · intro H a
    match a with
    | 0 => show j.val * 16 ≤ (i 0 : Nat) ∧ (i 0 : Nat) < j.val * 16 + 16; omega
    | 1 => have h1 : (i 1 : Nat) < 1024 := (i 1).isLt
           show 0 * 1024 ≤ (i 1 : Nat) ∧ (i 1 : Nat) < 0 * 1024 + 1024; omega
theorem mem_cPart (j : Fin 32) (i : S512.Idx) : i ∈ cPart j ↔ 16 * j.val ≤ (i 0 : Nat) ∧ (i 0 : Nat) < 16 * j.val + 16 := by
  rw [cPart_eq_rect, Rect.mem_set_unit]
  constructor
  · intro H
    have H0 : j.val * 16 ≤ (i 0 : Nat) ∧ (i 0 : Nat) < j.val * 16 + 16 := H 0
    omega
  · intro H a
    match a with
    | 0 => show j.val * 16 ≤ (i 0 : Nat) ∧ (i 0 : Nat) < j.val * 16 + 16; omega

/-! ## The tile's flat number -/

theorem wid_val (L : grid0.Coords) : (wid L).val = 2 * (L 1).val + (L 0).val := rfl
/-- The tile's first unit is sixteen times its flat number. -/
theorem base_eq (L : grid0.Coords) : base L = 16 * (wid L).val := by rw [wid_val]; unfold base; omega

/-! ## Every slice of the tile lies in the tile's part -/

theorem dS_subset (L : grid0.Coords) (j c : ℕ) (hc : c = 0 ∨ c = 512) : dS L j c ⊆ dPart (wid L) := by
  intro i hi
  rw [mem_dS] at hi
  rw [mem_dPart, ← base_eq]
  omega
theorem xS_subset (L : grid0.Coords) (j c : ℕ) (hc : c = 0 ∨ c = 512) : xS L j c ⊆ dPart (wid L) := by
  rw [← dS_eq_xS]; exact dS_subset L j c hc
theorem eS_subset (L : grid0.Coords) (j : ℕ) : eS L j ⊆ ePart (wid L) := by
  intro i hi
  rw [mem_eS] at hi
  rw [mem_ePart, ← base_eq]
  omega

/-! ## Slices of different units, or of different halves of one unit, share no element -/

theorem dS_disjoint (L : grid0.Coords) {j c j' c' : ℕ} (hj : j < 16) (hj' : j' < 16) (hc : c = 0 ∨ c = 512) (hc' : c' = 0 ∨ c' = 512)
    (hne : j ≠ j' ∨ c ≠ c') : Disjoint (dS L j c) (dS L j' c') := by
  rw [Finset.disjoint_left]
  intro i hi hi'
  rw [mem_dS] at hi hi'
  omega
theorem xS_disjoint (L : grid0.Coords) {j c j' c' : ℕ} (hj : j < 16) (hj' : j' < 16) (hc : c = 0 ∨ c = 512) (hc' : c' = 0 ∨ c' = 512)
    (hne : j ≠ j' ∨ c ≠ c') : Disjoint (xS L j c) (xS L j' c') := by
  rw [← dS_eq_xS, ← dS_eq_xS]; exact dS_disjoint L hj hj' hc hc' hne
theorem eS_disjoint (L : grid0.Coords) {j j' : ℕ} (hj : j < 16) (hj' : j' < 16) (hne : j ≠ j') : Disjoint (eS L j) (eS L j') := by
  rw [Finset.disjoint_left]
  intro i hi hi'
  rw [mem_eS] at hi hi'
  omega

/-! ## The tile's coarse-mask words are its part of that array -/

theorem cS_eq (L : grid0.Coords) : cS L = cPart (wid L) := by
  ext i
  rw [mem_cS, mem_cPart, ← base_eq]

/-! ## The flat number of the tile the launch names by core and subcore -/

theorem wid_coordsV (c : Fin (grid0.bound 0)) (i : Fin (grid0.bound 1)) : wid (coordsV c i) = widN ⟨c.val, c.isLt⟩ ⟨i.val, i.isLt⟩ := rfl

/-- The same with the coordinates given as numbers and the launch's indices as any `Fin 2`, `Fin 16` of those values. -/
theorem wid_coordsV' {a b : ℕ} (ha : a < grid0.bound 0) (hb : b < grid0.bound 1) (c : Fin 2) (i : Fin 16) (hc : c.val = a) (hi : i.val = b) :
    wid (coordsV ⟨a, ha⟩ ⟨b, hb⟩) = widN c i := by
  subst hc hi; rfl

end Cert.Proof.KB

end
-- ==== Proof.KB_Conds.lean ====
/-
  What each condition of the loop body says of the trip number, and the offsets of the "unit before" slices in
  closed form. The sixteen trips of the tile's loop run a three-way software pipeline: the body's variant goes by
  the trip number modulo three, a prefetch of the next unit happens while there is one (`k + 1 < 16`), a wait for
  the unit before while there is one (`0 < k`). Every fact here is a finite check over the sixteen trips (and,
  for the offsets, the thirty-two tiles).
-/
import proofs.«204522_g36051955483029_cont_8to1_b_1192_15_alg».proof.Proof.KB_Common

namespace Cert.Proof.KB

open Cert.Kernel Cert.Kernel.Gen

open Idealize.ShloMosaic

/-! ## The loop's trip count -/

theorem trips_eq : k0_t1_loop.trips = 16 := rfl
/-- A trip number is below sixteen: the loop's trip count computes to sixteen. -/
theorem trips_lt (k : Fin k0_t1_loop.trips) : k.val < 16 := k.isLt

/-! ## What each condition of the loop body says of the trip number -/

/-- The body's three variants go by the trip number modulo three. -/
theorem cond1_iff : ∀ k : Fin k0_t1_loop.trips, k0_cond1 k = 1#1 ↔ k.val % 3 ≠ 0 := by decide
theorem not_cond1_iff : ∀ k : Fin k0_t1_loop.trips, ¬ k0_cond1 k = 1#1 ↔ k.val % 3 = 0 := by decide
theorem cond2_iff : ∀ k : Fin k0_t1_loop.trips, k0_cond1 k = 1#1 → (k0_cond2 k = 1#1 ↔ k.val % 3 = 2) := by decide
theorem cond12_mod : ∀ k : Fin k0_t1_loop.trips, k0_cond1 k = 1#1 ∧ k0_cond2 k = 1#1 ↔ k.val % 3 = 2 := by decide
theorem cond1n2_mod : ∀ k : Fin k0_t1_loop.trips, k0_cond1 k = 1#1 ∧ ¬ k0_cond2 k = 1#1 ↔ k.val % 3 = 1 := by decide

/-- "There is a unit before this one": -/
theorem cond3_iff : ∀ k : Fin k0_t1_loop.trips, k0_cond3 k = 1#1 ↔ 0 < k.val := by decide
theorem cond5_iff : ∀ k : Fin k0_t1_loop.trips, k0_cond5 k = 1#1 ↔ 0 < k.val := by decide
theorem cond7_iff : ∀ k : Fin k0_t1_loop.trips, k0_cond7 k = 1#1 ↔ 0 < k.val := by decide
theorem cond9_iff : ∀ k : Fin k0_t1_loop.trips, k0_cond9 k = 1#1 ↔ 0 < k.val := by decide
theorem cond11_iff : ∀ k : Fin k0_t1_loop.trips, k0_cond11 k = 1#1 ↔ 0 < k.val := by decide
theorem cond13_iff : ∀ k : Fin k0_t1_loop.trips, k0_cond13 k = 1#1 ↔ 0 < k.val := by decide
/-- "there is a unit after this one": -/
theorem cond4_iff : ∀ k : Fin k0_t1_loop.trips, k0_cond4 k = 1#1 ↔ k.val + 1 < 16 := by decide
theorem cond6_iff : ∀ k : Fin k0_t1_loop.trips, k0_cond6 k = 1#1 ↔ k.val + 1 < 16 := by decide
theorem cond8_iff : ∀ k : Fin k0_t1_loop.trips, k0_cond8 k = 1#1 ↔ k.val + 1 < 16 := by decide
theorem cond10_iff : ∀ k : Fin k0_t1_loop.trips, k0_cond10 k = 1#1 ↔ k.val + 1 < 16 := by decide
theorem cond12_iff : ∀ k : Fin k0_t1_loop.trips, k0_cond12 k = 1#1 ↔ k.val + 1 < 16 := by decide
theorem cond14_iff : ∀ k : Fin k0_t1_loop.trips, k0_cond14 k = 1#1 ↔ k.val + 1 < 16 := by decide

theorem cond3_pos (k : Fin k0_t1_loop.trips) (h : k0_cond3 k = 1#1) : 0 < k.val := (cond3_iff k).mp h
theorem cond5_pos (k : Fin k0_t1_loop.trips) (h : k0_cond5 k = 1#1) : 0 < k.val := (cond5_iff k).mp h
theorem cond7_pos (k : Fin k0_t1_loop.trips) (h : k0_cond7 k = 1#1) : 0 < k.val := (cond7_iff k).mp h
theorem cond9_pos (k : Fin k0_t1_loop.trips) (h : k0_cond9 k = 1#1) : 0 < k.val := (cond9_iff k).mp h
theorem cond11_pos (k : Fin k0_t1_loop.trips) (h : k0_cond11 k = 1#1) : 0 < k.val := (cond11_iff k).mp h
theorem cond13_pos (k : Fin k0_t1_loop.trips) (h : k0_cond13 k = 1#1) : 0 < k.val := (cond13_iff k).mp h
theorem cond4_lt (k : Fin k0_t1_loop.trips) (h : k0_cond4 k = 1#1) : k.val + 1 < 16 := (cond4_iff k).mp h
theorem cond6_lt (k : Fin k0_t1_loop.trips) (h : k0_cond6 k = 1#1) : k.val + 1 < 16 := (cond6_iff k).mp h
theorem cond8_lt (k : Fin k0_t1_loop.trips) (h : k0_cond8 k = 1#1) : k.val + 1 < 16 := (cond8_iff k).mp h
theorem cond10_lt (k : Fin k0_t1_loop.trips) (h : k0_cond10 k = 1#1) : k.val + 1 < 16 := (cond10_iff k).mp h
theorem cond12_lt (k : Fin k0_t1_loop.trips) (h : k0_cond12 k = 1#1) : k.val + 1 < 16 := (cond12_iff k).mp h
theorem cond14_lt (k : Fin k0_t1_loop.trips) (h : k0_cond14 k = 1#1) : k.val + 1 < 16 := (cond14_iff k).mp h

/-! ## The offsets of the "unit before" slices in closed form

The offsets chain subtracts one from the unit's row; under the condition the slice is taken (`0 < k`) that is the
row of unit `k - 1`. Checked at every grid point and trip. -/

theorem k0_off8_eq : ∀ (i : grid0.Coords) (k : Fin k0_t1_loop.trips), k0_cond3 k = 1#1 →
    k0_off8 i k = ![32 * (i 1).val + 16 * (i 0).val + (k.val - 1), 0] := by decide +kernel
theorem k0_off150_eq : ∀ (i : grid0.Coords) (k : Fin k0_t1_loop.trips), k0_cond7 k = 1#1 →
    k0_off150 i k = ![32 * (i 1).val + 16 * (i 0).val + (k.val - 1), 0] := by decide +kernel
theorem k0_off292_eq : ∀ (i : grid0.Coords) (k : Fin k0_t1_loop.trips), k0_cond11 k = 1#1 →
    k0_off292 i k = ![32 * (i 1).val + 16 * (i 0).val + (k.val - 1), 0] := by decide +kernel
theorem k0_off75_eq : ∀ (i : grid0.Coords) (k : Fin k0_t1_loop.trips), k0_cond5 k = 1#1 →
    k0_off75 i k = ![32 * (i 1).val + 16 * (i 0).val + (k.val - 1), 0, 512] := by decide +kernel
theorem k0_off217_eq : ∀ (i : grid0.Coords) (k : Fin k0_t1_loop.trips), k0_cond9 k = 1#1 →
    k0_off217 i k = ![32 * (i 1).val + 16 * (i 0).val + (k.val - 1), 0, 512] := by decide +kernel
theorem k0_off359_eq : ∀ (i : grid0.Coords) (k : Fin k0_t1_loop.trips), k0_cond13 k = 1#1 →
    k0_off359 i k = ![32 * (i 1).val + 16 * (i 0).val + (k.val - 1), 0, 512] := by decide +kernel

end Cert.Proof.KB
-- ==== Proof.KB_Canon.lean ====
/-
  Bookkeeping between the slices as the kernel prints them (at offsets functions of the trip) and the canonical
  ones: equal offsets give equal element sets, whatever the in-range proofs; and the canonical offsets in
  the plain form the generated closed forms have.
-/
import proofs.«204522_g36051955483029_cont_8to1_b_1192_15_alg».proof.Proof.KB_SliceDefs
import proofs.«204522_g36051955483029_cont_8to1_b_1192_15_alg».proof.Proof.KB_Conds

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

theorem uo3_of_le (L : grid0.Coords) {j c : ℕ} (hj : j ≤ 15) (hc : c ≤ 512) : uo3 L j c = ![base L + j, 0, c] := by
  unfold uo3; rw [Nat.min_eq_left hj, Nat.min_eq_left hc]
theorem uo2_of_le (L : grid0.Coords) {j : ℕ} (hj : j ≤ 15) : uo2 L j = ![base L + j, 0] := by
  unfold uo2; rw [Nat.min_eq_left hj]

theorem xset_congr {o o' : Fin 3 → Nat} (e : o = o') (ho : ∀ a, o a + S1x64x512.size a ≤ S512x64x1024.size a)
    (ho' : ∀ a, o' a + S1x64x512.size a ≤ S512x64x1024.size a) : (xsl o ho).view.set = (xsl o' ho').view.set := by
  subst e; rfl
theorem dset_congr {o o' : Fin 3 → Nat} (e : o = o') (ho : ∀ a, o a + S1x64x512.size a ≤ S512x64x1024.size a)
    (ho' : ∀ a, o' a + S1x64x512.size a ≤ S512x64x1024.size a) : (dsl o ho).view.set = (dsl o' ho').view.set := by
  subst e; rfl
theorem eset_congr {o o' : Fin 2 → Nat} (e : o = o') (ho : ∀ a, o a + S1x1024.size a ≤ S512x1024.size a)
    (ho' : ∀ a, o' a + S1x1024.size a ≤ S512x1024.size a) : (esl o ho).view.set = (esl o' ho').view.set := by
  subst e; rfl
theorem cset_congr {o o' : Fin 1 → Nat} (e : o = o') (ho : ∀ a, o a + S16.size a ≤ S512.size a)
    (ho' : ∀ a, o' a + S16.size a ≤ S512.size a) : (csl o ho).view.set = (csl o' ho').view.set := by
  subst e; rfl

end Cert.Proof.KB

end
-- ==== Proof.KB_Inv.lean ====
/-
  The invariant of the tile's unit loop: the state of its DMA pipeline between trips. Before trip `k`
  (`0 < k < 16`) unit `k`'s two halves are in flight into the staging buffers A and B of the trip (which of the
  three buffers they are turns with `k` modulo three), unit `k − 1`'s second half is in flight out of buffer C to
  the difference array and its mean row out of the mean buffer; before trip `0` only the two fetches the prologue
  started are in flight; after trip `15` the last unit's two halves, unit 14's second half and the last mean row are
  on their way out and nothing is being fetched. The tile's rows of the difference and of the mean array are held
  as one points-to each, less the slices in flight; of the states array the tile holds its read token less the two
  half blocks being fetched.
-/
import proofs.«204522_g36051955483029_cont_8to1_b_1192_15_alg».proof.Proof.KB_Canon
import proofs.«204522_g36051955483029_cont_8to1_b_1192_15_alg».proof.Proof.KB_Slices

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords) (q : PosShare TreeShare)
variable (X : Buf (Elt F) ((xV).view.loc (thr d L)))

/-- The slices of the difference array in flight before trip `k`. -/
def lentD (k : ℕ) : Finset S512x64x1024.Idx :=
  if k = 0 then ∅ else if k < 16 then dS L (k - 1) 512 else (dS L 14 512 ∪ dS L 15 0) ∪ dS L 15 512
/-- The row of the mean array in flight before trip `k`. -/
def lentE (k : ℕ) : Finset S512x1024.Idx := if k = 0 then ∅ else eS L (k - 1)

/-- The tile's read token of the states array, less the half blocks being fetched. -/
def xRest (k : ℕ) : sProp 𝕄 :=
  if k < 16 then ((xV).view.loc (thr d L) ↦[(Finset.univ \ (xsl (uo3 L k 0) (uo3_inb L k 0)).view.set) \ (xsl (uo3 L k 512) (uo3_inb L k 512)).view.set]{q} X)
  else ((xV).view.loc (thr d L) ↦{q} X)

/-- Before trip 0: the prologue's two fetches. -/
def pipe0 : sProp 𝕄 :=
  iprop(∃ fA fB fC gm,
    Transfers.Flight countersEmb (thr d L) (SemLoc.dma cc0_scratch6.sem) (default : HIx 1) 1048576 iprop(((b0).view.loc (thr d L) ↦[(b0).view.set]{fullShare} fA) ∗ ((xV).view.loc (thr d L) ↦[(xsl (uo3 L 0 0) (uo3_inb L 0 0)).view.set]{q} X))
    ∗ Transfers.Flight countersEmb (thr d L) (SemLoc.dma cc0_scratch7.sem) (default : HIx 1) 1048576 iprop(((b1).view.loc (thr d L) ↦[(b1).view.set]{fullShare} fB) ∗ ((xV).view.loc (thr d L) ↦[(xsl (uo3 L 0 512) (uo3_inb L 0 512)).view.set]{q} X))
    ∗ ((b2).view.loc (thr d L) ↦[(b2).view.set]{fullShare} fC) ∗ ((meanb).view.loc (thr d L) ↦[(meanb).view.set]{fullShare} gm)
    ∗ semVal ((thr d L), SemLoc.dma cc0_scratch8.sem) 0 ∗ semVal ((thr d L), SemLoc.dma cc0_scratch9.sem) 0 ∗ semVal ((thr d L), SemLoc.dma cc0_scratch10.sem) 0 ∗ semVal ((thr d L), SemLoc.dma cc0_scratch11.sem) 0 ∗ semVal ((thr d L), SemLoc.dma cc0_scratch12.sem) 0)

/-- Between trips, `k` a multiple of three: A, B, C are the first, second and third buffer. -/
def pipeMid0 (k : ℕ) : sProp 𝕄 :=
  iprop(∃ fA fB fC gm fd fe,
    Transfers.Flight countersEmb (thr d L) (SemLoc.dma cc0_scratch6.sem) (default : HIx 1) 1048576 iprop(((b0).view.loc (thr d L) ↦[(b0).view.set]{fullShare} fA) ∗ ((xV).view.loc (thr d L) ↦[(xsl (uo3 L k 0) (uo3_inb L k 0)).view.set]{q} X))
        ∗ Transfers.Flight countersEmb (thr d L) (SemLoc.dma cc0_scratch7.sem) (default : HIx 1) 1048576 iprop(((b1).view.loc (thr d L) ↦[(b1).view.set]{fullShare} fB) ∗ ((xV).view.loc (thr d L) ↦[(xsl (uo3 L k 512) (uo3_inb L k 512)).view.set]{q} X))
        ∗ Transfers.Flight countersEmb (thr d L) (SemLoc.dma cc0_scratch11.sem) (default : HIx 1) 1048576 iprop(((dsl (uo3 L (k - 1) 512) (uo3_inb L (k - 1) 512)).view.loc (thr d L) ↦[(dsl (uo3 L (k - 1) 512) (uo3_inb L (k - 1) 512)).view.set]{fullShare} fd) ∗ ((b2).view.loc (thr d L) ↦[(b2).view.set]{fullShare} fC))
        ∗ Transfers.Flight countersEmb (thr d L) (SemLoc.dma cc0_scratch12.sem) (default : HIx 1) 32768 iprop(((esl (uo2 L (k - 1)) (uo2_inb L (k - 1))).view.loc (thr d L) ↦[(esl (uo2 L (k - 1)) (uo2_inb L (k - 1))).view.set]{fullShare} fe) ∗ ((meanb).view.loc (thr d L) ↦[(meanb).view.set]{fullShare} gm))
        ∗ semVal ((thr d L), SemLoc.dma cc0_scratch9.sem) 0
        ∗ semVal ((thr d L), SemLoc.dma cc0_scratch10.sem) 0
        ∗ semVal ((thr d L), SemLoc.dma cc0_scratch8.sem) 0)
/-- Between trips, `k` one more than a multiple of three: A, B, C are the third, first and second buffer. -/
def pipeMid1 (k : ℕ) : sProp 𝕄 :=
  iprop(∃ fA fB fC gm fd fe,
    Transfers.Flight countersEmb (thr d L) (SemLoc.dma cc0_scratch8.sem) (default : HIx 1) 1048576 iprop(((b2).view.loc (thr d L) ↦[(b2).view.set]{fullShare} fA) ∗ ((xV).view.loc (thr d L) ↦[(xsl (uo3 L k 0) (uo3_inb L k 0)).view.set]{q} X))
        ∗ Transfers.Flight countersEmb (thr d L) (SemLoc.dma cc0_scratch6.sem) (default : HIx 1) 1048576 iprop(((b0).view.loc (thr d L) ↦[(b0).view.set]{fullShare} fB) ∗ ((xV).view.loc (thr d L) ↦[(xsl (uo3 L k 512) (uo3_inb L k 512)).view.set]{q} X))
        ∗ Transfers.Flight countersEmb (thr d L) (SemLoc.dma cc0_scratch10.sem) (default : HIx 1) 1048576 iprop(((dsl (uo3 L (k - 1) 512) (uo3_inb L (k - 1) 512)).view.loc (thr d L) ↦[(dsl (uo3 L (k - 1) 512) (uo3_inb L (k - 1) 512)).view.set]{fullShare} fd) ∗ ((b1).view.loc (thr d L) ↦[(b1).view.set]{fullShare} fC))
        ∗ Transfers.Flight countersEmb (thr d L) (SemLoc.dma cc0_scratch12.sem) (default : HIx 1) 32768 iprop(((esl (uo2 L (k - 1)) (uo2_inb L (k - 1))).view.loc (thr d L) ↦[(esl (uo2 L (k - 1)) (uo2_inb L (k - 1))).view.set]{fullShare} fe) ∗ ((meanb).view.loc (thr d L) ↦[(meanb).view.set]{fullShare} gm))
        ∗ semVal ((thr d L), SemLoc.dma cc0_scratch11.sem) 0
        ∗ semVal ((thr d L), SemLoc.dma cc0_scratch9.sem) 0
        ∗ semVal ((thr d L), SemLoc.dma cc0_scratch7.sem) 0)
/-- Between trips, `k` two more than a multiple of three: A, B, C are the second, third and first buffer. -/
def pipeMid2 (k : ℕ) : sProp 𝕄 :=
  iprop(∃ fA fB fC gm fd fe,
    Transfers.Flight countersEmb (thr d L) (SemLoc.dma cc0_scratch7.sem) (default : HIx 1) 1048576 iprop(((b1).view.loc (thr d L) ↦[(b1).view.set]{fullShare} fA) ∗ ((xV).view.loc (thr d L) ↦[(xsl (uo3 L k 0) (uo3_inb L k 0)).view.set]{q} X))
        ∗ Transfers.Flight countersEmb (thr d L) (SemLoc.dma cc0_scratch8.sem) (default : HIx 1) 1048576 iprop(((b2).view.loc (thr d L) ↦[(b2).view.set]{fullShare} fB) ∗ ((xV).view.loc (thr d L) ↦[(xsl (uo3 L k 512) (uo3_inb L k 512)).view.set]{q} X))
        ∗ Transfers.Flight countersEmb (thr d L) (SemLoc.dma cc0_scratch9.sem) (default : HIx 1) 1048576 iprop(((dsl (uo3 L (k - 1) 512) (uo3_inb L (k - 1) 512)).view.loc (thr d L) ↦[(dsl (uo3 L (k - 1) 512) (uo3_inb L (k - 1) 512)).view.set]{fullShare} fd) ∗ ((b0).view.loc (thr d L) ↦[(b0).view.set]{fullShare} fC))
        ∗ Transfers.Flight countersEmb (thr d L) (SemLoc.dma cc0_scratch12.sem) (default : HIx 1) 32768 iprop(((esl (uo2 L (k - 1)) (uo2_inb L (k - 1))).view.loc (thr d L) ↦[(esl (uo2 L (k - 1)) (uo2_inb L (k - 1))).view.set]{fullShare} fe) ∗ ((meanb).view.loc (thr d L) ↦[(meanb).view.set]{fullShare} gm))
        ∗ semVal ((thr d L), SemLoc.dma cc0_scratch10.sem) 0
        ∗ semVal ((thr d L), SemLoc.dma cc0_scratch11.sem) 0
        ∗ semVal ((thr d L), SemLoc.dma cc0_scratch6.sem) 0)

/-- After the last trip: the four copies still on their way out. -/
def pipeEnd : sProp 𝕄 :=
  iprop(∃ fA fB fC gm fd0 fd1 fd2 fe,
    Transfers.Flight countersEmb (thr d L) (SemLoc.dma cc0_scratch9.sem) (default : HIx 1) 1048576 iprop(((dsl (uo3 L 15 0) (uo3_inb L 15 0)).view.loc (thr d L) ↦[(dsl (uo3 L 15 0) (uo3_inb L 15 0)).view.set]{fullShare} fd0) ∗ ((b0).view.loc (thr d L) ↦[(b0).view.set]{fullShare} fA))
    ∗ Transfers.Flight countersEmb (thr d L) (SemLoc.dma cc0_scratch10.sem) (default : HIx 1) 1048576 iprop(((dsl (uo3 L 15 512) (uo3_inb L 15 512)).view.loc (thr d L) ↦[(dsl (uo3 L 15 512) (uo3_inb L 15 512)).view.set]{fullShare} fd1) ∗ ((b1).view.loc (thr d L) ↦[(b1).view.set]{fullShare} fB))
    ∗ Transfers.Flight countersEmb (thr d L) (SemLoc.dma cc0_scratch11.sem) (default : HIx 1) 1048576 iprop(((dsl (uo3 L 14 512) (uo3_inb L 14 512)).view.loc (thr d L) ↦[(dsl (uo3 L 14 512) (uo3_inb L 14 512)).view.set]{fullShare} fd2) ∗ ((b2).view.loc (thr d L) ↦[(b2).view.set]{fullShare} fC))
    ∗ Transfers.Flight countersEmb (thr d L) (SemLoc.dma cc0_scratch12.sem) (default : HIx 1) 32768 iprop(((esl (uo2 L 15) (uo2_inb L 15)).view.loc (thr d L) ↦[(esl (uo2 L 15) (uo2_inb L 15)).view.set]{fullShare} fe) ∗ ((meanb).view.loc (thr d L) ↦[(meanb).view.set]{fullShare} gm))
    ∗ semVal ((thr d L), SemLoc.dma cc0_scratch6.sem) 0 ∗ semVal ((thr d L), SemLoc.dma cc0_scratch7.sem) 0 ∗ semVal ((thr d L), SemLoc.dma cc0_scratch8.sem) 0)

def pipe (k : ℕ) : sProp 𝕄 :=
  if k = 0 then pipe0 (F := F) d L q X else if 16 ≤ k then pipeEnd (F := F) d L
  else if k % 3 = 0 then pipeMid0 (F := F) d L q X k else if k % 3 = 1 then pipeMid1 (F := F) d L q X k else pipeMid2 (F := F) d L q X k

/-- THE INVARIANT before trip `k`. -/
def inv (O : CellTallies nD τ sig (HIx 1)) (W : Waits sig (HIx 1)) (gM : Buf (Elt F) ((mall).view.loc (thr d L)))
    (k : ℕ) (_acc : FVec F S16 .f32) : sProp 𝕄 :=
  iprop(Transfers.MayWaits (thr d L) (none : HIx 1) O
    ∗ (∃ W', owes (thr d L) O W' ∗ ⌜∀ p ∈ W', p ∈ W ∨ p.2 = none⌝)
    ∗ ((mall).view.loc (thr d L) ↦[(mall).view.set]{fullShare} gM)
    ∗ xRest (F := F) d L q X k
    ∗ (∃ fD, (dV).view.loc (thr d L) ↦[dPart (wid L) \ lentD L k]{fullShare} fD)
    ∗ (∃ fE, (eV).view.loc (thr d L) ↦[ePart (wid L) \ lentE L k]{fullShare} fE)
    ∗ pipe (F := F) d L q X k)

end Cert.Proof.KB

end
-- ==== Proof.KB_ColLoop.lean ====
import proofs.«204522_g36051955483029_cont_8to1_b_1192_15_alg».proof.Proof.KB_Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "meanb" => (Memref.whole Cert.Kernel.cc0_scratch4 : Memref Cert.Kernel.sig Kind.scVector Space.vmem Cert.Kernel.S1024 EltTy.f32)

variable (d : Dev nD) (L : grid0.Coords) (b : Memref sig Kind.scVector Space.vmem S64x512 EltTy.f32)

/-- Ownership of a staging buffer and of the mean buffer, each whole, at given contents. -/
abbrev TripRes (fb : BufTy.Contents (Elt F) b.view.ty) (fm : BufTy.Contents (Elt F) (meanb).view.ty) : sProp 𝕄 :=
  iprop((b.view.loc (thr d L) ↦[b.view.set]{fullShare} fb) ∗ ((meanb).view.loc (thr d L) ↦[(meanb).view.set]{fullShare} fm))

/-- One trip `p` taken at a symbolic trip number: its stores into each buffer as piece lists, functions of the contents it finds, with the triple that justifies them. -/
abbrev TripSpec (p : Prog (TpuEff nD τ sig (Elt F) Λ₀ (.scVector (cV L) (jV L))) Unit) : Type :=
  Σ' (Lb : BufTy.Contents (Elt F) b.view.ty → BufTy.Contents (Elt F) (meanb).view.ty → List (View.Piece (Elt F) S64x512 .f32)),
    { Lm : BufTy.Contents (Elt F) b.view.ty → BufTy.Contents (Elt F) (meanb).view.ty → List (View.Piece (Elt F) S1024 .f32) //
      ∀ (fb : BufTy.Contents (Elt F) b.view.ty) (fm : BufTy.Contents (Elt F) (meanb).view.ty),
        TripRes (F := F) d L b fb fm
        ⊢ wp frame (wpE (defs₀ (F := F)) 𝒱₀ (thr d L) none) Set.univ p
            (fun _ => TripRes (F := F) d L b (b.view.writes (Elt F) fb (Lb fb fm)) ((meanb).view.writes (Elt F) fm (Lm fb fm))) }

section Loop

variable {w : ℕ} {lb ub st : BitVec w} {hok : Scf.OK lb ub st}
  {body : Fin (Scf.trips lb ub st) → Unit → Prog (TpuEff nD τ sig (Elt F) Λ₀ (.scVector (cV L) (jV L))) Unit}
  (trip : ∀ k, TripSpec (F := F) d L b (body k ()))
  (Gb : BufTy.Contents (Elt F) b.view.ty) (Gm : BufTy.Contents (Elt F) (meanb).view.ty)

/-- Trip `k`'s stores go in front, read off at the contents reached so far; past the last trip nothing changes. -/
@[irreducible] def pbStep (k : ℕ) (prev : List (View.Piece (Elt F) S64x512 .f32) × List (View.Piece (Elt F) S1024 .f32)) :
    List (View.Piece (Elt F) S64x512 .f32) × List (View.Piece (Elt F) S1024 .f32) :=
  if h : k < Scf.trips lb ub st then
    ((trip ⟨k, h⟩).1 (b.view.writes (Elt F) Gb prev.1) ((meanb).view.writes (Elt F) Gm prev.2) ++ prev.1,
     (trip ⟨k, h⟩).2.1 (b.view.writes (Elt F) Gb prev.1) ((meanb).view.writes (Elt F) Gm prev.2) ++ prev.2)
  else prev

/-- Every store made before trip `k`, latest first, from entry contents `Gb`, `Gm`. -/
def pb : ℕ → List (View.Piece (Elt F) S64x512 .f32) × List (View.Piece (Elt F) S1024 .f32)
  | 0 => ([], [])
  | k + 1 => pbStep d L b trip Gb Gm k (pb k)

theorem pb_succ (k : Fin (Scf.trips lb ub st)) :
    pb d L b trip Gb Gm (k.val + 1)
      = ((trip k).1 (b.view.writes (Elt F) Gb (pb d L b trip Gb Gm k.val).1) ((meanb).view.writes (Elt F) Gm (pb d L b trip Gb Gm k.val).2)
            ++ (pb d L b trip Gb Gm k.val).1,
         (trip k).2.1 (b.view.writes (Elt F) Gb (pb d L b trip Gb Gm k.val).1) ((meanb).view.writes (Elt F) Gm (pb d L b trip Gb Gm k.val).2)
            ++ (pb d L b trip Gb Gm k.val).2) := by
  rw [pb.eq_2]; unfold pbStep; exact dif_pos k.isLt

/-- At the head of trip `k` each buffer is its entry contents overwritten by `pb k`. -/
abbrev colInv (k : ℕ) (_u : Unit) : sProp 𝕄 :=
  iprop((∃ fb, (b.view.loc (thr d L) ↦[b.view.set]{fullShare} fb) ∗ ⌜fb = b.view.writes (Elt F) Gb (pb d L b trip Gb Gm k).1⌝)
    ∗ (∃ fm, ((meanb).view.loc (thr d L) ↦[(meanb).view.set]{fullShare} fm) ∗ ⌜fm = (meanb).view.writes (Elt F) Gm (pb d L b trip Gb Gm k).2⌝))

set_option warn.classDefReducibility false in
/-- A trip's triple holds at whatever contents it finds, and writing a concatenation is writing the parts in turn: so the invariant is kept. -/
@[reducible] def colLoop : Idealize.ShloMosaic.LoopInv (M := MT nD τ sig (HIx 1) (Elt F) ℕ UU ℕ) Idealize.ShloMosaic.frame
    (wpE (defs₀ (F := F)) 𝒱₀ (thr d L) none) Set.univ lb ub st hok () body where
  inv := colInv d L b trip Gb Gm
  step k acc := by
    iintro ⟨⟨%fb, HB, %hb⟩, ⟨%fm, HM, %hm⟩⟩
    subst hb hm
    iapply (wp_wand_r Idealize.ShloMosaic.frame (wpE (defs₀ (F := F)) 𝒱₀ (thr d L) none) Set.univ)
    isplitl [HB HM]
    · iapply ((trip k).2.2 _ _)
      isplitl [HB]; · iexact HB
      iexact HM
    · iintro %_ ⟨HB, HM⟩
      unfold colInv
      rw [pb_succ]
      isplitl [HB]
      · iexists _; isplitl [HB]; · iexact HB
        ipureintro; rw [← View.writes_append]
      · iexists _; isplitl [HM]; · iexact HM
        ipureintro; rw [← View.writes_append]

end Loop

end Cert.Proof.KB

end
-- ==== Proof.KB_ColT6.lean ====
import proofs.«204522_g36051955483029_cont_8to1_b_1192_15_alg».proof.Proof.KB_ColLoop

set_option maxRecDepth 8192
set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords) (k0_t1 : Fin k0_t1_loop.trips) (arg20 : BitVec 32) (k0_h1 : ¬(k0_cond1 k0_t1 = 1#1)) (v58 : BitVec 32) (v72 : F .f32) (v74 : F .f32) (v76 : F .f32) (v78 : F .f32) (v80 : F .f32) (v82 : F .f32) (v84 : F .f32) (v86 : F .f32) (v88 : F .f32) (v90 : F .f32) (v92 : F .f32) (v94 : F .f32) (v96 : F .f32) (v98 : F .f32) (v100 : F .f32) (v102 : F .f32) (v104 : F .f32) (v106 : F .f32) (v108 : F .f32) (v110 : F .f32) (v112 : F .f32) (v114 : F .f32) (v116 : F .f32) (v118 : F .f32) (v120 : F .f32) (v122 : F .f32) (v124 : F .f32) (v126 : F .f32) (v128 : F .f32) (v130 : F .f32) (v132 : F .f32) (v134 : F .f32) (v136 : F .f32) (v138 : F .f32) (v140 : F .f32) (v142 : F .f32) (v144 : F .f32) (v146 : F .f32) (v148 : F .f32) (v150 : F .f32) (v152 : F .f32) (v154 : F .f32) (v156 : F .f32) (v158 : F .f32) (v160 : F .f32) (v162 : F .f32) (v164 : F .f32) (v166 : F .f32) (v168 : F .f32) (v170 : F .f32) (v172 : F .f32) (v174 : F .f32) (v176 : F .f32) (v178 : F .f32) (v180 : F .f32) (v182 : F .f32) (v184 : F .f32) (v186 : F .f32) (v188 : F .f32) (v190 : F .f32) (v192 : F .f32) (v194 : F .f32) (v196 : F .f32) (v198 : F .f32) (v233 : F .f32)

/-- One trip of the loop `k0_t6_loop` at a symbolic trip number. -/
@[irreducible] def trip_t6 (k : Fin k0_t6_loop.trips) :
    TripSpec (F := F) d L (b0) (k0_t6_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 arg20 k0_h1 v58 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233 k ()) := by
  have hk : k.val < 32 := Nat.lt_of_lt_of_le k.isLt k0_t6_abs.2.1
  refine ⟨?_, ?_, fun fb fm => ?run⟩
  case run =>
    unfold k0_t6_body
    iintro ⟨HB, HM⟩
    sl_exec
    sl_step
    sl_close

set_option warn.classDefReducibility false in
/-- The loop's invariant instance. -/
@[sl_loop] def loopInv_t6 (Gb : BufTy.Contents (Elt F) (b0).view.ty) (Gm : BufTy.Contents (Elt F) (meanb).view.ty) :
    Idealize.ShloMosaic.LoopInv (M := MT nD τ sig (HIx 1) (Elt F) ℕ UU ℕ) Idealize.ShloMosaic.frame (wpE (defs₀ (F := F)) 𝒱₀ (thr d L) none) Set.univ
      k0_t6_loop.lb k0_t6_loop.ub k0_t6_loop.st (k0_t6_ok k0_t1 k0_h1) ()
      (k0_t6_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 arg20 k0_h1 v58 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233) :=
  colLoop (F := F) d L (b0) (trip_t6 (F := F) d L k0_t1 arg20 k0_h1 v58 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233) Gb Gm

end Cert.Proof.KB

end
-- ==== Proof.KB_ColT7.lean ====
import proofs.«204522_g36051955483029_cont_8to1_b_1192_15_alg».proof.Proof.KB_ColLoop

set_option maxRecDepth 8192
set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords) (k0_t1 : Fin k0_t1_loop.trips) (k0_h1 : ¬k0_cond1 k0_t1 = 1#1) (v72 : F .f32) (v74 : F .f32) (v76 : F .f32) (v78 : F .f32) (v80 : F .f32) (v82 : F .f32) (v84 : F .f32) (v86 : F .f32) (v88 : F .f32) (v90 : F .f32) (v92 : F .f32) (v94 : F .f32) (v96 : F .f32) (v98 : F .f32) (v100 : F .f32) (v102 : F .f32) (v104 : F .f32) (v106 : F .f32) (v108 : F .f32) (v110 : F .f32) (v112 : F .f32) (v114 : F .f32) (v116 : F .f32) (v118 : F .f32) (v120 : F .f32) (v122 : F .f32) (v124 : F .f32) (v126 : F .f32) (v128 : F .f32) (v130 : F .f32) (v132 : F .f32) (v134 : F .f32) (v136 : F .f32) (v138 : F .f32) (v140 : F .f32) (v142 : F .f32) (v144 : F .f32) (v146 : F .f32) (v148 : F .f32) (v150 : F .f32) (v152 : F .f32) (v154 : F .f32) (v156 : F .f32) (v158 : F .f32) (v160 : F .f32) (v162 : F .f32) (v164 : F .f32) (v166 : F .f32) (v168 : F .f32) (v170 : F .f32) (v172 : F .f32) (v174 : F .f32) (v176 : F .f32) (v178 : F .f32) (v180 : F .f32) (v182 : F .f32) (v184 : F .f32) (v186 : F .f32) (v188 : F .f32) (v190 : F .f32) (v192 : F .f32) (v194 : F .f32) (v196 : F .f32) (v198 : F .f32) (v266 : FVec F S16 .f32)

/-- One trip of the loop `k0_t7_loop` at a symbolic trip number. -/
@[irreducible] def trip_t7 (k : Fin k0_t7_loop.trips) :
    TripSpec (F := F) d L (b1) (k0_t7_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266 k ()) := by
  have hk : k.val < 32 := Nat.lt_of_lt_of_le k.isLt k0_t7_abs.2.1
  refine ⟨?_, ?_, fun fb fm => ?run⟩
  case run =>
    unfold k0_t7_body
    iintro ⟨HB, HM⟩
    sl_exec
    sl_step
    sl_close

set_option warn.classDefReducibility false in
/-- The loop's invariant instance. -/
@[sl_loop] def loopInv_t7 (Gb : BufTy.Contents (Elt F) (b1).view.ty) (Gm : BufTy.Contents (Elt F) (meanb).view.ty) :
    Idealize.ShloMosaic.LoopInv (M := MT nD τ sig (HIx 1) (Elt F) ℕ UU ℕ) Idealize.ShloMosaic.frame (wpE (defs₀ (F := F)) 𝒱₀ (thr d L) none) Set.univ
      k0_t7_loop.lb k0_t7_loop.ub k0_t7_loop.st (k0_t7_ok k0_t1 k0_h1) ()
      (k0_t7_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266) :=
  colLoop (F := F) d L (b1) (trip_t7 (F := F) d L k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266) Gb Gm

end Cert.Proof.KB

end
-- ==== Proof.KB_TripFirst.lean ====
/-
  The first trip of the tile's unit loop (unit 0; its number leaves the remainder 0 on division by three, so the
  staging buffers' roles are A = b0, B = b1, C = b2). Before it only the two fetches the prologue started are in
  flight, unit 0's two halves into A and B; buffer C and the mean buffer are held plainly and nothing is on its way
  out, so the two waits a later trip makes for the unit before (its mean row, buffer C's copy-out) are not made. The
  trip waits for A, computes on A and starts its copy-out, prefetches unit 1's first half into C, waits for B, computes
  on B and starts its copy-out, waits for A's copy-out and prefetches unit 1's second half into A, and starts the mean
  row's copy-out: the pipeline's state before trip 1. Of the tile's rows of the difference array unit 0's second half
  is then out, of its mean rows unit 0's.
-/
import proofs.«204522_g36051955483029_cont_8to1_b_1192_15_alg».proof.Proof.KB_Canon
import proofs.«204522_g36051955483029_cont_8to1_b_1192_15_alg».proof.Proof.KB_Slices
import proofs.«204522_g36051955483029_cont_8to1_b_1192_15_alg».proof.Proof.KB_ColT6
import proofs.«204522_g36051955483029_cont_8to1_b_1192_15_alg».proof.Proof.KB_ColT7

set_option maxHeartbeats 8000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords)

theorem trip_first (k : Fin k0_t1_loop.trips) (hk : k.val = 0)
    (q : PosShare TreeShare) (O : CellTallies nD τ sig (HIx 1)) (W : Waits sig (HIx 1)) (v3 : BitVec 32) (acc : FVec F S16 .f32)
    (X : Buf (Elt F) ((xV).view.loc (thr d L))) (gM : Buf (Elt F) ((mall).view.loc (thr d L)))
    (fA : Buf (Elt F) ((b0).view.loc (thr d L))) (fB : Buf (Elt F) ((b1).view.loc (thr d L))) (fC : Buf (Elt F) ((b2).view.loc (thr d L)))
    (gm : Buf (Elt F) ((meanb).view.loc (thr d L))) (fD : Buf (Elt F) ((dV).view.loc (thr d L))) (fE : Buf (Elt F) ((eV).view.loc (thr d L))) :
    (iprop(Transfers.MayWaits (thr d L) (none : HIx 1) O
        ∗ owes (thr d L) O W
        ∗ ((mall).view.loc (thr d L) ↦[(mall).view.set]{fullShare} gM)
        ∗ ((xV).view.loc (thr d L) ↦[(Finset.univ \ (xsl (uo3 L 0 0) (uo3_inb L 0 0)).view.set) \ (xsl (uo3 L 0 512) (uo3_inb L 0 512)).view.set]{q} X)
        ∗ ((dV).view.loc (thr d L) ↦[dPart (wid L)]{fullShare} fD)
        ∗ ((eV).view.loc (thr d L) ↦[ePart (wid L)]{fullShare} fE)
        ∗ Transfers.Flight countersEmb (thr d L) (SemLoc.dma cc0_scratch6.sem) (default : HIx 1) 1048576 iprop(((b0).view.loc (thr d L) ↦[(b0).view.set]{fullShare} fA) ∗ ((xV).view.loc (thr d L) ↦[(xsl (uo3 L 0 0) (uo3_inb L 0 0)).view.set]{q} X))
        ∗ Transfers.Flight countersEmb (thr d L) (SemLoc.dma cc0_scratch7.sem) (default : HIx 1) 1048576 iprop(((b1).view.loc (thr d L) ↦[(b1).view.set]{fullShare} fB) ∗ ((xV).view.loc (thr d L) ↦[(xsl (uo3 L 0 512) (uo3_inb L 0 512)).view.set]{q} X))
        ∗ ((b2).view.loc (thr d L) ↦[(b2).view.set]{fullShare} fC)
        ∗ ((meanb).view.loc (thr d L) ↦[(meanb).view.set]{fullShare} gm)
        ∗ semVal ((thr d L), SemLoc.dma cc0_scratch8.sem) 0
        ∗ semVal ((thr d L), SemLoc.dma cc0_scratch9.sem) 0
        ∗ semVal ((thr d L), SemLoc.dma cc0_scratch10.sem) 0
        ∗ semVal ((thr d L), SemLoc.dma cc0_scratch11.sem) 0
        ∗ semVal ((thr d L), SemLoc.dma cc0_scratch12.sem) 0) : sProp 𝕄)
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun _ => iprop(∃ W', owes (thr d L) O W' ∗ ⌜∀ p ∈ W', p ∈ W ∨ p.2 = none⌝
                ∗ ((mall).view.loc (thr d L) ↦[(mall).view.set]{fullShare} gM)
            ∗ ((xV).view.loc (thr d L) ↦[(Finset.univ \ (xsl (uo3 L 1 0) (uo3_inb L 1 0)).view.set) \ (xsl (uo3 L 1 512) (uo3_inb L 1 512)).view.set]{q} X)
            ∗ (∃ fD', ((dV).view.loc (thr d L) ↦[dPart (wid L) \ dS L 0 512]{fullShare} fD'))
            ∗ (∃ fE', ((eV).view.loc (thr d L) ↦[ePart (wid L) \ eS L 0]{fullShare} fE'))
            ∗ ∃ fA' fB' fC' gm' fd' fe', Transfers.Flight countersEmb (thr d L) (SemLoc.dma cc0_scratch8.sem) (default : HIx 1) 1048576 iprop(((b2).view.loc (thr d L) ↦[(b2).view.set]{fullShare} fA') ∗ ((xV).view.loc (thr d L) ↦[(xsl (uo3 L 1 0) (uo3_inb L 1 0)).view.set]{q} X))
        ∗ Transfers.Flight countersEmb (thr d L) (SemLoc.dma cc0_scratch6.sem) (default : HIx 1) 1048576 iprop(((b0).view.loc (thr d L) ↦[(b0).view.set]{fullShare} fB') ∗ ((xV).view.loc (thr d L) ↦[(xsl (uo3 L 1 512) (uo3_inb L 1 512)).view.set]{q} X))
        ∗ Transfers.Flight countersEmb (thr d L) (SemLoc.dma cc0_scratch10.sem) (default : HIx 1) 1048576 iprop(((dsl (uo3 L 0 512) (uo3_inb L 0 512)).view.loc (thr d L) ↦[(dsl (uo3 L 0 512) (uo3_inb L 0 512)).view.set]{fullShare} fd') ∗ ((b1).view.loc (thr d L) ↦[(b1).view.set]{fullShare} fC'))
        ∗ Transfers.Flight countersEmb (thr d L) (SemLoc.dma cc0_scratch12.sem) (default : HIx 1) 32768 iprop(((esl (uo2 L 0) (uo2_inb L 0)).view.loc (thr d L) ↦[(esl (uo2 L 0) (uo2_inb L 0)).view.set]{fullShare} fe') ∗ ((meanb).view.loc (thr d L) ↦[(meanb).view.set]{fullShare} gm'))
        ∗ semVal ((thr d L), SemLoc.dma cc0_scratch11.sem) 0
        ∗ semVal ((thr d L), SemLoc.dma cc0_scratch9.sem) 0
        ∗ semVal ((thr d L), SemLoc.dma cc0_scratch7.sem) 0) := by
  -- the trip's conditions at unit 0: the variant is the first, there is a unit after it and none before
  have hc1 : ¬ k0_cond1 k = 1#1 := (not_cond1_iff k).mpr (by rw [hk])
  have hc11 : ¬ k0_cond11 k = 1#1 := fun h => by have := (cond11_iff k).mp h; omega
  have hc12 : k0_cond12 k = 1#1 := (cond12_iff k).mpr (by omega)
  have hc13 : ¬ k0_cond13 k = 1#1 := fun h => by have := (cond13_iff k).mp h; omega
  have hc14 : k0_cond14 k = 1#1 := (cond14_iff k).mpr (by omega)
  -- the printed offsets of this trip's slices are the canonical ones
  have exA : k0_off293 L k = uo3 L 0 0 := by rw [k0_off293_eq, hk, uo3_of_le L (by omega) (by omega)]; rfl
  have exB : k0_off361 L k = uo3 L 0 512 := by rw [k0_off361_eq, hk, uo3_of_le L (by omega) (by omega)]; rfl
  have exC : k0_off360 L k = uo3 L 1 0 := by rw [k0_off360_eq, hk, uo3_of_le L (by omega) (by omega)]; rfl
  have exA2 : k0_off428 L k = uo3 L 1 512 := by rw [k0_off428_eq, hk, uo3_of_le L (by omega) (by omega)]; rfl
  have eeO : k0_off429 L k = uo2 L 0 := by rw [k0_off429_eq, hk, uo2_of_le L (by omega)]; rfl
  iintro ⟨#Hmw, HO, Hmall, HX, HD, HE, FA, FB, HC, HM, SC, SA, SB, FC, FM⟩
  -- unit 0's two half blocks of the difference array and its mean row, carved out of the tile's rows
  have hsub0 : dS L 0 0 ⊆ dPart (wid L) := dS_subset L 0 0 (.inl rfl)
  have hsub1 : dS L 0 512 ⊆ dPart (wid L) \ dS L 0 0 :=
    Finset.subset_sdiff.mpr ⟨dS_subset L 0 512 (.inr rfl), dS_disjoint L (by omega) (by omega) (.inr rfl) (.inl rfl) (.inr (by decide))⟩
  have hsubE : eS L 0 ⊆ ePart (wid L) := eS_subset L 0
  ihave HD' := (pointsTo_split_subset hsub0).1 $$ HD
  icases HD' with ⟨HD0, HD⟩
  ihave HD' := (pointsTo_split_subset hsub1).1 $$ HD
  icases HD' with ⟨HD1, HD⟩
  ihave HE' := (pointsTo_split_subset hsubE).1 $$ HE
  icases HE' with ⟨HE0, HE⟩
  -- … in the kernel's own spelling of those slices
  have hs0 : dS L 0 0 = (dsl (k0_off293 L k) (k0_off293_inb L k hc1)).view.set := dset_congr exA.symm _ _
  have hs1 : dS L 0 512 = (dsl (k0_off361 L k) (k0_off361_inb L k hc1)).view.set := dset_congr exB.symm _ _
  have hsE : eS L 0 = (esl (k0_off429 L k) (k0_off429_inb L k hc1)).view.set := eset_congr eeO.symm _ _
  have e0 : (((dV).view.loc (thr d L) ↦[dS L 0 0]{fullShare} fD : sProp 𝕄))
      = ((dsl (k0_off293 L k) (k0_off293_inb L k hc1)).view.loc (thr d L) ↦[(dsl (k0_off293 L k) (k0_off293_inb L k hc1)).view.set]{fullShare} fD) := by
    rw [hs0]
  have e1 : (((dV).view.loc (thr d L) ↦[dS L 0 512]{fullShare} fD : sProp 𝕄))
      = ((dsl (k0_off361 L k) (k0_off361_inb L k hc1)).view.loc (thr d L) ↦[(dsl (k0_off361 L k) (k0_off361_inb L k hc1)).view.set]{fullShare} fD) := by
    rw [hs1]
  have eE : (((eV).view.loc (thr d L) ↦[eS L 0]{fullShare} fE : sProp 𝕄))
      = ((esl (k0_off429 L k) (k0_off429_inb L k hc1)).view.loc (thr d L) ↦[(esl (k0_off429 L k) (k0_off429_inb L k hc1)).view.set]{fullShare} fE) := by
    rw [hsE]
  ihave HD0' := (Entails.of_eq e0) $$ HD0
  ihave HD1' := (Entails.of_eq e1) $$ HD1
  ihave HE0' := (Entails.of_eq eE) $$ HE0
  sl_unfold [k0_t1_body]
  sl_exec
  sl_step
  -- the flights this trip leaves, over the canonical slices
  have pSC : ∀ g, (iprop(((b2).view.loc (thr d L) ↦[(b2).view.set]{fullShare} g) ∗ ((xV).view.loc (thr d L) ↦[(xsl (k0_off360 L k) (k0_off360_inb L k hc1 hc12)).view.set]{q} X)) : sProp 𝕄)
      = iprop(((b2).view.loc (thr d L) ↦[(b2).view.set]{fullShare} g) ∗ ((xV).view.loc (thr d L) ↦[(xsl (uo3 L 1 0) (uo3_inb L 1 0)).view.set]{q} X)) := fun g => by
    rw [xset_congr exC _ (uo3_inb L 1 0)]
  have pFA : ∀ g, (iprop(((b0).view.loc (thr d L) ↦[(b0).view.set]{fullShare} g) ∗ ((xV).view.loc (thr d L) ↦[(xsl (k0_off428 L k) (k0_off428_inb L k hc1 hc14)).view.set]{q} X)) : sProp 𝕄)
      = iprop(((b0).view.loc (thr d L) ↦[(b0).view.set]{fullShare} g) ∗ ((xV).view.loc (thr d L) ↦[(xsl (uo3 L 1 512) (uo3_inb L 1 512)).view.set]{q} X)) := fun g => by
    rw [xset_congr exA2 _ (uo3_inb L 1 512)]
  have pSB : ∀ g g', (iprop(((dsl (k0_off361 L k) (k0_off361_inb L k hc1)).view.loc (thr d L) ↦[(dsl (k0_off361 L k) (k0_off361_inb L k hc1)).view.set]{fullShare} g) ∗ ((b1).view.loc (thr d L) ↦[(b1).view.set]{fullShare} g')) : sProp 𝕄)
      = iprop(((dsl (uo3 L 0 512) (uo3_inb L 0 512)).view.loc (thr d L) ↦[(dsl (uo3 L 0 512) (uo3_inb L 0 512)).view.set]{fullShare} g) ∗ ((b1).view.loc (thr d L) ↦[(b1).view.set]{fullShare} g')) := fun g g' => by
    rw [← hs1]
  have pFM : ∀ g g', (iprop(((esl (k0_off429 L k) (k0_off429_inb L k hc1)).view.loc (thr d L) ↦[(esl (k0_off429 L k) (k0_off429_inb L k hc1)).view.set]{fullShare} g) ∗ ((meanb).view.loc (thr d L) ↦[(meanb).view.set]{fullShare} g')) : sProp 𝕄)
      = iprop(((esl (uo2 L 0) (uo2_inb L 0)).view.loc (thr d L) ↦[(esl (uo2 L 0) (uo2_inb L 0)).view.set]{fullShare} g) ∗ ((meanb).view.loc (thr d L) ↦[(meanb).view.set]{fullShare} g')) := fun g g' => by
    rw [← hsE]
  ihave SC' := (Transfers.Flight_mono countersEmb (thr d L) (Entails.of_eq (pSC _))) $$ SC
  ihave FA' := (Transfers.Flight_mono countersEmb (thr d L) (Entails.of_eq (pFA _))) $$ FA
  ihave SB' := (Transfers.Flight_mono countersEmb (thr d L) (Entails.of_eq (pSB _ _))) $$ SB
  ihave FM' := (Transfers.Flight_mono countersEmb (thr d L) (Entails.of_eq (pFM _ _))) $$ FM
  -- the waits recorded
  iexists _
  isplitl [HO]; · iexact HO
  isplitr
  · ipureintro
    intro p hp
    simp only [Finset.mem_insert] at hp
    rcases hp with (rfl | rfl | rfl | hp) <;> first | exact .inr rfl | exact .inl hp
  isplitl [Hmall]; · iexact Hmall
  -- the states array less unit 1's two halves, now in flight
  isplitl [HX]
  · have hx : (((xV).view.loc (thr d L) ↦[(Finset.univ \ (xsl (k0_off360 L k) (k0_off360_inb L k hc1 hc12)).view.set) \ (xsl (k0_off428 L k) (k0_off428_inb L k hc1 hc14)).view.set]{q} X : sProp 𝕄))
        = ((xV).view.loc (thr d L) ↦[(Finset.univ \ (xsl (uo3 L 1 0) (uo3_inb L 1 0)).view.set) \ (xsl (uo3 L 1 512) (uo3_inb L 1 512)).view.set]{q} X) := by
      rw [xset_congr exC _ (uo3_inb L 1 0), xset_congr exA2 _ (uo3_inb L 1 512)]
    iapply (Entails.of_eq hx); iexact HX
  -- the difference array's rows: unit 0's first half is back, its second half is out
  isplitl [HD HD0']
  · have hb : dS L 0 0 ⊆ dPart (wid L) \ dS L 0 512 :=
      Finset.subset_sdiff.mpr ⟨hsub0, dS_disjoint L (by omega) (by omega) (.inl rfl) (.inr rfl) (.inr (by decide))⟩
    have hset1 : (dPart (wid L) \ dS L 0 0) \ dS L 0 512 = (dPart (wid L) \ dS L 0 512) \ dS L 0 0 := sdiff_right_comm _ _ _
    rw [hset1]
    have e0' : ∀ g, (((dsl (k0_off293 L k) (k0_off293_inb L k hc1)).view.loc (thr d L) ↦[(dsl (k0_off293 L k) (k0_off293_inb L k hc1)).view.set]{fullShare} g) : sProp 𝕄) = ((dV).view.loc (thr d L) ↦[dS L 0 0]{fullShare} g) := fun g => by rw [hs0]
    ihave H0 := (Entails.of_eq (e0' _)) $$ HD0'
    ihave H1 := (pointsTo_join_subset (ℓ := (dV).view.loc (thr d L)) hb) $$ [H0 HD]
    · isplitl [H0]; · iexact H0
      iexact HD
    iexists _; iexact H1
  -- the mean array's rows: unit 0's is out
  isplitl [HE]
  · iexists _; iexact HE
  -- the pipeline for unit 1
  iexists _, _, _, _, _, _
  isplitl [SC']; · iexact SC'
  isplitl [FA']; · iexact FA'
  isplitl [SB']; · iexact SB'
  isplitl [FM']; · iexact FM'
  isplitl [FC]; · iexact FC
  isplitl [SA]; · iexact SA
  iexact FB

end Cert.Proof.KB

end
-- ==== Proof.KB_StepFirst.lean ====
/-
  The unit loop's invariant is kept by the first trip: the invariant before trip 0 — the prologue's two fetches in
  flight, nothing on its way out, the tile's rows of the two result arrays whole — is the first trip's precondition,
  and what that trip leaves is the invariant before trip 1, whose number leaves the remainder 1 on division by three.
-/
import proofs.«204522_g36051955483029_cont_8to1_b_1192_15_alg».proof.Proof.KB_Inv
import proofs.«204522_g36051955483029_cont_8to1_b_1192_15_alg».proof.Proof.KB_TripFirst

set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords)

theorem step_first (k : Fin k0_t1_loop.trips) (hk : k.val = 0)
    (q : PosShare TreeShare) (X : Buf (Elt F) ((xV).view.loc (thr d L))) (O : CellTallies nD τ sig (HIx 1)) (W : Waits sig (HIx 1))
    (gM : Buf (Elt F) ((mall).view.loc (thr d L))) (v3 : BitVec 32) (acc : FVec F S16 .f32) :
    inv (F := F) d L q X O W gM k.val acc
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => inv (F := F) d L q X O W gM (k.val + 1) r := by
  have e1 : k.val + 1 = 1 := by omega
  rw [e1, hk]
  have hp0 : pipe (F := F) d L q X 0 = pipe0 (F := F) d L q X := by
    unfold pipe; rw [if_pos rfl]
  have hp1 : pipe (F := F) d L q X 1 = pipeMid1 (F := F) d L q X 1 := by
    unfold pipe; rw [if_neg (by omega), if_neg (by omega), if_neg (by omega), if_pos (by omega)]
  have hx0 : xRest (F := F) d L q X 0 = ((xV).view.loc (thr d L) ↦[(Finset.univ \ (xsl (uo3 L 0 0) (uo3_inb L 0 0)).view.set) \ (xsl (uo3 L 0 512) (uo3_inb L 0 512)).view.set]{q} X) := by
    unfold xRest; rw [if_pos (by omega)]
  have hx1 : xRest (F := F) d L q X 1 = ((xV).view.loc (thr d L) ↦[(Finset.univ \ (xsl (uo3 L 1 0) (uo3_inb L 1 0)).view.set) \ (xsl (uo3 L 1 512) (uo3_inb L 1 512)).view.set]{q} X) := by
    unfold xRest; rw [if_pos (by omega)]
  have hd0 : lentD L 0 = ∅ := by unfold lentD; rw [if_pos rfl]
  have hd1 : lentD L 1 = dS L 0 512 := by unfold lentD; rw [if_neg (by omega), if_pos (by omega), Nat.sub_self]
  have he0 : lentE L 0 = ∅ := by unfold lentE; rw [if_pos rfl]
  have he1 : lentE L 1 = eS L 0 := by unfold lentE; rw [if_neg (by omega), Nat.sub_self]
  unfold inv
  rw [hp0, hp1, hx0, hx1, hd0, hd1, he0, he1, Finset.sdiff_empty, Finset.sdiff_empty]
  unfold pipe0 pipeMid1
  simp only [Nat.sub_self]
  iintro ⟨#Hmw, ⟨%W', HO, %hW'⟩, Hmall, HX, ⟨%fD, HD⟩, ⟨%fE, HE⟩, ⟨%fA, %fB, %fC, %gm, FA, FB, HC, HM, SC, SA, SB, FC, FM⟩⟩
  iapply (wp_wand_r Idealize.ShloMosaic.frame (wpE (defs₀ (F := F)) 𝒱₀ (thr d L) none) Set.univ)
  isplitl [HO Hmall HX HD HE FA FB HC HM SC SA SB FC FM]
  · iapply (trip_first (F := F) d L k hk q O W' v3 acc X gM fA fB fC gm fD fE)
    isplitr; · iexact Hmw
    isplitl [HO]; · iexact HO
    isplitl [Hmall]; · iexact Hmall
    isplitl [HX]; · iexact HX
    isplitl [HD]; · iexact HD
    isplitl [HE]; · iexact HE
    isplitl [FA]; · iexact FA
    isplitl [FB]; · iexact FB
    isplitl [HC]; · iexact HC
    isplitl [HM]; · iexact HM
    isplitl [SC]; · iexact SC
    isplitl [SA]; · iexact SA
    isplitl [SB]; · iexact SB
    isplitl [FC]; · iexact FC
    iexact FM
  · iintro %r ⟨%W'', HO, %hW'', Hmall, HX, HD, HE, HP⟩
    isplitr; · iexact Hmw
    isplitl [HO]
    · iexists W''
      isplitl [HO]; · iexact HO
      ipureintro
      intro p hp
      rcases hW'' p hp with h | h
      · exact hW' p h
      · exact .inr h
    isplitl [Hmall]; · iexact Hmall
    isplitl [HX]; · iexact HX
    isplitl [HD]; · iexact HD
    isplitl [HE]; · iexact HE
    iexact HP

end Cert.Proof.KB

end
-- ==== Proof.KB_TripLast.lean ====
/-
  The last trip of the tile's unit loop, unit 15 (a multiple of three: the staging buffers' roles are A = b0, B = b1,
  C = b2). There is no unit after it, so nothing is prefetched and the copy-outs that a prefetch would have had to wait
  for are left on their way: from the pipeline's state between trips — unit 15's two halves in flight into A and B,
  unit 14's second half in flight out of C, its mean row in flight out of the mean buffer — the trip waits for the mean
  row and for A, computes on A and starts its copy-out, waits for B, computes on B and starts its copy-out, and starts
  the mean row's copy-out. Both halves of the states array come back, so the tile's read token is whole again; the
  difference array's rows are held less the three half blocks now on their way out, the mean array's less row 15.
-/
import proofs.«204522_g36051955483029_cont_8to1_b_1192_15_alg».proof.Proof.KB_Canon
import proofs.«204522_g36051955483029_cont_8to1_b_1192_15_alg».proof.Proof.KB_Slices
import proofs.«204522_g36051955483029_cont_8to1_b_1192_15_alg».proof.Proof.KB_ColT6
import proofs.«204522_g36051955483029_cont_8to1_b_1192_15_alg».proof.Proof.KB_ColT7

set_option maxHeartbeats 8000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords)

omit [FloatOps F] in
/-- Taking three sets off one after the other is taking their union off. -/
theorem sdiff3 {α : Type} [DecidableEq α] (P A B C : Finset α) : ((P \ A) \ B) \ C = P \ ((A ∪ B) ∪ C) := by
  ext i; simp only [Finset.mem_sdiff, Finset.mem_union]; tauto

/-- The copy-out flights of the last trip, respelt over the canonical slices. -/
theorem flightA_eq (k : Fin k0_t1_loop.trips) (hc1 : ¬ k0_cond1 k = 1#1) (exA : k0_off293 L k = uo3 L 15 0)
    (g : Buf (Elt F) ((dV).view.loc (thr d L))) (g' : Buf (Elt F) ((b0).view.loc (thr d L))) :
    (iprop(((dsl (k0_off293 L k) (k0_off293_inb L k hc1)).view.loc (thr d L) ↦[(dsl (k0_off293 L k) (k0_off293_inb L k hc1)).view.set]{fullShare} g) ∗ ((b0).view.loc (thr d L) ↦[(b0).view.set]{fullShare} g')) : sProp 𝕄)
      = iprop(((dsl (uo3 L 15 0) (uo3_inb L 15 0)).view.loc (thr d L) ↦[(dsl (uo3 L 15 0) (uo3_inb L 15 0)).view.set]{fullShare} g) ∗ ((b0).view.loc (thr d L) ↦[(b0).view.set]{fullShare} g')) := by
  have hs0 : dS L 15 0 = (dsl (k0_off293 L k) (k0_off293_inb L k hc1)).view.set := dset_congr exA.symm _ _
  rw [← hs0]
theorem flightB_eq (k : Fin k0_t1_loop.trips) (hc1 : ¬ k0_cond1 k = 1#1) (exB : k0_off361 L k = uo3 L 15 512)
    (g : Buf (Elt F) ((dV).view.loc (thr d L))) (g' : Buf (Elt F) ((b1).view.loc (thr d L))) :
    (iprop(((dsl (k0_off361 L k) (k0_off361_inb L k hc1)).view.loc (thr d L) ↦[(dsl (k0_off361 L k) (k0_off361_inb L k hc1)).view.set]{fullShare} g) ∗ ((b1).view.loc (thr d L) ↦[(b1).view.set]{fullShare} g')) : sProp 𝕄)
      = iprop(((dsl (uo3 L 15 512) (uo3_inb L 15 512)).view.loc (thr d L) ↦[(dsl (uo3 L 15 512) (uo3_inb L 15 512)).view.set]{fullShare} g) ∗ ((b1).view.loc (thr d L) ↦[(b1).view.set]{fullShare} g')) := by
  have hs1 : dS L 15 512 = (dsl (k0_off361 L k) (k0_off361_inb L k hc1)).view.set := dset_congr exB.symm _ _
  rw [← hs1]
theorem flightM_eq (k : Fin k0_t1_loop.trips) (hc1 : ¬ k0_cond1 k = 1#1) (eeO : k0_off429 L k = uo2 L 15)
    (g : Buf (Elt F) ((eV).view.loc (thr d L))) (g' : Buf (Elt F) ((meanb).view.loc (thr d L))) :
    (iprop(((esl (k0_off429 L k) (k0_off429_inb L k hc1)).view.loc (thr d L) ↦[(esl (k0_off429 L k) (k0_off429_inb L k hc1)).view.set]{fullShare} g) ∗ ((meanb).view.loc (thr d L) ↦[(meanb).view.set]{fullShare} g')) : sProp 𝕄)
      = iprop(((esl (uo2 L 15) (uo2_inb L 15)).view.loc (thr d L) ↦[(esl (uo2 L 15) (uo2_inb L 15)).view.set]{fullShare} g) ∗ ((meanb).view.loc (thr d L) ↦[(meanb).view.set]{fullShare} g')) := by
  have hsE : eS L 15 = (esl (k0_off429 L k) (k0_off429_inb L k hc1)).view.set := eset_congr eeO.symm _ _
  rw [← hsE]

theorem trip_last (k : Fin k0_t1_loop.trips) (hk : k.val = 15)
    (q : PosShare TreeShare) (O : CellTallies nD τ sig (HIx 1)) (W : Waits sig (HIx 1)) (v3 : BitVec 32) (acc : FVec F S16 .f32)
    (X : Buf (Elt F) ((xV).view.loc (thr d L))) (gM : Buf (Elt F) ((mall).view.loc (thr d L)))
    (fA : Buf (Elt F) ((b0).view.loc (thr d L))) (fB : Buf (Elt F) ((b1).view.loc (thr d L))) (fC : Buf (Elt F) ((b2).view.loc (thr d L)))
    (gm : Buf (Elt F) ((meanb).view.loc (thr d L))) (fd fD : Buf (Elt F) ((dV).view.loc (thr d L))) (fe fE : Buf (Elt F) ((eV).view.loc (thr d L))) :
    (iprop(Transfers.MayWaits (thr d L) (none : HIx 1) O
        ∗ owes (thr d L) O W
        ∗ ((mall).view.loc (thr d L) ↦[(mall).view.set]{fullShare} gM)
        ∗ ((xV).view.loc (thr d L) ↦[(Finset.univ \ (xsl (uo3 L k.val 0) (uo3_inb L k.val 0)).view.set) \ (xsl (uo3 L k.val 512) (uo3_inb L k.val 512)).view.set]{q} X)
        ∗ ((dV).view.loc (thr d L) ↦[dPart (wid L) \ dS L (k.val - 1) 512]{fullShare} fD)
        ∗ ((eV).view.loc (thr d L) ↦[ePart (wid L) \ eS L (k.val - 1)]{fullShare} fE)
        ∗ Transfers.Flight countersEmb (thr d L) (SemLoc.dma cc0_scratch6.sem) (default : HIx 1) 1048576 iprop(((b0).view.loc (thr d L) ↦[(b0).view.set]{fullShare} fA) ∗ ((xV).view.loc (thr d L) ↦[(xsl (uo3 L k.val 0) (uo3_inb L k.val 0)).view.set]{q} X))
        ∗ Transfers.Flight countersEmb (thr d L) (SemLoc.dma cc0_scratch7.sem) (default : HIx 1) 1048576 iprop(((b1).view.loc (thr d L) ↦[(b1).view.set]{fullShare} fB) ∗ ((xV).view.loc (thr d L) ↦[(xsl (uo3 L k.val 512) (uo3_inb L k.val 512)).view.set]{q} X))
        ∗ Transfers.Flight countersEmb (thr d L) (SemLoc.dma cc0_scratch11.sem) (default : HIx 1) 1048576 iprop(((dsl (uo3 L (k.val - 1) 512) (uo3_inb L (k.val - 1) 512)).view.loc (thr d L) ↦[(dsl (uo3 L (k.val - 1) 512) (uo3_inb L (k.val - 1) 512)).view.set]{fullShare} fd) ∗ ((b2).view.loc (thr d L) ↦[(b2).view.set]{fullShare} fC))
        ∗ Transfers.Flight countersEmb (thr d L) (SemLoc.dma cc0_scratch12.sem) (default : HIx 1) 32768 iprop(((esl (uo2 L (k.val - 1)) (uo2_inb L (k.val - 1))).view.loc (thr d L) ↦[(esl (uo2 L (k.val - 1)) (uo2_inb L (k.val - 1))).view.set]{fullShare} fe) ∗ ((meanb).view.loc (thr d L) ↦[(meanb).view.set]{fullShare} gm))
        ∗ semVal ((thr d L), SemLoc.dma cc0_scratch9.sem) 0
        ∗ semVal ((thr d L), SemLoc.dma cc0_scratch10.sem) 0
        ∗ semVal ((thr d L), SemLoc.dma cc0_scratch8.sem) 0) : sProp 𝕄)
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun _ => iprop(∃ W', owes (thr d L) O W' ∗ ⌜∀ p ∈ W', p ∈ W ∨ p.2 = none⌝
            ∗ ((mall).view.loc (thr d L) ↦[(mall).view.set]{fullShare} gM)
            ∗ ((xV).view.loc (thr d L) ↦{q} X)
            ∗ (∃ fD', ((dV).view.loc (thr d L) ↦[dPart (wid L) \ ((dS L 14 512 ∪ dS L 15 0) ∪ dS L 15 512)]{fullShare} fD'))
            ∗ (∃ fE', ((eV).view.loc (thr d L) ↦[ePart (wid L) \ eS L 15]{fullShare} fE'))
            ∗ ∃ fA' fB' fC' gm' fd0 fd1 fd2 fe',
              Transfers.Flight countersEmb (thr d L) (SemLoc.dma cc0_scratch9.sem) (default : HIx 1) 1048576 iprop(((dsl (uo3 L 15 0) (uo3_inb L 15 0)).view.loc (thr d L) ↦[(dsl (uo3 L 15 0) (uo3_inb L 15 0)).view.set]{fullShare} fd0) ∗ ((b0).view.loc (thr d L) ↦[(b0).view.set]{fullShare} fA'))
            ∗ Transfers.Flight countersEmb (thr d L) (SemLoc.dma cc0_scratch10.sem) (default : HIx 1) 1048576 iprop(((dsl (uo3 L 15 512) (uo3_inb L 15 512)).view.loc (thr d L) ↦[(dsl (uo3 L 15 512) (uo3_inb L 15 512)).view.set]{fullShare} fd1) ∗ ((b1).view.loc (thr d L) ↦[(b1).view.set]{fullShare} fB'))
            ∗ Transfers.Flight countersEmb (thr d L) (SemLoc.dma cc0_scratch11.sem) (default : HIx 1) 1048576 iprop(((dsl (uo3 L 14 512) (uo3_inb L 14 512)).view.loc (thr d L) ↦[(dsl (uo3 L 14 512) (uo3_inb L 14 512)).view.set]{fullShare} fd2) ∗ ((b2).view.loc (thr d L) ↦[(b2).view.set]{fullShare} fC'))
            ∗ Transfers.Flight countersEmb (thr d L) (SemLoc.dma cc0_scratch12.sem) (default : HIx 1) 32768 iprop(((esl (uo2 L 15) (uo2_inb L 15)).view.loc (thr d L) ↦[(esl (uo2 L 15) (uo2_inb L 15)).view.set]{fullShare} fe') ∗ ((meanb).view.loc (thr d L) ↦[(meanb).view.set]{fullShare} gm'))
            ∗ semVal ((thr d L), SemLoc.dma cc0_scratch6.sem) 0
            ∗ semVal ((thr d L), SemLoc.dma cc0_scratch7.sem) 0
            ∗ semVal ((thr d L), SemLoc.dma cc0_scratch8.sem) 0) := by
  have hc1 : ¬ k0_cond1 k = 1#1 := (not_cond1_iff k).mpr (by omega)
  have hc11 : k0_cond11 k = 1#1 := (cond11_iff k).mpr (by omega)
  have hc12 : ¬ k0_cond12 k = 1#1 := fun h => by have := (cond12_iff k).mp h; omega
  have hc14 : ¬ k0_cond14 k = 1#1 := fun h => by have := (cond14_iff k).mp h; omega
  have h14 : k.val - 1 = 14 := by omega
  rw [h14, hk]
  -- the printed offsets of this trip's slices are the canonical ones
  have exA : k0_off293 L k = uo3 L 15 0 := by rw [k0_off293_eq, hk, uo3_of_le L (by omega) (by omega)]; rfl
  have exB : k0_off361 L k = uo3 L 15 512 := by rw [k0_off361_eq, hk, uo3_of_le L (by omega) (by omega)]; rfl
  have eeO : k0_off429 L k = uo2 L 15 := by rw [k0_off429_eq, hk, uo2_of_le L (by omega)]; rfl
  have hsetD : ((dPart (wid L) \ dS L 14 512) \ dS L 15 0) \ dS L 15 512 = dPart (wid L) \ ((dS L 14 512 ∪ dS L 15 0) ∪ dS L 15 512) := sdiff3 _ _ _ _
  have haE : eS L 14 ⊆ ePart (wid L) \ eS L 15 :=
    Finset.subset_sdiff.mpr ⟨eS_subset L 14, eS_disjoint L (by omega) (by omega) (by omega)⟩
  have hsetE : (ePart (wid L) \ eS L 14) \ eS L 15 = (ePart (wid L) \ eS L 15) \ eS L 14 := sdiff_right_comm _ _ _
  iintro ⟨#Hmw, HO, Hmall, HX, HD, HE, FA, FB, FC, FM, SA, SB, SC⟩
  -- this trip's two half blocks of the difference array and its mean row, carved out of the tile's rows
  have hsub0 : dS L 15 0 ⊆ dPart (wid L) \ dS L 14 512 :=
    Finset.subset_sdiff.mpr ⟨dS_subset L 15 0 (.inl rfl), dS_disjoint L (by omega) (by omega) (.inl rfl) (.inr rfl) (.inl (by omega))⟩
  have hsub1 : dS L 15 512 ⊆ (dPart (wid L) \ dS L 14 512) \ dS L 15 0 :=
    Finset.subset_sdiff.mpr ⟨Finset.subset_sdiff.mpr ⟨dS_subset L 15 512 (.inr rfl), dS_disjoint L (by omega) (by omega) (.inr rfl) (.inr rfl) (.inl (by omega))⟩,
      dS_disjoint L (by omega) (by omega) (.inr rfl) (.inl rfl) (.inr (by decide))⟩
  have hsubE : eS L 15 ⊆ ePart (wid L) \ eS L 14 :=
    Finset.subset_sdiff.mpr ⟨eS_subset L 15, eS_disjoint L (by omega) (by omega) (by omega)⟩
  ihave HD' := (pointsTo_split_subset hsub0).1 $$ HD
  icases HD' with ⟨HD0, HD⟩
  ihave HD' := (pointsTo_split_subset hsub1).1 $$ HD
  icases HD' with ⟨HD1, HD⟩
  ihave HE' := (pointsTo_split_subset hsubE).1 $$ HE
  icases HE' with ⟨HE0, HE⟩
  -- … in the kernel's own spelling of those slices
  have hs0 : dS L 15 0 = (dsl (k0_off293 L k) (k0_off293_inb L k hc1)).view.set := dset_congr exA.symm _ _
  have hs1 : dS L 15 512 = (dsl (k0_off361 L k) (k0_off361_inb L k hc1)).view.set := dset_congr exB.symm _ _
  have hsE : eS L 15 = (esl (k0_off429 L k) (k0_off429_inb L k hc1)).view.set := eset_congr eeO.symm _ _
  have e0 : (((dV).view.loc (thr d L) ↦[dS L 15 0]{fullShare} fD : sProp 𝕄))
      = ((dsl (k0_off293 L k) (k0_off293_inb L k hc1)).view.loc (thr d L) ↦[(dsl (k0_off293 L k) (k0_off293_inb L k hc1)).view.set]{fullShare} fD) := by
    rw [hs0]
  have e1 : (((dV).view.loc (thr d L) ↦[dS L 15 512]{fullShare} fD : sProp 𝕄))
      = ((dsl (k0_off361 L k) (k0_off361_inb L k hc1)).view.loc (thr d L) ↦[(dsl (k0_off361 L k) (k0_off361_inb L k hc1)).view.set]{fullShare} fD) := by
    rw [hs1]
  have eE : (((eV).view.loc (thr d L) ↦[eS L 15]{fullShare} fE : sProp 𝕄))
      = ((esl (k0_off429 L k) (k0_off429_inb L k hc1)).view.loc (thr d L) ↦[(esl (k0_off429 L k) (k0_off429_inb L k hc1)).view.set]{fullShare} fE) := by
    rw [hsE]
  ihave HD0' := (Entails.of_eq e0) $$ HD0
  ihave HD1' := (Entails.of_eq e1) $$ HD1
  ihave HE0' := (Entails.of_eq eE) $$ HE0
  sl_unfold [k0_t1_body]
  sl_exec
  sl_step
  ihave SA' := (Transfers.Flight_mono countersEmb (thr d L) (Entails.of_eq (flightA_eq d L k hc1 exA _ _))) $$ SA
  ihave SB' := (Transfers.Flight_mono countersEmb (thr d L) (Entails.of_eq (flightB_eq d L k hc1 exB _ _))) $$ SB
  ihave FM' := (Transfers.Flight_mono countersEmb (thr d L) (Entails.of_eq (flightM_eq d L k hc1 eeO _ _))) $$ FM
  -- the waits recorded
  iexists _
  isplitl [HO]; · iexact HO
  isplitr
  · ipureintro
    intro p hp
    simp only [Finset.mem_insert] at hp
    rcases hp with (rfl | rfl | rfl | hp) <;> first | exact .inr rfl | exact .inl hp
  isplitl [Hmall]; · iexact Hmall
  -- the states array: both half blocks are back, the read token is whole
  isplitl [HX]; · iexact HX
  -- the difference array's rows, less the three half blocks on their way out
  isplitl [HD]
  · rw [hsetD]
    iexists _; iexact HD
  -- the mean array's rows: unit 14's is back, unit 15's is out
  isplitl [HE FM_dst]
  · rw [hsetE]
    ihave H2 := (pointsTo_join_subset (ℓ := (eV).view.loc (thr d L)) haE) $$ [FM_dst HE]
    · isplitl [FM_dst]; · iexact FM_dst
      iexact HE
    iexists _; iexact H2
  -- the four copies still on their way out
  iexists _, _, _, _, _, _, _, _
  isplitl [SA']; · iexact SA'
  isplitl [SB']; · iexact SB'
  isplitl [FC]; · iexact FC
  isplitl [FM']; · iexact FM'
  isplitl [FA]; · iexact FA
  isplitl [FB]; · iexact FB
  iexact SC

end Cert.Proof.KB

end
-- ==== Proof.KB_StepLast.lean ====
/-
  The unit loop's invariant is kept by its last trip, unit 15: the invariant before the trip, opened at the remainder 0
  of fifteen on division by three, is the trip's precondition, and what the trip leaves is the invariant at sixteen —
  the read token of the states array whole, the four copies still on their way out, the difference array's rows less
  the three half blocks and the mean array's less the row those copies carry.
-/
import proofs.«204522_g36051955483029_cont_8to1_b_1192_15_alg».proof.Proof.KB_Inv
import proofs.«204522_g36051955483029_cont_8to1_b_1192_15_alg».proof.Proof.KB_TripLast

set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords)

theorem step_last (k : Fin k0_t1_loop.trips) (hk : k.val = 15)
    (q : PosShare TreeShare) (X : Buf (Elt F) ((xV).view.loc (thr d L))) (O : CellTallies nD τ sig (HIx 1)) (W : Waits sig (HIx 1))
    (gM : Buf (Elt F) ((mall).view.loc (thr d L))) (v3 : BitVec 32) (acc : FVec F S16 .f32) :
    inv (F := F) d L q X O W gM k.val acc
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => inv (F := F) d L q X O W gM (k.val + 1) r := by
  have hmod : k.val % 3 = 0 := by omega
  have hp0 : pipe (F := F) d L q X k.val = pipeMid0 (F := F) d L q X k.val := by
    unfold pipe; simp [hmod, show k.val ≠ 0 by omega, show ¬ 16 ≤ k.val by omega]
  have hp1 : pipe (F := F) d L q X (k.val + 1) = pipeEnd (F := F) d L := by
    unfold pipe; rw [if_neg (by omega), if_pos (by omega)]
  have hx0 : xRest (F := F) d L q X k.val = ((xV).view.loc (thr d L) ↦[(Finset.univ \ (xsl (uo3 L k.val 0) (uo3_inb L k.val 0)).view.set) \ (xsl (uo3 L k.val 512) (uo3_inb L k.val 512)).view.set]{q} X) := by
    unfold xRest; rw [if_pos (by omega)]
  have hx1 : xRest (F := F) d L q X (k.val + 1) = ((xV).view.loc (thr d L) ↦{q} X) := by
    unfold xRest; rw [if_neg (by omega)]
  have hd0 : lentD L k.val = dS L (k.val - 1) 512 := by unfold lentD; rw [if_neg (by omega), if_pos (by omega)]
  have hd1 : lentD L (k.val + 1) = (dS L 14 512 ∪ dS L 15 0) ∪ dS L 15 512 := by unfold lentD; rw [if_neg (by omega), if_neg (by omega)]
  have he0 : lentE L k.val = eS L (k.val - 1) := by unfold lentE; rw [if_neg (by omega)]
  have he1 : lentE L (k.val + 1) = eS L 15 := by unfold lentE; rw [if_neg (by omega), Nat.add_sub_cancel, hk]
  unfold inv
  rw [hp0, hp1, hx0, hx1, hd0, hd1, he0, he1]
  unfold pipeMid0 pipeEnd
  iintro ⟨#Hmw, ⟨%W', HO, %hW'⟩, Hmall, HX, ⟨%fD, HD⟩, ⟨%fE, HE⟩, ⟨%fA, %fB, %fC, %gm, %fd, %fe, FA, FB, FC, FM, SA, SB, SC⟩⟩
  iapply (wp_wand_r Idealize.ShloMosaic.frame (wpE (defs₀ (F := F)) 𝒱₀ (thr d L) none) Set.univ)
  isplitl [HO Hmall HX HD HE FA FB FC FM SA SB SC]
  · iapply (trip_last (F := F) d L k hk q O W' v3 acc X gM fA fB fC gm fd fD fe fE)
    isplitr; · iexact Hmw
    isplitl [HO]; · iexact HO
    isplitl [Hmall]; · iexact Hmall
    isplitl [HX]; · iexact HX
    isplitl [HD]; · iexact HD
    isplitl [HE]; · iexact HE
    isplitl [FA]; · iexact FA
    isplitl [FB]; · iexact FB
    isplitl [FC]; · iexact FC
    isplitl [FM]; · iexact FM
    isplitl [SA]; · iexact SA
    isplitl [SB]; · iexact SB
    iexact SC
  · iintro %r ⟨%W'', HO, %hW'', Hmall, HX, HD, HE, HP⟩
    isplitr; · iexact Hmw
    isplitl [HO]
    · iexists W''
      isplitl [HO]; · iexact HO
      ipureintro
      intro p hp
      rcases hW'' p hp with h | h
      · exact hW' p h
      · exact .inr h
    isplitl [Hmall]; · iexact Hmall
    isplitl [HX]; · iexact HX
    isplitl [HD]; · iexact HD
    isplitl [HE]; · iexact HE
    iexact HP

end Cert.Proof.KB

end
-- ==== Proof.KB_TripV0.lean ====
/-
  One trip of the tile's unit loop, at a unit `k` in the middle of the pipeline (`0 < k`, `k + 1 < 16`) whose number
  leaves the remainder 0 on division by three: the staging buffers' roles in such a trip are fixed, A = b0, B = b1,
  C = b2. From the pipeline's state between trips — unit `k`'s two halves in flight into A and B, unit `k − 1`'s
  second half in flight out of C to the difference array, its mean row in flight out of the mean buffer — the trip
  waits for the mean row and for A, computes on A and starts its copy-out, waits for C and prefetches unit `k + 1`'s
  first half into it, waits for B, computes on B and starts its copy-out, waits for A's copy-out and prefetches unit
  `k + 1`'s second half into A, and starts the mean row's copy-out: the pipeline's state for `k + 1`, the roles turned.
  The rows of the difference and mean arrays the tile holds are kept as one points-to each, less the slice in flight.
-/
import proofs.«204522_g36051955483029_cont_8to1_b_1192_15_alg».proof.Proof.KB_Canon
import proofs.«204522_g36051955483029_cont_8to1_b_1192_15_alg».proof.Proof.KB_Slices
import proofs.«204522_g36051955483029_cont_8to1_b_1192_15_alg».proof.Proof.KB_ColT6
import proofs.«204522_g36051955483029_cont_8to1_b_1192_15_alg».proof.Proof.KB_ColT7

set_option maxHeartbeats 8000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords)

theorem trip_v0 (k : Fin k0_t1_loop.trips) (hc1 : ¬ k0_cond1 k = 1#1) (hpos : 0 < k.val) (hlt : k.val + 1 < 16)
    (q : PosShare TreeShare) (O : CellTallies nD τ sig (HIx 1)) (W : Waits sig (HIx 1)) (v3 : BitVec 32) (acc : FVec F S16 .f32)
    (X : Buf (Elt F) ((xV).view.loc (thr d L))) (gM : Buf (Elt F) ((mall).view.loc (thr d L)))
    (fA : Buf (Elt F) ((b0).view.loc (thr d L))) (fB : Buf (Elt F) ((b1).view.loc (thr d L))) (fC : Buf (Elt F) ((b2).view.loc (thr d L)))
    (gm : Buf (Elt F) ((meanb).view.loc (thr d L))) (fd fD : Buf (Elt F) ((dV).view.loc (thr d L))) (fe fE : Buf (Elt F) ((eV).view.loc (thr d L))) :
    (iprop(Transfers.MayWaits (thr d L) (none : HIx 1) O
        ∗ owes (thr d L) O W
        ∗ ((mall).view.loc (thr d L) ↦[(mall).view.set]{fullShare} gM)
        ∗ ((xV).view.loc (thr d L) ↦[(Finset.univ \ (xsl (uo3 L k.val 0) (uo3_inb L k.val 0)).view.set) \ (xsl (uo3 L k.val 512) (uo3_inb L k.val 512)).view.set]{q} X)
        ∗ ((dV).view.loc (thr d L) ↦[dPart (wid L) \ dS L (k.val - 1) 512]{fullShare} fD)
        ∗ ((eV).view.loc (thr d L) ↦[ePart (wid L) \ eS L (k.val - 1)]{fullShare} fE)
        ∗ Transfers.Flight countersEmb (thr d L) (SemLoc.dma cc0_scratch6.sem) (default : HIx 1) 1048576 iprop(((b0).view.loc (thr d L) ↦[(b0).view.set]{fullShare} fA) ∗ ((xV).view.loc (thr d L) ↦[(xsl (uo3 L k.val 0) (uo3_inb L k.val 0)).view.set]{q} X))
        ∗ Transfers.Flight countersEmb (thr d L) (SemLoc.dma cc0_scratch7.sem) (default : HIx 1) 1048576 iprop(((b1).view.loc (thr d L) ↦[(b1).view.set]{fullShare} fB) ∗ ((xV).view.loc (thr d L) ↦[(xsl (uo3 L k.val 512) (uo3_inb L k.val 512)).view.set]{q} X))
        ∗ Transfers.Flight countersEmb (thr d L) (SemLoc.dma cc0_scratch11.sem) (default : HIx 1) 1048576 iprop(((dsl (uo3 L (k.val - 1) 512) (uo3_inb L (k.val - 1) 512)).view.loc (thr d L) ↦[(dsl (uo3 L (k.val - 1) 512) (uo3_inb L (k.val - 1) 512)).view.set]{fullShare} fd) ∗ ((b2).view.loc (thr d L) ↦[(b2).view.set]{fullShare} fC))
        ∗ Transfers.Flight countersEmb (thr d L) (SemLoc.dma cc0_scratch12.sem) (default : HIx 1) 32768 iprop(((esl (uo2 L (k.val - 1)) (uo2_inb L (k.val - 1))).view.loc (thr d L) ↦[(esl (uo2 L (k.val - 1)) (uo2_inb L (k.val - 1))).view.set]{fullShare} fe) ∗ ((meanb).view.loc (thr d L) ↦[(meanb).view.set]{fullShare} gm))
        ∗ semVal ((thr d L), SemLoc.dma cc0_scratch9.sem) 0
        ∗ semVal ((thr d L), SemLoc.dma cc0_scratch10.sem) 0
        ∗ semVal ((thr d L), SemLoc.dma cc0_scratch8.sem) 0) : sProp 𝕄)
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun _ => iprop(∃ W', owes (thr d L) O W' ∗ ⌜∀ p ∈ W', p ∈ W ∨ p.2 = none⌝
                ∗ ((mall).view.loc (thr d L) ↦[(mall).view.set]{fullShare} gM)
            ∗ ((xV).view.loc (thr d L) ↦[(Finset.univ \ (xsl (uo3 L (k.val + 1) 0) (uo3_inb L (k.val + 1) 0)).view.set) \ (xsl (uo3 L (k.val + 1) 512) (uo3_inb L (k.val + 1) 512)).view.set]{q} X)
            ∗ (∃ fD', ((dV).view.loc (thr d L) ↦[dPart (wid L) \ dS L k.val 512]{fullShare} fD'))
            ∗ (∃ fE', ((eV).view.loc (thr d L) ↦[ePart (wid L) \ eS L k.val]{fullShare} fE'))
            ∗ ∃ fA' fB' fC' gm' fd' fe', Transfers.Flight countersEmb (thr d L) (SemLoc.dma cc0_scratch8.sem) (default : HIx 1) 1048576 iprop(((b2).view.loc (thr d L) ↦[(b2).view.set]{fullShare} fA') ∗ ((xV).view.loc (thr d L) ↦[(xsl (uo3 L (k.val + 1) 0) (uo3_inb L (k.val + 1) 0)).view.set]{q} X))
        ∗ Transfers.Flight countersEmb (thr d L) (SemLoc.dma cc0_scratch6.sem) (default : HIx 1) 1048576 iprop(((b0).view.loc (thr d L) ↦[(b0).view.set]{fullShare} fB') ∗ ((xV).view.loc (thr d L) ↦[(xsl (uo3 L (k.val + 1) 512) (uo3_inb L (k.val + 1) 512)).view.set]{q} X))
        ∗ Transfers.Flight countersEmb (thr d L) (SemLoc.dma cc0_scratch10.sem) (default : HIx 1) 1048576 iprop(((dsl (uo3 L k.val 512) (uo3_inb L k.val 512)).view.loc (thr d L) ↦[(dsl (uo3 L k.val 512) (uo3_inb L k.val 512)).view.set]{fullShare} fd') ∗ ((b1).view.loc (thr d L) ↦[(b1).view.set]{fullShare} fC'))
        ∗ Transfers.Flight countersEmb (thr d L) (SemLoc.dma cc0_scratch12.sem) (default : HIx 1) 32768 iprop(((esl (uo2 L k.val) (uo2_inb L k.val)).view.loc (thr d L) ↦[(esl (uo2 L k.val) (uo2_inb L k.val)).view.set]{fullShare} fe') ∗ ((meanb).view.loc (thr d L) ↦[(meanb).view.set]{fullShare} gm'))
        ∗ semVal ((thr d L), SemLoc.dma cc0_scratch11.sem) 0
        ∗ semVal ((thr d L), SemLoc.dma cc0_scratch9.sem) 0
        ∗ semVal ((thr d L), SemLoc.dma cc0_scratch7.sem) 0) := by
  have hc11 : k0_cond11 k = 1#1 := (cond11_iff k).mpr hpos
  have hc12 : k0_cond12 k = 1#1 := (cond12_iff k).mpr hlt
  have hc13 : k0_cond13 k = 1#1 := (cond13_iff k).mpr hpos
  have hc14 : k0_cond14 k = 1#1 := (cond14_iff k).mpr hlt
  -- the printed offsets of this trip's slices are the canonical ones
  have exA : k0_off293 L k = uo3 L k.val 0 := by rw [k0_off293_eq, uo3_of_le L (by omega) (by omega)]; rfl
  have exB : k0_off361 L k = uo3 L k.val 512 := by rw [k0_off361_eq, uo3_of_le L (by omega) (by omega)]; rfl
  have exC : k0_off360 L k = uo3 L (k.val + 1) 0 := by rw [k0_off360_eq, uo3_of_le L (by omega) (by omega)]; rfl
  have exA2 : k0_off428 L k = uo3 L (k.val + 1) 512 := by rw [k0_off428_eq, uo3_of_le L (by omega) (by omega)]; rfl
  have eeO : k0_off429 L k = uo2 L k.val := by rw [k0_off429_eq, uo2_of_le L (by omega)]; rfl
  iintro ⟨#Hmw, HO, Hmall, HX, HD, HE, FA, FB, FC, FM, SA, SB, SC⟩

  -- this trip's two half blocks of the difference array and its mean row, carved out of the tile's rows
  have hsub0 : dS L k.val 0 ⊆ dPart (wid L) \ dS L (k.val - 1) 512 :=
    Finset.subset_sdiff.mpr ⟨dS_subset L k.val 0 (.inl rfl), dS_disjoint L (by omega) (by omega) (.inl rfl) (.inr rfl) (.inl (by omega))⟩
  have hsub1 : dS L k.val 512 ⊆ (dPart (wid L) \ dS L (k.val - 1) 512) \ dS L k.val 0 :=
    Finset.subset_sdiff.mpr ⟨Finset.subset_sdiff.mpr ⟨dS_subset L k.val 512 (.inr rfl), dS_disjoint L (by omega) (by omega) (.inr rfl) (.inr rfl) (.inl (by omega))⟩,
      dS_disjoint L (by omega) (by omega) (.inr rfl) (.inl rfl) (.inr (by decide))⟩
  have hsubE : eS L k.val ⊆ ePart (wid L) \ eS L (k.val - 1) :=
    Finset.subset_sdiff.mpr ⟨eS_subset L k.val, eS_disjoint L (by omega) (by omega) (by omega)⟩
  ihave HD' := (pointsTo_split_subset hsub0).1 $$ HD
  icases HD' with ⟨HD0, HD⟩
  ihave HD' := (pointsTo_split_subset hsub1).1 $$ HD
  icases HD' with ⟨HD1, HD⟩
  ihave HE' := (pointsTo_split_subset hsubE).1 $$ HE
  icases HE' with ⟨HE0, HE⟩
  -- … in the kernel's own spelling of those slices
  have hs0 : dS L k.val 0 = (dsl (k0_off293 L k) (k0_off293_inb L k hc1)).view.set := dset_congr exA.symm _ _
  have hs1 : dS L k.val 512 = (dsl (k0_off361 L k) (k0_off361_inb L k hc1)).view.set := dset_congr exB.symm _ _
  have hsE : eS L k.val = (esl (k0_off429 L k) (k0_off429_inb L k hc1)).view.set := eset_congr eeO.symm _ _
  have e0 : (((dV).view.loc (thr d L) ↦[dS L k.val 0]{fullShare} fD : sProp 𝕄))
      = ((dsl (k0_off293 L k) (k0_off293_inb L k hc1)).view.loc (thr d L) ↦[(dsl (k0_off293 L k) (k0_off293_inb L k hc1)).view.set]{fullShare} fD) := by
    rw [hs0]
  have e1 : (((dV).view.loc (thr d L) ↦[dS L k.val 512]{fullShare} fD : sProp 𝕄))
      = ((dsl (k0_off361 L k) (k0_off361_inb L k hc1)).view.loc (thr d L) ↦[(dsl (k0_off361 L k) (k0_off361_inb L k hc1)).view.set]{fullShare} fD) := by
    rw [hs1]
  have eE : (((eV).view.loc (thr d L) ↦[eS L k.val]{fullShare} fE : sProp 𝕄))
      = ((esl (k0_off429 L k) (k0_off429_inb L k hc1)).view.loc (thr d L) ↦[(esl (k0_off429 L k) (k0_off429_inb L k hc1)).view.set]{fullShare} fE) := by
    rw [hsE]
  ihave HD0' := (Entails.of_eq e0) $$ HD0
  ihave HD1' := (Entails.of_eq e1) $$ HD1
  ihave HE0' := (Entails.of_eq eE) $$ HE0
  sl_unfold [k0_t1_body]
  sl_exec

  sl_step
  -- the flights this trip leaves, over the canonical slices
  have pSC : ∀ g, (iprop(((b2).view.loc (thr d L) ↦[(b2).view.set]{fullShare} g) ∗ ((xV).view.loc (thr d L) ↦[(xsl (k0_off360 L k) (k0_off360_inb L k hc1 hc12)).view.set]{q} X)) : sProp 𝕄)
      = iprop(((b2).view.loc (thr d L) ↦[(b2).view.set]{fullShare} g) ∗ ((xV).view.loc (thr d L) ↦[(xsl (uo3 L (k.val + 1) 0) (uo3_inb L (k.val + 1) 0)).view.set]{q} X)) := fun g => by
    rw [xset_congr exC _ (uo3_inb L (k.val + 1) 0)]
  have pFA : ∀ g, (iprop(((b0).view.loc (thr d L) ↦[(b0).view.set]{fullShare} g) ∗ ((xV).view.loc (thr d L) ↦[(xsl (k0_off428 L k) (k0_off428_inb L k hc1 hc14)).view.set]{q} X)) : sProp 𝕄)
      = iprop(((b0).view.loc (thr d L) ↦[(b0).view.set]{fullShare} g) ∗ ((xV).view.loc (thr d L) ↦[(xsl (uo3 L (k.val + 1) 512) (uo3_inb L (k.val + 1) 512)).view.set]{q} X)) := fun g => by
    rw [xset_congr exA2 _ (uo3_inb L (k.val + 1) 512)]
  have pSB : ∀ g g', (iprop(((dsl (k0_off361 L k) (k0_off361_inb L k hc1)).view.loc (thr d L) ↦[(dsl (k0_off361 L k) (k0_off361_inb L k hc1)).view.set]{fullShare} g) ∗ ((b1).view.loc (thr d L) ↦[(b1).view.set]{fullShare} g')) : sProp 𝕄)
      = iprop(((dsl (uo3 L k.val 512) (uo3_inb L k.val 512)).view.loc (thr d L) ↦[(dsl (uo3 L k.val 512) (uo3_inb L k.val 512)).view.set]{fullShare} g) ∗ ((b1).view.loc (thr d L) ↦[(b1).view.set]{fullShare} g')) := fun g g' => by
    rw [← hs1]
  have pFM : ∀ g g', (iprop(((esl (k0_off429 L k) (k0_off429_inb L k hc1)).view.loc (thr d L) ↦[(esl (k0_off429 L k) (k0_off429_inb L k hc1)).view.set]{fullShare} g) ∗ ((meanb).view.loc (thr d L) ↦[(meanb).view.set]{fullShare} g')) : sProp 𝕄)
      = iprop(((esl (uo2 L k.val) (uo2_inb L k.val)).view.loc (thr d L) ↦[(esl (uo2 L k.val) (uo2_inb L k.val)).view.set]{fullShare} g) ∗ ((meanb).view.loc (thr d L) ↦[(meanb).view.set]{fullShare} g')) := fun g g' => by
    rw [← hsE]
  ihave SC' := (Transfers.Flight_mono countersEmb (thr d L) (Entails.of_eq (pSC _))) $$ SC
  ihave FA' := (Transfers.Flight_mono countersEmb (thr d L) (Entails.of_eq (pFA _))) $$ FA
  ihave SB' := (Transfers.Flight_mono countersEmb (thr d L) (Entails.of_eq (pSB _ _))) $$ SB
  ihave FM' := (Transfers.Flight_mono countersEmb (thr d L) (Entails.of_eq (pFM _ _))) $$ FM
  -- the waits recorded
  iexists _
  isplitl [HO]; · iexact HO
  isplitr
  · ipureintro
    intro p hp
    simp only [Finset.mem_insert] at hp
    rcases hp with (rfl | rfl | rfl | rfl | rfl | hp) <;> first | exact .inr rfl | exact .inl hp
  isplitl [Hmall]; · iexact Hmall
  -- the states array less unit k+1's two halves, now in flight
  isplitl [HX]
  · have hx : (((xV).view.loc (thr d L) ↦[(Finset.univ \ (xsl (k0_off360 L k) (k0_off360_inb L k hc1 hc12)).view.set) \ (xsl (k0_off428 L k) (k0_off428_inb L k hc1 hc14)).view.set]{q} X : sProp 𝕄))
        = ((xV).view.loc (thr d L) ↦[(Finset.univ \ (xsl (uo3 L (k.val + 1) 0) (uo3_inb L (k.val + 1) 0)).view.set) \ (xsl (uo3 L (k.val + 1) 512) (uo3_inb L (k.val + 1) 512)).view.set]{q} X) := by
      rw [xset_congr exC _ (uo3_inb L (k.val + 1) 0), xset_congr exA2 _ (uo3_inb L (k.val + 1) 512)]
    iapply (Entails.of_eq hx); iexact HX
  -- the difference array's rows: unit k−1's second half and unit k's first are back, unit k's second half is out
  isplitl [HD FC_dst HD0']
  · have hb : dS L k.val 0 ⊆ (dPart (wid L) \ dS L (k.val - 1) 512) \ dS L k.val 512 :=
      Finset.subset_sdiff.mpr ⟨hsub0, dS_disjoint L (by omega) (by omega) (.inl rfl) (.inr rfl) (.inr (by decide))⟩
    have ha : dS L (k.val - 1) 512 ⊆ dPart (wid L) \ dS L k.val 512 :=
      Finset.subset_sdiff.mpr ⟨dS_subset L (k.val - 1) 512 (.inr rfl), dS_disjoint L (by omega) (by omega) (.inr rfl) (.inr rfl) (.inl (by omega))⟩
    have hset1 : ((dPart (wid L) \ dS L (k.val - 1) 512) \ dS L k.val 0) \ dS L k.val 512
        = ((dPart (wid L) \ dS L (k.val - 1) 512) \ dS L k.val 512) \ dS L k.val 0 := sdiff_right_comm _ _ _
    have hset2 : (dPart (wid L) \ dS L (k.val - 1) 512) \ dS L k.val 512
        = (dPart (wid L) \ dS L k.val 512) \ dS L (k.val - 1) 512 := sdiff_right_comm _ _ _
    rw [hset1]
    have e0' : ∀ g, (((dsl (k0_off293 L k) (k0_off293_inb L k hc1)).view.loc (thr d L) ↦[(dsl (k0_off293 L k) (k0_off293_inb L k hc1)).view.set]{fullShare} g) : sProp 𝕄) = ((dV).view.loc (thr d L) ↦[dS L k.val 0]{fullShare} g) := fun g => by rw [hs0]
    ihave H0 := (Entails.of_eq (e0' _)) $$ HD0'
    ihave H1 := (pointsTo_join_subset (ℓ := (dV).view.loc (thr d L)) hb) $$ [H0 HD]
    · isplitl [H0]; · iexact H0
      iexact HD
    rw [hset2]
    ihave H2 := (pointsTo_join_subset (ℓ := (dV).view.loc (thr d L)) ha) $$ [FC_dst H1]
    · isplitl [FC_dst]; · iexact FC_dst
      iexact H1
    iexists _; iexact H2
  -- the mean array's rows: unit k−1's is back, unit k's is out
  isplitl [HE FM_dst]
  · have ha : eS L (k.val - 1) ⊆ ePart (wid L) \ eS L k.val :=
      Finset.subset_sdiff.mpr ⟨eS_subset L (k.val - 1), eS_disjoint L (by omega) (by omega) (by omega)⟩
    have hset : (ePart (wid L) \ eS L (k.val - 1)) \ eS L k.val = (ePart (wid L) \ eS L k.val) \ eS L (k.val - 1) := sdiff_right_comm _ _ _
    rw [hset]
    ihave H2 := (pointsTo_join_subset (ℓ := (eV).view.loc (thr d L)) ha) $$ [FM_dst HE]
    · isplitl [FM_dst]; · iexact FM_dst
      iexact HE
    iexists _; iexact H2
  -- the pipeline for unit k+1
  iexists _, _, _, _, _, _
  isplitl [SC']; · iexact SC'
  isplitl [FA']; · iexact FA'
  isplitl [SB']; · iexact SB'
  isplitl [FM']; · iexact FM'
  isplitl [FC]; · iexact FC
  isplitl [SA]; · iexact SA
  iexact FB

end Cert.Proof.KB

end
-- ==== Proof.KB_StepV0.lean ====
/-
  The unit loop's invariant is kept by a trip in the middle of the pipeline whose unit number leaves the remainder 0
  on division by three: the invariant before the trip, opened at that remainder, is the trip's precondition, and
  what the trip leaves is the invariant at the next number, whose remainder is 1.
-/
import proofs.«204522_g36051955483029_cont_8to1_b_1192_15_alg».proof.Proof.KB_Inv
import proofs.«204522_g36051955483029_cont_8to1_b_1192_15_alg».proof.Proof.KB_TripV0

set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords)

theorem step_v0 (k : Fin k0_t1_loop.trips) (hc1 : ¬ k0_cond1 k = 1#1) (hpos : 0 < k.val) (hlt : k.val + 1 < 16)
    (q : PosShare TreeShare) (X : Buf (Elt F) ((xV).view.loc (thr d L))) (O : CellTallies nD τ sig (HIx 1)) (W : Waits sig (HIx 1))
    (gM : Buf (Elt F) ((mall).view.loc (thr d L))) (v3 : BitVec 32) (acc : FVec F S16 .f32) :
    inv (F := F) d L q X O W gM k.val acc
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => inv (F := F) d L q X O W gM (k.val + 1) r := by
  have hmod : k.val % 3 = 0 := (not_cond1_iff k).mp hc1
  have hmod' : (k.val + 1) % 3 = 1 := by omega
  have hp0 : pipe (F := F) d L q X k.val = pipeMid0 (F := F) d L q X k.val := by
    unfold pipe; simp [hmod, show k.val ≠ 0 by omega, show ¬ 16 ≤ k.val by omega]
  have hp1 : pipe (F := F) d L q X (k.val + 1) = pipeMid1 (F := F) d L q X (k.val + 1) := by
    unfold pipe; simp [hmod', show ¬ 16 ≤ k.val + 1 by omega]
  have hx0 : xRest (F := F) d L q X k.val = ((xV).view.loc (thr d L) ↦[(Finset.univ \ (xsl (uo3 L k.val 0) (uo3_inb L k.val 0)).view.set) \ (xsl (uo3 L k.val 512) (uo3_inb L k.val 512)).view.set]{q} X) := by
    unfold xRest; rw [if_pos (by omega)]
  have hx1 : xRest (F := F) d L q X (k.val + 1) = ((xV).view.loc (thr d L) ↦[(Finset.univ \ (xsl (uo3 L (k.val + 1) 0) (uo3_inb L (k.val + 1) 0)).view.set) \ (xsl (uo3 L (k.val + 1) 512) (uo3_inb L (k.val + 1) 512)).view.set]{q} X) := by
    unfold xRest; rw [if_pos (by omega)]
  have hd0 : lentD L k.val = dS L (k.val - 1) 512 := by unfold lentD; rw [if_neg (by omega), if_pos (by omega)]
  have hd1 : lentD L (k.val + 1) = dS L k.val 512 := by unfold lentD; rw [if_neg (by omega), if_pos (by omega)]; rfl
  have he0 : lentE L k.val = eS L (k.val - 1) := by unfold lentE; rw [if_neg (by omega)]
  have he1 : lentE L (k.val + 1) = eS L k.val := by unfold lentE; rw [if_neg (by omega)]; rfl
  unfold inv
  rw [hp0, hp1, hx0, hx1, hd0, hd1, he0, he1]
  unfold pipeMid0 pipeMid1
  simp only [Nat.add_sub_cancel]
  iintro ⟨#Hmw, ⟨%W', HO, %hW'⟩, Hmall, HX, ⟨%fD, HD⟩, ⟨%fE, HE⟩, ⟨%fA, %fB, %fC, %gm, %fd, %fe, FA, FB, FC, FM, SA, SB, SC⟩⟩
  iapply (wp_wand_r Idealize.ShloMosaic.frame (wpE (defs₀ (F := F)) 𝒱₀ (thr d L) none) Set.univ)
  isplitl [HO Hmall HX HD HE FA FB FC FM SA SB SC]
  · iapply (trip_v0 (F := F) d L k hc1 hpos hlt q O W' v3 acc X gM fA fB fC gm fd fD fe fE)
    isplitr; · iexact Hmw
    isplitl [HO]; · iexact HO
    isplitl [Hmall]; · iexact Hmall
    isplitl [HX]; · iexact HX
    isplitl [HD]; · iexact HD
    isplitl [HE]; · iexact HE
    isplitl [FA]; · iexact FA
    isplitl [FB]; · iexact FB
    isplitl [FC]; · iexact FC
    isplitl [FM]; · iexact FM
    isplitl [SA]; · iexact SA
    isplitl [SB]; · iexact SB
    iexact SC
  · iintro %r ⟨%W'', HO, %hW'', Hmall, HX, HD, HE, HP⟩
    isplitr; · iexact Hmw
    isplitl [HO]
    · iexists W''
      isplitl [HO]; · iexact HO
      ipureintro
      intro p hp
      rcases hW'' p hp with h | h
      · exact hW' p h
      · exact .inr h
    isplitl [Hmall]; · iexact Hmall
    isplitl [HX]; · iexact HX
    isplitl [HD]; · iexact HD
    isplitl [HE]; · iexact HE
    iexact HP

end Cert.Proof.KB

end
-- ==== Proof.KB_ColT4.lean ====
import proofs.«204522_g36051955483029_cont_8to1_b_1192_15_alg».proof.Proof.KB_ColLoop

set_option maxRecDepth 8192
set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords) (k0_t1 : Fin k0_t1_loop.trips) (arg20 : BitVec 32) (k0_h1 : k0_cond1 k0_t1 = 1#1) (k0_h2 : ¬(k0_cond2 k0_t1 = 1#1)) (v61 : BitVec 32) (v75 : F .f32) (v77 : F .f32) (v79 : F .f32) (v81 : F .f32) (v83 : F .f32) (v85 : F .f32) (v87 : F .f32) (v89 : F .f32) (v91 : F .f32) (v93 : F .f32) (v95 : F .f32) (v97 : F .f32) (v99 : F .f32) (v101 : F .f32) (v103 : F .f32) (v105 : F .f32) (v107 : F .f32) (v109 : F .f32) (v111 : F .f32) (v113 : F .f32) (v115 : F .f32) (v117 : F .f32) (v119 : F .f32) (v121 : F .f32) (v123 : F .f32) (v125 : F .f32) (v127 : F .f32) (v129 : F .f32) (v131 : F .f32) (v133 : F .f32) (v135 : F .f32) (v137 : F .f32) (v139 : F .f32) (v141 : F .f32) (v143 : F .f32) (v145 : F .f32) (v147 : F .f32) (v149 : F .f32) (v151 : F .f32) (v153 : F .f32) (v155 : F .f32) (v157 : F .f32) (v159 : F .f32) (v161 : F .f32) (v163 : F .f32) (v165 : F .f32) (v167 : F .f32) (v169 : F .f32) (v171 : F .f32) (v173 : F .f32) (v175 : F .f32) (v177 : F .f32) (v179 : F .f32) (v181 : F .f32) (v183 : F .f32) (v185 : F .f32) (v187 : F .f32) (v189 : F .f32) (v191 : F .f32) (v193 : F .f32) (v195 : F .f32) (v197 : F .f32) (v199 : F .f32) (v201 : F .f32) (v236 : F .f32)

/-- One trip of the loop `k0_t4_loop` at a symbolic trip number. -/
@[irreducible] def trip_t4 (k : Fin k0_t4_loop.trips) :
    TripSpec (F := F) d L (b2) (k0_t4_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236 k ()) := by
  have hk : k.val < 32 := Nat.lt_of_lt_of_le k.isLt k0_t4_abs.2.1
  refine ⟨?_, ?_, fun fb fm => ?run⟩
  case run =>
    unfold k0_t4_body
    iintro ⟨HB, HM⟩
    sl_exec
    sl_step
    sl_close

set_option warn.classDefReducibility false in
/-- The loop's invariant instance. -/
@[sl_loop] def loopInv_t4 (Gb : BufTy.Contents (Elt F) (b2).view.ty) (Gm : BufTy.Contents (Elt F) (meanb).view.ty) :
    Idealize.ShloMosaic.LoopInv (M := MT nD τ sig (HIx 1) (Elt F) ℕ UU ℕ) Idealize.ShloMosaic.frame (wpE (defs₀ (F := F)) 𝒱₀ (thr d L) none) Set.univ
      k0_t4_loop.lb k0_t4_loop.ub k0_t4_loop.st (k0_t4_ok k0_t1 k0_h1 k0_h2) ()
      (k0_t4_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) :=
  colLoop (F := F) d L (b2) (trip_t4 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) Gb Gm

end Cert.Proof.KB

end
-- ==== Proof.KB_ColT5.lean ====
import proofs.«204522_g36051955483029_cont_8to1_b_1192_15_alg».proof.Proof.KB_ColLoop

set_option maxRecDepth 8192
set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords) (k0_t1 : Fin k0_t1_loop.trips) (k0_h1 : k0_cond1 k0_t1 = 1#1) (k0_h2 : ¬k0_cond2 k0_t1 = 1#1) (v75 : F .f32) (v77 : F .f32) (v79 : F .f32) (v81 : F .f32) (v83 : F .f32) (v85 : F .f32) (v87 : F .f32) (v89 : F .f32) (v91 : F .f32) (v93 : F .f32) (v95 : F .f32) (v97 : F .f32) (v99 : F .f32) (v101 : F .f32) (v103 : F .f32) (v105 : F .f32) (v107 : F .f32) (v109 : F .f32) (v111 : F .f32) (v113 : F .f32) (v115 : F .f32) (v117 : F .f32) (v119 : F .f32) (v121 : F .f32) (v123 : F .f32) (v125 : F .f32) (v127 : F .f32) (v129 : F .f32) (v131 : F .f32) (v133 : F .f32) (v135 : F .f32) (v137 : F .f32) (v139 : F .f32) (v141 : F .f32) (v143 : F .f32) (v145 : F .f32) (v147 : F .f32) (v149 : F .f32) (v151 : F .f32) (v153 : F .f32) (v155 : F .f32) (v157 : F .f32) (v159 : F .f32) (v161 : F .f32) (v163 : F .f32) (v165 : F .f32) (v167 : F .f32) (v169 : F .f32) (v171 : F .f32) (v173 : F .f32) (v175 : F .f32) (v177 : F .f32) (v179 : F .f32) (v181 : F .f32) (v183 : F .f32) (v185 : F .f32) (v187 : F .f32) (v189 : F .f32) (v191 : F .f32) (v193 : F .f32) (v195 : F .f32) (v197 : F .f32) (v199 : F .f32) (v201 : F .f32) (v269 : FVec F S16 .f32)

/-- One trip of the loop `k0_t5_loop` at a symbolic trip number. -/
@[irreducible] def trip_t5 (k : Fin k0_t5_loop.trips) :
    TripSpec (F := F) d L (b0) (k0_t5_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269 k ()) := by
  have hk : k.val < 32 := Nat.lt_of_lt_of_le k.isLt k0_t5_abs.2.1
  refine ⟨?_, ?_, fun fb fm => ?run⟩
  case run =>
    unfold k0_t5_body
    iintro ⟨HB, HM⟩
    sl_exec
    sl_step
    sl_close

set_option warn.classDefReducibility false in
/-- The loop's invariant instance. -/
@[sl_loop] def loopInv_t5 (Gb : BufTy.Contents (Elt F) (b0).view.ty) (Gm : BufTy.Contents (Elt F) (meanb).view.ty) :
    Idealize.ShloMosaic.LoopInv (M := MT nD τ sig (HIx 1) (Elt F) ℕ UU ℕ) Idealize.ShloMosaic.frame (wpE (defs₀ (F := F)) 𝒱₀ (thr d L) none) Set.univ
      k0_t5_loop.lb k0_t5_loop.ub k0_t5_loop.st (k0_t5_ok k0_t1 k0_h1 k0_h2) ()
      (k0_t5_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) :=
  colLoop (F := F) d L (b0) (trip_t5 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) Gb Gm

end Cert.Proof.KB

end
-- ==== Proof.KB_TripV1.lean ====
/-
  One trip of the tile's unit loop, at a unit `k` in the middle of the pipeline (`0 < k`, `k + 1 < 16`) whose number
  leaves the remainder 1 on division by three: the staging buffers' roles in such a trip are fixed, A = b2, B = b0,
  C = b1. From the pipeline's state between trips — unit `k`'s two halves in flight into A and B, unit `k − 1`'s
  second half in flight out of C to the difference array, its mean row in flight out of the mean buffer — the trip
  waits for the mean row and for A, computes on A and starts its copy-out, waits for C and prefetches unit `k + 1`'s
  first half into it, waits for B, computes on B and starts its copy-out, waits for A's copy-out and prefetches unit
  `k + 1`'s second half into A, and starts the mean row's copy-out: the pipeline's state for `k + 1`, the roles turned.
  The rows of the difference and mean arrays the tile holds are kept as one points-to each, less the slice in flight.
-/
import proofs.«204522_g36051955483029_cont_8to1_b_1192_15_alg».proof.Proof.KB_Canon
import proofs.«204522_g36051955483029_cont_8to1_b_1192_15_alg».proof.Proof.KB_Slices
import proofs.«204522_g36051955483029_cont_8to1_b_1192_15_alg».proof.Proof.KB_ColT4
import proofs.«204522_g36051955483029_cont_8to1_b_1192_15_alg».proof.Proof.KB_ColT5

set_option maxHeartbeats 8000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords)

theorem trip_v1 (k : Fin k0_t1_loop.trips) (h1 : k0_cond1 k = 1#1) (h2 : ¬ k0_cond2 k = 1#1) (hpos : 0 < k.val) (hlt : k.val + 1 < 16)
    (q : PosShare TreeShare) (O : CellTallies nD τ sig (HIx 1)) (W : Waits sig (HIx 1)) (v3 : BitVec 32) (acc : FVec F S16 .f32)
    (X : Buf (Elt F) ((xV).view.loc (thr d L))) (gM : Buf (Elt F) ((mall).view.loc (thr d L)))
    (fA : Buf (Elt F) ((b2).view.loc (thr d L))) (fB : Buf (Elt F) ((b0).view.loc (thr d L))) (fC : Buf (Elt F) ((b1).view.loc (thr d L)))
    (gm : Buf (Elt F) ((meanb).view.loc (thr d L))) (fd fD : Buf (Elt F) ((dV).view.loc (thr d L))) (fe fE : Buf (Elt F) ((eV).view.loc (thr d L))) :
    (iprop(Transfers.MayWaits (thr d L) (none : HIx 1) O
        ∗ owes (thr d L) O W
        ∗ ((mall).view.loc (thr d L) ↦[(mall).view.set]{fullShare} gM)
        ∗ ((xV).view.loc (thr d L) ↦[(Finset.univ \ (xsl (uo3 L k.val 0) (uo3_inb L k.val 0)).view.set) \ (xsl (uo3 L k.val 512) (uo3_inb L k.val 512)).view.set]{q} X)
        ∗ ((dV).view.loc (thr d L) ↦[dPart (wid L) \ dS L (k.val - 1) 512]{fullShare} fD)
        ∗ ((eV).view.loc (thr d L) ↦[ePart (wid L) \ eS L (k.val - 1)]{fullShare} fE)
        ∗ Transfers.Flight countersEmb (thr d L) (SemLoc.dma cc0_scratch8.sem) (default : HIx 1) 1048576 iprop(((b2).view.loc (thr d L) ↦[(b2).view.set]{fullShare} fA) ∗ ((xV).view.loc (thr d L) ↦[(xsl (uo3 L k.val 0) (uo3_inb L k.val 0)).view.set]{q} X))
        ∗ Transfers.Flight countersEmb (thr d L) (SemLoc.dma cc0_scratch6.sem) (default : HIx 1) 1048576 iprop(((b0).view.loc (thr d L) ↦[(b0).view.set]{fullShare} fB) ∗ ((xV).view.loc (thr d L) ↦[(xsl (uo3 L k.val 512) (uo3_inb L k.val 512)).view.set]{q} X))
        ∗ Transfers.Flight countersEmb (thr d L) (SemLoc.dma cc0_scratch10.sem) (default : HIx 1) 1048576 iprop(((dsl (uo3 L (k.val - 1) 512) (uo3_inb L (k.val - 1) 512)).view.loc (thr d L) ↦[(dsl (uo3 L (k.val - 1) 512) (uo3_inb L (k.val - 1) 512)).view.set]{fullShare} fd) ∗ ((b1).view.loc (thr d L) ↦[(b1).view.set]{fullShare} fC))
        ∗ Transfers.Flight countersEmb (thr d L) (SemLoc.dma cc0_scratch12.sem) (default : HIx 1) 32768 iprop(((esl (uo2 L (k.val - 1)) (uo2_inb L (k.val - 1))).view.loc (thr d L) ↦[(esl (uo2 L (k.val - 1)) (uo2_inb L (k.val - 1))).view.set]{fullShare} fe) ∗ ((meanb).view.loc (thr d L) ↦[(meanb).view.set]{fullShare} gm))
        ∗ semVal ((thr d L), SemLoc.dma cc0_scratch11.sem) 0
        ∗ semVal ((thr d L), SemLoc.dma cc0_scratch9.sem) 0
        ∗ semVal ((thr d L), SemLoc.dma cc0_scratch7.sem) 0) : sProp 𝕄)
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun _ => iprop(∃ W', owes (thr d L) O W' ∗ ⌜∀ p ∈ W', p ∈ W ∨ p.2 = none⌝
                ∗ ((mall).view.loc (thr d L) ↦[(mall).view.set]{fullShare} gM)
            ∗ ((xV).view.loc (thr d L) ↦[(Finset.univ \ (xsl (uo3 L (k.val + 1) 0) (uo3_inb L (k.val + 1) 0)).view.set) \ (xsl (uo3 L (k.val + 1) 512) (uo3_inb L (k.val + 1) 512)).view.set]{q} X)
            ∗ (∃ fD', ((dV).view.loc (thr d L) ↦[dPart (wid L) \ dS L k.val 512]{fullShare} fD'))
            ∗ (∃ fE', ((eV).view.loc (thr d L) ↦[ePart (wid L) \ eS L k.val]{fullShare} fE'))
            ∗ ∃ fA' fB' fC' gm' fd' fe', Transfers.Flight countersEmb (thr d L) (SemLoc.dma cc0_scratch7.sem) (default : HIx 1) 1048576 iprop(((b1).view.loc (thr d L) ↦[(b1).view.set]{fullShare} fA') ∗ ((xV).view.loc (thr d L) ↦[(xsl (uo3 L (k.val + 1) 0) (uo3_inb L (k.val + 1) 0)).view.set]{q} X))
        ∗ Transfers.Flight countersEmb (thr d L) (SemLoc.dma cc0_scratch8.sem) (default : HIx 1) 1048576 iprop(((b2).view.loc (thr d L) ↦[(b2).view.set]{fullShare} fB') ∗ ((xV).view.loc (thr d L) ↦[(xsl (uo3 L (k.val + 1) 512) (uo3_inb L (k.val + 1) 512)).view.set]{q} X))
        ∗ Transfers.Flight countersEmb (thr d L) (SemLoc.dma cc0_scratch9.sem) (default : HIx 1) 1048576 iprop(((dsl (uo3 L k.val 512) (uo3_inb L k.val 512)).view.loc (thr d L) ↦[(dsl (uo3 L k.val 512) (uo3_inb L k.val 512)).view.set]{fullShare} fd') ∗ ((b0).view.loc (thr d L) ↦[(b0).view.set]{fullShare} fC'))
        ∗ Transfers.Flight countersEmb (thr d L) (SemLoc.dma cc0_scratch12.sem) (default : HIx 1) 32768 iprop(((esl (uo2 L k.val) (uo2_inb L k.val)).view.loc (thr d L) ↦[(esl (uo2 L k.val) (uo2_inb L k.val)).view.set]{fullShare} fe') ∗ ((meanb).view.loc (thr d L) ↦[(meanb).view.set]{fullShare} gm'))
        ∗ semVal ((thr d L), SemLoc.dma cc0_scratch10.sem) 0
        ∗ semVal ((thr d L), SemLoc.dma cc0_scratch11.sem) 0
        ∗ semVal ((thr d L), SemLoc.dma cc0_scratch6.sem) 0) := by
  have hc7 : k0_cond7 k = 1#1 := (cond7_iff k).mpr hpos
  have hc8 : k0_cond8 k = 1#1 := (cond8_iff k).mpr hlt
  have hc9 : k0_cond9 k = 1#1 := (cond9_iff k).mpr hpos
  have hc10 : k0_cond10 k = 1#1 := (cond10_iff k).mpr hlt
  -- the printed offsets of this trip's slices are the canonical ones
  have exA : k0_off151 L k = uo3 L k.val 0 := by rw [k0_off151_eq, uo3_of_le L (by omega) (by omega)]; rfl
  have exB : k0_off219 L k = uo3 L k.val 512 := by rw [k0_off219_eq, uo3_of_le L (by omega) (by omega)]; rfl
  have exC : k0_off218 L k = uo3 L (k.val + 1) 0 := by rw [k0_off218_eq, uo3_of_le L (by omega) (by omega)]; rfl
  have exA2 : k0_off286 L k = uo3 L (k.val + 1) 512 := by rw [k0_off286_eq, uo3_of_le L (by omega) (by omega)]; rfl
  have eeO : k0_off287 L k = uo2 L k.val := by rw [k0_off287_eq, uo2_of_le L (by omega)]; rfl
  iintro ⟨#Hmw, HO, Hmall, HX, HD, HE, FA, FB, FC, FM, SA, SB, SC⟩

  -- this trip's two half blocks of the difference array and its mean row, carved out of the tile's rows
  have hsub0 : dS L k.val 0 ⊆ dPart (wid L) \ dS L (k.val - 1) 512 :=
    Finset.subset_sdiff.mpr ⟨dS_subset L k.val 0 (.inl rfl), dS_disjoint L (by omega) (by omega) (.inl rfl) (.inr rfl) (.inl (by omega))⟩
  have hsub1 : dS L k.val 512 ⊆ (dPart (wid L) \ dS L (k.val - 1) 512) \ dS L k.val 0 :=
    Finset.subset_sdiff.mpr ⟨Finset.subset_sdiff.mpr ⟨dS_subset L k.val 512 (.inr rfl), dS_disjoint L (by omega) (by omega) (.inr rfl) (.inr rfl) (.inl (by omega))⟩,
      dS_disjoint L (by omega) (by omega) (.inr rfl) (.inl rfl) (.inr (by decide))⟩
  have hsubE : eS L k.val ⊆ ePart (wid L) \ eS L (k.val - 1) :=
    Finset.subset_sdiff.mpr ⟨eS_subset L k.val, eS_disjoint L (by omega) (by omega) (by omega)⟩
  ihave HD' := (pointsTo_split_subset hsub0).1 $$ HD
  icases HD' with ⟨HD0, HD⟩
  ihave HD' := (pointsTo_split_subset hsub1).1 $$ HD
  icases HD' with ⟨HD1, HD⟩
  ihave HE' := (pointsTo_split_subset hsubE).1 $$ HE
  icases HE' with ⟨HE0, HE⟩
  -- … in the kernel's own spelling of those slices
  have hs0 : dS L k.val 0 = (dsl (k0_off151 L k) (k0_off151_inb L k h1 h2)).view.set := dset_congr exA.symm _ _
  have hs1 : dS L k.val 512 = (dsl (k0_off219 L k) (k0_off219_inb L k h1 h2)).view.set := dset_congr exB.symm _ _
  have hsE : eS L k.val = (esl (k0_off287 L k) (k0_off287_inb L k h1 h2)).view.set := eset_congr eeO.symm _ _
  have e0 : (((dV).view.loc (thr d L) ↦[dS L k.val 0]{fullShare} fD : sProp 𝕄))
      = ((dsl (k0_off151 L k) (k0_off151_inb L k h1 h2)).view.loc (thr d L) ↦[(dsl (k0_off151 L k) (k0_off151_inb L k h1 h2)).view.set]{fullShare} fD) := by
    rw [hs0]
  have e1 : (((dV).view.loc (thr d L) ↦[dS L k.val 512]{fullShare} fD : sProp 𝕄))
      = ((dsl (k0_off219 L k) (k0_off219_inb L k h1 h2)).view.loc (thr d L) ↦[(dsl (k0_off219 L k) (k0_off219_inb L k h1 h2)).view.set]{fullShare} fD) := by
    rw [hs1]
  have eE : (((eV).view.loc (thr d L) ↦[eS L k.val]{fullShare} fE : sProp 𝕄))
      = ((esl (k0_off287 L k) (k0_off287_inb L k h1 h2)).view.loc (thr d L) ↦[(esl (k0_off287 L k) (k0_off287_inb L k h1 h2)).view.set]{fullShare} fE) := by
    rw [hsE]
  ihave HD0' := (Entails.of_eq e0) $$ HD0
  ihave HD1' := (Entails.of_eq e1) $$ HD1
  ihave HE0' := (Entails.of_eq eE) $$ HE0
  sl_unfold [k0_t1_body]
  sl_exec

  sl_step
  -- the flights this trip leaves, over the canonical slices
  have pSC : ∀ g, (iprop(((b1).view.loc (thr d L) ↦[(b1).view.set]{fullShare} g) ∗ ((xV).view.loc (thr d L) ↦[(xsl (k0_off218 L k) (k0_off218_inb L k h1 h2 hc8)).view.set]{q} X)) : sProp 𝕄)
      = iprop(((b1).view.loc (thr d L) ↦[(b1).view.set]{fullShare} g) ∗ ((xV).view.loc (thr d L) ↦[(xsl (uo3 L (k.val + 1) 0) (uo3_inb L (k.val + 1) 0)).view.set]{q} X)) := fun g => by
    rw [xset_congr exC _ (uo3_inb L (k.val + 1) 0)]
  have pFA : ∀ g, (iprop(((b2).view.loc (thr d L) ↦[(b2).view.set]{fullShare} g) ∗ ((xV).view.loc (thr d L) ↦[(xsl (k0_off286 L k) (k0_off286_inb L k h1 h2 hc10)).view.set]{q} X)) : sProp 𝕄)
      = iprop(((b2).view.loc (thr d L) ↦[(b2).view.set]{fullShare} g) ∗ ((xV).view.loc (thr d L) ↦[(xsl (uo3 L (k.val + 1) 512) (uo3_inb L (k.val + 1) 512)).view.set]{q} X)) := fun g => by
    rw [xset_congr exA2 _ (uo3_inb L (k.val + 1) 512)]
  have pSB : ∀ g g', (iprop(((dsl (k0_off219 L k) (k0_off219_inb L k h1 h2)).view.loc (thr d L) ↦[(dsl (k0_off219 L k) (k0_off219_inb L k h1 h2)).view.set]{fullShare} g) ∗ ((b0).view.loc (thr d L) ↦[(b0).view.set]{fullShare} g')) : sProp 𝕄)
      = iprop(((dsl (uo3 L k.val 512) (uo3_inb L k.val 512)).view.loc (thr d L) ↦[(dsl (uo3 L k.val 512) (uo3_inb L k.val 512)).view.set]{fullShare} g) ∗ ((b0).view.loc (thr d L) ↦[(b0).view.set]{fullShare} g')) := fun g g' => by
    rw [← hs1]
  have pFM : ∀ g g', (iprop(((esl (k0_off287 L k) (k0_off287_inb L k h1 h2)).view.loc (thr d L) ↦[(esl (k0_off287 L k) (k0_off287_inb L k h1 h2)).view.set]{fullShare} g) ∗ ((meanb).view.loc (thr d L) ↦[(meanb).view.set]{fullShare} g')) : sProp 𝕄)
      = iprop(((esl (uo2 L k.val) (uo2_inb L k.val)).view.loc (thr d L) ↦[(esl (uo2 L k.val) (uo2_inb L k.val)).view.set]{fullShare} g) ∗ ((meanb).view.loc (thr d L) ↦[(meanb).view.set]{fullShare} g')) := fun g g' => by
    rw [← hsE]
  ihave SC' := (Transfers.Flight_mono countersEmb (thr d L) (Entails.of_eq (pSC _))) $$ SC
  ihave FA' := (Transfers.Flight_mono countersEmb (thr d L) (Entails.of_eq (pFA _))) $$ FA
  ihave SB' := (Transfers.Flight_mono countersEmb (thr d L) (Entails.of_eq (pSB _ _))) $$ SB
  ihave FM' := (Transfers.Flight_mono countersEmb (thr d L) (Entails.of_eq (pFM _ _))) $$ FM
  -- the waits recorded
  iexists _
  isplitl [HO]; · iexact HO
  isplitr
  · ipureintro
    intro p hp
    simp only [Finset.mem_insert] at hp
    rcases hp with (rfl | rfl | rfl | rfl | rfl | hp) <;> first | exact .inr rfl | exact .inl hp
  isplitl [Hmall]; · iexact Hmall
  -- the states array less unit k+1's two halves, now in flight
  isplitl [HX]
  · have hx : (((xV).view.loc (thr d L) ↦[(Finset.univ \ (xsl (k0_off218 L k) (k0_off218_inb L k h1 h2 hc8)).view.set) \ (xsl (k0_off286 L k) (k0_off286_inb L k h1 h2 hc10)).view.set]{q} X : sProp 𝕄))
        = ((xV).view.loc (thr d L) ↦[(Finset.univ \ (xsl (uo3 L (k.val + 1) 0) (uo3_inb L (k.val + 1) 0)).view.set) \ (xsl (uo3 L (k.val + 1) 512) (uo3_inb L (k.val + 1) 512)).view.set]{q} X) := by
      rw [xset_congr exC _ (uo3_inb L (k.val + 1) 0), xset_congr exA2 _ (uo3_inb L (k.val + 1) 512)]
    iapply (Entails.of_eq hx); iexact HX
  -- the difference array's rows: unit k−1's second half and unit k's first are back, unit k's second half is out
  isplitl [HD FC_dst HD0']
  · have hb : dS L k.val 0 ⊆ (dPart (wid L) \ dS L (k.val - 1) 512) \ dS L k.val 512 :=
      Finset.subset_sdiff.mpr ⟨hsub0, dS_disjoint L (by omega) (by omega) (.inl rfl) (.inr rfl) (.inr (by decide))⟩
    have ha : dS L (k.val - 1) 512 ⊆ dPart (wid L) \ dS L k.val 512 :=
      Finset.subset_sdiff.mpr ⟨dS_subset L (k.val - 1) 512 (.inr rfl), dS_disjoint L (by omega) (by omega) (.inr rfl) (.inr rfl) (.inl (by omega))⟩
    have hset1 : ((dPart (wid L) \ dS L (k.val - 1) 512) \ dS L k.val 0) \ dS L k.val 512
        = ((dPart (wid L) \ dS L (k.val - 1) 512) \ dS L k.val 512) \ dS L k.val 0 := sdiff_right_comm _ _ _
    have hset2 : (dPart (wid L) \ dS L (k.val - 1) 512) \ dS L k.val 512
        = (dPart (wid L) \ dS L k.val 512) \ dS L (k.val - 1) 512 := sdiff_right_comm _ _ _
    rw [hset1]
    have e0' : ∀ g, (((dsl (k0_off151 L k) (k0_off151_inb L k h1 h2)).view.loc (thr d L) ↦[(dsl (k0_off151 L k) (k0_off151_inb L k h1 h2)).view.set]{fullShare} g) : sProp 𝕄) = ((dV).view.loc (thr d L) ↦[dS L k.val 0]{fullShare} g) := fun g => by rw [hs0]
    ihave H0 := (Entails.of_eq (e0' _)) $$ HD0'
    ihave H1 := (pointsTo_join_subset (ℓ := (dV).view.loc (thr d L)) hb) $$ [H0 HD]
    · isplitl [H0]; · iexact H0
      iexact HD
    rw [hset2]
    ihave H2 := (pointsTo_join_subset (ℓ := (dV).view.loc (thr d L)) ha) $$ [FC_dst H1]
    · isplitl [FC_dst]; · iexact FC_dst
      iexact H1
    iexists _; iexact H2
  -- the mean array's rows: unit k−1's is back, unit k's is out
  isplitl [HE FM_dst]
  · have ha : eS L (k.val - 1) ⊆ ePart (wid L) \ eS L k.val :=
      Finset.subset_sdiff.mpr ⟨eS_subset L (k.val - 1), eS_disjoint L (by omega) (by omega) (by omega)⟩
    have hset : (ePart (wid L) \ eS L (k.val - 1)) \ eS L k.val = (ePart (wid L) \ eS L k.val) \ eS L (k.val - 1) := sdiff_right_comm _ _ _
    rw [hset]
    ihave H2 := (pointsTo_join_subset (ℓ := (eV).view.loc (thr d L)) ha) $$ [FM_dst HE]
    · isplitl [FM_dst]; · iexact FM_dst
      iexact HE
    iexists _; iexact H2
  -- the pipeline for unit k+1
  iexists _, _, _, _, _, _
  isplitl [SC']; · iexact SC'
  isplitl [FA']; · iexact FA'
  isplitl [SB']; · iexact SB'
  isplitl [FM']; · iexact FM'
  isplitl [FC]; · iexact FC
  isplitl [SA]; · iexact SA
  iexact FB

end Cert.Proof.KB

end
-- ==== Proof.KB_StepV1.lean ====
/-
  The unit loop's invariant is kept by a trip in the middle of the pipeline whose unit number leaves the remainder 1
  on division by three: the invariant before the trip, opened at that remainder, is the trip's precondition, and
  what the trip leaves is the invariant at the next number, whose remainder is 2.
-/
import proofs.«204522_g36051955483029_cont_8to1_b_1192_15_alg».proof.Proof.KB_Inv
import proofs.«204522_g36051955483029_cont_8to1_b_1192_15_alg».proof.Proof.KB_TripV1

set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords)

theorem step_v1 (k : Fin k0_t1_loop.trips) (h1 : k0_cond1 k = 1#1) (h2 : ¬ k0_cond2 k = 1#1) (hpos : 0 < k.val) (hlt : k.val + 1 < 16)
    (q : PosShare TreeShare) (X : Buf (Elt F) ((xV).view.loc (thr d L))) (O : CellTallies nD τ sig (HIx 1)) (W : Waits sig (HIx 1))
    (gM : Buf (Elt F) ((mall).view.loc (thr d L))) (v3 : BitVec 32) (acc : FVec F S16 .f32) :
    inv (F := F) d L q X O W gM k.val acc
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => inv (F := F) d L q X O W gM (k.val + 1) r := by
  have hmod : k.val % 3 = 1 := (cond1n2_mod k).mp ⟨h1, h2⟩
  have hmod' : (k.val + 1) % 3 = 2 := by omega
  have hp0 : pipe (F := F) d L q X k.val = pipeMid1 (F := F) d L q X k.val := by
    unfold pipe; simp [hmod, show k.val ≠ 0 by omega, show ¬ 16 ≤ k.val by omega]
  have hp1 : pipe (F := F) d L q X (k.val + 1) = pipeMid2 (F := F) d L q X (k.val + 1) := by
    unfold pipe; simp [hmod', show ¬ 16 ≤ k.val + 1 by omega]
  have hx0 : xRest (F := F) d L q X k.val = ((xV).view.loc (thr d L) ↦[(Finset.univ \ (xsl (uo3 L k.val 0) (uo3_inb L k.val 0)).view.set) \ (xsl (uo3 L k.val 512) (uo3_inb L k.val 512)).view.set]{q} X) := by
    unfold xRest; rw [if_pos (by omega)]
  have hx1 : xRest (F := F) d L q X (k.val + 1) = ((xV).view.loc (thr d L) ↦[(Finset.univ \ (xsl (uo3 L (k.val + 1) 0) (uo3_inb L (k.val + 1) 0)).view.set) \ (xsl (uo3 L (k.val + 1) 512) (uo3_inb L (k.val + 1) 512)).view.set]{q} X) := by
    unfold xRest; rw [if_pos (by omega)]
  have hd0 : lentD L k.val = dS L (k.val - 1) 512 := by unfold lentD; rw [if_neg (by omega), if_pos (by omega)]
  have hd1 : lentD L (k.val + 1) = dS L k.val 512 := by unfold lentD; rw [if_neg (by omega), if_pos (by omega)]; rfl
  have he0 : lentE L k.val = eS L (k.val - 1) := by unfold lentE; rw [if_neg (by omega)]
  have he1 : lentE L (k.val + 1) = eS L k.val := by unfold lentE; rw [if_neg (by omega)]; rfl
  unfold inv
  rw [hp0, hp1, hx0, hx1, hd0, hd1, he0, he1]
  unfold pipeMid1 pipeMid2
  simp only [Nat.add_sub_cancel]
  iintro ⟨#Hmw, ⟨%W', HO, %hW'⟩, Hmall, HX, ⟨%fD, HD⟩, ⟨%fE, HE⟩, ⟨%fA, %fB, %fC, %gm, %fd, %fe, FA, FB, FC, FM, SA, SB, SC⟩⟩
  iapply (wp_wand_r Idealize.ShloMosaic.frame (wpE (defs₀ (F := F)) 𝒱₀ (thr d L) none) Set.univ)
  isplitl [HO Hmall HX HD HE FA FB FC FM SA SB SC]
  · iapply (trip_v1 (F := F) d L k h1 h2 hpos hlt q O W' v3 acc X gM fA fB fC gm fd fD fe fE)
    isplitr; · iexact Hmw
    isplitl [HO]; · iexact HO
    isplitl [Hmall]; · iexact Hmall
    isplitl [HX]; · iexact HX
    isplitl [HD]; · iexact HD
    isplitl [HE]; · iexact HE
    isplitl [FA]; · iexact FA
    isplitl [FB]; · iexact FB
    isplitl [FC]; · iexact FC
    isplitl [FM]; · iexact FM
    isplitl [SA]; · iexact SA
    isplitl [SB]; · iexact SB
    iexact SC
  · iintro %r ⟨%W'', HO, %hW'', Hmall, HX, HD, HE, HP⟩
    isplitr; · iexact Hmw
    isplitl [HO]
    · iexists W''
      isplitl [HO]; · iexact HO
      ipureintro
      intro p hp
      rcases hW'' p hp with h | h
      · exact hW' p h
      · exact .inr h
    isplitl [Hmall]; · iexact Hmall
    isplitl [HX]; · iexact HX
    isplitl [HD]; · iexact HD
    isplitl [HE]; · iexact HE
    iexact HP

end Cert.Proof.KB

end
-- ==== Proof.KB_ColT2.lean ====
import proofs.«204522_g36051955483029_cont_8to1_b_1192_15_alg».proof.Proof.KB_ColLoop

set_option maxRecDepth 8192
set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords) (k0_t1 : Fin k0_t1_loop.trips) (arg20 : BitVec 32) (k0_h1 : k0_cond1 k0_t1 = 1#1) (k0_h2 : k0_cond2 k0_t1 = 1#1) (v61 : BitVec 32) (v75 : F .f32) (v77 : F .f32) (v79 : F .f32) (v81 : F .f32) (v83 : F .f32) (v85 : F .f32) (v87 : F .f32) (v89 : F .f32) (v91 : F .f32) (v93 : F .f32) (v95 : F .f32) (v97 : F .f32) (v99 : F .f32) (v101 : F .f32) (v103 : F .f32) (v105 : F .f32) (v107 : F .f32) (v109 : F .f32) (v111 : F .f32) (v113 : F .f32) (v115 : F .f32) (v117 : F .f32) (v119 : F .f32) (v121 : F .f32) (v123 : F .f32) (v125 : F .f32) (v127 : F .f32) (v129 : F .f32) (v131 : F .f32) (v133 : F .f32) (v135 : F .f32) (v137 : F .f32) (v139 : F .f32) (v141 : F .f32) (v143 : F .f32) (v145 : F .f32) (v147 : F .f32) (v149 : F .f32) (v151 : F .f32) (v153 : F .f32) (v155 : F .f32) (v157 : F .f32) (v159 : F .f32) (v161 : F .f32) (v163 : F .f32) (v165 : F .f32) (v167 : F .f32) (v169 : F .f32) (v171 : F .f32) (v173 : F .f32) (v175 : F .f32) (v177 : F .f32) (v179 : F .f32) (v181 : F .f32) (v183 : F .f32) (v185 : F .f32) (v187 : F .f32) (v189 : F .f32) (v191 : F .f32) (v193 : F .f32) (v195 : F .f32) (v197 : F .f32) (v199 : F .f32) (v201 : F .f32) (v236 : F .f32)

/-- One trip of the loop `k0_t2_loop` at a symbolic trip number. -/
@[irreducible] def trip_t2 (k : Fin k0_t2_loop.trips) :
    TripSpec (F := F) d L (b1) (k0_t2_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236 k ()) := by
  have hk : k.val < 32 := Nat.lt_of_lt_of_le k.isLt k0_t2_abs.2.1
  refine ⟨?_, ?_, fun fb fm => ?run⟩
  case run =>
    unfold k0_t2_body
    iintro ⟨HB, HM⟩
    sl_exec
    sl_step
    sl_close

set_option warn.classDefReducibility false in
/-- The loop's invariant instance. -/
@[sl_loop] def loopInv_t2 (Gb : BufTy.Contents (Elt F) (b1).view.ty) (Gm : BufTy.Contents (Elt F) (meanb).view.ty) :
    Idealize.ShloMosaic.LoopInv (M := MT nD τ sig (HIx 1) (Elt F) ℕ UU ℕ) Idealize.ShloMosaic.frame (wpE (defs₀ (F := F)) 𝒱₀ (thr d L) none) Set.univ
      k0_t2_loop.lb k0_t2_loop.ub k0_t2_loop.st (k0_t2_ok k0_t1 k0_h1 k0_h2) ()
      (k0_t2_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) :=
  colLoop (F := F) d L (b1) (trip_t2 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) Gb Gm

end Cert.Proof.KB

end
-- ==== Proof.KB_ColT3.lean ====
import proofs.«204522_g36051955483029_cont_8to1_b_1192_15_alg».proof.Proof.KB_ColLoop

set_option maxRecDepth 8192
set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords) (k0_t1 : Fin k0_t1_loop.trips) (k0_h1 : k0_cond1 k0_t1 = 1#1) (k0_h2 : k0_cond2 k0_t1 = 1#1) (v75 : F .f32) (v77 : F .f32) (v79 : F .f32) (v81 : F .f32) (v83 : F .f32) (v85 : F .f32) (v87 : F .f32) (v89 : F .f32) (v91 : F .f32) (v93 : F .f32) (v95 : F .f32) (v97 : F .f32) (v99 : F .f32) (v101 : F .f32) (v103 : F .f32) (v105 : F .f32) (v107 : F .f32) (v109 : F .f32) (v111 : F .f32) (v113 : F .f32) (v115 : F .f32) (v117 : F .f32) (v119 : F .f32) (v121 : F .f32) (v123 : F .f32) (v125 : F .f32) (v127 : F .f32) (v129 : F .f32) (v131 : F .f32) (v133 : F .f32) (v135 : F .f32) (v137 : F .f32) (v139 : F .f32) (v141 : F .f32) (v143 : F .f32) (v145 : F .f32) (v147 : F .f32) (v149 : F .f32) (v151 : F .f32) (v153 : F .f32) (v155 : F .f32) (v157 : F .f32) (v159 : F .f32) (v161 : F .f32) (v163 : F .f32) (v165 : F .f32) (v167 : F .f32) (v169 : F .f32) (v171 : F .f32) (v173 : F .f32) (v175 : F .f32) (v177 : F .f32) (v179 : F .f32) (v181 : F .f32) (v183 : F .f32) (v185 : F .f32) (v187 : F .f32) (v189 : F .f32) (v191 : F .f32) (v193 : F .f32) (v195 : F .f32) (v197 : F .f32) (v199 : F .f32) (v201 : F .f32) (v269 : FVec F S16 .f32)

/-- One trip of the loop `k0_t3_loop` at a symbolic trip number. -/
@[irreducible] def trip_t3 (k : Fin k0_t3_loop.trips) :
    TripSpec (F := F) d L (b2) (k0_t3_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269 k ()) := by
  have hk : k.val < 32 := Nat.lt_of_lt_of_le k.isLt k0_t3_abs.2.1
  refine ⟨?_, ?_, fun fb fm => ?run⟩
  case run =>
    unfold k0_t3_body
    iintro ⟨HB, HM⟩
    sl_exec
    sl_step
    sl_close

set_option warn.classDefReducibility false in
/-- The loop's invariant instance. -/
@[sl_loop] def loopInv_t3 (Gb : BufTy.Contents (Elt F) (b2).view.ty) (Gm : BufTy.Contents (Elt F) (meanb).view.ty) :
    Idealize.ShloMosaic.LoopInv (M := MT nD τ sig (HIx 1) (Elt F) ℕ UU ℕ) Idealize.ShloMosaic.frame (wpE (defs₀ (F := F)) 𝒱₀ (thr d L) none) Set.univ
      k0_t3_loop.lb k0_t3_loop.ub k0_t3_loop.st (k0_t3_ok k0_t1 k0_h1 k0_h2) ()
      (k0_t3_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) :=
  colLoop (F := F) d L (b2) (trip_t3 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) Gb Gm

end Cert.Proof.KB

end
-- ==== Proof.KB_TripV2.lean ====
/-
  One trip of the tile's unit loop, at a unit `k` in the middle of the pipeline (`0 < k`, `k + 1 < 16`) whose number
  leaves the remainder 2 on division by three: the staging buffers' roles in such a trip are fixed, A = b1, B = b2,
  C = b0. From the pipeline's state between trips — unit `k`'s two halves in flight into A and B, unit `k − 1`'s
  second half in flight out of C to the difference array, its mean row in flight out of the mean buffer — the trip
  waits for the mean row and for A, computes on A and starts its copy-out, waits for C and prefetches unit `k + 1`'s
  first half into it, waits for B, computes on B and starts its copy-out, waits for A's copy-out and prefetches unit
  `k + 1`'s second half into A, and starts the mean row's copy-out: the pipeline's state for `k + 1`, the roles turned.
  The rows of the difference and mean arrays the tile holds are kept as one points-to each, less the slice in flight.
-/
import proofs.«204522_g36051955483029_cont_8to1_b_1192_15_alg».proof.Proof.KB_Canon
import proofs.«204522_g36051955483029_cont_8to1_b_1192_15_alg».proof.Proof.KB_Slices
import proofs.«204522_g36051955483029_cont_8to1_b_1192_15_alg».proof.Proof.KB_ColT2
import proofs.«204522_g36051955483029_cont_8to1_b_1192_15_alg».proof.Proof.KB_ColT3

set_option maxHeartbeats 8000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords)

theorem trip_v2 (k : Fin k0_t1_loop.trips) (h1 : k0_cond1 k = 1#1) (h2 : k0_cond2 k = 1#1) (hpos : 0 < k.val) (hlt : k.val + 1 < 16)
    (q : PosShare TreeShare) (O : CellTallies nD τ sig (HIx 1)) (W : Waits sig (HIx 1)) (v3 : BitVec 32) (acc : FVec F S16 .f32)
    (X : Buf (Elt F) ((xV).view.loc (thr d L))) (gM : Buf (Elt F) ((mall).view.loc (thr d L)))
    (fA : Buf (Elt F) ((b1).view.loc (thr d L))) (fB : Buf (Elt F) ((b2).view.loc (thr d L))) (fC : Buf (Elt F) ((b0).view.loc (thr d L)))
    (gm : Buf (Elt F) ((meanb).view.loc (thr d L))) (fd fD : Buf (Elt F) ((dV).view.loc (thr d L))) (fe fE : Buf (Elt F) ((eV).view.loc (thr d L))) :
    (iprop(Transfers.MayWaits (thr d L) (none : HIx 1) O
        ∗ owes (thr d L) O W
        ∗ ((mall).view.loc (thr d L) ↦[(mall).view.set]{fullShare} gM)
        ∗ ((xV).view.loc (thr d L) ↦[(Finset.univ \ (xsl (uo3 L k.val 0) (uo3_inb L k.val 0)).view.set) \ (xsl (uo3 L k.val 512) (uo3_inb L k.val 512)).view.set]{q} X)
        ∗ ((dV).view.loc (thr d L) ↦[dPart (wid L) \ dS L (k.val - 1) 512]{fullShare} fD)
        ∗ ((eV).view.loc (thr d L) ↦[ePart (wid L) \ eS L (k.val - 1)]{fullShare} fE)
        ∗ Transfers.Flight countersEmb (thr d L) (SemLoc.dma cc0_scratch7.sem) (default : HIx 1) 1048576 iprop(((b1).view.loc (thr d L) ↦[(b1).view.set]{fullShare} fA) ∗ ((xV).view.loc (thr d L) ↦[(xsl (uo3 L k.val 0) (uo3_inb L k.val 0)).view.set]{q} X))
        ∗ Transfers.Flight countersEmb (thr d L) (SemLoc.dma cc0_scratch8.sem) (default : HIx 1) 1048576 iprop(((b2).view.loc (thr d L) ↦[(b2).view.set]{fullShare} fB) ∗ ((xV).view.loc (thr d L) ↦[(xsl (uo3 L k.val 512) (uo3_inb L k.val 512)).view.set]{q} X))
        ∗ Transfers.Flight countersEmb (thr d L) (SemLoc.dma cc0_scratch9.sem) (default : HIx 1) 1048576 iprop(((dsl (uo3 L (k.val - 1) 512) (uo3_inb L (k.val - 1) 512)).view.loc (thr d L) ↦[(dsl (uo3 L (k.val - 1) 512) (uo3_inb L (k.val - 1) 512)).view.set]{fullShare} fd) ∗ ((b0).view.loc (thr d L) ↦[(b0).view.set]{fullShare} fC))
        ∗ Transfers.Flight countersEmb (thr d L) (SemLoc.dma cc0_scratch12.sem) (default : HIx 1) 32768 iprop(((esl (uo2 L (k.val - 1)) (uo2_inb L (k.val - 1))).view.loc (thr d L) ↦[(esl (uo2 L (k.val - 1)) (uo2_inb L (k.val - 1))).view.set]{fullShare} fe) ∗ ((meanb).view.loc (thr d L) ↦[(meanb).view.set]{fullShare} gm))
        ∗ semVal ((thr d L), SemLoc.dma cc0_scratch10.sem) 0
        ∗ semVal ((thr d L), SemLoc.dma cc0_scratch11.sem) 0
        ∗ semVal ((thr d L), SemLoc.dma cc0_scratch6.sem) 0) : sProp 𝕄)
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun _ => iprop(∃ W', owes (thr d L) O W' ∗ ⌜∀ p ∈ W', p ∈ W ∨ p.2 = none⌝
                ∗ ((mall).view.loc (thr d L) ↦[(mall).view.set]{fullShare} gM)
            ∗ ((xV).view.loc (thr d L) ↦[(Finset.univ \ (xsl (uo3 L (k.val + 1) 0) (uo3_inb L (k.val + 1) 0)).view.set) \ (xsl (uo3 L (k.val + 1) 512) (uo3_inb L (k.val + 1) 512)).view.set]{q} X)
            ∗ (∃ fD', ((dV).view.loc (thr d L) ↦[dPart (wid L) \ dS L k.val 512]{fullShare} fD'))
            ∗ (∃ fE', ((eV).view.loc (thr d L) ↦[ePart (wid L) \ eS L k.val]{fullShare} fE'))
            ∗ ∃ fA' fB' fC' gm' fd' fe', Transfers.Flight countersEmb (thr d L) (SemLoc.dma cc0_scratch6.sem) (default : HIx 1) 1048576 iprop(((b0).view.loc (thr d L) ↦[(b0).view.set]{fullShare} fA') ∗ ((xV).view.loc (thr d L) ↦[(xsl (uo3 L (k.val + 1) 0) (uo3_inb L (k.val + 1) 0)).view.set]{q} X))
        ∗ Transfers.Flight countersEmb (thr d L) (SemLoc.dma cc0_scratch7.sem) (default : HIx 1) 1048576 iprop(((b1).view.loc (thr d L) ↦[(b1).view.set]{fullShare} fB') ∗ ((xV).view.loc (thr d L) ↦[(xsl (uo3 L (k.val + 1) 512) (uo3_inb L (k.val + 1) 512)).view.set]{q} X))
        ∗ Transfers.Flight countersEmb (thr d L) (SemLoc.dma cc0_scratch11.sem) (default : HIx 1) 1048576 iprop(((dsl (uo3 L k.val 512) (uo3_inb L k.val 512)).view.loc (thr d L) ↦[(dsl (uo3 L k.val 512) (uo3_inb L k.val 512)).view.set]{fullShare} fd') ∗ ((b2).view.loc (thr d L) ↦[(b2).view.set]{fullShare} fC'))
        ∗ Transfers.Flight countersEmb (thr d L) (SemLoc.dma cc0_scratch12.sem) (default : HIx 1) 32768 iprop(((esl (uo2 L k.val) (uo2_inb L k.val)).view.loc (thr d L) ↦[(esl (uo2 L k.val) (uo2_inb L k.val)).view.set]{fullShare} fe') ∗ ((meanb).view.loc (thr d L) ↦[(meanb).view.set]{fullShare} gm'))
        ∗ semVal ((thr d L), SemLoc.dma cc0_scratch9.sem) 0
        ∗ semVal ((thr d L), SemLoc.dma cc0_scratch10.sem) 0
        ∗ semVal ((thr d L), SemLoc.dma cc0_scratch8.sem) 0) := by
  have hc3 : k0_cond3 k = 1#1 := (cond3_iff k).mpr hpos
  have hc4 : k0_cond4 k = 1#1 := (cond4_iff k).mpr hlt
  have hc5 : k0_cond5 k = 1#1 := (cond5_iff k).mpr hpos
  have hc6 : k0_cond6 k = 1#1 := (cond6_iff k).mpr hlt
  -- the printed offsets of this trip's slices are the canonical ones
  have exA : k0_off9 L k = uo3 L k.val 0 := by rw [k0_off9_eq, uo3_of_le L (by omega) (by omega)]; rfl
  have exB : k0_off77 L k = uo3 L k.val 512 := by rw [k0_off77_eq, uo3_of_le L (by omega) (by omega)]; rfl
  have exC : k0_off76 L k = uo3 L (k.val + 1) 0 := by rw [k0_off76_eq, uo3_of_le L (by omega) (by omega)]; rfl
  have exA2 : k0_off144 L k = uo3 L (k.val + 1) 512 := by rw [k0_off144_eq, uo3_of_le L (by omega) (by omega)]; rfl
  have eeO : k0_off145 L k = uo2 L k.val := by rw [k0_off145_eq, uo2_of_le L (by omega)]; rfl
  iintro ⟨#Hmw, HO, Hmall, HX, HD, HE, FA, FB, FC, FM, SA, SB, SC⟩

  -- this trip's two half blocks of the difference array and its mean row, carved out of the tile's rows
  have hsub0 : dS L k.val 0 ⊆ dPart (wid L) \ dS L (k.val - 1) 512 :=
    Finset.subset_sdiff.mpr ⟨dS_subset L k.val 0 (.inl rfl), dS_disjoint L (by omega) (by omega) (.inl rfl) (.inr rfl) (.inl (by omega))⟩
  have hsub1 : dS L k.val 512 ⊆ (dPart (wid L) \ dS L (k.val - 1) 512) \ dS L k.val 0 :=
    Finset.subset_sdiff.mpr ⟨Finset.subset_sdiff.mpr ⟨dS_subset L k.val 512 (.inr rfl), dS_disjoint L (by omega) (by omega) (.inr rfl) (.inr rfl) (.inl (by omega))⟩,
      dS_disjoint L (by omega) (by omega) (.inr rfl) (.inl rfl) (.inr (by decide))⟩
  have hsubE : eS L k.val ⊆ ePart (wid L) \ eS L (k.val - 1) :=
    Finset.subset_sdiff.mpr ⟨eS_subset L k.val, eS_disjoint L (by omega) (by omega) (by omega)⟩
  ihave HD' := (pointsTo_split_subset hsub0).1 $$ HD
  icases HD' with ⟨HD0, HD⟩
  ihave HD' := (pointsTo_split_subset hsub1).1 $$ HD
  icases HD' with ⟨HD1, HD⟩
  ihave HE' := (pointsTo_split_subset hsubE).1 $$ HE
  icases HE' with ⟨HE0, HE⟩
  -- … in the kernel's own spelling of those slices
  have hs0 : dS L k.val 0 = (dsl (k0_off9 L k) (k0_off9_inb L k h1 h2)).view.set := dset_congr exA.symm _ _
  have hs1 : dS L k.val 512 = (dsl (k0_off77 L k) (k0_off77_inb L k h1 h2)).view.set := dset_congr exB.symm _ _
  have hsE : eS L k.val = (esl (k0_off145 L k) (k0_off145_inb L k h1 h2)).view.set := eset_congr eeO.symm _ _
  have e0 : (((dV).view.loc (thr d L) ↦[dS L k.val 0]{fullShare} fD : sProp 𝕄))
      = ((dsl (k0_off9 L k) (k0_off9_inb L k h1 h2)).view.loc (thr d L) ↦[(dsl (k0_off9 L k) (k0_off9_inb L k h1 h2)).view.set]{fullShare} fD) := by
    rw [hs0]
  have e1 : (((dV).view.loc (thr d L) ↦[dS L k.val 512]{fullShare} fD : sProp 𝕄))
      = ((dsl (k0_off77 L k) (k0_off77_inb L k h1 h2)).view.loc (thr d L) ↦[(dsl (k0_off77 L k) (k0_off77_inb L k h1 h2)).view.set]{fullShare} fD) := by
    rw [hs1]
  have eE : (((eV).view.loc (thr d L) ↦[eS L k.val]{fullShare} fE : sProp 𝕄))
      = ((esl (k0_off145 L k) (k0_off145_inb L k h1 h2)).view.loc (thr d L) ↦[(esl (k0_off145 L k) (k0_off145_inb L k h1 h2)).view.set]{fullShare} fE) := by
    rw [hsE]
  ihave HD0' := (Entails.of_eq e0) $$ HD0
  ihave HD1' := (Entails.of_eq e1) $$ HD1
  ihave HE0' := (Entails.of_eq eE) $$ HE0
  sl_unfold [k0_t1_body]
  sl_exec

  sl_step
  -- the flights this trip leaves, over the canonical slices
  have pSC : ∀ g, (iprop(((b0).view.loc (thr d L) ↦[(b0).view.set]{fullShare} g) ∗ ((xV).view.loc (thr d L) ↦[(xsl (k0_off76 L k) (k0_off76_inb L k h1 h2 hc4)).view.set]{q} X)) : sProp 𝕄)
      = iprop(((b0).view.loc (thr d L) ↦[(b0).view.set]{fullShare} g) ∗ ((xV).view.loc (thr d L) ↦[(xsl (uo3 L (k.val + 1) 0) (uo3_inb L (k.val + 1) 0)).view.set]{q} X)) := fun g => by
    rw [xset_congr exC _ (uo3_inb L (k.val + 1) 0)]
  have pFA : ∀ g, (iprop(((b1).view.loc (thr d L) ↦[(b1).view.set]{fullShare} g) ∗ ((xV).view.loc (thr d L) ↦[(xsl (k0_off144 L k) (k0_off144_inb L k h1 h2 hc6)).view.set]{q} X)) : sProp 𝕄)
      = iprop(((b1).view.loc (thr d L) ↦[(b1).view.set]{fullShare} g) ∗ ((xV).view.loc (thr d L) ↦[(xsl (uo3 L (k.val + 1) 512) (uo3_inb L (k.val + 1) 512)).view.set]{q} X)) := fun g => by
    rw [xset_congr exA2 _ (uo3_inb L (k.val + 1) 512)]
  have pSB : ∀ g g', (iprop(((dsl (k0_off77 L k) (k0_off77_inb L k h1 h2)).view.loc (thr d L) ↦[(dsl (k0_off77 L k) (k0_off77_inb L k h1 h2)).view.set]{fullShare} g) ∗ ((b2).view.loc (thr d L) ↦[(b2).view.set]{fullShare} g')) : sProp 𝕄)
      = iprop(((dsl (uo3 L k.val 512) (uo3_inb L k.val 512)).view.loc (thr d L) ↦[(dsl (uo3 L k.val 512) (uo3_inb L k.val 512)).view.set]{fullShare} g) ∗ ((b2).view.loc (thr d L) ↦[(b2).view.set]{fullShare} g')) := fun g g' => by
    rw [← hs1]
  have pFM : ∀ g g', (iprop(((esl (k0_off145 L k) (k0_off145_inb L k h1 h2)).view.loc (thr d L) ↦[(esl (k0_off145 L k) (k0_off145_inb L k h1 h2)).view.set]{fullShare} g) ∗ ((meanb).view.loc (thr d L) ↦[(meanb).view.set]{fullShare} g')) : sProp 𝕄)
      = iprop(((esl (uo2 L k.val) (uo2_inb L k.val)).view.loc (thr d L) ↦[(esl (uo2 L k.val) (uo2_inb L k.val)).view.set]{fullShare} g) ∗ ((meanb).view.loc (thr d L) ↦[(meanb).view.set]{fullShare} g')) := fun g g' => by
    rw [← hsE]
  ihave SC' := (Transfers.Flight_mono countersEmb (thr d L) (Entails.of_eq (pSC _))) $$ SC
  ihave FA' := (Transfers.Flight_mono countersEmb (thr d L) (Entails.of_eq (pFA _))) $$ FA
  ihave SB' := (Transfers.Flight_mono countersEmb (thr d L) (Entails.of_eq (pSB _ _))) $$ SB
  ihave FM' := (Transfers.Flight_mono countersEmb (thr d L) (Entails.of_eq (pFM _ _))) $$ FM
  -- the waits recorded
  iexists _
  isplitl [HO]; · iexact HO
  isplitr
  · ipureintro
    intro p hp
    simp only [Finset.mem_insert] at hp
    rcases hp with (rfl | rfl | rfl | rfl | rfl | hp) <;> first | exact .inr rfl | exact .inl hp
  isplitl [Hmall]; · iexact Hmall
  -- the states array less unit k+1's two halves, now in flight
  isplitl [HX]
  · have hx : (((xV).view.loc (thr d L) ↦[(Finset.univ \ (xsl (k0_off76 L k) (k0_off76_inb L k h1 h2 hc4)).view.set) \ (xsl (k0_off144 L k) (k0_off144_inb L k h1 h2 hc6)).view.set]{q} X : sProp 𝕄))
        = ((xV).view.loc (thr d L) ↦[(Finset.univ \ (xsl (uo3 L (k.val + 1) 0) (uo3_inb L (k.val + 1) 0)).view.set) \ (xsl (uo3 L (k.val + 1) 512) (uo3_inb L (k.val + 1) 512)).view.set]{q} X) := by
      rw [xset_congr exC _ (uo3_inb L (k.val + 1) 0), xset_congr exA2 _ (uo3_inb L (k.val + 1) 512)]
    iapply (Entails.of_eq hx); iexact HX
  -- the difference array's rows: unit k−1's second half and unit k's first are back, unit k's second half is out
  isplitl [HD FC_dst HD0']
  · have hb : dS L k.val 0 ⊆ (dPart (wid L) \ dS L (k.val - 1) 512) \ dS L k.val 512 :=
      Finset.subset_sdiff.mpr ⟨hsub0, dS_disjoint L (by omega) (by omega) (.inl rfl) (.inr rfl) (.inr (by decide))⟩
    have ha : dS L (k.val - 1) 512 ⊆ dPart (wid L) \ dS L k.val 512 :=
      Finset.subset_sdiff.mpr ⟨dS_subset L (k.val - 1) 512 (.inr rfl), dS_disjoint L (by omega) (by omega) (.inr rfl) (.inr rfl) (.inl (by omega))⟩
    have hset1 : ((dPart (wid L) \ dS L (k.val - 1) 512) \ dS L k.val 0) \ dS L k.val 512
        = ((dPart (wid L) \ dS L (k.val - 1) 512) \ dS L k.val 512) \ dS L k.val 0 := sdiff_right_comm _ _ _
    have hset2 : (dPart (wid L) \ dS L (k.val - 1) 512) \ dS L k.val 512
        = (dPart (wid L) \ dS L k.val 512) \ dS L (k.val - 1) 512 := sdiff_right_comm _ _ _
    rw [hset1]
    have e0' : ∀ g, (((dsl (k0_off9 L k) (k0_off9_inb L k h1 h2)).view.loc (thr d L) ↦[(dsl (k0_off9 L k) (k0_off9_inb L k h1 h2)).view.set]{fullShare} g) : sProp 𝕄) = ((dV).view.loc (thr d L) ↦[dS L k.val 0]{fullShare} g) := fun g => by rw [hs0]
    ihave H0 := (Entails.of_eq (e0' _)) $$ HD0'
    ihave H1 := (pointsTo_join_subset (ℓ := (dV).view.loc (thr d L)) hb) $$ [H0 HD]
    · isplitl [H0]; · iexact H0
      iexact HD
    rw [hset2]
    ihave H2 := (pointsTo_join_subset (ℓ := (dV).view.loc (thr d L)) ha) $$ [FC_dst H1]
    · isplitl [FC_dst]; · iexact FC_dst
      iexact H1
    iexists _; iexact H2
  -- the mean array's rows: unit k−1's is back, unit k's is out
  isplitl [HE FM_dst]
  · have ha : eS L (k.val - 1) ⊆ ePart (wid L) \ eS L k.val :=
      Finset.subset_sdiff.mpr ⟨eS_subset L (k.val - 1), eS_disjoint L (by omega) (by omega) (by omega)⟩
    have hset : (ePart (wid L) \ eS L (k.val - 1)) \ eS L k.val = (ePart (wid L) \ eS L k.val) \ eS L (k.val - 1) := sdiff_right_comm _ _ _
    rw [hset]
    ihave H2 := (pointsTo_join_subset (ℓ := (eV).view.loc (thr d L)) ha) $$ [FM_dst HE]
    · isplitl [FM_dst]; · iexact FM_dst
      iexact HE
    iexists _; iexact H2
  -- the pipeline for unit k+1
  iexists _, _, _, _, _, _
  isplitl [SC']; · iexact SC'
  isplitl [FA']; · iexact FA'
  isplitl [SB']; · iexact SB'
  isplitl [FM']; · iexact FM'
  isplitl [FC]; · iexact FC
  isplitl [SA]; · iexact SA
  iexact FB

end Cert.Proof.KB

end
-- ==== Proof.KB_StepV2.lean ====
/-
  The unit loop's invariant is kept by a trip in the middle of the pipeline whose unit number leaves the remainder 2
  on division by three: the invariant before the trip, opened at that remainder, is the trip's precondition, and
  what the trip leaves is the invariant at the next number, whose remainder is 0.
-/
import proofs.«204522_g36051955483029_cont_8to1_b_1192_15_alg».proof.Proof.KB_Inv
import proofs.«204522_g36051955483029_cont_8to1_b_1192_15_alg».proof.Proof.KB_TripV2

set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords)

theorem step_v2 (k : Fin k0_t1_loop.trips) (h1 : k0_cond1 k = 1#1) (h2 : k0_cond2 k = 1#1) (hpos : 0 < k.val) (hlt : k.val + 1 < 16)
    (q : PosShare TreeShare) (X : Buf (Elt F) ((xV).view.loc (thr d L))) (O : CellTallies nD τ sig (HIx 1)) (W : Waits sig (HIx 1))
    (gM : Buf (Elt F) ((mall).view.loc (thr d L))) (v3 : BitVec 32) (acc : FVec F S16 .f32) :
    inv (F := F) d L q X O W gM k.val acc
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => inv (F := F) d L q X O W gM (k.val + 1) r := by
  have hmod : k.val % 3 = 2 := (cond12_mod k).mp ⟨h1, h2⟩
  have hmod' : (k.val + 1) % 3 = 0 := by omega
  have hp0 : pipe (F := F) d L q X k.val = pipeMid2 (F := F) d L q X k.val := by
    unfold pipe; simp [hmod, show k.val ≠ 0 by omega, show ¬ 16 ≤ k.val by omega]
  have hp1 : pipe (F := F) d L q X (k.val + 1) = pipeMid0 (F := F) d L q X (k.val + 1) := by
    unfold pipe; simp [hmod', show ¬ 16 ≤ k.val + 1 by omega]
  have hx0 : xRest (F := F) d L q X k.val = ((xV).view.loc (thr d L) ↦[(Finset.univ \ (xsl (uo3 L k.val 0) (uo3_inb L k.val 0)).view.set) \ (xsl (uo3 L k.val 512) (uo3_inb L k.val 512)).view.set]{q} X) := by
    unfold xRest; rw [if_pos (by omega)]
  have hx1 : xRest (F := F) d L q X (k.val + 1) = ((xV).view.loc (thr d L) ↦[(Finset.univ \ (xsl (uo3 L (k.val + 1) 0) (uo3_inb L (k.val + 1) 0)).view.set) \ (xsl (uo3 L (k.val + 1) 512) (uo3_inb L (k.val + 1) 512)).view.set]{q} X) := by
    unfold xRest; rw [if_pos (by omega)]
  have hd0 : lentD L k.val = dS L (k.val - 1) 512 := by unfold lentD; rw [if_neg (by omega), if_pos (by omega)]
  have hd1 : lentD L (k.val + 1) = dS L k.val 512 := by unfold lentD; rw [if_neg (by omega), if_pos (by omega)]; rfl
  have he0 : lentE L k.val = eS L (k.val - 1) := by unfold lentE; rw [if_neg (by omega)]
  have he1 : lentE L (k.val + 1) = eS L k.val := by unfold lentE; rw [if_neg (by omega)]; rfl
  unfold inv
  rw [hp0, hp1, hx0, hx1, hd0, hd1, he0, he1]
  unfold pipeMid2 pipeMid0
  simp only [Nat.add_sub_cancel]
  iintro ⟨#Hmw, ⟨%W', HO, %hW'⟩, Hmall, HX, ⟨%fD, HD⟩, ⟨%fE, HE⟩, ⟨%fA, %fB, %fC, %gm, %fd, %fe, FA, FB, FC, FM, SA, SB, SC⟩⟩
  iapply (wp_wand_r Idealize.ShloMosaic.frame (wpE (defs₀ (F := F)) 𝒱₀ (thr d L) none) Set.univ)
  isplitl [HO Hmall HX HD HE FA FB FC FM SA SB SC]
  · iapply (trip_v2 (F := F) d L k h1 h2 hpos hlt q O W' v3 acc X gM fA fB fC gm fd fD fe fE)
    isplitr; · iexact Hmw
    isplitl [HO]; · iexact HO
    isplitl [Hmall]; · iexact Hmall
    isplitl [HX]; · iexact HX
    isplitl [HD]; · iexact HD
    isplitl [HE]; · iexact HE
    isplitl [FA]; · iexact FA
    isplitl [FB]; · iexact FB
    isplitl [FC]; · iexact FC
    isplitl [FM]; · iexact FM
    isplitl [SA]; · iexact SA
    isplitl [SB]; · iexact SB
    iexact SC
  · iintro %r ⟨%W'', HO, %hW'', Hmall, HX, HD, HE, HP⟩
    isplitr; · iexact Hmw
    isplitl [HO]
    · iexists W''
      isplitl [HO]; · iexact HO
      ipureintro
      intro p hp
      rcases hW'' p hp with h | h
      · exact hW' p h
      · exact .inr h
    isplitl [Hmall]; · iexact Hmall
    isplitl [HX]; · iexact HX
    isplitl [HD]; · iexact HD
    isplitl [HE]; · iexact HE
    iexact HP

end Cert.Proof.KB

end
-- ==== Proof.KB_Region.lean ====
/-
  One trip of the unit loop keeps the loop's invariant, whatever the trip: the first and the last by their own
  lemmas, the others by the one for their number's remainder on division by three (the kernel's own three-way branch).
-/
import proofs.«204522_g36051955483029_cont_8to1_b_1192_15_alg».proof.Proof.KB_StepFirst
import proofs.«204522_g36051955483029_cont_8to1_b_1192_15_alg».proof.Proof.KB_StepLast
import proofs.«204522_g36051955483029_cont_8to1_b_1192_15_alg».proof.Proof.KB_StepV0
import proofs.«204522_g36051955483029_cont_8to1_b_1192_15_alg».proof.Proof.KB_StepV1
import proofs.«204522_g36051955483029_cont_8to1_b_1192_15_alg».proof.Proof.KB_StepV2

set_option maxHeartbeats 4000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords)

theorem region (q : PosShare TreeShare) (X : Buf (Elt F) ((xV).view.loc (thr d L))) (O : CellTallies nD τ sig (HIx 1)) (W : Waits sig (HIx 1))
    (gM : Buf (Elt F) ((mall).view.loc (thr d L))) (v3 : BitVec 32) (k : Fin k0_t1_loop.trips) (acc : FVec F S16 .f32) :
    inv (F := F) d L q X O W gM k.val acc
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => inv (F := F) d L q X O W gM (k.val + 1) r := by
  by_cases h0 : k.val = 0
  · exact step_first (F := F) d L k h0 q X O W gM v3 acc
  by_cases h15 : k.val = 15
  · exact step_last (F := F) d L k h15 q X O W gM v3 acc
  have hpos : 0 < k.val := by omega
  have hlt : k.val + 1 < 16 := by have := trips_lt k; omega
  rcases Classical.em (k0_cond1 k = 1#1) with h1 | h1
  · rcases Classical.em (k0_cond2 k = 1#1) with h2 | h2
    · exact step_v2 (F := F) d L k h1 h2 hpos hlt q X O W gM v3 acc
    · exact step_v1 (F := F) d L k h1 h2 hpos hlt q X O W gM v3 acc
  · exact step_v0 (F := F) d L k h1 hpos hlt q X O W gM v3 acc

end Cert.Proof.KB

end
-- ==== Proof.KB_TileRun.lean ====
/-
  The tile's whole body: the prologue copies the tile's sixteen mask rows in and starts the fetches of unit 0's two
  halves; the unit loop goes by its invariant (the state of the DMA pipeline between trips); after the last trip the
  four copies still on their way out are waited for, the coarse-mask words are stored and copied out. What the tile
  was handed comes back: its read tokens of the two input arrays unchanged, its rows of the three result arrays at
  what the copies left there, its scratch buffers and its nine semaphores, these at zero.
-/
import proofs.«204522_g36051955483029_cont_8to1_b_1192_15_alg».proof.Proof.KB_Region

set_option maxHeartbeats 8000000

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable (d : Dev nD) (L : grid0.Coords)

theorem tile_run (O : CellTallies nD τ sig (HIx 1)) (W : Waits sig (HIx 1)) (q : PosShare TreeShare)
    (X : Buf (Elt F) ((xV).view.loc (thr d L))) (Mc : Buf (Elt F) ((mV).view.loc (thr d L)))
    (D0 : Buf (Elt F) ((dV).view.loc (thr d L))) (E0 : Buf (Elt F) ((eV).view.loc (thr d L))) (C0 : Buf (Elt F) ((cV').view.loc (thr d L)))
    (f0 : Buf (Elt F) ((b0).view.loc (thr d L))) (f1 : Buf (Elt F) ((b1).view.loc (thr d L))) (f2 : Buf (Elt F) ((b2).view.loc (thr d L)))
    (g0 : Buf (Elt F) ((mall).view.loc (thr d L))) (g1 : Buf (Elt F) ((meanb).view.loc (thr d L))) (g2 : Buf (Elt F) ((cmb).view.loc (thr d L))) :
    (iprop(Transfers.MayWaits (thr d L) (none : HIx 1) O ∗ owes (thr d L) O W
        ∗ ((xV).view.loc (thr d L) ↦{q} X) ∗ ((mV).view.loc (thr d L) ↦{q} Mc)
        ∗ ((dV).view.loc (thr d L) ↦[dPart (wid L)]{fullShare} D0) ∗ ((eV).view.loc (thr d L) ↦[ePart (wid L)]{fullShare} E0)
        ∗ ((cV').view.loc (thr d L) ↦[cPart (wid L)]{fullShare} C0)
        ∗ ((b0).view.loc (thr d L) ↦[(b0).view.set]{fullShare} f0) ∗ ((b1).view.loc (thr d L) ↦[(b1).view.set]{fullShare} f1)
        ∗ ((b2).view.loc (thr d L) ↦[(b2).view.set]{fullShare} f2) ∗ ((mall).view.loc (thr d L) ↦[(mall).view.set]{fullShare} g0)
        ∗ ((meanb).view.loc (thr d L) ↦[(meanb).view.set]{fullShare} g1) ∗ ((cmb).view.loc (thr d L) ↦[(cmb).view.set]{fullShare} g2)
        ∗ semVal (thr d L, SemLoc.dma cc0_scratch6.sem) 0 ∗ semVal (thr d L, SemLoc.dma cc0_scratch7.sem) 0 ∗ semVal (thr d L, SemLoc.dma cc0_scratch8.sem) 0
        ∗ semVal (thr d L, SemLoc.dma cc0_scratch9.sem) 0 ∗ semVal (thr d L, SemLoc.dma cc0_scratch10.sem) 0 ∗ semVal (thr d L, SemLoc.dma cc0_scratch11.sem) 0
        ∗ semVal (thr d L, SemLoc.dma cc0_scratch12.sem) 0 ∗ semVal (thr d L, SemLoc.dma cc0_scoped0.sem) 0 ∗ semVal (thr d L, SemLoc.dma cc0_scoped1.sem) 0) : sProp 𝕄)
      ⊢ wp frame (wpE (defs₀ (F := F)) 𝒱₀ (thr d L) none) Set.univ
          (cc0__sc_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1)
          fun _ => iprop(((xV).view.loc (thr d L) ↦{q} X) ∗ ((mV).view.loc (thr d L) ↦{q} Mc)
            ∗ (∃ f, (dV).view.loc (thr d L) ↦[dPart (wid L)]{fullShare} f) ∗ (∃ f, (eV).view.loc (thr d L) ↦[ePart (wid L)]{fullShare} f)
            ∗ (∃ f, (cV').view.loc (thr d L) ↦[cPart (wid L)]{fullShare} f)
            ∗ (∃ f, (b0).view.loc (thr d L) ↦[(b0).view.set]{fullShare} f) ∗ (∃ f, (b1).view.loc (thr d L) ↦[(b1).view.set]{fullShare} f)
            ∗ (∃ f, (b2).view.loc (thr d L) ↦[(b2).view.set]{fullShare} f) ∗ (∃ f, (mall).view.loc (thr d L) ↦[(mall).view.set]{fullShare} f)
            ∗ (∃ f, (meanb).view.loc (thr d L) ↦[(meanb).view.set]{fullShare} f) ∗ (∃ f, (cmb).view.loc (thr d L) ↦[(cmb).view.set]{fullShare} f)
            ∗ semVal (thr d L, SemLoc.dma cc0_scratch6.sem) 0 ∗ semVal (thr d L, SemLoc.dma cc0_scratch7.sem) 0 ∗ semVal (thr d L, SemLoc.dma cc0_scratch8.sem) 0
            ∗ semVal (thr d L, SemLoc.dma cc0_scratch9.sem) 0 ∗ semVal (thr d L, SemLoc.dma cc0_scratch10.sem) 0 ∗ semVal (thr d L, SemLoc.dma cc0_scratch11.sem) 0
            ∗ semVal (thr d L, SemLoc.dma cc0_scratch12.sem) 0 ∗ semVal (thr d L, SemLoc.dma cc0_scoped0.sem) 0 ∗ semVal (thr d L, SemLoc.dma cc0_scoped1.sem) 0
            ∗ ∃ W', ⌜∀ p ∈ W', p ∈ W ∨ p.2 = none⌝ ∗ owes (thr d L) O W') := by
  iintro ⟨#Hmw, HO, HX, HM, HD, HE, HC, H0, H1, H2, Hg0, Hg1, Hg2, S6, S7, S8, S9, S10, S11, S12, Sa, Sb⟩
  have e2 : k0_off2 L = uo3 L 0 0 := by rw [k0_off2_eq, uo3_of_le L (by omega) (by omega)]; rfl
  have e3 : k0_off3 L = uo3 L 0 512 := by rw [k0_off3_eq, uo3_of_le L (by omega) (by omega)]; rfl
  have e434 : k0_off434 L = uo1 L := by rw [k0_off434_eq]; rfl
  -- the tile's coarse-mask words, in the kernel's own spelling of that slice
  have hC : ∀ g, (((cV').view.loc (thr d L) ↦[cPart (wid L)]{fullShare} g : sProp 𝕄))
      = ((csl (k0_off434 L) (k0_off434_inb L)).view.loc (thr d L) ↦[(csl (k0_off434 L) (k0_off434_inb L)).view.set]{fullShare} g) := fun g => by
    rw [show cPart (wid L) = (csl (k0_off434 L) (k0_off434_inb L)).view.set from (cS_eq L).symm.trans (cset_congr e434.symm _ _)]
  ihave HC' := (Entails.of_eq (hC _)) $$ HC
  sl_unfold [cc0__sc_body]
  sl_exec
  -- the prologue's two fetches, over the canonical slices of unit 0
  have pS6 : ∀ g, (iprop(((b0).view.loc (thr d L) ↦[(b0).view.set]{fullShare} g) ∗ ((xV).view.loc (thr d L) ↦[(xsl (k0_off2 L) (k0_off2_inb L)).view.set]{q} X)) : sProp 𝕄)
      = iprop(((b0).view.loc (thr d L) ↦[(b0).view.set]{fullShare} g) ∗ ((xV).view.loc (thr d L) ↦[(xsl (uo3 L 0 0) (uo3_inb L 0 0)).view.set]{q} X)) := fun g => by rw [xset_congr e2 _ (uo3_inb L 0 0)]
  have pS7 : ∀ g, (iprop(((b1).view.loc (thr d L) ↦[(b1).view.set]{fullShare} g) ∗ ((xV).view.loc (thr d L) ↦[(xsl (k0_off3 L) (k0_off3_inb L)).view.set]{q} X)) : sProp 𝕄)
      = iprop(((b1).view.loc (thr d L) ↦[(b1).view.set]{fullShare} g) ∗ ((xV).view.loc (thr d L) ↦[(xsl (uo3 L 0 512) (uo3_inb L 0 512)).view.set]{q} X)) := fun g => by rw [xset_congr e3 _ (uo3_inb L 0 512)]
  ihave S6' := (Transfers.Flight_mono countersEmb (thr d L) (Entails.of_eq (pS6 _))) $$ S6
  ihave S7' := (Transfers.Flight_mono countersEmb (thr d L) (Entails.of_eq (pS7 _))) $$ S7
  have hx : (((xV).view.loc (thr d L) ↦[(Finset.univ \ (xsl (k0_off2 L) (k0_off2_inb L)).view.set) \ (xsl (k0_off3 L) (k0_off3_inb L)).view.set]{q} X : sProp 𝕄))
      = ((xV).view.loc (thr d L) ↦[(Finset.univ \ (xsl (uo3 L 0 0) (uo3_inb L 0 0)).view.set) \ (xsl (uo3 L 0 512) (uo3_inb L 0 512)).view.set]{q} X) := by
    rw [xset_congr e2 _ (uo3_inb L 0 0), xset_congr e3 _ (uo3_inb L 0 512)]
  ihave HX' := (Entails.of_eq hx) $$ HX
  generalize (mall).view.writes (Elt F) _ _ = gM
  sl_for (inv (F := F) d L q X O W gM) $$ [Hmw HO Hg0 HX' HD HE S6' S7' H2 Hg1 S8 S9 S10 S11 S12]
  case region => exact fun k acc => region (F := F) d L q X O W gM _ k acc
  · unfold inv
    have hp : pipe (F := F) d L q X 0 = pipe0 (F := F) d L q X := by unfold pipe; rw [if_pos rfl]
    have hxr : xRest (F := F) d L q X 0 = ((xV).view.loc (thr d L) ↦[(Finset.univ \ (xsl (uo3 L 0 0) (uo3_inb L 0 0)).view.set) \ (xsl (uo3 L 0 512) (uo3_inb L 0 512)).view.set]{q} X) := by unfold xRest; rw [if_pos (by omega)]
    have hd : lentD L 0 = ∅ := by unfold lentD; rw [if_pos rfl]
    have he : lentE L 0 = ∅ := by unfold lentE; rw [if_pos rfl]
    rw [hp, hxr, hd, he, Finset.sdiff_empty, Finset.sdiff_empty]
    unfold pipe0
    isplitr; · iexact Hmw
    isplitl [HO]
    · iexists _
      isplitl [HO]; · iexact HO
      ipureintro
      intro p hp
      rcases Finset.mem_insert.mp hp with rfl | hp
      · exact .inr rfl
      · exact .inl hp
    isplitl [Hg0]; · iexact Hg0
    isplitl [HX']; · iexact HX'
    isplitl [HD]; · iexists _; iexact HD
    isplitl [HE]; · iexists _; iexact HE
    iexists _, _, _, _
    isplitl [S6']; · iexact S6'
    isplitl [S7']; · iexact S7'
    isplitl [H2]; · iexact H2
    isplitl [Hg1]; · iexact Hg1
    isplitl [S8]; · iexact S8
    isplitl [S9]; · iexact S9
    isplitl [S10]; · iexact S10
    isplitl [S11]; · iexact S11
    iexact S12
  -- after the last trip: the four copies still out are waited for, the coarse-mask words written out
  rw [show Scf.trips k0_t1_loop.lb k0_t1_loop.ub k0_t1_loop.st = 16 from rfl]
  have hpE : pipe (F := F) d L q X 16 = pipeEnd (F := F) d L := by unfold pipe; simp
  have hxE : xRest (F := F) d L q X 16 = ((xV).view.loc (thr d L) ↦{q} X) := by unfold xRest; rw [if_neg (by omega)]
  have hdE : lentD L 16 = (dS L 14 512 ∪ dS L 15 0) ∪ dS L 15 512 := by unfold lentD; rw [if_neg (by omega), if_neg (by omega)]
  have heE : lentE L 16 = eS L 15 := by unfold lentE; rw [if_neg (by omega)]
  unfold inv
  rw [hpE, hxE, hdE, heE]
  unfold pipeEnd
  iintro %acc ⟨-, ⟨%W', HO, %hW'⟩, Hmall, HX, ⟨%fD, HD⟩, ⟨%fE, HE⟩, ⟨%fA, %fB, %fC, %gm, %fd0, %fd1, %fd2, %fe, F9, F10, F11, F12, S6, S7, S8⟩⟩
  sl_exec
  sl_step
  isplitl [HX]; · iexact HX
  isplitl [HM]; · iexact HM
  -- the difference array's rows: the three half blocks that were still out are back
  isplitl [HD F11_dst F9_dst F10_dst]
  · have hab : Disjoint (dS L 14 512) (dS L 15 0) := dS_disjoint L (by omega) (by omega) (.inr rfl) (.inl rfl) (.inl (by omega))
    have habc : Disjoint (dS L 14 512 ∪ dS L 15 0) (dS L 15 512) :=
      Finset.disjoint_union_left.mpr ⟨dS_disjoint L (by omega) (by omega) (.inr rfl) (.inr rfl) (.inl (by omega)),
        dS_disjoint L (by omega) (by omega) (.inl rfl) (.inr rfl) (.inr (by decide))⟩
    have hsub : (dS L 14 512 ∪ dS L 15 0) ∪ dS L 15 512 ⊆ dPart (wid L) :=
      Finset.union_subset (Finset.union_subset (dS_subset L 14 512 (.inr rfl)) (dS_subset L 15 0 (.inl rfl))) (dS_subset L 15 512 (.inr rfl))
    ihave Hab := (pointsTo_join (ℓ := (dV).view.loc (thr d L)) (I := dS L 14 512) (J := dS L 15 0) hab) $$ [F11_dst F9_dst]
    · isplitl [F11_dst]; · iexact F11_dst
      iexact F9_dst
    ihave Habc := (pointsTo_join (ℓ := (dV).view.loc (thr d L)) (I := dS L 14 512 ∪ dS L 15 0) (J := dS L 15 512) habc) $$ [Hab F10_dst]
    · isplitl [Hab]; · iexact Hab
      iexact F10_dst
    ihave H := (pointsTo_join_subset (ℓ := (dV).view.loc (thr d L)) hsub) $$ [Habc HD]
    · isplitl [Habc]; · iexact Habc
      iexact HD
    iexists _; iexact H
  -- the mean array's rows
  isplitl [HE F12_dst]
  · ihave H := (pointsTo_join_subset (ℓ := (eV).view.loc (thr d L)) (eS_subset L 15)) $$ [F12_dst HE]
    · isplitl [F12_dst]; · iexact F12_dst
      iexact HE
    iexists _; iexact H
  -- the coarse-mask words
  isplitl [HC']
  · iexists _; iapply (Entails.of_eq (hC _).symm); iexact HC'
  isplitl [F9_src]; · iexists _; iexact F9_src
  isplitl [F10_src]; · iexists _; iexact F10_src
  isplitl [F11_src]; · iexists _; iexact F11_src
  isplitl [Hmall]; · iexists _; iexact Hmall
  isplitl [F12_src]; · iexists _; iexact F12_src
  isplitl [Hg2]; · iexists _; iexact Hg2
  isplitl [S6]; · iexact S6
  isplitl [S7]; · iexact S7
  isplitl [S8]; · iexact S8
  isplitl [F9]; · iexact F9
  isplitl [F10]; · iexact F10
  isplitl [F11]; · iexact F11
  isplitl [F12]; · iexact F12
  isplitl [Sa]; · iexact Sa
  isplitl [Sb]; · iexact Sb
  iexists (insert (SemLoc.dma cc0_scoped1.sem, (default : HIx 1)) (insert (SemLoc.dma cc0_scratch10.sem, (default : HIx 1)) (insert (SemLoc.dma cc0_scratch9.sem, (default : HIx 1))
    (insert (SemLoc.dma cc0_scratch11.sem, (default : HIx 1)) (insert (SemLoc.dma cc0_scratch12.sem, (default : HIx 1)) W')))))
  isplitr
  · ipureintro
    intro p hp
    simp only [Finset.mem_insert] at hp
    rcases hp with (rfl | rfl | rfl | rfl | rfl | hp)
    · exact .inr rfl
    · exact .inr rfl
    · exact .inr rfl
    · exact .inr rfl
    · exact .inr rfl
    · exact hW' p hp
  iexact HO

end Cert.Proof.KB

end
-- ==== Proof.KB_TileObl.lean ====
/-
  From the launch theorem's obligation to the tile's run. The launch hands the task of vector subcore `i` of SparseCore
  `c` its operands in the TensorCore's spelling (a read token of the two inputs, part `2·i + c` of each of the three
  results) beside the subcore's scoped storage whole (every buffer of its own at some contents, every semaphore of its
  own at zero). The task's run is stated over the kernel's own names: the five arrays as the kernel's memrefs, the six
  scratch buffers and the nine DMA cells it names, one by one. This module takes the six buffers and the nine cells out
  of the scoped storage, runs the task, and puts them back; the rest of the storage is framed around the run.
-/
import proofs.«204522_g36051955483029_cont_8to1_b_1192_15_alg».proof.Proof.KB_Launch
import proofs.«204522_g36051955483029_cont_8to1_b_1192_15_alg».proof.Proof.KB_Slices
import proofs.«204522_g36051955483029_cont_8to1_b_1192_15_alg».proof.Proof.KB_TileRun

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_v0_scv : Memref Cert.Kernel.sig Kind.scVector Space.hbm Cert.Kernel.S512x64x1024 EltTy.f32)
local notation "mV" => (Memref.whole Cert.Kernel.main_v1_scv : Memref Cert.Kernel.sig Kind.scVector Space.hbm Cert.Kernel.S512x64 EltTy.f32)
local notation "dV" => (Memref.whole Cert.Kernel.main_v2_0_scv : Memref Cert.Kernel.sig Kind.scVector Space.hbm Cert.Kernel.S512x64x1024 EltTy.f32)
local notation "eV" => (Memref.whole Cert.Kernel.main_v2_1_scv : Memref Cert.Kernel.sig Kind.scVector Space.hbm Cert.Kernel.S512x1024 EltTy.f32)
local notation "cV'" => (Memref.whole Cert.Kernel.main_v2_2_scv : Memref Cert.Kernel.sig Kind.scVector Space.hbm Cert.Kernel.S512 EltTy.f32)
local notation "b0" => (Memref.whole Cert.Kernel.cc0_scratch0 : Memref Cert.Kernel.sig Kind.scVector Space.vmem Cert.Kernel.S64x512 EltTy.f32)
local notation "b1" => (Memref.whole Cert.Kernel.cc0_scratch1 : Memref Cert.Kernel.sig Kind.scVector Space.vmem Cert.Kernel.S64x512 EltTy.f32)
local notation "b2" => (Memref.whole Cert.Kernel.cc0_scratch2 : Memref Cert.Kernel.sig Kind.scVector Space.vmem Cert.Kernel.S64x512 EltTy.f32)
local notation "mall" => (Memref.whole Cert.Kernel.cc0_scratch3 : Memref Cert.Kernel.sig Kind.scVector Space.vmem Cert.Kernel.S16x64 EltTy.f32)
local notation "meanb" => (Memref.whole Cert.Kernel.cc0_scratch4 : Memref Cert.Kernel.sig Kind.scVector Space.vmem Cert.Kernel.S1024 EltTy.f32)
local notation "cmb" => (Memref.whole Cert.Kernel.cc0_scratch5 : Memref Cert.Kernel.sig Kind.scVector Space.vmem Cert.Kernel.S16 EltTy.f32)

variable [FloatOps F]

/-! ## The body table at a vector subcore -/

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) mV (Memref.isWhole_whole _) dV (Memref.isWhole_whole _) eV (Memref.isWhole_whole _) cV' (Memref.isWhole_whole _)
          b0 (Memref.isWhole_whole _) b1 (Memref.isWhole_whole _) b2 (Memref.isWhole_whole _) mall (Memref.isWhole_whole _) meanb (Memref.isWhole_whole _) cmb (Memref.isWhole_whole _)
          cc0_scratch6 cc0_scratch7 cc0_scratch8 cc0_scratch9 cc0_scratch10 cc0_scratch11 cc0_scratch12 cc0_scoped0 cc0_scoped1) ⟨⟩ c s := rfl

/-! ## A tile's scratch, in the task's spelling -/

section Tile

variable (d : Dev nD) (L : grid0.Coords)

omit [FloatOps F] in
theorem pts_b0 (f : Buf (Elt F) ((thr d L).loc cc0_scratch0)) :
    ((b0).view.loc (thr d L) ↦[(b0).view.set]{fullShare} f : sProp 𝕄) = (thr d L).loc cc0_scratch0 ↦{fullShare} f := by
  rw [View.set_whole]
omit [FloatOps F] in
theorem pts_b1 (f : Buf (Elt F) ((thr d L).loc cc0_scratch1)) :
    ((b1).view.loc (thr d L) ↦[(b1).view.set]{fullShare} f : sProp 𝕄) = (thr d L).loc cc0_scratch1 ↦{fullShare} f := by
  rw [View.set_whole]
omit [FloatOps F] in
theorem pts_b2 (f : Buf (Elt F) ((thr d L).loc cc0_scratch2)) :
    ((b2).view.loc (thr d L) ↦[(b2).view.set]{fullShare} f : sProp 𝕄) = (thr d L).loc cc0_scratch2 ↦{fullShare} f := by
  rw [View.set_whole]
omit [FloatOps F] in
theorem pts_mall (f : Buf (Elt F) ((thr d L).loc cc0_scratch3)) :
    ((mall).view.loc (thr d L) ↦[(mall).view.set]{fullShare} f : sProp 𝕄) = (thr d L).loc cc0_scratch3 ↦{fullShare} f := by
  rw [View.set_whole]
omit [FloatOps F] in
theorem pts_meanb (f : Buf (Elt F) ((thr d L).loc cc0_scratch4)) :
    ((meanb).view.loc (thr d L) ↦[(meanb).view.set]{fullShare} f : sProp 𝕄) = (thr d L).loc cc0_scratch4 ↦{fullShare} f := by
  rw [View.set_whole]
omit [FloatOps F] in
theorem pts_cmb (f : Buf (Elt F) ((thr d L).loc cc0_scratch5)) :
    ((cmb).view.loc (thr d L) ↦[(cmb).view.set]{fullShare} f : sProp 𝕄) = (thr d L).loc cc0_scratch5 ↦{fullShare} f := by
  rw [View.set_whole]

/-- The nine DMA cells the task names (seven scratch operands, two allocated in its regions): cell `k` of the
    subcore's pool, as a family. -/
abbrev csem (k : Nat) (hk : k < 9 := by decide) : DmaSem sig := ⟨k, hk⟩
abbrev dcell (d : Dev nD) (c : Fin τ.nSC) (i : Fin τ.nSub) (k : Fin 9) : GSem nD τ sig := (V d c i, .dma (csem k.val k.isLt))
/-- The nine cells at zero, in the body's spelling. -/
abbrev cells0 (d : Dev nD) (L : grid0.Coords) : sProp 𝕄 :=
  iprop(semVal (thr d L, SemLoc.dma cc0_scratch6.sem) 0 ∗ semVal (thr d L, SemLoc.dma cc0_scratch7.sem) 0 ∗ semVal (thr d L, SemLoc.dma cc0_scratch8.sem) 0
    ∗ semVal (thr d L, SemLoc.dma cc0_scratch9.sem) 0 ∗ semVal (thr d L, SemLoc.dma cc0_scratch10.sem) 0 ∗ semVal (thr d L, SemLoc.dma cc0_scratch11.sem) 0
    ∗ semVal (thr d L, SemLoc.dma cc0_scratch12.sem) 0 ∗ semVal (thr d L, SemLoc.dma cc0_scoped0.sem) 0 ∗ semVal (thr d L, SemLoc.dma cc0_scoped1.sem) 0)

omit [FloatOps F] in
theorem dcell_mem (c : Fin τ.nSC) (i : Fin τ.nSub) (k : Fin 9) : dcell d c i k ∈ ownCells (V d c i) :=
  mem_ownCells.mpr ⟨rfl, (show ∀ s : DmaSem sig, (SemLoc.dma s : SemLoc sig).isScoped .scVector = true by decide) _⟩

omit [FloatOps F] in
/-- The subcore's own cells at zero: the nine the task names, one by one, and the rest. -/
theorem ownSems0_V :
    (ownSems0 (thr d L) : sProp 𝕄)
      = iprop(cells0 d L
          ∗ bigSep ((ownCells (thr d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 9)) = {0, 1, 2, 3, 4, 5, 6, 7, 8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

omit [FloatOps F] in
/-- The six scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ bigSep (((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4)).erase
              ((Proc.scVector (cV L) (jV L)).devRef cc0_scratch5))
              fun b => iprop(∃ f, ((d, b) : Loc nD τ sig) ↦{fullShare} f)) := by
  unfold SparseCore.Cfg.ownBufs
  have hne : ∀ {r r' : Ref sig .scVector}, r ≠ r' → (Proc.scVector (cV L) (jV L)).devRef r ≠ (Proc.scVector (cV L) (jV L)).devRef r' :=
    fun h e => h (Proc.devRef_injective _ e)
  have m0 := SparseCore.Cfg.mem_ownRefs_of_owner (p := Proc.scVector (cV L) (jV L)) (b := (Proc.scVector (cV L) (jV L)).devRef cc0_scratch0) rfl
  have m1 := SparseCore.Cfg.mem_ownRefs_of_owner (p := Proc.scVector (cV L) (jV L)) (b := (Proc.scVector (cV L) (jV L)).devRef cc0_scratch1) rfl
  have m2 := SparseCore.Cfg.mem_ownRefs_of_owner (p := Proc.scVector (cV L) (jV L)) (b := (Proc.scVector (cV L) (jV L)).devRef cc0_scratch2) rfl
  have m3 := SparseCore.Cfg.mem_ownRefs_of_owner (p := Proc.scVector (cV L) (jV L)) (b := (Proc.scVector (cV L) (jV L)).devRef cc0_scratch3) rfl
  have m4 := SparseCore.Cfg.mem_ownRefs_of_owner (p := Proc.scVector (cV L) (jV L)) (b := (Proc.scVector (cV L) (jV L)).devRef cc0_scratch4) rfl
  have m5 := SparseCore.Cfg.mem_ownRefs_of_owner (p := Proc.scVector (cV L) (jV L)) (b := (Proc.scVector (cV L) (jV L)).devRef cc0_scratch5) rfl
  refine (SparseCore.bigSep_erase' m0).trans ?_
  rw [SparseCore.bigSep_erase' (Finset.mem_erase.mpr ⟨hne (show (cc0_scratch1 : Ref sig .scVector) ≠ cc0_scratch0 by decide), m1⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide), m2⟩⟩),
    SparseCore.bigSep_erase' (Finset.mem_erase.mpr ⟨hne (show (cc0_scratch3 : Ref sig .scVector) ≠ cc0_scratch2 by decide),
      Finset.mem_erase.mpr ⟨hne (show (cc0_scratch3 : Ref sig .scVector) ≠ cc0_scratch1 by decide),
      Finset.mem_erase.mpr ⟨hne (show (cc0_scratch3 : Ref sig .scVector) ≠ cc0_scratch0 by decide), m3⟩⟩⟩),
    SparseCore.bigSep_erase' (Finset.mem_erase.mpr ⟨hne (show (cc0_scratch4 : Ref sig .scVector) ≠ cc0_scratch3 by decide),
      Finset.mem_erase.mpr ⟨hne (show (cc0_scratch4 : Ref sig .scVector) ≠ cc0_scratch2 by decide),
      Finset.mem_erase.mpr ⟨hne (show (cc0_scratch4 : Ref sig .scVector) ≠ cc0_scratch1 by decide),
      Finset.mem_erase.mpr ⟨hne (show (cc0_scratch4 : Ref sig .scVector) ≠ cc0_scratch0 by decide), m4⟩⟩⟩⟩),
    SparseCore.bigSep_erase' (Finset.mem_erase.mpr ⟨hne (show (cc0_scratch5 : Ref sig .scVector) ≠ cc0_scratch4 by decide),
      Finset.mem_erase.mpr ⟨hne (show (cc0_scratch5 : Ref sig .scVector) ≠ cc0_scratch3 by decide),
      Finset.mem_erase.mpr ⟨hne (show (cc0_scratch5 : Ref sig .scVector) ≠ cc0_scratch2 by decide),
      Finset.mem_erase.mpr ⟨hne (show (cc0_scratch5 : Ref sig .scVector) ≠ cc0_scratch1 by decide),
      Finset.mem_erase.mpr ⟨hne (show (cc0_scratch5 : Ref sig .scVector) ≠ cc0_scratch0 by decide), m5⟩⟩⟩⟩⟩)]

/-! ## The task, from what the launch hands the tile -/

/-- Tile `L`'s task from the launch's spelling of its operands (the TensorCore's names of the five arrays, part `j` of
    the thirty-two, `j` the tile's flat number) and the subcore's scoped storage: the six scratch buffers and the nine
    DMA cells are taken out of that storage for the run and put back after it. -/
theorem tile_wrap (m : (ℓ : Loc nD τ sig) → Buf (Elt F) ℓ) (Xv : (d : Dev nD) → Buf (Elt F) (xLoc d)) (Mv : (d : Dev nD) → Buf (Elt F) (mLoc d))
    (j : Fin 32) (hj : wid L = j) (O : CellTallies nD τ sig (HIx 1)) (W : Waits sig (HIx 1)) (hO : ∀ g, O g none = 0) (q : Fin 1) :
    iprop(levAts (K (F := F)).L (K (F := F)).lev ∗ emp ∗ tileGo m Xv Mv d j ∗ scopedBufs (thr d L) ∗ scopedSems0 (thr d L) ∗ owes (thr d L) O W)
      ⊢ wp frame (wpE (defs₀ (F := F)) 𝒱₀ (thr d L) none) Set.univ
          (cc0__sc_body L xV (Memref.isWhole_whole _) mV (Memref.isWhole_whole _) dV (Memref.isWhole_whole _) eV (Memref.isWhole_whole _) cV' (Memref.isWhole_whole _)
          b0 (Memref.isWhole_whole _) b1 (Memref.isWhole_whole _) b2 (Memref.isWhole_whole _) mall (Memref.isWhole_whole _) meanb (Memref.isWhole_whole _) cmb (Memref.isWhole_whole _)
          cc0_scratch6 cc0_scratch7 cc0_scratch8 cc0_scratch9 cc0_scratch10 cc0_scratch11 cc0_scratch12 cc0_scoped0 cc0_scoped1)
          fun _ => iprop(tileTd (F := F) Xv Mv d j ∗ scopedBufs (thr d L) ∗ scopedSems0 (thr d L)
            ∗ ∃ W', ⌜∀ p ∈ W', p ∈ W ∨ p.2 = none ∨ p.2 = some q⌝ ∗ owes (thr d L) O W') := by
  subst hj
  rw [(K (F := F)).scopedBufs_V facts d (cV L) (jV L), SparseCore.Cfg.scopedSems0_V (Val := Elt F) d (cV L) (jV L), ownSems0_V, ownBufs_V]
  unfold tileGo tileTd
  iintro ⟨#Hlv, -, ⟨Hx, Hm, Hd, He, Hc⟩, ⟨⟨%f0, H0⟩, ⟨%f1, H1⟩, ⟨%f2, H2⟩, ⟨%g0, H3⟩, ⟨%g1, H4⟩, ⟨%g2, H5⟩, Hbufs⟩, ⟨⟨S6, S7, S8, S9, S10, S11, S12, T0, T1⟩, Hsems⟩, HO⟩
  ihave Hmw := ((K (F := F)).mayWaits_none (thr := thr d L) hO) $$ []
  · iexact Hlv
  ihave H0' := (Entails.of_eq (pts_b0 (F := F) d L _).symm) $$ H0
  ihave H1' := (Entails.of_eq (pts_b1 (F := F) d L _).symm) $$ H1
  ihave H2' := (Entails.of_eq (pts_b2 (F := F) d L _).symm) $$ H2
  ihave H3' := (Entails.of_eq (pts_mall (F := F) d L _).symm) $$ H3
  ihave H4' := (Entails.of_eq (pts_meanb (F := F) d L _).symm) $$ H4
  ihave H5' := (Entails.of_eq (pts_cmb (F := F) d L _).symm) $$ H5
  ihave Hwp := (tile_run (F := F) d L O W (tok (wid L)) (Xv d) (Mv d) (m (dLoc d)) (m (eLoc d)) (m (cLoc d)) f0 f1 f2 g0 g1 g2)
    $$ [Hmw HO Hx Hm Hd He Hc H0' H1' H2' H3' H4' H5' S6 S7 S8 S9 S10 S11 S12 T0 T1]
  · isplitl [Hmw]; · iexact Hmw
    isplitl [HO]; · iexact HO
    isplitl [Hx]; · iexact Hx
    isplitl [Hm]; · iexact Hm
    isplitl [Hd]; · iexact Hd
    isplitl [He]; · iexact He
    isplitl [Hc]; · iexact Hc
    isplitl [H0']; · iexact H0'
    isplitl [H1']; · iexact H1'
    isplitl [H2']; · iexact H2'
    isplitl [H3']; · iexact H3'
    isplitl [H4']; · iexact H4'
    isplitl [H5']; · iexact H5'
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [T0]; · iexact T0
    iexact T1
  iapply (wp_wand_r frame (wpE (defs₀ (F := F)) 𝒱₀ (thr d L) none) Set.univ)
  isplitl [Hwp]; · iexact Hwp
  iintro %_ ⟨Hx, Hm, Hd, He, Hc, ⟨%f0', H0⟩, ⟨%f1', H1⟩, ⟨%f2', H2⟩, ⟨%g0', H3⟩, ⟨%g1', H4⟩, ⟨%g2', H5⟩, S6, S7, S8, S9, S10, S11, S12, T0, T1, %W', %hW', HO⟩
  ihave H0' := (Entails.of_eq (pts_b0 (F := F) d L _)) $$ H0
  ihave H1' := (Entails.of_eq (pts_b1 (F := F) d L _)) $$ H1
  ihave H2' := (Entails.of_eq (pts_b2 (F := F) d L _)) $$ H2
  ihave H3' := (Entails.of_eq (pts_mall (F := F) d L _)) $$ H3
  ihave H4' := (Entails.of_eq (pts_meanb (F := F) d L _)) $$ H4
  ihave H5' := (Entails.of_eq (pts_cmb (F := F) d L _)) $$ H5
  isplitl [Hx Hm Hd He Hc]
  · isplitl [Hx]; · iexact Hx
    isplitl [Hm]; · iexact Hm
    isplitl [Hd]; · iexact Hd
    isplitl [He]; · iexact He
    iexact Hc
  isplitl [H0' H1' H2' H3' H4' H5' Hbufs]
  · isplitl [H0']; · iexists _; iexact H0'
    isplitl [H1']; · iexists _; iexact H1'
    isplitl [H2']; · iexists _; iexact H2'
    isplitl [H3']; · iexists _; iexact H3'
    isplitl [H4']; · iexists _; iexact H4'
    isplitl [H5']; · iexists _; iexact H5'
    iexact Hbufs
  isplitl [S6 S7 S8 S9 S10 S11 S12 T0 T1 Hsems]
  · isplitl [S6 S7 S8 S9 S10 S11 S12 T0 T1]
    · isplitl [S6]; · iexact S6
      isplitl [S7]; · iexact S7
      isplitl [S8]; · iexact S8
      isplitl [S9]; · iexact S9
      isplitl [S10]; · iexact S10
      isplitl [S11]; · iexact S11
      isplitl [S12]; · iexact S12
      isplitl [T0]; · iexact T0
      iexact T1
    iexact Hsems
  iexists W'; isplitr
  · ipureintro; exact fun p hp => (hW' p hp).imp_right Or.inl
  · iexact HO

end Tile

/-! ## The launch theorem's obligation -/

theorem tileObl (m : (ℓ : Loc nD τ sig) → Buf (Elt F) ℓ) : (K (F := F)).TileObl (D (F := F)) 𝒱 (P m (Xv m) (Mv m)) v₀ 0 := by
  intro d c i O W hO _ _
  -- this kernel owes nothing for a protocol of its own
  simp only [show (P m (Xv m) (Mv m)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_wrap d (coordsV ⟨_, hc.1⟩ ⟨_, hc.2⟩) m (Xv m) (Mv m) (widN (Fin.cast nCore_zero c) (Fin.cast nSub_zero i))
    (wid_coordsV' hc.1 hc.2 (Fin.cast nCore_zero c) (Fin.cast nSub_zero i) rfl rfl) O W hO 0

end Cert.Proof.KB

end
-- ==== Proof.Common.lean ====
import proofs.«204522_g36051955483029_cont_8to1_b_1192_15_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204522_g36051955483029_cont_8to1_b_1192_15_alg».proof.Proof.Gen.KernelIdeal
import proofs.«204522_g36051955483029_cont_8to1_b_1192_15_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0

abbrev thr (d : Dev nD) (L : grid0.Coords) : Thread nD τ := V d (cV L) (jV L)

def coordsV (c : Fin (grid0.bound 0)) (s : Fin (grid0.bound 1)) : grid0.Coords :=
  fun | 0 => c | 1 => s | ⟨_ + 2, h⟩ => absurd h (Nat.not_lt.2 (Nat.le_add_left _ _))

end Cert.Proof.KI

end
-- ==== Proof.Pay.lean ====
import proofs.«204522_g36051955483029_cont_8to1_b_1192_15_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

abbrev xLoc (d : Dev nD) : Loc nD τ sig := (SparseCore.T d).loc main_v0
abbrev mLoc (d : Dev nD) : Loc nD τ sig := (SparseCore.T d).loc main_v1
abbrev dLoc (d : Dev nD) : Loc nD τ sig := (SparseCore.T d).loc main_v2_0
abbrev eLoc (d : Dev nD) : Loc nD τ sig := (SparseCore.T d).loc main_v2_1
abbrev cLoc (d : Dev nD) : Loc nD τ sig := (SparseCore.T d).loc main_v2_2

theorem hdivD : 32 ∣ S512x64x1024.size 0 := ⟨16, rfl⟩
theorem hdivE : 32 ∣ S512x1024.size 0 := ⟨16, rfl⟩
theorem hdivC : 32 ∣ S512.size 0 := ⟨16, rfl⟩

abbrev widN (c : Fin 2) (i : Fin 16) : Fin 32 := ⟨2 * i.val + c.val, by omega⟩

abbrev dRect (j : Fin 32) : Rect S512x64x1024 := Rect.part (s := S512x64x1024) (a₀ := 0) hdivD j
abbrev eRect (j : Fin 32) : Rect S512x1024 := Rect.part (s := S512x1024) (a₀ := 0) hdivE j
abbrev cRect (j : Fin 32) : Rect S512 := Rect.part (s := S512) (a₀ := 0) hdivC j
abbrev dPart (j : Fin 32) : Finset S512x64x1024.Idx := ((dV).view.slice (dRect j)).set
abbrev ePart (j : Fin 32) : Finset S512x1024.Idx := ((eV).view.slice (eRect j)).set
abbrev cPart (j : Fin 32) : Finset S512.Idx := ((cV').view.slice (cRect j)).set

abbrev tok (j : Fin 32) : PosShare TreeShare := Transfers.shareTok fullShare 32 j

variable (m : (ℓ : Loc nD τ sig) → Buf (Elt F) ℓ)
variable (Xv : (d : Dev nD) → Buf (Elt F) (xLoc d)) (Mv : (d : Dev nD) → Buf (Elt F) (mLoc d))

def tileGo (d : Dev nD) (j : Fin 32) : sProp 𝕄 :=
  iprop((xLoc d ↦{tok j} Xv d) ∗ (mLoc d ↦{tok j} Mv d) ∗ (dLoc d ↦[dPart j]{fullShare} m (dLoc d))
    ∗ (eLoc d ↦[ePart j]{fullShare} m (eLoc d)) ∗ (cLoc d ↦[cPart j]{fullShare} m (cLoc d)))

def tileTd (d : Dev nD) (j : Fin 32) : sProp 𝕄 :=
  iprop((xLoc d ↦{tok j} Xv d) ∗ (mLoc d ↦{tok j} Mv d) ∗ (∃ f, dLoc d ↦[dPart j]{fullShare} f)
    ∗ (∃ f, eLoc d ↦[ePart j]{fullShare} f) ∗ (∃ f, cLoc d ↦[cPart j]{fullShare} f))

instance tileGo_storable (d : Dev nD) (j : Fin 32) : BI.Storable (upEmb : UEmb _ 𝕄) (tileGo m Xv Mv d j) := by
  unfold tileGo; infer_instance
instance tileTd_storable (d : Dev nD) (j : Fin 32) : BI.Storable (upEmb : UEmb _ 𝕄) (tileTd (F := F) Xv Mv d j) := by
  unfold tileTd; infer_instance

def P : (K (F := F)).Pay (nD := nD) (Val := Elt F) (Name := ℕ) (U := UU) where
  st := fun q d c => match q with
    | 0 => bigSep Finset.univ fun i : Fin 16 => tileGo m Xv Mv d (widN (Fin.cast nCore_zero c) i)
  dn := fun q d c => match q with
    | 0 => bigSep Finset.univ fun i : Fin 16 => tileTd (F := F) Xv Mv d (widN (Fin.cast nCore_zero c) i)
  go := fun q d c i => match q with
    | 0 => tileGo m Xv Mv d (widN (Fin.cast nCore_zero c) (Fin.cast nSub_zero i))
  td := fun q d c i => match q with
    | 0 => tileTd (F := F) Xv Mv d (widN (Fin.cast nCore_zero c) (Fin.cast nSub_zero i))
  x := fun _ _ => iprop(emp)

instance P_storable : (P (F := F) m Xv Mv).IsStorable where
  st q d c := match q with
    | 0 => (inferInstance : BI.Storable (upEmb : UEmb _ 𝕄) (bigSep Finset.univ fun i : Fin 16 => tileGo m Xv Mv d (widN (Fin.cast nCore_zero c) i)))
  dn q d c := match q with
    | 0 => (inferInstance : BI.Storable (upEmb : UEmb _ 𝕄) (bigSep Finset.univ fun i : Fin 16 => tileTd (F := F) Xv Mv d (widN (Fin.cast nCore_zero c) i)))
  go q d c i := match q with
    | 0 => (inferInstance : BI.Storable (upEmb : UEmb _ 𝕄) (tileGo m Xv Mv d (widN (Fin.cast nCore_zero c) (Fin.cast nSub_zero i))))
  td q d c i := match q with
    | 0 => (inferInstance : BI.Storable (upEmb : UEmb _ 𝕄) (tileTd (F := F) Xv Mv d (widN (Fin.cast nCore_zero c) (Fin.cast nSub_zero i))))

end Cert.Proof.KI

end
-- ==== Proof.Launch.lean ====
import proofs.«204522_g36051955483029_cont_8to1_b_1192_15_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr held_split held_sdiff_result wp_hlo_within tcRefs after)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1

def Xv (d : Dev nD) : Buf (Elt F) (xLoc d) := shapeCast S512x64x1024 (m (aLoc d)) shapeCasts_S4x8192x1024_S512x64x1024

def Mv (d : Dev nD) : Buf (Elt F) (mLoc d) := shapeCast S512x64 (m (bLoc d)) shapeCasts_S4x8192_S512x64

variable [FloatOps F]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

abbrev a' : DevRef τ sig := Proc.devRef .tc (main_arg0 : Ref sig .tc)
abbrev b' : DevRef τ sig := Proc.devRef .tc (main_arg1 : Ref sig .tc)
abbrev x' : DevRef τ sig := Proc.devRef .tc (main_v0 : Ref sig .tc)
abbrev m' : DevRef τ sig := Proc.devRef .tc (main_v1 : Ref sig .tc)
abbrev d' : DevRef τ sig := Proc.devRef .tc (main_v2_0 : Ref sig .tc)
abbrev e' : DevRef τ sig := Proc.devRef .tc (main_v2_1 : Ref sig .tc)
abbrev c' : DevRef τ sig := Proc.devRef .tc (main_v2_2 : Ref sig .tc)
abbrev r5' : DevRef τ sig := Proc.devRef .tc (main_v5 : Ref sig .tc)
abbrev r6' : DevRef τ sig := Proc.devRef .tc (main_v6 : Ref sig .tc)
abbrev r7' : DevRef τ sig := Proc.devRef .tc (main_v7 : Ref sig .tc)
abbrev r8' : DevRef τ sig := Proc.devRef .tc (main_v8 : Ref sig .tc)

abbrev opX : HloOp τ sig (Elt F) := StableHlo.reshape main_arg0 main_v0 rfl shapeCasts_S4x8192x1024_S512x64x1024
abbrev opM : HloOp τ sig (Elt F) := StableHlo.reshape main_arg1 main_v1 rfl shapeCasts_S4x8192_S512x64

abbrev op3 : HloOp τ sig (Elt F) := StableHlo.nullary main_v3 (iotaInDim S128 32 0)
abbrev op4 : HloOp τ sig (Elt F) := StableHlo.unary main_v3 main_v4 (broadcastInDim S1x128 ![1] bcast_S128_S1x128_1 : (⟨S128, .i32⟩ : BufTy).Contents (Elt F) → (⟨S1x128, .i32⟩ : BufTy).Contents (Elt F))
abbrev op5 : HloOp τ sig (Elt F) := StableHlo.unary main_v4 main_v5 (broadcastInDim S4x128 ![0, 1] bcast_S1x128_S4x128_0_1 : (⟨S1x128, .i32⟩ : BufTy).Contents (Elt F) → (⟨S4x128, .i32⟩ : BufTy).Contents (Elt F))
abbrev op6 : HloOp τ sig (Elt F) := StableHlo.reshape main_v2_1 main_v6 rfl shapeCasts_S512x1024_S4x128x1024
abbrev op7 : HloOp τ sig (Elt F) := StableHlo.reshape main_v2_2 main_v7 rfl shapeCasts_S512_S4x128
abbrev op8 : HloOp τ sig (Elt F) := StableHlo.reshape main_v2_0 main_v8 rfl shapeCasts_S512x64x1024_S4x128x64x1024
abbrev tailOps : List (HloOp τ sig (Elt F)) := [op3, op4, op5, op6, op7, op8]

def V0 (d : Dev nD) : Valuation τ sig (Elt F) := fun b => m (d, b)
def V2 (d : Dev nD) : Valuation τ sig (Elt F) := (opM (F := F)).result ((opX (F := F)).result (V0 m d))
def V3 (d : Dev nD) (fd : Buf (Elt F) (dLoc d)) (fe : Buf (Elt F) (eLoc d)) (fc : Buf (Elt F) (cLoc d)) : Valuation τ sig (Elt F) :=
  Function.update (Function.update (Function.update (V2 m d) d' fd) e' fe) c' fc

def VF (d : Dev nD) (fd : Buf (Elt F) (dLoc d)) (fe : Buf (Elt F) (eLoc d)) (fc : Buf (Elt F) (cLoc d)) : Valuation τ sig (Elt F) :=
  after (tailOps (F := F)) (V3 m d fd fe fc)

abbrev SR : Finset (DevRef τ sig) := {r6', r7', r8', r5'}

omit [FloatOps F] in
theorem unscoped_held (d : Dev nD) :
    (unscopedBufs d (fun b => m ((SparseCore.T d).loc b)) : sProp 𝕄) = held (T d) (tcRefs τ sig) (V0 m d) := by
  unfold unscopedBufs held tcRefs
  rw [show (Finset.univ.filter fun b : Ref sig .tc => ¬ b.isScoped) = Finset.univ by decide, bigSep_map]
  rfl

theorem V2_x (d : Dev nD) : V2 m d x' = Xv m d := by
  unfold V2
  rw [StableHlo.reshape_result_ne (h := show (main_v0 : Ref sig .tc) ≠ main_v1 by decide)]
  exact StableHlo.reshape_result main_arg0 main_v0 rfl shapeCasts_S4x8192x1024_S512x64x1024 _ _ (V0 m d)
theorem V2_m (d : Dev nD) : V2 m d m' = Mv m d := by
  unfold V2
  refine (StableHlo.reshape_result main_arg1 main_v1 rfl shapeCasts_S4x8192_S512x64 _ _ _).trans ?_
  rw [StableHlo.reshape_result_ne (h := show (main_arg1 : Ref sig .tc) ≠ main_v0 by decide)]
  rfl
theorem V2_of_ne (d : Dev nD) {r : Ref sig .tc} (h0 : r ≠ main_v0) (h1 : r ≠ main_v1) :
    V2 m d (Proc.devRef .tc r) = m ((SparseCore.T d).loc r) := by
  unfold V2
  rw [StableHlo.reshape_result_ne (h := h1), StableHlo.reshape_result_ne (h := h0)]
  rfl

section Returned
variable (d : Dev nD) (fd : Buf (Elt F) (dLoc d)) (fe : Buf (Elt F) (eLoc d)) (fc : Buf (Elt F) (cLoc d))

theorem V3_d : V3 m d fd fe fc d' = fd := by
  unfold V3
  rw [Function.update_of_ne (show d' ≠ c' by decide), Function.update_of_ne (show d' ≠ e' by decide), Function.update_self]
theorem V3_e : V3 m d fd fe fc e' = fe := by
  unfold V3
  rw [Function.update_of_ne (show e' ≠ c' by decide), Function.update_self]
theorem V3_c : V3 m d fd fe fc c' = fc := by
  unfold V3
  rw [Function.update_self]
theorem V3_of_ne {b : DevRef τ sig} (hd : b ≠ d') (he : b ≠ e') (hc : b ≠ c') : V3 m d fd fe fc b = V2 m d b := by
  unfold V3
  rw [Function.update_of_ne hc, Function.update_of_ne he, Function.update_of_ne hd]

end Returned

omit [FloatOps F] in

theorem pts_parts {ℓ : Loc nD τ sig} (Kp : Fin 32 → Finset (Idx ℓ))
    (hd : ∀ i ∈ (Finset.univ : Finset (Fin 32)), ∀ j ∈ (Finset.univ : Finset (Fin 32)), i ≠ j → Disjoint (Kp i) (Kp j))
    (hc : (Finset.univ : Finset (Fin 32)).biUnion Kp = Finset.univ) (f : Buf (Elt F) ℓ) :
    (ℓ ↦{fullShare} f : sProp 𝕄) = bigSep Finset.univ fun j : Fin 32 => ℓ ↦[Kp j]{fullShare} f := by
  rw [← pointsTo_biUnion Finset.univ (ℓ := ℓ) Kp hd, hc]

omit [FloatOps F] in
theorem dPart_eq (j : Fin 32) : dPart j = (dRect j).set := by
  show ((View.whole (main_v2_0_scv : Ref sig .scVector)).slice (dRect j)).set = _
  rw [View.set_slice]; exact Finset.map_refl
omit [FloatOps F] in
theorem ePart_eq (j : Fin 32) : ePart j = (eRect j).set := by
  show ((View.whole (main_v2_1_scv : Ref sig .scVector)).slice (eRect j)).set = _
  rw [View.set_slice]; exact Finset.map_refl
omit [FloatOps F] in
theorem cPart_eq (j : Fin 32) : cPart j = (cRect j).set := by
  show ((View.whole (main_v2_2_scv : Ref sig .scVector)).slice (cRect j)).set = _
  rw [View.set_slice]; exact Finset.map_refl

omit [FloatOps F] in
theorem dParts_disjoint : ∀ i ∈ (Finset.univ : Finset (Fin 32)), ∀ j ∈ (Finset.univ : Finset (Fin 32)), i ≠ j → Disjoint (dPart i) (dPart j) :=
  fun i _ j _ h => by rw [dPart_eq, dPart_eq]; exact Rect.part_disjoint hdivD h
omit [FloatOps F] in
theorem eParts_disjoint : ∀ i ∈ (Finset.univ : Finset (Fin 32)), ∀ j ∈ (Finset.univ : Finset (Fin 32)), i ≠ j → Disjoint (ePart i) (ePart j) :=
  fun i _ j _ h => by rw [ePart_eq, ePart_eq]; exact Rect.part_disjoint hdivE h
omit [FloatOps F] in
theorem cParts_disjoint : ∀ i ∈ (Finset.univ : Finset (Fin 32)), ∀ j ∈ (Finset.univ : Finset (Fin 32)), i ≠ j → Disjoint (cPart i) (cPart j) :=
  fun i _ j _ h => by rw [cPart_eq, cPart_eq]; exact Rect.part_disjoint hdivC h
omit [FloatOps F] in
theorem dParts_cover : (Finset.univ : Finset (Fin 32)).biUnion dPart = Finset.univ :=
  (Finset.biUnion_congr rfl fun i _ => dPart_eq i).trans (Rect.biUnion_part hdivD)
omit [FloatOps F] in
theorem eParts_cover : (Finset.univ : Finset (Fin 32)).biUnion ePart = Finset.univ :=
  (Finset.biUnion_congr rfl fun i _ => ePart_eq i).trans (Rect.biUnion_part hdivE)
omit [FloatOps F] in
theorem cParts_cover : (Finset.univ : Finset (Fin 32)).biUnion cPart = Finset.univ :=
  (Finset.biUnion_congr rfl fun i _ => cPart_eq i).trans (Rect.biUnion_part hdivC)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem wid_image : ((Finset.univ : Finset (Fin 2 × Fin 16)).image fun p => widN p.1 p.2) = Finset.univ := by
  refine Finset.eq_univ_iff_forall.mpr fun j => Finset.mem_image.mpr
    ⟨(⟨j.val % 2, Nat.mod_lt _ (by decide)⟩, ⟨j.val / 2, by have := j.isLt; omega⟩), Finset.mem_univ _, Fin.ext ?_⟩
  show 2 * (j.val / 2) + j.val % 2 = j.val
  omega
theorem wid_injOn : Set.InjOn (fun p : Fin 2 × Fin 16 => widN p.1 p.2) ((Finset.univ : Finset (Fin 2 × Fin 16)) : Set _) := by
  intro a _ b _ h
  have h' : 2 * a.2.val + a.1.val = 2 * b.2.val + b.1.val := congrArg Fin.val h
  have := a.1.isLt; have := b.1.isLt
  exact Prod.ext (Fin.ext (by omega)) (Fin.ext (by omega))

omit [FloatOps F] in

theorem bigSep_wid (Φ : Fin 32 → sProp 𝕄) :
    (bigSep Finset.univ fun c : Fin 2 => bigSep Finset.univ fun i : Fin 16 => Φ (widN c i)) = bigSep Finset.univ Φ := by
  refine (bigSep_univ_prod (fun p : Fin 2 × Fin 16 => Φ (widN p.1 p.2))).symm.trans ?_
  refine (SparseCore.bigSep_image_of_injOn wid_injOn Φ).symm.trans ?_
  rw [wid_image]

section Call
variable (X : (d : Dev nD) → Buf (Elt F) (xLoc d)) (M : (d : Dev nD) → Buf (Elt F) (mLoc d)) (d : Dev nD)

theorem st0_eq : (bigSep Finset.univ fun c : Fin ((K (F := F)).nCore 0) => (P m X M).st 0 d c) = bigSep Finset.univ fun j : Fin 32 => tileGo m X M d j := by
  show (bigSep Finset.univ fun c : Fin ((K (F := F)).nCore 0) => bigSep Finset.univ fun i : Fin 16 => tileGo m X M d (widN (Fin.cast nCore_zero c) i)) = _
  rw [bigSep_cores (F := F) (fun c => bigSep Finset.univ fun i : Fin 16 => tileGo m X M d (widN c i)), bigSep_wid (F := F) (fun j => tileGo m X M d j)]

theorem go_split : (bigSep Finset.univ fun j : Fin 32 => tileGo m X M d j)
    = iprop((bigSep Finset.univ fun j : Fin 32 => xLoc d ↦{tok j} X d) ∗ (bigSep Finset.univ fun j : Fin 32 => mLoc d ↦{tok j} M d)
        ∗ (bigSep Finset.univ fun j : Fin 32 => dLoc d ↦[dPart j]{fullShare} m (dLoc d))
        ∗ (bigSep Finset.univ fun j : Fin 32 => eLoc d ↦[ePart j]{fullShare} m (eLoc d))
        ∗ (bigSep Finset.univ fun j : Fin 32 => cLoc d ↦[cPart j]{fullShare} m (cLoc d))) := by
  unfold tileGo
  rw [bigSep_sep', bigSep_sep', bigSep_sep', bigSep_sep']

theorem call_in :
    (iprop((xLoc d ↦{fullShare} X d) ∗ (mLoc d ↦{fullShare} M d) ∗ (dLoc d ↦{fullShare} m (dLoc d)) ∗ (eLoc d ↦{fullShare} m (eLoc d))
        ∗ (cLoc d ↦{fullShare} m (cLoc d))) : sProp 𝕄)
      ⊢ iprop((xLoc d ↦{Transfers.shareDrop fullShare 32} X d) ∗ (mLoc d ↦{Transfers.shareDrop fullShare 32} M d)
          ∗ bigSep Finset.univ fun c : Fin ((K (F := F)).nCore 0) => (P m X M).st 0 d c) := by
  rw [st0_eq, go_split, pts_parts (F := F) (ℓ := dLoc d) dPart dParts_disjoint dParts_cover, pts_parts (F := F) (ℓ := eLoc d) ePart eParts_disjoint eParts_cover,
    pts_parts (F := F) (ℓ := cLoc d) cPart cParts_disjoint cParts_cover]
  iintro ⟨Hx, Hm, Hd, He, Hc⟩
  ihave Hx' := (Transfers.pointsTo_toks_split fullShare 32) $$ Hx
  ihave Hm' := (Transfers.pointsTo_toks_split fullShare 32) $$ Hm
  icases Hx' with ⟨Hxk, Hxt⟩
  icases Hm' with ⟨Hmk, Hmt⟩
  isplitl [Hxk]; · iexact Hxk
  isplitl [Hmk]; · iexact Hmk
  isplitl [Hxt]; · iexact Hxt
  isplitl [Hmt]; · iexact Hmt
  isplitl [Hd]; · iexact Hd
  isplitl [He]; · iexact He
  iexact Hc

end Call

abbrev T5 : Finset (DevRef τ sig) := {x', m', d', e', c'}
abbrev TA : Finset (DevRef τ sig) := {a', b'}

omit [FloatOps F] in
theorem T5_sub : T5 ⊆ tcRefs τ sig := by
  intro b hb
  simp only [T5, Finset.mem_insert, Finset.mem_singleton] at hb
  rcases hb with rfl | rfl | rfl | rfl | rfl <;> exact StableHlo.devRef_mem_tcRefs _
omit [FloatOps F] in
theorem TA_sub : TA ⊆ tcRefs τ sig := by
  intro b hb
  simp only [TA, Finset.mem_insert, Finset.mem_singleton] at hb
  rcases hb with rfl | rfl <;> exact StableHlo.devRef_mem_tcRefs _
omit [FloatOps F] in
theorem SR_sub : SR ⊆ tcRefs τ sig \ TA := by
  intro b hb
  simp only [SR, Finset.mem_insert, Finset.mem_singleton] at hb
  rcases hb with rfl | rfl | rfl | rfl <;> exact Finset.mem_sdiff.mpr ⟨StableHlo.devRef_mem_tcRefs _, by decide⟩

omit [FloatOps F] in
theorem held_T5 (d : Dev nD) (W : Valuation τ sig (Elt F)) :
    (held (T d) T5 W : sProp 𝕄) = iprop((xLoc d ↦{fullShare} W x') ∗ (mLoc d ↦{fullShare} W m') ∗ (dLoc d ↦{fullShare} W d')
      ∗ (eLoc d ↦{fullShare} W e') ∗ (cLoc d ↦{fullShare} W c')) := by
  unfold held T5
  rw [SparseCore.bigSep_insert' (by decide), SparseCore.bigSep_insert' (by decide), SparseCore.bigSep_insert' (by decide),
    SparseCore.bigSep_insert' (by decide), bigSep_singleton]
omit [FloatOps F] in
theorem held_TA (d : Dev nD) (W : Valuation τ sig (Elt F)) :
    (held (T d) TA W : sProp 𝕄) = iprop((aLoc d ↦{fullShare} W a') ∗ (bLoc d ↦{fullShare} W b')) := by
  unfold held TA
  rw [SparseCore.bigSep_insert' (by decide), bigSep_singleton]

theorem held5_V2 (d : Dev nD) :
    (held (T d) T5 (V2 m d) : sProp 𝕄) = iprop((xLoc d ↦{fullShare} Xv m d) ∗ (mLoc d ↦{fullShare} Mv m d) ∗ (dLoc d ↦{fullShare} m (dLoc d))
      ∗ (eLoc d ↦{fullShare} m (eLoc d)) ∗ (cLoc d ↦{fullShare} m (cLoc d))) := by
  rw [held_T5, V2_x, V2_m, V2_of_ne m d (r := main_v2_0) (by decide) (by decide), V2_of_ne m d (r := main_v2_1) (by decide) (by decide),
    V2_of_ne m d (r := main_v2_2) (by decide) (by decide)]

section Returned'
variable (d : Dev nD) (fd : Buf (Elt F) (dLoc d)) (fe : Buf (Elt F) (eLoc d)) (fc : Buf (Elt F) (cLoc d))

theorem held5_V3 :
    (held (T d) T5 (V3 m d fd fe fc) : sProp 𝕄) = iprop((xLoc d ↦{fullShare} Xv m d) ∗ (mLoc d ↦{fullShare} Mv m d) ∗ (dLoc d ↦{fullShare} fd)
      ∗ (eLoc d ↦{fullShare} fe) ∗ (cLoc d ↦{fullShare} fc)) := by
  rw [held_T5, V3_of_ne m d fd fe fc (b := x') (by decide) (by decide) (by decide), V3_of_ne m d fd fe fc (b := m') (by decide) (by decide) (by decide),
    V3_d, V3_e, V3_c, V2_x, V2_m]

theorem heldRest_V3 : (held (T d) (tcRefs τ sig \ T5) (V3 m d fd fe fc) : sProp 𝕄) = held (T d) (tcRefs τ sig \ T5) (V2 m d) :=
  held_congr (T d) fun b hb => by
    have hb' := (Finset.mem_sdiff.mp hb).2
    simp only [T5, Finset.mem_insert, Finset.mem_singleton, not_or] at hb'
    exact V3_of_ne m d fd fe fc hb'.2.2.1 hb'.2.2.2.1 hb'.2.2.2.2

theorem tail_keeps {b : DevRef τ sig}
    (hb : b ∉ ({Proc.devRef .tc (main_v3 : Ref sig .tc), Proc.devRef .tc (main_v4 : Ref sig .tc), r5', r6', r7', r8'} : Finset (DevRef τ sig)))
    (W : Valuation τ sig (Elt F)) : after (tailOps (F := F)) W b = W b :=
  StableHlo.after_of_forall_not_mem _ _ fun op hop hw => by
    simp only [tailOps, List.mem_cons, List.not_mem_nil, or_false] at hop
    rcases hop with rfl | rfl | rfl | rfl | rfl | rfl <;> exact hb (by rw [Finset.mem_singleton.mp hw]; decide)

theorem VF_a : VF m d fd fe fc a' = m (aLoc d) := by
  unfold VF
  rw [tail_keeps (by decide), V3_of_ne m d fd fe fc (b := a') (by decide) (by decide) (by decide), V2_of_ne m d (r := main_arg0) (by decide) (by decide)]
theorem VF_b : VF m d fd fe fc b' = m (bLoc d) := by
  unfold VF
  rw [tail_keeps (by decide), V3_of_ne m d fd fe fc (b := b') (by decide) (by decide) (by decide), V2_of_ne m d (r := main_arg1) (by decide) (by decide)]

theorem fin_of_held :
    (held (T d) (tcRefs τ sig) (VF m d fd fe fc) : sProp 𝕄)
      ⊢ iprop((aLoc d ↦{fullShare} m (aLoc d)) ∗ (bLoc d ↦{fullShare} m (bLoc d)) ∗ held (T d) SR (VF m d fd fe fc)) := by
  rw [held_sub_split (T d) TA_sub, held_TA, VF_a, VF_b, held_sub_split (T d) SR_sub]
  iintro ⟨⟨Ha, Hb⟩, HR, -⟩
  isplitl [Ha]; · iexact Ha
  isplitl [Hb]; · iexact Hb
  iexact HR

end Returned'

theorem VF_eq (d : Dev nD) (fd : Buf (Elt F) (dLoc d)) (fe : Buf (Elt F) (eLoc d)) (fc : Buf (Elt F) (cLoc d)) :
    VF m d fd fe fc = (op8 (F := F)).result ((op7 (F := F)).result ((op6 (F := F)).result ((op5 (F := F)).result ((op4 (F := F)).result ((op3 (F := F)).result (V3 m d fd fe fc)))))) := rfl

theorem held_V2 (d : Dev nD) :
    (held (T d) (tcRefs τ sig) ((opM (F := F)).result ((opX (F := F)).result (V0 m d))) : sProp 𝕄)
      = iprop(held (T d) T5 (V2 m d) ∗ held (T d) (tcRefs τ sig \ T5) (V2 m d)) :=
  held_sub_split (T d) T5_sub (V2 m d)

end Cert.Proof.KI

end
-- ==== Proof.ColLib.lean ====
import proofs.«204522_g36051955483029_cont_8to1_b_1192_15_alg».proof.Proof.Common
import Idealize.ShloMosaic.Lib.WritesUnit
import Idealize.ShloMosaic.Lib.ValueIdx
import Idealize.ShloMosaic.Lib.Pipeline.Value

set_option maxRecDepth 65536
set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.ValueIdx

abbrev laneOf (c : ℕ) : Fin 16 := ⟨c % 16, Nat.mod_lt _ (by decide)⟩

theorem cast_S16_S1x16_apply {α : Type} (v : S16.Idx → α) (h : S16.ShapeCasts S1x16) (l : Fin 16) :
    shapeCast S1x16 v h (ix2 (0 : Fin 1) l) = v (ix1 l) :=
  shapeCast_apply v h _ _ (by
    rw [Shape.rowMajor_val_one, Shape.rowMajor_val_two]
    show l.val = 0 * 16 + l.val
    omega)

theorem cast_S1x16_S16_apply {α : Type} (v : S1x16.Idx → α) (h : S1x16.ShapeCasts S16) (l : Fin 16) :
    shapeCast S16 v h (ix1 l) = v (ix2 (0 : Fin 1) l) :=
  shapeCast_apply v h _ _ (by
    rw [Shape.rowMajor_val_one, Shape.rowMajor_val_two]
    show 0 * 16 + l.val = l.val
    omega)

theorem read_tilePieces_of_miss {sig : RefSig} {κ : Kind} {sp : Space} {s : Shape} {e : EltTy} {Val : EltTy → Type} {NT : ℕ}
    (v : View sig κ sp s e) (f : v.ty.Contents Val) (tsz : Fin s.rank → ℕ) (off : Fin NT → Fin s.rank → ℕ)
    (inb : ∀ i a, off i a + tsz a ≤ s.size a) (P : Fin NT → (⟨s.rank, tsz⟩ : Shape).Idx → Val e)
    (y : s.Idx) (ax : Fin s.rank) (hmiss : ∀ i : Fin NT, (y ax).val < off i ax ∨ off i ax + tsz ax ≤ (y ax).val) :
    ∀ (j : ℕ) (hj : j ≤ NT), v.read Val (v.writes Val f (View.tilePieces tsz off inb P j hj)) y = v.read Val f y
  | 0, _ => rfl
  | j + 1, hj => by
    rw [View.tilePieces_succ, View.read_writes_cons_unit_of_not_mem v f (inb ⟨j, hj⟩) (P ⟨j, hj⟩) _ y rfl ax (hmiss _)]
    exact read_tilePieces_of_miss v f tsz off inb P y ax hmiss j (Nat.le_of_succ_le hj)

theorem foldl_addf_lane {α : Type} (g : α → FVec F S16 .f32) (i : S16.Idx) :
    ∀ (l : List α) (init : FVec F S16 .f32),
      (l.foldl (fun a t => addf a (g t)) init) i = l.foldl (fun a t => FloatOps.addf a (g t i)) (init i)
  | [], _ => rfl
  | t :: l, init => by
    rw [List.foldl_cons, List.foldl_cons, foldl_addf_lane g i l]
    rfl

def msOf (v72 : F .f32) (v74 : F .f32) (v76 : F .f32) (v78 : F .f32) (v80 : F .f32) (v82 : F .f32) (v84 : F .f32) (v86 : F .f32) (v88 : F .f32) (v90 : F .f32) (v92 : F .f32) (v94 : F .f32) (v96 : F .f32) (v98 : F .f32) (v100 : F .f32) (v102 : F .f32) (v104 : F .f32) (v106 : F .f32) (v108 : F .f32) (v110 : F .f32) (v112 : F .f32) (v114 : F .f32) (v116 : F .f32) (v118 : F .f32) (v120 : F .f32) (v122 : F .f32) (v124 : F .f32) (v126 : F .f32) (v128 : F .f32) (v130 : F .f32) (v132 : F .f32) (v134 : F .f32) (v136 : F .f32) (v138 : F .f32) (v140 : F .f32) (v142 : F .f32) (v144 : F .f32) (v146 : F .f32) (v148 : F .f32) (v150 : F .f32) (v152 : F .f32) (v154 : F .f32) (v156 : F .f32) (v158 : F .f32) (v160 : F .f32) (v162 : F .f32) (v164 : F .f32) (v166 : F .f32) (v168 : F .f32) (v170 : F .f32) (v172 : F .f32) (v174 : F .f32) (v176 : F .f32) (v178 : F .f32) (v180 : F .f32) (v182 : F .f32) (v184 : F .f32) (v186 : F .f32) (v188 : F .f32) (v190 : F .f32) (v192 : F .f32) (v194 : F .f32) (v196 : F .f32) (v198 : F .f32) : Fin 64 → F .f32 := ![v72, v74, v76, v78, v80, v82, v84, v86, v88, v90, v92, v94, v96, v98, v100, v102, v104, v106, v108, v110, v112, v114, v116, v118, v120, v122, v124, v126, v128, v130, v132, v134, v136, v138, v140, v142, v144, v146, v148, v150, v152, v154, v156, v158, v160, v162, v164, v166, v168, v170, v172, v174, v176, v178, v180, v182, v184, v186, v188, v190, v192, v194, v196, v198]

def xmV (ms : Fin 64 → F .f32) (ld : Fin 64 → Vec F S1x16 .f32) (r : Fin 64) : FVec F S16 .f32 :=
  mulf (shapeCast S16 (ld r) shapeCasts_S1x16_S16) (broadcast S16 (ms r))

def accV (xm : Fin 64 → FVec F S16 .f32) (j : Fin 4) : FVec F S16 .f32 :=
  (List.finRange 16).foldl (fun a t => addf a (xm ⟨4 * t.val + j.val, by omega⟩)) (broadcast S16 (Scalar.ofBits .f32 0x00000000#32))

def mcV (xm : Fin 64 → FVec F S16 .f32) (rcp : FVec F S16 .f32) : FVec F S16 .f32 :=
  mulf (addf (addf (accV xm 0) (accV xm 1)) (addf (accV xm 2) (accV xm 3))) rcp

def xmS (g : S64x512.Idx → F .f32) (ms : Fin 64 → F .f32) (r : Fin 64) (c : Fin 512) : F .f32 :=
  FloatOps.mulf (g (ix2 r c)) (ms r)

def accS (g : S64x512.Idx → F .f32) (ms : Fin 64 → F .f32) (c : Fin 512) (j : Fin 4) : F .f32 :=
  (List.finRange 16).foldl (fun a t => FloatOps.addf a (xmS g ms ⟨4 * t.val + j.val, by omega⟩ c)) (Scalar.ofBits .f32 0x00000000#32)

def colMean (g : S64x512.Idx → F .f32) (ms : Fin 64 → F .f32) (rcp : FVec F S16 .f32) (c : Fin 512) : F .f32 :=
  FloatOps.mulf (FloatOps.addf (FloatOps.addf (accS g ms c 0) (accS g ms c 1)) (FloatOps.addf (accS g ms c 2) (accS g ms c 3)))
    (rcp (ix1 (laneOf c.val)))

def colDiff (g : S64x512.Idx → F .f32) (ms : Fin 64 → F .f32) (rcp : FVec F S16 .f32) : S64x512.Idx → F .f32 :=
  fun y => FloatOps.subf (colMean g ms rcp (y 1)) (xmS g ms (y 0) (y 1))

theorem accV_lane_eq (xm : Fin 64 → FVec F S16 .f32) (i : S16.Idx) (X : Fin 64 → F .f32) (h : ∀ r, xm r i = X r) (j : Fin 4) :
    accV xm j i = (List.finRange 16).foldl (fun a t => FloatOps.addf a (X ⟨4 * t.val + j.val, by omega⟩)) (Scalar.ofBits .f32 0x00000000#32) := by
  unfold accV
  rw [foldl_addf_lane]
  simp only [h]
  rfl

theorem mcV_lane_eq (xm : Fin 64 → FVec F S16 .f32) (rcp : FVec F S16 .f32) (g : S64x512.Idx → F .f32) (ms : Fin 64 → F .f32)
    (c : Fin 512) (h : ∀ r, xm r (ix1 (laneOf c.val)) = xmS g ms r c) :
    mcV xm rcp (ix1 (laneOf c.val)) = colMean g ms rcp c := by
  show FloatOps.mulf (FloatOps.addf (FloatOps.addf (accV xm 0 _) (accV xm 1 _)) (FloatOps.addf (accV xm 2 _) (accV xm 3 _))) _ = _
  rw [accV_lane_eq xm _ (fun r => xmS g ms r c) h 0, accV_lane_eq xm _ (fun r => xmS g ms r c) h 1,
    accV_lane_eq xm _ (fun r => xmS g ms r c) h 2, accV_lane_eq xm _ (fun r => xmS g ms r c) h 3]
  rfl

theorem colMean_congr (g g' : S64x512.Idx → F .f32) (ms : Fin 64 → F .f32) (rcp : FVec F S16 .f32) (c : Fin 512)
    (h : ∀ r : Fin 64, g (ix2 r c) = g' (ix2 r c)) : colMean g ms rcp c = colMean g' ms rcp c := by
  simp only [colMean, accS, xmS, h]

theorem colDiff_congr (g g' : S64x512.Idx → F .f32) (ms : Fin 64 → F .f32) (rcp : FVec F S16 .f32) (y : S64x512.Idx)
    (h : ∀ r : Fin 64, g (ix2 r (y 1)) = g' (ix2 r (y 1))) : colDiff g ms rcp y = colDiff g' ms rcp y := by
  show FloatOps.subf (colMean g ms rcp (y 1)) (xmS g ms (y 0) (y 1)) = FloatOps.subf (colMean g' ms rcp (y 1)) (xmS g' ms (y 0) (y 1))
  rw [colMean_congr g g' ms rcp (y 1) h]
  exact congrArg (fun v => FloatOps.subf (colMean g' ms rcp (y 1)) (FloatOps.mulf v (ms (y 0)))) (h (y 0))

end Cert.Proof.KI

end
-- ==== Proof.Spec.lean ====
import proofs.«204522_g36051955483029_cont_8to1_b_1192_15_alg».proof.Proof.ColLib

noncomputable section

namespace Cert.Proof.KI

open Cert.KernelIdeal Cert.KernelIdeal.Gen
open Idealize.ShloMosaic Idealize.ShloMosaic.ValueIdx

variable {F : FTy → Type} [FloatOps F]

def cntF (ms : Fin 64 → F .f32) : F .f32 :=
  (List.finRange 63).foldl (fun a t => Scalar.addf a (ms ⟨t.val + 1, by omega⟩)) (ms 0)

def rcpF (ms : Fin 64 → F .f32) : FVec F S16 .f32 :=
  divf (broadcast S16 (Scalar.ofBits .f32 0x3F800000#32))
    (addf (broadcast S16 (cntF ms)) (broadcast S16 (Scalar.ofBits .f32 0x38D1B717#32)))

def cmF (ms : Fin 64 → F .f32) : F .f32 :=
  Scalar.sitofp .f32 (Scalar.extui (Scalar.cmpf .ogt (cntF ms) (Scalar.ofBits .f32 0x00000000#32)))

def msU (M : S512x64.Idx → F .f32) (u : Fin 512) : Fin 64 → F .f32 := fun r => M (ix2 u r)

def blkU (X : S512x64x1024.Idx → F .f32) (u : Fin 512) (h : Fin 2) : S64x512.Idx → F .f32 :=
  fun y => X (ix3 u (y 0) ⟨512 * h.val + (y 1).val, by have h1 : (y 1).val < 512 := (y 1).isLt; have := h.isLt; omega⟩)

abbrev halfOf (c : Fin 1024) : Fin 2 := ⟨c.val / 512, by have := c.isLt; omega⟩
abbrev colOf (c : Fin 1024) : Fin 512 := ⟨c.val % 512, Nat.mod_lt _ (by decide)⟩

def Dsp (X : S512x64x1024.Idx → F .f32) (M : S512x64.Idx → F .f32) : S512x64x1024.Idx → F .f32 :=
  fun i => colDiff (blkU X (i 0) (halfOf (i 2))) (msU M (i 0)) (rcpF (msU M (i 0))) (ix2 (i 1) (colOf (i 2)))

def Esp (X : S512x64x1024.Idx → F .f32) (M : S512x64.Idx → F .f32) : S512x1024.Idx → F .f32 :=
  fun j => colMean (blkU X (j 0) (halfOf (j 1))) (msU M (j 0)) (rcpF (msU M (j 0))) (colOf (j 1))

def Csp (M : S512x64.Idx → F .f32) : S512.Idx → F .f32 :=
  fun j => cmF (msU M (j 0))

end Cert.Proof.KI

end
-- ==== Proof.VPay.lean ====
import proofs.«204522_g36051955483029_cont_8to1_b_1192_15_alg».proof.Proof.Pay
import proofs.«204522_g36051955483029_cont_8to1_b_1192_15_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable [FloatOps F]
variable (m : (ℓ : Loc nD τ sig) → Buf (Elt F) ℓ)
variable (Xv : (d : Dev nD) → Buf (Elt F) (xLoc d)) (Mv : (d : Dev nD) → Buf (Elt F) (mLoc d))

abbrev dVal (d : Dev nD) : Buf (Elt F) (dLoc d) := Dsp (F := F) (Xv d) (Mv d)
abbrev eVal (d : Dev nD) : Buf (Elt F) (eLoc d) := Esp (F := F) (Xv d) (Mv d)
abbrev cVal (d : Dev nD) : Buf (Elt F) (cLoc d) := Csp (F := F) (Mv d)

def tileTdV (d : Dev nD) (j : Fin 32) : sProp 𝕄 :=
  iprop((xLoc d ↦{tok j} Xv d) ∗ (mLoc d ↦{tok j} Mv d) ∗ (dLoc d ↦[dPart j]{fullShare} dVal Xv Mv d)
    ∗ (eLoc d ↦[ePart j]{fullShare} eVal Xv Mv d) ∗ (cLoc d ↦[cPart j]{fullShare} cVal Mv d))

instance tileTdV_storable (d : Dev nD) (j : Fin 32) : BI.Storable (upEmb : UEmb _ 𝕄) (tileTdV (F := F) Xv Mv d j) := by
  unfold tileTdV; infer_instance

def PV : (K (F := F)).Pay (nD := nD) (Val := Elt F) (Name := ℕ) (U := UU) where
  st := fun q d c => match q with
    | 0 => bigSep Finset.univ fun i : Fin 16 => tileGo m Xv Mv d (widN (Fin.cast nCore_zero c) i)
  dn := fun q d c => match q with
    | 0 => bigSep Finset.univ fun i : Fin 16 => tileTdV (F := F) Xv Mv d (widN (Fin.cast nCore_zero c) i)
  go := fun q d c i => match q with
    | 0 => tileGo m Xv Mv d (widN (Fin.cast nCore_zero c) (Fin.cast nSub_zero i))
  td := fun q d c i => match q with
    | 0 => tileTdV (F := F) Xv Mv d (widN (Fin.cast nCore_zero c) (Fin.cast nSub_zero i))
  x := fun _ _ => iprop(emp)

instance PV_storable : (PV (F := F) m Xv Mv).IsStorable where
  st q d c := match q with
    | 0 => (inferInstance : BI.Storable (upEmb : UEmb _ 𝕄) (bigSep Finset.univ fun i : Fin 16 => tileGo m Xv Mv d (widN (Fin.cast nCore_zero c) i)))
  dn q d c := match q with
    | 0 => (inferInstance : BI.Storable (upEmb : UEmb _ 𝕄) (bigSep Finset.univ fun i : Fin 16 => tileTdV (F := F) Xv Mv d (widN (Fin.cast nCore_zero c) i)))
  go q d c i := match q with
    | 0 => (inferInstance : BI.Storable (upEmb : UEmb _ 𝕄) (tileGo m Xv Mv d (widN (Fin.cast nCore_zero c) (Fin.cast nSub_zero i))))
  td q d c i := match q with
    | 0 => (inferInstance : BI.Storable (upEmb : UEmb _ 𝕄) (tileTdV (F := F) Xv Mv d (widN (Fin.cast nCore_zero c) (Fin.cast nSub_zero i))))

end Cert.Proof.KI

end
-- ==== Proof.VLaunch.lean ====
import proofs.«204522_g36051955483029_cont_8to1_b_1192_15_alg».proof.Proof.Launch
import proofs.«204522_g36051955483029_cont_8to1_b_1192_15_alg».proof.Proof.VPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr held_split held_sdiff_result wp_hlo_within tcRefs after)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable (m : (ℓ : Loc nD τ sig) → Buf (Elt F) ℓ) (ρ : Dev nD → PrngReg)

variable [FloatOps F]

theorem vecSplitV : (K (F := F)).VecSplit' (PV m (Xv m) (Mv m)) 0 := by
  intro d c
  show (bigSep Finset.univ fun i : Fin 16 => tileGo m (Xv m) (Mv m) d (widN (Fin.cast nCore_zero c) i)) ⊢ |={Set.univ}=> iprop(
      (bigSep Finset.univ fun i : Fin ((K (F := F)).nSub 0) => tileGo m (Xv m) (Mv m) d (widN (Fin.cast nCore_zero c) (Fin.cast nSub_zero i)))
      ∗ ((bigSep Finset.univ fun i : Fin ((K (F := F)).nSub 0) => tileTdV (F := F) (Xv m) (Mv m) d (widN (Fin.cast nCore_zero c) (Fin.cast nSub_zero i)))
          -∗ bigSep Finset.univ fun i : Fin 16 => tileTdV (F := F) (Xv m) (Mv m) d (widN (Fin.cast nCore_zero c) i)))
  rw [bigSep_tasks (F := F) (fun i => tileGo m (Xv m) (Mv m) d (widN (Fin.cast nCore_zero c) i)),
    bigSep_tasks (F := F) (fun i => tileTdV (F := F) (Xv m) (Mv m) d (widN (Fin.cast nCore_zero c) i))]
  iintro H; imodintro
  isplitl [H]; · iexact H
  iintro H; iexact H

theorem hu₀V : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PV m (Xv m) (Mv m)).x q thr) := by
  unfold u₀
  iintro Hu
  ihave H := (ownU_pair _ _) $$ Hu
  icases H with ⟨HH, -⟩
  imodintro
  isplitl [HH]; · iexact HH
  isplitr; · rw [bigSep_emp']; iempintro
  unfold PV; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

section Call
variable (X : (d : Dev nD) → Buf (Elt F) (xLoc d)) (M : (d : Dev nD) → Buf (Elt F) (mLoc d)) (d : Dev nD)

theorem dn0_eqV : (bigSep Finset.univ fun c : Fin ((K (F := F)).nCore 0) => (PV m X M).dn 0 d c) = bigSep Finset.univ fun j : Fin 32 => tileTdV (F := F) X M d j := by
  show (bigSep Finset.univ fun c : Fin ((K (F := F)).nCore 0) => bigSep Finset.univ fun i : Fin 16 => tileTdV (F := F) X M d (widN (Fin.cast nCore_zero c) i)) = _
  rw [bigSep_cores (F := F) (fun c => bigSep Finset.univ fun i : Fin 16 => tileTdV (F := F) X M d (widN c i)), bigSep_wid (F := F) (fun j => tileTdV (F := F) X M d j)]

theorem tdV_split : (bigSep Finset.univ fun j : Fin 32 => tileTdV (F := F) X M d j)
    = iprop((bigSep Finset.univ fun j : Fin 32 => xLoc d ↦{tok j} X d) ∗ (bigSep Finset.univ fun j : Fin 32 => mLoc d ↦{tok j} M d)
        ∗ (bigSep Finset.univ fun j : Fin 32 => dLoc d ↦[dPart j]{fullShare} dVal X M d)
        ∗ (bigSep Finset.univ fun j : Fin 32 => eLoc d ↦[ePart j]{fullShare} eVal X M d)
        ∗ (bigSep Finset.univ fun j : Fin 32 => cLoc d ↦[cPart j]{fullShare} cVal M d)) := by
  unfold tileTdV
  rw [bigSep_sep', bigSep_sep', bigSep_sep', bigSep_sep']

theorem call_inV :
    (iprop((xLoc d ↦{fullShare} X d) ∗ (mLoc d ↦{fullShare} M d) ∗ (dLoc d ↦{fullShare} m (dLoc d)) ∗ (eLoc d ↦{fullShare} m (eLoc d))
        ∗ (cLoc d ↦{fullShare} m (cLoc d))) : sProp 𝕄)
      ⊢ iprop((xLoc d ↦{Transfers.shareDrop fullShare 32} X d) ∗ (mLoc d ↦{Transfers.shareDrop fullShare 32} M d)
          ∗ bigSep Finset.univ fun c : Fin ((K (F := F)).nCore 0) => (PV m X M).st 0 d c) :=
  call_in m X M d

theorem call_outV :
    (iprop((xLoc d ↦{Transfers.shareDrop fullShare 32} X d) ∗ (mLoc d ↦{Transfers.shareDrop fullShare 32} M d)
        ∗ bigSep Finset.univ fun c : Fin ((K (F := F)).nCore 0) => (PV m X M).dn 0 d c) : sProp 𝕄)
      ⊢ iprop((xLoc d ↦{fullShare} X d) ∗ (mLoc d ↦{fullShare} M d) ∗ (dLoc d ↦{fullShare} dVal X M d) ∗ (eLoc d ↦{fullShare} eVal X M d)
          ∗ (cLoc d ↦{fullShare} cVal M d)) := by
  rw [dn0_eqV, tdV_split, pts_parts (F := F) (ℓ := dLoc d) dPart dParts_disjoint dParts_cover (dVal X M d),
    pts_parts (F := F) (ℓ := eLoc d) ePart eParts_disjoint eParts_cover (eVal X M d),
    pts_parts (F := F) (ℓ := cLoc d) cPart cParts_disjoint cParts_cover (cVal M d)]
  iintro ⟨Hxk, Hmk, Hxt, Hmt, Hd, He, Hc⟩
  isplitl [Hxk Hxt]
  · iapply (Transfers.pointsTo_toks_join fullShare 32)
    isplitl [Hxk]; · iexact Hxk
    iexact Hxt
  isplitl [Hmk Hmt]
  · iapply (Transfers.pointsTo_toks_join fullShare 32)
    isplitl [Hmk]; · iexact Hmk
    iexact Hmt
  isplitl [Hd]; · iexact Hd
  isplitl [He]; · iexact He
  iexact Hc

end Call

abbrev rD (d : Dev nD) : Buf (Elt F) (dLoc d) := dVal (F := F) (Xv m) (Mv m) d
abbrev rE (d : Dev nD) : Buf (Elt F) (eLoc d) := eVal (F := F) (Xv m) (Mv m) d
abbrev rC (d : Dev nD) : Buf (Elt F) (cLoc d) := cVal (F := F) (Mv m) d

def FINV (d : Dev nD) : sProp 𝕄 :=
  iprop((aLoc d ↦{fullShare} m (aLoc d)) ∗ (bLoc d ↦{fullShare} m (bLoc d)) ∗ held (T d) SR (VF m d (rD m d) (rE m d) (rC m d)))

theorem hmainV (κ : GSem nD τ sig → ℕ) (d : Dev nD) :
    iprop((K (F := F)).ctx EH (PV m (Xv m) (Mv m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FINV m d) := by
  unfold SparseCore.Cfg.tcRes
  rw [unscoped_held]
  simp only [main, wp_bind, wp_pure]
  iintro ⟨#Hctx, Hst, ⟨Hb, Hheld, -, -⟩, -⟩

  iapply (wp_hlo_within 𝒱 (SparseCore.T d) none Set.univ (op := opX) (S := tcRefs τ sig) (StableHlo.reshape_bufs_sub _ _ _ _ _ _) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opM) (S := tcRefs τ sig) (StableHlo.reshape_bufs_sub _ _ _ _ _ _) (V := (opX (F := F)).result (V0 m d))) $$ [Hb Hheld]
  · isplitl [Hb]; · iexact Hb
    iexact Hheld
  iintro ⟨Hb, Hheld⟩
  rw [wp_ret]; imodintro

  ihave Hh := (Entails.of_eq (held_V2 m d)) $$ Hheld
  icases Hh with ⟨H5, Hrest⟩
  ihave H5' := (Entails.of_eq (held5_V2 m d)) $$ H5
  ihave Hin := (call_inV m (Xv m) (Mv m) d) $$ H5'
  icases Hin with ⟨Hxk, Hmk, Hgo⟩
  iapply ((K (F := F)).wp_run (D (F := F)) 𝒱 (EH := EH) (P := PV m (Xv m) (Mv m)) κ d 0) $$ [Hst Hgo Hb Hrest Hxk Hmk]
  isplitr; · iexact Hctx
  isplitl [Hst]; · iexact Hst
  isplitl [Hgo]; · iexact Hgo
  iintro ⟨Hst, Hdn⟩

  ihave Hout := (call_outV m (Xv m) (Mv m) d) $$ [Hxk Hmk Hdn]
  · isplitl [Hxk]; · iexact Hxk
    isplitl [Hmk]; · iexact Hmk
    iexact Hdn
  icases Hout with ⟨Hx, Hm, Hd, He, Hc⟩
  ihave Hheld := (Entails.of_eq (held_sub_split (SparseCore.T d) T5_sub (V3 m d (rD m d) (rE m d) (rC m d))).symm) $$ [Hx Hm Hd He Hc Hrest]
  · rw [held5_V3, heldRest_V3]
    isplitr [Hrest]
    · isplitl [Hx]; · iexact Hx
      isplitl [Hm]; · iexact Hm
      isplitl [Hd]; · iexact Hd
      isplitl [He]; · iexact He
      iexact Hc
    · iexact Hrest

  iapply (wp_hlo_within 𝒱 (SparseCore.T d) none Set.univ (op := op3) (S := tcRefs τ sig) (StableHlo.nullary_bufs_sub _ _ _) (V := V3 m d (rD m d) (rE m d) (rC m d))) $$ [Hb Hheld]
  · isplitl [Hb]; · iexact Hb
    iexact Hheld
  iintro ⟨Hb, Hheld⟩
  rw [wp_ret]; imodintro
  iapply (wp_hlo_within 𝒱 (SparseCore.T d) none Set.univ (op := op4) (S := tcRefs τ sig) (StableHlo.unary_bufs_sub _ _ _ _ _) (V := (op3 (F := F)).result (V3 m d (rD m d) (rE m d) (rC m d)))) $$ [Hb Hheld]
  · isplitl [Hb]; · iexact Hb
    iexact Hheld
  iintro ⟨Hb, Hheld⟩
  rw [wp_ret]; imodintro
  iapply (wp_hlo_within 𝒱 (SparseCore.T d) none Set.univ (op := op5) (S := tcRefs τ sig) (StableHlo.unary_bufs_sub _ _ _ _ _) (V := (op4 (F := F)).result ((op3 (F := F)).result (V3 m d (rD m d) (rE m d) (rC m d))))) $$ [Hb Hheld]
  · isplitl [Hb]; · iexact Hb
    iexact Hheld
  iintro ⟨Hb, Hheld⟩
  rw [wp_ret]; imodintro
  iapply (wp_hlo_within 𝒱 (SparseCore.T d) none Set.univ (op := op6) (S := tcRefs τ sig) (StableHlo.reshape_bufs_sub _ _ _ _ _ _) (V := (op5 (F := F)).result ((op4 (F := F)).result ((op3 (F := F)).result (V3 m d (rD m d) (rE m d) (rC m d)))))) $$ [Hb Hheld]
  · isplitl [Hb]; · iexact Hb
    iexact Hheld
  iintro ⟨Hb, Hheld⟩
  rw [wp_ret]; imodintro
  iapply (wp_hlo_within 𝒱 (SparseCore.T d) none Set.univ (op := op7) (S := tcRefs τ sig) (StableHlo.reshape_bufs_sub _ _ _ _ _ _) (V := (op6 (F := F)).result ((op5 (F := F)).result ((op4 (F := F)).result ((op3 (F := F)).result (V3 m d (rD m d) (rE m d) (rC m d))))))) $$ [Hb Hheld]
  · isplitl [Hb]; · iexact Hb
    iexact Hheld
  iintro ⟨Hb, Hheld⟩
  rw [wp_ret]; imodintro
  iapply (wp_hlo_within 𝒱 (SparseCore.T d) none Set.univ (op := op8) (S := tcRefs τ sig) (StableHlo.reshape_bufs_sub _ _ _ _ _ _) (V := (op7 (F := F)).result ((op6 (F := F)).result ((op5 (F := F)).result ((op4 (F := F)).result ((op3 (F := F)).result (V3 m d (rD m d) (rE m d) (rC m d)))))))) $$ [Hb Hheld]
  · isplitl [Hb]; · iexact Hb
    iexact Hheld
  iintro ⟨Hb, Hheld⟩
  rw [wp_ret]; imodintro
  imodintro
  ihave Hf := (fin_of_held m d (rD m d) (rE m d) (rC m d)) $$ [Hheld]
  · rw [VF_eq]; iexact Hheld
  icases Hf with ⟨Ha, Hb', HR⟩
  isplitl [Hst]; · iexact Hst
  unfold FINV
  isplitl [Ha]; · iexact Ha
  isplitl [Hb']; · iexact Hb'
  iexact HR

section Results
variable (d : Dev nD) (fd : Buf (Elt F) (dLoc d)) (fe : Buf (Elt F) (eLoc d)) (fc : Buf (Elt F) (cLoc d))

theorem VF_r6 : VF m d fd fe fc r6' = shapeCast S4x128x1024 fe shapeCasts_S512x1024_S4x128x1024 := by
  unfold VF
  after_results
  rw [V3_e]
  try rfl

theorem VF_r7 : VF m d fd fe fc r7' = shapeCast S4x128 fc shapeCasts_S512_S4x128 := by
  unfold VF
  after_results
  rw [V3_c]
  try rfl

theorem VF_r8 : VF m d fd fe fc r8' = shapeCast S4x128x64x1024 fd shapeCasts_S512x64x1024_S4x128x64x1024 := by
  unfold VF
  after_results
  rw [V3_d]
  try rfl

theorem VF_r5 : VF m d fd fe fc r5'
    = (broadcastInDim S4x128 ![0, 1] bcast_S1x128_S4x128_0_1 (broadcastInDim S1x128 ![1] bcast_S128_S1x128_1 (iotaInDim S128 32 0 : (⟨S128, .i32⟩ : BufTy).Contents (Elt F)) : (⟨S1x128, .i32⟩ : BufTy).Contents (Elt F)) : (⟨S4x128, .i32⟩ : BufTy).Contents (Elt F)) := by
  unfold VF
  after_results
  try rfl

omit [FloatOps F] in
theorem held_SR (W : Valuation τ sig (Elt F)) :
    (held (T d) SR W : sProp 𝕄) = iprop(((SparseCore.T d).loc main_v6 ↦{fullShare} W r6') ∗ ((SparseCore.T d).loc main_v7 ↦{fullShare} W r7')
      ∗ ((SparseCore.T d).loc main_v8 ↦{fullShare} W r8') ∗ ((SparseCore.T d).loc main_v5 ↦{fullShare} W r5')) := by
  unfold held SR
  rw [SparseCore.bigSep_insert' (by decide), SparseCore.bigSep_insert' (by decide), SparseCore.bigSep_insert' (by decide), bigSep_singleton]

end Results

def fqV (d : Dev nD) (s' : Phys nD τ sig (Elt F)) : Prop :=
  s'.mem.mem ((SparseCore.T d).loc main_v6) = shapeCast S4x128x1024 (rE m d) shapeCasts_S512x1024_S4x128x1024
  ∧ s'.mem.mem ((SparseCore.T d).loc main_v7) = shapeCast S4x128 (rC m d) shapeCasts_S512_S4x128
  ∧ s'.mem.mem ((SparseCore.T d).loc main_v8) = shapeCast S4x128x64x1024 (rD m d) shapeCasts_S512x64x1024_S4x128x64x1024
  ∧ s'.mem.mem ((SparseCore.T d).loc main_v5)
      = (broadcastInDim S4x128 ![0, 1] bcast_S1x128_S4x128_0_1 (broadcastInDim S1x128 ![1] bcast_S128_S1x128_1 (iotaInDim S128 32 0 : (⟨S128, .i32⟩ : BufTy).Contents (Elt F)) : (⟨S1x128, .i32⟩ : BufTy).Contents (Elt F)) : (⟨S4x128, .i32⟩ : BufTy).Contents (Elt F))
  ∧ s'.mem.mem (aLoc d) = m (aLoc d) ∧ s'.mem.mem (bLoc d) = m (bLoc d)

theorem hfinV (d : Dev nD) (s' : Phys nD τ sig (Elt F)) : iprop(FINV m d ∗ SI s') ⊢ (⌜fqV m d s'⌝ : sProp 𝕄) := by
  unfold FINV
  rw [held_SR, VF_r6, VF_r7, VF_r8, VF_r5]
  iintro ⟨⟨Ha, Hb, H6, H7, H8, H5⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%hb, HSI, -⟩
  ihave H := (persistent_entails_right (SI_pointsTo_agree (st := s') (ℓ := (SparseCore.T d).loc main_v6) (I := Finset.univ) (q := fullShare))) $$ [HSI H6]
  · isplitl [HSI] <;> iassumption
  icases H with ⟨%h6, HSI, -⟩
  ihave H := (persistent_entails_right (SI_pointsTo_agree (st := s') (ℓ := (SparseCore.T d).loc main_v7) (I := Finset.univ) (q := fullShare))) $$ [HSI H7]
  · isplitl [HSI] <;> iassumption
  icases H with ⟨%h7, HSI, -⟩
  ihave H := (persistent_entails_right (SI_pointsTo_agree (st := s') (ℓ := (SparseCore.T d).loc main_v8) (I := Finset.univ) (q := fullShare))) $$ [HSI H8]
  · isplitl [HSI] <;> iassumption
  icases H with ⟨%h8, HSI, -⟩
  ihave H := (SI_pointsTo_agree (st := s') (ℓ := (SparseCore.T d).loc main_v5) (I := Finset.univ) (q := fullShare)) $$ [HSI H5]
  · isplitl [HSI] <;> iassumption
  icases H with %h5
  ipureintro
  exact ⟨funext fun i => h6 i (Finset.mem_univ i), funext fun i => h7 i (Finset.mem_univ i), funext fun i => h8 i (Finset.mem_univ i),
    funext fun i => h5 i (Finset.mem_univ i), funext fun i => ha i (Finset.mem_univ i), funext fun i => hb i (Finset.mem_univ i)⟩

def QCV : PUnit × MemSt nD τ sig (Elt F) → Prop := fun r => ∀ c : Dev nD,
  r.2.mem ((c.tc : Thread nD τ).loc main_v6) = shapeCast S4x128x1024 (rE m c) shapeCasts_S512x1024_S4x128x1024
  ∧ r.2.mem ((c.tc : Thread nD τ).loc main_v7) = shapeCast S4x128 (rC m c) shapeCasts_S512_S4x128
  ∧ r.2.mem ((c.tc : Thread nD τ).loc main_v8) = shapeCast S4x128x64x1024 (rD m c) shapeCasts_S512x64x1024_S4x128x64x1024
  ∧ r.2.mem ((c.tc : Thread nD τ).loc main_v5)
      = (broadcastInDim S4x128 ![0, 1] bcast_S1x128_S4x128_0_1 (broadcastInDim S1x128 ![1] bcast_S128_S1x128_1 (iotaInDim S128 32 0 : (⟨S128, .i32⟩ : BufTy).Contents (Elt F)) : (⟨S1x128, .i32⟩ : BufTy).Contents (Elt F)) : (⟨S4x128, .i32⟩ : BufTy).Contents (Elt F))
  ∧ r.2.mem ((c.tc : Thread nD τ).loc main_arg0) = m ((c.tc : Thread nD τ).loc main_arg0)
  ∧ r.2.mem ((c.tc : Thread nD τ).loc main_arg1) = m ((c.tc : Thread nD τ).loc main_arg1)

theorem run_value [∀ e, Nonempty (Elt F e)] (hobl : (K (F := F)).TileObl (D (F := F)) 𝒱 (PV m (Xv m) (Mv m)) v₀ 0) :
    θ_run (defs (F := F)) (threads (F := F)) ⟨m, fun _ => 0, ρ⟩ (QCV m) :=
  SparseCore.Cfg.θ_run_sc (K := K (F := F)) (D := D (F := F)) (𝒱 := 𝒱) (EH := EH) (P := PV m (Xv m) (Mv m)) facts v₀
    (fun q hq => match q with | 0 => nomatch hq)
    (fun q _ => match q with | 0 => hobl)
    (fun q _ => match q with | 0 => SparseCore.Cfg.VecSplit.of_plain (vecSplitV m))
    m ρ main (fun _ => iprop(emp)) (FINV m) (u₀ (F := F)) (sep_elim_left.trans (hu₀V m)) (hmainV m ρ) (fqV m) (hfinV m) (QCV m) (fun _ h => h)

end Cert.Proof.KI

end
-- ==== Proof.SliceDefs.lean ====
import proofs.«204522_g36051955483029_cont_8to1_b_1192_15_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

abbrev xsl (o : Fin 3 → Nat) (ho : ∀ a, o a + S1x64x512.size a ≤ S512x64x1024.size a) : Memref sig .scVector .hbm S64x512 .f32 :=
  ((xV).slice (Rect.unit (s := S512x64x1024) o S1x64x512.size ho) (fun _ => rfl)).squeeze S64x512 squeezes_S1x64x512_S64x512
abbrev dsl (o : Fin 3 → Nat) (ho : ∀ a, o a + S1x64x512.size a ≤ S512x64x1024.size a) : Memref sig .scVector .hbm S64x512 .f32 :=
  ((dV).slice (Rect.unit (s := S512x64x1024) o S1x64x512.size ho) (fun _ => rfl)).squeeze S64x512 squeezes_S1x64x512_S64x512
abbrev esl (o : Fin 2 → Nat) (ho : ∀ a, o a + S1x1024.size a ≤ S512x1024.size a) : Memref sig .scVector .hbm S1024 .f32 :=
  ((eV).slice (Rect.unit (s := S512x1024) o S1x1024.size ho) (fun _ => rfl)).squeeze S1024 squeezes_S1x1024_S1024
abbrev csl (o : Fin 1 → Nat) (ho : ∀ a, o a + S16.size a ≤ S512.size a) : Memref sig .scVector .hbm S16 .f32 :=
  (cV').slice (Rect.unit (s := S512) o S16.size ho) (fun _ => rfl)

def base (L : grid0.Coords) : ℕ := 32 * (L 1).val + 16 * (L 0).val

theorem base_le (L : grid0.Coords) : base L ≤ 496 := by
  have h1 : (L 1).val < 16 := (L 1).isLt
  have h0 : (L 0).val < 2 := (L 0).isLt
  unfold base; omega

def uo3 (L : grid0.Coords) (j c : ℕ) : Fin 3 → Nat := ![base L + min j 15, 0, min c 512]

def uo2 (L : grid0.Coords) (j : ℕ) : Fin 2 → Nat := ![base L + min j 15, 0]

def uo1 (L : grid0.Coords) : Fin 1 → Nat := ![base L]

theorem uo3_inb (L : grid0.Coords) (j c : ℕ) : ∀ a, uo3 L j c a + S1x64x512.size a ≤ S512x64x1024.size a := by
  have hb := base_le L
  intro a; fin_cases a <;> simp [uo3] <;> omega
theorem uo2_inb (L : grid0.Coords) (j : ℕ) : ∀ a, uo2 L j a + S1x1024.size a ≤ S512x1024.size a := by
  have hb := base_le L
  intro a; fin_cases a <;> simp [uo2] <;> omega
theorem uo1_inb (L : grid0.Coords) : ∀ a, uo1 L a + S16.size a ≤ S512.size a := by
  have hb := base_le L
  intro a; fin_cases a; simp [uo1]; omega

abbrev dS (L : grid0.Coords) (j c : ℕ) : Finset S512x64x1024.Idx := (dsl (uo3 L j c) (uo3_inb L j c)).view.set
abbrev eS (L : grid0.Coords) (j : ℕ) : Finset S512x1024.Idx := (esl (uo2 L j) (uo2_inb L j)).view.set
abbrev cS (L : grid0.Coords) : Finset S512.Idx := (csl (uo1 L) (uo1_inb L)).view.set

def wid (L : grid0.Coords) : Fin 32 := ⟨2 * (L 1).val + (L 0).val, by
  have h1 : (L 1).val < 16 := (L 1).isLt
  have h0 : (L 0).val < 2 := (L 0).isLt
  omega⟩

end Cert.Proof.KI

end
-- ==== Proof.Slices.lean ====
import proofs.«204522_g36051955483029_cont_8to1_b_1192_15_alg».proof.Proof.SliceDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "xV" => (Memref.whole Cert.KernelIdeal.main_v0_scv : Memref Cert.KernelIdeal.sig Kind.scVector Space.hbm Cert.KernelIdeal.S512x64x1024 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)

theorem dsl_set (o : Fin 3 → Nat) (ho : ∀ a, o a + S1x64x512.size a ≤ S512x64x1024.size a) :
    (dsl o ho).view.set = (Rect.unit (s := S512x64x1024) o S1x64x512.size ho).set := by
  show (((View.whole (main_v2_0_scv : Ref sig .scVector)).slice (Rect.unit (s := S512x64x1024) o S1x64x512.size ho)).reshape S64x512
    squeezes_S1x64x512_S64x512.numel_eq).set = _
  rw [View.set_reshape, View.set_slice_whole]
theorem esl_set (o : Fin 2 → Nat) (ho : ∀ a, o a + S1x1024.size a ≤ S512x1024.size a) :
    (esl o ho).view.set = (Rect.unit (s := S512x1024) o S1x1024.size ho).set := by
  show (((View.whole (main_v2_1_scv : Ref sig .scVector)).slice (Rect.unit (s := S512x1024) o S1x1024.size ho)).reshape S1024
    squeezes_S1x1024_S1024.numel_eq).set = _
  rw [View.set_reshape, View.set_slice_whole]
theorem csl_set (o : Fin 1 → Nat) (ho : ∀ a, o a + S16.size a ≤ S512.size a) :
    (csl o ho).view.set = (Rect.unit (s := S512) o S16.size ho).set := by
  show ((View.whole (main_v2_2_scv : Ref sig .scVector)).slice (Rect.unit (s := S512) o S16.size ho)).set = _
  rw [View.set_slice_whole]

theorem dPart_eq_rect (j : Fin 32) : dPart j = (dRect j).set := by
  show ((View.whole (main_v2_0_scv : Ref sig .scVector)).slice (dRect j)).set = _
  rw [View.set_slice_whole]
theorem ePart_eq_rect (j : Fin 32) : ePart j = (eRect j).set := by
  show ((View.whole (main_v2_1_scv : Ref sig .scVector)).slice (eRect j)).set = _
  rw [View.set_slice_whole]
theorem cPart_eq_rect (j : Fin 32) : cPart j = (cRect j).set := by
  show ((View.whole (main_v2_2_scv : Ref sig .scVector)).slice (cRect j)).set = _
  rw [View.set_slice_whole]

theorem mem_unit3 (o : Fin 3 → Nat) (ho : ∀ a, o a + S1x64x512.size a ≤ S512x64x1024.size a) (i : S512x64x1024.Idx) :
    i ∈ (Rect.unit (s := S512x64x1024) o S1x64x512.size ho).set ↔ (i 0 : Nat) = o 0 ∧ o 2 ≤ (i 2 : Nat) ∧ (i 2 : Nat) < o 2 + 512 := by
  rw [Rect.mem_set_unit]
  constructor
  · intro H
    have H0 : o 0 ≤ (i 0 : Nat) ∧ (i 0 : Nat) < o 0 + 1 := H 0
    have H2 : o 2 ≤ (i 2 : Nat) ∧ (i 2 : Nat) < o 2 + 512 := H 2
    omega
  · rintro ⟨e0, l2, u2⟩ a
    match a with
    | 0 => show o 0 ≤ (i 0 : Nat) ∧ (i 0 : Nat) < o 0 + 1; omega
    | 1 => have h1 : (i 1 : Nat) < 64 := (i 1).isLt
           have ho1 : o 1 + 64 ≤ 64 := ho 1
           show o 1 ≤ (i 1 : Nat) ∧ (i 1 : Nat) < o 1 + 64; omega
    | 2 => show o 2 ≤ (i 2 : Nat) ∧ (i 2 : Nat) < o 2 + 512; omega

theorem mem_unit2 (o : Fin 2 → Nat) (ho : ∀ a, o a + S1x1024.size a ≤ S512x1024.size a) (i : S512x1024.Idx) :
    i ∈ (Rect.unit (s := S512x1024) o S1x1024.size ho).set ↔ (i 0 : Nat) = o 0 := by
  rw [Rect.mem_set_unit]
  constructor
  · intro H
    have H0 : o 0 ≤ (i 0 : Nat) ∧ (i 0 : Nat) < o 0 + 1 := H 0
    omega
  · intro e0 a
    match a with
    | 0 => show o 0 ≤ (i 0 : Nat) ∧ (i 0 : Nat) < o 0 + 1; omega
    | 1 => have h1 : (i 1 : Nat) < 1024 := (i 1).isLt
           have ho1 : o 1 + 1024 ≤ 1024 := ho 1
           show o 1 ≤ (i 1 : Nat) ∧ (i 1 : Nat) < o 1 + 1024; omega

theorem mem_unit1 (o : Fin 1 → Nat) (ho : ∀ a, o a + S16.size a ≤ S512.size a) (i : S512.Idx) :
    i ∈ (Rect.unit (s := S512) o S16.size ho).set ↔ o 0 ≤ (i 0 : Nat) ∧ (i 0 : Nat) < o 0 + 16 := by
  rw [Rect.mem_set_unit]
  constructor
  · intro H; exact H 0
  · intro H a
    match a with
    | 0 => exact H

theorem mem_dsl (o : Fin 3 → Nat) (ho : ∀ a, o a + S1x64x512.size a ≤ S512x64x1024.size a) (i : S512x64x1024.Idx) :
    i ∈ (dsl o ho).view.set ↔ (i 0 : Nat) = o 0 ∧ o 2 ≤ (i 2 : Nat) ∧ (i 2 : Nat) < o 2 + 512 := by rw [dsl_set, mem_unit3]
theorem mem_esl (o : Fin 2 → Nat) (ho : ∀ a, o a + S1x1024.size a ≤ S512x1024.size a) (i : S512x1024.Idx) :
    i ∈ (esl o ho).view.set ↔ (i 0 : Nat) = o 0 := by rw [esl_set, mem_unit2]
theorem mem_csl (o : Fin 1 → Nat) (ho : ∀ a, o a + S16.size a ≤ S512.size a) (i : S512.Idx) :
    i ∈ (csl o ho).view.set ↔ o 0 ≤ (i 0 : Nat) ∧ (i 0 : Nat) < o 0 + 16 := by rw [csl_set, mem_unit1]

theorem mem_dS (L : grid0.Coords) (j c : ℕ) (i : S512x64x1024.Idx) :
    i ∈ dS L j c ↔ (i 0 : Nat) = base L + min j 15 ∧ min c 512 ≤ (i 2 : Nat) ∧ (i 2 : Nat) < min c 512 + 512 := mem_dsl _ _ i
theorem mem_eS (L : grid0.Coords) (j : ℕ) (i : S512x1024.Idx) : i ∈ eS L j ↔ (i 0 : Nat) = base L + min j 15 := mem_esl _ _ i
theorem mem_cS (L : grid0.Coords) (i : S512.Idx) : i ∈ cS L ↔ base L ≤ (i 0 : Nat) ∧ (i 0 : Nat) < base L + 16 := mem_csl _ _ i

theorem mem_dPart (j : Fin 32) (i : S512x64x1024.Idx) : i ∈ dPart j ↔ 16 * j.val ≤ (i 0 : Nat) ∧ (i 0 : Nat) < 16 * j.val + 16 := by
  rw [dPart_eq_rect, Rect.mem_set_unit]
  constructor
  · intro H
    have H0 : j.val * 16 ≤ (i 0 : Nat) ∧ (i 0 : Nat) < j.val * 16 + 16 := H 0
    omega
  · intro H a
    match a with
    | 0 => show j.val * 16 ≤ (i 0 : Nat) ∧ (i 0 : Nat) < j.val * 16 + 16; omega
    | 1 => have h1 : (i 1 : Nat) < 64 := (i 1).isLt
           show 0 * 64 ≤ (i 1 : Nat) ∧ (i 1 : Nat) < 0 * 64 + 64; omega
    | 2 => have h2 : (i 2 : Nat) < 1024 := (i 2).isLt
           show 0 * 1024 ≤ (i 2 : Nat) ∧ (i 2 : Nat) < 0 * 1024 + 1024; omega
theorem mem_ePart (j : Fin 32) (i : S512x1024.Idx) : i ∈ ePart j ↔ 16 * j.val ≤ (i 0 : Nat) ∧ (i 0 : Nat) < 16 * j.val + 16 := by
  rw [ePart_eq_rect, Rect.mem_set_unit]
  constructor
  · intro H
    have H0 : j.val * 16 ≤ (i 0 : Nat) ∧ (i 0 : Nat) < j.val * 16 + 16 := H 0
    omega
  · intro H a
    match a with
    | 0 => show j.val * 16 ≤ (i 0 : Nat) ∧ (i 0 : Nat) < j.val * 16 + 16; omega
    | 1 => have h1 : (i 1 : Nat) < 1024 := (i 1).isLt
           show 0 * 1024 ≤ (i 1 : Nat) ∧ (i 1 : Nat) < 0 * 1024 + 1024; omega
theorem mem_cPart (j : Fin 32) (i : S512.Idx) : i ∈ cPart j ↔ 16 * j.val ≤ (i 0 : Nat) ∧ (i 0 : Nat) < 16 * j.val + 16 := by
  rw [cPart_eq_rect, Rect.mem_set_unit]
  constructor
  · intro H
    have H0 : j.val * 16 ≤ (i 0 : Nat) ∧ (i 0 : Nat) < j.val * 16 + 16 := H 0
    omega
  · intro H a
    match a with
    | 0 => show j.val * 16 ≤ (i 0 : Nat) ∧ (i 0 : Nat) < j.val * 16 + 16; omega

theorem wid_val (L : grid0.Coords) : (wid L).val = 2 * (L 1).val + (L 0).val := rfl

theorem base_eq (L : grid0.Coords) : base L = 16 * (wid L).val := by rw [wid_val]; unfold base; omega

theorem dS_subset (L : grid0.Coords) (j c : ℕ) (hc : c = 0 ∨ c = 512) : dS L j c ⊆ dPart (wid L) := by
  intro i hi
  rw [mem_dS] at hi
  rw [mem_dPart, ← base_eq]
  omega
theorem eS_subset (L : grid0.Coords) (j : ℕ) : eS L j ⊆ ePart (wid L) := by
  intro i hi
  rw [mem_eS] at hi
  rw [mem_ePart, ← base_eq]
  omega

theorem dS_disjoint (L : grid0.Coords) {j c j' c' : ℕ} (hj : j < 16) (hj' : j' < 16) (hc : c = 0 ∨ c = 512) (hc' : c' = 0 ∨ c' = 512)
    (hne : j ≠ j' ∨ c ≠ c') : Disjoint (dS L j c) (dS L j' c') := by
  rw [Finset.disjoint_left]
  intro i hi hi'
  rw [mem_dS] at hi hi'
  omega
theorem eS_disjoint (L : grid0.Coords) {j j' : ℕ} (hj : j < 16) (hj' : j' < 16) (hne : j ≠ j') : Disjoint (eS L j) (eS L j') := by
  rw [Finset.disjoint_left]
  intro i hi hi'
  rw [mem_eS] at hi hi'
  omega

theorem cS_eq (L : grid0.Coords) : cS L = cPart (wid L) := by
  ext i
  rw [mem_cS, mem_cPart, ← base_eq]

theorem wid_coordsV' {a b : ℕ} (ha : a < grid0.bound 0) (hb : b < grid0.bound 1) (c : Fin 2) (i : Fin 16) (hc : c.val = a) (hi : i.val = b) :
    wid (coordsV ⟨a, ha⟩ ⟨b, hb⟩) = widN c i := by
  subst hc hi; rfl

end Cert.Proof.KI

end
-- ==== Proof.TileObl.lean ====
import proofs.«204522_g36051955483029_cont_8to1_b_1192_15_alg».proof.Proof.Launch
import proofs.«204522_g36051955483029_cont_8to1_b_1192_15_alg».proof.Proof.Slices

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable [FloatOps F]

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) mV (Memref.isWhole_whole _) dV (Memref.isWhole_whole _) eV (Memref.isWhole_whole _) cV' (Memref.isWhole_whole _)
          b0 (Memref.isWhole_whole _) b1 (Memref.isWhole_whole _) b2 (Memref.isWhole_whole _) mall (Memref.isWhole_whole _) meanb (Memref.isWhole_whole _) cmb (Memref.isWhole_whole _)
          cc0_scratch6 cc0_scratch7 cc0_scratch8 cc0_scratch9 cc0_scratch10 cc0_scratch11 cc0_scratch12 cc0_scoped0 cc0_scoped1) ⟨⟩ c s := rfl

section Tile

variable (d : Dev nD) (L : grid0.Coords)

omit [FloatOps F] in
theorem pts_b0 (f : Buf (Elt F) ((thr d L).loc cc0_scratch0)) :
    ((b0).view.loc (thr d L) ↦[(b0).view.set]{fullShare} f : sProp 𝕄) = (thr d L).loc cc0_scratch0 ↦{fullShare} f := by
  rw [View.set_whole]
omit [FloatOps F] in
theorem pts_b1 (f : Buf (Elt F) ((thr d L).loc cc0_scratch1)) :
    ((b1).view.loc (thr d L) ↦[(b1).view.set]{fullShare} f : sProp 𝕄) = (thr d L).loc cc0_scratch1 ↦{fullShare} f := by
  rw [View.set_whole]
omit [FloatOps F] in
theorem pts_b2 (f : Buf (Elt F) ((thr d L).loc cc0_scratch2)) :
    ((b2).view.loc (thr d L) ↦[(b2).view.set]{fullShare} f : sProp 𝕄) = (thr d L).loc cc0_scratch2 ↦{fullShare} f := by
  rw [View.set_whole]
omit [FloatOps F] in
theorem pts_mall (f : Buf (Elt F) ((thr d L).loc cc0_scratch3)) :
    ((mall).view.loc (thr d L) ↦[(mall).view.set]{fullShare} f : sProp 𝕄) = (thr d L).loc cc0_scratch3 ↦{fullShare} f := by
  rw [View.set_whole]
omit [FloatOps F] in
theorem pts_meanb (f : Buf (Elt F) ((thr d L).loc cc0_scratch4)) :
    ((meanb).view.loc (thr d L) ↦[(meanb).view.set]{fullShare} f : sProp 𝕄) = (thr d L).loc cc0_scratch4 ↦{fullShare} f := by
  rw [View.set_whole]
omit [FloatOps F] in
theorem pts_cmb (f : Buf (Elt F) ((thr d L).loc cc0_scratch5)) :
    ((cmb).view.loc (thr d L) ↦[(cmb).view.set]{fullShare} f : sProp 𝕄) = (thr d L).loc cc0_scratch5 ↦{fullShare} f := by
  rw [View.set_whole]

abbrev csem (k : Nat) (hk : k < 9 := by decide) : DmaSem sig := ⟨k, hk⟩
abbrev dcell (d : Dev nD) (c : Fin τ.nSC) (i : Fin τ.nSub) (k : Fin 9) : GSem nD τ sig := (V d c i, .dma (csem k.val k.isLt))

abbrev cells0 (d : Dev nD) (L : grid0.Coords) : sProp 𝕄 :=
  iprop(semVal (thr d L, SemLoc.dma cc0_scratch6.sem) 0 ∗ semVal (thr d L, SemLoc.dma cc0_scratch7.sem) 0 ∗ semVal (thr d L, SemLoc.dma cc0_scratch8.sem) 0
    ∗ semVal (thr d L, SemLoc.dma cc0_scratch9.sem) 0 ∗ semVal (thr d L, SemLoc.dma cc0_scratch10.sem) 0 ∗ semVal (thr d L, SemLoc.dma cc0_scratch11.sem) 0
    ∗ semVal (thr d L, SemLoc.dma cc0_scratch12.sem) 0 ∗ semVal (thr d L, SemLoc.dma cc0_scoped0.sem) 0 ∗ semVal (thr d L, SemLoc.dma cc0_scoped1.sem) 0)

omit [FloatOps F] in
theorem dcell_mem (c : Fin τ.nSC) (i : Fin τ.nSub) (k : Fin 9) : dcell d c i k ∈ ownCells (V d c i) :=
  mem_ownCells.mpr ⟨rfl, (show ∀ s : DmaSem sig, (SemLoc.dma s : SemLoc sig).isScoped .scVector = true by decide) _⟩

omit [FloatOps F] in

theorem ownSems0_V :
    (ownSems0 (thr d L) : sProp 𝕄)
      = iprop(cells0 d L
          ∗ bigSep ((ownCells (thr d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 9)) = {0, 1, 2, 3, 4, 5, 6, 7, 8} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

omit [FloatOps F] in

theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ bigSep (((((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3)).erase ((Proc.scVector (cV L) (jV L)).devRef cc0_scratch4)).erase
              ((Proc.scVector (cV L) (jV L)).devRef cc0_scratch5))
              fun b => iprop(∃ f, ((d, b) : Loc nD τ sig) ↦{fullShare} f)) := by
  unfold SparseCore.Cfg.ownBufs
  have hne : ∀ {r r' : Ref sig .scVector}, r ≠ r' → (Proc.scVector (cV L) (jV L)).devRef r ≠ (Proc.scVector (cV L) (jV L)).devRef r' :=
    fun h e => h (Proc.devRef_injective _ e)
  have m0 := SparseCore.Cfg.mem_ownRefs_of_owner (p := Proc.scVector (cV L) (jV L)) (b := (Proc.scVector (cV L) (jV L)).devRef cc0_scratch0) rfl
  have m1 := SparseCore.Cfg.mem_ownRefs_of_owner (p := Proc.scVector (cV L) (jV L)) (b := (Proc.scVector (cV L) (jV L)).devRef cc0_scratch1) rfl
  have m2 := SparseCore.Cfg.mem_ownRefs_of_owner (p := Proc.scVector (cV L) (jV L)) (b := (Proc.scVector (cV L) (jV L)).devRef cc0_scratch2) rfl
  have m3 := SparseCore.Cfg.mem_ownRefs_of_owner (p := Proc.scVector (cV L) (jV L)) (b := (Proc.scVector (cV L) (jV L)).devRef cc0_scratch3) rfl
  have m4 := SparseCore.Cfg.mem_ownRefs_of_owner (p := Proc.scVector (cV L) (jV L)) (b := (Proc.scVector (cV L) (jV L)).devRef cc0_scratch4) rfl
  have m5 := SparseCore.Cfg.mem_ownRefs_of_owner (p := Proc.scVector (cV L) (jV L)) (b := (Proc.scVector (cV L) (jV L)).devRef cc0_scratch5) rfl
  refine (SparseCore.bigSep_erase' m0).trans ?_
  rw [SparseCore.bigSep_erase' (Finset.mem_erase.mpr ⟨hne (show (cc0_scratch1 : Ref sig .scVector) ≠ cc0_scratch0 by decide), m1⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide), m2⟩⟩),
    SparseCore.bigSep_erase' (Finset.mem_erase.mpr ⟨hne (show (cc0_scratch3 : Ref sig .scVector) ≠ cc0_scratch2 by decide),
      Finset.mem_erase.mpr ⟨hne (show (cc0_scratch3 : Ref sig .scVector) ≠ cc0_scratch1 by decide),
      Finset.mem_erase.mpr ⟨hne (show (cc0_scratch3 : Ref sig .scVector) ≠ cc0_scratch0 by decide), m3⟩⟩⟩),
    SparseCore.bigSep_erase' (Finset.mem_erase.mpr ⟨hne (show (cc0_scratch4 : Ref sig .scVector) ≠ cc0_scratch3 by decide),
      Finset.mem_erase.mpr ⟨hne (show (cc0_scratch4 : Ref sig .scVector) ≠ cc0_scratch2 by decide),
      Finset.mem_erase.mpr ⟨hne (show (cc0_scratch4 : Ref sig .scVector) ≠ cc0_scratch1 by decide),
      Finset.mem_erase.mpr ⟨hne (show (cc0_scratch4 : Ref sig .scVector) ≠ cc0_scratch0 by decide), m4⟩⟩⟩⟩),
    SparseCore.bigSep_erase' (Finset.mem_erase.mpr ⟨hne (show (cc0_scratch5 : Ref sig .scVector) ≠ cc0_scratch4 by decide),
      Finset.mem_erase.mpr ⟨hne (show (cc0_scratch5 : Ref sig .scVector) ≠ cc0_scratch3 by decide),
      Finset.mem_erase.mpr ⟨hne (show (cc0_scratch5 : Ref sig .scVector) ≠ cc0_scratch2 by decide),
      Finset.mem_erase.mpr ⟨hne (show (cc0_scratch5 : Ref sig .scVector) ≠ cc0_scratch1 by decide),
      Finset.mem_erase.mpr ⟨hne (show (cc0_scratch5 : Ref sig .scVector) ≠ cc0_scratch0 by decide), m5⟩⟩⟩⟩⟩)]

end Tile

end Cert.Proof.KI

end
-- ==== Proof.Conds.lean ====
import proofs.«204522_g36051955483029_cont_8to1_b_1192_15_alg».proof.Proof.Common

namespace Cert.Proof.KI

open Cert.KernelIdeal Cert.KernelIdeal.Gen

open Idealize.ShloMosaic

theorem trips_lt (k : Fin k0_t1_loop.trips) : k.val < 16 := k.isLt

theorem not_cond1_iff : ∀ k : Fin k0_t1_loop.trips, ¬ k0_cond1 k = 1#1 ↔ k.val % 3 = 0 := by decide
theorem cond12_mod : ∀ k : Fin k0_t1_loop.trips, k0_cond1 k = 1#1 ∧ k0_cond2 k = 1#1 ↔ k.val % 3 = 2 := by decide
theorem cond1n2_mod : ∀ k : Fin k0_t1_loop.trips, k0_cond1 k = 1#1 ∧ ¬ k0_cond2 k = 1#1 ↔ k.val % 3 = 1 := by decide

theorem cond3_iff : ∀ k : Fin k0_t1_loop.trips, k0_cond3 k = 1#1 ↔ 0 < k.val := by decide
theorem cond5_iff : ∀ k : Fin k0_t1_loop.trips, k0_cond5 k = 1#1 ↔ 0 < k.val := by decide
theorem cond7_iff : ∀ k : Fin k0_t1_loop.trips, k0_cond7 k = 1#1 ↔ 0 < k.val := by decide
theorem cond9_iff : ∀ k : Fin k0_t1_loop.trips, k0_cond9 k = 1#1 ↔ 0 < k.val := by decide
theorem cond11_iff : ∀ k : Fin k0_t1_loop.trips, k0_cond11 k = 1#1 ↔ 0 < k.val := by decide
theorem cond13_iff : ∀ k : Fin k0_t1_loop.trips, k0_cond13 k = 1#1 ↔ 0 < k.val := by decide

theorem cond4_iff : ∀ k : Fin k0_t1_loop.trips, k0_cond4 k = 1#1 ↔ k.val + 1 < 16 := by decide
theorem cond6_iff : ∀ k : Fin k0_t1_loop.trips, k0_cond6 k = 1#1 ↔ k.val + 1 < 16 := by decide
theorem cond8_iff : ∀ k : Fin k0_t1_loop.trips, k0_cond8 k = 1#1 ↔ k.val + 1 < 16 := by decide
theorem cond10_iff : ∀ k : Fin k0_t1_loop.trips, k0_cond10 k = 1#1 ↔ k.val + 1 < 16 := by decide
theorem cond12_iff : ∀ k : Fin k0_t1_loop.trips, k0_cond12 k = 1#1 ↔ k.val + 1 < 16 := by decide
theorem cond14_iff : ∀ k : Fin k0_t1_loop.trips, k0_cond14 k = 1#1 ↔ k.val + 1 < 16 := by decide

end Cert.Proof.KI
-- ==== Proof.Canon.lean ====
import proofs.«204522_g36051955483029_cont_8to1_b_1192_15_alg».proof.Proof.SliceDefs
import proofs.«204522_g36051955483029_cont_8to1_b_1192_15_alg».proof.Proof.Conds

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

theorem uo3_of_le (L : grid0.Coords) {j c : ℕ} (hj : j ≤ 15) (hc : c ≤ 512) : uo3 L j c = ![base L + j, 0, c] := by
  unfold uo3; rw [Nat.min_eq_left hj, Nat.min_eq_left hc]
theorem uo2_of_le (L : grid0.Coords) {j : ℕ} (hj : j ≤ 15) : uo2 L j = ![base L + j, 0] := by
  unfold uo2; rw [Nat.min_eq_left hj]

theorem xset_congr {o o' : Fin 3 → Nat} (e : o = o') (ho : ∀ a, o a + S1x64x512.size a ≤ S512x64x1024.size a)
    (ho' : ∀ a, o' a + S1x64x512.size a ≤ S512x64x1024.size a) : (xsl o ho).view.set = (xsl o' ho').view.set := by
  subst e; rfl
theorem dset_congr {o o' : Fin 3 → Nat} (e : o = o') (ho : ∀ a, o a + S1x64x512.size a ≤ S512x64x1024.size a)
    (ho' : ∀ a, o' a + S1x64x512.size a ≤ S512x64x1024.size a) : (dsl o ho).view.set = (dsl o' ho').view.set := by
  subst e; rfl
theorem eset_congr {o o' : Fin 2 → Nat} (e : o = o') (ho : ∀ a, o a + S1x1024.size a ≤ S512x1024.size a)
    (ho' : ∀ a, o' a + S1x1024.size a ≤ S512x1024.size a) : (esl o ho).view.set = (esl o' ho').view.set := by
  subst e; rfl
theorem cset_congr {o o' : Fin 1 → Nat} (e : o = o') (ho : ∀ a, o a + S16.size a ≤ S512.size a)
    (ho' : ∀ a, o' a + S16.size a ≤ S512.size a) : (csl o ho).view.set = (csl o' ho').view.set := by
  subst e; rfl

end Cert.Proof.KI

end
-- ==== Proof.Inv.lean ====
import proofs.«204522_g36051955483029_cont_8to1_b_1192_15_alg».proof.Proof.Canon
import proofs.«204522_g36051955483029_cont_8to1_b_1192_15_alg».proof.Proof.Slices

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords) (q : PosShare TreeShare)
variable (X : Buf (Elt F) ((xV).view.loc (thr d L)))

def lentD (k : ℕ) : Finset S512x64x1024.Idx :=
  if k = 0 then ∅ else if k < 16 then dS L (k - 1) 512 else (dS L 14 512 ∪ dS L 15 0) ∪ dS L 15 512

def lentE (k : ℕ) : Finset S512x1024.Idx := if k = 0 then ∅ else eS L (k - 1)

def xRest (k : ℕ) : sProp 𝕄 :=
  if k < 16 then ((xV).view.loc (thr d L) ↦[(Finset.univ \ (xsl (uo3 L k 0) (uo3_inb L k 0)).view.set) \ (xsl (uo3 L k 512) (uo3_inb L k 512)).view.set]{q} X)
  else ((xV).view.loc (thr d L) ↦{q} X)

def pipe0 : sProp 𝕄 :=
  iprop(∃ fA fB fC gm,
    Transfers.Flight countersEmb (thr d L) (SemLoc.dma cc0_scratch6.sem) (default : HIx 1) 1048576 iprop(((b0).view.loc (thr d L) ↦[(b0).view.set]{fullShare} fA) ∗ ((xV).view.loc (thr d L) ↦[(xsl (uo3 L 0 0) (uo3_inb L 0 0)).view.set]{q} X))
    ∗ Transfers.Flight countersEmb (thr d L) (SemLoc.dma cc0_scratch7.sem) (default : HIx 1) 1048576 iprop(((b1).view.loc (thr d L) ↦[(b1).view.set]{fullShare} fB) ∗ ((xV).view.loc (thr d L) ↦[(xsl (uo3 L 0 512) (uo3_inb L 0 512)).view.set]{q} X))
    ∗ ((b2).view.loc (thr d L) ↦[(b2).view.set]{fullShare} fC) ∗ ((meanb).view.loc (thr d L) ↦[(meanb).view.set]{fullShare} gm)
    ∗ semVal ((thr d L), SemLoc.dma cc0_scratch8.sem) 0 ∗ semVal ((thr d L), SemLoc.dma cc0_scratch9.sem) 0 ∗ semVal ((thr d L), SemLoc.dma cc0_scratch10.sem) 0 ∗ semVal ((thr d L), SemLoc.dma cc0_scratch11.sem) 0 ∗ semVal ((thr d L), SemLoc.dma cc0_scratch12.sem) 0)

def pipeMid0 (k : ℕ) : sProp 𝕄 :=
  iprop(∃ fA fB fC gm fd fe,
    Transfers.Flight countersEmb (thr d L) (SemLoc.dma cc0_scratch6.sem) (default : HIx 1) 1048576 iprop(((b0).view.loc (thr d L) ↦[(b0).view.set]{fullShare} fA) ∗ ((xV).view.loc (thr d L) ↦[(xsl (uo3 L k 0) (uo3_inb L k 0)).view.set]{q} X))
        ∗ Transfers.Flight countersEmb (thr d L) (SemLoc.dma cc0_scratch7.sem) (default : HIx 1) 1048576 iprop(((b1).view.loc (thr d L) ↦[(b1).view.set]{fullShare} fB) ∗ ((xV).view.loc (thr d L) ↦[(xsl (uo3 L k 512) (uo3_inb L k 512)).view.set]{q} X))
        ∗ Transfers.Flight countersEmb (thr d L) (SemLoc.dma cc0_scratch11.sem) (default : HIx 1) 1048576 iprop(((dsl (uo3 L (k - 1) 512) (uo3_inb L (k - 1) 512)).view.loc (thr d L) ↦[(dsl (uo3 L (k - 1) 512) (uo3_inb L (k - 1) 512)).view.set]{fullShare} fd) ∗ ((b2).view.loc (thr d L) ↦[(b2).view.set]{fullShare} fC))
        ∗ Transfers.Flight countersEmb (thr d L) (SemLoc.dma cc0_scratch12.sem) (default : HIx 1) 32768 iprop(((esl (uo2 L (k - 1)) (uo2_inb L (k - 1))).view.loc (thr d L) ↦[(esl (uo2 L (k - 1)) (uo2_inb L (k - 1))).view.set]{fullShare} fe) ∗ ((meanb).view.loc (thr d L) ↦[(meanb).view.set]{fullShare} gm))
        ∗ semVal ((thr d L), SemLoc.dma cc0_scratch9.sem) 0
        ∗ semVal ((thr d L), SemLoc.dma cc0_scratch10.sem) 0
        ∗ semVal ((thr d L), SemLoc.dma cc0_scratch8.sem) 0)

def pipeMid1 (k : ℕ) : sProp 𝕄 :=
  iprop(∃ fA fB fC gm fd fe,
    Transfers.Flight countersEmb (thr d L) (SemLoc.dma cc0_scratch8.sem) (default : HIx 1) 1048576 iprop(((b2).view.loc (thr d L) ↦[(b2).view.set]{fullShare} fA) ∗ ((xV).view.loc (thr d L) ↦[(xsl (uo3 L k 0) (uo3_inb L k 0)).view.set]{q} X))
        ∗ Transfers.Flight countersEmb (thr d L) (SemLoc.dma cc0_scratch6.sem) (default : HIx 1) 1048576 iprop(((b0).view.loc (thr d L) ↦[(b0).view.set]{fullShare} fB) ∗ ((xV).view.loc (thr d L) ↦[(xsl (uo3 L k 512) (uo3_inb L k 512)).view.set]{q} X))
        ∗ Transfers.Flight countersEmb (thr d L) (SemLoc.dma cc0_scratch10.sem) (default : HIx 1) 1048576 iprop(((dsl (uo3 L (k - 1) 512) (uo3_inb L (k - 1) 512)).view.loc (thr d L) ↦[(dsl (uo3 L (k - 1) 512) (uo3_inb L (k - 1) 512)).view.set]{fullShare} fd) ∗ ((b1).view.loc (thr d L) ↦[(b1).view.set]{fullShare} fC))
        ∗ Transfers.Flight countersEmb (thr d L) (SemLoc.dma cc0_scratch12.sem) (default : HIx 1) 32768 iprop(((esl (uo2 L (k - 1)) (uo2_inb L (k - 1))).view.loc (thr d L) ↦[(esl (uo2 L (k - 1)) (uo2_inb L (k - 1))).view.set]{fullShare} fe) ∗ ((meanb).view.loc (thr d L) ↦[(meanb).view.set]{fullShare} gm))
        ∗ semVal ((thr d L), SemLoc.dma cc0_scratch11.sem) 0
        ∗ semVal ((thr d L), SemLoc.dma cc0_scratch9.sem) 0
        ∗ semVal ((thr d L), SemLoc.dma cc0_scratch7.sem) 0)

def pipeMid2 (k : ℕ) : sProp 𝕄 :=
  iprop(∃ fA fB fC gm fd fe,
    Transfers.Flight countersEmb (thr d L) (SemLoc.dma cc0_scratch7.sem) (default : HIx 1) 1048576 iprop(((b1).view.loc (thr d L) ↦[(b1).view.set]{fullShare} fA) ∗ ((xV).view.loc (thr d L) ↦[(xsl (uo3 L k 0) (uo3_inb L k 0)).view.set]{q} X))
        ∗ Transfers.Flight countersEmb (thr d L) (SemLoc.dma cc0_scratch8.sem) (default : HIx 1) 1048576 iprop(((b2).view.loc (thr d L) ↦[(b2).view.set]{fullShare} fB) ∗ ((xV).view.loc (thr d L) ↦[(xsl (uo3 L k 512) (uo3_inb L k 512)).view.set]{q} X))
        ∗ Transfers.Flight countersEmb (thr d L) (SemLoc.dma cc0_scratch9.sem) (default : HIx 1) 1048576 iprop(((dsl (uo3 L (k - 1) 512) (uo3_inb L (k - 1) 512)).view.loc (thr d L) ↦[(dsl (uo3 L (k - 1) 512) (uo3_inb L (k - 1) 512)).view.set]{fullShare} fd) ∗ ((b0).view.loc (thr d L) ↦[(b0).view.set]{fullShare} fC))
        ∗ Transfers.Flight countersEmb (thr d L) (SemLoc.dma cc0_scratch12.sem) (default : HIx 1) 32768 iprop(((esl (uo2 L (k - 1)) (uo2_inb L (k - 1))).view.loc (thr d L) ↦[(esl (uo2 L (k - 1)) (uo2_inb L (k - 1))).view.set]{fullShare} fe) ∗ ((meanb).view.loc (thr d L) ↦[(meanb).view.set]{fullShare} gm))
        ∗ semVal ((thr d L), SemLoc.dma cc0_scratch10.sem) 0
        ∗ semVal ((thr d L), SemLoc.dma cc0_scratch11.sem) 0
        ∗ semVal ((thr d L), SemLoc.dma cc0_scratch6.sem) 0)

def pipeEnd : sProp 𝕄 :=
  iprop(∃ fA fB fC gm fd0 fd1 fd2 fe,
    Transfers.Flight countersEmb (thr d L) (SemLoc.dma cc0_scratch9.sem) (default : HIx 1) 1048576 iprop(((dsl (uo3 L 15 0) (uo3_inb L 15 0)).view.loc (thr d L) ↦[(dsl (uo3 L 15 0) (uo3_inb L 15 0)).view.set]{fullShare} fd0) ∗ ((b0).view.loc (thr d L) ↦[(b0).view.set]{fullShare} fA))
    ∗ Transfers.Flight countersEmb (thr d L) (SemLoc.dma cc0_scratch10.sem) (default : HIx 1) 1048576 iprop(((dsl (uo3 L 15 512) (uo3_inb L 15 512)).view.loc (thr d L) ↦[(dsl (uo3 L 15 512) (uo3_inb L 15 512)).view.set]{fullShare} fd1) ∗ ((b1).view.loc (thr d L) ↦[(b1).view.set]{fullShare} fB))
    ∗ Transfers.Flight countersEmb (thr d L) (SemLoc.dma cc0_scratch11.sem) (default : HIx 1) 1048576 iprop(((dsl (uo3 L 14 512) (uo3_inb L 14 512)).view.loc (thr d L) ↦[(dsl (uo3 L 14 512) (uo3_inb L 14 512)).view.set]{fullShare} fd2) ∗ ((b2).view.loc (thr d L) ↦[(b2).view.set]{fullShare} fC))
    ∗ Transfers.Flight countersEmb (thr d L) (SemLoc.dma cc0_scratch12.sem) (default : HIx 1) 32768 iprop(((esl (uo2 L 15) (uo2_inb L 15)).view.loc (thr d L) ↦[(esl (uo2 L 15) (uo2_inb L 15)).view.set]{fullShare} fe) ∗ ((meanb).view.loc (thr d L) ↦[(meanb).view.set]{fullShare} gm))
    ∗ semVal ((thr d L), SemLoc.dma cc0_scratch6.sem) 0 ∗ semVal ((thr d L), SemLoc.dma cc0_scratch7.sem) 0 ∗ semVal ((thr d L), SemLoc.dma cc0_scratch8.sem) 0)

def pipe (k : ℕ) : sProp 𝕄 :=
  if k = 0 then pipe0 (F := F) d L q X else if 16 ≤ k then pipeEnd (F := F) d L
  else if k % 3 = 0 then pipeMid0 (F := F) d L q X k else if k % 3 = 1 then pipeMid1 (F := F) d L q X k else pipeMid2 (F := F) d L q X k

def inv (O : CellTallies nD τ sig (HIx 1)) (W : Waits sig (HIx 1)) (gM : Buf (Elt F) ((mall).view.loc (thr d L)))
    (k : ℕ) (_acc : FVec F S16 .f32) : sProp 𝕄 :=
  iprop(Transfers.MayWaits (thr d L) (none : HIx 1) O
    ∗ (∃ W', owes (thr d L) O W' ∗ ⌜∀ p ∈ W', p ∈ W ∨ p.2 = none⌝)
    ∗ ((mall).view.loc (thr d L) ↦[(mall).view.set]{fullShare} gM)
    ∗ xRest (F := F) d L q X k
    ∗ (∃ fD, (dV).view.loc (thr d L) ↦[dPart (wid L) \ lentD L k]{fullShare} fD)
    ∗ (∃ fE, (eV).view.loc (thr d L) ↦[ePart (wid L) \ lentE L k]{fullShare} fE)
    ∗ pipe (F := F) d L q X k)

end Cert.Proof.KI

end
-- ==== Proof.VDefs.lean ====
import proofs.«204522_g36051955483029_cont_8to1_b_1192_15_alg».proof.Proof.Spec
import proofs.«204522_g36051955483029_cont_8to1_b_1192_15_alg».proof.Proof.Canon
import proofs.«204522_g36051955483029_cont_8to1_b_1192_15_alg».proof.Proof.Slices

noncomputable section

namespace Cert.Proof.KI

open Cert.KernelIdeal Cert.KernelIdeal.Gen
open Idealize.ShloMosaic Idealize.ShloMosaic.ValueIdx

variable {F : FTy → Type} [FloatOps F]

def uT (L : grid0.Coords) (j : ℕ) : Fin 512 := ⟨base L + min j 15, by have := base_le L; omega⟩

def MallOf (L : grid0.Coords) (M : S512x64.Idx → F .f32) (gM : S16x64.Idx → F .f32) : Prop :=
  ∀ (r : Fin 16) (c : Fin 64), gM (ix2 r c) = M (ix2 (uT L r.val) c)

end Cert.Proof.KI

end
-- ==== Proof.VInv.lean ====
import proofs.«204522_g36051955483029_cont_8to1_b_1192_15_alg».proof.Proof.Inv
import proofs.«204522_g36051955483029_cont_8to1_b_1192_15_alg».proof.Proof.VDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords) (q : PosShare TreeShare)
variable (X : Buf (Elt F) ((xV).view.loc (thr d L))) (Mc : Buf (Elt F) ((mV).view.loc (thr d L)))

def DoneD (k : ℕ) (fD : Buf (Elt F) ((dV).view.loc (thr d L))) : Prop :=
  ∀ j c, j < 16 → (c = 0 ∨ c = 512) → (j + 1 < min k 15 ∨ (j + 1 = min k 15 ∧ c = 0)) → ∀ i ∈ dS L j c, fD i = Dsp (F := F) X Mc i

def DoneE (k : ℕ) (fE : Buf (Elt F) ((eV).view.loc (thr d L))) : Prop :=
  ∀ j, j < 16 → j + 1 < k → ∀ i ∈ eS L j, fE i = Esp (F := F) X Mc i

def AccOk (k : ℕ) (acc : FVec F S16 .f32) : Prop :=
  ∀ l : Fin 16, l.val < k → acc (ix1 l) = Csp (F := F) Mc (ix1 (uT L l.val))

def vpipe0 : sProp 𝕄 :=
  iprop(∃ fA fB fC gm, ⌜fA = blkU (F := F) X (uT L 0) 0 ∧ fB = blkU (F := F) X (uT L 0) 1⌝ ∗
    Transfers.Flight countersEmb (thr d L) (SemLoc.dma cc0_scratch6.sem) (default : HIx 1) 1048576 iprop(((b0).view.loc (thr d L) ↦[(b0).view.set]{fullShare} fA) ∗ ((xV).view.loc (thr d L) ↦[(xsl (uo3 L 0 0) (uo3_inb L 0 0)).view.set]{q} X))
    ∗ Transfers.Flight countersEmb (thr d L) (SemLoc.dma cc0_scratch7.sem) (default : HIx 1) 1048576 iprop(((b1).view.loc (thr d L) ↦[(b1).view.set]{fullShare} fB) ∗ ((xV).view.loc (thr d L) ↦[(xsl (uo3 L 0 512) (uo3_inb L 0 512)).view.set]{q} X))
    ∗ ((b2).view.loc (thr d L) ↦[(b2).view.set]{fullShare} fC) ∗ ((meanb).view.loc (thr d L) ↦[(meanb).view.set]{fullShare} gm)
    ∗ semVal ((thr d L), SemLoc.dma cc0_scratch8.sem) 0 ∗ semVal ((thr d L), SemLoc.dma cc0_scratch9.sem) 0 ∗ semVal ((thr d L), SemLoc.dma cc0_scratch10.sem) 0 ∗ semVal ((thr d L), SemLoc.dma cc0_scratch11.sem) 0 ∗ semVal ((thr d L), SemLoc.dma cc0_scratch12.sem) 0)

def vpipeMid0 (k : ℕ) : sProp 𝕄 :=
  iprop(∃ fA fB fC gm fd fe, ⌜fA = blkU (F := F) X (uT L k) 0 ∧ fB = blkU (F := F) X (uT L k) 1
      ∧ (∀ i ∈ dS L (k - 1) 512, fd i = Dsp (F := F) X Mc i) ∧ (∀ j ∈ eS L (k - 1), fe j = Esp (F := F) X Mc j)⌝ ∗
    Transfers.Flight countersEmb (thr d L) (SemLoc.dma cc0_scratch6.sem) (default : HIx 1) 1048576 iprop(((b0).view.loc (thr d L) ↦[(b0).view.set]{fullShare} fA) ∗ ((xV).view.loc (thr d L) ↦[(xsl (uo3 L k 0) (uo3_inb L k 0)).view.set]{q} X))
        ∗ Transfers.Flight countersEmb (thr d L) (SemLoc.dma cc0_scratch7.sem) (default : HIx 1) 1048576 iprop(((b1).view.loc (thr d L) ↦[(b1).view.set]{fullShare} fB) ∗ ((xV).view.loc (thr d L) ↦[(xsl (uo3 L k 512) (uo3_inb L k 512)).view.set]{q} X))
        ∗ Transfers.Flight countersEmb (thr d L) (SemLoc.dma cc0_scratch11.sem) (default : HIx 1) 1048576 iprop(((dsl (uo3 L (k - 1) 512) (uo3_inb L (k - 1) 512)).view.loc (thr d L) ↦[(dsl (uo3 L (k - 1) 512) (uo3_inb L (k - 1) 512)).view.set]{fullShare} fd) ∗ ((b2).view.loc (thr d L) ↦[(b2).view.set]{fullShare} fC))
        ∗ Transfers.Flight countersEmb (thr d L) (SemLoc.dma cc0_scratch12.sem) (default : HIx 1) 32768 iprop(((esl (uo2 L (k - 1)) (uo2_inb L (k - 1))).view.loc (thr d L) ↦[(esl (uo2 L (k - 1)) (uo2_inb L (k - 1))).view.set]{fullShare} fe) ∗ ((meanb).view.loc (thr d L) ↦[(meanb).view.set]{fullShare} gm))
        ∗ semVal ((thr d L), SemLoc.dma cc0_scratch9.sem) 0
        ∗ semVal ((thr d L), SemLoc.dma cc0_scratch10.sem) 0
        ∗ semVal ((thr d L), SemLoc.dma cc0_scratch8.sem) 0)
def vpipeMid1 (k : ℕ) : sProp 𝕄 :=
  iprop(∃ fA fB fC gm fd fe, ⌜fA = blkU (F := F) X (uT L k) 0 ∧ fB = blkU (F := F) X (uT L k) 1
      ∧ (∀ i ∈ dS L (k - 1) 512, fd i = Dsp (F := F) X Mc i) ∧ (∀ j ∈ eS L (k - 1), fe j = Esp (F := F) X Mc j)⌝ ∗
    Transfers.Flight countersEmb (thr d L) (SemLoc.dma cc0_scratch8.sem) (default : HIx 1) 1048576 iprop(((b2).view.loc (thr d L) ↦[(b2).view.set]{fullShare} fA) ∗ ((xV).view.loc (thr d L) ↦[(xsl (uo3 L k 0) (uo3_inb L k 0)).view.set]{q} X))
        ∗ Transfers.Flight countersEmb (thr d L) (SemLoc.dma cc0_scratch6.sem) (default : HIx 1) 1048576 iprop(((b0).view.loc (thr d L) ↦[(b0).view.set]{fullShare} fB) ∗ ((xV).view.loc (thr d L) ↦[(xsl (uo3 L k 512) (uo3_inb L k 512)).view.set]{q} X))
        ∗ Transfers.Flight countersEmb (thr d L) (SemLoc.dma cc0_scratch10.sem) (default : HIx 1) 1048576 iprop(((dsl (uo3 L (k - 1) 512) (uo3_inb L (k - 1) 512)).view.loc (thr d L) ↦[(dsl (uo3 L (k - 1) 512) (uo3_inb L (k - 1) 512)).view.set]{fullShare} fd) ∗ ((b1).view.loc (thr d L) ↦[(b1).view.set]{fullShare} fC))
        ∗ Transfers.Flight countersEmb (thr d L) (SemLoc.dma cc0_scratch12.sem) (default : HIx 1) 32768 iprop(((esl (uo2 L (k - 1)) (uo2_inb L (k - 1))).view.loc (thr d L) ↦[(esl (uo2 L (k - 1)) (uo2_inb L (k - 1))).view.set]{fullShare} fe) ∗ ((meanb).view.loc (thr d L) ↦[(meanb).view.set]{fullShare} gm))
        ∗ semVal ((thr d L), SemLoc.dma cc0_scratch11.sem) 0
        ∗ semVal ((thr d L), SemLoc.dma cc0_scratch9.sem) 0
        ∗ semVal ((thr d L), SemLoc.dma cc0_scratch7.sem) 0)
def vpipeMid2 (k : ℕ) : sProp 𝕄 :=
  iprop(∃ fA fB fC gm fd fe, ⌜fA = blkU (F := F) X (uT L k) 0 ∧ fB = blkU (F := F) X (uT L k) 1
      ∧ (∀ i ∈ dS L (k - 1) 512, fd i = Dsp (F := F) X Mc i) ∧ (∀ j ∈ eS L (k - 1), fe j = Esp (F := F) X Mc j)⌝ ∗
    Transfers.Flight countersEmb (thr d L) (SemLoc.dma cc0_scratch7.sem) (default : HIx 1) 1048576 iprop(((b1).view.loc (thr d L) ↦[(b1).view.set]{fullShare} fA) ∗ ((xV).view.loc (thr d L) ↦[(xsl (uo3 L k 0) (uo3_inb L k 0)).view.set]{q} X))
        ∗ Transfers.Flight countersEmb (thr d L) (SemLoc.dma cc0_scratch8.sem) (default : HIx 1) 1048576 iprop(((b2).view.loc (thr d L) ↦[(b2).view.set]{fullShare} fB) ∗ ((xV).view.loc (thr d L) ↦[(xsl (uo3 L k 512) (uo3_inb L k 512)).view.set]{q} X))
        ∗ Transfers.Flight countersEmb (thr d L) (SemLoc.dma cc0_scratch9.sem) (default : HIx 1) 1048576 iprop(((dsl (uo3 L (k - 1) 512) (uo3_inb L (k - 1) 512)).view.loc (thr d L) ↦[(dsl (uo3 L (k - 1) 512) (uo3_inb L (k - 1) 512)).view.set]{fullShare} fd) ∗ ((b0).view.loc (thr d L) ↦[(b0).view.set]{fullShare} fC))
        ∗ Transfers.Flight countersEmb (thr d L) (SemLoc.dma cc0_scratch12.sem) (default : HIx 1) 32768 iprop(((esl (uo2 L (k - 1)) (uo2_inb L (k - 1))).view.loc (thr d L) ↦[(esl (uo2 L (k - 1)) (uo2_inb L (k - 1))).view.set]{fullShare} fe) ∗ ((meanb).view.loc (thr d L) ↦[(meanb).view.set]{fullShare} gm))
        ∗ semVal ((thr d L), SemLoc.dma cc0_scratch10.sem) 0
        ∗ semVal ((thr d L), SemLoc.dma cc0_scratch11.sem) 0
        ∗ semVal ((thr d L), SemLoc.dma cc0_scratch6.sem) 0)

def vpipeEnd : sProp 𝕄 :=
  iprop(∃ fA fB fC gm fd0 fd1 fd2 fe, ⌜(∀ i ∈ dS L 15 0, fd0 i = Dsp (F := F) X Mc i) ∧ (∀ i ∈ dS L 15 512, fd1 i = Dsp (F := F) X Mc i)
      ∧ (∀ i ∈ dS L 14 512, fd2 i = Dsp (F := F) X Mc i) ∧ (∀ j ∈ eS L 15, fe j = Esp (F := F) X Mc j)⌝ ∗
    Transfers.Flight countersEmb (thr d L) (SemLoc.dma cc0_scratch9.sem) (default : HIx 1) 1048576 iprop(((dsl (uo3 L 15 0) (uo3_inb L 15 0)).view.loc (thr d L) ↦[(dsl (uo3 L 15 0) (uo3_inb L 15 0)).view.set]{fullShare} fd0) ∗ ((b0).view.loc (thr d L) ↦[(b0).view.set]{fullShare} fA))
    ∗ Transfers.Flight countersEmb (thr d L) (SemLoc.dma cc0_scratch10.sem) (default : HIx 1) 1048576 iprop(((dsl (uo3 L 15 512) (uo3_inb L 15 512)).view.loc (thr d L) ↦[(dsl (uo3 L 15 512) (uo3_inb L 15 512)).view.set]{fullShare} fd1) ∗ ((b1).view.loc (thr d L) ↦[(b1).view.set]{fullShare} fB))
    ∗ Transfers.Flight countersEmb (thr d L) (SemLoc.dma cc0_scratch11.sem) (default : HIx 1) 1048576 iprop(((dsl (uo3 L 14 512) (uo3_inb L 14 512)).view.loc (thr d L) ↦[(dsl (uo3 L 14 512) (uo3_inb L 14 512)).view.set]{fullShare} fd2) ∗ ((b2).view.loc (thr d L) ↦[(b2).view.set]{fullShare} fC))
    ∗ Transfers.Flight countersEmb (thr d L) (SemLoc.dma cc0_scratch12.sem) (default : HIx 1) 32768 iprop(((esl (uo2 L 15) (uo2_inb L 15)).view.loc (thr d L) ↦[(esl (uo2 L 15) (uo2_inb L 15)).view.set]{fullShare} fe) ∗ ((meanb).view.loc (thr d L) ↦[(meanb).view.set]{fullShare} gm))
    ∗ semVal ((thr d L), SemLoc.dma cc0_scratch6.sem) 0 ∗ semVal ((thr d L), SemLoc.dma cc0_scratch7.sem) 0 ∗ semVal ((thr d L), SemLoc.dma cc0_scratch8.sem) 0)

def vpipe (k : ℕ) : sProp 𝕄 :=
  if k = 0 then vpipe0 (F := F) d L q X else if 16 ≤ k then vpipeEnd (F := F) d L X Mc
  else if k % 3 = 0 then vpipeMid0 (F := F) d L q X Mc k else if k % 3 = 1 then vpipeMid1 (F := F) d L q X Mc k else vpipeMid2 (F := F) d L q X Mc k

def vinv (O : CellTallies nD τ sig (HIx 1)) (W : Waits sig (HIx 1)) (gM : Buf (Elt F) ((mall).view.loc (thr d L)))
    (k : ℕ) (acc : FVec F S16 .f32) : sProp 𝕄 :=
  iprop(Transfers.MayWaits (thr d L) (none : HIx 1) O
    ∗ (∃ W', owes (thr d L) O W' ∗ ⌜∀ p ∈ W', p ∈ W ∨ p.2 = none⌝)
    ∗ ((mall).view.loc (thr d L) ↦[(mall).view.set]{fullShare} gM)
    ∗ xRest (F := F) d L q X k
    ∗ (∃ fD, ((dV).view.loc (thr d L) ↦[dPart (wid L) \ lentD L k]{fullShare} fD) ∗ ⌜DoneD (F := F) d L X Mc k fD⌝)
    ∗ (∃ fE, ((eV).view.loc (thr d L) ↦[ePart (wid L) \ lentE L k]{fullShare} fE) ∗ ⌜DoneE (F := F) d L X Mc k fE⌝)
    ∗ ⌜AccOk (F := F) d L Mc k acc⌝
    ∗ vpipe (F := F) d L q X Mc k)

end Cert.Proof.KI

end
-- ==== Proof.VcLemmas.lean ====
import proofs.«204522_g36051955483029_cont_8to1_b_1192_15_alg».proof.Proof.Slices

namespace Cert.Proof.KI

theorem pw_two {α : Type} {δ : α → Type} (A B : Finset α) [∀ j, Decidable (j ∈ A)] [∀ j, Decidable (j ∈ B)]
    (gA gB f : (i : α) → δ i) (h : Disjoint A B) (T : (i : α) → δ i) (hv : ∀ i ∈ A, gA i = T i) :
    (∀ i ∈ A, B.piecewise gB (A.piecewise gA f) i = T i) ∧ (∀ i ∈ B, B.piecewise gB (A.piecewise gA f) i = gB i)
      ∧ (∀ i, i ∉ A → i ∉ B → B.piecewise gB (A.piecewise gA f) i = f i) := by
  refine ⟨fun i hi => ?_, fun i hi => ?_, fun i hA hB => ?_⟩
  · rw [Finset.piecewise_eq_of_notMem _ _ _ (Finset.disjoint_left.mp h hi), Finset.piecewise_eq_of_mem _ _ _ hi]
    exact hv i hi
  · rw [Finset.piecewise_eq_of_mem _ _ _ hi]
  · rw [Finset.piecewise_eq_of_notMem _ _ _ hB, Finset.piecewise_eq_of_notMem _ _ _ hA]

theorem pw_one {α : Type} {δ : α → Type} (B : Finset α) [∀ j, Decidable (j ∈ B)] (gB f : (i : α) → δ i) :
    (∀ j ∈ B, B.piecewise gB f j = gB j) ∧ (∀ j, j ∉ B → B.piecewise gB f j = f j) :=
  ⟨fun j hj => Finset.piecewise_eq_of_mem _ _ _ hj, fun j hj => Finset.piecewise_eq_of_notMem _ _ _ hj⟩

theorem dPart_cover (L : Cert.KernelIdeal.grid0.Coords) (i : Cert.KernelIdeal.S512x64x1024.Idx) (hi : i ∈ dPart (wid L)) :
    ∃ j c, j < 16 ∧ (c = 0 ∨ c = 512) ∧ i ∈ dS L j c := by
  rw [mem_dPart, ← base_eq] at hi
  have h2 : (i 2 : Nat) < 1024 := (i 2).isLt
  by_cases hlt : (i 2 : Nat) < 512
  · refine ⟨(i 0 : Nat) - base L, 0, by omega, .inl rfl, ?_⟩
    rw [mem_dS]; omega
  · refine ⟨(i 0 : Nat) - base L, 512, by omega, .inr rfl, ?_⟩
    rw [mem_dS]; omega

theorem ePart_cover (L : Cert.KernelIdeal.grid0.Coords) (i : Cert.KernelIdeal.S512x1024.Idx) (hi : i ∈ ePart (wid L)) :
    ∃ j, j < 16 ∧ i ∈ eS L j := by
  rw [mem_ePart, ← base_eq] at hi
  refine ⟨(i 0 : Nat) - base L, by omega, ?_⟩
  rw [mem_eS]; omega

end Cert.Proof.KI
-- ==== Proof.VbLemmas.lean ====
import proofs.«204522_g36051955483029_cont_8to1_b_1192_15_alg».proof.Proof.Canon
import proofs.«204522_g36051955483029_cont_8to1_b_1192_15_alg».proof.Proof.VDefs
import proofs.«204522_g36051955483029_cont_8to1_b_1192_15_alg».proof.Proof.Slices
import proofs.«204522_g36051955483029_cont_8to1_b_1192_15_alg».proof.Proof.Spec
import Idealize.ShloMosaic.Lib.Exec.Geometry

set_option maxRecDepth 65536
set_option maxHeartbeats 4000000

noncomputable section

namespace Cert.Proof.KI

open Cert.KernelIdeal Cert.KernelIdeal.Gen

open Idealize.ShloMosaic Idealize.ShloMosaic.ValueIdx

variable {F : FTy → Type} [FloatOps F]

theorem whole_writes_whole {κ : Kind} (b : Ref sig κ) (f : b.ty.Contents (Elt F)) (x : b.ty.shape.Idx → Elt F b.ty.elt) :
    (Memref.whole b).view.writes (Elt F) f [⟨Rect.whole b.ty.shape, x⟩] = x :=
  View.read_writes_whole (View.whole b) f x

theorem emb_xsl (o : Fin 3 → Nat) (ho : ∀ a, o a + S1x64x512.size a ≤ S512x64x1024.size a) (y : S64x512.Idx) (a : Fin 3) :
    ((xsl o ho).view.emb y a : ℕ) = o a + (ix3 (0 : Fin 1) (y 0) (y 1) a : ℕ) := by
  show ((((View.whole (main_v0_scv : Ref sig .scVector)).slice (Rect.unit (s := S512x64x1024) o S1x64x512.size ho)).reshape S64x512
    squeezes_S1x64x512_S64x512.numel_eq).emb y a : ℕ) = _
  rw [View.emb_reshape, View.emb_slice, View.emb_whole]
  show ((Rect.unit (s := S512x64x1024) o S1x64x512.size ho).emb (Shape.reshapeEquiv squeezes_S1x64x512_S64x512.numel_eq y) a : ℕ) = _
  rw [Shape.reshapeEquiv_eq_of_rowMajor squeezes_S1x64x512_S64x512.numel_eq (y := ix3 (0 : Fin 1) (y 0) (y 1))
    (by rw [Shape.rowMajor_val_three, Shape.rowMajor_val_two]; show (0 * 64 + (y 0).val) * 512 + (y 1).val = (y 0).val * 512 + (y 1).val; omega)]
  match a with
  | 0 => show o 0 + 1 * 0 = o 0 + 0; rfl
  | 1 => show o 1 + 1 * (y 0).val = o 1 + (y 0).val; omega
  | 2 => show o 2 + 1 * (y 1).val = o 2 + (y 1).val; omega

theorem read_xsl_uo3 (X : S512x64x1024.Idx → F .f32) (L : grid0.Coords) (j : ℕ) (h : Fin 2)
    (o : Fin 3 → Nat) (ho : ∀ a, o a + S1x64x512.size a ≤ S512x64x1024.size a) (e : o = uo3 L j (512 * h.val)) :
    (xsl o ho).view.read (Elt F) X = blkU X (uT L j) h := by
  subst e
  funext y
  refine ((View.read_apply _ _).trans (cast_eq _ _)).trans (congrArg X ?_)
  funext a
  apply Fin.ext
  rw [emb_xsl]
  have hh := h.isLt
  match a with
  | 0 => show base L + min j 15 + 0 = base L + min j 15; omega
  | 1 => show 0 + (y 0).val = (y 0).val; omega
  | 2 => show min (512 * h.val) 512 + (y 1).val = 512 * h.val + (y 1).val; omega

theorem lane_eq_iff : ∀ (k : Fin k0_t1_loop.trips) (l : Fin 16),
    IntOp.cmpi .eq (iota .scVector S16 32 [0] iota_S16_d0_w32_scVector (ix1 l)) (Scf.iv 0#32 1#32 k.val) = 1 ↔ l.val = k.val := by
  decide

theorem pay1818_lane (k : Fin k0_t1_loop.trips) (acc : FVec F S16 .f32) (v50 : F .f32) (l : Fin 16) :
    k0_pay1818 k acc v50 (ix1 l)
      = if l.val = k.val then Scalar.sitofp .f32 (Scalar.extui (Scalar.cmpf .ogt v50 (Scalar.ofBits .f32 0x00000000#32))) else acc (ix1 l) := by
  show Scalar.select (IntOp.cmpi .eq (iota .scVector S16 32 [0] iota_S16_d0_w32_scVector (ix1 l)) (Scf.iv 0#32 1#32 k.val)) _ _ = _
  unfold Scalar.select
  by_cases hlk : l.val = k.val
  · rw [if_pos ((lane_eq_iff k l).mpr hlk), if_pos hlk]; rfl
  · rw [if_neg (fun h => hlk ((lane_eq_iff k l).mp h)), if_neg hlk]

theorem pay1807_cnt (v72 : F .f32) (v74 : F .f32) (v76 : F .f32) (v78 : F .f32) (v80 : F .f32) (v82 : F .f32) (v84 : F .f32) (v86 : F .f32) (v88 : F .f32) (v90 : F .f32) (v92 : F .f32) (v94 : F .f32) (v96 : F .f32) (v98 : F .f32) (v100 : F .f32) (v102 : F .f32) (v104 : F .f32) (v106 : F .f32) (v108 : F .f32) (v110 : F .f32) (v112 : F .f32) (v114 : F .f32) (v116 : F .f32) (v118 : F .f32) (v120 : F .f32) (v122 : F .f32) (v124 : F .f32) (v126 : F .f32) (v128 : F .f32) (v130 : F .f32) (v132 : F .f32) (v134 : F .f32) (v136 : F .f32) (v138 : F .f32) (v140 : F .f32) (v142 : F .f32) (v144 : F .f32) (v146 : F .f32) (v148 : F .f32) (v150 : F .f32) (v152 : F .f32) (v154 : F .f32) (v156 : F .f32) (v158 : F .f32) (v160 : F .f32) (v162 : F .f32) (v164 : F .f32) (v166 : F .f32) (v168 : F .f32) (v170 : F .f32) (v172 : F .f32) (v174 : F .f32) (v176 : F .f32) (v178 : F .f32) (v180 : F .f32) (v182 : F .f32) (v184 : F .f32) (v186 : F .f32) (v188 : F .f32) (v190 : F .f32) (v192 : F .f32) (v194 : F .f32) (v196 : F .f32) (v198 : F .f32) :
    k0_pay1807 v144 v146 v148 v150 v152 v154 v156 v158 v160 v162 v164 v166 v168 v170 v172 v174 v176 v178 v180 v182 v184 v186 v188 v190 v192 v194 v196 v198 (k0_pay1806 v72 v74 v76 v78 v80 v82 v84 v86 v88 v90 v92 v94 v96 v98 v100 v102 v104 v106 v108 v110 v112 v114 v116 v118 v120 v122 v124 v126 v128 v130 v132 v134 v136 v138 v140 v142) = cntF (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) := rfl

theorem lane_of_load (L : grid0.Coords) (Mc : S512x64.Idx → F .f32) (gM : S16x64.Idx → F .f32) (hgM : MallOf (F := F) L Mc gM)
    (k : Fin 16) (o : Fin 2 → ℕ) (ho : ∀ a, o a + S1x16.size a ≤ S16x64.size a) (hcast : S1x16.ShapeCasts S16) (q : Fin 4)
    (e : o = ![k.val, 16 * q.val]) (j : Fin 16) (hsl : S16.Slices ![j.val] S1) (hin : ∀ a, (![0] : Fin 1 → ℕ) a < S1.size a) :
    extractAt ![0] (extractStridedSlice S1 ![j.val]
        (shapeCast S16 ((Memref.whole (cc0_scratch3 : Ref sig .scVector)).view.readAt (Elt F) (Rect.unit (s := S16x64) o S1x16.size ho).toLoadRect gM) hcast) hsl) hin
      = msU Mc (uT L k.val) ⟨16 * q.val + j.val, by have := q.isLt; have := j.isLt; omega⟩ := by
  subst e
  have key : ∀ i₀ : S16.Idx, (i₀ 0).val = j.val →
      shapeCast S16 ((Memref.whole (cc0_scratch3 : Ref sig .scVector)).view.readAt (Elt F)
        (Rect.unit (s := S16x64) ![k.val, 16 * q.val] S1x16.size ho).toLoadRect gM) hcast i₀
        = msU Mc (uT L k.val) ⟨16 * q.val + j.val, by have := q.isLt; have := j.isLt; omega⟩ := by
    intro i₀ h0
    have hi : i₀ = ix1 j := funext fun a => by
      match a with
      | 0 => exact Fin.ext h0
    subst hi
    refine (cast_S1x16_S16_apply _ hcast j).trans ?_
    refine Eq.trans ?_ (hgM k ⟨16 * q.val + j.val, by have := q.isLt; have := j.isLt; omega⟩)
    show gM _ = gM _
    congr 1
    funext a
    apply Fin.ext
    match a with
    | 0 => show k.val + 1 * 0 = k.val; omega
    | 1 => show 16 * q.val + 1 * j.val = 16 * q.val + j.val; omega
  exact key _ (by show j.val + 0 = j.val; omega)

theorem msOf_eq (v72 : F .f32) (v74 : F .f32) (v76 : F .f32) (v78 : F .f32) (v80 : F .f32) (v82 : F .f32) (v84 : F .f32) (v86 : F .f32) (v88 : F .f32) (v90 : F .f32) (v92 : F .f32) (v94 : F .f32) (v96 : F .f32) (v98 : F .f32) (v100 : F .f32) (v102 : F .f32) (v104 : F .f32) (v106 : F .f32) (v108 : F .f32) (v110 : F .f32) (v112 : F .f32) (v114 : F .f32) (v116 : F .f32) (v118 : F .f32) (v120 : F .f32) (v122 : F .f32) (v124 : F .f32) (v126 : F .f32) (v128 : F .f32) (v130 : F .f32) (v132 : F .f32) (v134 : F .f32) (v136 : F .f32) (v138 : F .f32) (v140 : F .f32) (v142 : F .f32) (v144 : F .f32) (v146 : F .f32) (v148 : F .f32) (v150 : F .f32) (v152 : F .f32) (v154 : F .f32) (v156 : F .f32) (v158 : F .f32) (v160 : F .f32) (v162 : F .f32) (v164 : F .f32) (v166 : F .f32) (v168 : F .f32) (v170 : F .f32) (v172 : F .f32) (v174 : F .f32) (v176 : F .f32) (v178 : F .f32) (v180 : F .f32) (v182 : F .f32) (v184 : F .f32) (v186 : F .f32) (v188 : F .f32) (v190 : F .f32) (v192 : F .f32) (v194 : F .f32) (v196 : F .f32) (v198 : F .f32) (ms : Fin 64 → F .f32) (h0 : v72 = ms 0) (h1 : v74 = ms 1) (h2 : v76 = ms 2) (h3 : v78 = ms 3) (h4 : v80 = ms 4) (h5 : v82 = ms 5) (h6 : v84 = ms 6) (h7 : v86 = ms 7) (h8 : v88 = ms 8) (h9 : v90 = ms 9) (h10 : v92 = ms 10) (h11 : v94 = ms 11) (h12 : v96 = ms 12) (h13 : v98 = ms 13) (h14 : v100 = ms 14) (h15 : v102 = ms 15) (h16 : v104 = ms 16) (h17 : v106 = ms 17) (h18 : v108 = ms 18) (h19 : v110 = ms 19) (h20 : v112 = ms 20) (h21 : v114 = ms 21) (h22 : v116 = ms 22) (h23 : v118 = ms 23) (h24 : v120 = ms 24) (h25 : v122 = ms 25) (h26 : v124 = ms 26) (h27 : v126 = ms 27) (h28 : v128 = ms 28) (h29 : v130 = ms 29) (h30 : v132 = ms 30) (h31 : v134 = ms 31) (h32 : v136 = ms 32) (h33 : v138 = ms 33) (h34 : v140 = ms 34) (h35 : v142 = ms 35) (h36 : v144 = ms 36) (h37 : v146 = ms 37) (h38 : v148 = ms 38) (h39 : v150 = ms 39) (h40 : v152 = ms 40) (h41 : v154 = ms 41) (h42 : v156 = ms 42) (h43 : v158 = ms 43) (h44 : v160 = ms 44) (h45 : v162 = ms 45) (h46 : v164 = ms 46) (h47 : v166 = ms 47) (h48 : v168 = ms 48) (h49 : v170 = ms 49) (h50 : v172 = ms 50) (h51 : v174 = ms 51) (h52 : v176 = ms 52) (h53 : v178 = ms 53) (h54 : v180 = ms 54) (h55 : v182 = ms 55) (h56 : v184 = ms 56) (h57 : v186 = ms 57) (h58 : v188 = ms 58) (h59 : v190 = ms 59) (h60 : v192 = ms 60) (h61 : v194 = ms 61) (h62 : v196 = ms 62) (h63 : v198 = ms 63) :
    msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 = ms := by
  funext n
  fin_cases n
  · exact h0
  · exact h1
  · exact h2
  · exact h3
  · exact h4
  · exact h5
  · exact h6
  · exact h7
  · exact h8
  · exact h9
  · exact h10
  · exact h11
  · exact h12
  · exact h13
  · exact h14
  · exact h15
  · exact h16
  · exact h17
  · exact h18
  · exact h19
  · exact h20
  · exact h21
  · exact h22
  · exact h23
  · exact h24
  · exact h25
  · exact h26
  · exact h27
  · exact h28
  · exact h29
  · exact h30
  · exact h31
  · exact h32
  · exact h33
  · exact h34
  · exact h35
  · exact h36
  · exact h37
  · exact h38
  · exact h39
  · exact h40
  · exact h41
  · exact h42
  · exact h43
  · exact h44
  · exact h45
  · exact h46
  · exact h47
  · exact h48
  · exact h49
  · exact h50
  · exact h51
  · exact h52
  · exact h53
  · exact h54
  · exact h55
  · exact h56
  · exact h57
  · exact h58
  · exact h59
  · exact h60
  · exact h61
  · exact h62
  · exact h63

theorem pay1808_rcp (v72 : F .f32) (v74 : F .f32) (v76 : F .f32) (v78 : F .f32) (v80 : F .f32) (v82 : F .f32) (v84 : F .f32) (v86 : F .f32) (v88 : F .f32) (v90 : F .f32) (v92 : F .f32) (v94 : F .f32) (v96 : F .f32) (v98 : F .f32) (v100 : F .f32) (v102 : F .f32) (v104 : F .f32) (v106 : F .f32) (v108 : F .f32) (v110 : F .f32) (v112 : F .f32) (v114 : F .f32) (v116 : F .f32) (v118 : F .f32) (v120 : F .f32) (v122 : F .f32) (v124 : F .f32) (v126 : F .f32) (v128 : F .f32) (v130 : F .f32) (v132 : F .f32) (v134 : F .f32) (v136 : F .f32) (v138 : F .f32) (v140 : F .f32) (v142 : F .f32) (v144 : F .f32) (v146 : F .f32) (v148 : F .f32) (v150 : F .f32) (v152 : F .f32) (v154 : F .f32) (v156 : F .f32) (v158 : F .f32) (v160 : F .f32) (v162 : F .f32) (v164 : F .f32) (v166 : F .f32) (v168 : F .f32) (v170 : F .f32) (v172 : F .f32) (v174 : F .f32) (v176 : F .f32) (v178 : F .f32) (v180 : F .f32) (v182 : F .f32) (v184 : F .f32) (v186 : F .f32) (v188 : F .f32) (v190 : F .f32) (v192 : F .f32) (v194 : F .f32) (v196 : F .f32) (v198 : F .f32) :
    k0_pay1808 v144 v146 v148 v150 v152 v154 v156 v158 v160 v162 v164 v166 v168 v170 v172 v174 v176 v178 v180 v182 v184 v186 v188 v190 v192 v194 v196 v198 (k0_pay1806 v72 v74 v76 v78 v80 v82 v84 v86 v88 v90 v92 v94 v96 v98 v100 v102 v104 v106 v108 v110 v112 v114 v116 v118 v120 v122 v124 v126 v128 v130 v132 v134 v136 v138 v140 v142) = rcpF (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) := rfl

theorem pay1_eq (acc : FVec F S16 .f32) : k0_pay1 acc = acc := by
  funext i
  show acc (Shape.reshapeEquiv _ i) = acc i
  rw [Shape.reshapeEquiv_self]

theorem mall_of_read (L : grid0.Coords) (Mc : S512x64.Idx → F .f32) (o : Fin 2 → Nat) (ho : ∀ a, o a + S16x64.size a ≤ S512x64.size a)
    (e : o = ![32 * (L 1).val + 16 * (L 0).val, 0]) :
    MallOf (F := F) L Mc (((Memref.whole (main_v1_scv : Ref sig .scVector)).slice (Rect.unit (s := S512x64) o S16x64.size ho) (fun _ => rfl)).view.read (Elt F) Mc) := by
  subst e
  intro r c
  refine ((View.read_apply _ _).trans (cast_eq _ _)).trans (congrArg Mc ?_)
  funext a
  apply Fin.ext
  have hr := r.isLt
  match a with
  | 0 => show 32 * (L 1).val + 16 * (L 0).val + 1 * r.val = base L + min r.val 15; unfold base; omega
  | 1 => show 0 + 1 * c.val = c.val; omega

theorem csl_written (L : grid0.Coords) (Mc : S512x64.Idx → F .f32) (C0 : S512.Idx → F .f32) (o : Fin 1 → Nat) (ho : ∀ a, o a + S16.size a ≤ S512.size a)
    (e : o = uo1 L) (w : S16.Idx → F .f32) (hw : ∀ l : Fin 16, w (ix1 l) = Csp (F := F) Mc (ix1 (uT L l.val))) :
    ∀ i ∈ cS L, (csl o ho).view.writes (Elt F) C0 [⟨Rect.whole S16, w⟩] i = Csp (F := F) Mc i := by
  subst e
  intro i hi
  rw [mem_cS] at hi
  have hb := base_le L
  let l : Fin 16 := ⟨(i 0).val - base L, by omega⟩
  have hemb : (csl (uo1 L) ho).view.emb (ix1 l) = i := by
    funext a
    apply Fin.ext
    match a with
    | 0 => show base L + 1 * ((i 0).val - base L) = (i 0).val; omega
  have hi' : i = ix1 (uT L l.val) := by
    funext a
    apply Fin.ext
    match a with
    | 0 => show (i 0).val = base L + min ((i 0).val - base L) 15; omega
  have h := congrFun (View.read_writes_whole (Val := Elt F) (csl (uo1 L) ho).view C0 w) (ix1 l)
  rw [View.read_apply, hemb] at h
  refine Eq.trans ?_ ((hw l).trans (congrArg (Csp (F := F) Mc) hi'.symm))
  exact (cast_eq _ _).symm.trans h

end Cert.Proof.KI

end
-- ==== Proof.ColLoop.lean ====
import proofs.«204522_g36051955483029_cont_8to1_b_1192_15_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "meanb" => (Memref.whole Cert.KernelIdeal.cc0_scratch4 : Memref Cert.KernelIdeal.sig Kind.scVector Space.vmem Cert.KernelIdeal.S1024 EltTy.f32)

variable (d : Dev nD) (L : grid0.Coords) (b : Memref sig Kind.scVector Space.vmem S64x512 EltTy.f32)

/-- Ownership of a staging buffer and of the mean buffer, each whole, at given contents. -/
abbrev TripRes (fb : BufTy.Contents (Elt F) b.view.ty) (fm : BufTy.Contents (Elt F) (meanb).view.ty) : sProp 𝕄 :=
  iprop((b.view.loc (thr d L) ↦[b.view.set]{fullShare} fb) ∗ ((meanb).view.loc (thr d L) ↦[(meanb).view.set]{fullShare} fm))

/-- One trip `p` taken at a symbolic trip number: its stores into each buffer as piece lists, functions of the contents it finds, with the triple that justifies them. -/
abbrev TripSpec (p : Prog (TpuEff nD τ sig (Elt F) Λ₀ (.scVector (cV L) (jV L))) Unit) : Type :=
  Σ' (Lb : BufTy.Contents (Elt F) b.view.ty → BufTy.Contents (Elt F) (meanb).view.ty → List (View.Piece (Elt F) S64x512 .f32)),
    { Lm : BufTy.Contents (Elt F) b.view.ty → BufTy.Contents (Elt F) (meanb).view.ty → List (View.Piece (Elt F) S1024 .f32) //
      ∀ (fb : BufTy.Contents (Elt F) b.view.ty) (fm : BufTy.Contents (Elt F) (meanb).view.ty),
        TripRes (F := F) d L b fb fm
        ⊢ wp frame (wpE (defs₀ (F := F)) 𝒱₀ (thr d L) none) Set.univ p
            (fun _ => TripRes (F := F) d L b (b.view.writes (Elt F) fb (Lb fb fm)) ((meanb).view.writes (Elt F) fm (Lm fb fm))) }

section Loop

variable {w : ℕ} {lb ub st : BitVec w} {hok : Scf.OK lb ub st}
  {body : Fin (Scf.trips lb ub st) → Unit → Prog (TpuEff nD τ sig (Elt F) Λ₀ (.scVector (cV L) (jV L))) Unit}
  (trip : ∀ k, TripSpec (F := F) d L b (body k ()))
  (Gb : BufTy.Contents (Elt F) b.view.ty) (Gm : BufTy.Contents (Elt F) (meanb).view.ty)

/-- Trip `k`'s stores go in front, read off at the contents reached so far; past the last trip nothing changes. -/
@[irreducible] def pbStep (k : ℕ) (prev : List (View.Piece (Elt F) S64x512 .f32) × List (View.Piece (Elt F) S1024 .f32)) :
    List (View.Piece (Elt F) S64x512 .f32) × List (View.Piece (Elt F) S1024 .f32) :=
  if h : k < Scf.trips lb ub st then
    ((trip ⟨k, h⟩).1 (b.view.writes (Elt F) Gb prev.1) ((meanb).view.writes (Elt F) Gm prev.2) ++ prev.1,
     (trip ⟨k, h⟩).2.1 (b.view.writes (Elt F) Gb prev.1) ((meanb).view.writes (Elt F) Gm prev.2) ++ prev.2)
  else prev

/-- Every store made before trip `k`, latest first, from entry contents `Gb`, `Gm`. -/
def pb : ℕ → List (View.Piece (Elt F) S64x512 .f32) × List (View.Piece (Elt F) S1024 .f32)
  | 0 => ([], [])
  | k + 1 => pbStep d L b trip Gb Gm k (pb k)

theorem pb_succ (k : Fin (Scf.trips lb ub st)) :
    pb d L b trip Gb Gm (k.val + 1)
      = ((trip k).1 (b.view.writes (Elt F) Gb (pb d L b trip Gb Gm k.val).1) ((meanb).view.writes (Elt F) Gm (pb d L b trip Gb Gm k.val).2)
            ++ (pb d L b trip Gb Gm k.val).1,
         (trip k).2.1 (b.view.writes (Elt F) Gb (pb d L b trip Gb Gm k.val).1) ((meanb).view.writes (Elt F) Gm (pb d L b trip Gb Gm k.val).2)
            ++ (pb d L b trip Gb Gm k.val).2) := by
  rw [pb.eq_2]; unfold pbStep; exact dif_pos k.isLt

/-- At the head of trip `k` each buffer is its entry contents overwritten by `pb k`. -/
abbrev colInv (k : ℕ) (_u : Unit) : sProp 𝕄 :=
  iprop((∃ fb, (b.view.loc (thr d L) ↦[b.view.set]{fullShare} fb) ∗ ⌜fb = b.view.writes (Elt F) Gb (pb d L b trip Gb Gm k).1⌝)
    ∗ (∃ fm, ((meanb).view.loc (thr d L) ↦[(meanb).view.set]{fullShare} fm) ∗ ⌜fm = (meanb).view.writes (Elt F) Gm (pb d L b trip Gb Gm k).2⌝))

set_option warn.classDefReducibility false in
/-- A trip's triple holds at whatever contents it finds, and writing a concatenation is writing the parts in turn: so the invariant is kept. -/
@[reducible] def colLoop : Idealize.ShloMosaic.LoopInv (M := MT nD τ sig (HIx 1) (Elt F) ℕ UU ℕ) Idealize.ShloMosaic.frame
    (wpE (defs₀ (F := F)) 𝒱₀ (thr d L) none) Set.univ lb ub st hok () body where
  inv := colInv d L b trip Gb Gm
  step k acc := by
    iintro ⟨⟨%fb, HB, %hb⟩, ⟨%fm, HM, %hm⟩⟩
    subst hb hm
    iapply (wp_wand_r Idealize.ShloMosaic.frame (wpE (defs₀ (F := F)) 𝒱₀ (thr d L) none) Set.univ)
    isplitl [HB HM]
    · iapply ((trip k).2.2 _ _)
      isplitl [HB]; · iexact HB
      iexact HM
    · iintro %_ ⟨HB, HM⟩
      unfold colInv
      rw [pb_succ]
      isplitl [HB]
      · iexists _; isplitl [HB]; · iexact HB
        ipureintro; rw [← View.writes_append]
      · iexists _; isplitl [HM]; · iexact HM
        ipureintro; rw [← View.writes_append]

end Loop

end Cert.Proof.KI

end
-- ==== Proof.ColT6.lean ====
import proofs.«204522_g36051955483029_cont_8to1_b_1192_15_alg».proof.Proof.ColLoop

set_option maxRecDepth 8192
set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords) (k0_t1 : Fin k0_t1_loop.trips) (arg20 : BitVec 32) (k0_h1 : ¬(k0_cond1 k0_t1 = 1#1)) (v58 : BitVec 32) (v72 : F .f32) (v74 : F .f32) (v76 : F .f32) (v78 : F .f32) (v80 : F .f32) (v82 : F .f32) (v84 : F .f32) (v86 : F .f32) (v88 : F .f32) (v90 : F .f32) (v92 : F .f32) (v94 : F .f32) (v96 : F .f32) (v98 : F .f32) (v100 : F .f32) (v102 : F .f32) (v104 : F .f32) (v106 : F .f32) (v108 : F .f32) (v110 : F .f32) (v112 : F .f32) (v114 : F .f32) (v116 : F .f32) (v118 : F .f32) (v120 : F .f32) (v122 : F .f32) (v124 : F .f32) (v126 : F .f32) (v128 : F .f32) (v130 : F .f32) (v132 : F .f32) (v134 : F .f32) (v136 : F .f32) (v138 : F .f32) (v140 : F .f32) (v142 : F .f32) (v144 : F .f32) (v146 : F .f32) (v148 : F .f32) (v150 : F .f32) (v152 : F .f32) (v154 : F .f32) (v156 : F .f32) (v158 : F .f32) (v160 : F .f32) (v162 : F .f32) (v164 : F .f32) (v166 : F .f32) (v168 : F .f32) (v170 : F .f32) (v172 : F .f32) (v174 : F .f32) (v176 : F .f32) (v178 : F .f32) (v180 : F .f32) (v182 : F .f32) (v184 : F .f32) (v186 : F .f32) (v188 : F .f32) (v190 : F .f32) (v192 : F .f32) (v194 : F .f32) (v196 : F .f32) (v198 : F .f32) (v233 : F .f32)

/-- One trip of the loop `k0_t6_loop` at a symbolic trip number. -/
@[irreducible] def trip_t6 (k : Fin k0_t6_loop.trips) :
    TripSpec (F := F) d L (b0) (k0_t6_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 arg20 k0_h1 v58 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233 k ()) := by
  have hk : k.val < 32 := Nat.lt_of_lt_of_le k.isLt k0_t6_abs.2.1
  refine ⟨?_, ?_, fun fb fm => ?run⟩
  case run =>
    unfold k0_t6_body
    iintro ⟨HB, HM⟩
    sl_exec
    sl_step
    sl_close

set_option warn.classDefReducibility false in
/-- The loop's invariant instance. -/
@[sl_loop] def loopInv_t6 (Gb : BufTy.Contents (Elt F) (b0).view.ty) (Gm : BufTy.Contents (Elt F) (meanb).view.ty) :
    Idealize.ShloMosaic.LoopInv (M := MT nD τ sig (HIx 1) (Elt F) ℕ UU ℕ) Idealize.ShloMosaic.frame (wpE (defs₀ (F := F)) 𝒱₀ (thr d L) none) Set.univ
      k0_t6_loop.lb k0_t6_loop.ub k0_t6_loop.st (k0_t6_ok k0_t1 k0_h1) ()
      (k0_t6_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 arg20 k0_h1 v58 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233) :=
  colLoop (F := F) d L (b0) (trip_t6 (F := F) d L k0_t1 arg20 k0_h1 v58 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233) Gb Gm

end Cert.Proof.KI

end
-- ==== Proof.ColT7.lean ====
import proofs.«204522_g36051955483029_cont_8to1_b_1192_15_alg».proof.Proof.ColLoop

set_option maxRecDepth 8192
set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords) (k0_t1 : Fin k0_t1_loop.trips) (k0_h1 : ¬k0_cond1 k0_t1 = 1#1) (v72 : F .f32) (v74 : F .f32) (v76 : F .f32) (v78 : F .f32) (v80 : F .f32) (v82 : F .f32) (v84 : F .f32) (v86 : F .f32) (v88 : F .f32) (v90 : F .f32) (v92 : F .f32) (v94 : F .f32) (v96 : F .f32) (v98 : F .f32) (v100 : F .f32) (v102 : F .f32) (v104 : F .f32) (v106 : F .f32) (v108 : F .f32) (v110 : F .f32) (v112 : F .f32) (v114 : F .f32) (v116 : F .f32) (v118 : F .f32) (v120 : F .f32) (v122 : F .f32) (v124 : F .f32) (v126 : F .f32) (v128 : F .f32) (v130 : F .f32) (v132 : F .f32) (v134 : F .f32) (v136 : F .f32) (v138 : F .f32) (v140 : F .f32) (v142 : F .f32) (v144 : F .f32) (v146 : F .f32) (v148 : F .f32) (v150 : F .f32) (v152 : F .f32) (v154 : F .f32) (v156 : F .f32) (v158 : F .f32) (v160 : F .f32) (v162 : F .f32) (v164 : F .f32) (v166 : F .f32) (v168 : F .f32) (v170 : F .f32) (v172 : F .f32) (v174 : F .f32) (v176 : F .f32) (v178 : F .f32) (v180 : F .f32) (v182 : F .f32) (v184 : F .f32) (v186 : F .f32) (v188 : F .f32) (v190 : F .f32) (v192 : F .f32) (v194 : F .f32) (v196 : F .f32) (v198 : F .f32) (v266 : FVec F S16 .f32)

/-- One trip of the loop `k0_t7_loop` at a symbolic trip number. -/
@[irreducible] def trip_t7 (k : Fin k0_t7_loop.trips) :
    TripSpec (F := F) d L (b1) (k0_t7_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266 k ()) := by
  have hk : k.val < 32 := Nat.lt_of_lt_of_le k.isLt k0_t7_abs.2.1
  refine ⟨?_, ?_, fun fb fm => ?run⟩
  case run =>
    unfold k0_t7_body
    iintro ⟨HB, HM⟩
    sl_exec
    sl_step
    sl_close

set_option warn.classDefReducibility false in
/-- The loop's invariant instance. -/
@[sl_loop] def loopInv_t7 (Gb : BufTy.Contents (Elt F) (b1).view.ty) (Gm : BufTy.Contents (Elt F) (meanb).view.ty) :
    Idealize.ShloMosaic.LoopInv (M := MT nD τ sig (HIx 1) (Elt F) ℕ UU ℕ) Idealize.ShloMosaic.frame (wpE (defs₀ (F := F)) 𝒱₀ (thr d L) none) Set.univ
      k0_t7_loop.lb k0_t7_loop.ub k0_t7_loop.st (k0_t7_ok k0_t1 k0_h1) ()
      (k0_t7_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266) :=
  colLoop (F := F) d L (b1) (trip_t7 (F := F) d L k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266) Gb Gm

end Cert.Proof.KI

end
-- ==== Proof.ColValue.lean ====
import proofs.«204522_g36051955483029_cont_8to1_b_1192_15_alg».proof.Proof.ColLoop
import proofs.«204522_g36051955483029_cont_8to1_b_1192_15_alg».proof.Proof.ColLib
import Idealize.ShloMosaic.Lib.WritesUnit
import Idealize.ShloMosaic.Lib.ValueIdx
import Idealize.ShloMosaic.Lib.Pipeline.Value

set_option maxRecDepth 65536
set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.ValueIdx

local notation "meanb" => (Memref.whole Cert.KernelIdeal.cc0_scratch4 : Memref Cert.KernelIdeal.sig Kind.scVector Space.vmem Cert.KernelIdeal.S1024 EltTy.f32)

variable (d : Dev nD) (L : grid0.Coords) (b : Memref sig Kind.scVector Space.vmem S64x512 EltTy.f32)
  {w : ℕ} {lb ub st : BitVec w} {hok : Scf.OK lb ub st}
  {body : Fin (Scf.trips lb ub st) → Unit → Prog (TpuEff nD τ sig (Elt F) Λ₀ (.scVector (cV L) (jV L))) Unit}
  (c : Fin (Scf.trips lb ub st) → ℕ)

/-- Row `r` of trip `k` begins at row `r`, column `c k`. -/
abbrev rowOff (k : Fin (Scf.trips lb ub st)) (r : Fin 64) : Fin 2 → ℕ := ![r.val, c k]

theorem rowOff_inb (hn : Scf.trips lb ub st = 32) (hc : ∀ k, c k = 16 * k.val) (k : Fin (Scf.trips lb ub st)) (r : Fin 64) :
    ∀ a, rowOff c k r a + S1x16.size a ≤ S64x512.size a := by
  intro a
  have hk := k.isLt
  match a with
  | ⟨0, _⟩ => show r.val + 1 ≤ 64; omega
  | ⟨1, _⟩ => show c k + 16 ≤ 512; rw [hc]; omega

/-- Trip `k`'s sixteen columns part-way through: the first `m` rows hold mean minus masked row, the other rows the masked row; every other column is as in `f`. -/
def ColInv (k : Fin (Scf.trips lb ub st)) (xm : Fin 64 → FVec F S16 .f32) (mc : FVec F S16 .f32) (m : ℕ)
    (Lp : List (View.Piece (Elt F) S64x512 .f32)) : Prop :=
  ∀ (f : BufTy.Contents (Elt F) b.view.ty) (y : S64x512.Idx),
    b.view.read (Elt F) (b.view.writes (Elt F) f Lp) y
      = if 16 * k.val ≤ (y 1).val ∧ (y 1).val < 16 * k.val + 16 then
          (if (y 0).val < m then FloatOps.subf (mc (ix1 (laneOf (y 1).val))) (xm (y 0) (ix1 (laneOf (y 1).val)))
           else xm (y 0) (ix1 (laneOf (y 1).val)))
        else b.view.read (Elt F) f y

/-- `colMean` with the column given as a natural number, reduced mod 512. -/
def colMeanN (g : S64x512.Idx → F .f32) (ms : Fin 64 → F .f32) (rcp : FVec F S16 .f32) (cN : ℕ) : F .f32 :=
  colMean g ms rcp ⟨cN % 512, Nat.mod_lt _ (by decide)⟩

theorem colMeanN_of_lt (g : S64x512.Idx → F .f32) (ms : Fin 64 → F .f32) (rcp : FVec F S16 .f32) {cN : ℕ} (h : cN < 512) :
    colMeanN g ms rcp cN = colMean g ms rcp ⟨cN, h⟩ :=
  congrArg (colMean g ms rcp) (Fin.ext (Nat.mod_eq_of_lt h))

variable (hn : Scf.trips lb ub st = 32) (hc : ∀ k, c k = 16 * k.val)

/-- The sixteen entries of row `r` that trip `k` loads from contents `fb`. -/
def ldRow (k : Fin (Scf.trips lb ub st)) (fb : BufTy.Contents (Elt F) b.view.ty) (r : Fin 64) : Vec F S1x16 .f32 :=
  View.readAt (Elt F) b.view (Rect.unit (s := S64x512) (rowOff c k r) S1x16.size (rowOff_inb c hn hc k r)).toLoadRect fb

/-- The sixty-four masked-row stores that open a trip, one tile per row. -/
def phase1 (k : Fin (Scf.trips lb ub st)) (xm : Fin 64 → FVec F S16 .f32) : List (View.Piece (Elt F) S64x512 .f32) :=
  View.tilePieces (s := S64x512) S1x16.size (rowOff c k) (rowOff_inb c hn hc k)
    (fun r => shapeCast S1x16 (xm r) shapeCasts_S16_S1x16) 64 le_rfl

include hn hc

/-- The tiles lie in distinct rows, so an index inside the trip's columns reads its own row's tile and one outside reads `f`. -/
theorem colInv_phase1 (k : Fin (Scf.trips lb ub st)) (xm : Fin 64 → FVec F S16 .f32) (mc : FVec F S16 .f32) :
    ColInv (F := F) b k xm mc 0 (phase1 c hn hc k xm) := by
  intro f y
  have hy0 : (y 0).val < 64 := (y 0).isLt
  have hy1 : (y 1).val < 512 := (y 1).isLt
  by_cases h : 16 * k.val ≤ (y 1).val ∧ (y 1).val < 16 * k.val + 16
  · rw [if_pos h, if_neg (Nat.not_lt_zero _)]
    unfold phase1
    have hl : (y 1).val - 16 * k.val < 16 := by omega
    rw [View.read_tilePieces b.view f S1x16.size (rowOff c k) (rowOff_inb c hn hc k)
      (fun r => shapeCast S1x16 (xm r) shapeCasts_S16_S1x16) 64 le_rfl y (y 0) hy0
      (ix2 (0 : Fin 1) (⟨(y 1).val - 16 * k.val, hl⟩ : Fin 16))
      (Fin.forall_fin_two.mpr ⟨by show (y 0).val = (y 0).val + 0; omega,
        by show (y 1).val = c k + ((y 1).val - 16 * k.val); rw [hc]; omega⟩)
      0 (fun i' hi' => by
        have : i'.val ≠ (y 0).val := fun e => hi' (Fin.ext e)
        show (y 0).val < i'.val ∨ i'.val + 1 ≤ (y 0).val
        omega)]
    show shapeCast S1x16 (xm (y 0)) shapeCasts_S16_S1x16 (ix2 (0 : Fin 1) (⟨(y 1).val - 16 * k.val, hl⟩ : Fin 16)) = _
    rw [cast_S16_S1x16_apply]
    exact congrArg (fun l => xm (y 0) (ix1 l)) (Fin.ext (by show (y 1).val - 16 * k.val = (y 1).val % 16; omega))
  · rw [if_neg h]
    unfold phase1
    exact read_tilePieces_of_miss b.view f S1x16.size (rowOff c k) (rowOff_inb c hn hc k) _ y 1
      (fun i => by
        show (y 1).val < c k ∨ c k + 16 ≤ (y 1).val
        rw [hc]; omega) 64 le_rfl

/-- Row `m` of the second pass: its payload is the mean minus a load that the earlier stores cover, and by the invariant that load is the masked row. -/
theorem colInv_step (k : Fin (Scf.trips lb ub st)) (xm : Fin 64 → FVec F S16 .f32) (mc : FVec F S16 .f32)
    (m : ℕ) (hm : m < 64) (Lp : List (View.Piece (Elt F) S64x512 .f32)) (off : Fin 2 → ℕ)
    (inb : ∀ a, off a + S1x16.size a ≤ S64x512.size a) (wv : (Rect.unit (s := S64x512) off S1x16.size inb).shape.Idx → Elt F .f32)
    (hoff : off = rowOff c k ⟨m, hm⟩)
    (hw : wv = shapeCast S1x16 (subf mc (shapeCast S16 (b.view.readCov Lp (Rect.unit (s := S64x512) off S1x16.size inb).toLoadRect) shapeCasts_S1x16_S16)) shapeCasts_S16_S1x16)
    (hL : ColInv (F := F) b k xm mc m Lp) :
    ColInv (F := F) b k xm mc (m + 1) (⟨Rect.unit (s := S64x512) off S1x16.size inb, wv⟩ :: Lp) := by
  subst hoff hw
  intro f y
  have hy0 : (y 0).val < 64 := (y 0).isLt
  have hy1 : (y 1).val < 512 := (y 1).isLt
  have heq : rowOff c k ⟨m, hm⟩ = ![m, 16 * k.val] := by
    show ![m, c k] = _
    rw [hc]
  by_cases hwin : 16 * k.val ≤ (y 1).val ∧ (y 1).val < 16 * k.val + 16
  · by_cases h0 : (y 0).val = m
    · rw [if_pos hwin, if_pos (by omega)]
      rw [View.read_writes_cons_unit_of_mem b.view f inb _ Lp y (ix2 (0 : Fin 1) (laneOf (y 1).val)) heq
        (Fin.forall_fin_two.mpr ⟨by show (y 0).val = m + 0; omega, by show (y 1).val = 16 * k.val + (y 1).val % 16; omega⟩)]
      rw [cast_S16_S1x16_apply]
      show FloatOps.subf (mc (ix1 (laneOf (y 1).val)))
        (shapeCast S16 (b.view.readCov Lp (Rect.unit (s := S64x512) (rowOff c k ⟨m, hm⟩) S1x16.size inb).toLoadRect)
          shapeCasts_S1x16_S16 (ix1 (laneOf (y 1).val))) = _
      rw [cast_S1x16_S16_apply]
      show FloatOps.subf (mc (ix1 (laneOf (y 1).val)))
        (b.view.read (Elt F) (b.view.writes (Elt F) b.view.junk Lp)
          ((Rect.unit (s := S64x512) (rowOff c k ⟨m, hm⟩) S1x16.size inb).toLoadRect.idx (ix2 (0 : Fin 1) (laneOf (y 1).val)))) = _
      have e0 : (((Rect.unit (s := S64x512) (rowOff c k ⟨m, hm⟩) S1x16.size inb).toLoadRect.idx (ix2 (0 : Fin 1) (laneOf (y 1).val))) 0).val = m := by
        show m + 1 * 0 = m; omega
      have e1 : (((Rect.unit (s := S64x512) (rowOff c k ⟨m, hm⟩) S1x16.size inb).toLoadRect.idx (ix2 (0 : Fin 1) (laneOf (y 1).val))) 1).val
          = 16 * k.val + (y 1).val % 16 := by
        show c k + 1 * ((y 1).val % 16) = _
        rw [hc]; omega
      generalize (Rect.unit (s := S64x512) (rowOff c k ⟨m, hm⟩) S1x16.size inb).toLoadRect.idx (ix2 (0 : Fin 1) (laneOf (y 1).val)) = y' at e0 e1 ⊢
      rw [hL, if_pos (by rw [e1]; omega), if_neg (by rw [e0]; omega)]
      have ey : y' 0 = y 0 := Fin.ext (e0.trans h0.symm)
      have el : laneOf (y' 1).val = laneOf (y 1).val := Fin.ext (by show (y' 1).val % 16 = (y 1).val % 16; rw [e1]; omega)
      rw [ey, el]
    · rw [View.read_writes_cons_unit_of_not_mem b.view f inb _ Lp y heq 0
        (by show (y 0).val < m ∨ m + 1 ≤ (y 0).val; omega), hL, if_pos hwin, if_pos hwin]
      by_cases hlt : (y 0).val < m
      · rw [if_pos hlt, if_pos (by omega)]
      · rw [if_neg hlt, if_neg (by omega)]
  · rw [View.read_writes_cons_unit_of_not_mem b.view f inb _ Lp y heq 1
      (by show (y 1).val < 16 * k.val ∨ 16 * k.val + 16 ≤ (y 1).val; omega), hL, if_neg hwin, if_neg hwin]

/-- For a column `cc` of trip `k`, lane `cc mod 16` of the masked row vector is the masked entry at `cc`. -/
theorem xmV_lane (k : Fin (Scf.trips lb ub st)) (fb : BufTy.Contents (Elt F) b.view.ty) (ms : Fin 64 → F .f32) (r : Fin 64) (cc : Fin 512)
    (hcc : 16 * k.val ≤ cc.val ∧ cc.val < 16 * k.val + 16) :
    xmV ms (ldRow b c hn hc k fb) r (ix1 (laneOf cc.val)) = xmS (b.view.read (Elt F) fb) ms r cc := by
  show FloatOps.mulf (shapeCast S16 (ldRow b c hn hc k fb r) shapeCasts_S1x16_S16 (ix1 (laneOf cc.val))) (ms r) = _
  rw [cast_S1x16_S16_apply]
  show FloatOps.mulf (b.view.read (Elt F) fb ((Rect.unit (s := S64x512) (rowOff c k r) S1x16.size (rowOff_inb c hn hc k r)).toLoadRect.idx
      (ix2 (0 : Fin 1) (laneOf cc.val)))) (ms r) = FloatOps.mulf (b.view.read (Elt F) fb (ix2 r cc)) (ms r)
  refine congrArg (fun i => FloatOps.mulf (b.view.read (Elt F) fb i) (ms r)) (funext fun a => Fin.ext ?_)
  match a with
  | ⟨0, _⟩ => show r.val + 1 * 0 = r.val; omega
  | ⟨1, _⟩ => show c k + 1 * (cc.val % 16) = cc.val; rw [hc]; omega

/-- A finished trip (`m = 64`) leaves `colDiff` of the contents it met in its own columns and changes nothing else. -/
theorem trip_read (ms : Fin 64 → F .f32) (rcp : FVec F S16 .f32) (k : Fin (Scf.trips lb ub st)) (fb : BufTy.Contents (Elt F) b.view.ty)
    (Lb : List (View.Piece (Elt F) S64x512 .f32))
    (hA : ColInv (F := F) b k (xmV ms (ldRow b c hn hc k fb)) (mcV (xmV ms (ldRow b c hn hc k fb)) rcp) 64 Lb)
    (f : BufTy.Contents (Elt F) b.view.ty) (y : S64x512.Idx) :
    b.view.read (Elt F) (b.view.writes (Elt F) f Lb) y
      = if 16 * k.val ≤ (y 1).val ∧ (y 1).val < 16 * k.val + 16 then colDiff (b.view.read (Elt F) fb) ms rcp y else b.view.read (Elt F) f y := by
  rw [hA f y]
  by_cases hwin : 16 * k.val ≤ (y 1).val ∧ (y 1).val < 16 * k.val + 16
  · rw [if_pos hwin, if_pos hwin, if_pos (show (y 0).val < 64 from (y 0).isLt)]
    show _ = FloatOps.subf (colMean (b.view.read (Elt F) fb) ms rcp (y 1)) (xmS (b.view.read (Elt F) fb) ms (y 0) (y 1))
    rw [mcV_lane_eq _ _ (b.view.read (Elt F) fb) ms (y 1) (fun r => xmV_lane b c hn hc k fb ms r (y 1) hwin),
      xmV_lane b c hn hc k fb ms (y 0) (y 1) hwin]
  · rw [if_neg hwin, if_neg hwin]

variable (ms : Fin 64 → F .f32) (rcp : FVec F S16 .f32) (trip : ∀ k, TripSpec (F := F) d L b (body k ()))
  (Gb : BufTy.Contents (Elt F) b.view.ty) (Gm : BufTy.Contents (Elt F) (meanb).view.ty)
  (hA : ∀ k fb fm, ColInv (F := F) b k (xmV ms (ldRow b c hn hc k fb)) (mcV (xmV ms (ldRow b c hn hc k fb)) rcp) 64 ((trip k).1 fb fm))

include hA

/-- By induction on trips: a trip reads only its own columns, which no earlier trip wrote, so the values are those of the entry contents. -/
theorem col_read : ∀ (kk : ℕ) (_ : kk ≤ 32) (y : S64x512.Idx),
      b.view.read (Elt F) (b.view.writes (Elt F) Gb (pb (F := F) d L b trip Gb Gm kk).1) y
        = if (y 1).val < 16 * kk then colDiff (b.view.read (Elt F) Gb) ms rcp y else b.view.read (Elt F) Gb y
  | 0, _, y => by
    rw [if_neg (Nat.not_lt_zero _)]
    rfl
  | kk + 1, hk, y => by
    obtain ⟨k, rfl⟩ : ∃ k : Fin (Scf.trips lb ub st), k.val = kk := ⟨⟨kk, by rw [hn]; omega⟩, rfl⟩
    rw [pb_succ]
    show b.view.read (Elt F) (b.view.writes (Elt F) Gb ((trip k).1 _ _ ++ (pb (F := F) d L b trip Gb Gm k.val).1)) y = _
    rw [View.writes_append, trip_read b c hn hc ms rcp k _ _ (hA k _ _)]
    have ih := col_read k.val (by omega)
    by_cases hwin : 16 * k.val ≤ (y 1).val ∧ (y 1).val < 16 * k.val + 16
    · rw [if_pos hwin, if_pos (by omega)]
      exact colDiff_congr _ _ _ _ y (fun r => by
        rw [ih]
        exact if_neg (by show ¬ (y 1).val < 16 * k.val; omega))
    · rw [if_neg hwin, ih]
      by_cases hlt : (y 1).val < 16 * k.val
      · rw [if_pos hlt, if_pos (by omega)]
      · rw [if_neg hlt, if_neg (by omega)]

/-- After all 32 trips the whole buffer is `colDiff` of its entry contents. -/
theorem col_buf (y : S64x512.Idx) :
    b.view.read (Elt F) (b.view.writes (Elt F) Gb (pb (F := F) d L b trip Gb Gm 32).1) y = colDiff (b.view.read (Elt F) Gb) ms rcp y :=
  (col_read d L b c hn hc ms rcp trip Gb Gm hA 32 le_rfl y).trans (if_pos (y 1).isLt)

variable (M : ℕ) (hM : M = 0 ∨ M = 512) (moff : Fin (Scf.trips lb ub st) → Fin 1 → ℕ) (hmo : ∀ k, moff k = ![16 * k.val + M])
  (minb : ∀ k a, moff k a + S16.size a ≤ S1024.size a)

omit hn hc hA in
include hM hmo in
/-- The one sixteen-wide store a trip makes into the mean buffer, read back. -/
theorem tripLm_read (k : Fin (Scf.trips lb ub st)) (mc : FVec F S16 .f32) (f : BufTy.Contents (Elt F) (meanb).view.ty) (j : S1024.Idx) :
    (meanb).view.writes (Elt F) f [⟨Rect.unit (s := S1024) (moff k) S16.size (minb k), shapeCast S16 mc shapeCasts_S16_S16⟩] j
      = if 16 * k.val + M ≤ (j 0).val ∧ (j 0).val < 16 * k.val + M + 16 then mc (ix1 (laneOf (j 0).val)) else f j := by
  show (meanb).view.read (Elt F) ((meanb).view.writes (Elt F) f
    [⟨Rect.unit (s := S1024) (moff k) S16.size (minb k), shapeCast S16 mc shapeCasts_S16_S16⟩]) j = _
  by_cases hwin : 16 * k.val + M ≤ (j 0).val ∧ (j 0).val < 16 * k.val + M + 16
  · rw [if_pos hwin]
    have e := View.read_writes_cons_unit_of_mem (meanb).view f (off := moff k) (off' := ![16 * k.val + M]) (size := S16.size)
      (minb k) (shapeCast S16 mc shapeCasts_S16_S16) [] j (ix1 (laneOf (j 0).val))
      (hmo k) (Fin.forall_fin_one.mpr (by show (j 0).val = 16 * k.val + M + (j 0).val % 16; omega))
    rw [e, shapeCast_self]
  · rw [if_neg hwin]
    have e := View.read_writes_cons_unit_of_not_mem (meanb).view f (off := moff k) (off' := ![16 * k.val + M]) (size := S16.size)
      (minb k) (shapeCast S16 mc shapeCasts_S16_S16) [] j
      (hmo k) 0 (by show (j 0).val < 16 * k.val + M ∨ 16 * k.val + M + 16 ≤ (j 0).val; omega)
    rw [e]
    rfl

variable (hB : ∀ k fb fm, (trip k).2.1 fb fm
    = [⟨Rect.unit (s := S1024) (moff k) S16.size (minb k), shapeCast S16 (mcV (xmV ms (ldRow b c hn hc k fb)) rcp) shapeCasts_S16_S16⟩])

include hM hmo hB

/-- By induction on trips: entries `M … M + 16 kk − 1` hold the column means of the staging buffer's entry contents. -/
theorem mean_read : ∀ (kk : ℕ) (_ : kk ≤ 32) (j : S1024.Idx),
      (meanb).view.writes (Elt F) Gm (pb (F := F) d L b trip Gb Gm kk).2 j
        = if M ≤ (j 0).val ∧ (j 0).val < M + 16 * kk then colMeanN (b.view.read (Elt F) Gb) ms rcp ((j 0).val - M) else Gm j
  | 0, _, j => by
    rw [if_neg (by omega)]; rfl
  | kk + 1, hk, j => by
    obtain ⟨k, rfl⟩ : ∃ k : Fin (Scf.trips lb ub st), k.val = kk := ⟨⟨kk, by rw [hn]; omega⟩, rfl⟩
    rw [pb_succ]
    show (meanb).view.writes (Elt F) Gm ((trip k).2.1 _ _ ++ (pb (F := F) d L b trip Gb Gm k.val).2) j = _
    rw [View.writes_append, hB, tripLm_read M hM moff hmo minb k _ _ j]
    have ih := mean_read k.val (by omega) j
    have hj : (j 0).val < 1024 := (j 0).isLt
    by_cases hwin : 16 * k.val + M ≤ (j 0).val ∧ (j 0).val < 16 * k.val + M + 16
    · rw [if_pos hwin, if_pos (by omega)]
      have hlt : (j 0).val - M < 512 := by omega
      have hcc : 16 * k.val ≤ (⟨(j 0).val - M, hlt⟩ : Fin 512).val ∧ (⟨(j 0).val - M, hlt⟩ : Fin 512).val < 16 * k.val + 16 := by
        show 16 * k.val ≤ (j 0).val - M ∧ (j 0).val - M < 16 * k.val + 16
        omega
      have el : laneOf (j 0).val = laneOf (⟨(j 0).val - M, hlt⟩ : Fin 512).val :=
        Fin.ext (by show (j 0).val % 16 = ((j 0).val - M) % 16; omega)
      rw [el, mcV_lane_eq _ _ (b.view.read (Elt F) (b.view.writes (Elt F) Gb (pb (F := F) d L b trip Gb Gm k.val).1)) ms ⟨(j 0).val - M, hlt⟩
        (fun r => xmV_lane b c hn hc k _ ms r ⟨(j 0).val - M, hlt⟩ hcc), colMeanN_of_lt _ _ _ hlt]
      exact colMean_congr _ _ _ _ _ (fun r => by
        rw [col_read d L b c hn hc ms rcp trip Gb Gm hA k.val (by omega)]
        exact if_neg (by show ¬ (j 0).val - M < 16 * k.val; omega))
    · rw [if_neg hwin, ih]
      by_cases hlt : M ≤ (j 0).val ∧ (j 0).val < M + 16 * k.val
      · rw [if_pos hlt, if_pos (by omega)]
      · rw [if_neg hlt, if_neg (by omega)]

end Cert.Proof.KI

end
-- ==== Proof.ColT6Value.lean ====
import proofs.«204522_g36051955483029_cont_8to1_b_1192_15_alg».proof.Proof.ColT6
import proofs.«204522_g36051955483029_cont_8to1_b_1192_15_alg».proof.Proof.ColValue

set_option maxRecDepth 65536
set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.ValueIdx

local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "meanb" => (Memref.whole Cert.KernelIdeal.cc0_scratch4 : Memref Cert.KernelIdeal.sig Kind.scVector Space.vmem Cert.KernelIdeal.S1024 EltTy.f32)

variable (d : Dev nD) (L : grid0.Coords) (k0_t1 : Fin k0_t1_loop.trips) (arg20 : BitVec 32) (k0_h1 : ¬(k0_cond1 k0_t1 = 1#1)) (v58 : BitVec 32) (v72 : F .f32) (v74 : F .f32) (v76 : F .f32) (v78 : F .f32) (v80 : F .f32) (v82 : F .f32) (v84 : F .f32) (v86 : F .f32) (v88 : F .f32) (v90 : F .f32) (v92 : F .f32) (v94 : F .f32) (v96 : F .f32) (v98 : F .f32) (v100 : F .f32) (v102 : F .f32) (v104 : F .f32) (v106 : F .f32) (v108 : F .f32) (v110 : F .f32) (v112 : F .f32) (v114 : F .f32) (v116 : F .f32) (v118 : F .f32) (v120 : F .f32) (v122 : F .f32) (v124 : F .f32) (v126 : F .f32) (v128 : F .f32) (v130 : F .f32) (v132 : F .f32) (v134 : F .f32) (v136 : F .f32) (v138 : F .f32) (v140 : F .f32) (v142 : F .f32) (v144 : F .f32) (v146 : F .f32) (v148 : F .f32) (v150 : F .f32) (v152 : F .f32) (v154 : F .f32) (v156 : F .f32) (v158 : F .f32) (v160 : F .f32) (v162 : F .f32) (v164 : F .f32) (v166 : F .f32) (v168 : F .f32) (v170 : F .f32) (v172 : F .f32) (v174 : F .f32) (v176 : F .f32) (v178 : F .f32) (v180 : F .f32) (v182 : F .f32) (v184 : F .f32) (v186 : F .f32) (v188 : F .f32) (v190 : F .f32) (v192 : F .f32) (v194 : F .f32) (v196 : F .f32) (v198 : F .f32) (v233 : F .f32)

theorem trips_t6 : k0_t6_loop.trips = 32 := by decide

theorem buf_read_t6 (f : BufTy.Contents (Elt F) (b0).view.ty) (y : S64x512.Idx) : (b0).view.read (Elt F) f y = f y := rfl

/-- The first column of trip `k`, through the program's own offset function. -/
abbrev c_t6 (k : Fin k0_t6_loop.trips) : ℕ := k0_off357 k 1

theorem colOff_t6 (k : Fin k0_t6_loop.trips) : c_t6 k = 16 * k.val := by
  show k0_off357 k 1 = _
  rw [k0_off357_eq]; rfl

/-- The first sixty-four pieces the run lists are the masked-row tiles. -/
theorem hb64_eq_t6 (k : Fin k0_t6_loop.trips) (fb : BufTy.Contents (Elt F) (b0).view.ty) :
    trip_t6.sl.HB_64 (F := F) k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 k fb = phase1 (F := F) c_t6 trips_t6 colOff_t6 k (xmV (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) (ldRow (b0) c_t6 trips_t6 colOff_t6 k fb)) := by
  sl_kernel_rfl

/-- The run's name for the mean vector is `mcV` of the masked rows. -/
theorem r63_eq_t6 (k : Fin k0_t6_loop.trips) (fb : BufTy.Contents (Elt F) (b0).view.ty) :
    trip_t6.sl.r_63 (F := F) k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233 k fb = mcV (xmV (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) (ldRow (b0) c_t6 trips_t6 colOff_t6 k fb)) (k0_pay1808 v144 v146 v148 v150 v152 v154 v156 v158 v160 v162 v164 v166 v168 v170 v172 v174 v176 v178 v180 v182 v184 v186 v188 v190 v192 v194 v196 v198 v233) := by
  sl_kernel_rfl

unseal trip_t6 in
/-- The trip's list for the mean buffer is one store of the mean vector. -/
theorem tripLm_eq_t6 (k : Fin k0_t6_loop.trips) (fb : BufTy.Contents (Elt F) (b0).view.ty) (fm : BufTy.Contents (Elt F) (meanb).view.ty) :
    ((trip_t6 (F := F) d L k0_t1 arg20 k0_h1 v58 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233) k).2.1 fb fm
      = [⟨Rect.unit (s := S1024) (k0_off358 k) S16.size (k0_off358_inb k0_t1 k k0_h1), shapeCast S16 (mcV (xmV (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) (ldRow (b0) c_t6 trips_t6 colOff_t6 k fb)) (k0_pay1808 v144 v146 v148 v150 v152 v154 v156 v158 v160 v162 v164 v166 v168 v170 v172 v174 v176 v178 v180 v182 v184 v186 v188 v190 v192 v194 v196 v198 v233)) shapeCasts_S16_S16⟩] := by
  sl_kernel_rfl

unseal trip_t6 in
/-- The sixty-four second-pass stores are peeled off one at a time down to the opening tiles. -/
theorem inv_trip_t6 (k : Fin k0_t6_loop.trips) (fb : BufTy.Contents (Elt F) (b0).view.ty) (fm : BufTy.Contents (Elt F) (meanb).view.ty) :
    ColInv (F := F) (b0) k (xmV (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) (ldRow (b0) c_t6 trips_t6 colOff_t6 k fb)) (mcV (xmV (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) (ldRow (b0) c_t6 trips_t6 colOff_t6 k fb)) (k0_pay1808 v144 v146 v148 v150 v152 v154 v156 v158 v160 v162 v164 v166 v168 v170 v172 v174 v176 v178 v180 v182 v184 v186 v188 v190 v192 v194 v196 v198 v233)) 64 (((trip_t6 (F := F) d L k0_t1 arg20 k0_h1 v58 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233) k).1 fb fm) := by
  rw [← r63_eq_t6 (F := F) k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233 k fb]
  unfold trip_t6
  dsimp only
  iterate 64 (refine colInv_step (b0) c_t6 trips_t6 colOff_t6 k _ _ _ (by omega) _ _ _ _ rfl rfl ?_)
  rw [hb64_eq_t6 (F := F) k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 k fb]
  exact colInv_phase1 (b0) c_t6 trips_t6 colOff_t6 k _ _

/-- The staging buffer after the loop. -/
theorem col_t6_buf (Gb : BufTy.Contents (Elt F) (b0).view.ty) (Gm : BufTy.Contents (Elt F) (meanb).view.ty) :
    (b0).view.writes (Elt F) Gb (pb (F := F) d L (b0) (trip_t6 (F := F) d L k0_t1 arg20 k0_h1 v58 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233) Gb Gm 32).1 = colDiff Gb (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) (k0_pay1808 v144 v146 v148 v150 v152 v154 v156 v158 v160 v162 v164 v166 v168 v170 v172 v174 v176 v178 v180 v182 v184 v186 v188 v190 v192 v194 v196 v198 v233) :=
  funext fun y => (col_buf d L (b0) c_t6 trips_t6 colOff_t6 (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) (k0_pay1808 v144 v146 v148 v150 v152 v154 v156 v158 v160 v162 v164 v166 v168 v170 v172 v174 v176 v178 v180 v182 v184 v186 v188 v190 v192 v194 v196 v198 v233) (trip_t6 (F := F) d L k0_t1 arg20 k0_h1 v58 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233) Gb Gm (inv_trip_t6 (F := F) d L k0_t1 arg20 k0_h1 v58 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233) y).trans
    (colDiff_congr _ _ _ _ y fun _ => rfl)

/-- The mean buffer after the loop: its first 512 entries are the column means. -/
theorem col_t6_mean (Gb : BufTy.Contents (Elt F) (b0).view.ty) (Gm : BufTy.Contents (Elt F) (meanb).view.ty) :
    (meanb).view.writes (Elt F) Gm (pb (F := F) d L (b0) (trip_t6 (F := F) d L k0_t1 arg20 k0_h1 v58 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233) Gb Gm 32).2
      = fun j => if h : (j 0).val < 512 then colMean Gb (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) (k0_pay1808 v144 v146 v148 v150 v152 v154 v156 v158 v160 v162 v164 v166 v168 v170 v172 v174 v176 v178 v180 v182 v184 v186 v188 v190 v192 v194 v196 v198 v233) ⟨(j 0).val, h⟩ else Gm j :=
  funext fun j => by
    rw [mean_read d L (b0) c_t6 trips_t6 colOff_t6 (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) (k0_pay1808 v144 v146 v148 v150 v152 v154 v156 v158 v160 v162 v164 v166 v168 v170 v172 v174 v176 v178 v180 v182 v184 v186 v188 v190 v192 v194 v196 v198 v233) (trip_t6 (F := F) d L k0_t1 arg20 k0_h1 v58 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233) Gb Gm (inv_trip_t6 (F := F) d L k0_t1 arg20 k0_h1 v58 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233) 0 (Or.inl rfl) k0_off358 k0_off358_eq (fun k => k0_off358_inb k0_t1 k k0_h1) (tripLm_eq_t6 (F := F) d L k0_t1 arg20 k0_h1 v58 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v233) 32 le_rfl j]
    by_cases h : (j 0).val < 512
    · rw [if_pos (by omega), dif_pos h, colMeanN_of_lt _ _ _ (show (j 0).val - 0 < 512 from h)]
      exact colMean_congr _ _ _ _ _ fun _ => rfl
    · rw [if_neg (by omega), dif_neg h]

end Cert.Proof.KI

end
-- ==== Proof.ColT7Value.lean ====
import proofs.«204522_g36051955483029_cont_8to1_b_1192_15_alg».proof.Proof.ColT7
import proofs.«204522_g36051955483029_cont_8to1_b_1192_15_alg».proof.Proof.ColValue

set_option maxRecDepth 65536
set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.ValueIdx

local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "meanb" => (Memref.whole Cert.KernelIdeal.cc0_scratch4 : Memref Cert.KernelIdeal.sig Kind.scVector Space.vmem Cert.KernelIdeal.S1024 EltTy.f32)

variable (d : Dev nD) (L : grid0.Coords) (k0_t1 : Fin k0_t1_loop.trips) (k0_h1 : ¬k0_cond1 k0_t1 = 1#1) (v72 : F .f32) (v74 : F .f32) (v76 : F .f32) (v78 : F .f32) (v80 : F .f32) (v82 : F .f32) (v84 : F .f32) (v86 : F .f32) (v88 : F .f32) (v90 : F .f32) (v92 : F .f32) (v94 : F .f32) (v96 : F .f32) (v98 : F .f32) (v100 : F .f32) (v102 : F .f32) (v104 : F .f32) (v106 : F .f32) (v108 : F .f32) (v110 : F .f32) (v112 : F .f32) (v114 : F .f32) (v116 : F .f32) (v118 : F .f32) (v120 : F .f32) (v122 : F .f32) (v124 : F .f32) (v126 : F .f32) (v128 : F .f32) (v130 : F .f32) (v132 : F .f32) (v134 : F .f32) (v136 : F .f32) (v138 : F .f32) (v140 : F .f32) (v142 : F .f32) (v144 : F .f32) (v146 : F .f32) (v148 : F .f32) (v150 : F .f32) (v152 : F .f32) (v154 : F .f32) (v156 : F .f32) (v158 : F .f32) (v160 : F .f32) (v162 : F .f32) (v164 : F .f32) (v166 : F .f32) (v168 : F .f32) (v170 : F .f32) (v172 : F .f32) (v174 : F .f32) (v176 : F .f32) (v178 : F .f32) (v180 : F .f32) (v182 : F .f32) (v184 : F .f32) (v186 : F .f32) (v188 : F .f32) (v190 : F .f32) (v192 : F .f32) (v194 : F .f32) (v196 : F .f32) (v198 : F .f32) (v266 : FVec F S16 .f32)

theorem trips_t7 : k0_t7_loop.trips = 32 := by decide

theorem buf_read_t7 (f : BufTy.Contents (Elt F) (b1).view.ty) (y : S64x512.Idx) : (b1).view.read (Elt F) f y = f y := rfl

/-- The first column of trip `k`, through the program's own offset function. -/
abbrev c_t7 (k : Fin k0_t7_loop.trips) : ℕ := k0_off425 k 1

theorem colOff_t7 (k : Fin k0_t7_loop.trips) : c_t7 k = 16 * k.val := by
  show k0_off425 k 1 = _
  rw [k0_off425_eq]; rfl

/-- The first sixty-four pieces the run lists are the masked-row tiles. -/
theorem hb64_eq_t7 (k : Fin k0_t7_loop.trips) (fb : BufTy.Contents (Elt F) (b1).view.ty) :
    trip_t7.sl.HB_64 (F := F) k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 k fb = phase1 (F := F) c_t7 trips_t7 colOff_t7 k (xmV (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) (ldRow (b1) c_t7 trips_t7 colOff_t7 k fb)) := by
  sl_kernel_rfl

/-- The run's name for the mean vector is `mcV` of the masked rows. -/
theorem r63_eq_t7 (k : Fin k0_t7_loop.trips) (fb : BufTy.Contents (Elt F) (b1).view.ty) :
    trip_t7.sl.r_63 (F := F) k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266 k fb = mcV (xmV (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) (ldRow (b1) c_t7 trips_t7 colOff_t7 k fb)) v266 := by
  sl_kernel_rfl

unseal trip_t7 in
/-- The trip's list for the mean buffer is one store of the mean vector. -/
theorem tripLm_eq_t7 (k : Fin k0_t7_loop.trips) (fb : BufTy.Contents (Elt F) (b1).view.ty) (fm : BufTy.Contents (Elt F) (meanb).view.ty) :
    ((trip_t7 (F := F) d L k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266) k).2.1 fb fm
      = [⟨Rect.unit (s := S1024) (k0_off426 k) S16.size (k0_off426_inb k0_t1 k k0_h1), shapeCast S16 (mcV (xmV (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) (ldRow (b1) c_t7 trips_t7 colOff_t7 k fb)) v266) shapeCasts_S16_S16⟩] := by
  sl_kernel_rfl

unseal trip_t7 in
/-- The sixty-four second-pass stores are peeled off one at a time down to the opening tiles. -/
theorem inv_trip_t7 (k : Fin k0_t7_loop.trips) (fb : BufTy.Contents (Elt F) (b1).view.ty) (fm : BufTy.Contents (Elt F) (meanb).view.ty) :
    ColInv (F := F) (b1) k (xmV (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) (ldRow (b1) c_t7 trips_t7 colOff_t7 k fb)) (mcV (xmV (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) (ldRow (b1) c_t7 trips_t7 colOff_t7 k fb)) v266) 64 (((trip_t7 (F := F) d L k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266) k).1 fb fm) := by
  rw [← r63_eq_t7 (F := F) k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266 k fb]
  unfold trip_t7
  dsimp only
  iterate 64 (refine colInv_step (b1) c_t7 trips_t7 colOff_t7 k _ _ _ (by omega) _ _ _ _ rfl rfl ?_)
  rw [hb64_eq_t7 (F := F) k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 k fb]
  exact colInv_phase1 (b1) c_t7 trips_t7 colOff_t7 k _ _

/-- The staging buffer after the loop. -/
theorem col_t7_buf (Gb : BufTy.Contents (Elt F) (b1).view.ty) (Gm : BufTy.Contents (Elt F) (meanb).view.ty) :
    (b1).view.writes (Elt F) Gb (pb (F := F) d L (b1) (trip_t7 (F := F) d L k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266) Gb Gm 32).1 = colDiff Gb (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) v266 :=
  funext fun y => (col_buf d L (b1) c_t7 trips_t7 colOff_t7 (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) v266 (trip_t7 (F := F) d L k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266) Gb Gm (inv_trip_t7 (F := F) d L k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266) y).trans
    (colDiff_congr _ _ _ _ y fun _ => rfl)

theorem sub512_lt_t7 (j : S1024.Idx) : (j 0).val - 512 < 512 := by
  have h : (j 0).val < 1024 := (j 0).isLt
  omega

/-- The mean buffer after the loop, entry by entry: from entry 512 on, the column means. -/
theorem col_t7_mean_apply (Gb : BufTy.Contents (Elt F) (b1).view.ty) (Gm : BufTy.Contents (Elt F) (meanb).view.ty) (j : S1024.Idx) :
    (meanb).view.writes (Elt F) Gm (pb (F := F) d L (b1) (trip_t7 (F := F) d L k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266) Gb Gm 32).2 j
      = if 512 ≤ (j 0).val then colMean Gb (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) v266 ⟨(j 0).val - 512, sub512_lt_t7 j⟩ else Gm j := by
  have hj : (j 0).val < 1024 := (j 0).isLt
  rw [mean_read d L (b1) c_t7 trips_t7 colOff_t7 (msOf v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198) v266 (trip_t7 (F := F) d L k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266) Gb Gm (inv_trip_t7 (F := F) d L k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266) 512 (Or.inr rfl) k0_off426 k0_off426_eq (fun k => k0_off426_inb k0_t1 k k0_h1) (tripLm_eq_t7 (F := F) d L k0_t1 k0_h1 v72 v74 v76 v78 v80 v82 v84 v86 v88 v90 v92 v94 v96 v98 v100 v102 v104 v106 v108 v110 v112 v114 v116 v118 v120 v122 v124 v126 v128 v130 v132 v134 v136 v138 v140 v142 v144 v146 v148 v150 v152 v154 v156 v158 v160 v162 v164 v166 v168 v170 v172 v174 v176 v178 v180 v182 v184 v186 v188 v190 v192 v194 v196 v198 v266) 32 le_rfl j]
  by_cases h : 512 ≤ (j 0).val
  · rw [if_pos (by omega), if_pos h, colMeanN_of_lt _ _ _ (sub512_lt_t7 j)]
    exact colMean_congr _ _ _ _ _ fun _ => rfl
  · rw [if_neg (by omega), if_neg h]

end Cert.Proof.KI

end
-- ==== Proof.VaLemmas.lean ====
import proofs.«204522_g36051955483029_cont_8to1_b_1192_15_alg».proof.Proof.Canon
import proofs.«204522_g36051955483029_cont_8to1_b_1192_15_alg».proof.Proof.VDefs
import proofs.«204522_g36051955483029_cont_8to1_b_1192_15_alg».proof.Proof.Slices
import proofs.«204522_g36051955483029_cont_8to1_b_1192_15_alg».proof.Proof.Spec
import Idealize.ShloMosaic.Lib.Exec.Geometry

set_option maxRecDepth 65536
set_option maxHeartbeats 4000000

noncomputable section

namespace Cert.Proof.KI

open Cert.KernelIdeal Cert.KernelIdeal.Gen

open Idealize.ShloMosaic Idealize.ShloMosaic.ValueIdx

variable {F : FTy → Type} [FloatOps F]

theorem emb_dsl (o : Fin 3 → Nat) (ho : ∀ a, o a + S1x64x512.size a ≤ S512x64x1024.size a) (y : S64x512.Idx) (a : Fin 3) :
    ((dsl o ho).view.emb y a : ℕ) = o a + (ix3 (0 : Fin 1) (y 0) (y 1) a : ℕ) := by
  show ((((View.whole (main_v2_0_scv : Ref sig .scVector)).slice (Rect.unit (s := S512x64x1024) o S1x64x512.size ho)).reshape S64x512
    squeezes_S1x64x512_S64x512.numel_eq).emb y a : ℕ) = _
  rw [View.emb_reshape, View.emb_slice, View.emb_whole]
  show ((Rect.unit (s := S512x64x1024) o S1x64x512.size ho).emb (Shape.reshapeEquiv squeezes_S1x64x512_S64x512.numel_eq y) a : ℕ) = _
  rw [Shape.reshapeEquiv_eq_of_rowMajor squeezes_S1x64x512_S64x512.numel_eq (y := ix3 (0 : Fin 1) (y 0) (y 1))
    (by rw [Shape.rowMajor_val_three, Shape.rowMajor_val_two]; show (0 * 64 + (y 0).val) * 512 + (y 1).val = (y 0).val * 512 + (y 1).val; omega)]
  match a with
  | 0 => show o 0 + 1 * 0 = o 0 + 0; rfl
  | 1 => show o 1 + 1 * (y 0).val = o 1 + (y 0).val; omega
  | 2 => show o 2 + 1 * (y 1).val = o 2 + (y 1).val; omega

theorem emb_esl (o : Fin 2 → Nat) (ho : ∀ a, o a + S1x1024.size a ≤ S512x1024.size a) (z : S1024.Idx) (a : Fin 2) :
    ((esl o ho).view.emb z a : ℕ) = o a + (ix2 (0 : Fin 1) (z 0) a : ℕ) := by
  show ((((View.whole (main_v2_1_scv : Ref sig .scVector)).slice (Rect.unit (s := S512x1024) o S1x1024.size ho)).reshape S1024
    squeezes_S1x1024_S1024.numel_eq).emb z a : ℕ) = _
  rw [View.emb_reshape, View.emb_slice, View.emb_whole]
  show ((Rect.unit (s := S512x1024) o S1x1024.size ho).emb (Shape.reshapeEquiv squeezes_S1x1024_S1024.numel_eq z) a : ℕ) = _
  rw [Shape.reshapeEquiv_eq_of_rowMajor squeezes_S1x1024_S1024.numel_eq (y := ix2 (0 : Fin 1) (z 0))
    (by rw [Shape.rowMajor_val_two, Shape.rowMajor_val_one]; show 0 * 1024 + (z 0).val = (z 0).val; omega)]
  match a with
  | 0 => show o 0 + 1 * 0 = o 0 + 0; rfl
  | 1 => show o 1 + 1 * (z 0).val = o 1 + (z 0).val; omega

theorem dS_point (X : S512x64x1024.Idx → F .f32) (Mc : S512x64.Idx → F .f32) (L : grid0.Coords) (kk : ℕ) (hk : kk ≤ 15)
    (h : Fin 2) (i : S512x64x1024.Idx) (hi : i ∈ dS L kk (512 * h.val)) :
    ∃ y : S64x512.Idx, (∀ a : Fin 3, uo3 L kk (512 * h.val) a + (ix3 (0 : Fin 1) (y 0) (y 1) a : ℕ) = (i a : ℕ))
      ∧ Dsp X Mc i = colDiff (blkU X (uT L kk) h) (msU Mc (uT L kk)) (rcpF (msU Mc (uT L kk))) y := by
  have hh := h.isLt
  have hi' := (mem_dS L kk (512 * h.val) i).mp hi
  have h1 : (i 1).val < 64 := (i 1).isLt
  have h2 : (i 2).val < 1024 := (i 2).isLt
  have hc : (i 2).val - 512 * h.val < 512 := by omega
  refine ⟨ix2 (i 1) (⟨(i 2).val - 512 * h.val, hc⟩ : Fin 512), fun a => ?_, ?_⟩
  · match a with
    | 0 => show base L + min kk 15 + 0 = (i 0).val; omega
    | 1 => show 0 + (i 1).val = (i 1).val; omega
    | 2 => show min (512 * h.val) 512 + ((i 2).val - 512 * h.val) = (i 2).val; omega
  · have hu : i 0 = uT L kk := Fin.ext (by show (i 0).val = base L + min kk 15; omega)
    have hhalf : halfOf (i 2) = h := Fin.ext (by show (i 2).val / 512 = h.val; omega)
    have hcol : colOf (i 2) = (⟨(i 2).val - 512 * h.val, hc⟩ : Fin 512) := Fin.ext (by show (i 2).val % 512 = (i 2).val - 512 * h.val; omega)
    show colDiff (blkU X (i 0) (halfOf (i 2))) (msU Mc (i 0)) (rcpF (msU Mc (i 0))) (ix2 (i 1) (colOf (i 2))) = _
    rw [hu, hhalf, hcol]

theorem eS_point (X : S512x64x1024.Idx → F .f32) (Mc : S512x64.Idx → F .f32) (L : grid0.Coords) (kk : ℕ) (hk : kk ≤ 15)
    (j : S512x1024.Idx) (hj : j ∈ eS L kk) :
    (∀ a : Fin 2, uo2 L kk a + (ix2 (0 : Fin 1) (j 1) a : ℕ) = (j a : ℕ))
      ∧ Esp X Mc j = colMean (blkU X (uT L kk) (halfOf (j 1))) (msU Mc (uT L kk)) (rcpF (msU Mc (uT L kk))) (colOf (j 1)) := by
  have hj' := (mem_eS L kk j).mp hj
  have h1 : (j 1).val < 1024 := (j 1).isLt
  refine ⟨fun a => ?_, ?_⟩
  · match a with
    | 0 => show base L + min kk 15 + 0 = (j 0).val; omega
    | 1 => show 0 + (j 1).val = (j 1).val; omega
  · have hu : j 0 = uT L kk := Fin.ext (by show (j 0).val = base L + min kk 15; omega)
    show colMean (blkU X (j 0) (halfOf (j 1))) (msU Mc (j 0)) (rcpF (msU Mc (j 0))) (colOf (j 1)) = _
    rw [hu]

end Cert.Proof.KI

end
-- ==== Proof.VTripFirst.lean ====
import proofs.«204522_g36051955483029_cont_8to1_b_1192_15_alg».proof.Proof.Canon
import proofs.«204522_g36051955483029_cont_8to1_b_1192_15_alg».proof.Proof.VDefs
import proofs.«204522_g36051955483029_cont_8to1_b_1192_15_alg».proof.Proof.VcLemmas
import proofs.«204522_g36051955483029_cont_8to1_b_1192_15_alg».proof.Proof.VbLemmas
import proofs.«204522_g36051955483029_cont_8to1_b_1192_15_alg».proof.Proof.Slices
import proofs.«204522_g36051955483029_cont_8to1_b_1192_15_alg».proof.Proof.ColT6
import proofs.«204522_g36051955483029_cont_8to1_b_1192_15_alg».proof.Proof.ColT7
import proofs.«204522_g36051955483029_cont_8to1_b_1192_15_alg».proof.Proof.ColT6Value
import proofs.«204522_g36051955483029_cont_8to1_b_1192_15_alg».proof.Proof.ColT7Value
import proofs.«204522_g36051955483029_cont_8to1_b_1192_15_alg».proof.Proof.VaLemmas

set_option maxHeartbeats 8000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords)

theorem vtrip_first (k : Fin k0_t1_loop.trips) (hk : k.val = 0)
    (q : PosShare TreeShare) (O : CellTallies nD τ sig (HIx 1)) (W : Waits sig (HIx 1)) (v3 : BitVec 32) (acc : FVec F S16 .f32)
    (X : Buf (Elt F) ((xV).view.loc (thr d L))) (gM : Buf (Elt F) ((mall).view.loc (thr d L)))
    (fA : Buf (Elt F) ((b0).view.loc (thr d L))) (fB : Buf (Elt F) ((b1).view.loc (thr d L))) (fC : Buf (Elt F) ((b2).view.loc (thr d L)))
    (gm : Buf (Elt F) ((meanb).view.loc (thr d L))) (fD : Buf (Elt F) ((dV).view.loc (thr d L))) (fE : Buf (Elt F) ((eV).view.loc (thr d L)))
    (Mc : Buf (Elt F) ((mV).view.loc (thr d L))) (hgM : MallOf (F := F) L Mc gM)
    (hfA : fA = blkU (F := F) X (uT L 0) 0) (hfB : fB = blkU (F := F) X (uT L 0) 1) :
    (iprop(Transfers.MayWaits (thr d L) (none : HIx 1) O
        ∗ owes (thr d L) O W
        ∗ ((mall).view.loc (thr d L) ↦[(mall).view.set]{fullShare} gM)
        ∗ ((xV).view.loc (thr d L) ↦[(Finset.univ \ (xsl (uo3 L 0 0) (uo3_inb L 0 0)).view.set) \ (xsl (uo3 L 0 512) (uo3_inb L 0 512)).view.set]{q} X)
        ∗ ((dV).view.loc (thr d L) ↦[dPart (wid L)]{fullShare} fD)
        ∗ ((eV).view.loc (thr d L) ↦[ePart (wid L)]{fullShare} fE)
        ∗ Transfers.Flight countersEmb (thr d L) (SemLoc.dma cc0_scratch6.sem) (default : HIx 1) 1048576 iprop(((b0).view.loc (thr d L) ↦[(b0).view.set]{fullShare} fA) ∗ ((xV).view.loc (thr d L) ↦[(xsl (uo3 L 0 0) (uo3_inb L 0 0)).view.set]{q} X))
        ∗ Transfers.Flight countersEmb (thr d L) (SemLoc.dma cc0_scratch7.sem) (default : HIx 1) 1048576 iprop(((b1).view.loc (thr d L) ↦[(b1).view.set]{fullShare} fB) ∗ ((xV).view.loc (thr d L) ↦[(xsl (uo3 L 0 512) (uo3_inb L 0 512)).view.set]{q} X))
        ∗ ((b2).view.loc (thr d L) ↦[(b2).view.set]{fullShare} fC)
        ∗ ((meanb).view.loc (thr d L) ↦[(meanb).view.set]{fullShare} gm)
        ∗ semVal ((thr d L), SemLoc.dma cc0_scratch8.sem) 0
        ∗ semVal ((thr d L), SemLoc.dma cc0_scratch9.sem) 0
        ∗ semVal ((thr d L), SemLoc.dma cc0_scratch10.sem) 0
        ∗ semVal ((thr d L), SemLoc.dma cc0_scratch11.sem) 0
        ∗ semVal ((thr d L), SemLoc.dma cc0_scratch12.sem) 0) : sProp 𝕄)
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => iprop(⌜∀ l : Fin 16, r (ix1 l) = if l.val = k.val then Csp (F := F) Mc (ix1 (uT L k.val)) else acc (ix1 l)⌝
            ∗ ∃ W', owes (thr d L) O W' ∗ ⌜∀ p ∈ W', p ∈ W ∨ p.2 = none⌝
                ∗ ((mall).view.loc (thr d L) ↦[(mall).view.set]{fullShare} gM)
            ∗ ((xV).view.loc (thr d L) ↦[(Finset.univ \ (xsl (uo3 L 1 0) (uo3_inb L 1 0)).view.set) \ (xsl (uo3 L 1 512) (uo3_inb L 1 512)).view.set]{q} X)
            ∗ (∃ fD', ((dV).view.loc (thr d L) ↦[dPart (wid L) \ dS L 0 512]{fullShare} fD')
                ∗ ⌜(∀ i ∈ dS L 0 0, fD' i = Dsp (F := F) X Mc i) ∧ (∀ i, i ∉ dS L 0 0 → fD' i = fD i)⌝)
            ∗ (∃ fE', ((eV).view.loc (thr d L) ↦[ePart (wid L) \ eS L 0]{fullShare} fE') ∗ ⌜fE' = fE⌝)
            ∗ ∃ fA' fB' fC' gm' fd' fe', ⌜fA' = blkU (F := F) X (uT L 1) 0 ∧ fB' = blkU (F := F) X (uT L 1) 1
                ∧ (∀ i ∈ dS L 0 512, fd' i = Dsp (F := F) X Mc i) ∧ (∀ j ∈ eS L 0, fe' j = Esp (F := F) X Mc j)⌝ ∗ Transfers.Flight countersEmb (thr d L) (SemLoc.dma cc0_scratch8.sem) (default : HIx 1) 1048576 iprop(((b2).view.loc (thr d L) ↦[(b2).view.set]{fullShare} fA') ∗ ((xV).view.loc (thr d L) ↦[(xsl (uo3 L 1 0) (uo3_inb L 1 0)).view.set]{q} X))
        ∗ Transfers.Flight countersEmb (thr d L) (SemLoc.dma cc0_scratch6.sem) (default : HIx 1) 1048576 iprop(((b0).view.loc (thr d L) ↦[(b0).view.set]{fullShare} fB') ∗ ((xV).view.loc (thr d L) ↦[(xsl (uo3 L 1 512) (uo3_inb L 1 512)).view.set]{q} X))
        ∗ Transfers.Flight countersEmb (thr d L) (SemLoc.dma cc0_scratch10.sem) (default : HIx 1) 1048576 iprop(((dsl (uo3 L 0 512) (uo3_inb L 0 512)).view.loc (thr d L) ↦[(dsl (uo3 L 0 512) (uo3_inb L 0 512)).view.set]{fullShare} fd') ∗ ((b1).view.loc (thr d L) ↦[(b1).view.set]{fullShare} fC'))
        ∗ Transfers.Flight countersEmb (thr d L) (SemLoc.dma cc0_scratch12.sem) (default : HIx 1) 32768 iprop(((esl (uo2 L 0) (uo2_inb L 0)).view.loc (thr d L) ↦[(esl (uo2 L 0) (uo2_inb L 0)).view.set]{fullShare} fe') ∗ ((meanb).view.loc (thr d L) ↦[(meanb).view.set]{fullShare} gm'))
        ∗ semVal ((thr d L), SemLoc.dma cc0_scratch11.sem) 0
        ∗ semVal ((thr d L), SemLoc.dma cc0_scratch9.sem) 0
        ∗ semVal ((thr d L), SemLoc.dma cc0_scratch7.sem) 0) := by

  have hc1 : ¬ k0_cond1 k = 1#1 := (not_cond1_iff k).mpr (by rw [hk])
  have hc11 : ¬ k0_cond11 k = 1#1 := fun h => by have := (cond11_iff k).mp h; omega
  have hc12 : k0_cond12 k = 1#1 := (cond12_iff k).mpr (by omega)
  have hc13 : ¬ k0_cond13 k = 1#1 := fun h => by have := (cond13_iff k).mp h; omega
  have hc14 : k0_cond14 k = 1#1 := (cond14_iff k).mpr (by omega)

  have exA : k0_off293 L k = uo3 L 0 0 := by rw [k0_off293_eq, hk, uo3_of_le L (by omega) (by omega)]; rfl
  have exB : k0_off361 L k = uo3 L 0 512 := by rw [k0_off361_eq, hk, uo3_of_le L (by omega) (by omega)]; rfl
  have exC : k0_off360 L k = uo3 L 1 0 := by rw [k0_off360_eq, hk, uo3_of_le L (by omega) (by omega)]; rfl
  have exA2 : k0_off428 L k = uo3 L 1 512 := by rw [k0_off428_eq, hk, uo3_of_le L (by omega) (by omega)]; rfl
  have eeO : k0_off429 L k = uo2 L 0 := by rw [k0_off429_eq, hk, uo2_of_le L (by omega)]; rfl
  iintro ⟨#Hmw, HO, Hmall, HX, HD, HE, FA, FB, HC, HM, SC, SA, SB, FC, FM⟩

  have hsub0 : dS L 0 0 ⊆ dPart (wid L) := dS_subset L 0 0 (.inl rfl)
  have hsub1 : dS L 0 512 ⊆ dPart (wid L) \ dS L 0 0 :=
    Finset.subset_sdiff.mpr ⟨dS_subset L 0 512 (.inr rfl), dS_disjoint L (by omega) (by omega) (.inr rfl) (.inl rfl) (.inr (by decide))⟩
  have hsubE : eS L 0 ⊆ ePart (wid L) := eS_subset L 0
  ihave HD' := (pointsTo_split_subset hsub0).1 $$ HD
  icases HD' with ⟨HD0, HD⟩
  ihave HD' := (pointsTo_split_subset hsub1).1 $$ HD
  icases HD' with ⟨HD1, HD⟩
  ihave HE' := (pointsTo_split_subset hsubE).1 $$ HE
  icases HE' with ⟨HE0, HE⟩

  have hs0 : dS L 0 0 = (dsl (k0_off293 L k) (k0_off293_inb L k hc1)).view.set := dset_congr exA.symm _ _
  have hs1 : dS L 0 512 = (dsl (k0_off361 L k) (k0_off361_inb L k hc1)).view.set := dset_congr exB.symm _ _
  have hsE : eS L 0 = (esl (k0_off429 L k) (k0_off429_inb L k hc1)).view.set := eset_congr eeO.symm _ _
  have e0 : (((dV).view.loc (thr d L) ↦[dS L 0 0]{fullShare} fD : sProp 𝕄))
      = ((dsl (k0_off293 L k) (k0_off293_inb L k hc1)).view.loc (thr d L) ↦[(dsl (k0_off293 L k) (k0_off293_inb L k hc1)).view.set]{fullShare} fD) := by
    rw [hs0]
  have e1 : (((dV).view.loc (thr d L) ↦[dS L 0 512]{fullShare} fD : sProp 𝕄))
      = ((dsl (k0_off361 L k) (k0_off361_inb L k hc1)).view.loc (thr d L) ↦[(dsl (k0_off361 L k) (k0_off361_inb L k hc1)).view.set]{fullShare} fD) := by
    rw [hs1]
  have eE : (((eV).view.loc (thr d L) ↦[eS L 0]{fullShare} fE : sProp 𝕄))
      = ((esl (k0_off429 L k) (k0_off429_inb L k hc1)).view.loc (thr d L) ↦[(esl (k0_off429 L k) (k0_off429_inb L k hc1)).view.set]{fullShare} fE) := by
    rw [hsE]
  ihave HD0' := (Entails.of_eq e0) $$ HD0
  ihave HD1' := (Entails.of_eq e1) $$ HD1
  ihave HE0' := (Entails.of_eq eE) $$ HE0
  sl_unfold [k0_t1_body]
  sl_exec
  sl_step

  have hMS : msOf (vtrip_first.sl.v72 d L k gM hc1) (vtrip_first.sl.v74 d L k gM hc1) (vtrip_first.sl.v76 d L k gM hc1) (vtrip_first.sl.v78 d L k gM hc1) (vtrip_first.sl.v80 d L k gM hc1) (vtrip_first.sl.v82 d L k gM hc1) (vtrip_first.sl.v84 d L k gM hc1) (vtrip_first.sl.v86 d L k gM hc1) (vtrip_first.sl.v88 d L k gM hc1) (vtrip_first.sl.v90 d L k gM hc1) (vtrip_first.sl.v92 d L k gM hc1) (vtrip_first.sl.v94 d L k gM hc1) (vtrip_first.sl.v96 d L k gM hc1) (vtrip_first.sl.v98 d L k gM hc1) (vtrip_first.sl.v100 d L k gM hc1) (vtrip_first.sl.v102 d L k gM hc1) (vtrip_first.sl.v104 d L k gM hc1) (vtrip_first.sl.v106 d L k gM hc1) (vtrip_first.sl.v108 d L k gM hc1) (vtrip_first.sl.v110 d L k gM hc1) (vtrip_first.sl.v112 d L k gM hc1) (vtrip_first.sl.v114 d L k gM hc1) (vtrip_first.sl.v116 d L k gM hc1) (vtrip_first.sl.v118 d L k gM hc1) (vtrip_first.sl.v120 d L k gM hc1) (vtrip_first.sl.v122 d L k gM hc1) (vtrip_first.sl.v124 d L k gM hc1) (vtrip_first.sl.v126 d L k gM hc1) (vtrip_first.sl.v128 d L k gM hc1) (vtrip_first.sl.v130 d L k gM hc1) (vtrip_first.sl.v132 d L k gM hc1) (vtrip_first.sl.v134 d L k gM hc1) (vtrip_first.sl.v136 d L k gM hc1) (vtrip_first.sl.v138 d L k gM hc1) (vtrip_first.sl.v140 d L k gM hc1) (vtrip_first.sl.v142 d L k gM hc1) (vtrip_first.sl.v144 d L k gM hc1) (vtrip_first.sl.v146 d L k gM hc1) (vtrip_first.sl.v148 d L k gM hc1) (vtrip_first.sl.v150 d L k gM hc1) (vtrip_first.sl.v152 d L k gM hc1) (vtrip_first.sl.v154 d L k gM hc1) (vtrip_first.sl.v156 d L k gM hc1) (vtrip_first.sl.v158 d L k gM hc1) (vtrip_first.sl.v160 d L k gM hc1) (vtrip_first.sl.v162 d L k gM hc1) (vtrip_first.sl.v164 d L k gM hc1) (vtrip_first.sl.v166 d L k gM hc1) (vtrip_first.sl.v168 d L k gM hc1) (vtrip_first.sl.v170 d L k gM hc1) (vtrip_first.sl.v172 d L k gM hc1) (vtrip_first.sl.r d L k gM hc1) (vtrip_first.sl.r_1 d L k gM hc1) (vtrip_first.sl.r_2 d L k gM hc1) (vtrip_first.sl.r_3 d L k gM hc1) (vtrip_first.sl.r_4 d L k gM hc1) (vtrip_first.sl.r_5 d L k gM hc1) (vtrip_first.sl.r_6 d L k gM hc1) (vtrip_first.sl.r_7 d L k gM hc1) (vtrip_first.sl.r_8 d L k gM hc1) (vtrip_first.sl.r_9 d L k gM hc1) (vtrip_first.sl.r_10 d L k gM hc1) (vtrip_first.sl.r_11 d L k gM hc1) (vtrip_first.sl.r_12 d L k gM hc1) = msU Mc (uT L k.val) :=
    msOf_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (msU Mc (uT L k.val))
      (lane_of_load L Mc gM hgM k (k0_off288 k) (k0_off288_inb k hc1) shapeCasts_S1x16_S16 0 (k0_off288_eq k) 0 slices_S16_o0_S1 inpos_S1_p0)
      (lane_of_load L Mc gM hgM k (k0_off288 k) (k0_off288_inb k hc1) shapeCasts_S1x16_S16 0 (k0_off288_eq k) 1 slices_S16_o1_S1 inpos_S1_p0)
      (lane_of_load L Mc gM hgM k (k0_off288 k) (k0_off288_inb k hc1) shapeCasts_S1x16_S16 0 (k0_off288_eq k) 2 slices_S16_o2_S1 inpos_S1_p0)
      (lane_of_load L Mc gM hgM k (k0_off288 k) (k0_off288_inb k hc1) shapeCasts_S1x16_S16 0 (k0_off288_eq k) 3 slices_S16_o3_S1 inpos_S1_p0)
      (lane_of_load L Mc gM hgM k (k0_off288 k) (k0_off288_inb k hc1) shapeCasts_S1x16_S16 0 (k0_off288_eq k) 4 slices_S16_o4_S1 inpos_S1_p0)
      (lane_of_load L Mc gM hgM k (k0_off288 k) (k0_off288_inb k hc1) shapeCasts_S1x16_S16 0 (k0_off288_eq k) 5 slices_S16_o5_S1 inpos_S1_p0)
      (lane_of_load L Mc gM hgM k (k0_off288 k) (k0_off288_inb k hc1) shapeCasts_S1x16_S16 0 (k0_off288_eq k) 6 slices_S16_o6_S1 inpos_S1_p0)
      (lane_of_load L Mc gM hgM k (k0_off288 k) (k0_off288_inb k hc1) shapeCasts_S1x16_S16 0 (k0_off288_eq k) 7 slices_S16_o7_S1 inpos_S1_p0)
      (lane_of_load L Mc gM hgM k (k0_off288 k) (k0_off288_inb k hc1) shapeCasts_S1x16_S16 0 (k0_off288_eq k) 8 slices_S16_o8_S1 inpos_S1_p0)
      (lane_of_load L Mc gM hgM k (k0_off288 k) (k0_off288_inb k hc1) shapeCasts_S1x16_S16 0 (k0_off288_eq k) 9 slices_S16_o9_S1 inpos_S1_p0)
      (lane_of_load L Mc gM hgM k (k0_off288 k) (k0_off288_inb k hc1) shapeCasts_S1x16_S16 0 (k0_off288_eq k) 10 slices_S16_o10_S1 inpos_S1_p0)
      (lane_of_load L Mc gM hgM k (k0_off288 k) (k0_off288_inb k hc1) shapeCasts_S1x16_S16 0 (k0_off288_eq k) 11 slices_S16_o11_S1 inpos_S1_p0)
      (lane_of_load L Mc gM hgM k (k0_off288 k) (k0_off288_inb k hc1) shapeCasts_S1x16_S16 0 (k0_off288_eq k) 12 slices_S16_o12_S1 inpos_S1_p0)
      (lane_of_load L Mc gM hgM k (k0_off288 k) (k0_off288_inb k hc1) shapeCasts_S1x16_S16 0 (k0_off288_eq k) 13 slices_S16_o13_S1 inpos_S1_p0)
      (lane_of_load L Mc gM hgM k (k0_off288 k) (k0_off288_inb k hc1) shapeCasts_S1x16_S16 0 (k0_off288_eq k) 14 slices_S16_o14_S1 inpos_S1_p0)
      (lane_of_load L Mc gM hgM k (k0_off288 k) (k0_off288_inb k hc1) shapeCasts_S1x16_S16 0 (k0_off288_eq k) 15 slices_S16_o15_S1 inpos_S1_p0)
      (lane_of_load L Mc gM hgM k (k0_off289 k) (k0_off289_inb k hc1) shapeCasts_S1x16_S16 1 (k0_off289_eq k) 0 slices_S16_o0_S1 inpos_S1_p0)
      (lane_of_load L Mc gM hgM k (k0_off289 k) (k0_off289_inb k hc1) shapeCasts_S1x16_S16 1 (k0_off289_eq k) 1 slices_S16_o1_S1 inpos_S1_p0)
      (lane_of_load L Mc gM hgM k (k0_off289 k) (k0_off289_inb k hc1) shapeCasts_S1x16_S16 1 (k0_off289_eq k) 2 slices_S16_o2_S1 inpos_S1_p0)
      (lane_of_load L Mc gM hgM k (k0_off289 k) (k0_off289_inb k hc1) shapeCasts_S1x16_S16 1 (k0_off289_eq k) 3 slices_S16_o3_S1 inpos_S1_p0)
      (lane_of_load L Mc gM hgM k (k0_off289 k) (k0_off289_inb k hc1) shapeCasts_S1x16_S16 1 (k0_off289_eq k) 4 slices_S16_o4_S1 inpos_S1_p0)
      (lane_of_load L Mc gM hgM k (k0_off289 k) (k0_off289_inb k hc1) shapeCasts_S1x16_S16 1 (k0_off289_eq k) 5 slices_S16_o5_S1 inpos_S1_p0)
      (lane_of_load L Mc gM hgM k (k0_off289 k) (k0_off289_inb k hc1) shapeCasts_S1x16_S16 1 (k0_off289_eq k) 6 slices_S16_o6_S1 inpos_S1_p0)
      (lane_of_load L Mc gM hgM k (k0_off289 k) (k0_off289_inb k hc1) shapeCasts_S1x16_S16 1 (k0_off289_eq k) 7 slices_S16_o7_S1 inpos_S1_p0)
      (lane_of_load L Mc gM hgM k (k0_off289 k) (k0_off289_inb k hc1) shapeCasts_S1x16_S16 1 (k0_off289_eq k) 8 slices_S16_o8_S1 inpos_S1_p0)
      (lane_of_load L Mc gM hgM k (k0_off289 k) (k0_off289_inb k hc1) shapeCasts_S1x16_S16 1 (k0_off289_eq k) 9 slices_S16_o9_S1 inpos_S1_p0)
      (lane_of_load L Mc gM hgM k (k0_off289 k) (k0_off289_inb k hc1) shapeCasts_S1x16_S16 1 (k0_off289_eq k) 10 slices_S16_o10_S1 inpos_S1_p0)
      (lane_of_load L Mc gM hgM k (k0_off289 k) (k0_off289_inb k hc1) shapeCasts_S1x16_S16 1 (k0_off289_eq k) 11 slices_S16_o11_S1 inpos_S1_p0)
      (lane_of_load L Mc gM hgM k (k0_off289 k) (k0_off289_inb k hc1) shapeCasts_S1x16_S16 1 (k0_off289_eq k) 12 slices_S16_o12_S1 inpos_S1_p0)
      (lane_of_load L Mc gM hgM k (k0_off289 k) (k0_off289_inb k hc1) shapeCasts_S1x16_S16 1 (k0_off289_eq k) 13 slices_S16_o13_S1 inpos_S1_p0)
      (lane_of_load L Mc gM hgM k (k0_off289 k) (k0_off289_inb k hc1) shapeCasts_S1x16_S16 1 (k0_off289_eq k) 14 slices_S16_o14_S1 inpos_S1_p0)
      (lane_of_load L Mc gM hgM k (k0_off289 k) (k0_off289_inb k hc1) shapeCasts_S1x16_S16 1 (k0_off289_eq k) 15 slices_S16_o15_S1 inpos_S1_p0)
      (lane_of_load L Mc gM hgM k (k0_off290 k) (k0_off290_inb k hc1) shapeCasts_S1x16_S16 2 (k0_off290_eq k) 0 slices_S16_o0_S1 inpos_S1_p0)
      (lane_of_load L Mc gM hgM k (k0_off290 k) (k0_off290_inb k hc1) shapeCasts_S1x16_S16 2 (k0_off290_eq k) 1 slices_S16_o1_S1 inpos_S1_p0)
      (lane_of_load L Mc gM hgM k (k0_off290 k) (k0_off290_inb k hc1) shapeCasts_S1x16_S16 2 (k0_off290_eq k) 2 slices_S16_o2_S1 inpos_S1_p0)
      (lane_of_load L Mc gM hgM k (k0_off290 k) (k0_off290_inb k hc1) shapeCasts_S1x16_S16 2 (k0_off290_eq k) 3 slices_S16_o3_S1 inpos_S1_p0)
      (lane_of_load L Mc gM hgM k (k0_off290 k) (k0_off290_inb k hc1) shapeCasts_S1x16_S16 2 (k0_off290_eq k) 4 slices_S16_o4_S1 inpos_S1_p0)
      (lane_of_load L Mc gM hgM k (k0_off290 k) (k0_off290_inb k hc1) shapeCasts_S1x16_S16 2 (k0_off290_eq k) 5 slices_S16_o5_S1 inpos_S1_p0)
      (lane_of_load L Mc gM hgM k (k0_off290 k) (k0_off290_inb k hc1) shapeCasts_S1x16_S16 2 (k0_off290_eq k) 6 slices_S16_o6_S1 inpos_S1_p0)
      (lane_of_load L Mc gM hgM k (k0_off290 k) (k0_off290_inb k hc1) shapeCasts_S1x16_S16 2 (k0_off290_eq k) 7 slices_S16_o7_S1 inpos_S1_p0)
      (lane_of_load L Mc gM hgM k (k0_off290 k) (k0_off290_inb k hc1) shapeCasts_S1x16_S16 2 (k0_off290_eq k) 8 slices_S16_o8_S1 inpos_S1_p0)
      (lane_of_load L Mc gM hgM k (k0_off290 k) (k0_off290_inb k hc1) shapeCasts_S1x16_S16 2 (k0_off290_eq k) 9 slices_S16_o9_S1 inpos_S1_p0)
      (lane_of_load L Mc gM hgM k (k0_off290 k) (k0_off290_inb k hc1) shapeCasts_S1x16_S16 2 (k0_off290_eq k) 10 slices_S16_o10_S1 inpos_S1_p0)
      (lane_of_load L Mc gM hgM k (k0_off290 k) (k0_off290_inb k hc1) shapeCasts_S1x16_S16 2 (k0_off290_eq k) 11 slices_S16_o11_S1 inpos_S1_p0)
      (lane_of_load L Mc gM hgM k (k0_off290 k) (k0_off290_inb k hc1) shapeCasts_S1x16_S16 2 (k0_off290_eq k) 12 slices_S16_o12_S1 inpos_S1_p0)
      (lane_of_load L Mc gM hgM k (k0_off290 k) (k0_off290_inb k hc1) shapeCasts_S1x16_S16 2 (k0_off290_eq k) 13 slices_S16_o13_S1 inpos_S1_p0)
      (lane_of_load L Mc gM hgM k (k0_off290 k) (k0_off290_inb k hc1) shapeCasts_S1x16_S16 2 (k0_off290_eq k) 14 slices_S16_o14_S1 inpos_S1_p0)
      (lane_of_load L Mc gM hgM k (k0_off290 k) (k0_off290_inb k hc1) shapeCasts_S1x16_S16 2 (k0_off290_eq k) 15 slices_S16_o15_S1 inpos_S1_p0)
      (lane_of_load L Mc gM hgM k (k0_off291 k) (k0_off291_inb k hc1) shapeCasts_S1x16_S16 3 (k0_off291_eq k) 0 slices_S16_o0_S1 inpos_S1_p0)
      (lane_of_load L Mc gM hgM k (k0_off291 k) (k0_off291_inb k hc1) shapeCasts_S1x16_S16 3 (k0_off291_eq k) 1 slices_S16_o1_S1 inpos_S1_p0)
      (lane_of_load L Mc gM hgM k (k0_off291 k) (k0_off291_inb k hc1) shapeCasts_S1x16_S16 3 (k0_off291_eq k) 2 slices_S16_o2_S1 inpos_S1_p0)
      (lane_of_load L Mc gM hgM k (k0_off291 k) (k0_off291_inb k hc1) shapeCasts_S1x16_S16 3 (k0_off291_eq k) 3 slices_S16_o3_S1 inpos_S1_p0)
      (lane_of_load L Mc gM hgM k (k0_off291 k) (k0_off291_inb k hc1) shapeCasts_S1x16_S16 3 (k0_off291_eq k) 4 slices_S16_o4_S1 inpos_S1_p0)
      (lane_of_load L Mc gM hgM k (k0_off291 k) (k0_off291_inb k hc1) shapeCasts_S1x16_S16 3 (k0_off291_eq k) 5 slices_S16_o5_S1 inpos_S1_p0)
      (lane_of_load L Mc gM hgM k (k0_off291 k) (k0_off291_inb k hc1) shapeCasts_S1x16_S16 3 (k0_off291_eq k) 6 slices_S16_o6_S1 inpos_S1_p0)
      (lane_of_load L Mc gM hgM k (k0_off291 k) (k0_off291_inb k hc1) shapeCasts_S1x16_S16 3 (k0_off291_eq k) 7 slices_S16_o7_S1 inpos_S1_p0)
      (lane_of_load L Mc gM hgM k (k0_off291 k) (k0_off291_inb k hc1) shapeCasts_S1x16_S16 3 (k0_off291_eq k) 8 slices_S16_o8_S1 inpos_S1_p0)
      (lane_of_load L Mc gM hgM k (k0_off291 k) (k0_off291_inb k hc1) shapeCasts_S1x16_S16 3 (k0_off291_eq k) 9 slices_S16_o9_S1 inpos_S1_p0)
      (lane_of_load L Mc gM hgM k (k0_off291 k) (k0_off291_inb k hc1) shapeCasts_S1x16_S16 3 (k0_off291_eq k) 10 slices_S16_o10_S1 inpos_S1_p0)
      (lane_of_load L Mc gM hgM k (k0_off291 k) (k0_off291_inb k hc1) shapeCasts_S1x16_S16 3 (k0_off291_eq k) 11 slices_S16_o11_S1 inpos_S1_p0)
      (lane_of_load L Mc gM hgM k (k0_off291 k) (k0_off291_inb k hc1) shapeCasts_S1x16_S16 3 (k0_off291_eq k) 12 slices_S16_o12_S1 inpos_S1_p0)
      (lane_of_load L Mc gM hgM k (k0_off291 k) (k0_off291_inb k hc1) shapeCasts_S1x16_S16 3 (k0_off291_eq k) 13 slices_S16_o13_S1 inpos_S1_p0)
      (lane_of_load L Mc gM hgM k (k0_off291 k) (k0_off291_inb k hc1) shapeCasts_S1x16_S16 3 (k0_off291_eq k) 14 slices_S16_o14_S1 inpos_S1_p0)
      (lane_of_load L Mc gM hgM k (k0_off291 k) (k0_off291_inb k hc1) shapeCasts_S1x16_S16 3 (k0_off291_eq k) 15 slices_S16_o15_S1 inpos_S1_p0)
  have hcnt : vtrip_first.sl.r_14 d L k gM hc1 = cntF (msU Mc (uT L k.val)) := by
    rw [← hMS]
    exact pay1807_cnt _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  have hrcp : vtrip_first.sl.r_15 d L k gM hc1 = rcpF (msU Mc (uT L k.val)) := by
    rw [← hMS]
    exact pay1808_rcp _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

  have huN : uT L k.val = uT L 0 := by rw [hk]
  have hMS0 := hMS
  rw [huN] at hMS0
  have hfA0 : fA = blkU (F := F) X (uT L 0) 0 := hfA
  have hfB0 : fB = blkU (F := F) X (uT L 0) 1 := hfB

  have hR6 : k0_pay1808 (vtrip_first.sl.v144 d L k gM hc1) (vtrip_first.sl.v146 d L k gM hc1) (vtrip_first.sl.v148 d L k gM hc1) (vtrip_first.sl.v150 d L k gM hc1) (vtrip_first.sl.v152 d L k gM hc1) (vtrip_first.sl.v154 d L k gM hc1) (vtrip_first.sl.v156 d L k gM hc1) (vtrip_first.sl.v158 d L k gM hc1) (vtrip_first.sl.v160 d L k gM hc1) (vtrip_first.sl.v162 d L k gM hc1) (vtrip_first.sl.v164 d L k gM hc1) (vtrip_first.sl.v166 d L k gM hc1) (vtrip_first.sl.v168 d L k gM hc1) (vtrip_first.sl.v170 d L k gM hc1) (vtrip_first.sl.v172 d L k gM hc1) (vtrip_first.sl.r d L k gM hc1) (vtrip_first.sl.r_1 d L k gM hc1) (vtrip_first.sl.r_2 d L k gM hc1) (vtrip_first.sl.r_3 d L k gM hc1) (vtrip_first.sl.r_4 d L k gM hc1) (vtrip_first.sl.r_5 d L k gM hc1) (vtrip_first.sl.r_6 d L k gM hc1) (vtrip_first.sl.r_7 d L k gM hc1) (vtrip_first.sl.r_8 d L k gM hc1) (vtrip_first.sl.r_9 d L k gM hc1) (vtrip_first.sl.r_10 d L k gM hc1) (vtrip_first.sl.r_11 d L k gM hc1) (vtrip_first.sl.r_12 d L k gM hc1) (vtrip_first.sl.r_13 d L k gM hc1) = rcpF (msU (F := F) Mc (uT L 0)) := by
    rw [← hMS0]; rfl
  have hR7 : (vtrip_first.sl.r_15 d L k gM hc1) = rcpF (msU (F := F) Mc (uT L 0)) := by
    rw [← hMS0]; rfl
  have ht6 : Scf.trips k0_t6_loop.lb k0_t6_loop.ub k0_t6_loop.st = 32 := trips_t6
  have ht7 : Scf.trips k0_t7_loop.lb k0_t7_loop.ub k0_t7_loop.st = 32 := trips_t7
  have hA : vtrip_first.sl.dma0 d L k v3 gM fA gm hc1 = colDiff (blkU (F := F) X (uT L 0) 0) (msU (F := F) Mc (uT L 0)) (rcpF (msU (F := F) Mc (uT L 0))) := by
    unfold vtrip_first.sl.dma0
    rw [ReadAs.apply_same, ht6]
    funext y
    rw [buf_read_t6, col_t6_buf, hMS0, hR6, hfA0]
  have hB : vtrip_first.sl.dma0_2 d L k v3 gM fA fB gm hc1 = colDiff (blkU (F := F) X (uT L 0) 1) (msU (F := F) Mc (uT L 0)) (rcpF (msU (F := F) Mc (uT L 0))) := by
    unfold vtrip_first.sl.dma0_2
    rw [ReadAs.apply_same, ht6]
    first | rw [ht7] | skip
    funext y
    rw [buf_read_t7, col_t7_buf, hMS0, hR7, hfB0]
  have hv0 : ∀ i ∈ dS L 0 0, ((dsl (k0_off293 L k) (k0_off293_inb L k hc1)).view.writes (Elt F) fD
      [⟨Rect.whole S64x512, vtrip_first.sl.dma0 d L k v3 gM fA gm hc1⟩]) i = Dsp (F := F) X Mc i := by
    intro i hi
    obtain ⟨y, hy, hval⟩ := dS_point (F := F) X Mc L 0 (by omega) 0 i hi
    have hemb : (dsl (k0_off293 L k) (k0_off293_inb L k hc1)).view.emb y = i :=
      funext fun a => Fin.ext (by
        rw [emb_dsl]
        have ea := congrFun exA a
        rw [ea]; exact hy a)
    rw [← hemb]
    refine (((View.read_apply _ _).trans (cast_eq _ _)).symm).trans ?_
    rw [View.read_writes_whole, hA, hemb, hval]
  have hv1 : ∀ i ∈ dS L 0 512, ((dsl (k0_off361 L k) (k0_off361_inb L k hc1)).view.writes (Elt F) fD
      [⟨Rect.whole S64x512, vtrip_first.sl.dma0_2 d L k v3 gM fA fB gm hc1⟩]) i = Dsp (F := F) X Mc i := by
    intro i hi
    obtain ⟨y, hy, hval⟩ := dS_point (F := F) X Mc L 0 (by omega) 1 i hi
    have hemb : (dsl (k0_off361 L k) (k0_off361_inb L k hc1)).view.emb y = i :=
      funext fun a => Fin.ext (by
        rw [emb_dsl]
        have ea := congrFun exB a
        rw [ea]; exact hy a)
    rw [← hemb]
    refine (((View.read_apply _ _).trans (cast_eq _ _)).symm).trans ?_
    rw [View.read_writes_whole, hB, hemb, hval]
  have hM : ∀ z : S1024.Idx, vtrip_first.sl.dma0_4 d L k v3 gM fA fB gm hc1 z
      = colMean (blkU (F := F) X (uT L 0) (halfOf (z 0))) (msU (F := F) Mc (uT L 0)) (rcpF (msU (F := F) Mc (uT L 0))) (colOf (z 0)) := by
    intro z
    have hz : (z 0).val < 1024 := (z 0).isLt
    unfold vtrip_first.sl.dma0_4
    rw [ReadAs.apply_same, ht6]
    first | rw [ht7] | skip
    show (meanb).view.writes (Elt F) gm (_ ++ _) z = _
    rw [View.writes_append, col_t7_mean_apply]
    by_cases h512 : 512 ≤ (z 0).val
    · rw [if_pos h512, hMS0, hR7, hfB0]
      have eh : halfOf (z 0) = 1 := Fin.ext (by show (z 0).val / 512 = 1; omega)
      have ec : colOf (z 0) = (⟨(z 0).val - 512, sub512_lt_t7 z⟩ : Fin 512) := Fin.ext (by show (z 0).val % 512 = (z 0).val - 512; omega)
      rw [eh, ec]
    · rw [if_neg h512, congrFun (col_t6_mean (F := F) d L k (vtrip_first.sl.arg20 k) hc1 (vtrip_first.sl.v58 k v3) (vtrip_first.sl.v72 d L k gM hc1) (vtrip_first.sl.v74 d L k gM hc1) (vtrip_first.sl.v76 d L k gM hc1) (vtrip_first.sl.v78 d L k gM hc1) (vtrip_first.sl.v80 d L k gM hc1) (vtrip_first.sl.v82 d L k gM hc1) (vtrip_first.sl.v84 d L k gM hc1) (vtrip_first.sl.v86 d L k gM hc1) (vtrip_first.sl.v88 d L k gM hc1) (vtrip_first.sl.v90 d L k gM hc1) (vtrip_first.sl.v92 d L k gM hc1) (vtrip_first.sl.v94 d L k gM hc1) (vtrip_first.sl.v96 d L k gM hc1) (vtrip_first.sl.v98 d L k gM hc1) (vtrip_first.sl.v100 d L k gM hc1) (vtrip_first.sl.v102 d L k gM hc1) (vtrip_first.sl.v104 d L k gM hc1) (vtrip_first.sl.v106 d L k gM hc1) (vtrip_first.sl.v108 d L k gM hc1) (vtrip_first.sl.v110 d L k gM hc1) (vtrip_first.sl.v112 d L k gM hc1) (vtrip_first.sl.v114 d L k gM hc1) (vtrip_first.sl.v116 d L k gM hc1) (vtrip_first.sl.v118 d L k gM hc1) (vtrip_first.sl.v120 d L k gM hc1) (vtrip_first.sl.v122 d L k gM hc1) (vtrip_first.sl.v124 d L k gM hc1) (vtrip_first.sl.v126 d L k gM hc1) (vtrip_first.sl.v128 d L k gM hc1) (vtrip_first.sl.v130 d L k gM hc1) (vtrip_first.sl.v132 d L k gM hc1) (vtrip_first.sl.v134 d L k gM hc1) (vtrip_first.sl.v136 d L k gM hc1) (vtrip_first.sl.v138 d L k gM hc1) (vtrip_first.sl.v140 d L k gM hc1) (vtrip_first.sl.v142 d L k gM hc1) (vtrip_first.sl.v144 d L k gM hc1) (vtrip_first.sl.v146 d L k gM hc1) (vtrip_first.sl.v148 d L k gM hc1) (vtrip_first.sl.v150 d L k gM hc1) (vtrip_first.sl.v152 d L k gM hc1) (vtrip_first.sl.v154 d L k gM hc1) (vtrip_first.sl.v156 d L k gM hc1) (vtrip_first.sl.v158 d L k gM hc1) (vtrip_first.sl.v160 d L k gM hc1) (vtrip_first.sl.v162 d L k gM hc1) (vtrip_first.sl.v164 d L k gM hc1) (vtrip_first.sl.v166 d L k gM hc1) (vtrip_first.sl.v168 d L k gM hc1) (vtrip_first.sl.v170 d L k gM hc1) (vtrip_first.sl.v172 d L k gM hc1) (vtrip_first.sl.r d L k gM hc1) (vtrip_first.sl.r_1 d L k gM hc1) (vtrip_first.sl.r_2 d L k gM hc1) (vtrip_first.sl.r_3 d L k gM hc1) (vtrip_first.sl.r_4 d L k gM hc1) (vtrip_first.sl.r_5 d L k gM hc1) (vtrip_first.sl.r_6 d L k gM hc1) (vtrip_first.sl.r_7 d L k gM hc1) (vtrip_first.sl.r_8 d L k gM hc1) (vtrip_first.sl.r_9 d L k gM hc1) (vtrip_first.sl.r_10 d L k gM hc1) (vtrip_first.sl.r_11 d L k gM hc1) (vtrip_first.sl.r_12 d L k gM hc1) (vtrip_first.sl.r_13 d L k gM hc1) fA gm) z]
      have hlt : (z 0).val < 512 := by omega
      rw [dif_pos hlt, hMS0, hR6, hfA0]
      have eh : halfOf (z 0) = 0 := Fin.ext (by show (z 0).val / 512 = 0; omega)
      have ec : colOf (z 0) = (⟨(z 0).val, hlt⟩ : Fin 512) := Fin.ext (by show (z 0).val % 512 = (z 0).val; omega)
      rw [eh, ec]
  have hvE : ∀ j ∈ eS L 0, ((esl (k0_off429 L k) (k0_off429_inb L k hc1)).view.writes (Elt F) fE
      [⟨Rect.whole S1024, vtrip_first.sl.dma0_4 d L k v3 gM fA fB gm hc1⟩]) j = Esp (F := F) X Mc j := by
    intro j hj
    obtain ⟨hy, hval⟩ := eS_point (F := F) X Mc L 0 (by omega) j hj
    have hemb : (esl (k0_off429 L k) (k0_off429_inb L k hc1)).view.emb (ix1 (j 1)) = j :=
      funext fun a => Fin.ext (by
        rw [emb_esl]
        have ea := congrFun eeO a
        rw [ea]; exact hy a)
    rw [← hemb]
    refine (((View.read_apply _ _).trans (cast_eq _ _)).symm).trans ?_
    rw [View.read_writes_whole, hM, hemb, hval]

  have pSC : ∀ g, (iprop(((b2).view.loc (thr d L) ↦[(b2).view.set]{fullShare} g) ∗ ((xV).view.loc (thr d L) ↦[(xsl (k0_off360 L k) (k0_off360_inb L k hc1 hc12)).view.set]{q} X)) : sProp 𝕄)
      = iprop(((b2).view.loc (thr d L) ↦[(b2).view.set]{fullShare} g) ∗ ((xV).view.loc (thr d L) ↦[(xsl (uo3 L 1 0) (uo3_inb L 1 0)).view.set]{q} X)) := fun g => by
    rw [xset_congr exC _ (uo3_inb L 1 0)]
  have pFA : ∀ g, (iprop(((b0).view.loc (thr d L) ↦[(b0).view.set]{fullShare} g) ∗ ((xV).view.loc (thr d L) ↦[(xsl (k0_off428 L k) (k0_off428_inb L k hc1 hc14)).view.set]{q} X)) : sProp 𝕄)
      = iprop(((b0).view.loc (thr d L) ↦[(b0).view.set]{fullShare} g) ∗ ((xV).view.loc (thr d L) ↦[(xsl (uo3 L 1 512) (uo3_inb L 1 512)).view.set]{q} X)) := fun g => by
    rw [xset_congr exA2 _ (uo3_inb L 1 512)]
  have pSB : ∀ g g', (iprop(((dsl (k0_off361 L k) (k0_off361_inb L k hc1)).view.loc (thr d L) ↦[(dsl (k0_off361 L k) (k0_off361_inb L k hc1)).view.set]{fullShare} g) ∗ ((b1).view.loc (thr d L) ↦[(b1).view.set]{fullShare} g')) : sProp 𝕄)
      = iprop(((dsl (uo3 L 0 512) (uo3_inb L 0 512)).view.loc (thr d L) ↦[(dsl (uo3 L 0 512) (uo3_inb L 0 512)).view.set]{fullShare} g) ∗ ((b1).view.loc (thr d L) ↦[(b1).view.set]{fullShare} g')) := fun g g' => by
    rw [← hs1]
  have pFM : ∀ g g', (iprop(((esl (k0_off429 L k) (k0_off429_inb L k hc1)).view.loc (thr d L) ↦[(esl (k0_off429 L k) (k0_off429_inb L k hc1)).view.set]{fullShare} g) ∗ ((meanb).view.loc (thr d L) ↦[(meanb).view.set]{fullShare} g')) : sProp 𝕄)
      = iprop(((esl (uo2 L 0) (uo2_inb L 0)).view.loc (thr d L) ↦[(esl (uo2 L 0) (uo2_inb L 0)).view.set]{fullShare} g) ∗ ((meanb).view.loc (thr d L) ↦[(meanb).view.set]{fullShare} g')) := fun g g' => by
    rw [← hsE]
  ihave SC' := (Transfers.Flight_mono countersEmb (thr d L) (Entails.of_eq (pSC _))) $$ SC
  ihave FA' := (Transfers.Flight_mono countersEmb (thr d L) (Entails.of_eq (pFA _))) $$ FA
  ihave SB' := (Transfers.Flight_mono countersEmb (thr d L) (Entails.of_eq (pSB _ _))) $$ SB
  ihave FM' := (Transfers.Flight_mono countersEmb (thr d L) (Entails.of_eq (pFM _ _))) $$ FM

  isplitr
  · ipureintro
    intro l
    rw [pay1818_lane, hcnt]
    rfl

  iexists _
  isplitl [HO]; · iexact HO
  isplitr
  · ipureintro
    intro p hp
    simp only [Finset.mem_insert] at hp
    rcases hp with (rfl | rfl | rfl | hp) <;> first | exact .inr rfl | exact .inl hp
  isplitl [Hmall]; · iexact Hmall

  isplitl [HX]
  · have hx : (((xV).view.loc (thr d L) ↦[(Finset.univ \ (xsl (k0_off360 L k) (k0_off360_inb L k hc1 hc12)).view.set) \ (xsl (k0_off428 L k) (k0_off428_inb L k hc1 hc14)).view.set]{q} X : sProp 𝕄))
        = ((xV).view.loc (thr d L) ↦[(Finset.univ \ (xsl (uo3 L 1 0) (uo3_inb L 1 0)).view.set) \ (xsl (uo3 L 1 512) (uo3_inb L 1 512)).view.set]{q} X) := by
      rw [xset_congr exC _ (uo3_inb L 1 0), xset_congr exA2 _ (uo3_inb L 1 512)]
    iapply (Entails.of_eq hx); iexact HX

  isplitl [HD HD0']
  · have hb : dS L 0 0 ⊆ dPart (wid L) \ dS L 0 512 :=
      Finset.subset_sdiff.mpr ⟨hsub0, dS_disjoint L (by omega) (by omega) (.inl rfl) (.inr rfl) (.inr (by decide))⟩
    have hset1 : (dPart (wid L) \ dS L 0 0) \ dS L 0 512 = (dPart (wid L) \ dS L 0 512) \ dS L 0 0 := sdiff_right_comm _ _ _
    rw [hset1]
    have e0' : ∀ g, (((dsl (k0_off293 L k) (k0_off293_inb L k hc1)).view.loc (thr d L) ↦[(dsl (k0_off293 L k) (k0_off293_inb L k hc1)).view.set]{fullShare} g) : sProp 𝕄) = ((dV).view.loc (thr d L) ↦[dS L 0 0]{fullShare} g) := fun g => by rw [hs0]
    ihave H0 := (Entails.of_eq (e0' _)) $$ HD0'
    ihave H1 := (pointsTo_join_subset (ℓ := (dV).view.loc (thr d L)) hb) $$ [H0 HD]
    · isplitl [H0]; · iexact H0
      iexact HD
    iexists _
    isplitl [H1]; · iexact H1
    ipureintro
    refine ⟨fun i hi => (Finset.piecewise_eq_of_mem _ _ _ hi).trans ?_, fun i hi => Finset.piecewise_eq_of_notMem _ _ _ hi⟩
    exact hv0 i hi

  isplitl [HE]
  · iexists _
    isplitl [HE]; · iexact HE
    ipureintro; rfl

  iexists _, _, _, _, _, _
  isplitr
  rotate_left
  isplitl [SC']; · iexact SC'
  isplitl [FA']; · iexact FA'
  isplitl [SB']; · iexact SB'
  isplitl [FM']; · iexact FM'
  isplitl [FC]; · iexact FC
  isplitl [SA]; · iexact SA
  · iexact FB
  · ipureintro
    refine ⟨?_, ?_, ?_, ?_⟩
    · exact (whole_writes_whole _ _ _).trans (read_xsl_uo3 X L 1 0 _ _ exC)
    · exact (View.write_whole_univ (cc0_scratch0 : Ref sig .scVector) _ _).trans (read_xsl_uo3 X L 1 1 _ _ exA2)
    · exact hv1
    · exact hvE

end Cert.Proof.KI

end
-- ==== Proof.VStepFirst.lean ====
import proofs.«204522_g36051955483029_cont_8to1_b_1192_15_alg».proof.Proof.VInv
import proofs.«204522_g36051955483029_cont_8to1_b_1192_15_alg».proof.Proof.VTripFirst

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords)

theorem vstep_first (k : Fin k0_t1_loop.trips) (hk : k.val = 0)
    (q : PosShare TreeShare) (X : Buf (Elt F) ((xV).view.loc (thr d L))) (Mc : Buf (Elt F) ((mV).view.loc (thr d L)))
    (O : CellTallies nD τ sig (HIx 1)) (W : Waits sig (HIx 1))
    (gM : Buf (Elt F) ((mall).view.loc (thr d L))) (hgM : MallOf (F := F) L Mc gM) (v3 : BitVec 32) (acc : FVec F S16 .f32) :
    vinv (F := F) d L q X Mc O W gM k.val acc
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => vinv (F := F) d L q X Mc O W gM (k.val + 1) r := by
  have e1 : k.val + 1 = 1 := by omega
  rw [e1, hk]
  have hp0 : vpipe (F := F) d L q X Mc 0 = vpipe0 (F := F) d L q X := by
    unfold vpipe; rw [if_pos rfl]
  have hp1 : vpipe (F := F) d L q X Mc 1 = vpipeMid1 (F := F) d L q X Mc 1 := by
    unfold vpipe; rw [if_neg (by omega), if_neg (by omega), if_neg (by omega), if_pos (by omega)]
  have hx0 : xRest (F := F) d L q X 0 = ((xV).view.loc (thr d L) ↦[(Finset.univ \ (xsl (uo3 L 0 0) (uo3_inb L 0 0)).view.set) \ (xsl (uo3 L 0 512) (uo3_inb L 0 512)).view.set]{q} X) := by
    unfold xRest; rw [if_pos (by omega)]
  have hx1 : xRest (F := F) d L q X 1 = ((xV).view.loc (thr d L) ↦[(Finset.univ \ (xsl (uo3 L 1 0) (uo3_inb L 1 0)).view.set) \ (xsl (uo3 L 1 512) (uo3_inb L 1 512)).view.set]{q} X) := by
    unfold xRest; rw [if_pos (by omega)]
  have hd0 : lentD L 0 = ∅ := by unfold lentD; rw [if_pos rfl]
  have hd1 : lentD L 1 = dS L 0 512 := by unfold lentD; rw [if_neg (by omega), if_pos (by omega), Nat.sub_self]
  have he0 : lentE L 0 = ∅ := by unfold lentE; rw [if_pos rfl]
  have he1 : lentE L 1 = eS L 0 := by unfold lentE; rw [if_neg (by omega), Nat.sub_self]
  unfold vinv
  rw [hp0, hp1, hx0, hx1, hd0, hd1, he0, he1, Finset.sdiff_empty, Finset.sdiff_empty]
  unfold vpipe0 vpipeMid1
  simp only [Nat.sub_self]
  iintro ⟨#Hmw, ⟨%W', HO, %hW'⟩, Hmall, HX, ⟨%fD, HD, %hDone⟩, ⟨%fE, HE, %hDoneE⟩, %hAcc, ⟨%fA, %fB, %fC, %gm, %hP, FA, FB, HC, HM, SC, SA, SB, FC, FM⟩⟩
  obtain ⟨hfA, hfB⟩ := hP
  iapply (wp_wand_r Idealize.ShloMosaic.frame (wpE (defs₀ (F := F)) 𝒱₀ (thr d L) none) Set.univ)
  isplitl [HO Hmall HX HD HE FA FB HC HM SC SA SB FC FM]
  · iapply (vtrip_first (F := F) d L k hk q O W' v3 acc X gM fA fB fC gm fD fE Mc hgM hfA hfB)
    isplitr; · iexact Hmw
    isplitl [HO]; · iexact HO
    isplitl [Hmall]; · iexact Hmall
    isplitl [HX]; · iexact HX
    isplitl [HD]; · iexact HD
    isplitl [HE]; · iexact HE
    isplitl [FA]; · iexact FA
    isplitl [FB]; · iexact FB
    isplitl [HC]; · iexact HC
    isplitl [HM]; · iexact HM
    isplitl [SC]; · iexact SC
    isplitl [SA]; · iexact SA
    isplitl [SB]; · iexact SB
    isplitl [FC]; · iexact FC
    iexact FM
  · iintro %r ⟨%hr, %W'', HO, %hW'', Hmall, HX, ⟨%fD', HD, %hD'⟩, ⟨%fE', HE, %hE'⟩, ⟨%fA', %fB', %fC', %gm', %fd', %fe', %hP', HP⟩⟩
    obtain ⟨hD1, hD3⟩ := hD'
    isplitr; · iexact Hmw
    isplitl [HO]
    · iexists W''
      isplitl [HO]; · iexact HO
      ipureintro
      intro p hp
      rcases hW'' p hp with h | h
      · exact hW' p h
      · exact .inr h
    isplitl [Hmall]; · iexact Hmall
    isplitl [HX]; · iexact HX
    isplitl [HD]
    · iexists fD'
      isplitl [HD]; · iexact HD
      ipureintro

      intro j c hj hc hret i hi
      have hm : min 1 15 = 1 := by decide
      rw [hm] at hret
      rcases hret with h | ⟨h, hc0⟩
      · omega
      · have hj0 : j = 0 := by omega
        subst hj0; subst hc0
        exact hD1 i hi
    isplitl [HE]
    · iexists fE'
      isplitl [HE]; · iexact HE
      ipureintro
      intro j hj hret i hi
      omega
    isplitr
    · ipureintro
      intro l hl
      have hl0 : l.val = 0 := by omega
      rw [hr l, if_pos (by omega), hk, hl0]
    iexists fA', fB', fC', gm', fd', fe'
    isplitr
    · ipureintro; exact hP'
    iexact HP

end Cert.Proof.KI

end
-- ==== Proof.TripLast.lean ====
import proofs.«204522_g36051955483029_cont_8to1_b_1192_15_alg».proof.Proof.Canon
import proofs.«204522_g36051955483029_cont_8to1_b_1192_15_alg».proof.Proof.Slices
import proofs.«204522_g36051955483029_cont_8to1_b_1192_15_alg».proof.Proof.ColT6
import proofs.«204522_g36051955483029_cont_8to1_b_1192_15_alg».proof.Proof.ColT7

set_option maxHeartbeats 8000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords)

omit [FloatOps F] in

theorem sdiff3 {α : Type} [DecidableEq α] (P A B C : Finset α) : ((P \ A) \ B) \ C = P \ ((A ∪ B) ∪ C) := by
  ext i; simp only [Finset.mem_sdiff, Finset.mem_union]; tauto

theorem flightA_eq (k : Fin k0_t1_loop.trips) (hc1 : ¬ k0_cond1 k = 1#1) (exA : k0_off293 L k = uo3 L 15 0)
    (g : Buf (Elt F) ((dV).view.loc (thr d L))) (g' : Buf (Elt F) ((b0).view.loc (thr d L))) :
    (iprop(((dsl (k0_off293 L k) (k0_off293_inb L k hc1)).view.loc (thr d L) ↦[(dsl (k0_off293 L k) (k0_off293_inb L k hc1)).view.set]{fullShare} g) ∗ ((b0).view.loc (thr d L) ↦[(b0).view.set]{fullShare} g')) : sProp 𝕄)
      = iprop(((dsl (uo3 L 15 0) (uo3_inb L 15 0)).view.loc (thr d L) ↦[(dsl (uo3 L 15 0) (uo3_inb L 15 0)).view.set]{fullShare} g) ∗ ((b0).view.loc (thr d L) ↦[(b0).view.set]{fullShare} g')) := by
  have hs0 : dS L 15 0 = (dsl (k0_off293 L k) (k0_off293_inb L k hc1)).view.set := dset_congr exA.symm _ _
  rw [← hs0]
theorem flightB_eq (k : Fin k0_t1_loop.trips) (hc1 : ¬ k0_cond1 k = 1#1) (exB : k0_off361 L k = uo3 L 15 512)
    (g : Buf (Elt F) ((dV).view.loc (thr d L))) (g' : Buf (Elt F) ((b1).view.loc (thr d L))) :
    (iprop(((dsl (k0_off361 L k) (k0_off361_inb L k hc1)).view.loc (thr d L) ↦[(dsl (k0_off361 L k) (k0_off361_inb L k hc1)).view.set]{fullShare} g) ∗ ((b1).view.loc (thr d L) ↦[(b1).view.set]{fullShare} g')) : sProp 𝕄)
      = iprop(((dsl (uo3 L 15 512) (uo3_inb L 15 512)).view.loc (thr d L) ↦[(dsl (uo3 L 15 512) (uo3_inb L 15 512)).view.set]{fullShare} g) ∗ ((b1).view.loc (thr d L) ↦[(b1).view.set]{fullShare} g')) := by
  have hs1 : dS L 15 512 = (dsl (k0_off361 L k) (k0_off361_inb L k hc1)).view.set := dset_congr exB.symm _ _
  rw [← hs1]
theorem flightM_eq (k : Fin k0_t1_loop.trips) (hc1 : ¬ k0_cond1 k = 1#1) (eeO : k0_off429 L k = uo2 L 15)
    (g : Buf (Elt F) ((eV).view.loc (thr d L))) (g' : Buf (Elt F) ((meanb).view.loc (thr d L))) :
    (iprop(((esl (k0_off429 L k) (k0_off429_inb L k hc1)).view.loc (thr d L) ↦[(esl (k0_off429 L k) (k0_off429_inb L k hc1)).view.set]{fullShare} g) ∗ ((meanb).view.loc (thr d L) ↦[(meanb).view.set]{fullShare} g')) : sProp 𝕄)
      = iprop(((esl (uo2 L 15) (uo2_inb L 15)).view.loc (thr d L) ↦[(esl (uo2 L 15) (uo2_inb L 15)).view.set]{fullShare} g) ∗ ((meanb).view.loc (thr d L) ↦[(meanb).view.set]{fullShare} g')) := by
  have hsE : eS L 15 = (esl (k0_off429 L k) (k0_off429_inb L k hc1)).view.set := eset_congr eeO.symm _ _
  rw [← hsE]

end Cert.Proof.KI

end
-- ==== Proof.VTripLast.lean ====
import proofs.«204522_g36051955483029_cont_8to1_b_1192_15_alg».proof.Proof.TripLast
import proofs.«204522_g36051955483029_cont_8to1_b_1192_15_alg».proof.Proof.VDefs
import proofs.«204522_g36051955483029_cont_8to1_b_1192_15_alg».proof.Proof.VcLemmas
import proofs.«204522_g36051955483029_cont_8to1_b_1192_15_alg».proof.Proof.VbLemmas
import proofs.«204522_g36051955483029_cont_8to1_b_1192_15_alg».proof.Proof.ColT6Value
import proofs.«204522_g36051955483029_cont_8to1_b_1192_15_alg».proof.Proof.ColT7Value
import proofs.«204522_g36051955483029_cont_8to1_b_1192_15_alg».proof.Proof.VaLemmas

set_option maxHeartbeats 8000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords)

theorem vtrip_last (k : Fin k0_t1_loop.trips) (hk : k.val = 15)
    (q : PosShare TreeShare) (O : CellTallies nD τ sig (HIx 1)) (W : Waits sig (HIx 1)) (v3 : BitVec 32) (acc : FVec F S16 .f32)
    (X : Buf (Elt F) ((xV).view.loc (thr d L))) (gM : Buf (Elt F) ((mall).view.loc (thr d L)))
    (fA : Buf (Elt F) ((b0).view.loc (thr d L))) (fB : Buf (Elt F) ((b1).view.loc (thr d L))) (fC : Buf (Elt F) ((b2).view.loc (thr d L)))
    (gm : Buf (Elt F) ((meanb).view.loc (thr d L))) (fd fD : Buf (Elt F) ((dV).view.loc (thr d L))) (fe fE : Buf (Elt F) ((eV).view.loc (thr d L)))
    (Mc : Buf (Elt F) ((mV).view.loc (thr d L))) (hgM : MallOf (F := F) L Mc gM)
    (hfA : fA = blkU (F := F) X (uT L k.val) 0) (hfB : fB = blkU (F := F) X (uT L k.val) 1) :
    (iprop(Transfers.MayWaits (thr d L) (none : HIx 1) O
        ∗ owes (thr d L) O W
        ∗ ((mall).view.loc (thr d L) ↦[(mall).view.set]{fullShare} gM)
        ∗ ((xV).view.loc (thr d L) ↦[(Finset.univ \ (xsl (uo3 L k.val 0) (uo3_inb L k.val 0)).view.set) \ (xsl (uo3 L k.val 512) (uo3_inb L k.val 512)).view.set]{q} X)
        ∗ ((dV).view.loc (thr d L) ↦[dPart (wid L) \ dS L (k.val - 1) 512]{fullShare} fD)
        ∗ ((eV).view.loc (thr d L) ↦[ePart (wid L) \ eS L (k.val - 1)]{fullShare} fE)
        ∗ Transfers.Flight countersEmb (thr d L) (SemLoc.dma cc0_scratch6.sem) (default : HIx 1) 1048576 iprop(((b0).view.loc (thr d L) ↦[(b0).view.set]{fullShare} fA) ∗ ((xV).view.loc (thr d L) ↦[(xsl (uo3 L k.val 0) (uo3_inb L k.val 0)).view.set]{q} X))
        ∗ Transfers.Flight countersEmb (thr d L) (SemLoc.dma cc0_scratch7.sem) (default : HIx 1) 1048576 iprop(((b1).view.loc (thr d L) ↦[(b1).view.set]{fullShare} fB) ∗ ((xV).view.loc (thr d L) ↦[(xsl (uo3 L k.val 512) (uo3_inb L k.val 512)).view.set]{q} X))
        ∗ Transfers.Flight countersEmb (thr d L) (SemLoc.dma cc0_scratch11.sem) (default : HIx 1) 1048576 iprop(((dsl (uo3 L (k.val - 1) 512) (uo3_inb L (k.val - 1) 512)).view.loc (thr d L) ↦[(dsl (uo3 L (k.val - 1) 512) (uo3_inb L (k.val - 1) 512)).view.set]{fullShare} fd) ∗ ((b2).view.loc (thr d L) ↦[(b2).view.set]{fullShare} fC))
        ∗ Transfers.Flight countersEmb (thr d L) (SemLoc.dma cc0_scratch12.sem) (default : HIx 1) 32768 iprop(((esl (uo2 L (k.val - 1)) (uo2_inb L (k.val - 1))).view.loc (thr d L) ↦[(esl (uo2 L (k.val - 1)) (uo2_inb L (k.val - 1))).view.set]{fullShare} fe) ∗ ((meanb).view.loc (thr d L) ↦[(meanb).view.set]{fullShare} gm))
        ∗ semVal ((thr d L), SemLoc.dma cc0_scratch9.sem) 0
        ∗ semVal ((thr d L), SemLoc.dma cc0_scratch10.sem) 0
        ∗ semVal ((thr d L), SemLoc.dma cc0_scratch8.sem) 0) : sProp 𝕄)
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => iprop(⌜∀ l : Fin 16, r (ix1 l) = if l.val = k.val then Csp (F := F) Mc (ix1 (uT L k.val)) else acc (ix1 l)⌝
            ∗ ∃ W', owes (thr d L) O W' ∗ ⌜∀ p ∈ W', p ∈ W ∨ p.2 = none⌝
            ∗ ((mall).view.loc (thr d L) ↦[(mall).view.set]{fullShare} gM)
            ∗ ((xV).view.loc (thr d L) ↦{q} X)
            ∗ (∃ fD', ((dV).view.loc (thr d L) ↦[dPart (wid L) \ ((dS L 14 512 ∪ dS L 15 0) ∪ dS L 15 512)]{fullShare} fD') ∗ ⌜fD' = fD⌝)
            ∗ (∃ fE', ((eV).view.loc (thr d L) ↦[ePart (wid L) \ eS L 15]{fullShare} fE')
                ∗ ⌜(∀ j ∈ eS L 14, fE' j = fe j) ∧ (∀ j, j ∉ eS L 14 → fE' j = fE j)⌝)
            ∗ ∃ fA' fB' fC' gm' fd0 fd1 fd2 fe', ⌜(∀ i ∈ dS L 15 0, fd0 i = Dsp (F := F) X Mc i) ∧ (∀ i ∈ dS L 15 512, fd1 i = Dsp (F := F) X Mc i)
                ∧ fd2 = fd ∧ (∀ j ∈ eS L 15, fe' j = Esp (F := F) X Mc j)⌝ ∗
              Transfers.Flight countersEmb (thr d L) (SemLoc.dma cc0_scratch9.sem) (default : HIx 1) 1048576 iprop(((dsl (uo3 L 15 0) (uo3_inb L 15 0)).view.loc (thr d L) ↦[(dsl (uo3 L 15 0) (uo3_inb L 15 0)).view.set]{fullShare} fd0) ∗ ((b0).view.loc (thr d L) ↦[(b0).view.set]{fullShare} fA'))
            ∗ Transfers.Flight countersEmb (thr d L) (SemLoc.dma cc0_scratch10.sem) (default : HIx 1) 1048576 iprop(((dsl (uo3 L 15 512) (uo3_inb L 15 512)).view.loc (thr d L) ↦[(dsl (uo3 L 15 512) (uo3_inb L 15 512)).view.set]{fullShare} fd1) ∗ ((b1).view.loc (thr d L) ↦[(b1).view.set]{fullShare} fB'))
            ∗ Transfers.Flight countersEmb (thr d L) (SemLoc.dma cc0_scratch11.sem) (default : HIx 1) 1048576 iprop(((dsl (uo3 L 14 512) (uo3_inb L 14 512)).view.loc (thr d L) ↦[(dsl (uo3 L 14 512) (uo3_inb L 14 512)).view.set]{fullShare} fd2) ∗ ((b2).view.loc (thr d L) ↦[(b2).view.set]{fullShare} fC'))
            ∗ Transfers.Flight countersEmb (thr d L) (SemLoc.dma cc0_scratch12.sem) (default : HIx 1) 32768 iprop(((esl (uo2 L 15) (uo2_inb L 15)).view.loc (thr d L) ↦[(esl (uo2 L 15) (uo2_inb L 15)).view.set]{fullShare} fe') ∗ ((meanb).view.loc (thr d L) ↦[(meanb).view.set]{fullShare} gm'))
            ∗ semVal ((thr d L), SemLoc.dma cc0_scratch6.sem) 0
            ∗ semVal ((thr d L), SemLoc.dma cc0_scratch7.sem) 0
            ∗ semVal ((thr d L), SemLoc.dma cc0_scratch8.sem) 0) := by
  have hc1 : ¬ k0_cond1 k = 1#1 := (not_cond1_iff k).mpr (by omega)
  have hc11 : k0_cond11 k = 1#1 := (cond11_iff k).mpr (by omega)
  have hc12 : ¬ k0_cond12 k = 1#1 := fun h => by have := (cond12_iff k).mp h; omega
  have hc14 : ¬ k0_cond14 k = 1#1 := fun h => by have := (cond14_iff k).mp h; omega
  have h14 : k.val - 1 = 14 := by omega
  rw [h14, hk]

  have exA : k0_off293 L k = uo3 L 15 0 := by rw [k0_off293_eq, hk, uo3_of_le L (by omega) (by omega)]; rfl
  have exB : k0_off361 L k = uo3 L 15 512 := by rw [k0_off361_eq, hk, uo3_of_le L (by omega) (by omega)]; rfl
  have eeO : k0_off429 L k = uo2 L 15 := by rw [k0_off429_eq, hk, uo2_of_le L (by omega)]; rfl
  have hsetD : ((dPart (wid L) \ dS L 14 512) \ dS L 15 0) \ dS L 15 512 = dPart (wid L) \ ((dS L 14 512 ∪ dS L 15 0) ∪ dS L 15 512) := sdiff3 _ _ _ _
  have haE : eS L 14 ⊆ ePart (wid L) \ eS L 15 :=
    Finset.subset_sdiff.mpr ⟨eS_subset L 14, eS_disjoint L (by omega) (by omega) (by omega)⟩
  have hsetE : (ePart (wid L) \ eS L 14) \ eS L 15 = (ePart (wid L) \ eS L 15) \ eS L 14 := sdiff_right_comm _ _ _
  iintro ⟨#Hmw, HO, Hmall, HX, HD, HE, FA, FB, FC, FM, SA, SB, SC⟩

  have hsub0 : dS L 15 0 ⊆ dPart (wid L) \ dS L 14 512 :=
    Finset.subset_sdiff.mpr ⟨dS_subset L 15 0 (.inl rfl), dS_disjoint L (by omega) (by omega) (.inl rfl) (.inr rfl) (.inl (by omega))⟩
  have hsub1 : dS L 15 512 ⊆ (dPart (wid L) \ dS L 14 512) \ dS L 15 0 :=
    Finset.subset_sdiff.mpr ⟨Finset.subset_sdiff.mpr ⟨dS_subset L 15 512 (.inr rfl), dS_disjoint L (by omega) (by omega) (.inr rfl) (.inr rfl) (.inl (by omega))⟩,
      dS_disjoint L (by omega) (by omega) (.inr rfl) (.inl rfl) (.inr (by decide))⟩
  have hsubE : eS L 15 ⊆ ePart (wid L) \ eS L 14 :=
    Finset.subset_sdiff.mpr ⟨eS_subset L 15, eS_disjoint L (by omega) (by omega) (by omega)⟩
  ihave HD' := (pointsTo_split_subset hsub0).1 $$ HD
  icases HD' with ⟨HD0, HD⟩
  ihave HD' := (pointsTo_split_subset hsub1).1 $$ HD
  icases HD' with ⟨HD1, HD⟩
  ihave HE' := (pointsTo_split_subset hsubE).1 $$ HE
  icases HE' with ⟨HE0, HE⟩

  have hs0 : dS L 15 0 = (dsl (k0_off293 L k) (k0_off293_inb L k hc1)).view.set := dset_congr exA.symm _ _
  have hs1 : dS L 15 512 = (dsl (k0_off361 L k) (k0_off361_inb L k hc1)).view.set := dset_congr exB.symm _ _
  have hsE : eS L 15 = (esl (k0_off429 L k) (k0_off429_inb L k hc1)).view.set := eset_congr eeO.symm _ _
  have e0 : (((dV).view.loc (thr d L) ↦[dS L 15 0]{fullShare} fD : sProp 𝕄))
      = ((dsl (k0_off293 L k) (k0_off293_inb L k hc1)).view.loc (thr d L) ↦[(dsl (k0_off293 L k) (k0_off293_inb L k hc1)).view.set]{fullShare} fD) := by
    rw [hs0]
  have e1 : (((dV).view.loc (thr d L) ↦[dS L 15 512]{fullShare} fD : sProp 𝕄))
      = ((dsl (k0_off361 L k) (k0_off361_inb L k hc1)).view.loc (thr d L) ↦[(dsl (k0_off361 L k) (k0_off361_inb L k hc1)).view.set]{fullShare} fD) := by
    rw [hs1]
  have eE : (((eV).view.loc (thr d L) ↦[eS L 15]{fullShare} fE : sProp 𝕄))
      = ((esl (k0_off429 L k) (k0_off429_inb L k hc1)).view.loc (thr d L) ↦[(esl (k0_off429 L k) (k0_off429_inb L k hc1)).view.set]{fullShare} fE) := by
    rw [hsE]
  ihave HD0' := (Entails.of_eq e0) $$ HD0
  ihave HD1' := (Entails.of_eq e1) $$ HD1
  ihave HE0' := (Entails.of_eq eE) $$ HE0
  sl_unfold [k0_t1_body]
  sl_exec
  sl_step

  have hMS : msOf (vtrip_last.sl.v72 d L k gM hc1) (vtrip_last.sl.v74 d L k gM hc1) (vtrip_last.sl.v76 d L k gM hc1) (vtrip_last.sl.v78 d L k gM hc1) (vtrip_last.sl.v80 d L k gM hc1) (vtrip_last.sl.v82 d L k gM hc1) (vtrip_last.sl.v84 d L k gM hc1) (vtrip_last.sl.v86 d L k gM hc1) (vtrip_last.sl.v88 d L k gM hc1) (vtrip_last.sl.v90 d L k gM hc1) (vtrip_last.sl.v92 d L k gM hc1) (vtrip_last.sl.v94 d L k gM hc1) (vtrip_last.sl.v96 d L k gM hc1) (vtrip_last.sl.v98 d L k gM hc1) (vtrip_last.sl.v100 d L k gM hc1) (vtrip_last.sl.v102 d L k gM hc1) (vtrip_last.sl.v104 d L k gM hc1) (vtrip_last.sl.v106 d L k gM hc1) (vtrip_last.sl.v108 d L k gM hc1) (vtrip_last.sl.v110 d L k gM hc1) (vtrip_last.sl.v112 d L k gM hc1) (vtrip_last.sl.v114 d L k gM hc1) (vtrip_last.sl.v116 d L k gM hc1) (vtrip_last.sl.v118 d L k gM hc1) (vtrip_last.sl.v120 d L k gM hc1) (vtrip_last.sl.v122 d L k gM hc1) (vtrip_last.sl.v124 d L k gM hc1) (vtrip_last.sl.v126 d L k gM hc1) (vtrip_last.sl.v128 d L k gM hc1) (vtrip_last.sl.v130 d L k gM hc1) (vtrip_last.sl.v132 d L k gM hc1) (vtrip_last.sl.v134 d L k gM hc1) (vtrip_last.sl.v136 d L k gM hc1) (vtrip_last.sl.v138 d L k gM hc1) (vtrip_last.sl.v140 d L k gM hc1) (vtrip_last.sl.v142 d L k gM hc1) (vtrip_last.sl.v144 d L k gM hc1) (vtrip_last.sl.v146 d L k gM hc1) (vtrip_last.sl.v148 d L k gM hc1) (vtrip_last.sl.v150 d L k gM hc1) (vtrip_last.sl.v152 d L k gM hc1) (vtrip_last.sl.v154 d L k gM hc1) (vtrip_last.sl.v156 d L k gM hc1) (vtrip_last.sl.v158 d L k gM hc1) (vtrip_last.sl.v160 d L k gM hc1) (vtrip_last.sl.v162 d L k gM hc1) (vtrip_last.sl.v164 d L k gM hc1) (vtrip_last.sl.v166 d L k gM hc1) (vtrip_last.sl.v168 d L k gM hc1) (vtrip_last.sl.v170 d L k gM hc1) (vtrip_last.sl.v172 d L k gM hc1) (vtrip_last.sl.r d L k gM hc1) (vtrip_last.sl.r_1 d L k gM hc1) (vtrip_last.sl.r_2 d L k gM hc1) (vtrip_last.sl.r_3 d L k gM hc1) (vtrip_last.sl.r_4 d L k gM hc1) (vtrip_last.sl.r_5 d L k gM hc1) (vtrip_last.sl.r_6 d L k gM hc1) (vtrip_last.sl.r_7 d L k gM hc1) (vtrip_last.sl.r_8 d L k gM hc1) (vtrip_last.sl.r_9 d L k gM hc1) (vtrip_last.sl.r_10 d L k gM hc1) (vtrip_last.sl.r_11 d L k gM hc1) (vtrip_last.sl.r_12 d L k gM hc1) = msU Mc (uT L k.val) :=
    msOf_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (msU Mc (uT L k.val))
      (lane_of_load L Mc gM hgM k (k0_off288 k) (k0_off288_inb k hc1) shapeCasts_S1x16_S16 0 (k0_off288_eq k) 0 slices_S16_o0_S1 inpos_S1_p0)
      (lane_of_load L Mc gM hgM k (k0_off288 k) (k0_off288_inb k hc1) shapeCasts_S1x16_S16 0 (k0_off288_eq k) 1 slices_S16_o1_S1 inpos_S1_p0)
      (lane_of_load L Mc gM hgM k (k0_off288 k) (k0_off288_inb k hc1) shapeCasts_S1x16_S16 0 (k0_off288_eq k) 2 slices_S16_o2_S1 inpos_S1_p0)
      (lane_of_load L Mc gM hgM k (k0_off288 k) (k0_off288_inb k hc1) shapeCasts_S1x16_S16 0 (k0_off288_eq k) 3 slices_S16_o3_S1 inpos_S1_p0)
      (lane_of_load L Mc gM hgM k (k0_off288 k) (k0_off288_inb k hc1) shapeCasts_S1x16_S16 0 (k0_off288_eq k) 4 slices_S16_o4_S1 inpos_S1_p0)
      (lane_of_load L Mc gM hgM k (k0_off288 k) (k0_off288_inb k hc1) shapeCasts_S1x16_S16 0 (k0_off288_eq k) 5 slices_S16_o5_S1 inpos_S1_p0)
      (lane_of_load L Mc gM hgM k (k0_off288 k) (k0_off288_inb k hc1) shapeCasts_S1x16_S16 0 (k0_off288_eq k) 6 slices_S16_o6_S1 inpos_S1_p0)
      (lane_of_load L Mc gM hgM k (k0_off288 k) (k0_off288_inb k hc1) shapeCasts_S1x16_S16 0 (k0_off288_eq k) 7 slices_S16_o7_S1 inpos_S1_p0)
      (lane_of_load L Mc gM hgM k (k0_off288 k) (k0_off288_inb k hc1) shapeCasts_S1x16_S16 0 (k0_off288_eq k) 8 slices_S16_o8_S1 inpos_S1_p0)
      (lane_of_load L Mc gM hgM k (k0_off288 k) (k0_off288_inb k hc1) shapeCasts_S1x16_S16 0 (k0_off288_eq k) 9 slices_S16_o9_S1 inpos_S1_p0)
      (lane_of_load L Mc gM hgM k (k0_off288 k) (k0_off288_inb k hc1) shapeCasts_S1x16_S16 0 (k0_off288_eq k) 10 slices_S16_o10_S1 inpos_S1_p0)
      (lane_of_load L Mc gM hgM k (k0_off288 k) (k0_off288_inb k hc1) shapeCasts_S1x16_S16 0 (k0_off288_eq k) 11 slices_S16_o11_S1 inpos_S1_p0)
      (lane_of_load L Mc gM hgM k (k0_off288 k) (k0_off288_inb k hc1) shapeCasts_S1x16_S16 0 (k0_off288_eq k) 12 slices_S16_o12_S1 inpos_S1_p0)
      (lane_of_load L Mc gM hgM k (k0_off288 k) (k0_off288_inb k hc1) shapeCasts_S1x16_S16 0 (k0_off288_eq k) 13 slices_S16_o13_S1 inpos_S1_p0)
      (lane_of_load L Mc gM hgM k (k0_off288 k) (k0_off288_inb k hc1) shapeCasts_S1x16_S16 0 (k0_off288_eq k) 14 slices_S16_o14_S1 inpos_S1_p0)
      (lane_of_load L Mc gM hgM k (k0_off288 k) (k0_off288_inb k hc1) shapeCasts_S1x16_S16 0 (k0_off288_eq k) 15 slices_S16_o15_S1 inpos_S1_p0)
      (lane_of_load L Mc gM hgM k (k0_off289 k) (k0_off289_inb k hc1) shapeCasts_S1x16_S16 1 (k0_off289_eq k) 0 slices_S16_o0_S1 inpos_S1_p0)
      (lane_of_load L Mc gM hgM k (k0_off289 k) (k0_off289_inb k hc1) shapeCasts_S1x16_S16 1 (k0_off289_eq k) 1 slices_S16_o1_S1 inpos_S1_p0)
      (lane_of_load L Mc gM hgM k (k0_off289 k) (k0_off289_inb k hc1) shapeCasts_S1x16_S16 1 (k0_off289_eq k) 2 slices_S16_o2_S1 inpos_S1_p0)
      (lane_of_load L Mc gM hgM k (k0_off289 k) (k0_off289_inb k hc1) shapeCasts_S1x16_S16 1 (k0_off289_eq k) 3 slices_S16_o3_S1 inpos_S1_p0)
      (lane_of_load L Mc gM hgM k (k0_off289 k) (k0_off289_inb k hc1) shapeCasts_S1x16_S16 1 (k0_off289_eq k) 4 slices_S16_o4_S1 inpos_S1_p0)
      (lane_of_load L Mc gM hgM k (k0_off289 k) (k0_off289_inb k hc1) shapeCasts_S1x16_S16 1 (k0_off289_eq k) 5 slices_S16_o5_S1 inpos_S1_p0)
      (lane_of_load L Mc gM hgM k (k0_off289 k) (k0_off289_inb k hc1) shapeCasts_S1x16_S16 1 (k0_off289_eq k) 6 slices_S16_o6_S1 inpos_S1_p0)
      (lane_of_load L Mc gM hgM k (k0_off289 k) (k0_off289_inb k hc1) shapeCasts_S1x16_S16 1 (k0_off289_eq k) 7 slices_S16_o7_S1 inpos_S1_p0)
      (lane_of_load L Mc gM hgM k (k0_off289 k) (k0_off289_inb k hc1) shapeCasts_S1x16_S16 1 (k0_off289_eq k) 8 slices_S16_o8_S1 inpos_S1_p0)
      (lane_of_load L Mc gM hgM k (k0_off289 k) (k0_off289_inb k hc1) shapeCasts_S1x16_S16 1 (k0_off289_eq k) 9 slices_S16_o9_S1 inpos_S1_p0)
      (lane_of_load L Mc gM hgM k (k0_off289 k) (k0_off289_inb k hc1) shapeCasts_S1x16_S16 1 (k0_off289_eq k) 10 slices_S16_o10_S1 inpos_S1_p0)
      (lane_of_load L Mc gM hgM k (k0_off289 k) (k0_off289_inb k hc1) shapeCasts_S1x16_S16 1 (k0_off289_eq k) 11 slices_S16_o11_S1 inpos_S1_p0)
      (lane_of_load L Mc gM hgM k (k0_off289 k) (k0_off289_inb k hc1) shapeCasts_S1x16_S16 1 (k0_off289_eq k) 12 slices_S16_o12_S1 inpos_S1_p0)
      (lane_of_load L Mc gM hgM k (k0_off289 k) (k0_off289_inb k hc1) shapeCasts_S1x16_S16 1 (k0_off289_eq k) 13 slices_S16_o13_S1 inpos_S1_p0)
      (lane_of_load L Mc gM hgM k (k0_off289 k) (k0_off289_inb k hc1) shapeCasts_S1x16_S16 1 (k0_off289_eq k) 14 slices_S16_o14_S1 inpos_S1_p0)
      (lane_of_load L Mc gM hgM k (k0_off289 k) (k0_off289_inb k hc1) shapeCasts_S1x16_S16 1 (k0_off289_eq k) 15 slices_S16_o15_S1 inpos_S1_p0)
      (lane_of_load L Mc gM hgM k (k0_off290 k) (k0_off290_inb k hc1) shapeCasts_S1x16_S16 2 (k0_off290_eq k) 0 slices_S16_o0_S1 inpos_S1_p0)
      (lane_of_load L Mc gM hgM k (k0_off290 k) (k0_off290_inb k hc1) shapeCasts_S1x16_S16 2 (k0_off290_eq k) 1 slices_S16_o1_S1 inpos_S1_p0)
      (lane_of_load L Mc gM hgM k (k0_off290 k) (k0_off290_inb k hc1) shapeCasts_S1x16_S16 2 (k0_off290_eq k) 2 slices_S16_o2_S1 inpos_S1_p0)
      (lane_of_load L Mc gM hgM k (k0_off290 k) (k0_off290_inb k hc1) shapeCasts_S1x16_S16 2 (k0_off290_eq k) 3 slices_S16_o3_S1 inpos_S1_p0)
      (lane_of_load L Mc gM hgM k (k0_off290 k) (k0_off290_inb k hc1) shapeCasts_S1x16_S16 2 (k0_off290_eq k) 4 slices_S16_o4_S1 inpos_S1_p0)
      (lane_of_load L Mc gM hgM k (k0_off290 k) (k0_off290_inb k hc1) shapeCasts_S1x16_S16 2 (k0_off290_eq k) 5 slices_S16_o5_S1 inpos_S1_p0)
      (lane_of_load L Mc gM hgM k (k0_off290 k) (k0_off290_inb k hc1) shapeCasts_S1x16_S16 2 (k0_off290_eq k) 6 slices_S16_o6_S1 inpos_S1_p0)
      (lane_of_load L Mc gM hgM k (k0_off290 k) (k0_off290_inb k hc1) shapeCasts_S1x16_S16 2 (k0_off290_eq k) 7 slices_S16_o7_S1 inpos_S1_p0)
      (lane_of_load L Mc gM hgM k (k0_off290 k) (k0_off290_inb k hc1) shapeCasts_S1x16_S16 2 (k0_off290_eq k) 8 slices_S16_o8_S1 inpos_S1_p0)
      (lane_of_load L Mc gM hgM k (k0_off290 k) (k0_off290_inb k hc1) shapeCasts_S1x16_S16 2 (k0_off290_eq k) 9 slices_S16_o9_S1 inpos_S1_p0)
      (lane_of_load L Mc gM hgM k (k0_off290 k) (k0_off290_inb k hc1) shapeCasts_S1x16_S16 2 (k0_off290_eq k) 10 slices_S16_o10_S1 inpos_S1_p0)
      (lane_of_load L Mc gM hgM k (k0_off290 k) (k0_off290_inb k hc1) shapeCasts_S1x16_S16 2 (k0_off290_eq k) 11 slices_S16_o11_S1 inpos_S1_p0)
      (lane_of_load L Mc gM hgM k (k0_off290 k) (k0_off290_inb k hc1) shapeCasts_S1x16_S16 2 (k0_off290_eq k) 12 slices_S16_o12_S1 inpos_S1_p0)
      (lane_of_load L Mc gM hgM k (k0_off290 k) (k0_off290_inb k hc1) shapeCasts_S1x16_S16 2 (k0_off290_eq k) 13 slices_S16_o13_S1 inpos_S1_p0)
      (lane_of_load L Mc gM hgM k (k0_off290 k) (k0_off290_inb k hc1) shapeCasts_S1x16_S16 2 (k0_off290_eq k) 14 slices_S16_o14_S1 inpos_S1_p0)
      (lane_of_load L Mc gM hgM k (k0_off290 k) (k0_off290_inb k hc1) shapeCasts_S1x16_S16 2 (k0_off290_eq k) 15 slices_S16_o15_S1 inpos_S1_p0)
      (lane_of_load L Mc gM hgM k (k0_off291 k) (k0_off291_inb k hc1) shapeCasts_S1x16_S16 3 (k0_off291_eq k) 0 slices_S16_o0_S1 inpos_S1_p0)
      (lane_of_load L Mc gM hgM k (k0_off291 k) (k0_off291_inb k hc1) shapeCasts_S1x16_S16 3 (k0_off291_eq k) 1 slices_S16_o1_S1 inpos_S1_p0)
      (lane_of_load L Mc gM hgM k (k0_off291 k) (k0_off291_inb k hc1) shapeCasts_S1x16_S16 3 (k0_off291_eq k) 2 slices_S16_o2_S1 inpos_S1_p0)
      (lane_of_load L Mc gM hgM k (k0_off291 k) (k0_off291_inb k hc1) shapeCasts_S1x16_S16 3 (k0_off291_eq k) 3 slices_S16_o3_S1 inpos_S1_p0)
      (lane_of_load L Mc gM hgM k (k0_off291 k) (k0_off291_inb k hc1) shapeCasts_S1x16_S16 3 (k0_off291_eq k) 4 slices_S16_o4_S1 inpos_S1_p0)
      (lane_of_load L Mc gM hgM k (k0_off291 k) (k0_off291_inb k hc1) shapeCasts_S1x16_S16 3 (k0_off291_eq k) 5 slices_S16_o5_S1 inpos_S1_p0)
      (lane_of_load L Mc gM hgM k (k0_off291 k) (k0_off291_inb k hc1) shapeCasts_S1x16_S16 3 (k0_off291_eq k) 6 slices_S16_o6_S1 inpos_S1_p0)
      (lane_of_load L Mc gM hgM k (k0_off291 k) (k0_off291_inb k hc1) shapeCasts_S1x16_S16 3 (k0_off291_eq k) 7 slices_S16_o7_S1 inpos_S1_p0)
      (lane_of_load L Mc gM hgM k (k0_off291 k) (k0_off291_inb k hc1) shapeCasts_S1x16_S16 3 (k0_off291_eq k) 8 slices_S16_o8_S1 inpos_S1_p0)
      (lane_of_load L Mc gM hgM k (k0_off291 k) (k0_off291_inb k hc1) shapeCasts_S1x16_S16 3 (k0_off291_eq k) 9 slices_S16_o9_S1 inpos_S1_p0)
      (lane_of_load L Mc gM hgM k (k0_off291 k) (k0_off291_inb k hc1) shapeCasts_S1x16_S16 3 (k0_off291_eq k) 10 slices_S16_o10_S1 inpos_S1_p0)
      (lane_of_load L Mc gM hgM k (k0_off291 k) (k0_off291_inb k hc1) shapeCasts_S1x16_S16 3 (k0_off291_eq k) 11 slices_S16_o11_S1 inpos_S1_p0)
      (lane_of_load L Mc gM hgM k (k0_off291 k) (k0_off291_inb k hc1) shapeCasts_S1x16_S16 3 (k0_off291_eq k) 12 slices_S16_o12_S1 inpos_S1_p0)
      (lane_of_load L Mc gM hgM k (k0_off291 k) (k0_off291_inb k hc1) shapeCasts_S1x16_S16 3 (k0_off291_eq k) 13 slices_S16_o13_S1 inpos_S1_p0)
      (lane_of_load L Mc gM hgM k (k0_off291 k) (k0_off291_inb k hc1) shapeCasts_S1x16_S16 3 (k0_off291_eq k) 14 slices_S16_o14_S1 inpos_S1_p0)
      (lane_of_load L Mc gM hgM k (k0_off291 k) (k0_off291_inb k hc1) shapeCasts_S1x16_S16 3 (k0_off291_eq k) 15 slices_S16_o15_S1 inpos_S1_p0)
  have hcnt : vtrip_last.sl.r_14 d L k gM hc1 = cntF (msU Mc (uT L k.val)) := by
    rw [← hMS]
    exact pay1807_cnt _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

  have exA' : k0_off293 L k = uo3 L k.val 0 := by rw [hk]; exact exA
  have exB' : k0_off361 L k = uo3 L k.val 512 := by rw [hk]; exact exB
  have eeO' : k0_off429 L k = uo2 L k.val := by rw [hk]; exact eeO

  have hR6 : k0_pay1808 (vtrip_last.sl.v144 d L k gM hc1) (vtrip_last.sl.v146 d L k gM hc1) (vtrip_last.sl.v148 d L k gM hc1) (vtrip_last.sl.v150 d L k gM hc1) (vtrip_last.sl.v152 d L k gM hc1) (vtrip_last.sl.v154 d L k gM hc1) (vtrip_last.sl.v156 d L k gM hc1) (vtrip_last.sl.v158 d L k gM hc1) (vtrip_last.sl.v160 d L k gM hc1) (vtrip_last.sl.v162 d L k gM hc1) (vtrip_last.sl.v164 d L k gM hc1) (vtrip_last.sl.v166 d L k gM hc1) (vtrip_last.sl.v168 d L k gM hc1) (vtrip_last.sl.v170 d L k gM hc1) (vtrip_last.sl.v172 d L k gM hc1) (vtrip_last.sl.r d L k gM hc1) (vtrip_last.sl.r_1 d L k gM hc1) (vtrip_last.sl.r_2 d L k gM hc1) (vtrip_last.sl.r_3 d L k gM hc1) (vtrip_last.sl.r_4 d L k gM hc1) (vtrip_last.sl.r_5 d L k gM hc1) (vtrip_last.sl.r_6 d L k gM hc1) (vtrip_last.sl.r_7 d L k gM hc1) (vtrip_last.sl.r_8 d L k gM hc1) (vtrip_last.sl.r_9 d L k gM hc1) (vtrip_last.sl.r_10 d L k gM hc1) (vtrip_last.sl.r_11 d L k gM hc1) (vtrip_last.sl.r_12 d L k gM hc1) (vtrip_last.sl.r_13 d L k gM hc1) = rcpF (msU (F := F) Mc (uT L k.val)) := by
    rw [← hMS]; rfl
  have hR7 : (vtrip_last.sl.r_15 d L k gM hc1) = rcpF (msU (F := F) Mc (uT L k.val)) := by
    rw [← hMS]; rfl
  have ht6 : Scf.trips k0_t6_loop.lb k0_t6_loop.ub k0_t6_loop.st = 32 := trips_t6
  have ht7 : Scf.trips k0_t7_loop.lb k0_t7_loop.ub k0_t7_loop.st = 32 := trips_t7
  have hA : vtrip_last.sl.dma0 d L k v3 gM fA gm hc1 = colDiff (blkU (F := F) X (uT L k.val) 0) (msU (F := F) Mc (uT L k.val)) (rcpF (msU (F := F) Mc (uT L k.val))) := by
    unfold vtrip_last.sl.dma0
    rw [ReadAs.apply_same, ht6]
    funext y
    rw [buf_read_t6, col_t6_buf, hMS, hR6, hfA]
  have hB : vtrip_last.sl.dma0_1 d L k v3 gM fA fB gm hc1 = colDiff (blkU (F := F) X (uT L k.val) 1) (msU (F := F) Mc (uT L k.val)) (rcpF (msU (F := F) Mc (uT L k.val))) := by
    unfold vtrip_last.sl.dma0_1
    rw [ReadAs.apply_same, ht6]
    first | rw [ht7] | skip
    funext y
    rw [buf_read_t7, col_t7_buf, hMS, hR7, hfB]
  have hv0' : ∀ i ∈ dS L k.val 0, ((dsl (k0_off293 L k) (k0_off293_inb L k hc1)).view.writes (Elt F) fD
      [⟨Rect.whole S64x512, vtrip_last.sl.dma0 d L k v3 gM fA gm hc1⟩]) i = Dsp (F := F) X Mc i := by
    intro i hi
    obtain ⟨y, hy, hval⟩ := dS_point (F := F) X Mc L k.val (by omega) 0 i hi
    have hemb : (dsl (k0_off293 L k) (k0_off293_inb L k hc1)).view.emb y = i :=
      funext fun a => Fin.ext (by
        rw [emb_dsl]
        have ea := congrFun exA' a
        rw [ea]; exact hy a)
    rw [← hemb]
    refine (((View.read_apply _ _).trans (cast_eq _ _)).symm).trans ?_
    rw [View.read_writes_whole, hA, hemb, hval]
  have hv1' : ∀ i ∈ dS L k.val 512, ((dsl (k0_off361 L k) (k0_off361_inb L k hc1)).view.writes (Elt F) fD
      [⟨Rect.whole S64x512, vtrip_last.sl.dma0_1 d L k v3 gM fA fB gm hc1⟩]) i = Dsp (F := F) X Mc i := by
    intro i hi
    obtain ⟨y, hy, hval⟩ := dS_point (F := F) X Mc L k.val (by omega) 1 i hi
    have hemb : (dsl (k0_off361 L k) (k0_off361_inb L k hc1)).view.emb y = i :=
      funext fun a => Fin.ext (by
        rw [emb_dsl]
        have ea := congrFun exB' a
        rw [ea]; exact hy a)
    rw [← hemb]
    refine (((View.read_apply _ _).trans (cast_eq _ _)).symm).trans ?_
    rw [View.read_writes_whole, hB, hemb, hval]
  have hM : ∀ z : S1024.Idx, vtrip_last.sl.dma0_2 d L k v3 gM fA fB gm hc1 z
      = colMean (blkU (F := F) X (uT L k.val) (halfOf (z 0))) (msU (F := F) Mc (uT L k.val)) (rcpF (msU (F := F) Mc (uT L k.val))) (colOf (z 0)) := by
    intro z
    have hz : (z 0).val < 1024 := (z 0).isLt
    unfold vtrip_last.sl.dma0_2
    rw [ReadAs.apply_same, ht6]
    first | rw [ht7] | skip
    show (meanb).view.writes (Elt F) gm (_ ++ _) z = _
    rw [View.writes_append, col_t7_mean_apply]
    by_cases h512 : 512 ≤ (z 0).val
    · rw [if_pos h512, hMS, hR7, hfB]
      have eh : halfOf (z 0) = 1 := Fin.ext (by show (z 0).val / 512 = 1; omega)
      have ec : colOf (z 0) = (⟨(z 0).val - 512, sub512_lt_t7 z⟩ : Fin 512) := Fin.ext (by show (z 0).val % 512 = (z 0).val - 512; omega)
      rw [eh, ec]
    · rw [if_neg h512, congrFun (col_t6_mean (F := F) d L k (vtrip_last.sl.arg20 k) hc1 (vtrip_last.sl.v58 k v3) (vtrip_last.sl.v72 d L k gM hc1) (vtrip_last.sl.v74 d L k gM hc1) (vtrip_last.sl.v76 d L k gM hc1) (vtrip_last.sl.v78 d L k gM hc1) (vtrip_last.sl.v80 d L k gM hc1) (vtrip_last.sl.v82 d L k gM hc1) (vtrip_last.sl.v84 d L k gM hc1) (vtrip_last.sl.v86 d L k gM hc1) (vtrip_last.sl.v88 d L k gM hc1) (vtrip_last.sl.v90 d L k gM hc1) (vtrip_last.sl.v92 d L k gM hc1) (vtrip_last.sl.v94 d L k gM hc1) (vtrip_last.sl.v96 d L k gM hc1) (vtrip_last.sl.v98 d L k gM hc1) (vtrip_last.sl.v100 d L k gM hc1) (vtrip_last.sl.v102 d L k gM hc1) (vtrip_last.sl.v104 d L k gM hc1) (vtrip_last.sl.v106 d L k gM hc1) (vtrip_last.sl.v108 d L k gM hc1) (vtrip_last.sl.v110 d L k gM hc1) (vtrip_last.sl.v112 d L k gM hc1) (vtrip_last.sl.v114 d L k gM hc1) (vtrip_last.sl.v116 d L k gM hc1) (vtrip_last.sl.v118 d L k gM hc1) (vtrip_last.sl.v120 d L k gM hc1) (vtrip_last.sl.v122 d L k gM hc1) (vtrip_last.sl.v124 d L k gM hc1) (vtrip_last.sl.v126 d L k gM hc1) (vtrip_last.sl.v128 d L k gM hc1) (vtrip_last.sl.v130 d L k gM hc1) (vtrip_last.sl.v132 d L k gM hc1) (vtrip_last.sl.v134 d L k gM hc1) (vtrip_last.sl.v136 d L k gM hc1) (vtrip_last.sl.v138 d L k gM hc1) (vtrip_last.sl.v140 d L k gM hc1) (vtrip_last.sl.v142 d L k gM hc1) (vtrip_last.sl.v144 d L k gM hc1) (vtrip_last.sl.v146 d L k gM hc1) (vtrip_last.sl.v148 d L k gM hc1) (vtrip_last.sl.v150 d L k gM hc1) (vtrip_last.sl.v152 d L k gM hc1) (vtrip_last.sl.v154 d L k gM hc1) (vtrip_last.sl.v156 d L k gM hc1) (vtrip_last.sl.v158 d L k gM hc1) (vtrip_last.sl.v160 d L k gM hc1) (vtrip_last.sl.v162 d L k gM hc1) (vtrip_last.sl.v164 d L k gM hc1) (vtrip_last.sl.v166 d L k gM hc1) (vtrip_last.sl.v168 d L k gM hc1) (vtrip_last.sl.v170 d L k gM hc1) (vtrip_last.sl.v172 d L k gM hc1) (vtrip_last.sl.r d L k gM hc1) (vtrip_last.sl.r_1 d L k gM hc1) (vtrip_last.sl.r_2 d L k gM hc1) (vtrip_last.sl.r_3 d L k gM hc1) (vtrip_last.sl.r_4 d L k gM hc1) (vtrip_last.sl.r_5 d L k gM hc1) (vtrip_last.sl.r_6 d L k gM hc1) (vtrip_last.sl.r_7 d L k gM hc1) (vtrip_last.sl.r_8 d L k gM hc1) (vtrip_last.sl.r_9 d L k gM hc1) (vtrip_last.sl.r_10 d L k gM hc1) (vtrip_last.sl.r_11 d L k gM hc1) (vtrip_last.sl.r_12 d L k gM hc1) (vtrip_last.sl.r_13 d L k gM hc1) fA gm) z]
      have hlt : (z 0).val < 512 := by omega
      rw [dif_pos hlt, hMS, hR6, hfA]
      have eh : halfOf (z 0) = 0 := Fin.ext (by show (z 0).val / 512 = 0; omega)
      have ec : colOf (z 0) = (⟨(z 0).val, hlt⟩ : Fin 512) := Fin.ext (by show (z 0).val % 512 = (z 0).val; omega)
      rw [eh, ec]
  have hvE' : ∀ j ∈ eS L k.val, ((esl (k0_off429 L k) (k0_off429_inb L k hc1)).view.writes (Elt F) fE
      [⟨Rect.whole S1024, vtrip_last.sl.dma0_2 d L k v3 gM fA fB gm hc1⟩]) j = Esp (F := F) X Mc j := by
    intro j hj
    obtain ⟨hy, hval⟩ := eS_point (F := F) X Mc L k.val (by omega) j hj
    have hemb : (esl (k0_off429 L k) (k0_off429_inb L k hc1)).view.emb (ix1 (j 1)) = j :=
      funext fun a => Fin.ext (by
        rw [emb_esl]
        have ea := congrFun eeO' a
        rw [ea]; exact hy a)
    rw [← hemb]
    refine (((View.read_apply _ _).trans (cast_eq _ _)).symm).trans ?_
    rw [View.read_writes_whole, hM, hemb, hval]
  have hv0 : ∀ i ∈ dS L 15 0, ((dsl (k0_off293 L k) (k0_off293_inb L k hc1)).view.writes (Elt F) fD
      [⟨Rect.whole S64x512, vtrip_last.sl.dma0 d L k v3 gM fA gm hc1⟩]) i = Dsp (F := F) X Mc i :=
    fun i hi => hv0' i (by rw [hk]; exact hi)
  have hv1 : ∀ i ∈ dS L 15 512, ((dsl (k0_off361 L k) (k0_off361_inb L k hc1)).view.writes (Elt F) fD
      [⟨Rect.whole S64x512, vtrip_last.sl.dma0_1 d L k v3 gM fA fB gm hc1⟩]) i = Dsp (F := F) X Mc i :=
    fun i hi => hv1' i (by rw [hk]; exact hi)
  have hvE : ∀ j ∈ eS L 15, ((esl (k0_off429 L k) (k0_off429_inb L k hc1)).view.writes (Elt F) fE
      [⟨Rect.whole S1024, vtrip_last.sl.dma0_2 d L k v3 gM fA fB gm hc1⟩]) j = Esp (F := F) X Mc j :=
    fun j hj => hvE' j (by rw [hk]; exact hj)
  ihave SA' := (Transfers.Flight_mono countersEmb (thr d L) (Entails.of_eq (flightA_eq d L k hc1 exA _ _))) $$ SA
  ihave SB' := (Transfers.Flight_mono countersEmb (thr d L) (Entails.of_eq (flightB_eq d L k hc1 exB _ _))) $$ SB
  ihave FM' := (Transfers.Flight_mono countersEmb (thr d L) (Entails.of_eq (flightM_eq d L k hc1 eeO _ _))) $$ FM

  isplitr
  · ipureintro
    intro l
    rw [pay1818_lane, hcnt, hk]
    rfl

  iexists _
  isplitl [HO]; · iexact HO
  isplitr
  · ipureintro
    intro p hp
    simp only [Finset.mem_insert] at hp
    rcases hp with (rfl | rfl | rfl | hp) <;> first | exact .inr rfl | exact .inl hp
  isplitl [Hmall]; · iexact Hmall

  isplitl [HX]; · iexact HX

  isplitl [HD]
  · rw [hsetD]
    iexists _
    isplitl [HD]; · iexact HD
    ipureintro; rfl

  isplitl [HE FM_dst]
  · rw [hsetE]
    ihave H2 := (pointsTo_join_subset (ℓ := (eV).view.loc (thr d L)) haE) $$ [FM_dst HE]
    · isplitl [FM_dst]; · iexact FM_dst
      iexact HE
    iexists _
    isplitl [H2]; · iexact H2
    ipureintro
    exact ⟨fun j hj => Finset.piecewise_eq_of_mem _ _ _ hj, fun j hj => Finset.piecewise_eq_of_notMem _ _ _ hj⟩

  iexists _, _, _, _, _, _, _, _
  isplitr
  rotate_left
  isplitl [SA']; · iexact SA'
  isplitl [SB']; · iexact SB'
  isplitl [FC]; · iexact FC
  isplitl [FM']; · iexact FM'
  isplitl [FA]; · iexact FA
  isplitl [FB]; · iexact FB
  · iexact SC
  · ipureintro

    refine ⟨?_, ?_, rfl, ?_⟩
    · exact hv0
    · exact hv1
    · exact hvE

end Cert.Proof.KI

end
-- ==== Proof.VStepLast.lean ====
import proofs.«204522_g36051955483029_cont_8to1_b_1192_15_alg».proof.Proof.VInv
import proofs.«204522_g36051955483029_cont_8to1_b_1192_15_alg».proof.Proof.VTripLast

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords)

theorem vstep_last (k : Fin k0_t1_loop.trips) (hk : k.val = 15)
    (q : PosShare TreeShare) (X : Buf (Elt F) ((xV).view.loc (thr d L))) (Mc : Buf (Elt F) ((mV).view.loc (thr d L)))
    (O : CellTallies nD τ sig (HIx 1)) (W : Waits sig (HIx 1))
    (gM : Buf (Elt F) ((mall).view.loc (thr d L))) (hgM : MallOf (F := F) L Mc gM) (v3 : BitVec 32) (acc : FVec F S16 .f32) :
    vinv (F := F) d L q X Mc O W gM k.val acc
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => vinv (F := F) d L q X Mc O W gM (k.val + 1) r := by
  have hmod : k.val % 3 = 0 := by omega
  have hp0 : vpipe (F := F) d L q X Mc k.val = vpipeMid0 (F := F) d L q X Mc k.val := by
    unfold vpipe; simp [hmod, show k.val ≠ 0 by omega, show ¬ 16 ≤ k.val by omega]
  have hp1 : vpipe (F := F) d L q X Mc (k.val + 1) = vpipeEnd (F := F) d L X Mc := by
    unfold vpipe; rw [if_neg (by omega), if_pos (by omega)]
  have hx0 : xRest (F := F) d L q X k.val = ((xV).view.loc (thr d L) ↦[(Finset.univ \ (xsl (uo3 L k.val 0) (uo3_inb L k.val 0)).view.set) \ (xsl (uo3 L k.val 512) (uo3_inb L k.val 512)).view.set]{q} X) := by
    unfold xRest; rw [if_pos (by omega)]
  have hx1 : xRest (F := F) d L q X (k.val + 1) = ((xV).view.loc (thr d L) ↦{q} X) := by
    unfold xRest; rw [if_neg (by omega)]
  have hd0 : lentD L k.val = dS L (k.val - 1) 512 := by unfold lentD; rw [if_neg (by omega), if_pos (by omega)]
  have hd1 : lentD L (k.val + 1) = (dS L 14 512 ∪ dS L 15 0) ∪ dS L 15 512 := by unfold lentD; rw [if_neg (by omega), if_neg (by omega)]
  have he0 : lentE L k.val = eS L (k.val - 1) := by unfold lentE; rw [if_neg (by omega)]
  have he1 : lentE L (k.val + 1) = eS L 15 := by unfold lentE; rw [if_neg (by omega), Nat.add_sub_cancel, hk]
  have h14 : k.val - 1 = 14 := by omega
  unfold vinv
  rw [hp0, hp1, hx0, hx1, hd0, hd1, he0, he1]
  unfold vpipeMid0 vpipeEnd
  iintro ⟨#Hmw, ⟨%W', HO, %hW'⟩, Hmall, HX, ⟨%fD, HD, %hDone⟩, ⟨%fE, HE, %hDoneE⟩, %hAcc, ⟨%fA, %fB, %fC, %gm, %fd, %fe, %hP, FA, FB, FC, FM, SA, SB, SC⟩⟩
  obtain ⟨hfA, hfB, hfd, hfe⟩ := hP
  rw [h14] at hfd hfe
  iapply (wp_wand_r Idealize.ShloMosaic.frame (wpE (defs₀ (F := F)) 𝒱₀ (thr d L) none) Set.univ)
  isplitl [HO Hmall HX HD HE FA FB FC FM SA SB SC]
  · iapply (vtrip_last (F := F) d L k hk q O W' v3 acc X gM fA fB fC gm fd fD fe fE Mc hgM hfA hfB)
    isplitr; · iexact Hmw
    isplitl [HO]; · iexact HO
    isplitl [Hmall]; · iexact Hmall
    isplitl [HX]; · iexact HX
    isplitl [HD]; · iexact HD
    isplitl [HE]; · iexact HE
    isplitl [FA]; · iexact FA
    isplitl [FB]; · iexact FB
    isplitl [FC]; · iexact FC
    isplitl [FM]; · iexact FM
    isplitl [SA]; · iexact SA
    isplitl [SB]; · iexact SB
    iexact SC
  · iintro %r ⟨%hr, %W'', HO, %hW'', Hmall, HX, ⟨%fD', HD, %hD'⟩, ⟨%fE', HE, %hE'⟩, ⟨%fA', %fB', %fC', %gm', %fd0, %fd1, %fd2, %fe', %hP', HP⟩⟩
    obtain ⟨hE1, hE2⟩ := hE'
    obtain ⟨h0, h1, h2, h3⟩ := hP'
    isplitr; · iexact Hmw
    isplitl [HO]
    · iexists W''
      isplitl [HO]; · iexact HO
      ipureintro
      intro p hp
      rcases hW'' p hp with h | h
      · exact hW' p h
      · exact .inr h
    isplitl [Hmall]; · iexact Hmall
    isplitl [HX]; · iexact HX
    isplitl [HD]
    · iexists fD'
      isplitl [HD]; · iexact HD
      ipureintro

      unfold DoneD at hDone ⊢
      rw [hD']
      have hm0 : min k.val 15 = 15 := by omega
      have hm1 : min (k.val + 1) 15 = 15 := by omega
      rw [hm0] at hDone
      rw [hm1]
      exact hDone
    isplitl [HE]
    · iexists fE'
      isplitl [HE]; · iexact HE
      ipureintro
      intro j hj hret i hi
      by_cases h2' : j = 14
      · subst h2'
        rw [hE1 i hi]; exact hfe i hi
      · have hn : i ∉ eS L 14 := fun hi' =>
          Finset.disjoint_left.mp (eS_disjoint L hj (by omega) h2') hi hi'
        rw [hE2 i hn]
        exact hDoneE j hj (by omega) i hi
    isplitr
    · ipureintro
      intro l hl
      rw [hr l]
      by_cases hlk : l.val = k.val
      · rw [if_pos hlk, hlk]
      · rw [if_neg hlk]; exact hAcc l (by omega)
    iexists fA', fB', fC', gm', fd0, fd1, fd2, fe'
    isplitr
    · ipureintro
      exact ⟨h0, h1, fun i hi => by rw [h2]; exact hfd i hi, h3⟩
    iexact HP

end Cert.Proof.KI

end
-- ==== Proof.VTripV0.lean ====
import proofs.«204522_g36051955483029_cont_8to1_b_1192_15_alg».proof.Proof.Canon
import proofs.«204522_g36051955483029_cont_8to1_b_1192_15_alg».proof.Proof.VDefs
import proofs.«204522_g36051955483029_cont_8to1_b_1192_15_alg».proof.Proof.VcLemmas
import proofs.«204522_g36051955483029_cont_8to1_b_1192_15_alg».proof.Proof.VbLemmas
import proofs.«204522_g36051955483029_cont_8to1_b_1192_15_alg».proof.Proof.Slices
import proofs.«204522_g36051955483029_cont_8to1_b_1192_15_alg».proof.Proof.ColT6
import proofs.«204522_g36051955483029_cont_8to1_b_1192_15_alg».proof.Proof.ColT7
import proofs.«204522_g36051955483029_cont_8to1_b_1192_15_alg».proof.Proof.ColT6Value
import proofs.«204522_g36051955483029_cont_8to1_b_1192_15_alg».proof.Proof.ColT7Value
import proofs.«204522_g36051955483029_cont_8to1_b_1192_15_alg».proof.Proof.VaLemmas

set_option maxHeartbeats 8000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords)

theorem vtrip_v0 (k : Fin k0_t1_loop.trips) (hc1 : ¬ k0_cond1 k = 1#1) (hpos : 0 < k.val) (hlt : k.val + 1 < 16)
    (q : PosShare TreeShare) (O : CellTallies nD τ sig (HIx 1)) (W : Waits sig (HIx 1)) (v3 : BitVec 32) (acc : FVec F S16 .f32)
    (X : Buf (Elt F) ((xV).view.loc (thr d L))) (gM : Buf (Elt F) ((mall).view.loc (thr d L)))
    (fA : Buf (Elt F) ((b0).view.loc (thr d L))) (fB : Buf (Elt F) ((b1).view.loc (thr d L))) (fC : Buf (Elt F) ((b2).view.loc (thr d L)))
    (gm : Buf (Elt F) ((meanb).view.loc (thr d L))) (fd fD : Buf (Elt F) ((dV).view.loc (thr d L))) (fe fE : Buf (Elt F) ((eV).view.loc (thr d L)))
    (Mc : Buf (Elt F) ((mV).view.loc (thr d L))) (hgM : MallOf (F := F) L Mc gM)
    (hfA : fA = blkU (F := F) X (uT L k.val) 0) (hfB : fB = blkU (F := F) X (uT L k.val) 1) :
    (iprop(Transfers.MayWaits (thr d L) (none : HIx 1) O
        ∗ owes (thr d L) O W
        ∗ ((mall).view.loc (thr d L) ↦[(mall).view.set]{fullShare} gM)
        ∗ ((xV).view.loc (thr d L) ↦[(Finset.univ \ (xsl (uo3 L k.val 0) (uo3_inb L k.val 0)).view.set) \ (xsl (uo3 L k.val 512) (uo3_inb L k.val 512)).view.set]{q} X)
        ∗ ((dV).view.loc (thr d L) ↦[dPart (wid L) \ dS L (k.val - 1) 512]{fullShare} fD)
        ∗ ((eV).view.loc (thr d L) ↦[ePart (wid L) \ eS L (k.val - 1)]{fullShare} fE)
        ∗ Transfers.Flight countersEmb (thr d L) (SemLoc.dma cc0_scratch6.sem) (default : HIx 1) 1048576 iprop(((b0).view.loc (thr d L) ↦[(b0).view.set]{fullShare} fA) ∗ ((xV).view.loc (thr d L) ↦[(xsl (uo3 L k.val 0) (uo3_inb L k.val 0)).view.set]{q} X))
        ∗ Transfers.Flight countersEmb (thr d L) (SemLoc.dma cc0_scratch7.sem) (default : HIx 1) 1048576 iprop(((b1).view.loc (thr d L) ↦[(b1).view.set]{fullShare} fB) ∗ ((xV).view.loc (thr d L) ↦[(xsl (uo3 L k.val 512) (uo3_inb L k.val 512)).view.set]{q} X))
        ∗ Transfers.Flight countersEmb (thr d L) (SemLoc.dma cc0_scratch11.sem) (default : HIx 1) 1048576 iprop(((dsl (uo3 L (k.val - 1) 512) (uo3_inb L (k.val - 1) 512)).view.loc (thr d L) ↦[(dsl (uo3 L (k.val - 1) 512) (uo3_inb L (k.val - 1) 512)).view.set]{fullShare} fd) ∗ ((b2).view.loc (thr d L) ↦[(b2).view.set]{fullShare} fC))
        ∗ Transfers.Flight countersEmb (thr d L) (SemLoc.dma cc0_scratch12.sem) (default : HIx 1) 32768 iprop(((esl (uo2 L (k.val - 1)) (uo2_inb L (k.val - 1))).view.loc (thr d L) ↦[(esl (uo2 L (k.val - 1)) (uo2_inb L (k.val - 1))).view.set]{fullShare} fe) ∗ ((meanb).view.loc (thr d L) ↦[(meanb).view.set]{fullShare} gm))
        ∗ semVal ((thr d L), SemLoc.dma cc0_scratch9.sem) 0
        ∗ semVal ((thr d L), SemLoc.dma cc0_scratch10.sem) 0
        ∗ semVal ((thr d L), SemLoc.dma cc0_scratch8.sem) 0) : sProp 𝕄)
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => iprop(⌜∀ l : Fin 16, r (ix1 l) = if l.val = k.val then Csp (F := F) Mc (ix1 (uT L k.val)) else acc (ix1 l)⌝
            ∗ ∃ W', owes (thr d L) O W' ∗ ⌜∀ p ∈ W', p ∈ W ∨ p.2 = none⌝
                ∗ ((mall).view.loc (thr d L) ↦[(mall).view.set]{fullShare} gM)
            ∗ ((xV).view.loc (thr d L) ↦[(Finset.univ \ (xsl (uo3 L (k.val + 1) 0) (uo3_inb L (k.val + 1) 0)).view.set) \ (xsl (uo3 L (k.val + 1) 512) (uo3_inb L (k.val + 1) 512)).view.set]{q} X)
            ∗ (∃ fD', ((dV).view.loc (thr d L) ↦[dPart (wid L) \ dS L k.val 512]{fullShare} fD')
                ∗ ⌜(∀ i ∈ dS L k.val 0, fD' i = Dsp (F := F) X Mc i) ∧ (∀ i ∈ dS L (k.val - 1) 512, fD' i = fd i)
                    ∧ (∀ i, i ∉ dS L k.val 0 → i ∉ dS L (k.val - 1) 512 → fD' i = fD i)⌝)
            ∗ (∃ fE', ((eV).view.loc (thr d L) ↦[ePart (wid L) \ eS L k.val]{fullShare} fE')
                ∗ ⌜(∀ j ∈ eS L (k.val - 1), fE' j = fe j) ∧ (∀ j, j ∉ eS L (k.val - 1) → fE' j = fE j)⌝)
            ∗ ∃ fA' fB' fC' gm' fd' fe', ⌜fA' = blkU (F := F) X (uT L (k.val + 1)) 0 ∧ fB' = blkU (F := F) X (uT L (k.val + 1)) 1
                ∧ (∀ i ∈ dS L k.val 512, fd' i = Dsp (F := F) X Mc i) ∧ (∀ j ∈ eS L k.val, fe' j = Esp (F := F) X Mc j)⌝ ∗ Transfers.Flight countersEmb (thr d L) (SemLoc.dma cc0_scratch8.sem) (default : HIx 1) 1048576 iprop(((b2).view.loc (thr d L) ↦[(b2).view.set]{fullShare} fA') ∗ ((xV).view.loc (thr d L) ↦[(xsl (uo3 L (k.val + 1) 0) (uo3_inb L (k.val + 1) 0)).view.set]{q} X))
        ∗ Transfers.Flight countersEmb (thr d L) (SemLoc.dma cc0_scratch6.sem) (default : HIx 1) 1048576 iprop(((b0).view.loc (thr d L) ↦[(b0).view.set]{fullShare} fB') ∗ ((xV).view.loc (thr d L) ↦[(xsl (uo3 L (k.val + 1) 512) (uo3_inb L (k.val + 1) 512)).view.set]{q} X))
        ∗ Transfers.Flight countersEmb (thr d L) (SemLoc.dma cc0_scratch10.sem) (default : HIx 1) 1048576 iprop(((dsl (uo3 L k.val 512) (uo3_inb L k.val 512)).view.loc (thr d L) ↦[(dsl (uo3 L k.val 512) (uo3_inb L k.val 512)).view.set]{fullShare} fd') ∗ ((b1).view.loc (thr d L) ↦[(b1).view.set]{fullShare} fC'))
        ∗ Transfers.Flight countersEmb (thr d L) (SemLoc.dma cc0_scratch12.sem) (default : HIx 1) 32768 iprop(((esl (uo2 L k.val) (uo2_inb L k.val)).view.loc (thr d L) ↦[(esl (uo2 L k.val) (uo2_inb L k.val)).view.set]{fullShare} fe') ∗ ((meanb).view.loc (thr d L) ↦[(meanb).view.set]{fullShare} gm'))
        ∗ semVal ((thr d L), SemLoc.dma cc0_scratch11.sem) 0
        ∗ semVal ((thr d L), SemLoc.dma cc0_scratch9.sem) 0
        ∗ semVal ((thr d L), SemLoc.dma cc0_scratch7.sem) 0) := by
  have hc11 : k0_cond11 k = 1#1 := (cond11_iff k).mpr hpos
  have hc12 : k0_cond12 k = 1#1 := (cond12_iff k).mpr hlt
  have hc13 : k0_cond13 k = 1#1 := (cond13_iff k).mpr hpos
  have hc14 : k0_cond14 k = 1#1 := (cond14_iff k).mpr hlt

  have exA : k0_off293 L k = uo3 L k.val 0 := by rw [k0_off293_eq, uo3_of_le L (by omega) (by omega)]; rfl
  have exB : k0_off361 L k = uo3 L k.val 512 := by rw [k0_off361_eq, uo3_of_le L (by omega) (by omega)]; rfl
  have exC : k0_off360 L k = uo3 L (k.val + 1) 0 := by rw [k0_off360_eq, uo3_of_le L (by omega) (by omega)]; rfl
  have exA2 : k0_off428 L k = uo3 L (k.val + 1) 512 := by rw [k0_off428_eq, uo3_of_le L (by omega) (by omega)]; rfl
  have eeO : k0_off429 L k = uo2 L k.val := by rw [k0_off429_eq, uo2_of_le L (by omega)]; rfl
  iintro ⟨#Hmw, HO, Hmall, HX, HD, HE, FA, FB, FC, FM, SA, SB, SC⟩

  have hsub0 : dS L k.val 0 ⊆ dPart (wid L) \ dS L (k.val - 1) 512 :=
    Finset.subset_sdiff.mpr ⟨dS_subset L k.val 0 (.inl rfl), dS_disjoint L (by omega) (by omega) (.inl rfl) (.inr rfl) (.inl (by omega))⟩
  have hsub1 : dS L k.val 512 ⊆ (dPart (wid L) \ dS L (k.val - 1) 512) \ dS L k.val 0 :=
    Finset.subset_sdiff.mpr ⟨Finset.subset_sdiff.mpr ⟨dS_subset L k.val 512 (.inr rfl), dS_disjoint L (by omega) (by omega) (.inr rfl) (.inr rfl) (.inl (by omega))⟩,
      dS_disjoint L (by omega) (by omega) (.inr rfl) (.inl rfl) (.inr (by decide))⟩
  have hsubE : eS L k.val ⊆ ePart (wid L) \ eS L (k.val - 1) :=
    Finset.subset_sdiff.mpr ⟨eS_subset L k.val, eS_disjoint L (by omega) (by omega) (by omega)⟩
  ihave HD' := (pointsTo_split_subset hsub0).1 $$ HD
  icases HD' with ⟨HD0, HD⟩
  ihave HD' := (pointsTo_split_subset hsub1).1 $$ HD
  icases HD' with ⟨HD1, HD⟩
  ihave HE' := (pointsTo_split_subset hsubE).1 $$ HE
  icases HE' with ⟨HE0, HE⟩

  have hs0 : dS L k.val 0 = (dsl (k0_off293 L k) (k0_off293_inb L k hc1)).view.set := dset_congr exA.symm _ _
  have hs1 : dS L k.val 512 = (dsl (k0_off361 L k) (k0_off361_inb L k hc1)).view.set := dset_congr exB.symm _ _
  have hsE : eS L k.val = (esl (k0_off429 L k) (k0_off429_inb L k hc1)).view.set := eset_congr eeO.symm _ _
  have e0 : (((dV).view.loc (thr d L) ↦[dS L k.val 0]{fullShare} fD : sProp 𝕄))
      = ((dsl (k0_off293 L k) (k0_off293_inb L k hc1)).view.loc (thr d L) ↦[(dsl (k0_off293 L k) (k0_off293_inb L k hc1)).view.set]{fullShare} fD) := by
    rw [hs0]
  have e1 : (((dV).view.loc (thr d L) ↦[dS L k.val 512]{fullShare} fD : sProp 𝕄))
      = ((dsl (k0_off361 L k) (k0_off361_inb L k hc1)).view.loc (thr d L) ↦[(dsl (k0_off361 L k) (k0_off361_inb L k hc1)).view.set]{fullShare} fD) := by
    rw [hs1]
  have eE : (((eV).view.loc (thr d L) ↦[eS L k.val]{fullShare} fE : sProp 𝕄))
      = ((esl (k0_off429 L k) (k0_off429_inb L k hc1)).view.loc (thr d L) ↦[(esl (k0_off429 L k) (k0_off429_inb L k hc1)).view.set]{fullShare} fE) := by
    rw [hsE]
  ihave HD0' := (Entails.of_eq e0) $$ HD0
  ihave HD1' := (Entails.of_eq e1) $$ HD1
  ihave HE0' := (Entails.of_eq eE) $$ HE0
  sl_unfold [k0_t1_body]
  sl_exec

  sl_step

  have hMS : msOf (vtrip_v0.sl.v72 d L k hc1 gM) (vtrip_v0.sl.v74 d L k hc1 gM) (vtrip_v0.sl.v76 d L k hc1 gM) (vtrip_v0.sl.v78 d L k hc1 gM) (vtrip_v0.sl.v80 d L k hc1 gM) (vtrip_v0.sl.v82 d L k hc1 gM) (vtrip_v0.sl.v84 d L k hc1 gM) (vtrip_v0.sl.v86 d L k hc1 gM) (vtrip_v0.sl.v88 d L k hc1 gM) (vtrip_v0.sl.v90 d L k hc1 gM) (vtrip_v0.sl.v92 d L k hc1 gM) (vtrip_v0.sl.v94 d L k hc1 gM) (vtrip_v0.sl.v96 d L k hc1 gM) (vtrip_v0.sl.v98 d L k hc1 gM) (vtrip_v0.sl.v100 d L k hc1 gM) (vtrip_v0.sl.v102 d L k hc1 gM) (vtrip_v0.sl.v104 d L k hc1 gM) (vtrip_v0.sl.v106 d L k hc1 gM) (vtrip_v0.sl.v108 d L k hc1 gM) (vtrip_v0.sl.v110 d L k hc1 gM) (vtrip_v0.sl.v112 d L k hc1 gM) (vtrip_v0.sl.v114 d L k hc1 gM) (vtrip_v0.sl.v116 d L k hc1 gM) (vtrip_v0.sl.v118 d L k hc1 gM) (vtrip_v0.sl.v120 d L k hc1 gM) (vtrip_v0.sl.v122 d L k hc1 gM) (vtrip_v0.sl.v124 d L k hc1 gM) (vtrip_v0.sl.v126 d L k hc1 gM) (vtrip_v0.sl.v128 d L k hc1 gM) (vtrip_v0.sl.v130 d L k hc1 gM) (vtrip_v0.sl.v132 d L k hc1 gM) (vtrip_v0.sl.v134 d L k hc1 gM) (vtrip_v0.sl.v136 d L k hc1 gM) (vtrip_v0.sl.v138 d L k hc1 gM) (vtrip_v0.sl.v140 d L k hc1 gM) (vtrip_v0.sl.v142 d L k hc1 gM) (vtrip_v0.sl.v144 d L k hc1 gM) (vtrip_v0.sl.v146 d L k hc1 gM) (vtrip_v0.sl.v148 d L k hc1 gM) (vtrip_v0.sl.v150 d L k hc1 gM) (vtrip_v0.sl.v152 d L k hc1 gM) (vtrip_v0.sl.v154 d L k hc1 gM) (vtrip_v0.sl.v156 d L k hc1 gM) (vtrip_v0.sl.v158 d L k hc1 gM) (vtrip_v0.sl.v160 d L k hc1 gM) (vtrip_v0.sl.v162 d L k hc1 gM) (vtrip_v0.sl.v164 d L k hc1 gM) (vtrip_v0.sl.v166 d L k hc1 gM) (vtrip_v0.sl.v168 d L k hc1 gM) (vtrip_v0.sl.v170 d L k hc1 gM) (vtrip_v0.sl.v172 d L k hc1 gM) (vtrip_v0.sl.r d L k hc1 gM) (vtrip_v0.sl.r_1 d L k hc1 gM) (vtrip_v0.sl.r_2 d L k hc1 gM) (vtrip_v0.sl.r_3 d L k hc1 gM) (vtrip_v0.sl.r_4 d L k hc1 gM) (vtrip_v0.sl.r_5 d L k hc1 gM) (vtrip_v0.sl.r_6 d L k hc1 gM) (vtrip_v0.sl.r_7 d L k hc1 gM) (vtrip_v0.sl.r_8 d L k hc1 gM) (vtrip_v0.sl.r_9 d L k hc1 gM) (vtrip_v0.sl.r_10 d L k hc1 gM) (vtrip_v0.sl.r_11 d L k hc1 gM) (vtrip_v0.sl.r_12 d L k hc1 gM) = msU Mc (uT L k.val) :=
    msOf_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (msU Mc (uT L k.val))
      (lane_of_load L Mc gM hgM k (k0_off288 k) (k0_off288_inb k hc1) shapeCasts_S1x16_S16 0 (k0_off288_eq k) 0 slices_S16_o0_S1 inpos_S1_p0)
      (lane_of_load L Mc gM hgM k (k0_off288 k) (k0_off288_inb k hc1) shapeCasts_S1x16_S16 0 (k0_off288_eq k) 1 slices_S16_o1_S1 inpos_S1_p0)
      (lane_of_load L Mc gM hgM k (k0_off288 k) (k0_off288_inb k hc1) shapeCasts_S1x16_S16 0 (k0_off288_eq k) 2 slices_S16_o2_S1 inpos_S1_p0)
      (lane_of_load L Mc gM hgM k (k0_off288 k) (k0_off288_inb k hc1) shapeCasts_S1x16_S16 0 (k0_off288_eq k) 3 slices_S16_o3_S1 inpos_S1_p0)
      (lane_of_load L Mc gM hgM k (k0_off288 k) (k0_off288_inb k hc1) shapeCasts_S1x16_S16 0 (k0_off288_eq k) 4 slices_S16_o4_S1 inpos_S1_p0)
      (lane_of_load L Mc gM hgM k (k0_off288 k) (k0_off288_inb k hc1) shapeCasts_S1x16_S16 0 (k0_off288_eq k) 5 slices_S16_o5_S1 inpos_S1_p0)
      (lane_of_load L Mc gM hgM k (k0_off288 k) (k0_off288_inb k hc1) shapeCasts_S1x16_S16 0 (k0_off288_eq k) 6 slices_S16_o6_S1 inpos_S1_p0)
      (lane_of_load L Mc gM hgM k (k0_off288 k) (k0_off288_inb k hc1) shapeCasts_S1x16_S16 0 (k0_off288_eq k) 7 slices_S16_o7_S1 inpos_S1_p0)
      (lane_of_load L Mc gM hgM k (k0_off288 k) (k0_off288_inb k hc1) shapeCasts_S1x16_S16 0 (k0_off288_eq k) 8 slices_S16_o8_S1 inpos_S1_p0)
      (lane_of_load L Mc gM hgM k (k0_off288 k) (k0_off288_inb k hc1) shapeCasts_S1x16_S16 0 (k0_off288_eq k) 9 slices_S16_o9_S1 inpos_S1_p0)
      (lane_of_load L Mc gM hgM k (k0_off288 k) (k0_off288_inb k hc1) shapeCasts_S1x16_S16 0 (k0_off288_eq k) 10 slices_S16_o10_S1 inpos_S1_p0)
      (lane_of_load L Mc gM hgM k (k0_off288 k) (k0_off288_inb k hc1) shapeCasts_S1x16_S16 0 (k0_off288_eq k) 11 slices_S16_o11_S1 inpos_S1_p0)
      (lane_of_load L Mc gM hgM k (k0_off288 k) (k0_off288_inb k hc1) shapeCasts_S1x16_S16 0 (k0_off288_eq k) 12 slices_S16_o12_S1 inpos_S1_p0)
      (lane_of_load L Mc gM hgM k (k0_off288 k) (k0_off288_inb k hc1) shapeCasts_S1x16_S16 0 (k0_off288_eq k) 13 slices_S16_o13_S1 inpos_S1_p0)
      (lane_of_load L Mc gM hgM k (k0_off288 k) (k0_off288_inb k hc1) shapeCasts_S1x16_S16 0 (k0_off288_eq k) 14 slices_S16_o14_S1 inpos_S1_p0)
      (lane_of_load L Mc gM hgM k (k0_off288 k) (k0_off288_inb k hc1) shapeCasts_S1x16_S16 0 (k0_off288_eq k) 15 slices_S16_o15_S1 inpos_S1_p0)
      (lane_of_load L Mc gM hgM k (k0_off289 k) (k0_off289_inb k hc1) shapeCasts_S1x16_S16 1 (k0_off289_eq k) 0 slices_S16_o0_S1 inpos_S1_p0)
      (lane_of_load L Mc gM hgM k (k0_off289 k) (k0_off289_inb k hc1) shapeCasts_S1x16_S16 1 (k0_off289_eq k) 1 slices_S16_o1_S1 inpos_S1_p0)
      (lane_of_load L Mc gM hgM k (k0_off289 k) (k0_off289_inb k hc1) shapeCasts_S1x16_S16 1 (k0_off289_eq k) 2 slices_S16_o2_S1 inpos_S1_p0)
      (lane_of_load L Mc gM hgM k (k0_off289 k) (k0_off289_inb k hc1) shapeCasts_S1x16_S16 1 (k0_off289_eq k) 3 slices_S16_o3_S1 inpos_S1_p0)
      (lane_of_load L Mc gM hgM k (k0_off289 k) (k0_off289_inb k hc1) shapeCasts_S1x16_S16 1 (k0_off289_eq k) 4 slices_S16_o4_S1 inpos_S1_p0)
      (lane_of_load L Mc gM hgM k (k0_off289 k) (k0_off289_inb k hc1) shapeCasts_S1x16_S16 1 (k0_off289_eq k) 5 slices_S16_o5_S1 inpos_S1_p0)
      (lane_of_load L Mc gM hgM k (k0_off289 k) (k0_off289_inb k hc1) shapeCasts_S1x16_S16 1 (k0_off289_eq k) 6 slices_S16_o6_S1 inpos_S1_p0)
      (lane_of_load L Mc gM hgM k (k0_off289 k) (k0_off289_inb k hc1) shapeCasts_S1x16_S16 1 (k0_off289_eq k) 7 slices_S16_o7_S1 inpos_S1_p0)
      (lane_of_load L Mc gM hgM k (k0_off289 k) (k0_off289_inb k hc1) shapeCasts_S1x16_S16 1 (k0_off289_eq k) 8 slices_S16_o8_S1 inpos_S1_p0)
      (lane_of_load L Mc gM hgM k (k0_off289 k) (k0_off289_inb k hc1) shapeCasts_S1x16_S16 1 (k0_off289_eq k) 9 slices_S16_o9_S1 inpos_S1_p0)
      (lane_of_load L Mc gM hgM k (k0_off289 k) (k0_off289_inb k hc1) shapeCasts_S1x16_S16 1 (k0_off289_eq k) 10 slices_S16_o10_S1 inpos_S1_p0)
      (lane_of_load L Mc gM hgM k (k0_off289 k) (k0_off289_inb k hc1) shapeCasts_S1x16_S16 1 (k0_off289_eq k) 11 slices_S16_o11_S1 inpos_S1_p0)
      (lane_of_load L Mc gM hgM k (k0_off289 k) (k0_off289_inb k hc1) shapeCasts_S1x16_S16 1 (k0_off289_eq k) 12 slices_S16_o12_S1 inpos_S1_p0)
      (lane_of_load L Mc gM hgM k (k0_off289 k) (k0_off289_inb k hc1) shapeCasts_S1x16_S16 1 (k0_off289_eq k) 13 slices_S16_o13_S1 inpos_S1_p0)
      (lane_of_load L Mc gM hgM k (k0_off289 k) (k0_off289_inb k hc1) shapeCasts_S1x16_S16 1 (k0_off289_eq k) 14 slices_S16_o14_S1 inpos_S1_p0)
      (lane_of_load L Mc gM hgM k (k0_off289 k) (k0_off289_inb k hc1) shapeCasts_S1x16_S16 1 (k0_off289_eq k) 15 slices_S16_o15_S1 inpos_S1_p0)
      (lane_of_load L Mc gM hgM k (k0_off290 k) (k0_off290_inb k hc1) shapeCasts_S1x16_S16 2 (k0_off290_eq k) 0 slices_S16_o0_S1 inpos_S1_p0)
      (lane_of_load L Mc gM hgM k (k0_off290 k) (k0_off290_inb k hc1) shapeCasts_S1x16_S16 2 (k0_off290_eq k) 1 slices_S16_o1_S1 inpos_S1_p0)
      (lane_of_load L Mc gM hgM k (k0_off290 k) (k0_off290_inb k hc1) shapeCasts_S1x16_S16 2 (k0_off290_eq k) 2 slices_S16_o2_S1 inpos_S1_p0)
      (lane_of_load L Mc gM hgM k (k0_off290 k) (k0_off290_inb k hc1) shapeCasts_S1x16_S16 2 (k0_off290_eq k) 3 slices_S16_o3_S1 inpos_S1_p0)
      (lane_of_load L Mc gM hgM k (k0_off290 k) (k0_off290_inb k hc1) shapeCasts_S1x16_S16 2 (k0_off290_eq k) 4 slices_S16_o4_S1 inpos_S1_p0)
      (lane_of_load L Mc gM hgM k (k0_off290 k) (k0_off290_inb k hc1) shapeCasts_S1x16_S16 2 (k0_off290_eq k) 5 slices_S16_o5_S1 inpos_S1_p0)
      (lane_of_load L Mc gM hgM k (k0_off290 k) (k0_off290_inb k hc1) shapeCasts_S1x16_S16 2 (k0_off290_eq k) 6 slices_S16_o6_S1 inpos_S1_p0)
      (lane_of_load L Mc gM hgM k (k0_off290 k) (k0_off290_inb k hc1) shapeCasts_S1x16_S16 2 (k0_off290_eq k) 7 slices_S16_o7_S1 inpos_S1_p0)
      (lane_of_load L Mc gM hgM k (k0_off290 k) (k0_off290_inb k hc1) shapeCasts_S1x16_S16 2 (k0_off290_eq k) 8 slices_S16_o8_S1 inpos_S1_p0)
      (lane_of_load L Mc gM hgM k (k0_off290 k) (k0_off290_inb k hc1) shapeCasts_S1x16_S16 2 (k0_off290_eq k) 9 slices_S16_o9_S1 inpos_S1_p0)
      (lane_of_load L Mc gM hgM k (k0_off290 k) (k0_off290_inb k hc1) shapeCasts_S1x16_S16 2 (k0_off290_eq k) 10 slices_S16_o10_S1 inpos_S1_p0)
      (lane_of_load L Mc gM hgM k (k0_off290 k) (k0_off290_inb k hc1) shapeCasts_S1x16_S16 2 (k0_off290_eq k) 11 slices_S16_o11_S1 inpos_S1_p0)
      (lane_of_load L Mc gM hgM k (k0_off290 k) (k0_off290_inb k hc1) shapeCasts_S1x16_S16 2 (k0_off290_eq k) 12 slices_S16_o12_S1 inpos_S1_p0)
      (lane_of_load L Mc gM hgM k (k0_off290 k) (k0_off290_inb k hc1) shapeCasts_S1x16_S16 2 (k0_off290_eq k) 13 slices_S16_o13_S1 inpos_S1_p0)
      (lane_of_load L Mc gM hgM k (k0_off290 k) (k0_off290_inb k hc1) shapeCasts_S1x16_S16 2 (k0_off290_eq k) 14 slices_S16_o14_S1 inpos_S1_p0)
      (lane_of_load L Mc gM hgM k (k0_off290 k) (k0_off290_inb k hc1) shapeCasts_S1x16_S16 2 (k0_off290_eq k) 15 slices_S16_o15_S1 inpos_S1_p0)
      (lane_of_load L Mc gM hgM k (k0_off291 k) (k0_off291_inb k hc1) shapeCasts_S1x16_S16 3 (k0_off291_eq k) 0 slices_S16_o0_S1 inpos_S1_p0)
      (lane_of_load L Mc gM hgM k (k0_off291 k) (k0_off291_inb k hc1) shapeCasts_S1x16_S16 3 (k0_off291_eq k) 1 slices_S16_o1_S1 inpos_S1_p0)
      (lane_of_load L Mc gM hgM k (k0_off291 k) (k0_off291_inb k hc1) shapeCasts_S1x16_S16 3 (k0_off291_eq k) 2 slices_S16_o2_S1 inpos_S1_p0)
      (lane_of_load L Mc gM hgM k (k0_off291 k) (k0_off291_inb k hc1) shapeCasts_S1x16_S16 3 (k0_off291_eq k) 3 slices_S16_o3_S1 inpos_S1_p0)
      (lane_of_load L Mc gM hgM k (k0_off291 k) (k0_off291_inb k hc1) shapeCasts_S1x16_S16 3 (k0_off291_eq k) 4 slices_S16_o4_S1 inpos_S1_p0)
      (lane_of_load L Mc gM hgM k (k0_off291 k) (k0_off291_inb k hc1) shapeCasts_S1x16_S16 3 (k0_off291_eq k) 5 slices_S16_o5_S1 inpos_S1_p0)
      (lane_of_load L Mc gM hgM k (k0_off291 k) (k0_off291_inb k hc1) shapeCasts_S1x16_S16 3 (k0_off291_eq k) 6 slices_S16_o6_S1 inpos_S1_p0)
      (lane_of_load L Mc gM hgM k (k0_off291 k) (k0_off291_inb k hc1) shapeCasts_S1x16_S16 3 (k0_off291_eq k) 7 slices_S16_o7_S1 inpos_S1_p0)
      (lane_of_load L Mc gM hgM k (k0_off291 k) (k0_off291_inb k hc1) shapeCasts_S1x16_S16 3 (k0_off291_eq k) 8 slices_S16_o8_S1 inpos_S1_p0)
      (lane_of_load L Mc gM hgM k (k0_off291 k) (k0_off291_inb k hc1) shapeCasts_S1x16_S16 3 (k0_off291_eq k) 9 slices_S16_o9_S1 inpos_S1_p0)
      (lane_of_load L Mc gM hgM k (k0_off291 k) (k0_off291_inb k hc1) shapeCasts_S1x16_S16 3 (k0_off291_eq k) 10 slices_S16_o10_S1 inpos_S1_p0)
      (lane_of_load L Mc gM hgM k (k0_off291 k) (k0_off291_inb k hc1) shapeCasts_S1x16_S16 3 (k0_off291_eq k) 11 slices_S16_o11_S1 inpos_S1_p0)
      (lane_of_load L Mc gM hgM k (k0_off291 k) (k0_off291_inb k hc1) shapeCasts_S1x16_S16 3 (k0_off291_eq k) 12 slices_S16_o12_S1 inpos_S1_p0)
      (lane_of_load L Mc gM hgM k (k0_off291 k) (k0_off291_inb k hc1) shapeCasts_S1x16_S16 3 (k0_off291_eq k) 13 slices_S16_o13_S1 inpos_S1_p0)
      (lane_of_load L Mc gM hgM k (k0_off291 k) (k0_off291_inb k hc1) shapeCasts_S1x16_S16 3 (k0_off291_eq k) 14 slices_S16_o14_S1 inpos_S1_p0)
      (lane_of_load L Mc gM hgM k (k0_off291 k) (k0_off291_inb k hc1) shapeCasts_S1x16_S16 3 (k0_off291_eq k) 15 slices_S16_o15_S1 inpos_S1_p0)
  have hcnt : vtrip_v0.sl.r_14 d L k hc1 gM = cntF (msU Mc (uT L k.val)) := by
    rw [← hMS]
    exact pay1807_cnt _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

  have hR6 : k0_pay1808 (vtrip_v0.sl.v144 d L k hc1 gM) (vtrip_v0.sl.v146 d L k hc1 gM) (vtrip_v0.sl.v148 d L k hc1 gM) (vtrip_v0.sl.v150 d L k hc1 gM) (vtrip_v0.sl.v152 d L k hc1 gM) (vtrip_v0.sl.v154 d L k hc1 gM) (vtrip_v0.sl.v156 d L k hc1 gM) (vtrip_v0.sl.v158 d L k hc1 gM) (vtrip_v0.sl.v160 d L k hc1 gM) (vtrip_v0.sl.v162 d L k hc1 gM) (vtrip_v0.sl.v164 d L k hc1 gM) (vtrip_v0.sl.v166 d L k hc1 gM) (vtrip_v0.sl.v168 d L k hc1 gM) (vtrip_v0.sl.v170 d L k hc1 gM) (vtrip_v0.sl.v172 d L k hc1 gM) (vtrip_v0.sl.r d L k hc1 gM) (vtrip_v0.sl.r_1 d L k hc1 gM) (vtrip_v0.sl.r_2 d L k hc1 gM) (vtrip_v0.sl.r_3 d L k hc1 gM) (vtrip_v0.sl.r_4 d L k hc1 gM) (vtrip_v0.sl.r_5 d L k hc1 gM) (vtrip_v0.sl.r_6 d L k hc1 gM) (vtrip_v0.sl.r_7 d L k hc1 gM) (vtrip_v0.sl.r_8 d L k hc1 gM) (vtrip_v0.sl.r_9 d L k hc1 gM) (vtrip_v0.sl.r_10 d L k hc1 gM) (vtrip_v0.sl.r_11 d L k hc1 gM) (vtrip_v0.sl.r_12 d L k hc1 gM) (vtrip_v0.sl.r_13 d L k hc1 gM) = rcpF (msU (F := F) Mc (uT L k.val)) := by
    rw [← hMS]; rfl
  have hR7 : (vtrip_v0.sl.r_15 d L k hc1 gM) = rcpF (msU (F := F) Mc (uT L k.val)) := by
    rw [← hMS]; rfl
  have ht6 : Scf.trips k0_t6_loop.lb k0_t6_loop.ub k0_t6_loop.st = 32 := trips_t6
  have ht7 : Scf.trips k0_t7_loop.lb k0_t7_loop.ub k0_t7_loop.st = 32 := trips_t7
  have hA : vtrip_v0.sl.dma0 d L k hc1 v3 gM fA gm = colDiff (blkU (F := F) X (uT L k.val) 0) (msU (F := F) Mc (uT L k.val)) (rcpF (msU (F := F) Mc (uT L k.val))) := by
    unfold vtrip_v0.sl.dma0
    rw [ReadAs.apply_same, ht6]
    funext y
    rw [buf_read_t6, col_t6_buf, hMS, hR6, hfA]
  have hB : vtrip_v0.sl.dma0_2 d L k hc1 v3 gM fA fB gm = colDiff (blkU (F := F) X (uT L k.val) 1) (msU (F := F) Mc (uT L k.val)) (rcpF (msU (F := F) Mc (uT L k.val))) := by
    unfold vtrip_v0.sl.dma0_2
    rw [ReadAs.apply_same, ht6]
    first | rw [ht7] | skip
    funext y
    rw [buf_read_t7, col_t7_buf, hMS, hR7, hfB]
  have hv0 : ∀ i ∈ dS L k.val 0, ((dsl (k0_off293 L k) (k0_off293_inb L k hc1)).view.writes (Elt F) fD
      [⟨Rect.whole S64x512, vtrip_v0.sl.dma0 d L k hc1 v3 gM fA gm⟩]) i = Dsp (F := F) X Mc i := by
    intro i hi
    obtain ⟨y, hy, hval⟩ := dS_point (F := F) X Mc L k.val (by omega) 0 i hi
    have hemb : (dsl (k0_off293 L k) (k0_off293_inb L k hc1)).view.emb y = i :=
      funext fun a => Fin.ext (by
        rw [emb_dsl]
        have ea := congrFun exA a
        rw [ea]; exact hy a)
    rw [← hemb]
    refine (((View.read_apply _ _).trans (cast_eq _ _)).symm).trans ?_
    rw [View.read_writes_whole, hA, hemb, hval]
  have hv1 : ∀ i ∈ dS L k.val 512, ((dsl (k0_off361 L k) (k0_off361_inb L k hc1)).view.writes (Elt F) fD
      [⟨Rect.whole S64x512, vtrip_v0.sl.dma0_2 d L k hc1 v3 gM fA fB gm⟩]) i = Dsp (F := F) X Mc i := by
    intro i hi
    obtain ⟨y, hy, hval⟩ := dS_point (F := F) X Mc L k.val (by omega) 1 i hi
    have hemb : (dsl (k0_off361 L k) (k0_off361_inb L k hc1)).view.emb y = i :=
      funext fun a => Fin.ext (by
        rw [emb_dsl]
        have ea := congrFun exB a
        rw [ea]; exact hy a)
    rw [← hemb]
    refine (((View.read_apply _ _).trans (cast_eq _ _)).symm).trans ?_
    rw [View.read_writes_whole, hB, hemb, hval]
  have hM : ∀ z : S1024.Idx, vtrip_v0.sl.dma0_4 d L k hc1 v3 gM fA fB gm z
      = colMean (blkU (F := F) X (uT L k.val) (halfOf (z 0))) (msU (F := F) Mc (uT L k.val)) (rcpF (msU (F := F) Mc (uT L k.val))) (colOf (z 0)) := by
    intro z
    have hz : (z 0).val < 1024 := (z 0).isLt
    unfold vtrip_v0.sl.dma0_4
    rw [ReadAs.apply_same, ht6]
    first | rw [ht7] | skip
    show (meanb).view.writes (Elt F) gm (_ ++ _) z = _
    rw [View.writes_append, col_t7_mean_apply]
    by_cases h512 : 512 ≤ (z 0).val
    · rw [if_pos h512, hMS, hR7, hfB]
      have eh : halfOf (z 0) = 1 := Fin.ext (by show (z 0).val / 512 = 1; omega)
      have ec : colOf (z 0) = (⟨(z 0).val - 512, sub512_lt_t7 z⟩ : Fin 512) := Fin.ext (by show (z 0).val % 512 = (z 0).val - 512; omega)
      rw [eh, ec]
    · rw [if_neg h512, col_t6_mean]
      have hlt : (z 0).val < 512 := by omega
      show (if h : (z 0).val < 512 then _ else _) = _
      rw [dif_pos hlt, hMS, hR6, hfA]
      have eh : halfOf (z 0) = 0 := Fin.ext (by show (z 0).val / 512 = 0; omega)
      have ec : colOf (z 0) = (⟨(z 0).val, hlt⟩ : Fin 512) := Fin.ext (by show (z 0).val % 512 = (z 0).val; omega)
      rw [eh, ec]
  have hvE : ∀ j ∈ eS L k.val, ((esl (k0_off429 L k) (k0_off429_inb L k hc1)).view.writes (Elt F) fE
      [⟨Rect.whole S1024, vtrip_v0.sl.dma0_4 d L k hc1 v3 gM fA fB gm⟩]) j = Esp (F := F) X Mc j := by
    intro j hj
    obtain ⟨hy, hval⟩ := eS_point (F := F) X Mc L k.val (by omega) j hj
    have hemb : (esl (k0_off429 L k) (k0_off429_inb L k hc1)).view.emb (ix1 (j 1)) = j :=
      funext fun a => Fin.ext (by
        rw [emb_esl]
        have ea := congrFun eeO a
        rw [ea]; exact hy a)
    rw [← hemb]
    refine (((View.read_apply _ _).trans (cast_eq _ _)).symm).trans ?_
    rw [View.read_writes_whole, hM, hemb, hval]

  have pSC : ∀ g, (iprop(((b2).view.loc (thr d L) ↦[(b2).view.set]{fullShare} g) ∗ ((xV).view.loc (thr d L) ↦[(xsl (k0_off360 L k) (k0_off360_inb L k hc1 hc12)).view.set]{q} X)) : sProp 𝕄)
      = iprop(((b2).view.loc (thr d L) ↦[(b2).view.set]{fullShare} g) ∗ ((xV).view.loc (thr d L) ↦[(xsl (uo3 L (k.val + 1) 0) (uo3_inb L (k.val + 1) 0)).view.set]{q} X)) := fun g => by
    rw [xset_congr exC _ (uo3_inb L (k.val + 1) 0)]
  have pFA : ∀ g, (iprop(((b0).view.loc (thr d L) ↦[(b0).view.set]{fullShare} g) ∗ ((xV).view.loc (thr d L) ↦[(xsl (k0_off428 L k) (k0_off428_inb L k hc1 hc14)).view.set]{q} X)) : sProp 𝕄)
      = iprop(((b0).view.loc (thr d L) ↦[(b0).view.set]{fullShare} g) ∗ ((xV).view.loc (thr d L) ↦[(xsl (uo3 L (k.val + 1) 512) (uo3_inb L (k.val + 1) 512)).view.set]{q} X)) := fun g => by
    rw [xset_congr exA2 _ (uo3_inb L (k.val + 1) 512)]
  have pSB : ∀ g g', (iprop(((dsl (k0_off361 L k) (k0_off361_inb L k hc1)).view.loc (thr d L) ↦[(dsl (k0_off361 L k) (k0_off361_inb L k hc1)).view.set]{fullShare} g) ∗ ((b1).view.loc (thr d L) ↦[(b1).view.set]{fullShare} g')) : sProp 𝕄)
      = iprop(((dsl (uo3 L k.val 512) (uo3_inb L k.val 512)).view.loc (thr d L) ↦[(dsl (uo3 L k.val 512) (uo3_inb L k.val 512)).view.set]{fullShare} g) ∗ ((b1).view.loc (thr d L) ↦[(b1).view.set]{fullShare} g')) := fun g g' => by
    rw [← hs1]
  have pFM : ∀ g g', (iprop(((esl (k0_off429 L k) (k0_off429_inb L k hc1)).view.loc (thr d L) ↦[(esl (k0_off429 L k) (k0_off429_inb L k hc1)).view.set]{fullShare} g) ∗ ((meanb).view.loc (thr d L) ↦[(meanb).view.set]{fullShare} g')) : sProp 𝕄)
      = iprop(((esl (uo2 L k.val) (uo2_inb L k.val)).view.loc (thr d L) ↦[(esl (uo2 L k.val) (uo2_inb L k.val)).view.set]{fullShare} g) ∗ ((meanb).view.loc (thr d L) ↦[(meanb).view.set]{fullShare} g')) := fun g g' => by
    rw [← hsE]
  ihave SC' := (Transfers.Flight_mono countersEmb (thr d L) (Entails.of_eq (pSC _))) $$ SC
  ihave FA' := (Transfers.Flight_mono countersEmb (thr d L) (Entails.of_eq (pFA _))) $$ FA
  ihave SB' := (Transfers.Flight_mono countersEmb (thr d L) (Entails.of_eq (pSB _ _))) $$ SB
  ihave FM' := (Transfers.Flight_mono countersEmb (thr d L) (Entails.of_eq (pFM _ _))) $$ FM

  isplitr
  · ipureintro
    intro l
    rw [pay1818_lane, hcnt]
    rfl

  iexists _
  isplitl [HO]; · iexact HO
  isplitr
  · ipureintro
    intro p hp
    simp only [Finset.mem_insert] at hp
    rcases hp with (rfl | rfl | rfl | rfl | rfl | hp) <;> first | exact .inr rfl | exact .inl hp
  isplitl [Hmall]; · iexact Hmall

  isplitl [HX]
  · have hx : (((xV).view.loc (thr d L) ↦[(Finset.univ \ (xsl (k0_off360 L k) (k0_off360_inb L k hc1 hc12)).view.set) \ (xsl (k0_off428 L k) (k0_off428_inb L k hc1 hc14)).view.set]{q} X : sProp 𝕄))
        = ((xV).view.loc (thr d L) ↦[(Finset.univ \ (xsl (uo3 L (k.val + 1) 0) (uo3_inb L (k.val + 1) 0)).view.set) \ (xsl (uo3 L (k.val + 1) 512) (uo3_inb L (k.val + 1) 512)).view.set]{q} X) := by
      rw [xset_congr exC _ (uo3_inb L (k.val + 1) 0), xset_congr exA2 _ (uo3_inb L (k.val + 1) 512)]
    iapply (Entails.of_eq hx); iexact HX

  isplitl [HD FC_dst HD0']
  · have hb : dS L k.val 0 ⊆ (dPart (wid L) \ dS L (k.val - 1) 512) \ dS L k.val 512 :=
      Finset.subset_sdiff.mpr ⟨hsub0, dS_disjoint L (by omega) (by omega) (.inl rfl) (.inr rfl) (.inr (by decide))⟩
    have ha : dS L (k.val - 1) 512 ⊆ dPart (wid L) \ dS L k.val 512 :=
      Finset.subset_sdiff.mpr ⟨dS_subset L (k.val - 1) 512 (.inr rfl), dS_disjoint L (by omega) (by omega) (.inr rfl) (.inr rfl) (.inl (by omega))⟩
    have hset1 : ((dPart (wid L) \ dS L (k.val - 1) 512) \ dS L k.val 0) \ dS L k.val 512
        = ((dPart (wid L) \ dS L (k.val - 1) 512) \ dS L k.val 512) \ dS L k.val 0 := sdiff_right_comm _ _ _
    have hset2 : (dPart (wid L) \ dS L (k.val - 1) 512) \ dS L k.val 512
        = (dPart (wid L) \ dS L k.val 512) \ dS L (k.val - 1) 512 := sdiff_right_comm _ _ _
    rw [hset1]
    have e0' : ∀ g, (((dsl (k0_off293 L k) (k0_off293_inb L k hc1)).view.loc (thr d L) ↦[(dsl (k0_off293 L k) (k0_off293_inb L k hc1)).view.set]{fullShare} g) : sProp 𝕄) = ((dV).view.loc (thr d L) ↦[dS L k.val 0]{fullShare} g) := fun g => by rw [hs0]
    ihave H0 := (Entails.of_eq (e0' _)) $$ HD0'
    ihave H1 := (pointsTo_join_subset (ℓ := (dV).view.loc (thr d L)) hb) $$ [H0 HD]
    · isplitl [H0]; · iexact H0
      iexact HD
    rw [hset2]
    ihave H2 := (pointsTo_join_subset (ℓ := (dV).view.loc (thr d L)) ha) $$ [FC_dst H1]
    · isplitl [FC_dst]; · iexact FC_dst
      iexact H1
    iexists _
    isplitl [H2]; · iexact H2
    ipureintro
    exact pw_two (dS L k.val 0) (dS L (k.val - 1) 512) _ fd fD
      (dS_disjoint L (by omega) (by omega) (.inl rfl) (.inr rfl) (.inl (by omega))) (Dsp (F := F) X Mc) hv0

  isplitl [HE FM_dst]
  · have ha : eS L (k.val - 1) ⊆ ePart (wid L) \ eS L k.val :=
      Finset.subset_sdiff.mpr ⟨eS_subset L (k.val - 1), eS_disjoint L (by omega) (by omega) (by omega)⟩
    have hset : (ePart (wid L) \ eS L (k.val - 1)) \ eS L k.val = (ePart (wid L) \ eS L k.val) \ eS L (k.val - 1) := sdiff_right_comm _ _ _
    rw [hset]
    ihave H2 := (pointsTo_join_subset (ℓ := (eV).view.loc (thr d L)) ha) $$ [FM_dst HE]
    · isplitl [FM_dst]; · iexact FM_dst
      iexact HE
    iexists _
    isplitl [H2]; · iexact H2
    ipureintro
    exact pw_one (eS L (k.val - 1)) fe fE

  iexists _, _, _, _, _, _
  isplitr
  rotate_left
  isplitl [SC']; · iexact SC'
  isplitl [FA']; · iexact FA'
  isplitl [SB']; · iexact SB'
  isplitl [FM']; · iexact FM'
  isplitl [FC]; · iexact FC
  isplitl [SA]; · iexact SA
  · iexact FB
  · ipureintro
    refine ⟨?_, ?_, ?_, ?_⟩
    · exact (whole_writes_whole _ _ _).trans (read_xsl_uo3 X L (k.val + 1) 0 _ _ exC)
    · exact (View.write_whole_univ (cc0_scratch0 : Ref sig .scVector) _ _).trans (read_xsl_uo3 X L (k.val + 1) 1 _ _ exA2)
    · exact hv1
    · exact hvE

end Cert.Proof.KI

end
-- ==== Proof.VStepV0.lean ====
import proofs.«204522_g36051955483029_cont_8to1_b_1192_15_alg».proof.Proof.VInv
import proofs.«204522_g36051955483029_cont_8to1_b_1192_15_alg».proof.Proof.VTripV0

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords)

theorem vstep_v0 (k : Fin k0_t1_loop.trips) (hc1 : ¬ k0_cond1 k = 1#1) (hpos : 0 < k.val) (hlt : k.val + 1 < 16)
    (q : PosShare TreeShare) (X : Buf (Elt F) ((xV).view.loc (thr d L))) (Mc : Buf (Elt F) ((mV).view.loc (thr d L)))
    (O : CellTallies nD τ sig (HIx 1)) (W : Waits sig (HIx 1))
    (gM : Buf (Elt F) ((mall).view.loc (thr d L))) (hgM : MallOf (F := F) L Mc gM) (v3 : BitVec 32) (acc : FVec F S16 .f32) :
    vinv (F := F) d L q X Mc O W gM k.val acc
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => vinv (F := F) d L q X Mc O W gM (k.val + 1) r := by
  have hmod : k.val % 3 = 0 := (not_cond1_iff k).mp hc1
  have hmod' : (k.val + 1) % 3 = 1 := by omega
  have hp0 : vpipe (F := F) d L q X Mc k.val = vpipeMid0 (F := F) d L q X Mc k.val := by
    unfold vpipe; simp [hmod, show k.val ≠ 0 by omega, show ¬ 16 ≤ k.val by omega]
  have hp1 : vpipe (F := F) d L q X Mc (k.val + 1) = vpipeMid1 (F := F) d L q X Mc (k.val + 1) := by
    unfold vpipe; simp [hmod', show ¬ 16 ≤ k.val + 1 by omega]
  have hx0 : xRest (F := F) d L q X k.val = ((xV).view.loc (thr d L) ↦[(Finset.univ \ (xsl (uo3 L k.val 0) (uo3_inb L k.val 0)).view.set) \ (xsl (uo3 L k.val 512) (uo3_inb L k.val 512)).view.set]{q} X) := by
    unfold xRest; rw [if_pos (by omega)]
  have hx1 : xRest (F := F) d L q X (k.val + 1) = ((xV).view.loc (thr d L) ↦[(Finset.univ \ (xsl (uo3 L (k.val + 1) 0) (uo3_inb L (k.val + 1) 0)).view.set) \ (xsl (uo3 L (k.val + 1) 512) (uo3_inb L (k.val + 1) 512)).view.set]{q} X) := by
    unfold xRest; rw [if_pos (by omega)]
  have hd0 : lentD L k.val = dS L (k.val - 1) 512 := by unfold lentD; rw [if_neg (by omega), if_pos (by omega)]
  have hd1 : lentD L (k.val + 1) = dS L k.val 512 := by unfold lentD; rw [if_neg (by omega), if_pos (by omega)]; rfl
  have he0 : lentE L k.val = eS L (k.val - 1) := by unfold lentE; rw [if_neg (by omega)]
  have he1 : lentE L (k.val + 1) = eS L k.val := by unfold lentE; rw [if_neg (by omega)]; rfl
  have hm0 : min k.val 15 = k.val := Nat.min_eq_left (by omega)
  have hm1 : min (k.val + 1) 15 = k.val + 1 := Nat.min_eq_left (by omega)
  unfold vinv
  rw [hp0, hp1, hx0, hx1, hd0, hd1, he0, he1]
  unfold vpipeMid0 vpipeMid1
  simp only [Nat.add_sub_cancel]
  iintro ⟨#Hmw, ⟨%W', HO, %hW'⟩, Hmall, HX, ⟨%fD, HD, %hDone⟩, ⟨%fE, HE, %hDoneE⟩, %hAcc, ⟨%fA, %fB, %fC, %gm, %fd, %fe, %hP, FA, FB, FC, FM, SA, SB, SC⟩⟩
  obtain ⟨hfA, hfB, hfd, hfe⟩ := hP
  iapply (wp_wand_r Idealize.ShloMosaic.frame (wpE (defs₀ (F := F)) 𝒱₀ (thr d L) none) Set.univ)
  isplitl [HO Hmall HX HD HE FA FB FC FM SA SB SC]
  · iapply (vtrip_v0 (F := F) d L k hc1 hpos hlt q O W' v3 acc X gM fA fB fC gm fd fD fe fE Mc hgM hfA hfB)
    isplitr; · iexact Hmw
    isplitl [HO]; · iexact HO
    isplitl [Hmall]; · iexact Hmall
    isplitl [HX]; · iexact HX
    isplitl [HD]; · iexact HD
    isplitl [HE]; · iexact HE
    isplitl [FA]; · iexact FA
    isplitl [FB]; · iexact FB
    isplitl [FC]; · iexact FC
    isplitl [FM]; · iexact FM
    isplitl [SA]; · iexact SA
    isplitl [SB]; · iexact SB
    iexact SC
  · iintro %r ⟨%hr, %W'', HO, %hW'', Hmall, HX, ⟨%fD', HD, %hD'⟩, ⟨%fE', HE, %hE'⟩, ⟨%fA', %fB', %fC', %gm', %fd', %fe', %hP', HP⟩⟩
    obtain ⟨hD1, hD2, hD3⟩ := hD'
    obtain ⟨hE1, hE2⟩ := hE'
    isplitr; · iexact Hmw
    isplitl [HO]
    · iexists W''
      isplitl [HO]; · iexact HO
      ipureintro
      intro p hp
      rcases hW'' p hp with h | h
      · exact hW' p h
      · exact .inr h
    isplitl [Hmall]; · iexact Hmall
    isplitl [HX]; · iexact HX
    isplitl [HD]
    · iexists fD'
      isplitl [HD]; · iexact HD
      ipureintro
      unfold DoneD at hDone ⊢
      rw [hm0] at hDone
      rw [hm1]
      intro j c hj hc hret i hi
      by_cases h1 : j = k.val ∧ c = 0
      · obtain ⟨rfl, rfl⟩ := h1; exact hD1 i hi
      by_cases h2 : j + 1 = k.val ∧ c = 512
      · obtain ⟨hj2, rfl⟩ := h2
        have hjj : j = k.val - 1 := by omega
        subst hjj
        rw [hD2 i hi]; exact hfd i hi
      · have hn1 : i ∉ dS L k.val 0 := fun hi' =>
          Finset.disjoint_left.mp (dS_disjoint L hj (by omega) hc (.inl rfl) (by
            by_contra hcon; simp only [not_or, ne_eq, not_not] at hcon; exact h1 ⟨hcon.1, hcon.2⟩)) hi hi'
        have hn2 : i ∉ dS L (k.val - 1) 512 := fun hi' =>
          Finset.disjoint_left.mp (dS_disjoint L hj (by omega) hc (.inr rfl) (by
            by_contra hcon; simp only [not_or, ne_eq, not_not] at hcon; exact h2 ⟨by omega, hcon.2⟩)) hi hi'
        rw [hD3 i hn1 hn2]
        refine hDone j c hj hc ?_ i hi
        rcases hret with h | ⟨h, hc0⟩
        · rcases Nat.lt_or_ge (j + 1) k.val with h' | h'
          · exact .inl h'
          · have : j + 1 = k.val ∨ j = k.val := by omega
            rcases this with h'' | h''
            · rcases hc with rfl | rfl
              · exact .inr ⟨h'', rfl⟩
              · exact absurd ⟨h'', rfl⟩ h2
            · omega
        · exact absurd ⟨by omega, hc0⟩ h1
    isplitl [HE]
    · iexists fE'
      isplitl [HE]; · iexact HE
      ipureintro
      intro j hj hret i hi
      by_cases h2 : j + 1 = k.val
      · have hjj : j = k.val - 1 := by omega
        subst hjj
        rw [hE1 i hi]; exact hfe i hi
      · have hn : i ∉ eS L (k.val - 1) := fun hi' =>
          Finset.disjoint_left.mp (eS_disjoint L hj (by omega) (by omega)) hi hi'
        rw [hE2 i hn]
        exact hDoneE j hj (by omega) i hi
    isplitr
    · ipureintro
      intro l hl
      rw [hr l]
      by_cases hlk : l.val = k.val
      · rw [if_pos hlk, hlk]
      · rw [if_neg hlk]; exact hAcc l (by omega)
    iexists fA', fB', fC', gm', fd', fe'
    isplitr
    · ipureintro; exact hP'
    iexact HP

end Cert.Proof.KI

end
-- ==== Proof.VbLemmas2.lean ====
import proofs.«204522_g36051955483029_cont_8to1_b_1192_15_alg».proof.Proof.VbLemmas

set_option maxRecDepth 65536
set_option maxHeartbeats 4000000

noncomputable section

namespace Cert.Proof.KI

open Cert.KernelIdeal Cert.KernelIdeal.Gen
open Idealize.ShloMosaic Idealize.ShloMosaic.ValueIdx

variable {F : FTy → Type} [FloatOps F]

theorem pay1204_cnt (s0 : F .f32) (s1 : F .f32) (s2 : F .f32) (s3 : F .f32) (s4 : F .f32) (s5 : F .f32) (s6 : F .f32) (s7 : F .f32) (s8 : F .f32) (s9 : F .f32) (s10 : F .f32) (s11 : F .f32) (s12 : F .f32) (s13 : F .f32) (s14 : F .f32) (s15 : F .f32) (s16 : F .f32) (s17 : F .f32) (s18 : F .f32) (s19 : F .f32) (s20 : F .f32) (s21 : F .f32) (s22 : F .f32) (s23 : F .f32) (s24 : F .f32) (s25 : F .f32) (s26 : F .f32) (s27 : F .f32) (s28 : F .f32) (s29 : F .f32) (s30 : F .f32) (s31 : F .f32) (s32 : F .f32) (s33 : F .f32) (s34 : F .f32) (s35 : F .f32) (s36 : F .f32) (s37 : F .f32) (s38 : F .f32) (s39 : F .f32) (s40 : F .f32) (s41 : F .f32) (s42 : F .f32) (s43 : F .f32) (s44 : F .f32) (s45 : F .f32) (s46 : F .f32) (s47 : F .f32) (s48 : F .f32) (s49 : F .f32) (s50 : F .f32) (s51 : F .f32) (s52 : F .f32) (s53 : F .f32) (s54 : F .f32) (s55 : F .f32) (s56 : F .f32) (s57 : F .f32) (s58 : F .f32) (s59 : F .f32) (s60 : F .f32) (s61 : F .f32) (s62 : F .f32) (s63 : F .f32) : k0_pay1204 s36 s37 s38 s39 s40 s41 s42 s43 s44 s45 s46 s47 s48 s49 s50 s51 s52 s53 s54 s55 s56 s57 s58 s59 s60 s61 s62 s63 (k0_pay1203 s0 s1 s2 s3 s4 s5 s6 s7 s8 s9 s10 s11 s12 s13 s14 s15 s16 s17 s18 s19 s20 s21 s22 s23 s24 s25 s26 s27 s28 s29 s30 s31 s32 s33 s34 s35) = cntF (msOf s0 s1 s2 s3 s4 s5 s6 s7 s8 s9 s10 s11 s12 s13 s14 s15 s16 s17 s18 s19 s20 s21 s22 s23 s24 s25 s26 s27 s28 s29 s30 s31 s32 s33 s34 s35 s36 s37 s38 s39 s40 s41 s42 s43 s44 s45 s46 s47 s48 s49 s50 s51 s52 s53 s54 s55 s56 s57 s58 s59 s60 s61 s62 s63) := rfl
theorem pay601_cnt (s0 : F .f32) (s1 : F .f32) (s2 : F .f32) (s3 : F .f32) (s4 : F .f32) (s5 : F .f32) (s6 : F .f32) (s7 : F .f32) (s8 : F .f32) (s9 : F .f32) (s10 : F .f32) (s11 : F .f32) (s12 : F .f32) (s13 : F .f32) (s14 : F .f32) (s15 : F .f32) (s16 : F .f32) (s17 : F .f32) (s18 : F .f32) (s19 : F .f32) (s20 : F .f32) (s21 : F .f32) (s22 : F .f32) (s23 : F .f32) (s24 : F .f32) (s25 : F .f32) (s26 : F .f32) (s27 : F .f32) (s28 : F .f32) (s29 : F .f32) (s30 : F .f32) (s31 : F .f32) (s32 : F .f32) (s33 : F .f32) (s34 : F .f32) (s35 : F .f32) (s36 : F .f32) (s37 : F .f32) (s38 : F .f32) (s39 : F .f32) (s40 : F .f32) (s41 : F .f32) (s42 : F .f32) (s43 : F .f32) (s44 : F .f32) (s45 : F .f32) (s46 : F .f32) (s47 : F .f32) (s48 : F .f32) (s49 : F .f32) (s50 : F .f32) (s51 : F .f32) (s52 : F .f32) (s53 : F .f32) (s54 : F .f32) (s55 : F .f32) (s56 : F .f32) (s57 : F .f32) (s58 : F .f32) (s59 : F .f32) (s60 : F .f32) (s61 : F .f32) (s62 : F .f32) (s63 : F .f32) : k0_pay601 s36 s37 s38 s39 s40 s41 s42 s43 s44 s45 s46 s47 s48 s49 s50 s51 s52 s53 s54 s55 s56 s57 s58 s59 s60 s61 s62 s63 (k0_pay600 s0 s1 s2 s3 s4 s5 s6 s7 s8 s9 s10 s11 s12 s13 s14 s15 s16 s17 s18 s19 s20 s21 s22 s23 s24 s25 s26 s27 s28 s29 s30 s31 s32 s33 s34 s35) = cntF (msOf s0 s1 s2 s3 s4 s5 s6 s7 s8 s9 s10 s11 s12 s13 s14 s15 s16 s17 s18 s19 s20 s21 s22 s23 s24 s25 s26 s27 s28 s29 s30 s31 s32 s33 s34 s35 s36 s37 s38 s39 s40 s41 s42 s43 s44 s45 s46 s47 s48 s49 s50 s51 s52 s53 s54 s55 s56 s57 s58 s59 s60 s61 s62 s63) := rfl

end Cert.Proof.KI

end
-- ==== Proof.ColT4.lean ====
import proofs.«204522_g36051955483029_cont_8to1_b_1192_15_alg».proof.Proof.ColLoop

set_option maxRecDepth 8192
set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords) (k0_t1 : Fin k0_t1_loop.trips) (arg20 : BitVec 32) (k0_h1 : k0_cond1 k0_t1 = 1#1) (k0_h2 : ¬(k0_cond2 k0_t1 = 1#1)) (v61 : BitVec 32) (v75 : F .f32) (v77 : F .f32) (v79 : F .f32) (v81 : F .f32) (v83 : F .f32) (v85 : F .f32) (v87 : F .f32) (v89 : F .f32) (v91 : F .f32) (v93 : F .f32) (v95 : F .f32) (v97 : F .f32) (v99 : F .f32) (v101 : F .f32) (v103 : F .f32) (v105 : F .f32) (v107 : F .f32) (v109 : F .f32) (v111 : F .f32) (v113 : F .f32) (v115 : F .f32) (v117 : F .f32) (v119 : F .f32) (v121 : F .f32) (v123 : F .f32) (v125 : F .f32) (v127 : F .f32) (v129 : F .f32) (v131 : F .f32) (v133 : F .f32) (v135 : F .f32) (v137 : F .f32) (v139 : F .f32) (v141 : F .f32) (v143 : F .f32) (v145 : F .f32) (v147 : F .f32) (v149 : F .f32) (v151 : F .f32) (v153 : F .f32) (v155 : F .f32) (v157 : F .f32) (v159 : F .f32) (v161 : F .f32) (v163 : F .f32) (v165 : F .f32) (v167 : F .f32) (v169 : F .f32) (v171 : F .f32) (v173 : F .f32) (v175 : F .f32) (v177 : F .f32) (v179 : F .f32) (v181 : F .f32) (v183 : F .f32) (v185 : F .f32) (v187 : F .f32) (v189 : F .f32) (v191 : F .f32) (v193 : F .f32) (v195 : F .f32) (v197 : F .f32) (v199 : F .f32) (v201 : F .f32) (v236 : F .f32)

/-- One trip of the loop `k0_t4_loop` at a symbolic trip number. -/
@[irreducible] def trip_t4 (k : Fin k0_t4_loop.trips) :
    TripSpec (F := F) d L (b2) (k0_t4_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236 k ()) := by
  have hk : k.val < 32 := Nat.lt_of_lt_of_le k.isLt k0_t4_abs.2.1
  refine ⟨?_, ?_, fun fb fm => ?run⟩
  case run =>
    unfold k0_t4_body
    iintro ⟨HB, HM⟩
    sl_exec
    sl_step
    sl_close

set_option warn.classDefReducibility false in
/-- The loop's invariant instance. -/
@[sl_loop] def loopInv_t4 (Gb : BufTy.Contents (Elt F) (b2).view.ty) (Gm : BufTy.Contents (Elt F) (meanb).view.ty) :
    Idealize.ShloMosaic.LoopInv (M := MT nD τ sig (HIx 1) (Elt F) ℕ UU ℕ) Idealize.ShloMosaic.frame (wpE (defs₀ (F := F)) 𝒱₀ (thr d L) none) Set.univ
      k0_t4_loop.lb k0_t4_loop.ub k0_t4_loop.st (k0_t4_ok k0_t1 k0_h1 k0_h2) ()
      (k0_t4_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) :=
  colLoop (F := F) d L (b2) (trip_t4 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) Gb Gm

end Cert.Proof.KI

end
-- ==== Proof.ColT5.lean ====
import proofs.«204522_g36051955483029_cont_8to1_b_1192_15_alg».proof.Proof.ColLoop

set_option maxRecDepth 8192
set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords) (k0_t1 : Fin k0_t1_loop.trips) (k0_h1 : k0_cond1 k0_t1 = 1#1) (k0_h2 : ¬k0_cond2 k0_t1 = 1#1) (v75 : F .f32) (v77 : F .f32) (v79 : F .f32) (v81 : F .f32) (v83 : F .f32) (v85 : F .f32) (v87 : F .f32) (v89 : F .f32) (v91 : F .f32) (v93 : F .f32) (v95 : F .f32) (v97 : F .f32) (v99 : F .f32) (v101 : F .f32) (v103 : F .f32) (v105 : F .f32) (v107 : F .f32) (v109 : F .f32) (v111 : F .f32) (v113 : F .f32) (v115 : F .f32) (v117 : F .f32) (v119 : F .f32) (v121 : F .f32) (v123 : F .f32) (v125 : F .f32) (v127 : F .f32) (v129 : F .f32) (v131 : F .f32) (v133 : F .f32) (v135 : F .f32) (v137 : F .f32) (v139 : F .f32) (v141 : F .f32) (v143 : F .f32) (v145 : F .f32) (v147 : F .f32) (v149 : F .f32) (v151 : F .f32) (v153 : F .f32) (v155 : F .f32) (v157 : F .f32) (v159 : F .f32) (v161 : F .f32) (v163 : F .f32) (v165 : F .f32) (v167 : F .f32) (v169 : F .f32) (v171 : F .f32) (v173 : F .f32) (v175 : F .f32) (v177 : F .f32) (v179 : F .f32) (v181 : F .f32) (v183 : F .f32) (v185 : F .f32) (v187 : F .f32) (v189 : F .f32) (v191 : F .f32) (v193 : F .f32) (v195 : F .f32) (v197 : F .f32) (v199 : F .f32) (v201 : F .f32) (v269 : FVec F S16 .f32)

/-- One trip of the loop `k0_t5_loop` at a symbolic trip number. -/
@[irreducible] def trip_t5 (k : Fin k0_t5_loop.trips) :
    TripSpec (F := F) d L (b0) (k0_t5_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269 k ()) := by
  have hk : k.val < 32 := Nat.lt_of_lt_of_le k.isLt k0_t5_abs.2.1
  refine ⟨?_, ?_, fun fb fm => ?run⟩
  case run =>
    unfold k0_t5_body
    iintro ⟨HB, HM⟩
    sl_exec
    sl_step
    sl_close

set_option warn.classDefReducibility false in
/-- The loop's invariant instance. -/
@[sl_loop] def loopInv_t5 (Gb : BufTy.Contents (Elt F) (b0).view.ty) (Gm : BufTy.Contents (Elt F) (meanb).view.ty) :
    Idealize.ShloMosaic.LoopInv (M := MT nD τ sig (HIx 1) (Elt F) ℕ UU ℕ) Idealize.ShloMosaic.frame (wpE (defs₀ (F := F)) 𝒱₀ (thr d L) none) Set.univ
      k0_t5_loop.lb k0_t5_loop.ub k0_t5_loop.st (k0_t5_ok k0_t1 k0_h1 k0_h2) ()
      (k0_t5_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) :=
  colLoop (F := F) d L (b0) (trip_t5 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) Gb Gm

end Cert.Proof.KI

end
-- ==== Proof.ColT4Value.lean ====
import proofs.«204522_g36051955483029_cont_8to1_b_1192_15_alg».proof.Proof.ColT4
import proofs.«204522_g36051955483029_cont_8to1_b_1192_15_alg».proof.Proof.ColValue

set_option maxRecDepth 65536
set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.ValueIdx

local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "meanb" => (Memref.whole Cert.KernelIdeal.cc0_scratch4 : Memref Cert.KernelIdeal.sig Kind.scVector Space.vmem Cert.KernelIdeal.S1024 EltTy.f32)

variable (d : Dev nD) (L : grid0.Coords) (k0_t1 : Fin k0_t1_loop.trips) (arg20 : BitVec 32) (k0_h1 : k0_cond1 k0_t1 = 1#1) (k0_h2 : ¬(k0_cond2 k0_t1 = 1#1)) (v61 : BitVec 32) (v75 : F .f32) (v77 : F .f32) (v79 : F .f32) (v81 : F .f32) (v83 : F .f32) (v85 : F .f32) (v87 : F .f32) (v89 : F .f32) (v91 : F .f32) (v93 : F .f32) (v95 : F .f32) (v97 : F .f32) (v99 : F .f32) (v101 : F .f32) (v103 : F .f32) (v105 : F .f32) (v107 : F .f32) (v109 : F .f32) (v111 : F .f32) (v113 : F .f32) (v115 : F .f32) (v117 : F .f32) (v119 : F .f32) (v121 : F .f32) (v123 : F .f32) (v125 : F .f32) (v127 : F .f32) (v129 : F .f32) (v131 : F .f32) (v133 : F .f32) (v135 : F .f32) (v137 : F .f32) (v139 : F .f32) (v141 : F .f32) (v143 : F .f32) (v145 : F .f32) (v147 : F .f32) (v149 : F .f32) (v151 : F .f32) (v153 : F .f32) (v155 : F .f32) (v157 : F .f32) (v159 : F .f32) (v161 : F .f32) (v163 : F .f32) (v165 : F .f32) (v167 : F .f32) (v169 : F .f32) (v171 : F .f32) (v173 : F .f32) (v175 : F .f32) (v177 : F .f32) (v179 : F .f32) (v181 : F .f32) (v183 : F .f32) (v185 : F .f32) (v187 : F .f32) (v189 : F .f32) (v191 : F .f32) (v193 : F .f32) (v195 : F .f32) (v197 : F .f32) (v199 : F .f32) (v201 : F .f32) (v236 : F .f32)

theorem trips_t4 : k0_t4_loop.trips = 32 := by decide

theorem buf_read_t4 (f : BufTy.Contents (Elt F) (b2).view.ty) (y : S64x512.Idx) : (b2).view.read (Elt F) f y = f y := rfl

/-- The first column of trip `k`, through the program's own offset function. -/
abbrev c_t4 (k : Fin k0_t4_loop.trips) : ℕ := k0_off215 k 1

theorem colOff_t4 (k : Fin k0_t4_loop.trips) : c_t4 k = 16 * k.val := by
  show k0_off215 k 1 = _
  rw [k0_off215_eq]; rfl

/-- The first sixty-four pieces the run lists are the masked-row tiles. -/
theorem hb64_eq_t4 (k : Fin k0_t4_loop.trips) (fb : BufTy.Contents (Elt F) (b2).view.ty) :
    trip_t4.sl.HB_64 (F := F) k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 k fb = phase1 (F := F) c_t4 trips_t4 colOff_t4 k (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b2) c_t4 trips_t4 colOff_t4 k fb)) := by
  sl_kernel_rfl

/-- The run's name for the mean vector is `mcV` of the masked rows. -/
theorem r63_eq_t4 (k : Fin k0_t4_loop.trips) (fb : BufTy.Contents (Elt F) (b2).view.ty) :
    trip_t4.sl.r_63 (F := F) k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236 k fb = mcV (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b2) c_t4 trips_t4 colOff_t4 k fb)) (k0_pay1205 v147 v149 v151 v153 v155 v157 v159 v161 v163 v165 v167 v169 v171 v173 v175 v177 v179 v181 v183 v185 v187 v189 v191 v193 v195 v197 v199 v201 v236) := by
  sl_kernel_rfl

unseal trip_t4 in
/-- The trip's list for the mean buffer is one store of the mean vector. -/
theorem tripLm_eq_t4 (k : Fin k0_t4_loop.trips) (fb : BufTy.Contents (Elt F) (b2).view.ty) (fm : BufTy.Contents (Elt F) (meanb).view.ty) :
    ((trip_t4 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) k).2.1 fb fm
      = [⟨Rect.unit (s := S1024) (k0_off216 k) S16.size (k0_off216_inb k0_t1 k k0_h1 k0_h2), shapeCast S16 (mcV (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b2) c_t4 trips_t4 colOff_t4 k fb)) (k0_pay1205 v147 v149 v151 v153 v155 v157 v159 v161 v163 v165 v167 v169 v171 v173 v175 v177 v179 v181 v183 v185 v187 v189 v191 v193 v195 v197 v199 v201 v236)) shapeCasts_S16_S16⟩] := by
  sl_kernel_rfl

unseal trip_t4 in
/-- The sixty-four second-pass stores are peeled off one at a time down to the opening tiles. -/
theorem inv_trip_t4 (k : Fin k0_t4_loop.trips) (fb : BufTy.Contents (Elt F) (b2).view.ty) (fm : BufTy.Contents (Elt F) (meanb).view.ty) :
    ColInv (F := F) (b2) k (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b2) c_t4 trips_t4 colOff_t4 k fb)) (mcV (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b2) c_t4 trips_t4 colOff_t4 k fb)) (k0_pay1205 v147 v149 v151 v153 v155 v157 v159 v161 v163 v165 v167 v169 v171 v173 v175 v177 v179 v181 v183 v185 v187 v189 v191 v193 v195 v197 v199 v201 v236)) 64 (((trip_t4 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) k).1 fb fm) := by
  rw [← r63_eq_t4 (F := F) k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236 k fb]
  unfold trip_t4
  dsimp only
  iterate 64 (refine colInv_step (b2) c_t4 trips_t4 colOff_t4 k _ _ _ (by omega) _ _ _ _ rfl rfl ?_)
  rw [hb64_eq_t4 (F := F) k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 k fb]
  exact colInv_phase1 (b2) c_t4 trips_t4 colOff_t4 k _ _

/-- The staging buffer after the loop. -/
theorem col_t4_buf (Gb : BufTy.Contents (Elt F) (b2).view.ty) (Gm : BufTy.Contents (Elt F) (meanb).view.ty) :
    (b2).view.writes (Elt F) Gb (pb (F := F) d L (b2) (trip_t4 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) Gb Gm 32).1 = colDiff Gb (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (k0_pay1205 v147 v149 v151 v153 v155 v157 v159 v161 v163 v165 v167 v169 v171 v173 v175 v177 v179 v181 v183 v185 v187 v189 v191 v193 v195 v197 v199 v201 v236) :=
  funext fun y => (col_buf d L (b2) c_t4 trips_t4 colOff_t4 (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (k0_pay1205 v147 v149 v151 v153 v155 v157 v159 v161 v163 v165 v167 v169 v171 v173 v175 v177 v179 v181 v183 v185 v187 v189 v191 v193 v195 v197 v199 v201 v236) (trip_t4 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) Gb Gm (inv_trip_t4 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) y).trans
    (colDiff_congr _ _ _ _ y fun _ => rfl)

/-- The mean buffer after the loop: its first 512 entries are the column means. -/
theorem col_t4_mean (Gb : BufTy.Contents (Elt F) (b2).view.ty) (Gm : BufTy.Contents (Elt F) (meanb).view.ty) :
    (meanb).view.writes (Elt F) Gm (pb (F := F) d L (b2) (trip_t4 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) Gb Gm 32).2
      = fun j => if h : (j 0).val < 512 then colMean Gb (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (k0_pay1205 v147 v149 v151 v153 v155 v157 v159 v161 v163 v165 v167 v169 v171 v173 v175 v177 v179 v181 v183 v185 v187 v189 v191 v193 v195 v197 v199 v201 v236) ⟨(j 0).val, h⟩ else Gm j :=
  funext fun j => by
    rw [mean_read d L (b2) c_t4 trips_t4 colOff_t4 (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (k0_pay1205 v147 v149 v151 v153 v155 v157 v159 v161 v163 v165 v167 v169 v171 v173 v175 v177 v179 v181 v183 v185 v187 v189 v191 v193 v195 v197 v199 v201 v236) (trip_t4 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) Gb Gm (inv_trip_t4 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) 0 (Or.inl rfl) k0_off216 k0_off216_eq (fun k => k0_off216_inb k0_t1 k k0_h1 k0_h2) (tripLm_eq_t4 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) 32 le_rfl j]
    by_cases h : (j 0).val < 512
    · rw [if_pos (by omega), dif_pos h, colMeanN_of_lt _ _ _ (show (j 0).val - 0 < 512 from h)]
      exact colMean_congr _ _ _ _ _ fun _ => rfl
    · rw [if_neg (by omega), dif_neg h]

end Cert.Proof.KI

end
-- ==== Proof.ColT5Value.lean ====
import proofs.«204522_g36051955483029_cont_8to1_b_1192_15_alg».proof.Proof.ColT5
import proofs.«204522_g36051955483029_cont_8to1_b_1192_15_alg».proof.Proof.ColValue

set_option maxRecDepth 65536
set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.ValueIdx

local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "meanb" => (Memref.whole Cert.KernelIdeal.cc0_scratch4 : Memref Cert.KernelIdeal.sig Kind.scVector Space.vmem Cert.KernelIdeal.S1024 EltTy.f32)

variable (d : Dev nD) (L : grid0.Coords) (k0_t1 : Fin k0_t1_loop.trips) (k0_h1 : k0_cond1 k0_t1 = 1#1) (k0_h2 : ¬k0_cond2 k0_t1 = 1#1) (v75 : F .f32) (v77 : F .f32) (v79 : F .f32) (v81 : F .f32) (v83 : F .f32) (v85 : F .f32) (v87 : F .f32) (v89 : F .f32) (v91 : F .f32) (v93 : F .f32) (v95 : F .f32) (v97 : F .f32) (v99 : F .f32) (v101 : F .f32) (v103 : F .f32) (v105 : F .f32) (v107 : F .f32) (v109 : F .f32) (v111 : F .f32) (v113 : F .f32) (v115 : F .f32) (v117 : F .f32) (v119 : F .f32) (v121 : F .f32) (v123 : F .f32) (v125 : F .f32) (v127 : F .f32) (v129 : F .f32) (v131 : F .f32) (v133 : F .f32) (v135 : F .f32) (v137 : F .f32) (v139 : F .f32) (v141 : F .f32) (v143 : F .f32) (v145 : F .f32) (v147 : F .f32) (v149 : F .f32) (v151 : F .f32) (v153 : F .f32) (v155 : F .f32) (v157 : F .f32) (v159 : F .f32) (v161 : F .f32) (v163 : F .f32) (v165 : F .f32) (v167 : F .f32) (v169 : F .f32) (v171 : F .f32) (v173 : F .f32) (v175 : F .f32) (v177 : F .f32) (v179 : F .f32) (v181 : F .f32) (v183 : F .f32) (v185 : F .f32) (v187 : F .f32) (v189 : F .f32) (v191 : F .f32) (v193 : F .f32) (v195 : F .f32) (v197 : F .f32) (v199 : F .f32) (v201 : F .f32) (v269 : FVec F S16 .f32)

theorem trips_t5 : k0_t5_loop.trips = 32 := by decide

theorem buf_read_t5 (f : BufTy.Contents (Elt F) (b0).view.ty) (y : S64x512.Idx) : (b0).view.read (Elt F) f y = f y := rfl

/-- The first column of trip `k`, through the program's own offset function. -/
abbrev c_t5 (k : Fin k0_t5_loop.trips) : ℕ := k0_off283 k 1

theorem colOff_t5 (k : Fin k0_t5_loop.trips) : c_t5 k = 16 * k.val := by
  show k0_off283 k 1 = _
  rw [k0_off283_eq]; rfl

/-- The first sixty-four pieces the run lists are the masked-row tiles. -/
theorem hb64_eq_t5 (k : Fin k0_t5_loop.trips) (fb : BufTy.Contents (Elt F) (b0).view.ty) :
    trip_t5.sl.HB_64 (F := F) k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 k fb = phase1 (F := F) c_t5 trips_t5 colOff_t5 k (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b0) c_t5 trips_t5 colOff_t5 k fb)) := by
  sl_kernel_rfl

/-- The run's name for the mean vector is `mcV` of the masked rows. -/
theorem r63_eq_t5 (k : Fin k0_t5_loop.trips) (fb : BufTy.Contents (Elt F) (b0).view.ty) :
    trip_t5.sl.r_63 (F := F) k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269 k fb = mcV (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b0) c_t5 trips_t5 colOff_t5 k fb)) v269 := by
  sl_kernel_rfl

unseal trip_t5 in
/-- The trip's list for the mean buffer is one store of the mean vector. -/
theorem tripLm_eq_t5 (k : Fin k0_t5_loop.trips) (fb : BufTy.Contents (Elt F) (b0).view.ty) (fm : BufTy.Contents (Elt F) (meanb).view.ty) :
    ((trip_t5 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) k).2.1 fb fm
      = [⟨Rect.unit (s := S1024) (k0_off284 k) S16.size (k0_off284_inb k0_t1 k k0_h1 k0_h2), shapeCast S16 (mcV (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b0) c_t5 trips_t5 colOff_t5 k fb)) v269) shapeCasts_S16_S16⟩] := by
  sl_kernel_rfl

unseal trip_t5 in
/-- The sixty-four second-pass stores are peeled off one at a time down to the opening tiles. -/
theorem inv_trip_t5 (k : Fin k0_t5_loop.trips) (fb : BufTy.Contents (Elt F) (b0).view.ty) (fm : BufTy.Contents (Elt F) (meanb).view.ty) :
    ColInv (F := F) (b0) k (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b0) c_t5 trips_t5 colOff_t5 k fb)) (mcV (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b0) c_t5 trips_t5 colOff_t5 k fb)) v269) 64 (((trip_t5 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) k).1 fb fm) := by
  rw [← r63_eq_t5 (F := F) k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269 k fb]
  unfold trip_t5
  dsimp only
  iterate 64 (refine colInv_step (b0) c_t5 trips_t5 colOff_t5 k _ _ _ (by omega) _ _ _ _ rfl rfl ?_)
  rw [hb64_eq_t5 (F := F) k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 k fb]
  exact colInv_phase1 (b0) c_t5 trips_t5 colOff_t5 k _ _

/-- The staging buffer after the loop. -/
theorem col_t5_buf (Gb : BufTy.Contents (Elt F) (b0).view.ty) (Gm : BufTy.Contents (Elt F) (meanb).view.ty) :
    (b0).view.writes (Elt F) Gb (pb (F := F) d L (b0) (trip_t5 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) Gb Gm 32).1 = colDiff Gb (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) v269 :=
  funext fun y => (col_buf d L (b0) c_t5 trips_t5 colOff_t5 (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) v269 (trip_t5 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) Gb Gm (inv_trip_t5 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) y).trans
    (colDiff_congr _ _ _ _ y fun _ => rfl)

theorem sub512_lt_t5 (j : S1024.Idx) : (j 0).val - 512 < 512 := by
  have h : (j 0).val < 1024 := (j 0).isLt
  omega

/-- The mean buffer after the loop, entry by entry: from entry 512 on, the column means. -/
theorem col_t5_mean_apply (Gb : BufTy.Contents (Elt F) (b0).view.ty) (Gm : BufTy.Contents (Elt F) (meanb).view.ty) (j : S1024.Idx) :
    (meanb).view.writes (Elt F) Gm (pb (F := F) d L (b0) (trip_t5 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) Gb Gm 32).2 j
      = if 512 ≤ (j 0).val then colMean Gb (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) v269 ⟨(j 0).val - 512, sub512_lt_t5 j⟩ else Gm j := by
  have hj : (j 0).val < 1024 := (j 0).isLt
  rw [mean_read d L (b0) c_t5 trips_t5 colOff_t5 (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) v269 (trip_t5 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) Gb Gm (inv_trip_t5 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) 512 (Or.inr rfl) k0_off284 k0_off284_eq (fun k => k0_off284_inb k0_t1 k k0_h1 k0_h2) (tripLm_eq_t5 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) 32 le_rfl j]
  by_cases h : 512 ≤ (j 0).val
  · rw [if_pos (by omega), if_pos h, colMeanN_of_lt _ _ _ (sub512_lt_t5 j)]
    exact colMean_congr _ _ _ _ _ fun _ => rfl
  · rw [if_neg (by omega), if_neg h]

end Cert.Proof.KI

end
-- ==== Proof.VTripV1.lean ====
import proofs.«204522_g36051955483029_cont_8to1_b_1192_15_alg».proof.Proof.Canon
import proofs.«204522_g36051955483029_cont_8to1_b_1192_15_alg».proof.Proof.VDefs
import proofs.«204522_g36051955483029_cont_8to1_b_1192_15_alg».proof.Proof.VcLemmas
import proofs.«204522_g36051955483029_cont_8to1_b_1192_15_alg».proof.Proof.VbLemmas
import proofs.«204522_g36051955483029_cont_8to1_b_1192_15_alg».proof.Proof.VbLemmas2
import proofs.«204522_g36051955483029_cont_8to1_b_1192_15_alg».proof.Proof.Slices
import proofs.«204522_g36051955483029_cont_8to1_b_1192_15_alg».proof.Proof.ColT4
import proofs.«204522_g36051955483029_cont_8to1_b_1192_15_alg».proof.Proof.ColT5
import proofs.«204522_g36051955483029_cont_8to1_b_1192_15_alg».proof.Proof.ColT4Value
import proofs.«204522_g36051955483029_cont_8to1_b_1192_15_alg».proof.Proof.ColT5Value
import proofs.«204522_g36051955483029_cont_8to1_b_1192_15_alg».proof.Proof.VaLemmas

set_option maxHeartbeats 8000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords)

theorem vtrip_v1 (k : Fin k0_t1_loop.trips) (h1 : k0_cond1 k = 1#1) (h2 : ¬ k0_cond2 k = 1#1) (hpos : 0 < k.val) (hlt : k.val + 1 < 16)
    (q : PosShare TreeShare) (O : CellTallies nD τ sig (HIx 1)) (W : Waits sig (HIx 1)) (v3 : BitVec 32) (acc : FVec F S16 .f32)
    (X : Buf (Elt F) ((xV).view.loc (thr d L))) (gM : Buf (Elt F) ((mall).view.loc (thr d L)))
    (fA : Buf (Elt F) ((b2).view.loc (thr d L))) (fB : Buf (Elt F) ((b0).view.loc (thr d L))) (fC : Buf (Elt F) ((b1).view.loc (thr d L)))
    (gm : Buf (Elt F) ((meanb).view.loc (thr d L))) (fd fD : Buf (Elt F) ((dV).view.loc (thr d L))) (fe fE : Buf (Elt F) ((eV).view.loc (thr d L)))
    (Mc : Buf (Elt F) ((mV).view.loc (thr d L))) (hgM : MallOf (F := F) L Mc gM)
    (hfA : fA = blkU (F := F) X (uT L k.val) 0) (hfB : fB = blkU (F := F) X (uT L k.val) 1) :
    (iprop(Transfers.MayWaits (thr d L) (none : HIx 1) O
        ∗ owes (thr d L) O W
        ∗ ((mall).view.loc (thr d L) ↦[(mall).view.set]{fullShare} gM)
        ∗ ((xV).view.loc (thr d L) ↦[(Finset.univ \ (xsl (uo3 L k.val 0) (uo3_inb L k.val 0)).view.set) \ (xsl (uo3 L k.val 512) (uo3_inb L k.val 512)).view.set]{q} X)
        ∗ ((dV).view.loc (thr d L) ↦[dPart (wid L) \ dS L (k.val - 1) 512]{fullShare} fD)
        ∗ ((eV).view.loc (thr d L) ↦[ePart (wid L) \ eS L (k.val - 1)]{fullShare} fE)
        ∗ Transfers.Flight countersEmb (thr d L) (SemLoc.dma cc0_scratch8.sem) (default : HIx 1) 1048576 iprop(((b2).view.loc (thr d L) ↦[(b2).view.set]{fullShare} fA) ∗ ((xV).view.loc (thr d L) ↦[(xsl (uo3 L k.val 0) (uo3_inb L k.val 0)).view.set]{q} X))
        ∗ Transfers.Flight countersEmb (thr d L) (SemLoc.dma cc0_scratch6.sem) (default : HIx 1) 1048576 iprop(((b0).view.loc (thr d L) ↦[(b0).view.set]{fullShare} fB) ∗ ((xV).view.loc (thr d L) ↦[(xsl (uo3 L k.val 512) (uo3_inb L k.val 512)).view.set]{q} X))
        ∗ Transfers.Flight countersEmb (thr d L) (SemLoc.dma cc0_scratch10.sem) (default : HIx 1) 1048576 iprop(((dsl (uo3 L (k.val - 1) 512) (uo3_inb L (k.val - 1) 512)).view.loc (thr d L) ↦[(dsl (uo3 L (k.val - 1) 512) (uo3_inb L (k.val - 1) 512)).view.set]{fullShare} fd) ∗ ((b1).view.loc (thr d L) ↦[(b1).view.set]{fullShare} fC))
        ∗ Transfers.Flight countersEmb (thr d L) (SemLoc.dma cc0_scratch12.sem) (default : HIx 1) 32768 iprop(((esl (uo2 L (k.val - 1)) (uo2_inb L (k.val - 1))).view.loc (thr d L) ↦[(esl (uo2 L (k.val - 1)) (uo2_inb L (k.val - 1))).view.set]{fullShare} fe) ∗ ((meanb).view.loc (thr d L) ↦[(meanb).view.set]{fullShare} gm))
        ∗ semVal ((thr d L), SemLoc.dma cc0_scratch11.sem) 0
        ∗ semVal ((thr d L), SemLoc.dma cc0_scratch9.sem) 0
        ∗ semVal ((thr d L), SemLoc.dma cc0_scratch7.sem) 0) : sProp 𝕄)
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => iprop(⌜∀ l : Fin 16, r (ix1 l) = if l.val = k.val then Csp (F := F) Mc (ix1 (uT L k.val)) else acc (ix1 l)⌝
            ∗ ∃ W', owes (thr d L) O W' ∗ ⌜∀ p ∈ W', p ∈ W ∨ p.2 = none⌝
                ∗ ((mall).view.loc (thr d L) ↦[(mall).view.set]{fullShare} gM)
            ∗ ((xV).view.loc (thr d L) ↦[(Finset.univ \ (xsl (uo3 L (k.val + 1) 0) (uo3_inb L (k.val + 1) 0)).view.set) \ (xsl (uo3 L (k.val + 1) 512) (uo3_inb L (k.val + 1) 512)).view.set]{q} X)
            ∗ (∃ fD', ((dV).view.loc (thr d L) ↦[dPart (wid L) \ dS L k.val 512]{fullShare} fD')
                ∗ ⌜(∀ i ∈ dS L k.val 0, fD' i = Dsp (F := F) X Mc i) ∧ (∀ i ∈ dS L (k.val - 1) 512, fD' i = fd i)
                    ∧ (∀ i, i ∉ dS L k.val 0 → i ∉ dS L (k.val - 1) 512 → fD' i = fD i)⌝)
            ∗ (∃ fE', ((eV).view.loc (thr d L) ↦[ePart (wid L) \ eS L k.val]{fullShare} fE')
                ∗ ⌜(∀ j ∈ eS L (k.val - 1), fE' j = fe j) ∧ (∀ j, j ∉ eS L (k.val - 1) → fE' j = fE j)⌝)
            ∗ ∃ fA' fB' fC' gm' fd' fe', ⌜fA' = blkU (F := F) X (uT L (k.val + 1)) 0 ∧ fB' = blkU (F := F) X (uT L (k.val + 1)) 1
                ∧ (∀ i ∈ dS L k.val 512, fd' i = Dsp (F := F) X Mc i) ∧ (∀ j ∈ eS L k.val, fe' j = Esp (F := F) X Mc j)⌝ ∗ Transfers.Flight countersEmb (thr d L) (SemLoc.dma cc0_scratch7.sem) (default : HIx 1) 1048576 iprop(((b1).view.loc (thr d L) ↦[(b1).view.set]{fullShare} fA') ∗ ((xV).view.loc (thr d L) ↦[(xsl (uo3 L (k.val + 1) 0) (uo3_inb L (k.val + 1) 0)).view.set]{q} X))
        ∗ Transfers.Flight countersEmb (thr d L) (SemLoc.dma cc0_scratch8.sem) (default : HIx 1) 1048576 iprop(((b2).view.loc (thr d L) ↦[(b2).view.set]{fullShare} fB') ∗ ((xV).view.loc (thr d L) ↦[(xsl (uo3 L (k.val + 1) 512) (uo3_inb L (k.val + 1) 512)).view.set]{q} X))
        ∗ Transfers.Flight countersEmb (thr d L) (SemLoc.dma cc0_scratch9.sem) (default : HIx 1) 1048576 iprop(((dsl (uo3 L k.val 512) (uo3_inb L k.val 512)).view.loc (thr d L) ↦[(dsl (uo3 L k.val 512) (uo3_inb L k.val 512)).view.set]{fullShare} fd') ∗ ((b0).view.loc (thr d L) ↦[(b0).view.set]{fullShare} fC'))
        ∗ Transfers.Flight countersEmb (thr d L) (SemLoc.dma cc0_scratch12.sem) (default : HIx 1) 32768 iprop(((esl (uo2 L k.val) (uo2_inb L k.val)).view.loc (thr d L) ↦[(esl (uo2 L k.val) (uo2_inb L k.val)).view.set]{fullShare} fe') ∗ ((meanb).view.loc (thr d L) ↦[(meanb).view.set]{fullShare} gm'))
        ∗ semVal ((thr d L), SemLoc.dma cc0_scratch10.sem) 0
        ∗ semVal ((thr d L), SemLoc.dma cc0_scratch11.sem) 0
        ∗ semVal ((thr d L), SemLoc.dma cc0_scratch6.sem) 0) := by
  have hc7 : k0_cond7 k = 1#1 := (cond7_iff k).mpr hpos
  have hc8 : k0_cond8 k = 1#1 := (cond8_iff k).mpr hlt
  have hc9 : k0_cond9 k = 1#1 := (cond9_iff k).mpr hpos
  have hc10 : k0_cond10 k = 1#1 := (cond10_iff k).mpr hlt

  have exA : k0_off151 L k = uo3 L k.val 0 := by rw [k0_off151_eq, uo3_of_le L (by omega) (by omega)]; rfl
  have exB : k0_off219 L k = uo3 L k.val 512 := by rw [k0_off219_eq, uo3_of_le L (by omega) (by omega)]; rfl
  have exC : k0_off218 L k = uo3 L (k.val + 1) 0 := by rw [k0_off218_eq, uo3_of_le L (by omega) (by omega)]; rfl
  have exA2 : k0_off286 L k = uo3 L (k.val + 1) 512 := by rw [k0_off286_eq, uo3_of_le L (by omega) (by omega)]; rfl
  have eeO : k0_off287 L k = uo2 L k.val := by rw [k0_off287_eq, uo2_of_le L (by omega)]; rfl
  iintro ⟨#Hmw, HO, Hmall, HX, HD, HE, FA, FB, FC, FM, SA, SB, SC⟩

  have hsub0 : dS L k.val 0 ⊆ dPart (wid L) \ dS L (k.val - 1) 512 :=
    Finset.subset_sdiff.mpr ⟨dS_subset L k.val 0 (.inl rfl), dS_disjoint L (by omega) (by omega) (.inl rfl) (.inr rfl) (.inl (by omega))⟩
  have hsub1 : dS L k.val 512 ⊆ (dPart (wid L) \ dS L (k.val - 1) 512) \ dS L k.val 0 :=
    Finset.subset_sdiff.mpr ⟨Finset.subset_sdiff.mpr ⟨dS_subset L k.val 512 (.inr rfl), dS_disjoint L (by omega) (by omega) (.inr rfl) (.inr rfl) (.inl (by omega))⟩,
      dS_disjoint L (by omega) (by omega) (.inr rfl) (.inl rfl) (.inr (by decide))⟩
  have hsubE : eS L k.val ⊆ ePart (wid L) \ eS L (k.val - 1) :=
    Finset.subset_sdiff.mpr ⟨eS_subset L k.val, eS_disjoint L (by omega) (by omega) (by omega)⟩
  ihave HD' := (pointsTo_split_subset hsub0).1 $$ HD
  icases HD' with ⟨HD0, HD⟩
  ihave HD' := (pointsTo_split_subset hsub1).1 $$ HD
  icases HD' with ⟨HD1, HD⟩
  ihave HE' := (pointsTo_split_subset hsubE).1 $$ HE
  icases HE' with ⟨HE0, HE⟩

  have hs0 : dS L k.val 0 = (dsl (k0_off151 L k) (k0_off151_inb L k h1 h2)).view.set := dset_congr exA.symm _ _
  have hs1 : dS L k.val 512 = (dsl (k0_off219 L k) (k0_off219_inb L k h1 h2)).view.set := dset_congr exB.symm _ _
  have hsE : eS L k.val = (esl (k0_off287 L k) (k0_off287_inb L k h1 h2)).view.set := eset_congr eeO.symm _ _
  have e0 : (((dV).view.loc (thr d L) ↦[dS L k.val 0]{fullShare} fD : sProp 𝕄))
      = ((dsl (k0_off151 L k) (k0_off151_inb L k h1 h2)).view.loc (thr d L) ↦[(dsl (k0_off151 L k) (k0_off151_inb L k h1 h2)).view.set]{fullShare} fD) := by
    rw [hs0]
  have e1 : (((dV).view.loc (thr d L) ↦[dS L k.val 512]{fullShare} fD : sProp 𝕄))
      = ((dsl (k0_off219 L k) (k0_off219_inb L k h1 h2)).view.loc (thr d L) ↦[(dsl (k0_off219 L k) (k0_off219_inb L k h1 h2)).view.set]{fullShare} fD) := by
    rw [hs1]
  have eE : (((eV).view.loc (thr d L) ↦[eS L k.val]{fullShare} fE : sProp 𝕄))
      = ((esl (k0_off287 L k) (k0_off287_inb L k h1 h2)).view.loc (thr d L) ↦[(esl (k0_off287 L k) (k0_off287_inb L k h1 h2)).view.set]{fullShare} fE) := by
    rw [hsE]
  ihave HD0' := (Entails.of_eq e0) $$ HD0
  ihave HD1' := (Entails.of_eq e1) $$ HD1
  ihave HE0' := (Entails.of_eq eE) $$ HE0
  sl_unfold [k0_t1_body]
  sl_exec

  sl_step

  have hMS : msOf (vtrip_v1.sl.v75 d L k h1 h2 gM) (vtrip_v1.sl.v77 d L k h1 h2 gM) (vtrip_v1.sl.v79 d L k h1 h2 gM) (vtrip_v1.sl.v81 d L k h1 h2 gM) (vtrip_v1.sl.v83 d L k h1 h2 gM) (vtrip_v1.sl.v85 d L k h1 h2 gM) (vtrip_v1.sl.v87 d L k h1 h2 gM) (vtrip_v1.sl.v89 d L k h1 h2 gM) (vtrip_v1.sl.v91 d L k h1 h2 gM) (vtrip_v1.sl.v93 d L k h1 h2 gM) (vtrip_v1.sl.v95 d L k h1 h2 gM) (vtrip_v1.sl.v97 d L k h1 h2 gM) (vtrip_v1.sl.v99 d L k h1 h2 gM) (vtrip_v1.sl.v101 d L k h1 h2 gM) (vtrip_v1.sl.v103 d L k h1 h2 gM) (vtrip_v1.sl.v105 d L k h1 h2 gM) (vtrip_v1.sl.v107 d L k h1 h2 gM) (vtrip_v1.sl.v109 d L k h1 h2 gM) (vtrip_v1.sl.v111 d L k h1 h2 gM) (vtrip_v1.sl.v113 d L k h1 h2 gM) (vtrip_v1.sl.v115 d L k h1 h2 gM) (vtrip_v1.sl.v117 d L k h1 h2 gM) (vtrip_v1.sl.v119 d L k h1 h2 gM) (vtrip_v1.sl.v121 d L k h1 h2 gM) (vtrip_v1.sl.v123 d L k h1 h2 gM) (vtrip_v1.sl.v125 d L k h1 h2 gM) (vtrip_v1.sl.v127 d L k h1 h2 gM) (vtrip_v1.sl.v129 d L k h1 h2 gM) (vtrip_v1.sl.v131 d L k h1 h2 gM) (vtrip_v1.sl.v133 d L k h1 h2 gM) (vtrip_v1.sl.v135 d L k h1 h2 gM) (vtrip_v1.sl.v137 d L k h1 h2 gM) (vtrip_v1.sl.v139 d L k h1 h2 gM) (vtrip_v1.sl.v141 d L k h1 h2 gM) (vtrip_v1.sl.v143 d L k h1 h2 gM) (vtrip_v1.sl.v145 d L k h1 h2 gM) (vtrip_v1.sl.v147 d L k h1 h2 gM) (vtrip_v1.sl.v149 d L k h1 h2 gM) (vtrip_v1.sl.v151 d L k h1 h2 gM) (vtrip_v1.sl.v153 d L k h1 h2 gM) (vtrip_v1.sl.v155 d L k h1 h2 gM) (vtrip_v1.sl.v157 d L k h1 h2 gM) (vtrip_v1.sl.v159 d L k h1 h2 gM) (vtrip_v1.sl.v161 d L k h1 h2 gM) (vtrip_v1.sl.v163 d L k h1 h2 gM) (vtrip_v1.sl.v165 d L k h1 h2 gM) (vtrip_v1.sl.v167 d L k h1 h2 gM) (vtrip_v1.sl.v169 d L k h1 h2 gM) (vtrip_v1.sl.v171 d L k h1 h2 gM) (vtrip_v1.sl.v173 d L k h1 h2 gM) (vtrip_v1.sl.v175 d L k h1 h2 gM) (vtrip_v1.sl.r d L k h1 h2 gM) (vtrip_v1.sl.r_1 d L k h1 h2 gM) (vtrip_v1.sl.r_2 d L k h1 h2 gM) (vtrip_v1.sl.r_3 d L k h1 h2 gM) (vtrip_v1.sl.r_4 d L k h1 h2 gM) (vtrip_v1.sl.r_5 d L k h1 h2 gM) (vtrip_v1.sl.r_6 d L k h1 h2 gM) (vtrip_v1.sl.r_7 d L k h1 h2 gM) (vtrip_v1.sl.r_8 d L k h1 h2 gM) (vtrip_v1.sl.r_9 d L k h1 h2 gM) (vtrip_v1.sl.r_10 d L k h1 h2 gM) (vtrip_v1.sl.r_11 d L k h1 h2 gM) (vtrip_v1.sl.r_12 d L k h1 h2 gM) = msU Mc (uT L k.val) :=
    msOf_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (msU Mc (uT L k.val))
      (lane_of_load L Mc gM hgM k (k0_off146 k) (k0_off146_inb k h1 h2) shapeCasts_S1x16_S16 0 (k0_off146_eq k) 0 slices_S16_o0_S1 inpos_S1_p0)
      (lane_of_load L Mc gM hgM k (k0_off146 k) (k0_off146_inb k h1 h2) shapeCasts_S1x16_S16 0 (k0_off146_eq k) 1 slices_S16_o1_S1 inpos_S1_p0)
      (lane_of_load L Mc gM hgM k (k0_off146 k) (k0_off146_inb k h1 h2) shapeCasts_S1x16_S16 0 (k0_off146_eq k) 2 slices_S16_o2_S1 inpos_S1_p0)
      (lane_of_load L Mc gM hgM k (k0_off146 k) (k0_off146_inb k h1 h2) shapeCasts_S1x16_S16 0 (k0_off146_eq k) 3 slices_S16_o3_S1 inpos_S1_p0)
      (lane_of_load L Mc gM hgM k (k0_off146 k) (k0_off146_inb k h1 h2) shapeCasts_S1x16_S16 0 (k0_off146_eq k) 4 slices_S16_o4_S1 inpos_S1_p0)
      (lane_of_load L Mc gM hgM k (k0_off146 k) (k0_off146_inb k h1 h2) shapeCasts_S1x16_S16 0 (k0_off146_eq k) 5 slices_S16_o5_S1 inpos_S1_p0)
      (lane_of_load L Mc gM hgM k (k0_off146 k) (k0_off146_inb k h1 h2) shapeCasts_S1x16_S16 0 (k0_off146_eq k) 6 slices_S16_o6_S1 inpos_S1_p0)
      (lane_of_load L Mc gM hgM k (k0_off146 k) (k0_off146_inb k h1 h2) shapeCasts_S1x16_S16 0 (k0_off146_eq k) 7 slices_S16_o7_S1 inpos_S1_p0)
      (lane_of_load L Mc gM hgM k (k0_off146 k) (k0_off146_inb k h1 h2) shapeCasts_S1x16_S16 0 (k0_off146_eq k) 8 slices_S16_o8_S1 inpos_S1_p0)
      (lane_of_load L Mc gM hgM k (k0_off146 k) (k0_off146_inb k h1 h2) shapeCasts_S1x16_S16 0 (k0_off146_eq k) 9 slices_S16_o9_S1 inpos_S1_p0)
      (lane_of_load L Mc gM hgM k (k0_off146 k) (k0_off146_inb k h1 h2) shapeCasts_S1x16_S16 0 (k0_off146_eq k) 10 slices_S16_o10_S1 inpos_S1_p0)
      (lane_of_load L Mc gM hgM k (k0_off146 k) (k0_off146_inb k h1 h2) shapeCasts_S1x16_S16 0 (k0_off146_eq k) 11 slices_S16_o11_S1 inpos_S1_p0)
      (lane_of_load L Mc gM hgM k (k0_off146 k) (k0_off146_inb k h1 h2) shapeCasts_S1x16_S16 0 (k0_off146_eq k) 12 slices_S16_o12_S1 inpos_S1_p0)
      (lane_of_load L Mc gM hgM k (k0_off146 k) (k0_off146_inb k h1 h2) shapeCasts_S1x16_S16 0 (k0_off146_eq k) 13 slices_S16_o13_S1 inpos_S1_p0)
      (lane_of_load L Mc gM hgM k (k0_off146 k) (k0_off146_inb k h1 h2) shapeCasts_S1x16_S16 0 (k0_off146_eq k) 14 slices_S16_o14_S1 inpos_S1_p0)
      (lane_of_load L Mc gM hgM k (k0_off146 k) (k0_off146_inb k h1 h2) shapeCasts_S1x16_S16 0 (k0_off146_eq k) 15 slices_S16_o15_S1 inpos_S1_p0)
      (lane_of_load L Mc gM hgM k (k0_off147 k) (k0_off147_inb k h1 h2) shapeCasts_S1x16_S16 1 (k0_off147_eq k) 0 slices_S16_o0_S1 inpos_S1_p0)
      (lane_of_load L Mc gM hgM k (k0_off147 k) (k0_off147_inb k h1 h2) shapeCasts_S1x16_S16 1 (k0_off147_eq k) 1 slices_S16_o1_S1 inpos_S1_p0)
      (lane_of_load L Mc gM hgM k (k0_off147 k) (k0_off147_inb k h1 h2) shapeCasts_S1x16_S16 1 (k0_off147_eq k) 2 slices_S16_o2_S1 inpos_S1_p0)
      (lane_of_load L Mc gM hgM k (k0_off147 k) (k0_off147_inb k h1 h2) shapeCasts_S1x16_S16 1 (k0_off147_eq k) 3 slices_S16_o3_S1 inpos_S1_p0)
      (lane_of_load L Mc gM hgM k (k0_off147 k) (k0_off147_inb k h1 h2) shapeCasts_S1x16_S16 1 (k0_off147_eq k) 4 slices_S16_o4_S1 inpos_S1_p0)
      (lane_of_load L Mc gM hgM k (k0_off147 k) (k0_off147_inb k h1 h2) shapeCasts_S1x16_S16 1 (k0_off147_eq k) 5 slices_S16_o5_S1 inpos_S1_p0)
      (lane_of_load L Mc gM hgM k (k0_off147 k) (k0_off147_inb k h1 h2) shapeCasts_S1x16_S16 1 (k0_off147_eq k) 6 slices_S16_o6_S1 inpos_S1_p0)
      (lane_of_load L Mc gM hgM k (k0_off147 k) (k0_off147_inb k h1 h2) shapeCasts_S1x16_S16 1 (k0_off147_eq k) 7 slices_S16_o7_S1 inpos_S1_p0)
      (lane_of_load L Mc gM hgM k (k0_off147 k) (k0_off147_inb k h1 h2) shapeCasts_S1x16_S16 1 (k0_off147_eq k) 8 slices_S16_o8_S1 inpos_S1_p0)
      (lane_of_load L Mc gM hgM k (k0_off147 k) (k0_off147_inb k h1 h2) shapeCasts_S1x16_S16 1 (k0_off147_eq k) 9 slices_S16_o9_S1 inpos_S1_p0)
      (lane_of_load L Mc gM hgM k (k0_off147 k) (k0_off147_inb k h1 h2) shapeCasts_S1x16_S16 1 (k0_off147_eq k) 10 slices_S16_o10_S1 inpos_S1_p0)
      (lane_of_load L Mc gM hgM k (k0_off147 k) (k0_off147_inb k h1 h2) shapeCasts_S1x16_S16 1 (k0_off147_eq k) 11 slices_S16_o11_S1 inpos_S1_p0)
      (lane_of_load L Mc gM hgM k (k0_off147 k) (k0_off147_inb k h1 h2) shapeCasts_S1x16_S16 1 (k0_off147_eq k) 12 slices_S16_o12_S1 inpos_S1_p0)
      (lane_of_load L Mc gM hgM k (k0_off147 k) (k0_off147_inb k h1 h2) shapeCasts_S1x16_S16 1 (k0_off147_eq k) 13 slices_S16_o13_S1 inpos_S1_p0)
      (lane_of_load L Mc gM hgM k (k0_off147 k) (k0_off147_inb k h1 h2) shapeCasts_S1x16_S16 1 (k0_off147_eq k) 14 slices_S16_o14_S1 inpos_S1_p0)
      (lane_of_load L Mc gM hgM k (k0_off147 k) (k0_off147_inb k h1 h2) shapeCasts_S1x16_S16 1 (k0_off147_eq k) 15 slices_S16_o15_S1 inpos_S1_p0)
      (lane_of_load L Mc gM hgM k (k0_off148 k) (k0_off148_inb k h1 h2) shapeCasts_S1x16_S16 2 (k0_off148_eq k) 0 slices_S16_o0_S1 inpos_S1_p0)
      (lane_of_load L Mc gM hgM k (k0_off148 k) (k0_off148_inb k h1 h2) shapeCasts_S1x16_S16 2 (k0_off148_eq k) 1 slices_S16_o1_S1 inpos_S1_p0)
      (lane_of_load L Mc gM hgM k (k0_off148 k) (k0_off148_inb k h1 h2) shapeCasts_S1x16_S16 2 (k0_off148_eq k) 2 slices_S16_o2_S1 inpos_S1_p0)
      (lane_of_load L Mc gM hgM k (k0_off148 k) (k0_off148_inb k h1 h2) shapeCasts_S1x16_S16 2 (k0_off148_eq k) 3 slices_S16_o3_S1 inpos_S1_p0)
      (lane_of_load L Mc gM hgM k (k0_off148 k) (k0_off148_inb k h1 h2) shapeCasts_S1x16_S16 2 (k0_off148_eq k) 4 slices_S16_o4_S1 inpos_S1_p0)
      (lane_of_load L Mc gM hgM k (k0_off148 k) (k0_off148_inb k h1 h2) shapeCasts_S1x16_S16 2 (k0_off148_eq k) 5 slices_S16_o5_S1 inpos_S1_p0)
      (lane_of_load L Mc gM hgM k (k0_off148 k) (k0_off148_inb k h1 h2) shapeCasts_S1x16_S16 2 (k0_off148_eq k) 6 slices_S16_o6_S1 inpos_S1_p0)
      (lane_of_load L Mc gM hgM k (k0_off148 k) (k0_off148_inb k h1 h2) shapeCasts_S1x16_S16 2 (k0_off148_eq k) 7 slices_S16_o7_S1 inpos_S1_p0)
      (lane_of_load L Mc gM hgM k (k0_off148 k) (k0_off148_inb k h1 h2) shapeCasts_S1x16_S16 2 (k0_off148_eq k) 8 slices_S16_o8_S1 inpos_S1_p0)
      (lane_of_load L Mc gM hgM k (k0_off148 k) (k0_off148_inb k h1 h2) shapeCasts_S1x16_S16 2 (k0_off148_eq k) 9 slices_S16_o9_S1 inpos_S1_p0)
      (lane_of_load L Mc gM hgM k (k0_off148 k) (k0_off148_inb k h1 h2) shapeCasts_S1x16_S16 2 (k0_off148_eq k) 10 slices_S16_o10_S1 inpos_S1_p0)
      (lane_of_load L Mc gM hgM k (k0_off148 k) (k0_off148_inb k h1 h2) shapeCasts_S1x16_S16 2 (k0_off148_eq k) 11 slices_S16_o11_S1 inpos_S1_p0)
      (lane_of_load L Mc gM hgM k (k0_off148 k) (k0_off148_inb k h1 h2) shapeCasts_S1x16_S16 2 (k0_off148_eq k) 12 slices_S16_o12_S1 inpos_S1_p0)
      (lane_of_load L Mc gM hgM k (k0_off148 k) (k0_off148_inb k h1 h2) shapeCasts_S1x16_S16 2 (k0_off148_eq k) 13 slices_S16_o13_S1 inpos_S1_p0)
      (lane_of_load L Mc gM hgM k (k0_off148 k) (k0_off148_inb k h1 h2) shapeCasts_S1x16_S16 2 (k0_off148_eq k) 14 slices_S16_o14_S1 inpos_S1_p0)
      (lane_of_load L Mc gM hgM k (k0_off148 k) (k0_off148_inb k h1 h2) shapeCasts_S1x16_S16 2 (k0_off148_eq k) 15 slices_S16_o15_S1 inpos_S1_p0)
      (lane_of_load L Mc gM hgM k (k0_off149 k) (k0_off149_inb k h1 h2) shapeCasts_S1x16_S16 3 (k0_off149_eq k) 0 slices_S16_o0_S1 inpos_S1_p0)
      (lane_of_load L Mc gM hgM k (k0_off149 k) (k0_off149_inb k h1 h2) shapeCasts_S1x16_S16 3 (k0_off149_eq k) 1 slices_S16_o1_S1 inpos_S1_p0)
      (lane_of_load L Mc gM hgM k (k0_off149 k) (k0_off149_inb k h1 h2) shapeCasts_S1x16_S16 3 (k0_off149_eq k) 2 slices_S16_o2_S1 inpos_S1_p0)
      (lane_of_load L Mc gM hgM k (k0_off149 k) (k0_off149_inb k h1 h2) shapeCasts_S1x16_S16 3 (k0_off149_eq k) 3 slices_S16_o3_S1 inpos_S1_p0)
      (lane_of_load L Mc gM hgM k (k0_off149 k) (k0_off149_inb k h1 h2) shapeCasts_S1x16_S16 3 (k0_off149_eq k) 4 slices_S16_o4_S1 inpos_S1_p0)
      (lane_of_load L Mc gM hgM k (k0_off149 k) (k0_off149_inb k h1 h2) shapeCasts_S1x16_S16 3 (k0_off149_eq k) 5 slices_S16_o5_S1 inpos_S1_p0)
      (lane_of_load L Mc gM hgM k (k0_off149 k) (k0_off149_inb k h1 h2) shapeCasts_S1x16_S16 3 (k0_off149_eq k) 6 slices_S16_o6_S1 inpos_S1_p0)
      (lane_of_load L Mc gM hgM k (k0_off149 k) (k0_off149_inb k h1 h2) shapeCasts_S1x16_S16 3 (k0_off149_eq k) 7 slices_S16_o7_S1 inpos_S1_p0)
      (lane_of_load L Mc gM hgM k (k0_off149 k) (k0_off149_inb k h1 h2) shapeCasts_S1x16_S16 3 (k0_off149_eq k) 8 slices_S16_o8_S1 inpos_S1_p0)
      (lane_of_load L Mc gM hgM k (k0_off149 k) (k0_off149_inb k h1 h2) shapeCasts_S1x16_S16 3 (k0_off149_eq k) 9 slices_S16_o9_S1 inpos_S1_p0)
      (lane_of_load L Mc gM hgM k (k0_off149 k) (k0_off149_inb k h1 h2) shapeCasts_S1x16_S16 3 (k0_off149_eq k) 10 slices_S16_o10_S1 inpos_S1_p0)
      (lane_of_load L Mc gM hgM k (k0_off149 k) (k0_off149_inb k h1 h2) shapeCasts_S1x16_S16 3 (k0_off149_eq k) 11 slices_S16_o11_S1 inpos_S1_p0)
      (lane_of_load L Mc gM hgM k (k0_off149 k) (k0_off149_inb k h1 h2) shapeCasts_S1x16_S16 3 (k0_off149_eq k) 12 slices_S16_o12_S1 inpos_S1_p0)
      (lane_of_load L Mc gM hgM k (k0_off149 k) (k0_off149_inb k h1 h2) shapeCasts_S1x16_S16 3 (k0_off149_eq k) 13 slices_S16_o13_S1 inpos_S1_p0)
      (lane_of_load L Mc gM hgM k (k0_off149 k) (k0_off149_inb k h1 h2) shapeCasts_S1x16_S16 3 (k0_off149_eq k) 14 slices_S16_o14_S1 inpos_S1_p0)
      (lane_of_load L Mc gM hgM k (k0_off149 k) (k0_off149_inb k h1 h2) shapeCasts_S1x16_S16 3 (k0_off149_eq k) 15 slices_S16_o15_S1 inpos_S1_p0)
  have hcnt : vtrip_v1.sl.r_14 d L k h1 h2 gM = cntF (msU Mc (uT L k.val)) := by
    rw [← hMS]
    exact pay1204_cnt _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

  have hR6 : k0_pay1205 (vtrip_v1.sl.v147 d L k h1 h2 gM) (vtrip_v1.sl.v149 d L k h1 h2 gM) (vtrip_v1.sl.v151 d L k h1 h2 gM) (vtrip_v1.sl.v153 d L k h1 h2 gM) (vtrip_v1.sl.v155 d L k h1 h2 gM) (vtrip_v1.sl.v157 d L k h1 h2 gM) (vtrip_v1.sl.v159 d L k h1 h2 gM) (vtrip_v1.sl.v161 d L k h1 h2 gM) (vtrip_v1.sl.v163 d L k h1 h2 gM) (vtrip_v1.sl.v165 d L k h1 h2 gM) (vtrip_v1.sl.v167 d L k h1 h2 gM) (vtrip_v1.sl.v169 d L k h1 h2 gM) (vtrip_v1.sl.v171 d L k h1 h2 gM) (vtrip_v1.sl.v173 d L k h1 h2 gM) (vtrip_v1.sl.v175 d L k h1 h2 gM) (vtrip_v1.sl.r d L k h1 h2 gM) (vtrip_v1.sl.r_1 d L k h1 h2 gM) (vtrip_v1.sl.r_2 d L k h1 h2 gM) (vtrip_v1.sl.r_3 d L k h1 h2 gM) (vtrip_v1.sl.r_4 d L k h1 h2 gM) (vtrip_v1.sl.r_5 d L k h1 h2 gM) (vtrip_v1.sl.r_6 d L k h1 h2 gM) (vtrip_v1.sl.r_7 d L k h1 h2 gM) (vtrip_v1.sl.r_8 d L k h1 h2 gM) (vtrip_v1.sl.r_9 d L k h1 h2 gM) (vtrip_v1.sl.r_10 d L k h1 h2 gM) (vtrip_v1.sl.r_11 d L k h1 h2 gM) (vtrip_v1.sl.r_12 d L k h1 h2 gM) (vtrip_v1.sl.r_13 d L k h1 h2 gM) = rcpF (msU (F := F) Mc (uT L k.val)) := by
    rw [← hMS]; rfl
  have hR7 : (vtrip_v1.sl.r_15 d L k h1 h2 gM) = rcpF (msU (F := F) Mc (uT L k.val)) := by
    rw [← hMS]; rfl
  have ht6 : Scf.trips k0_t4_loop.lb k0_t4_loop.ub k0_t4_loop.st = 32 := trips_t4
  have ht7 : Scf.trips k0_t5_loop.lb k0_t5_loop.ub k0_t5_loop.st = 32 := trips_t5
  have hA : vtrip_v1.sl.dma0 d L k h1 h2 v3 gM fA gm = colDiff (blkU (F := F) X (uT L k.val) 0) (msU (F := F) Mc (uT L k.val)) (rcpF (msU (F := F) Mc (uT L k.val))) := by
    unfold vtrip_v1.sl.dma0
    rw [ReadAs.apply_same, ht6]
    funext y
    rw [buf_read_t4, col_t4_buf, hMS, hR6, hfA]
  have hB : vtrip_v1.sl.dma0_2 d L k h1 h2 v3 gM fA fB gm = colDiff (blkU (F := F) X (uT L k.val) 1) (msU (F := F) Mc (uT L k.val)) (rcpF (msU (F := F) Mc (uT L k.val))) := by
    unfold vtrip_v1.sl.dma0_2
    rw [ReadAs.apply_same, ht6]
    first | rw [ht7] | skip
    funext y
    rw [buf_read_t5, col_t5_buf, hMS, hR7, hfB]
  have hv0 : ∀ i ∈ dS L k.val 0, ((dsl (k0_off151 L k) (k0_off151_inb L k h1 h2)).view.writes (Elt F) fD
      [⟨Rect.whole S64x512, vtrip_v1.sl.dma0 d L k h1 h2 v3 gM fA gm⟩]) i = Dsp (F := F) X Mc i := by
    intro i hi
    obtain ⟨y, hy, hval⟩ := dS_point (F := F) X Mc L k.val (by omega) 0 i hi
    have hemb : (dsl (k0_off151 L k) (k0_off151_inb L k h1 h2)).view.emb y = i :=
      funext fun a => Fin.ext (by
        rw [emb_dsl]
        have ea := congrFun exA a
        rw [ea]; exact hy a)
    rw [← hemb]
    refine (((View.read_apply _ _).trans (cast_eq _ _)).symm).trans ?_
    rw [View.read_writes_whole, hA, hemb, hval]
  have hv1 : ∀ i ∈ dS L k.val 512, ((dsl (k0_off219 L k) (k0_off219_inb L k h1 h2)).view.writes (Elt F) fD
      [⟨Rect.whole S64x512, vtrip_v1.sl.dma0_2 d L k h1 h2 v3 gM fA fB gm⟩]) i = Dsp (F := F) X Mc i := by
    intro i hi
    obtain ⟨y, hy, hval⟩ := dS_point (F := F) X Mc L k.val (by omega) 1 i hi
    have hemb : (dsl (k0_off219 L k) (k0_off219_inb L k h1 h2)).view.emb y = i :=
      funext fun a => Fin.ext (by
        rw [emb_dsl]
        have ea := congrFun exB a
        rw [ea]; exact hy a)
    rw [← hemb]
    refine (((View.read_apply _ _).trans (cast_eq _ _)).symm).trans ?_
    rw [View.read_writes_whole, hB, hemb, hval]
  have hM : ∀ z : S1024.Idx, vtrip_v1.sl.dma0_4 d L k h1 h2 v3 gM fA fB gm z
      = colMean (blkU (F := F) X (uT L k.val) (halfOf (z 0))) (msU (F := F) Mc (uT L k.val)) (rcpF (msU (F := F) Mc (uT L k.val))) (colOf (z 0)) := by
    intro z
    have hz : (z 0).val < 1024 := (z 0).isLt
    unfold vtrip_v1.sl.dma0_4
    rw [ReadAs.apply_same, ht6]
    first | rw [ht7] | skip
    show (meanb).view.writes (Elt F) gm (_ ++ _) z = _
    rw [View.writes_append, col_t5_mean_apply]
    by_cases h512 : 512 ≤ (z 0).val
    · rw [if_pos h512, hMS, hR7, hfB]
      have eh : halfOf (z 0) = 1 := Fin.ext (by show (z 0).val / 512 = 1; omega)
      have ec : colOf (z 0) = (⟨(z 0).val - 512, sub512_lt_t5 z⟩ : Fin 512) := Fin.ext (by show (z 0).val % 512 = (z 0).val - 512; omega)
      rw [eh, ec]
    · rw [if_neg h512, col_t4_mean]
      have hlt : (z 0).val < 512 := by omega
      show (if h : (z 0).val < 512 then _ else _) = _
      rw [dif_pos hlt, hMS, hR6, hfA]
      have eh : halfOf (z 0) = 0 := Fin.ext (by show (z 0).val / 512 = 0; omega)
      have ec : colOf (z 0) = (⟨(z 0).val, hlt⟩ : Fin 512) := Fin.ext (by show (z 0).val % 512 = (z 0).val; omega)
      rw [eh, ec]
  have hvE : ∀ j ∈ eS L k.val, ((esl (k0_off287 L k) (k0_off287_inb L k h1 h2)).view.writes (Elt F) fE
      [⟨Rect.whole S1024, vtrip_v1.sl.dma0_4 d L k h1 h2 v3 gM fA fB gm⟩]) j = Esp (F := F) X Mc j := by
    intro j hj
    obtain ⟨hy, hval⟩ := eS_point (F := F) X Mc L k.val (by omega) j hj
    have hemb : (esl (k0_off287 L k) (k0_off287_inb L k h1 h2)).view.emb (ix1 (j 1)) = j :=
      funext fun a => Fin.ext (by
        rw [emb_esl]
        have ea := congrFun eeO a
        rw [ea]; exact hy a)
    rw [← hemb]
    refine (((View.read_apply _ _).trans (cast_eq _ _)).symm).trans ?_
    rw [View.read_writes_whole, hM, hemb, hval]

  have pSC : ∀ g, (iprop(((b1).view.loc (thr d L) ↦[(b1).view.set]{fullShare} g) ∗ ((xV).view.loc (thr d L) ↦[(xsl (k0_off218 L k) (k0_off218_inb L k h1 h2 hc8)).view.set]{q} X)) : sProp 𝕄)
      = iprop(((b1).view.loc (thr d L) ↦[(b1).view.set]{fullShare} g) ∗ ((xV).view.loc (thr d L) ↦[(xsl (uo3 L (k.val + 1) 0) (uo3_inb L (k.val + 1) 0)).view.set]{q} X)) := fun g => by
    rw [xset_congr exC _ (uo3_inb L (k.val + 1) 0)]
  have pFA : ∀ g, (iprop(((b2).view.loc (thr d L) ↦[(b2).view.set]{fullShare} g) ∗ ((xV).view.loc (thr d L) ↦[(xsl (k0_off286 L k) (k0_off286_inb L k h1 h2 hc10)).view.set]{q} X)) : sProp 𝕄)
      = iprop(((b2).view.loc (thr d L) ↦[(b2).view.set]{fullShare} g) ∗ ((xV).view.loc (thr d L) ↦[(xsl (uo3 L (k.val + 1) 512) (uo3_inb L (k.val + 1) 512)).view.set]{q} X)) := fun g => by
    rw [xset_congr exA2 _ (uo3_inb L (k.val + 1) 512)]
  have pSB : ∀ g g', (iprop(((dsl (k0_off219 L k) (k0_off219_inb L k h1 h2)).view.loc (thr d L) ↦[(dsl (k0_off219 L k) (k0_off219_inb L k h1 h2)).view.set]{fullShare} g) ∗ ((b0).view.loc (thr d L) ↦[(b0).view.set]{fullShare} g')) : sProp 𝕄)
      = iprop(((dsl (uo3 L k.val 512) (uo3_inb L k.val 512)).view.loc (thr d L) ↦[(dsl (uo3 L k.val 512) (uo3_inb L k.val 512)).view.set]{fullShare} g) ∗ ((b0).view.loc (thr d L) ↦[(b0).view.set]{fullShare} g')) := fun g g' => by
    rw [← hs1]
  have pFM : ∀ g g', (iprop(((esl (k0_off287 L k) (k0_off287_inb L k h1 h2)).view.loc (thr d L) ↦[(esl (k0_off287 L k) (k0_off287_inb L k h1 h2)).view.set]{fullShare} g) ∗ ((meanb).view.loc (thr d L) ↦[(meanb).view.set]{fullShare} g')) : sProp 𝕄)
      = iprop(((esl (uo2 L k.val) (uo2_inb L k.val)).view.loc (thr d L) ↦[(esl (uo2 L k.val) (uo2_inb L k.val)).view.set]{fullShare} g) ∗ ((meanb).view.loc (thr d L) ↦[(meanb).view.set]{fullShare} g')) := fun g g' => by
    rw [← hsE]
  ihave SC' := (Transfers.Flight_mono countersEmb (thr d L) (Entails.of_eq (pSC _))) $$ SC
  ihave FA' := (Transfers.Flight_mono countersEmb (thr d L) (Entails.of_eq (pFA _))) $$ FA
  ihave SB' := (Transfers.Flight_mono countersEmb (thr d L) (Entails.of_eq (pSB _ _))) $$ SB
  ihave FM' := (Transfers.Flight_mono countersEmb (thr d L) (Entails.of_eq (pFM _ _))) $$ FM

  isplitr
  · ipureintro
    intro l
    rw [pay1818_lane, hcnt]
    rfl

  iexists _
  isplitl [HO]; · iexact HO
  isplitr
  · ipureintro
    intro p hp
    simp only [Finset.mem_insert] at hp
    rcases hp with (rfl | rfl | rfl | rfl | rfl | hp) <;> first | exact .inr rfl | exact .inl hp
  isplitl [Hmall]; · iexact Hmall

  isplitl [HX]
  · have hx : (((xV).view.loc (thr d L) ↦[(Finset.univ \ (xsl (k0_off218 L k) (k0_off218_inb L k h1 h2 hc8)).view.set) \ (xsl (k0_off286 L k) (k0_off286_inb L k h1 h2 hc10)).view.set]{q} X : sProp 𝕄))
        = ((xV).view.loc (thr d L) ↦[(Finset.univ \ (xsl (uo3 L (k.val + 1) 0) (uo3_inb L (k.val + 1) 0)).view.set) \ (xsl (uo3 L (k.val + 1) 512) (uo3_inb L (k.val + 1) 512)).view.set]{q} X) := by
      rw [xset_congr exC _ (uo3_inb L (k.val + 1) 0), xset_congr exA2 _ (uo3_inb L (k.val + 1) 512)]
    iapply (Entails.of_eq hx); iexact HX

  isplitl [HD FC_dst HD0']
  · have hb : dS L k.val 0 ⊆ (dPart (wid L) \ dS L (k.val - 1) 512) \ dS L k.val 512 :=
      Finset.subset_sdiff.mpr ⟨hsub0, dS_disjoint L (by omega) (by omega) (.inl rfl) (.inr rfl) (.inr (by decide))⟩
    have ha : dS L (k.val - 1) 512 ⊆ dPart (wid L) \ dS L k.val 512 :=
      Finset.subset_sdiff.mpr ⟨dS_subset L (k.val - 1) 512 (.inr rfl), dS_disjoint L (by omega) (by omega) (.inr rfl) (.inr rfl) (.inl (by omega))⟩
    have hset1 : ((dPart (wid L) \ dS L (k.val - 1) 512) \ dS L k.val 0) \ dS L k.val 512
        = ((dPart (wid L) \ dS L (k.val - 1) 512) \ dS L k.val 512) \ dS L k.val 0 := sdiff_right_comm _ _ _
    have hset2 : (dPart (wid L) \ dS L (k.val - 1) 512) \ dS L k.val 512
        = (dPart (wid L) \ dS L k.val 512) \ dS L (k.val - 1) 512 := sdiff_right_comm _ _ _
    rw [hset1]
    have e0' : ∀ g, (((dsl (k0_off151 L k) (k0_off151_inb L k h1 h2)).view.loc (thr d L) ↦[(dsl (k0_off151 L k) (k0_off151_inb L k h1 h2)).view.set]{fullShare} g) : sProp 𝕄) = ((dV).view.loc (thr d L) ↦[dS L k.val 0]{fullShare} g) := fun g => by rw [hs0]
    ihave H0 := (Entails.of_eq (e0' _)) $$ HD0'
    ihave H1 := (pointsTo_join_subset (ℓ := (dV).view.loc (thr d L)) hb) $$ [H0 HD]
    · isplitl [H0]; · iexact H0
      iexact HD
    rw [hset2]
    ihave H2 := (pointsTo_join_subset (ℓ := (dV).view.loc (thr d L)) ha) $$ [FC_dst H1]
    · isplitl [FC_dst]; · iexact FC_dst
      iexact H1
    iexists _
    isplitl [H2]; · iexact H2
    ipureintro
    exact pw_two (dS L k.val 0) (dS L (k.val - 1) 512) _ fd fD
      (dS_disjoint L (by omega) (by omega) (.inl rfl) (.inr rfl) (.inl (by omega))) (Dsp (F := F) X Mc) hv0

  isplitl [HE FM_dst]
  · have ha : eS L (k.val - 1) ⊆ ePart (wid L) \ eS L k.val :=
      Finset.subset_sdiff.mpr ⟨eS_subset L (k.val - 1), eS_disjoint L (by omega) (by omega) (by omega)⟩
    have hset : (ePart (wid L) \ eS L (k.val - 1)) \ eS L k.val = (ePart (wid L) \ eS L k.val) \ eS L (k.val - 1) := sdiff_right_comm _ _ _
    rw [hset]
    ihave H2 := (pointsTo_join_subset (ℓ := (eV).view.loc (thr d L)) ha) $$ [FM_dst HE]
    · isplitl [FM_dst]; · iexact FM_dst
      iexact HE
    iexists _
    isplitl [H2]; · iexact H2
    ipureintro
    exact pw_one (eS L (k.val - 1)) fe fE

  iexists _, _, _, _, _, _
  isplitr
  rotate_left
  isplitl [SC']; · iexact SC'
  isplitl [FA']; · iexact FA'
  isplitl [SB']; · iexact SB'
  isplitl [FM']; · iexact FM'
  isplitl [FC]; · iexact FC
  isplitl [SA]; · iexact SA
  · iexact FB
  · ipureintro
    refine ⟨?_, ?_, ?_, ?_⟩
    · exact (whole_writes_whole _ _ _).trans (read_xsl_uo3 X L (k.val + 1) 0 _ _ exC)
    · exact (View.write_whole_univ (cc0_scratch2 : Ref sig .scVector) _ _).trans (read_xsl_uo3 X L (k.val + 1) 1 _ _ exA2)
    · exact hv1
    · exact hvE

end Cert.Proof.KI

end
-- ==== Proof.VStepV1.lean ====
import proofs.«204522_g36051955483029_cont_8to1_b_1192_15_alg».proof.Proof.VInv
import proofs.«204522_g36051955483029_cont_8to1_b_1192_15_alg».proof.Proof.VTripV1

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords)

theorem vstep_v1 (k : Fin k0_t1_loop.trips) (h1 : k0_cond1 k = 1#1) (h2 : ¬ k0_cond2 k = 1#1) (hpos : 0 < k.val) (hlt : k.val + 1 < 16)
    (q : PosShare TreeShare) (X : Buf (Elt F) ((xV).view.loc (thr d L))) (Mc : Buf (Elt F) ((mV).view.loc (thr d L)))
    (O : CellTallies nD τ sig (HIx 1)) (W : Waits sig (HIx 1))
    (gM : Buf (Elt F) ((mall).view.loc (thr d L))) (hgM : MallOf (F := F) L Mc gM) (v3 : BitVec 32) (acc : FVec F S16 .f32) :
    vinv (F := F) d L q X Mc O W gM k.val acc
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => vinv (F := F) d L q X Mc O W gM (k.val + 1) r := by
  have hmod : k.val % 3 = 1 := (cond1n2_mod k).mp ⟨h1, h2⟩
  have hmod' : (k.val + 1) % 3 = 2 := by omega
  have hp0 : vpipe (F := F) d L q X Mc k.val = vpipeMid1 (F := F) d L q X Mc k.val := by
    unfold vpipe; simp [hmod, show k.val ≠ 0 by omega, show ¬ 16 ≤ k.val by omega]
  have hp1 : vpipe (F := F) d L q X Mc (k.val + 1) = vpipeMid2 (F := F) d L q X Mc (k.val + 1) := by
    unfold vpipe; simp [hmod', show ¬ 16 ≤ k.val + 1 by omega]
  have hx0 : xRest (F := F) d L q X k.val = ((xV).view.loc (thr d L) ↦[(Finset.univ \ (xsl (uo3 L k.val 0) (uo3_inb L k.val 0)).view.set) \ (xsl (uo3 L k.val 512) (uo3_inb L k.val 512)).view.set]{q} X) := by
    unfold xRest; rw [if_pos (by omega)]
  have hx1 : xRest (F := F) d L q X (k.val + 1) = ((xV).view.loc (thr d L) ↦[(Finset.univ \ (xsl (uo3 L (k.val + 1) 0) (uo3_inb L (k.val + 1) 0)).view.set) \ (xsl (uo3 L (k.val + 1) 512) (uo3_inb L (k.val + 1) 512)).view.set]{q} X) := by
    unfold xRest; rw [if_pos (by omega)]
  have hd0 : lentD L k.val = dS L (k.val - 1) 512 := by unfold lentD; rw [if_neg (by omega), if_pos (by omega)]
  have hd1 : lentD L (k.val + 1) = dS L k.val 512 := by unfold lentD; rw [if_neg (by omega), if_pos (by omega)]; rfl
  have he0 : lentE L k.val = eS L (k.val - 1) := by unfold lentE; rw [if_neg (by omega)]
  have he1 : lentE L (k.val + 1) = eS L k.val := by unfold lentE; rw [if_neg (by omega)]; rfl
  have hm0 : min k.val 15 = k.val := Nat.min_eq_left (by omega)
  have hm1 : min (k.val + 1) 15 = k.val + 1 := Nat.min_eq_left (by omega)
  unfold vinv
  rw [hp0, hp1, hx0, hx1, hd0, hd1, he0, he1]
  unfold vpipeMid1 vpipeMid2
  simp only [Nat.add_sub_cancel]
  iintro ⟨#Hmw, ⟨%W', HO, %hW'⟩, Hmall, HX, ⟨%fD, HD, %hDone⟩, ⟨%fE, HE, %hDoneE⟩, %hAcc, ⟨%fA, %fB, %fC, %gm, %fd, %fe, %hP, FA, FB, FC, FM, SA, SB, SC⟩⟩
  obtain ⟨hfA, hfB, hfd, hfe⟩ := hP
  iapply (wp_wand_r Idealize.ShloMosaic.frame (wpE (defs₀ (F := F)) 𝒱₀ (thr d L) none) Set.univ)
  isplitl [HO Hmall HX HD HE FA FB FC FM SA SB SC]
  · iapply (vtrip_v1 (F := F) d L k h1 h2 hpos hlt q O W' v3 acc X gM fA fB fC gm fd fD fe fE Mc hgM hfA hfB)
    isplitr; · iexact Hmw
    isplitl [HO]; · iexact HO
    isplitl [Hmall]; · iexact Hmall
    isplitl [HX]; · iexact HX
    isplitl [HD]; · iexact HD
    isplitl [HE]; · iexact HE
    isplitl [FA]; · iexact FA
    isplitl [FB]; · iexact FB
    isplitl [FC]; · iexact FC
    isplitl [FM]; · iexact FM
    isplitl [SA]; · iexact SA
    isplitl [SB]; · iexact SB
    iexact SC
  · iintro %r ⟨%hr, %W'', HO, %hW'', Hmall, HX, ⟨%fD', HD, %hD'⟩, ⟨%fE', HE, %hE'⟩, ⟨%fA', %fB', %fC', %gm', %fd', %fe', %hP', HP⟩⟩
    obtain ⟨hD1, hD2, hD3⟩ := hD'
    obtain ⟨hE1, hE2⟩ := hE'
    isplitr; · iexact Hmw
    isplitl [HO]
    · iexists W''
      isplitl [HO]; · iexact HO
      ipureintro
      intro p hp
      rcases hW'' p hp with h | h
      · exact hW' p h
      · exact .inr h
    isplitl [Hmall]; · iexact Hmall
    isplitl [HX]; · iexact HX
    isplitl [HD]
    · iexists fD'
      isplitl [HD]; · iexact HD
      ipureintro
      unfold DoneD at hDone ⊢
      rw [hm0] at hDone
      rw [hm1]
      intro j c hj hc hret i hi
      by_cases h1 : j = k.val ∧ c = 0
      · obtain ⟨rfl, rfl⟩ := h1; exact hD1 i hi
      by_cases h2 : j + 1 = k.val ∧ c = 512
      · obtain ⟨hj2, rfl⟩ := h2
        have hjj : j = k.val - 1 := by omega
        subst hjj
        rw [hD2 i hi]; exact hfd i hi
      · have hn1 : i ∉ dS L k.val 0 := fun hi' =>
          Finset.disjoint_left.mp (dS_disjoint L hj (by omega) hc (.inl rfl) (by
            by_contra hcon; simp only [not_or, ne_eq, not_not] at hcon; exact h1 ⟨hcon.1, hcon.2⟩)) hi hi'
        have hn2 : i ∉ dS L (k.val - 1) 512 := fun hi' =>
          Finset.disjoint_left.mp (dS_disjoint L hj (by omega) hc (.inr rfl) (by
            by_contra hcon; simp only [not_or, ne_eq, not_not] at hcon; exact h2 ⟨by omega, hcon.2⟩)) hi hi'
        rw [hD3 i hn1 hn2]
        refine hDone j c hj hc ?_ i hi
        rcases hret with h | ⟨h, hc0⟩
        · rcases Nat.lt_or_ge (j + 1) k.val with h' | h'
          · exact .inl h'
          · have : j + 1 = k.val ∨ j = k.val := by omega
            rcases this with h'' | h''
            · rcases hc with rfl | rfl
              · exact .inr ⟨h'', rfl⟩
              · exact absurd ⟨h'', rfl⟩ h2
            · omega
        · exact absurd ⟨by omega, hc0⟩ h1
    isplitl [HE]
    · iexists fE'
      isplitl [HE]; · iexact HE
      ipureintro
      intro j hj hret i hi
      by_cases h2 : j + 1 = k.val
      · have hjj : j = k.val - 1 := by omega
        subst hjj
        rw [hE1 i hi]; exact hfe i hi
      · have hn : i ∉ eS L (k.val - 1) := fun hi' =>
          Finset.disjoint_left.mp (eS_disjoint L hj (by omega) (by omega)) hi hi'
        rw [hE2 i hn]
        exact hDoneE j hj (by omega) i hi
    isplitr
    · ipureintro
      intro l hl
      rw [hr l]
      by_cases hlk : l.val = k.val
      · rw [if_pos hlk, hlk]
      · rw [if_neg hlk]; exact hAcc l (by omega)
    iexists fA', fB', fC', gm', fd', fe'
    isplitr
    · ipureintro; exact hP'
    iexact HP

end Cert.Proof.KI

end
-- ==== Proof.ColT2.lean ====
import proofs.«204522_g36051955483029_cont_8to1_b_1192_15_alg».proof.Proof.ColLoop

set_option maxRecDepth 8192
set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords) (k0_t1 : Fin k0_t1_loop.trips) (arg20 : BitVec 32) (k0_h1 : k0_cond1 k0_t1 = 1#1) (k0_h2 : k0_cond2 k0_t1 = 1#1) (v61 : BitVec 32) (v75 : F .f32) (v77 : F .f32) (v79 : F .f32) (v81 : F .f32) (v83 : F .f32) (v85 : F .f32) (v87 : F .f32) (v89 : F .f32) (v91 : F .f32) (v93 : F .f32) (v95 : F .f32) (v97 : F .f32) (v99 : F .f32) (v101 : F .f32) (v103 : F .f32) (v105 : F .f32) (v107 : F .f32) (v109 : F .f32) (v111 : F .f32) (v113 : F .f32) (v115 : F .f32) (v117 : F .f32) (v119 : F .f32) (v121 : F .f32) (v123 : F .f32) (v125 : F .f32) (v127 : F .f32) (v129 : F .f32) (v131 : F .f32) (v133 : F .f32) (v135 : F .f32) (v137 : F .f32) (v139 : F .f32) (v141 : F .f32) (v143 : F .f32) (v145 : F .f32) (v147 : F .f32) (v149 : F .f32) (v151 : F .f32) (v153 : F .f32) (v155 : F .f32) (v157 : F .f32) (v159 : F .f32) (v161 : F .f32) (v163 : F .f32) (v165 : F .f32) (v167 : F .f32) (v169 : F .f32) (v171 : F .f32) (v173 : F .f32) (v175 : F .f32) (v177 : F .f32) (v179 : F .f32) (v181 : F .f32) (v183 : F .f32) (v185 : F .f32) (v187 : F .f32) (v189 : F .f32) (v191 : F .f32) (v193 : F .f32) (v195 : F .f32) (v197 : F .f32) (v199 : F .f32) (v201 : F .f32) (v236 : F .f32)

/-- One trip of the loop `k0_t2_loop` at a symbolic trip number. -/
@[irreducible] def trip_t2 (k : Fin k0_t2_loop.trips) :
    TripSpec (F := F) d L (b1) (k0_t2_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236 k ()) := by
  have hk : k.val < 32 := Nat.lt_of_lt_of_le k.isLt k0_t2_abs.2.1
  refine ⟨?_, ?_, fun fb fm => ?run⟩
  case run =>
    unfold k0_t2_body
    iintro ⟨HB, HM⟩
    sl_exec
    sl_step
    sl_close

set_option warn.classDefReducibility false in
/-- The loop's invariant instance. -/
@[sl_loop] def loopInv_t2 (Gb : BufTy.Contents (Elt F) (b1).view.ty) (Gm : BufTy.Contents (Elt F) (meanb).view.ty) :
    Idealize.ShloMosaic.LoopInv (M := MT nD τ sig (HIx 1) (Elt F) ℕ UU ℕ) Idealize.ShloMosaic.frame (wpE (defs₀ (F := F)) 𝒱₀ (thr d L) none) Set.univ
      k0_t2_loop.lb k0_t2_loop.ub k0_t2_loop.st (k0_t2_ok k0_t1 k0_h1 k0_h2) ()
      (k0_t2_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) :=
  colLoop (F := F) d L (b1) (trip_t2 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) Gb Gm

end Cert.Proof.KI

end
-- ==== Proof.ColT3.lean ====
import proofs.«204522_g36051955483029_cont_8to1_b_1192_15_alg».proof.Proof.ColLoop

set_option maxRecDepth 8192
set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords) (k0_t1 : Fin k0_t1_loop.trips) (k0_h1 : k0_cond1 k0_t1 = 1#1) (k0_h2 : k0_cond2 k0_t1 = 1#1) (v75 : F .f32) (v77 : F .f32) (v79 : F .f32) (v81 : F .f32) (v83 : F .f32) (v85 : F .f32) (v87 : F .f32) (v89 : F .f32) (v91 : F .f32) (v93 : F .f32) (v95 : F .f32) (v97 : F .f32) (v99 : F .f32) (v101 : F .f32) (v103 : F .f32) (v105 : F .f32) (v107 : F .f32) (v109 : F .f32) (v111 : F .f32) (v113 : F .f32) (v115 : F .f32) (v117 : F .f32) (v119 : F .f32) (v121 : F .f32) (v123 : F .f32) (v125 : F .f32) (v127 : F .f32) (v129 : F .f32) (v131 : F .f32) (v133 : F .f32) (v135 : F .f32) (v137 : F .f32) (v139 : F .f32) (v141 : F .f32) (v143 : F .f32) (v145 : F .f32) (v147 : F .f32) (v149 : F .f32) (v151 : F .f32) (v153 : F .f32) (v155 : F .f32) (v157 : F .f32) (v159 : F .f32) (v161 : F .f32) (v163 : F .f32) (v165 : F .f32) (v167 : F .f32) (v169 : F .f32) (v171 : F .f32) (v173 : F .f32) (v175 : F .f32) (v177 : F .f32) (v179 : F .f32) (v181 : F .f32) (v183 : F .f32) (v185 : F .f32) (v187 : F .f32) (v189 : F .f32) (v191 : F .f32) (v193 : F .f32) (v195 : F .f32) (v197 : F .f32) (v199 : F .f32) (v201 : F .f32) (v269 : FVec F S16 .f32)

/-- One trip of the loop `k0_t3_loop` at a symbolic trip number. -/
@[irreducible] def trip_t3 (k : Fin k0_t3_loop.trips) :
    TripSpec (F := F) d L (b2) (k0_t3_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269 k ()) := by
  have hk : k.val < 32 := Nat.lt_of_lt_of_le k.isLt k0_t3_abs.2.1
  refine ⟨?_, ?_, fun fb fm => ?run⟩
  case run =>
    unfold k0_t3_body
    iintro ⟨HB, HM⟩
    sl_exec
    sl_step
    sl_close

set_option warn.classDefReducibility false in
/-- The loop's invariant instance. -/
@[sl_loop] def loopInv_t3 (Gb : BufTy.Contents (Elt F) (b2).view.ty) (Gm : BufTy.Contents (Elt F) (meanb).view.ty) :
    Idealize.ShloMosaic.LoopInv (M := MT nD τ sig (HIx 1) (Elt F) ℕ UU ℕ) Idealize.ShloMosaic.frame (wpE (defs₀ (F := F)) 𝒱₀ (thr d L) none) Set.univ
      k0_t3_loop.lb k0_t3_loop.ub k0_t3_loop.st (k0_t3_ok k0_t1 k0_h1 k0_h2) ()
      (k0_t3_body (F := F) L xV (Memref.isWhole_whole _) mV (Memref.isWhole_whole _) dV (Memref.isWhole_whole _) eV (Memref.isWhole_whole _) cV' (Memref.isWhole_whole _)
      b0 (Memref.isWhole_whole _) b1 (Memref.isWhole_whole _) b2 (Memref.isWhole_whole _) mall (Memref.isWhole_whole _) meanb (Memref.isWhole_whole _) cmb (Memref.isWhole_whole _)
      cc0_scratch6 cc0_scratch7 cc0_scratch8 cc0_scratch9 cc0_scratch10 cc0_scratch11 cc0_scratch12 cc0_scoped0 cc0_scoped1 k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) :=
  colLoop (F := F) d L (b2) (trip_t3 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) Gb Gm

end Cert.Proof.KI

end
-- ==== Proof.ColT2Value.lean ====
import proofs.«204522_g36051955483029_cont_8to1_b_1192_15_alg».proof.Proof.ColT2
import proofs.«204522_g36051955483029_cont_8to1_b_1192_15_alg».proof.Proof.ColValue

set_option maxRecDepth 65536
set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.ValueIdx

local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "meanb" => (Memref.whole Cert.KernelIdeal.cc0_scratch4 : Memref Cert.KernelIdeal.sig Kind.scVector Space.vmem Cert.KernelIdeal.S1024 EltTy.f32)

variable (d : Dev nD) (L : grid0.Coords) (k0_t1 : Fin k0_t1_loop.trips) (arg20 : BitVec 32) (k0_h1 : k0_cond1 k0_t1 = 1#1) (k0_h2 : k0_cond2 k0_t1 = 1#1) (v61 : BitVec 32) (v75 : F .f32) (v77 : F .f32) (v79 : F .f32) (v81 : F .f32) (v83 : F .f32) (v85 : F .f32) (v87 : F .f32) (v89 : F .f32) (v91 : F .f32) (v93 : F .f32) (v95 : F .f32) (v97 : F .f32) (v99 : F .f32) (v101 : F .f32) (v103 : F .f32) (v105 : F .f32) (v107 : F .f32) (v109 : F .f32) (v111 : F .f32) (v113 : F .f32) (v115 : F .f32) (v117 : F .f32) (v119 : F .f32) (v121 : F .f32) (v123 : F .f32) (v125 : F .f32) (v127 : F .f32) (v129 : F .f32) (v131 : F .f32) (v133 : F .f32) (v135 : F .f32) (v137 : F .f32) (v139 : F .f32) (v141 : F .f32) (v143 : F .f32) (v145 : F .f32) (v147 : F .f32) (v149 : F .f32) (v151 : F .f32) (v153 : F .f32) (v155 : F .f32) (v157 : F .f32) (v159 : F .f32) (v161 : F .f32) (v163 : F .f32) (v165 : F .f32) (v167 : F .f32) (v169 : F .f32) (v171 : F .f32) (v173 : F .f32) (v175 : F .f32) (v177 : F .f32) (v179 : F .f32) (v181 : F .f32) (v183 : F .f32) (v185 : F .f32) (v187 : F .f32) (v189 : F .f32) (v191 : F .f32) (v193 : F .f32) (v195 : F .f32) (v197 : F .f32) (v199 : F .f32) (v201 : F .f32) (v236 : F .f32)

theorem trips_t2 : k0_t2_loop.trips = 32 := by decide

theorem buf_read_t2 (f : BufTy.Contents (Elt F) (b1).view.ty) (y : S64x512.Idx) : (b1).view.read (Elt F) f y = f y := rfl

/-- The first column of trip `k`, through the program's own offset function. -/
abbrev c_t2 (k : Fin k0_t2_loop.trips) : ℕ := k0_off73 k 1

theorem colOff_t2 (k : Fin k0_t2_loop.trips) : c_t2 k = 16 * k.val := by
  show k0_off73 k 1 = _
  rw [k0_off73_eq]; rfl

/-- The first sixty-four pieces the run lists are the masked-row tiles. -/
theorem hb64_eq_t2 (k : Fin k0_t2_loop.trips) (fb : BufTy.Contents (Elt F) (b1).view.ty) :
    trip_t2.sl.HB_64 (F := F) k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 k fb = phase1 (F := F) c_t2 trips_t2 colOff_t2 k (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b1) c_t2 trips_t2 colOff_t2 k fb)) := by
  sl_kernel_rfl

/-- The run's name for the mean vector is `mcV` of the masked rows. -/
theorem r63_eq_t2 (k : Fin k0_t2_loop.trips) (fb : BufTy.Contents (Elt F) (b1).view.ty) :
    trip_t2.sl.r_63 (F := F) k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236 k fb = mcV (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b1) c_t2 trips_t2 colOff_t2 k fb)) (k0_pay602 v147 v149 v151 v153 v155 v157 v159 v161 v163 v165 v167 v169 v171 v173 v175 v177 v179 v181 v183 v185 v187 v189 v191 v193 v195 v197 v199 v201 v236) := by
  sl_kernel_rfl

unseal trip_t2 in
/-- The trip's list for the mean buffer is one store of the mean vector. -/
theorem tripLm_eq_t2 (k : Fin k0_t2_loop.trips) (fb : BufTy.Contents (Elt F) (b1).view.ty) (fm : BufTy.Contents (Elt F) (meanb).view.ty) :
    ((trip_t2 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) k).2.1 fb fm
      = [⟨Rect.unit (s := S1024) (k0_off74 k) S16.size (k0_off74_inb k0_t1 k k0_h1 k0_h2), shapeCast S16 (mcV (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b1) c_t2 trips_t2 colOff_t2 k fb)) (k0_pay602 v147 v149 v151 v153 v155 v157 v159 v161 v163 v165 v167 v169 v171 v173 v175 v177 v179 v181 v183 v185 v187 v189 v191 v193 v195 v197 v199 v201 v236)) shapeCasts_S16_S16⟩] := by
  sl_kernel_rfl

unseal trip_t2 in
/-- The sixty-four second-pass stores are peeled off one at a time down to the opening tiles. -/
theorem inv_trip_t2 (k : Fin k0_t2_loop.trips) (fb : BufTy.Contents (Elt F) (b1).view.ty) (fm : BufTy.Contents (Elt F) (meanb).view.ty) :
    ColInv (F := F) (b1) k (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b1) c_t2 trips_t2 colOff_t2 k fb)) (mcV (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b1) c_t2 trips_t2 colOff_t2 k fb)) (k0_pay602 v147 v149 v151 v153 v155 v157 v159 v161 v163 v165 v167 v169 v171 v173 v175 v177 v179 v181 v183 v185 v187 v189 v191 v193 v195 v197 v199 v201 v236)) 64 (((trip_t2 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) k).1 fb fm) := by
  rw [← r63_eq_t2 (F := F) k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236 k fb]
  unfold trip_t2
  dsimp only
  iterate 64 (refine colInv_step (b1) c_t2 trips_t2 colOff_t2 k _ _ _ (by omega) _ _ _ _ rfl rfl ?_)
  rw [hb64_eq_t2 (F := F) k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 k fb]
  exact colInv_phase1 (b1) c_t2 trips_t2 colOff_t2 k _ _

/-- The staging buffer after the loop. -/
theorem col_t2_buf (Gb : BufTy.Contents (Elt F) (b1).view.ty) (Gm : BufTy.Contents (Elt F) (meanb).view.ty) :
    (b1).view.writes (Elt F) Gb (pb (F := F) d L (b1) (trip_t2 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) Gb Gm 32).1 = colDiff Gb (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (k0_pay602 v147 v149 v151 v153 v155 v157 v159 v161 v163 v165 v167 v169 v171 v173 v175 v177 v179 v181 v183 v185 v187 v189 v191 v193 v195 v197 v199 v201 v236) :=
  funext fun y => (col_buf d L (b1) c_t2 trips_t2 colOff_t2 (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (k0_pay602 v147 v149 v151 v153 v155 v157 v159 v161 v163 v165 v167 v169 v171 v173 v175 v177 v179 v181 v183 v185 v187 v189 v191 v193 v195 v197 v199 v201 v236) (trip_t2 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) Gb Gm (inv_trip_t2 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) y).trans
    (colDiff_congr _ _ _ _ y fun _ => rfl)

/-- The mean buffer after the loop: its first 512 entries are the column means. -/
theorem col_t2_mean (Gb : BufTy.Contents (Elt F) (b1).view.ty) (Gm : BufTy.Contents (Elt F) (meanb).view.ty) :
    (meanb).view.writes (Elt F) Gm (pb (F := F) d L (b1) (trip_t2 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) Gb Gm 32).2
      = fun j => if h : (j 0).val < 512 then colMean Gb (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (k0_pay602 v147 v149 v151 v153 v155 v157 v159 v161 v163 v165 v167 v169 v171 v173 v175 v177 v179 v181 v183 v185 v187 v189 v191 v193 v195 v197 v199 v201 v236) ⟨(j 0).val, h⟩ else Gm j :=
  funext fun j => by
    rw [mean_read d L (b1) c_t2 trips_t2 colOff_t2 (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (k0_pay602 v147 v149 v151 v153 v155 v157 v159 v161 v163 v165 v167 v169 v171 v173 v175 v177 v179 v181 v183 v185 v187 v189 v191 v193 v195 v197 v199 v201 v236) (trip_t2 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) Gb Gm (inv_trip_t2 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) 0 (Or.inl rfl) k0_off74 k0_off74_eq (fun k => k0_off74_inb k0_t1 k k0_h1 k0_h2) (tripLm_eq_t2 (F := F) d L k0_t1 arg20 k0_h1 k0_h2 v61 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v236) 32 le_rfl j]
    by_cases h : (j 0).val < 512
    · rw [if_pos (by omega), dif_pos h, colMeanN_of_lt _ _ _ (show (j 0).val - 0 < 512 from h)]
      exact colMean_congr _ _ _ _ _ fun _ => rfl
    · rw [if_neg (by omega), dif_neg h]

end Cert.Proof.KI

end
-- ==== Proof.ColT3Value.lean ====
import proofs.«204522_g36051955483029_cont_8to1_b_1192_15_alg».proof.Proof.ColT3
import proofs.«204522_g36051955483029_cont_8to1_b_1192_15_alg».proof.Proof.ColValue

set_option maxRecDepth 65536
set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open Idealize.ShloMosaic.ValueIdx

local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "meanb" => (Memref.whole Cert.KernelIdeal.cc0_scratch4 : Memref Cert.KernelIdeal.sig Kind.scVector Space.vmem Cert.KernelIdeal.S1024 EltTy.f32)

variable (d : Dev nD) (L : grid0.Coords) (k0_t1 : Fin k0_t1_loop.trips) (k0_h1 : k0_cond1 k0_t1 = 1#1) (k0_h2 : k0_cond2 k0_t1 = 1#1) (v75 : F .f32) (v77 : F .f32) (v79 : F .f32) (v81 : F .f32) (v83 : F .f32) (v85 : F .f32) (v87 : F .f32) (v89 : F .f32) (v91 : F .f32) (v93 : F .f32) (v95 : F .f32) (v97 : F .f32) (v99 : F .f32) (v101 : F .f32) (v103 : F .f32) (v105 : F .f32) (v107 : F .f32) (v109 : F .f32) (v111 : F .f32) (v113 : F .f32) (v115 : F .f32) (v117 : F .f32) (v119 : F .f32) (v121 : F .f32) (v123 : F .f32) (v125 : F .f32) (v127 : F .f32) (v129 : F .f32) (v131 : F .f32) (v133 : F .f32) (v135 : F .f32) (v137 : F .f32) (v139 : F .f32) (v141 : F .f32) (v143 : F .f32) (v145 : F .f32) (v147 : F .f32) (v149 : F .f32) (v151 : F .f32) (v153 : F .f32) (v155 : F .f32) (v157 : F .f32) (v159 : F .f32) (v161 : F .f32) (v163 : F .f32) (v165 : F .f32) (v167 : F .f32) (v169 : F .f32) (v171 : F .f32) (v173 : F .f32) (v175 : F .f32) (v177 : F .f32) (v179 : F .f32) (v181 : F .f32) (v183 : F .f32) (v185 : F .f32) (v187 : F .f32) (v189 : F .f32) (v191 : F .f32) (v193 : F .f32) (v195 : F .f32) (v197 : F .f32) (v199 : F .f32) (v201 : F .f32) (v269 : FVec F S16 .f32)

theorem trips_t3 : k0_t3_loop.trips = 32 := by decide

theorem buf_read_t3 (f : BufTy.Contents (Elt F) (b2).view.ty) (y : S64x512.Idx) : (b2).view.read (Elt F) f y = f y := rfl

/-- The first column of trip `k`, through the program's own offset function. -/
abbrev c_t3 (k : Fin k0_t3_loop.trips) : ℕ := k0_off141 k 1

theorem colOff_t3 (k : Fin k0_t3_loop.trips) : c_t3 k = 16 * k.val := by
  show k0_off141 k 1 = _
  rw [k0_off141_eq]; rfl

/-- The first sixty-four pieces the run lists are the masked-row tiles. -/
theorem hb64_eq_t3 (k : Fin k0_t3_loop.trips) (fb : BufTy.Contents (Elt F) (b2).view.ty) :
    trip_t3.sl.HB_64 (F := F) k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 k fb = phase1 (F := F) c_t3 trips_t3 colOff_t3 k (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b2) c_t3 trips_t3 colOff_t3 k fb)) := by
  sl_kernel_rfl

/-- The run's name for the mean vector is `mcV` of the masked rows. -/
theorem r63_eq_t3 (k : Fin k0_t3_loop.trips) (fb : BufTy.Contents (Elt F) (b2).view.ty) :
    trip_t3.sl.r_63 (F := F) k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269 k fb = mcV (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b2) c_t3 trips_t3 colOff_t3 k fb)) v269 := by
  sl_kernel_rfl

unseal trip_t3 in
/-- The trip's list for the mean buffer is one store of the mean vector. -/
theorem tripLm_eq_t3 (k : Fin k0_t3_loop.trips) (fb : BufTy.Contents (Elt F) (b2).view.ty) (fm : BufTy.Contents (Elt F) (meanb).view.ty) :
    ((trip_t3 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) k).2.1 fb fm
      = [⟨Rect.unit (s := S1024) (k0_off142 k) S16.size (k0_off142_inb k0_t1 k k0_h1 k0_h2), shapeCast S16 (mcV (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b2) c_t3 trips_t3 colOff_t3 k fb)) v269) shapeCasts_S16_S16⟩] := by
  sl_kernel_rfl

unseal trip_t3 in
/-- The sixty-four second-pass stores are peeled off one at a time down to the opening tiles. -/
theorem inv_trip_t3 (k : Fin k0_t3_loop.trips) (fb : BufTy.Contents (Elt F) (b2).view.ty) (fm : BufTy.Contents (Elt F) (meanb).view.ty) :
    ColInv (F := F) (b2) k (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b2) c_t3 trips_t3 colOff_t3 k fb)) (mcV (xmV (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) (ldRow (b2) c_t3 trips_t3 colOff_t3 k fb)) v269) 64 (((trip_t3 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) k).1 fb fm) := by
  rw [← r63_eq_t3 (F := F) k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269 k fb]
  unfold trip_t3
  dsimp only
  iterate 64 (refine colInv_step (b2) c_t3 trips_t3 colOff_t3 k _ _ _ (by omega) _ _ _ _ rfl rfl ?_)
  rw [hb64_eq_t3 (F := F) k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 k fb]
  exact colInv_phase1 (b2) c_t3 trips_t3 colOff_t3 k _ _

/-- The staging buffer after the loop. -/
theorem col_t3_buf (Gb : BufTy.Contents (Elt F) (b2).view.ty) (Gm : BufTy.Contents (Elt F) (meanb).view.ty) :
    (b2).view.writes (Elt F) Gb (pb (F := F) d L (b2) (trip_t3 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) Gb Gm 32).1 = colDiff Gb (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) v269 :=
  funext fun y => (col_buf d L (b2) c_t3 trips_t3 colOff_t3 (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) v269 (trip_t3 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) Gb Gm (inv_trip_t3 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) y).trans
    (colDiff_congr _ _ _ _ y fun _ => rfl)

theorem sub512_lt_t3 (j : S1024.Idx) : (j 0).val - 512 < 512 := by
  have h : (j 0).val < 1024 := (j 0).isLt
  omega

/-- The mean buffer after the loop, entry by entry: from entry 512 on, the column means. -/
theorem col_t3_mean_apply (Gb : BufTy.Contents (Elt F) (b2).view.ty) (Gm : BufTy.Contents (Elt F) (meanb).view.ty) (j : S1024.Idx) :
    (meanb).view.writes (Elt F) Gm (pb (F := F) d L (b2) (trip_t3 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) Gb Gm 32).2 j
      = if 512 ≤ (j 0).val then colMean Gb (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) v269 ⟨(j 0).val - 512, sub512_lt_t3 j⟩ else Gm j := by
  have hj : (j 0).val < 1024 := (j 0).isLt
  rw [mean_read d L (b2) c_t3 trips_t3 colOff_t3 (msOf v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201) v269 (trip_t3 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) Gb Gm (inv_trip_t3 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) 512 (Or.inr rfl) k0_off142 k0_off142_eq (fun k => k0_off142_inb k0_t1 k k0_h1 k0_h2) (tripLm_eq_t3 (F := F) d L k0_t1 k0_h1 k0_h2 v75 v77 v79 v81 v83 v85 v87 v89 v91 v93 v95 v97 v99 v101 v103 v105 v107 v109 v111 v113 v115 v117 v119 v121 v123 v125 v127 v129 v131 v133 v135 v137 v139 v141 v143 v145 v147 v149 v151 v153 v155 v157 v159 v161 v163 v165 v167 v169 v171 v173 v175 v177 v179 v181 v183 v185 v187 v189 v191 v193 v195 v197 v199 v201 v269) 32 le_rfl j]
  by_cases h : 512 ≤ (j 0).val
  · rw [if_pos (by omega), if_pos h, colMeanN_of_lt _ _ _ (sub512_lt_t3 j)]
    exact colMean_congr _ _ _ _ _ fun _ => rfl
  · rw [if_neg (by omega), if_neg h]

end Cert.Proof.KI

end
-- ==== Proof.VTripV2.lean ====
import proofs.«204522_g36051955483029_cont_8to1_b_1192_15_alg».proof.Proof.Canon
import proofs.«204522_g36051955483029_cont_8to1_b_1192_15_alg».proof.Proof.VDefs
import proofs.«204522_g36051955483029_cont_8to1_b_1192_15_alg».proof.Proof.VcLemmas
import proofs.«204522_g36051955483029_cont_8to1_b_1192_15_alg».proof.Proof.VbLemmas
import proofs.«204522_g36051955483029_cont_8to1_b_1192_15_alg».proof.Proof.VbLemmas2
import proofs.«204522_g36051955483029_cont_8to1_b_1192_15_alg».proof.Proof.Slices
import proofs.«204522_g36051955483029_cont_8to1_b_1192_15_alg».proof.Proof.ColT2
import proofs.«204522_g36051955483029_cont_8to1_b_1192_15_alg».proof.Proof.ColT3
import proofs.«204522_g36051955483029_cont_8to1_b_1192_15_alg».proof.Proof.ColT2Value
import proofs.«204522_g36051955483029_cont_8to1_b_1192_15_alg».proof.Proof.ColT3Value
import proofs.«204522_g36051955483029_cont_8to1_b_1192_15_alg».proof.Proof.VaLemmas

set_option maxHeartbeats 8000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords)

theorem vtrip_v2 (k : Fin k0_t1_loop.trips) (h1 : k0_cond1 k = 1#1) (h2 : k0_cond2 k = 1#1) (hpos : 0 < k.val) (hlt : k.val + 1 < 16)
    (q : PosShare TreeShare) (O : CellTallies nD τ sig (HIx 1)) (W : Waits sig (HIx 1)) (v3 : BitVec 32) (acc : FVec F S16 .f32)
    (X : Buf (Elt F) ((xV).view.loc (thr d L))) (gM : Buf (Elt F) ((mall).view.loc (thr d L)))
    (fA : Buf (Elt F) ((b1).view.loc (thr d L))) (fB : Buf (Elt F) ((b2).view.loc (thr d L))) (fC : Buf (Elt F) ((b0).view.loc (thr d L)))
    (gm : Buf (Elt F) ((meanb).view.loc (thr d L))) (fd fD : Buf (Elt F) ((dV).view.loc (thr d L))) (fe fE : Buf (Elt F) ((eV).view.loc (thr d L)))
    (Mc : Buf (Elt F) ((mV).view.loc (thr d L))) (hgM : MallOf (F := F) L Mc gM)
    (hfA : fA = blkU (F := F) X (uT L k.val) 0) (hfB : fB = blkU (F := F) X (uT L k.val) 1) :
    (iprop(Transfers.MayWaits (thr d L) (none : HIx 1) O
        ∗ owes (thr d L) O W
        ∗ ((mall).view.loc (thr d L) ↦[(mall).view.set]{fullShare} gM)
        ∗ ((xV).view.loc (thr d L) ↦[(Finset.univ \ (xsl (uo3 L k.val 0) (uo3_inb L k.val 0)).view.set) \ (xsl (uo3 L k.val 512) (uo3_inb L k.val 512)).view.set]{q} X)
        ∗ ((dV).view.loc (thr d L) ↦[dPart (wid L) \ dS L (k.val - 1) 512]{fullShare} fD)
        ∗ ((eV).view.loc (thr d L) ↦[ePart (wid L) \ eS L (k.val - 1)]{fullShare} fE)
        ∗ Transfers.Flight countersEmb (thr d L) (SemLoc.dma cc0_scratch7.sem) (default : HIx 1) 1048576 iprop(((b1).view.loc (thr d L) ↦[(b1).view.set]{fullShare} fA) ∗ ((xV).view.loc (thr d L) ↦[(xsl (uo3 L k.val 0) (uo3_inb L k.val 0)).view.set]{q} X))
        ∗ Transfers.Flight countersEmb (thr d L) (SemLoc.dma cc0_scratch8.sem) (default : HIx 1) 1048576 iprop(((b2).view.loc (thr d L) ↦[(b2).view.set]{fullShare} fB) ∗ ((xV).view.loc (thr d L) ↦[(xsl (uo3 L k.val 512) (uo3_inb L k.val 512)).view.set]{q} X))
        ∗ Transfers.Flight countersEmb (thr d L) (SemLoc.dma cc0_scratch9.sem) (default : HIx 1) 1048576 iprop(((dsl (uo3 L (k.val - 1) 512) (uo3_inb L (k.val - 1) 512)).view.loc (thr d L) ↦[(dsl (uo3 L (k.val - 1) 512) (uo3_inb L (k.val - 1) 512)).view.set]{fullShare} fd) ∗ ((b0).view.loc (thr d L) ↦[(b0).view.set]{fullShare} fC))
        ∗ Transfers.Flight countersEmb (thr d L) (SemLoc.dma cc0_scratch12.sem) (default : HIx 1) 32768 iprop(((esl (uo2 L (k.val - 1)) (uo2_inb L (k.val - 1))).view.loc (thr d L) ↦[(esl (uo2 L (k.val - 1)) (uo2_inb L (k.val - 1))).view.set]{fullShare} fe) ∗ ((meanb).view.loc (thr d L) ↦[(meanb).view.set]{fullShare} gm))
        ∗ semVal ((thr d L), SemLoc.dma cc0_scratch10.sem) 0
        ∗ semVal ((thr d L), SemLoc.dma cc0_scratch11.sem) 0
        ∗ semVal ((thr d L), SemLoc.dma cc0_scratch6.sem) 0) : sProp 𝕄)
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => iprop(⌜∀ l : Fin 16, r (ix1 l) = if l.val = k.val then Csp (F := F) Mc (ix1 (uT L k.val)) else acc (ix1 l)⌝
            ∗ ∃ W', owes (thr d L) O W' ∗ ⌜∀ p ∈ W', p ∈ W ∨ p.2 = none⌝
                ∗ ((mall).view.loc (thr d L) ↦[(mall).view.set]{fullShare} gM)
            ∗ ((xV).view.loc (thr d L) ↦[(Finset.univ \ (xsl (uo3 L (k.val + 1) 0) (uo3_inb L (k.val + 1) 0)).view.set) \ (xsl (uo3 L (k.val + 1) 512) (uo3_inb L (k.val + 1) 512)).view.set]{q} X)
            ∗ (∃ fD', ((dV).view.loc (thr d L) ↦[dPart (wid L) \ dS L k.val 512]{fullShare} fD')
                ∗ ⌜(∀ i ∈ dS L k.val 0, fD' i = Dsp (F := F) X Mc i) ∧ (∀ i ∈ dS L (k.val - 1) 512, fD' i = fd i)
                    ∧ (∀ i, i ∉ dS L k.val 0 → i ∉ dS L (k.val - 1) 512 → fD' i = fD i)⌝)
            ∗ (∃ fE', ((eV).view.loc (thr d L) ↦[ePart (wid L) \ eS L k.val]{fullShare} fE')
                ∗ ⌜(∀ j ∈ eS L (k.val - 1), fE' j = fe j) ∧ (∀ j, j ∉ eS L (k.val - 1) → fE' j = fE j)⌝)
            ∗ ∃ fA' fB' fC' gm' fd' fe', ⌜fA' = blkU (F := F) X (uT L (k.val + 1)) 0 ∧ fB' = blkU (F := F) X (uT L (k.val + 1)) 1
                ∧ (∀ i ∈ dS L k.val 512, fd' i = Dsp (F := F) X Mc i) ∧ (∀ j ∈ eS L k.val, fe' j = Esp (F := F) X Mc j)⌝ ∗ Transfers.Flight countersEmb (thr d L) (SemLoc.dma cc0_scratch6.sem) (default : HIx 1) 1048576 iprop(((b0).view.loc (thr d L) ↦[(b0).view.set]{fullShare} fA') ∗ ((xV).view.loc (thr d L) ↦[(xsl (uo3 L (k.val + 1) 0) (uo3_inb L (k.val + 1) 0)).view.set]{q} X))
        ∗ Transfers.Flight countersEmb (thr d L) (SemLoc.dma cc0_scratch7.sem) (default : HIx 1) 1048576 iprop(((b1).view.loc (thr d L) ↦[(b1).view.set]{fullShare} fB') ∗ ((xV).view.loc (thr d L) ↦[(xsl (uo3 L (k.val + 1) 512) (uo3_inb L (k.val + 1) 512)).view.set]{q} X))
        ∗ Transfers.Flight countersEmb (thr d L) (SemLoc.dma cc0_scratch11.sem) (default : HIx 1) 1048576 iprop(((dsl (uo3 L k.val 512) (uo3_inb L k.val 512)).view.loc (thr d L) ↦[(dsl (uo3 L k.val 512) (uo3_inb L k.val 512)).view.set]{fullShare} fd') ∗ ((b2).view.loc (thr d L) ↦[(b2).view.set]{fullShare} fC'))
        ∗ Transfers.Flight countersEmb (thr d L) (SemLoc.dma cc0_scratch12.sem) (default : HIx 1) 32768 iprop(((esl (uo2 L k.val) (uo2_inb L k.val)).view.loc (thr d L) ↦[(esl (uo2 L k.val) (uo2_inb L k.val)).view.set]{fullShare} fe') ∗ ((meanb).view.loc (thr d L) ↦[(meanb).view.set]{fullShare} gm'))
        ∗ semVal ((thr d L), SemLoc.dma cc0_scratch9.sem) 0
        ∗ semVal ((thr d L), SemLoc.dma cc0_scratch10.sem) 0
        ∗ semVal ((thr d L), SemLoc.dma cc0_scratch8.sem) 0) := by
  have hc3 : k0_cond3 k = 1#1 := (cond3_iff k).mpr hpos
  have hc4 : k0_cond4 k = 1#1 := (cond4_iff k).mpr hlt
  have hc5 : k0_cond5 k = 1#1 := (cond5_iff k).mpr hpos
  have hc6 : k0_cond6 k = 1#1 := (cond6_iff k).mpr hlt

  have exA : k0_off9 L k = uo3 L k.val 0 := by rw [k0_off9_eq, uo3_of_le L (by omega) (by omega)]; rfl
  have exB : k0_off77 L k = uo3 L k.val 512 := by rw [k0_off77_eq, uo3_of_le L (by omega) (by omega)]; rfl
  have exC : k0_off76 L k = uo3 L (k.val + 1) 0 := by rw [k0_off76_eq, uo3_of_le L (by omega) (by omega)]; rfl
  have exA2 : k0_off144 L k = uo3 L (k.val + 1) 512 := by rw [k0_off144_eq, uo3_of_le L (by omega) (by omega)]; rfl
  have eeO : k0_off145 L k = uo2 L k.val := by rw [k0_off145_eq, uo2_of_le L (by omega)]; rfl
  iintro ⟨#Hmw, HO, Hmall, HX, HD, HE, FA, FB, FC, FM, SA, SB, SC⟩

  have hsub0 : dS L k.val 0 ⊆ dPart (wid L) \ dS L (k.val - 1) 512 :=
    Finset.subset_sdiff.mpr ⟨dS_subset L k.val 0 (.inl rfl), dS_disjoint L (by omega) (by omega) (.inl rfl) (.inr rfl) (.inl (by omega))⟩
  have hsub1 : dS L k.val 512 ⊆ (dPart (wid L) \ dS L (k.val - 1) 512) \ dS L k.val 0 :=
    Finset.subset_sdiff.mpr ⟨Finset.subset_sdiff.mpr ⟨dS_subset L k.val 512 (.inr rfl), dS_disjoint L (by omega) (by omega) (.inr rfl) (.inr rfl) (.inl (by omega))⟩,
      dS_disjoint L (by omega) (by omega) (.inr rfl) (.inl rfl) (.inr (by decide))⟩
  have hsubE : eS L k.val ⊆ ePart (wid L) \ eS L (k.val - 1) :=
    Finset.subset_sdiff.mpr ⟨eS_subset L k.val, eS_disjoint L (by omega) (by omega) (by omega)⟩
  ihave HD' := (pointsTo_split_subset hsub0).1 $$ HD
  icases HD' with ⟨HD0, HD⟩
  ihave HD' := (pointsTo_split_subset hsub1).1 $$ HD
  icases HD' with ⟨HD1, HD⟩
  ihave HE' := (pointsTo_split_subset hsubE).1 $$ HE
  icases HE' with ⟨HE0, HE⟩

  have hs0 : dS L k.val 0 = (dsl (k0_off9 L k) (k0_off9_inb L k h1 h2)).view.set := dset_congr exA.symm _ _
  have hs1 : dS L k.val 512 = (dsl (k0_off77 L k) (k0_off77_inb L k h1 h2)).view.set := dset_congr exB.symm _ _
  have hsE : eS L k.val = (esl (k0_off145 L k) (k0_off145_inb L k h1 h2)).view.set := eset_congr eeO.symm _ _
  have e0 : (((dV).view.loc (thr d L) ↦[dS L k.val 0]{fullShare} fD : sProp 𝕄))
      = ((dsl (k0_off9 L k) (k0_off9_inb L k h1 h2)).view.loc (thr d L) ↦[(dsl (k0_off9 L k) (k0_off9_inb L k h1 h2)).view.set]{fullShare} fD) := by
    rw [hs0]
  have e1 : (((dV).view.loc (thr d L) ↦[dS L k.val 512]{fullShare} fD : sProp 𝕄))
      = ((dsl (k0_off77 L k) (k0_off77_inb L k h1 h2)).view.loc (thr d L) ↦[(dsl (k0_off77 L k) (k0_off77_inb L k h1 h2)).view.set]{fullShare} fD) := by
    rw [hs1]
  have eE : (((eV).view.loc (thr d L) ↦[eS L k.val]{fullShare} fE : sProp 𝕄))
      = ((esl (k0_off145 L k) (k0_off145_inb L k h1 h2)).view.loc (thr d L) ↦[(esl (k0_off145 L k) (k0_off145_inb L k h1 h2)).view.set]{fullShare} fE) := by
    rw [hsE]
  ihave HD0' := (Entails.of_eq e0) $$ HD0
  ihave HD1' := (Entails.of_eq e1) $$ HD1
  ihave HE0' := (Entails.of_eq eE) $$ HE0
  sl_unfold [k0_t1_body]
  sl_exec

  sl_step

  have hMS : msOf (vtrip_v2.sl.v75 d L k h1 h2 gM) (vtrip_v2.sl.v77 d L k h1 h2 gM) (vtrip_v2.sl.v79 d L k h1 h2 gM) (vtrip_v2.sl.v81 d L k h1 h2 gM) (vtrip_v2.sl.v83 d L k h1 h2 gM) (vtrip_v2.sl.v85 d L k h1 h2 gM) (vtrip_v2.sl.v87 d L k h1 h2 gM) (vtrip_v2.sl.v89 d L k h1 h2 gM) (vtrip_v2.sl.v91 d L k h1 h2 gM) (vtrip_v2.sl.v93 d L k h1 h2 gM) (vtrip_v2.sl.v95 d L k h1 h2 gM) (vtrip_v2.sl.v97 d L k h1 h2 gM) (vtrip_v2.sl.v99 d L k h1 h2 gM) (vtrip_v2.sl.v101 d L k h1 h2 gM) (vtrip_v2.sl.v103 d L k h1 h2 gM) (vtrip_v2.sl.v105 d L k h1 h2 gM) (vtrip_v2.sl.v107 d L k h1 h2 gM) (vtrip_v2.sl.v109 d L k h1 h2 gM) (vtrip_v2.sl.v111 d L k h1 h2 gM) (vtrip_v2.sl.v113 d L k h1 h2 gM) (vtrip_v2.sl.v115 d L k h1 h2 gM) (vtrip_v2.sl.v117 d L k h1 h2 gM) (vtrip_v2.sl.v119 d L k h1 h2 gM) (vtrip_v2.sl.v121 d L k h1 h2 gM) (vtrip_v2.sl.v123 d L k h1 h2 gM) (vtrip_v2.sl.v125 d L k h1 h2 gM) (vtrip_v2.sl.v127 d L k h1 h2 gM) (vtrip_v2.sl.v129 d L k h1 h2 gM) (vtrip_v2.sl.v131 d L k h1 h2 gM) (vtrip_v2.sl.v133 d L k h1 h2 gM) (vtrip_v2.sl.v135 d L k h1 h2 gM) (vtrip_v2.sl.v137 d L k h1 h2 gM) (vtrip_v2.sl.v139 d L k h1 h2 gM) (vtrip_v2.sl.v141 d L k h1 h2 gM) (vtrip_v2.sl.v143 d L k h1 h2 gM) (vtrip_v2.sl.v145 d L k h1 h2 gM) (vtrip_v2.sl.v147 d L k h1 h2 gM) (vtrip_v2.sl.v149 d L k h1 h2 gM) (vtrip_v2.sl.v151 d L k h1 h2 gM) (vtrip_v2.sl.v153 d L k h1 h2 gM) (vtrip_v2.sl.v155 d L k h1 h2 gM) (vtrip_v2.sl.v157 d L k h1 h2 gM) (vtrip_v2.sl.v159 d L k h1 h2 gM) (vtrip_v2.sl.v161 d L k h1 h2 gM) (vtrip_v2.sl.v163 d L k h1 h2 gM) (vtrip_v2.sl.v165 d L k h1 h2 gM) (vtrip_v2.sl.v167 d L k h1 h2 gM) (vtrip_v2.sl.v169 d L k h1 h2 gM) (vtrip_v2.sl.v171 d L k h1 h2 gM) (vtrip_v2.sl.v173 d L k h1 h2 gM) (vtrip_v2.sl.v175 d L k h1 h2 gM) (vtrip_v2.sl.r d L k h1 h2 gM) (vtrip_v2.sl.r_1 d L k h1 h2 gM) (vtrip_v2.sl.r_2 d L k h1 h2 gM) (vtrip_v2.sl.r_3 d L k h1 h2 gM) (vtrip_v2.sl.r_4 d L k h1 h2 gM) (vtrip_v2.sl.r_5 d L k h1 h2 gM) (vtrip_v2.sl.r_6 d L k h1 h2 gM) (vtrip_v2.sl.r_7 d L k h1 h2 gM) (vtrip_v2.sl.r_8 d L k h1 h2 gM) (vtrip_v2.sl.r_9 d L k h1 h2 gM) (vtrip_v2.sl.r_10 d L k h1 h2 gM) (vtrip_v2.sl.r_11 d L k h1 h2 gM) (vtrip_v2.sl.r_12 d L k h1 h2 gM) = msU Mc (uT L k.val) :=
    msOf_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (msU Mc (uT L k.val))
      (lane_of_load L Mc gM hgM k (k0_off4 k) (k0_off4_inb k h1 h2) shapeCasts_S1x16_S16 0 (k0_off4_eq k) 0 slices_S16_o0_S1 inpos_S1_p0)
      (lane_of_load L Mc gM hgM k (k0_off4 k) (k0_off4_inb k h1 h2) shapeCasts_S1x16_S16 0 (k0_off4_eq k) 1 slices_S16_o1_S1 inpos_S1_p0)
      (lane_of_load L Mc gM hgM k (k0_off4 k) (k0_off4_inb k h1 h2) shapeCasts_S1x16_S16 0 (k0_off4_eq k) 2 slices_S16_o2_S1 inpos_S1_p0)
      (lane_of_load L Mc gM hgM k (k0_off4 k) (k0_off4_inb k h1 h2) shapeCasts_S1x16_S16 0 (k0_off4_eq k) 3 slices_S16_o3_S1 inpos_S1_p0)
      (lane_of_load L Mc gM hgM k (k0_off4 k) (k0_off4_inb k h1 h2) shapeCasts_S1x16_S16 0 (k0_off4_eq k) 4 slices_S16_o4_S1 inpos_S1_p0)
      (lane_of_load L Mc gM hgM k (k0_off4 k) (k0_off4_inb k h1 h2) shapeCasts_S1x16_S16 0 (k0_off4_eq k) 5 slices_S16_o5_S1 inpos_S1_p0)
      (lane_of_load L Mc gM hgM k (k0_off4 k) (k0_off4_inb k h1 h2) shapeCasts_S1x16_S16 0 (k0_off4_eq k) 6 slices_S16_o6_S1 inpos_S1_p0)
      (lane_of_load L Mc gM hgM k (k0_off4 k) (k0_off4_inb k h1 h2) shapeCasts_S1x16_S16 0 (k0_off4_eq k) 7 slices_S16_o7_S1 inpos_S1_p0)
      (lane_of_load L Mc gM hgM k (k0_off4 k) (k0_off4_inb k h1 h2) shapeCasts_S1x16_S16 0 (k0_off4_eq k) 8 slices_S16_o8_S1 inpos_S1_p0)
      (lane_of_load L Mc gM hgM k (k0_off4 k) (k0_off4_inb k h1 h2) shapeCasts_S1x16_S16 0 (k0_off4_eq k) 9 slices_S16_o9_S1 inpos_S1_p0)
      (lane_of_load L Mc gM hgM k (k0_off4 k) (k0_off4_inb k h1 h2) shapeCasts_S1x16_S16 0 (k0_off4_eq k) 10 slices_S16_o10_S1 inpos_S1_p0)
      (lane_of_load L Mc gM hgM k (k0_off4 k) (k0_off4_inb k h1 h2) shapeCasts_S1x16_S16 0 (k0_off4_eq k) 11 slices_S16_o11_S1 inpos_S1_p0)
      (lane_of_load L Mc gM hgM k (k0_off4 k) (k0_off4_inb k h1 h2) shapeCasts_S1x16_S16 0 (k0_off4_eq k) 12 slices_S16_o12_S1 inpos_S1_p0)
      (lane_of_load L Mc gM hgM k (k0_off4 k) (k0_off4_inb k h1 h2) shapeCasts_S1x16_S16 0 (k0_off4_eq k) 13 slices_S16_o13_S1 inpos_S1_p0)
      (lane_of_load L Mc gM hgM k (k0_off4 k) (k0_off4_inb k h1 h2) shapeCasts_S1x16_S16 0 (k0_off4_eq k) 14 slices_S16_o14_S1 inpos_S1_p0)
      (lane_of_load L Mc gM hgM k (k0_off4 k) (k0_off4_inb k h1 h2) shapeCasts_S1x16_S16 0 (k0_off4_eq k) 15 slices_S16_o15_S1 inpos_S1_p0)
      (lane_of_load L Mc gM hgM k (k0_off5 k) (k0_off5_inb k h1 h2) shapeCasts_S1x16_S16 1 (k0_off5_eq k) 0 slices_S16_o0_S1 inpos_S1_p0)
      (lane_of_load L Mc gM hgM k (k0_off5 k) (k0_off5_inb k h1 h2) shapeCasts_S1x16_S16 1 (k0_off5_eq k) 1 slices_S16_o1_S1 inpos_S1_p0)
      (lane_of_load L Mc gM hgM k (k0_off5 k) (k0_off5_inb k h1 h2) shapeCasts_S1x16_S16 1 (k0_off5_eq k) 2 slices_S16_o2_S1 inpos_S1_p0)
      (lane_of_load L Mc gM hgM k (k0_off5 k) (k0_off5_inb k h1 h2) shapeCasts_S1x16_S16 1 (k0_off5_eq k) 3 slices_S16_o3_S1 inpos_S1_p0)
      (lane_of_load L Mc gM hgM k (k0_off5 k) (k0_off5_inb k h1 h2) shapeCasts_S1x16_S16 1 (k0_off5_eq k) 4 slices_S16_o4_S1 inpos_S1_p0)
      (lane_of_load L Mc gM hgM k (k0_off5 k) (k0_off5_inb k h1 h2) shapeCasts_S1x16_S16 1 (k0_off5_eq k) 5 slices_S16_o5_S1 inpos_S1_p0)
      (lane_of_load L Mc gM hgM k (k0_off5 k) (k0_off5_inb k h1 h2) shapeCasts_S1x16_S16 1 (k0_off5_eq k) 6 slices_S16_o6_S1 inpos_S1_p0)
      (lane_of_load L Mc gM hgM k (k0_off5 k) (k0_off5_inb k h1 h2) shapeCasts_S1x16_S16 1 (k0_off5_eq k) 7 slices_S16_o7_S1 inpos_S1_p0)
      (lane_of_load L Mc gM hgM k (k0_off5 k) (k0_off5_inb k h1 h2) shapeCasts_S1x16_S16 1 (k0_off5_eq k) 8 slices_S16_o8_S1 inpos_S1_p0)
      (lane_of_load L Mc gM hgM k (k0_off5 k) (k0_off5_inb k h1 h2) shapeCasts_S1x16_S16 1 (k0_off5_eq k) 9 slices_S16_o9_S1 inpos_S1_p0)
      (lane_of_load L Mc gM hgM k (k0_off5 k) (k0_off5_inb k h1 h2) shapeCasts_S1x16_S16 1 (k0_off5_eq k) 10 slices_S16_o10_S1 inpos_S1_p0)
      (lane_of_load L Mc gM hgM k (k0_off5 k) (k0_off5_inb k h1 h2) shapeCasts_S1x16_S16 1 (k0_off5_eq k) 11 slices_S16_o11_S1 inpos_S1_p0)
      (lane_of_load L Mc gM hgM k (k0_off5 k) (k0_off5_inb k h1 h2) shapeCasts_S1x16_S16 1 (k0_off5_eq k) 12 slices_S16_o12_S1 inpos_S1_p0)
      (lane_of_load L Mc gM hgM k (k0_off5 k) (k0_off5_inb k h1 h2) shapeCasts_S1x16_S16 1 (k0_off5_eq k) 13 slices_S16_o13_S1 inpos_S1_p0)
      (lane_of_load L Mc gM hgM k (k0_off5 k) (k0_off5_inb k h1 h2) shapeCasts_S1x16_S16 1 (k0_off5_eq k) 14 slices_S16_o14_S1 inpos_S1_p0)
      (lane_of_load L Mc gM hgM k (k0_off5 k) (k0_off5_inb k h1 h2) shapeCasts_S1x16_S16 1 (k0_off5_eq k) 15 slices_S16_o15_S1 inpos_S1_p0)
      (lane_of_load L Mc gM hgM k (k0_off6 k) (k0_off6_inb k h1 h2) shapeCasts_S1x16_S16 2 (k0_off6_eq k) 0 slices_S16_o0_S1 inpos_S1_p0)
      (lane_of_load L Mc gM hgM k (k0_off6 k) (k0_off6_inb k h1 h2) shapeCasts_S1x16_S16 2 (k0_off6_eq k) 1 slices_S16_o1_S1 inpos_S1_p0)
      (lane_of_load L Mc gM hgM k (k0_off6 k) (k0_off6_inb k h1 h2) shapeCasts_S1x16_S16 2 (k0_off6_eq k) 2 slices_S16_o2_S1 inpos_S1_p0)
      (lane_of_load L Mc gM hgM k (k0_off6 k) (k0_off6_inb k h1 h2) shapeCasts_S1x16_S16 2 (k0_off6_eq k) 3 slices_S16_o3_S1 inpos_S1_p0)
      (lane_of_load L Mc gM hgM k (k0_off6 k) (k0_off6_inb k h1 h2) shapeCasts_S1x16_S16 2 (k0_off6_eq k) 4 slices_S16_o4_S1 inpos_S1_p0)
      (lane_of_load L Mc gM hgM k (k0_off6 k) (k0_off6_inb k h1 h2) shapeCasts_S1x16_S16 2 (k0_off6_eq k) 5 slices_S16_o5_S1 inpos_S1_p0)
      (lane_of_load L Mc gM hgM k (k0_off6 k) (k0_off6_inb k h1 h2) shapeCasts_S1x16_S16 2 (k0_off6_eq k) 6 slices_S16_o6_S1 inpos_S1_p0)
      (lane_of_load L Mc gM hgM k (k0_off6 k) (k0_off6_inb k h1 h2) shapeCasts_S1x16_S16 2 (k0_off6_eq k) 7 slices_S16_o7_S1 inpos_S1_p0)
      (lane_of_load L Mc gM hgM k (k0_off6 k) (k0_off6_inb k h1 h2) shapeCasts_S1x16_S16 2 (k0_off6_eq k) 8 slices_S16_o8_S1 inpos_S1_p0)
      (lane_of_load L Mc gM hgM k (k0_off6 k) (k0_off6_inb k h1 h2) shapeCasts_S1x16_S16 2 (k0_off6_eq k) 9 slices_S16_o9_S1 inpos_S1_p0)
      (lane_of_load L Mc gM hgM k (k0_off6 k) (k0_off6_inb k h1 h2) shapeCasts_S1x16_S16 2 (k0_off6_eq k) 10 slices_S16_o10_S1 inpos_S1_p0)
      (lane_of_load L Mc gM hgM k (k0_off6 k) (k0_off6_inb k h1 h2) shapeCasts_S1x16_S16 2 (k0_off6_eq k) 11 slices_S16_o11_S1 inpos_S1_p0)
      (lane_of_load L Mc gM hgM k (k0_off6 k) (k0_off6_inb k h1 h2) shapeCasts_S1x16_S16 2 (k0_off6_eq k) 12 slices_S16_o12_S1 inpos_S1_p0)
      (lane_of_load L Mc gM hgM k (k0_off6 k) (k0_off6_inb k h1 h2) shapeCasts_S1x16_S16 2 (k0_off6_eq k) 13 slices_S16_o13_S1 inpos_S1_p0)
      (lane_of_load L Mc gM hgM k (k0_off6 k) (k0_off6_inb k h1 h2) shapeCasts_S1x16_S16 2 (k0_off6_eq k) 14 slices_S16_o14_S1 inpos_S1_p0)
      (lane_of_load L Mc gM hgM k (k0_off6 k) (k0_off6_inb k h1 h2) shapeCasts_S1x16_S16 2 (k0_off6_eq k) 15 slices_S16_o15_S1 inpos_S1_p0)
      (lane_of_load L Mc gM hgM k (k0_off7 k) (k0_off7_inb k h1 h2) shapeCasts_S1x16_S16 3 (k0_off7_eq k) 0 slices_S16_o0_S1 inpos_S1_p0)
      (lane_of_load L Mc gM hgM k (k0_off7 k) (k0_off7_inb k h1 h2) shapeCasts_S1x16_S16 3 (k0_off7_eq k) 1 slices_S16_o1_S1 inpos_S1_p0)
      (lane_of_load L Mc gM hgM k (k0_off7 k) (k0_off7_inb k h1 h2) shapeCasts_S1x16_S16 3 (k0_off7_eq k) 2 slices_S16_o2_S1 inpos_S1_p0)
      (lane_of_load L Mc gM hgM k (k0_off7 k) (k0_off7_inb k h1 h2) shapeCasts_S1x16_S16 3 (k0_off7_eq k) 3 slices_S16_o3_S1 inpos_S1_p0)
      (lane_of_load L Mc gM hgM k (k0_off7 k) (k0_off7_inb k h1 h2) shapeCasts_S1x16_S16 3 (k0_off7_eq k) 4 slices_S16_o4_S1 inpos_S1_p0)
      (lane_of_load L Mc gM hgM k (k0_off7 k) (k0_off7_inb k h1 h2) shapeCasts_S1x16_S16 3 (k0_off7_eq k) 5 slices_S16_o5_S1 inpos_S1_p0)
      (lane_of_load L Mc gM hgM k (k0_off7 k) (k0_off7_inb k h1 h2) shapeCasts_S1x16_S16 3 (k0_off7_eq k) 6 slices_S16_o6_S1 inpos_S1_p0)
      (lane_of_load L Mc gM hgM k (k0_off7 k) (k0_off7_inb k h1 h2) shapeCasts_S1x16_S16 3 (k0_off7_eq k) 7 slices_S16_o7_S1 inpos_S1_p0)
      (lane_of_load L Mc gM hgM k (k0_off7 k) (k0_off7_inb k h1 h2) shapeCasts_S1x16_S16 3 (k0_off7_eq k) 8 slices_S16_o8_S1 inpos_S1_p0)
      (lane_of_load L Mc gM hgM k (k0_off7 k) (k0_off7_inb k h1 h2) shapeCasts_S1x16_S16 3 (k0_off7_eq k) 9 slices_S16_o9_S1 inpos_S1_p0)
      (lane_of_load L Mc gM hgM k (k0_off7 k) (k0_off7_inb k h1 h2) shapeCasts_S1x16_S16 3 (k0_off7_eq k) 10 slices_S16_o10_S1 inpos_S1_p0)
      (lane_of_load L Mc gM hgM k (k0_off7 k) (k0_off7_inb k h1 h2) shapeCasts_S1x16_S16 3 (k0_off7_eq k) 11 slices_S16_o11_S1 inpos_S1_p0)
      (lane_of_load L Mc gM hgM k (k0_off7 k) (k0_off7_inb k h1 h2) shapeCasts_S1x16_S16 3 (k0_off7_eq k) 12 slices_S16_o12_S1 inpos_S1_p0)
      (lane_of_load L Mc gM hgM k (k0_off7 k) (k0_off7_inb k h1 h2) shapeCasts_S1x16_S16 3 (k0_off7_eq k) 13 slices_S16_o13_S1 inpos_S1_p0)
      (lane_of_load L Mc gM hgM k (k0_off7 k) (k0_off7_inb k h1 h2) shapeCasts_S1x16_S16 3 (k0_off7_eq k) 14 slices_S16_o14_S1 inpos_S1_p0)
      (lane_of_load L Mc gM hgM k (k0_off7 k) (k0_off7_inb k h1 h2) shapeCasts_S1x16_S16 3 (k0_off7_eq k) 15 slices_S16_o15_S1 inpos_S1_p0)
  have hcnt : vtrip_v2.sl.r_14 d L k h1 h2 gM = cntF (msU Mc (uT L k.val)) := by
    rw [← hMS]
    exact pay601_cnt _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

  have hR6 : k0_pay602 (vtrip_v2.sl.v147 d L k h1 h2 gM) (vtrip_v2.sl.v149 d L k h1 h2 gM) (vtrip_v2.sl.v151 d L k h1 h2 gM) (vtrip_v2.sl.v153 d L k h1 h2 gM) (vtrip_v2.sl.v155 d L k h1 h2 gM) (vtrip_v2.sl.v157 d L k h1 h2 gM) (vtrip_v2.sl.v159 d L k h1 h2 gM) (vtrip_v2.sl.v161 d L k h1 h2 gM) (vtrip_v2.sl.v163 d L k h1 h2 gM) (vtrip_v2.sl.v165 d L k h1 h2 gM) (vtrip_v2.sl.v167 d L k h1 h2 gM) (vtrip_v2.sl.v169 d L k h1 h2 gM) (vtrip_v2.sl.v171 d L k h1 h2 gM) (vtrip_v2.sl.v173 d L k h1 h2 gM) (vtrip_v2.sl.v175 d L k h1 h2 gM) (vtrip_v2.sl.r d L k h1 h2 gM) (vtrip_v2.sl.r_1 d L k h1 h2 gM) (vtrip_v2.sl.r_2 d L k h1 h2 gM) (vtrip_v2.sl.r_3 d L k h1 h2 gM) (vtrip_v2.sl.r_4 d L k h1 h2 gM) (vtrip_v2.sl.r_5 d L k h1 h2 gM) (vtrip_v2.sl.r_6 d L k h1 h2 gM) (vtrip_v2.sl.r_7 d L k h1 h2 gM) (vtrip_v2.sl.r_8 d L k h1 h2 gM) (vtrip_v2.sl.r_9 d L k h1 h2 gM) (vtrip_v2.sl.r_10 d L k h1 h2 gM) (vtrip_v2.sl.r_11 d L k h1 h2 gM) (vtrip_v2.sl.r_12 d L k h1 h2 gM) (vtrip_v2.sl.r_13 d L k h1 h2 gM) = rcpF (msU (F := F) Mc (uT L k.val)) := by
    rw [← hMS]; rfl
  have hR7 : (vtrip_v2.sl.r_15 d L k h1 h2 gM) = rcpF (msU (F := F) Mc (uT L k.val)) := by
    rw [← hMS]; rfl
  have ht6 : Scf.trips k0_t2_loop.lb k0_t2_loop.ub k0_t2_loop.st = 32 := trips_t2
  have ht7 : Scf.trips k0_t3_loop.lb k0_t3_loop.ub k0_t3_loop.st = 32 := trips_t3
  have hA : vtrip_v2.sl.dma0 d L k h1 h2 v3 gM fA gm = colDiff (blkU (F := F) X (uT L k.val) 0) (msU (F := F) Mc (uT L k.val)) (rcpF (msU (F := F) Mc (uT L k.val))) := by
    unfold vtrip_v2.sl.dma0
    rw [ReadAs.apply_same, ht6]
    funext y
    rw [buf_read_t2, col_t2_buf, hMS, hR6, hfA]
  have hB : vtrip_v2.sl.dma0_2 d L k h1 h2 v3 gM fA fB gm = colDiff (blkU (F := F) X (uT L k.val) 1) (msU (F := F) Mc (uT L k.val)) (rcpF (msU (F := F) Mc (uT L k.val))) := by
    unfold vtrip_v2.sl.dma0_2
    rw [ReadAs.apply_same, ht6]
    first | rw [ht7] | skip
    funext y
    rw [buf_read_t3, col_t3_buf, hMS, hR7, hfB]
  have hv0 : ∀ i ∈ dS L k.val 0, ((dsl (k0_off9 L k) (k0_off9_inb L k h1 h2)).view.writes (Elt F) fD
      [⟨Rect.whole S64x512, vtrip_v2.sl.dma0 d L k h1 h2 v3 gM fA gm⟩]) i = Dsp (F := F) X Mc i := by
    intro i hi
    obtain ⟨y, hy, hval⟩ := dS_point (F := F) X Mc L k.val (by omega) 0 i hi
    have hemb : (dsl (k0_off9 L k) (k0_off9_inb L k h1 h2)).view.emb y = i :=
      funext fun a => Fin.ext (by
        rw [emb_dsl]
        have ea := congrFun exA a
        rw [ea]; exact hy a)
    rw [← hemb]
    refine (((View.read_apply _ _).trans (cast_eq _ _)).symm).trans ?_
    rw [View.read_writes_whole, hA, hemb, hval]
  have hv1 : ∀ i ∈ dS L k.val 512, ((dsl (k0_off77 L k) (k0_off77_inb L k h1 h2)).view.writes (Elt F) fD
      [⟨Rect.whole S64x512, vtrip_v2.sl.dma0_2 d L k h1 h2 v3 gM fA fB gm⟩]) i = Dsp (F := F) X Mc i := by
    intro i hi
    obtain ⟨y, hy, hval⟩ := dS_point (F := F) X Mc L k.val (by omega) 1 i hi
    have hemb : (dsl (k0_off77 L k) (k0_off77_inb L k h1 h2)).view.emb y = i :=
      funext fun a => Fin.ext (by
        rw [emb_dsl]
        have ea := congrFun exB a
        rw [ea]; exact hy a)
    rw [← hemb]
    refine (((View.read_apply _ _).trans (cast_eq _ _)).symm).trans ?_
    rw [View.read_writes_whole, hB, hemb, hval]
  have hM : ∀ z : S1024.Idx, vtrip_v2.sl.dma0_4 d L k h1 h2 v3 gM fA fB gm z
      = colMean (blkU (F := F) X (uT L k.val) (halfOf (z 0))) (msU (F := F) Mc (uT L k.val)) (rcpF (msU (F := F) Mc (uT L k.val))) (colOf (z 0)) := by
    intro z
    have hz : (z 0).val < 1024 := (z 0).isLt
    unfold vtrip_v2.sl.dma0_4
    rw [ReadAs.apply_same, ht6]
    first | rw [ht7] | skip
    show (meanb).view.writes (Elt F) gm (_ ++ _) z = _
    rw [View.writes_append, col_t3_mean_apply]
    by_cases h512 : 512 ≤ (z 0).val
    · rw [if_pos h512, hMS, hR7, hfB]
      have eh : halfOf (z 0) = 1 := Fin.ext (by show (z 0).val / 512 = 1; omega)
      have ec : colOf (z 0) = (⟨(z 0).val - 512, sub512_lt_t3 z⟩ : Fin 512) := Fin.ext (by show (z 0).val % 512 = (z 0).val - 512; omega)
      rw [eh, ec]
    · rw [if_neg h512, col_t2_mean]
      have hlt : (z 0).val < 512 := by omega
      show (if h : (z 0).val < 512 then _ else _) = _
      rw [dif_pos hlt, hMS, hR6, hfA]
      have eh : halfOf (z 0) = 0 := Fin.ext (by show (z 0).val / 512 = 0; omega)
      have ec : colOf (z 0) = (⟨(z 0).val, hlt⟩ : Fin 512) := Fin.ext (by show (z 0).val % 512 = (z 0).val; omega)
      rw [eh, ec]
  have hvE : ∀ j ∈ eS L k.val, ((esl (k0_off145 L k) (k0_off145_inb L k h1 h2)).view.writes (Elt F) fE
      [⟨Rect.whole S1024, vtrip_v2.sl.dma0_4 d L k h1 h2 v3 gM fA fB gm⟩]) j = Esp (F := F) X Mc j := by
    intro j hj
    obtain ⟨hy, hval⟩ := eS_point (F := F) X Mc L k.val (by omega) j hj
    have hemb : (esl (k0_off145 L k) (k0_off145_inb L k h1 h2)).view.emb (ix1 (j 1)) = j :=
      funext fun a => Fin.ext (by
        rw [emb_esl]
        have ea := congrFun eeO a
        rw [ea]; exact hy a)
    rw [← hemb]
    refine (((View.read_apply _ _).trans (cast_eq _ _)).symm).trans ?_
    rw [View.read_writes_whole, hM, hemb, hval]

  have pSC : ∀ g, (iprop(((b0).view.loc (thr d L) ↦[(b0).view.set]{fullShare} g) ∗ ((xV).view.loc (thr d L) ↦[(xsl (k0_off76 L k) (k0_off76_inb L k h1 h2 hc4)).view.set]{q} X)) : sProp 𝕄)
      = iprop(((b0).view.loc (thr d L) ↦[(b0).view.set]{fullShare} g) ∗ ((xV).view.loc (thr d L) ↦[(xsl (uo3 L (k.val + 1) 0) (uo3_inb L (k.val + 1) 0)).view.set]{q} X)) := fun g => by
    rw [xset_congr exC _ (uo3_inb L (k.val + 1) 0)]
  have pFA : ∀ g, (iprop(((b1).view.loc (thr d L) ↦[(b1).view.set]{fullShare} g) ∗ ((xV).view.loc (thr d L) ↦[(xsl (k0_off144 L k) (k0_off144_inb L k h1 h2 hc6)).view.set]{q} X)) : sProp 𝕄)
      = iprop(((b1).view.loc (thr d L) ↦[(b1).view.set]{fullShare} g) ∗ ((xV).view.loc (thr d L) ↦[(xsl (uo3 L (k.val + 1) 512) (uo3_inb L (k.val + 1) 512)).view.set]{q} X)) := fun g => by
    rw [xset_congr exA2 _ (uo3_inb L (k.val + 1) 512)]
  have pSB : ∀ g g', (iprop(((dsl (k0_off77 L k) (k0_off77_inb L k h1 h2)).view.loc (thr d L) ↦[(dsl (k0_off77 L k) (k0_off77_inb L k h1 h2)).view.set]{fullShare} g) ∗ ((b2).view.loc (thr d L) ↦[(b2).view.set]{fullShare} g')) : sProp 𝕄)
      = iprop(((dsl (uo3 L k.val 512) (uo3_inb L k.val 512)).view.loc (thr d L) ↦[(dsl (uo3 L k.val 512) (uo3_inb L k.val 512)).view.set]{fullShare} g) ∗ ((b2).view.loc (thr d L) ↦[(b2).view.set]{fullShare} g')) := fun g g' => by
    rw [← hs1]
  have pFM : ∀ g g', (iprop(((esl (k0_off145 L k) (k0_off145_inb L k h1 h2)).view.loc (thr d L) ↦[(esl (k0_off145 L k) (k0_off145_inb L k h1 h2)).view.set]{fullShare} g) ∗ ((meanb).view.loc (thr d L) ↦[(meanb).view.set]{fullShare} g')) : sProp 𝕄)
      = iprop(((esl (uo2 L k.val) (uo2_inb L k.val)).view.loc (thr d L) ↦[(esl (uo2 L k.val) (uo2_inb L k.val)).view.set]{fullShare} g) ∗ ((meanb).view.loc (thr d L) ↦[(meanb).view.set]{fullShare} g')) := fun g g' => by
    rw [← hsE]
  ihave SC' := (Transfers.Flight_mono countersEmb (thr d L) (Entails.of_eq (pSC _))) $$ SC
  ihave FA' := (Transfers.Flight_mono countersEmb (thr d L) (Entails.of_eq (pFA _))) $$ FA
  ihave SB' := (Transfers.Flight_mono countersEmb (thr d L) (Entails.of_eq (pSB _ _))) $$ SB
  ihave FM' := (Transfers.Flight_mono countersEmb (thr d L) (Entails.of_eq (pFM _ _))) $$ FM

  isplitr
  · ipureintro
    intro l
    rw [pay1818_lane, hcnt]
    rfl

  iexists _
  isplitl [HO]; · iexact HO
  isplitr
  · ipureintro
    intro p hp
    simp only [Finset.mem_insert] at hp
    rcases hp with (rfl | rfl | rfl | rfl | rfl | hp) <;> first | exact .inr rfl | exact .inl hp
  isplitl [Hmall]; · iexact Hmall

  isplitl [HX]
  · have hx : (((xV).view.loc (thr d L) ↦[(Finset.univ \ (xsl (k0_off76 L k) (k0_off76_inb L k h1 h2 hc4)).view.set) \ (xsl (k0_off144 L k) (k0_off144_inb L k h1 h2 hc6)).view.set]{q} X : sProp 𝕄))
        = ((xV).view.loc (thr d L) ↦[(Finset.univ \ (xsl (uo3 L (k.val + 1) 0) (uo3_inb L (k.val + 1) 0)).view.set) \ (xsl (uo3 L (k.val + 1) 512) (uo3_inb L (k.val + 1) 512)).view.set]{q} X) := by
      rw [xset_congr exC _ (uo3_inb L (k.val + 1) 0), xset_congr exA2 _ (uo3_inb L (k.val + 1) 512)]
    iapply (Entails.of_eq hx); iexact HX

  isplitl [HD FC_dst HD0']
  · have hb : dS L k.val 0 ⊆ (dPart (wid L) \ dS L (k.val - 1) 512) \ dS L k.val 512 :=
      Finset.subset_sdiff.mpr ⟨hsub0, dS_disjoint L (by omega) (by omega) (.inl rfl) (.inr rfl) (.inr (by decide))⟩
    have ha : dS L (k.val - 1) 512 ⊆ dPart (wid L) \ dS L k.val 512 :=
      Finset.subset_sdiff.mpr ⟨dS_subset L (k.val - 1) 512 (.inr rfl), dS_disjoint L (by omega) (by omega) (.inr rfl) (.inr rfl) (.inl (by omega))⟩
    have hset1 : ((dPart (wid L) \ dS L (k.val - 1) 512) \ dS L k.val 0) \ dS L k.val 512
        = ((dPart (wid L) \ dS L (k.val - 1) 512) \ dS L k.val 512) \ dS L k.val 0 := sdiff_right_comm _ _ _
    have hset2 : (dPart (wid L) \ dS L (k.val - 1) 512) \ dS L k.val 512
        = (dPart (wid L) \ dS L k.val 512) \ dS L (k.val - 1) 512 := sdiff_right_comm _ _ _
    rw [hset1]
    have e0' : ∀ g, (((dsl (k0_off9 L k) (k0_off9_inb L k h1 h2)).view.loc (thr d L) ↦[(dsl (k0_off9 L k) (k0_off9_inb L k h1 h2)).view.set]{fullShare} g) : sProp 𝕄) = ((dV).view.loc (thr d L) ↦[dS L k.val 0]{fullShare} g) := fun g => by rw [hs0]
    ihave H0 := (Entails.of_eq (e0' _)) $$ HD0'
    ihave H1 := (pointsTo_join_subset (ℓ := (dV).view.loc (thr d L)) hb) $$ [H0 HD]
    · isplitl [H0]; · iexact H0
      iexact HD
    rw [hset2]
    ihave H2 := (pointsTo_join_subset (ℓ := (dV).view.loc (thr d L)) ha) $$ [FC_dst H1]
    · isplitl [FC_dst]; · iexact FC_dst
      iexact H1
    iexists _
    isplitl [H2]; · iexact H2
    ipureintro
    exact pw_two (dS L k.val 0) (dS L (k.val - 1) 512) _ fd fD
      (dS_disjoint L (by omega) (by omega) (.inl rfl) (.inr rfl) (.inl (by omega))) (Dsp (F := F) X Mc) hv0

  isplitl [HE FM_dst]
  · have ha : eS L (k.val - 1) ⊆ ePart (wid L) \ eS L k.val :=
      Finset.subset_sdiff.mpr ⟨eS_subset L (k.val - 1), eS_disjoint L (by omega) (by omega) (by omega)⟩
    have hset : (ePart (wid L) \ eS L (k.val - 1)) \ eS L k.val = (ePart (wid L) \ eS L k.val) \ eS L (k.val - 1) := sdiff_right_comm _ _ _
    rw [hset]
    ihave H2 := (pointsTo_join_subset (ℓ := (eV).view.loc (thr d L)) ha) $$ [FM_dst HE]
    · isplitl [FM_dst]; · iexact FM_dst
      iexact HE
    iexists _
    isplitl [H2]; · iexact H2
    ipureintro
    exact pw_one (eS L (k.val - 1)) fe fE

  iexists _, _, _, _, _, _
  isplitr
  rotate_left
  isplitl [SC']; · iexact SC'
  isplitl [FA']; · iexact FA'
  isplitl [SB']; · iexact SB'
  isplitl [FM']; · iexact FM'
  isplitl [FC]; · iexact FC
  isplitl [SA]; · iexact SA
  · iexact FB
  · ipureintro
    refine ⟨?_, ?_, ?_, ?_⟩
    · exact (whole_writes_whole _ _ _).trans (read_xsl_uo3 X L (k.val + 1) 0 _ _ exC)
    · exact (View.write_whole_univ (cc0_scratch1 : Ref sig .scVector) _ _).trans (read_xsl_uo3 X L (k.val + 1) 1 _ _ exA2)
    · exact hv1
    · exact hvE

end Cert.Proof.KI

end
-- ==== Proof.VStepV2.lean ====
import proofs.«204522_g36051955483029_cont_8to1_b_1192_15_alg».proof.Proof.VInv
import proofs.«204522_g36051955483029_cont_8to1_b_1192_15_alg».proof.Proof.VTripV2

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords)

theorem vstep_v2 (k : Fin k0_t1_loop.trips) (h1 : k0_cond1 k = 1#1) (h2 : k0_cond2 k = 1#1) (hpos : 0 < k.val) (hlt : k.val + 1 < 16)
    (q : PosShare TreeShare) (X : Buf (Elt F) ((xV).view.loc (thr d L))) (Mc : Buf (Elt F) ((mV).view.loc (thr d L)))
    (O : CellTallies nD τ sig (HIx 1)) (W : Waits sig (HIx 1))
    (gM : Buf (Elt F) ((mall).view.loc (thr d L))) (hgM : MallOf (F := F) L Mc gM) (v3 : BitVec 32) (acc : FVec F S16 .f32) :
    vinv (F := F) d L q X Mc O W gM k.val acc
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => vinv (F := F) d L q X Mc O W gM (k.val + 1) r := by
  have hmod : k.val % 3 = 2 := (cond12_mod k).mp ⟨h1, h2⟩
  have hmod' : (k.val + 1) % 3 = 0 := by omega
  have hp0 : vpipe (F := F) d L q X Mc k.val = vpipeMid2 (F := F) d L q X Mc k.val := by
    unfold vpipe; simp [hmod, show k.val ≠ 0 by omega, show ¬ 16 ≤ k.val by omega]
  have hp1 : vpipe (F := F) d L q X Mc (k.val + 1) = vpipeMid0 (F := F) d L q X Mc (k.val + 1) := by
    unfold vpipe; simp [hmod', show ¬ 16 ≤ k.val + 1 by omega]
  have hx0 : xRest (F := F) d L q X k.val = ((xV).view.loc (thr d L) ↦[(Finset.univ \ (xsl (uo3 L k.val 0) (uo3_inb L k.val 0)).view.set) \ (xsl (uo3 L k.val 512) (uo3_inb L k.val 512)).view.set]{q} X) := by
    unfold xRest; rw [if_pos (by omega)]
  have hx1 : xRest (F := F) d L q X (k.val + 1) = ((xV).view.loc (thr d L) ↦[(Finset.univ \ (xsl (uo3 L (k.val + 1) 0) (uo3_inb L (k.val + 1) 0)).view.set) \ (xsl (uo3 L (k.val + 1) 512) (uo3_inb L (k.val + 1) 512)).view.set]{q} X) := by
    unfold xRest; rw [if_pos (by omega)]
  have hd0 : lentD L k.val = dS L (k.val - 1) 512 := by unfold lentD; rw [if_neg (by omega), if_pos (by omega)]
  have hd1 : lentD L (k.val + 1) = dS L k.val 512 := by unfold lentD; rw [if_neg (by omega), if_pos (by omega)]; rfl
  have he0 : lentE L k.val = eS L (k.val - 1) := by unfold lentE; rw [if_neg (by omega)]
  have he1 : lentE L (k.val + 1) = eS L k.val := by unfold lentE; rw [if_neg (by omega)]; rfl
  have hm0 : min k.val 15 = k.val := Nat.min_eq_left (by omega)
  have hm1 : min (k.val + 1) 15 = k.val + 1 := Nat.min_eq_left (by omega)
  unfold vinv
  rw [hp0, hp1, hx0, hx1, hd0, hd1, he0, he1]
  unfold vpipeMid2 vpipeMid0
  simp only [Nat.add_sub_cancel]
  iintro ⟨#Hmw, ⟨%W', HO, %hW'⟩, Hmall, HX, ⟨%fD, HD, %hDone⟩, ⟨%fE, HE, %hDoneE⟩, %hAcc, ⟨%fA, %fB, %fC, %gm, %fd, %fe, %hP, FA, FB, FC, FM, SA, SB, SC⟩⟩
  obtain ⟨hfA, hfB, hfd, hfe⟩ := hP
  iapply (wp_wand_r Idealize.ShloMosaic.frame (wpE (defs₀ (F := F)) 𝒱₀ (thr d L) none) Set.univ)
  isplitl [HO Hmall HX HD HE FA FB FC FM SA SB SC]
  · iapply (vtrip_v2 (F := F) d L k h1 h2 hpos hlt q O W' v3 acc X gM fA fB fC gm fd fD fe fE Mc hgM hfA hfB)
    isplitr; · iexact Hmw
    isplitl [HO]; · iexact HO
    isplitl [Hmall]; · iexact Hmall
    isplitl [HX]; · iexact HX
    isplitl [HD]; · iexact HD
    isplitl [HE]; · iexact HE
    isplitl [FA]; · iexact FA
    isplitl [FB]; · iexact FB
    isplitl [FC]; · iexact FC
    isplitl [FM]; · iexact FM
    isplitl [SA]; · iexact SA
    isplitl [SB]; · iexact SB
    iexact SC
  · iintro %r ⟨%hr, %W'', HO, %hW'', Hmall, HX, ⟨%fD', HD, %hD'⟩, ⟨%fE', HE, %hE'⟩, ⟨%fA', %fB', %fC', %gm', %fd', %fe', %hP', HP⟩⟩
    obtain ⟨hD1, hD2, hD3⟩ := hD'
    obtain ⟨hE1, hE2⟩ := hE'
    isplitr; · iexact Hmw
    isplitl [HO]
    · iexists W''
      isplitl [HO]; · iexact HO
      ipureintro
      intro p hp
      rcases hW'' p hp with h | h
      · exact hW' p h
      · exact .inr h
    isplitl [Hmall]; · iexact Hmall
    isplitl [HX]; · iexact HX
    isplitl [HD]
    · iexists fD'
      isplitl [HD]; · iexact HD
      ipureintro
      unfold DoneD at hDone ⊢
      rw [hm0] at hDone
      rw [hm1]
      intro j c hj hc hret i hi
      by_cases h1 : j = k.val ∧ c = 0
      · obtain ⟨rfl, rfl⟩ := h1; exact hD1 i hi
      by_cases h2 : j + 1 = k.val ∧ c = 512
      · obtain ⟨hj2, rfl⟩ := h2
        have hjj : j = k.val - 1 := by omega
        subst hjj
        rw [hD2 i hi]; exact hfd i hi
      · have hn1 : i ∉ dS L k.val 0 := fun hi' =>
          Finset.disjoint_left.mp (dS_disjoint L hj (by omega) hc (.inl rfl) (by
            by_contra hcon; simp only [not_or, ne_eq, not_not] at hcon; exact h1 ⟨hcon.1, hcon.2⟩)) hi hi'
        have hn2 : i ∉ dS L (k.val - 1) 512 := fun hi' =>
          Finset.disjoint_left.mp (dS_disjoint L hj (by omega) hc (.inr rfl) (by
            by_contra hcon; simp only [not_or, ne_eq, not_not] at hcon; exact h2 ⟨by omega, hcon.2⟩)) hi hi'
        rw [hD3 i hn1 hn2]
        refine hDone j c hj hc ?_ i hi
        rcases hret with h | ⟨h, hc0⟩
        · rcases Nat.lt_or_ge (j + 1) k.val with h' | h'
          · exact .inl h'
          · have : j + 1 = k.val ∨ j = k.val := by omega
            rcases this with h'' | h''
            · rcases hc with rfl | rfl
              · exact .inr ⟨h'', rfl⟩
              · exact absurd ⟨h'', rfl⟩ h2
            · omega
        · exact absurd ⟨by omega, hc0⟩ h1
    isplitl [HE]
    · iexists fE'
      isplitl [HE]; · iexact HE
      ipureintro
      intro j hj hret i hi
      by_cases h2 : j + 1 = k.val
      · have hjj : j = k.val - 1 := by omega
        subst hjj
        rw [hE1 i hi]; exact hfe i hi
      · have hn : i ∉ eS L (k.val - 1) := fun hi' =>
          Finset.disjoint_left.mp (eS_disjoint L hj (by omega) (by omega)) hi hi'
        rw [hE2 i hn]
        exact hDoneE j hj (by omega) i hi
    isplitr
    · ipureintro
      intro l hl
      rw [hr l]
      by_cases hlk : l.val = k.val
      · rw [if_pos hlk, hlk]
      · rw [if_neg hlk]; exact hAcc l (by omega)
    iexists fA', fB', fC', gm', fd', fe'
    isplitr
    · ipureintro; exact hP'
    iexact HP

end Cert.Proof.KI

end
-- ==== Proof.VRegion.lean ====
import proofs.«204522_g36051955483029_cont_8to1_b_1192_15_alg».proof.Proof.VStepFirst
import proofs.«204522_g36051955483029_cont_8to1_b_1192_15_alg».proof.Proof.VStepLast
import proofs.«204522_g36051955483029_cont_8to1_b_1192_15_alg».proof.Proof.VStepV0
import proofs.«204522_g36051955483029_cont_8to1_b_1192_15_alg».proof.Proof.VStepV1
import proofs.«204522_g36051955483029_cont_8to1_b_1192_15_alg».proof.Proof.VStepV2

set_option maxHeartbeats 4000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable (d : Dev nD) (L : grid0.Coords)

theorem vregion (q : PosShare TreeShare) (X : Buf (Elt F) ((xV).view.loc (thr d L))) (Mc : Buf (Elt F) ((mV).view.loc (thr d L)))
    (O : CellTallies nD τ sig (HIx 1)) (W : Waits sig (HIx 1))
    (gM : Buf (Elt F) ((mall).view.loc (thr d L))) (hgM : MallOf (F := F) L Mc gM) (v3 : BitVec 32) (k : Fin k0_t1_loop.trips) (acc : FVec F S16 .f32) :
    vinv (F := F) d L q X Mc O W gM k.val acc
      ⊢ wp frame (wpE (defs₀ (F := F)) 𝒱₀ (thr d L) none) Set.univ
          (k0_t1_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1 v3 k acc)
          fun r => vinv (F := F) d L q X Mc O W gM (k.val + 1) r := by
  by_cases h0 : k.val = 0
  · exact vstep_first (F := F) d L k h0 q X Mc O W gM hgM v3 acc
  by_cases h15 : k.val = 15
  · exact vstep_last (F := F) d L k h15 q X Mc O W gM hgM v3 acc
  have hpos : 0 < k.val := by omega
  have hlt : k.val + 1 < 16 := by have := trips_lt k; omega
  rcases Classical.em (k0_cond1 k = 1#1) with h1 | h1
  · rcases Classical.em (k0_cond2 k = 1#1) with h2 | h2
    · exact vstep_v2 (F := F) d L k h1 h2 hpos hlt q X Mc O W gM hgM v3 acc
    · exact vstep_v1 (F := F) d L k h1 h2 hpos hlt q X Mc O W gM hgM v3 acc
  · exact vstep_v0 (F := F) d L k h1 hpos hlt q X Mc O W gM hgM v3 acc

end Cert.Proof.KI

end
-- ==== Proof.VTileRun.lean ====
import proofs.«204522_g36051955483029_cont_8to1_b_1192_15_alg».proof.Proof.VRegion
import proofs.«204522_g36051955483029_cont_8to1_b_1192_15_alg».proof.Proof.VcLemmas
import proofs.«204522_g36051955483029_cont_8to1_b_1192_15_alg».proof.Proof.VbLemmas

set_option maxHeartbeats 8000000

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable [FloatOps F] (d : Dev nD) (L : grid0.Coords)

theorem tile_run_value (O : CellTallies nD τ sig (HIx 1)) (W : Waits sig (HIx 1)) (q : PosShare TreeShare)
    (X : Buf (Elt F) ((xV).view.loc (thr d L))) (Mc : Buf (Elt F) ((mV).view.loc (thr d L)))
    (D0 : Buf (Elt F) ((dV).view.loc (thr d L))) (E0 : Buf (Elt F) ((eV).view.loc (thr d L))) (C0 : Buf (Elt F) ((cV').view.loc (thr d L)))
    (f0 : Buf (Elt F) ((b0).view.loc (thr d L))) (f1 : Buf (Elt F) ((b1).view.loc (thr d L))) (f2 : Buf (Elt F) ((b2).view.loc (thr d L)))
    (g0 : Buf (Elt F) ((mall).view.loc (thr d L))) (g1 : Buf (Elt F) ((meanb).view.loc (thr d L))) (g2 : Buf (Elt F) ((cmb).view.loc (thr d L))) :
    (iprop(Transfers.MayWaits (thr d L) (none : HIx 1) O ∗ owes (thr d L) O W
        ∗ ((xV).view.loc (thr d L) ↦{q} X) ∗ ((mV).view.loc (thr d L) ↦{q} Mc)
        ∗ ((dV).view.loc (thr d L) ↦[dPart (wid L)]{fullShare} D0) ∗ ((eV).view.loc (thr d L) ↦[ePart (wid L)]{fullShare} E0)
        ∗ ((cV').view.loc (thr d L) ↦[cPart (wid L)]{fullShare} C0)
        ∗ ((b0).view.loc (thr d L) ↦[(b0).view.set]{fullShare} f0) ∗ ((b1).view.loc (thr d L) ↦[(b1).view.set]{fullShare} f1)
        ∗ ((b2).view.loc (thr d L) ↦[(b2).view.set]{fullShare} f2) ∗ ((mall).view.loc (thr d L) ↦[(mall).view.set]{fullShare} g0)
        ∗ ((meanb).view.loc (thr d L) ↦[(meanb).view.set]{fullShare} g1) ∗ ((cmb).view.loc (thr d L) ↦[(cmb).view.set]{fullShare} g2)
        ∗ semVal (thr d L, SemLoc.dma cc0_scratch6.sem) 0 ∗ semVal (thr d L, SemLoc.dma cc0_scratch7.sem) 0 ∗ semVal (thr d L, SemLoc.dma cc0_scratch8.sem) 0
        ∗ semVal (thr d L, SemLoc.dma cc0_scratch9.sem) 0 ∗ semVal (thr d L, SemLoc.dma cc0_scratch10.sem) 0 ∗ semVal (thr d L, SemLoc.dma cc0_scratch11.sem) 0
        ∗ semVal (thr d L, SemLoc.dma cc0_scratch12.sem) 0 ∗ semVal (thr d L, SemLoc.dma cc0_scoped0.sem) 0 ∗ semVal (thr d L, SemLoc.dma cc0_scoped1.sem) 0) : sProp 𝕄)
      ⊢ wp frame (wpE (defs₀ (F := F)) 𝒱₀ (thr d L) none) Set.univ
          (cc0__sc_body L xV (Memref.isWhole_whole _) mV (Memref.isWhole_whole _) dV (Memref.isWhole_whole _) eV (Memref.isWhole_whole _) cV' (Memref.isWhole_whole _)
            b0 (Memref.isWhole_whole _) b1 (Memref.isWhole_whole _) b2 (Memref.isWhole_whole _) mall (Memref.isWhole_whole _) meanb (Memref.isWhole_whole _) cmb (Memref.isWhole_whole _)
            cc0_scratch6 cc0_scratch7 cc0_scratch8 cc0_scratch9 cc0_scratch10 cc0_scratch11 cc0_scratch12 cc0_scoped0 cc0_scoped1)
          fun _ => iprop(((xV).view.loc (thr d L) ↦{q} X) ∗ ((mV).view.loc (thr d L) ↦{q} Mc)
            ∗ ((dV).view.loc (thr d L) ↦[dPart (wid L)]{fullShare} Dsp (F := F) X Mc) ∗ ((eV).view.loc (thr d L) ↦[ePart (wid L)]{fullShare} Esp (F := F) X Mc)
            ∗ ((cV').view.loc (thr d L) ↦[cPart (wid L)]{fullShare} Csp (F := F) Mc)
            ∗ (∃ f, (b0).view.loc (thr d L) ↦[(b0).view.set]{fullShare} f) ∗ (∃ f, (b1).view.loc (thr d L) ↦[(b1).view.set]{fullShare} f)
            ∗ (∃ f, (b2).view.loc (thr d L) ↦[(b2).view.set]{fullShare} f) ∗ (∃ f, (mall).view.loc (thr d L) ↦[(mall).view.set]{fullShare} f)
            ∗ (∃ f, (meanb).view.loc (thr d L) ↦[(meanb).view.set]{fullShare} f) ∗ (∃ f, (cmb).view.loc (thr d L) ↦[(cmb).view.set]{fullShare} f)
            ∗ semVal (thr d L, SemLoc.dma cc0_scratch6.sem) 0 ∗ semVal (thr d L, SemLoc.dma cc0_scratch7.sem) 0 ∗ semVal (thr d L, SemLoc.dma cc0_scratch8.sem) 0
            ∗ semVal (thr d L, SemLoc.dma cc0_scratch9.sem) 0 ∗ semVal (thr d L, SemLoc.dma cc0_scratch10.sem) 0 ∗ semVal (thr d L, SemLoc.dma cc0_scratch11.sem) 0
            ∗ semVal (thr d L, SemLoc.dma cc0_scratch12.sem) 0 ∗ semVal (thr d L, SemLoc.dma cc0_scoped0.sem) 0 ∗ semVal (thr d L, SemLoc.dma cc0_scoped1.sem) 0
            ∗ ∃ W', ⌜∀ p ∈ W', p ∈ W ∨ p.2 = none⌝ ∗ owes (thr d L) O W') := by
  iintro ⟨#Hmw, HO, HX, HM, HD, HE, HC, H0, H1, H2, Hg0, Hg1, Hg2, S6, S7, S8, S9, S10, S11, S12, Sa, Sb⟩
  have e2 : k0_off2 L = uo3 L 0 0 := by rw [k0_off2_eq, uo3_of_le L (by omega) (by omega)]; rfl
  have e3 : k0_off3 L = uo3 L 0 512 := by rw [k0_off3_eq, uo3_of_le L (by omega) (by omega)]; rfl
  have e434 : k0_off434 L = uo1 L := by rw [k0_off434_eq]; rfl

  have hC : ∀ g, (((cV').view.loc (thr d L) ↦[cPart (wid L)]{fullShare} g : sProp 𝕄))
      = ((csl (k0_off434 L) (k0_off434_inb L)).view.loc (thr d L) ↦[(csl (k0_off434 L) (k0_off434_inb L)).view.set]{fullShare} g) := fun g => by
    rw [show cPart (wid L) = (csl (k0_off434 L) (k0_off434_inb L)).view.set from (cS_eq L).symm.trans (cset_congr e434.symm _ _)]
  ihave HC' := (Entails.of_eq (hC _)) $$ HC
  sl_unfold [cc0__sc_body]
  sl_exec

  have pS6 : ∀ g, (iprop(((b0).view.loc (thr d L) ↦[(b0).view.set]{fullShare} g) ∗ ((xV).view.loc (thr d L) ↦[(xsl (k0_off2 L) (k0_off2_inb L)).view.set]{q} X)) : sProp 𝕄)
      = iprop(((b0).view.loc (thr d L) ↦[(b0).view.set]{fullShare} g) ∗ ((xV).view.loc (thr d L) ↦[(xsl (uo3 L 0 0) (uo3_inb L 0 0)).view.set]{q} X)) := fun g => by rw [xset_congr e2 _ (uo3_inb L 0 0)]
  have pS7 : ∀ g, (iprop(((b1).view.loc (thr d L) ↦[(b1).view.set]{fullShare} g) ∗ ((xV).view.loc (thr d L) ↦[(xsl (k0_off3 L) (k0_off3_inb L)).view.set]{q} X)) : sProp 𝕄)
      = iprop(((b1).view.loc (thr d L) ↦[(b1).view.set]{fullShare} g) ∗ ((xV).view.loc (thr d L) ↦[(xsl (uo3 L 0 512) (uo3_inb L 0 512)).view.set]{q} X)) := fun g => by rw [xset_congr e3 _ (uo3_inb L 0 512)]
  ihave S6' := (Transfers.Flight_mono countersEmb (thr d L) (Entails.of_eq (pS6 _))) $$ S6
  ihave S7' := (Transfers.Flight_mono countersEmb (thr d L) (Entails.of_eq (pS7 _))) $$ S7
  have hx : (((xV).view.loc (thr d L) ↦[(Finset.univ \ (xsl (k0_off2 L) (k0_off2_inb L)).view.set) \ (xsl (k0_off3 L) (k0_off3_inb L)).view.set]{q} X : sProp 𝕄))
      = ((xV).view.loc (thr d L) ↦[(Finset.univ \ (xsl (uo3 L 0 0) (uo3_inb L 0 0)).view.set) \ (xsl (uo3 L 0 512) (uo3_inb L 0 512)).view.set]{q} X) := by
    rw [xset_congr e2 _ (uo3_inb L 0 0), xset_congr e3 _ (uo3_inb L 0 512)]
  ihave HX' := (Entails.of_eq hx) $$ HX

  generalize hg : (mall).view.writes (Elt F) _ _ = gM
  have hgM : MallOf (F := F) L Mc gM := by
    subst hg
    have e := whole_writes_whole (F := F) (cc0_scratch3 : Ref sig .scVector) (Memref.whole (cc0_scratch3 : Ref sig .scVector)).view.junk (tile_run_value.sl.dma0 d L Mc)
    rw [e]
    exact mall_of_read L Mc (k0_off1 L) (k0_off1_inb L) (k0_off1_eq L)
  generalize hgA : (b0).view.writes (Elt F) f0 _ = fA0
  have hfA0 : fA0 = blkU (F := F) X (uT L 0) 0 := by
    subst hgA
    exact (whole_writes_whole _ _ _).trans (read_xsl_uo3 X L 0 0 _ _ e2)
  generalize hgB : (b1).view.writes (Elt F) f1 _ = fB0
  have hfB0 : fB0 = blkU (F := F) X (uT L 0) 1 := by
    subst hgB
    exact (whole_writes_whole _ _ _).trans (read_xsl_uo3 X L 0 1 _ _ e3)
  sl_for (vinv (F := F) d L q X Mc O W gM) $$ [Hmw HO Hg0 HX' HD HE S6' S7' H2 Hg1 S8 S9 S10 S11 S12]
  case region => exact fun k acc => vregion (F := F) d L q X Mc O W gM hgM _ k acc
  · unfold vinv
    have hp : vpipe (F := F) d L q X Mc 0 = vpipe0 (F := F) d L q X := by unfold vpipe; rw [if_pos rfl]
    have hxr : xRest (F := F) d L q X 0 = ((xV).view.loc (thr d L) ↦[(Finset.univ \ (xsl (uo3 L 0 0) (uo3_inb L 0 0)).view.set) \ (xsl (uo3 L 0 512) (uo3_inb L 0 512)).view.set]{q} X) := by unfold xRest; rw [if_pos (by omega)]
    have hd : lentD L 0 = ∅ := by unfold lentD; rw [if_pos rfl]
    have he : lentE L 0 = ∅ := by unfold lentE; rw [if_pos rfl]
    rw [hp, hxr, hd, he, Finset.sdiff_empty, Finset.sdiff_empty]
    unfold vpipe0
    isplitr; · iexact Hmw
    isplitl [HO]
    · iexists _
      isplitl [HO]; · iexact HO
      ipureintro
      intro p hp
      rcases Finset.mem_insert.mp hp with rfl | hp
      · exact .inr rfl
      · exact .inl hp
    isplitl [Hg0]; · iexact Hg0
    isplitl [HX']; · iexact HX'
    isplitl [HD]
    · iexists _
      isplitl [HD]; · iexact HD
      ipureintro
      intro j c hj hc hret
      simp at hret
    isplitl [HE]
    · iexists _
      isplitl [HE]; · iexact HE
      ipureintro
      intro j hj hret
      omega
    isplitr
    · ipureintro
      intro l hl
      omega
    iexists fA0, fB0, _, _
    isplitr
    · ipureintro; exact ⟨hfA0, hfB0⟩
    isplitl [S6']; · iexact S6'
    isplitl [S7']; · iexact S7'
    isplitl [H2]; · iexact H2
    isplitl [Hg1]; · iexact Hg1
    isplitl [S8]; · iexact S8
    isplitl [S9]; · iexact S9
    isplitl [S10]; · iexact S10
    isplitl [S11]; · iexact S11
    iexact S12

  rw [show Scf.trips k0_t1_loop.lb k0_t1_loop.ub k0_t1_loop.st = 16 from rfl]
  have hpE : vpipe (F := F) d L q X Mc 16 = vpipeEnd (F := F) d L X Mc := by unfold vpipe; simp
  have hxE : xRest (F := F) d L q X 16 = ((xV).view.loc (thr d L) ↦{q} X) := by unfold xRest; rw [if_neg (by omega)]
  have hdE : lentD L 16 = (dS L 14 512 ∪ dS L 15 0) ∪ dS L 15 512 := by unfold lentD; rw [if_neg (by omega), if_neg (by omega)]
  have heE : lentE L 16 = eS L 15 := by unfold lentE; rw [if_neg (by omega)]
  unfold vinv
  rw [hpE, hxE, hdE, heE]
  unfold vpipeEnd
  iintro %acc ⟨-, ⟨%W', HO, %hW'⟩, Hmall, HX, ⟨%fD, HD, %hDone⟩, ⟨%fE, HE, %hDoneE⟩, %hAcc, ⟨%fA, %fB, %fC, %gm, %fd0, %fd1, %fd2, %fe, %hP, F9, F10, F11, F12, S6, S7, S8⟩⟩
  obtain ⟨hv0, hv1, hv2, hve⟩ := hP
  sl_exec
  sl_step
  isplitl [HX]; · iexact HX
  isplitl [HM]; · iexact HM

  isplitl [HD F11_dst F9_dst F10_dst]
  · have hab : Disjoint (dS L 14 512) (dS L 15 0) := dS_disjoint L (by omega) (by omega) (.inr rfl) (.inl rfl) (.inl (by omega))
    have habc : Disjoint (dS L 14 512 ∪ dS L 15 0) (dS L 15 512) :=
      Finset.disjoint_union_left.mpr ⟨dS_disjoint L (by omega) (by omega) (.inr rfl) (.inr rfl) (.inl (by omega)),
        dS_disjoint L (by omega) (by omega) (.inl rfl) (.inr rfl) (.inr (by decide))⟩
    have hsub : (dS L 14 512 ∪ dS L 15 0) ∪ dS L 15 512 ⊆ dPart (wid L) :=
      Finset.union_subset (Finset.union_subset (dS_subset L 14 512 (.inr rfl)) (dS_subset L 15 0 (.inl rfl))) (dS_subset L 15 512 (.inr rfl))
    have hpool : ∀ i ∈ dPart (wid L) \ ((dS L 14 512 ∪ dS L 15 0) ∪ dS L 15 512), fD i = Dsp (F := F) X Mc i := by
      intro i hi
      rw [Finset.mem_sdiff] at hi
      obtain ⟨hi, hnot⟩ := hi
      simp only [Finset.mem_union, not_or] at hnot
      obtain ⟨⟨h2, h0⟩, h1⟩ := hnot
      obtain ⟨j, c, hj, hc, hij⟩ := dPart_cover L i hi
      unfold DoneD at hDone
      rw [show min 16 15 = 15 from rfl] at hDone
      refine hDone j c hj hc ?_ i hij
      rcases hc with rfl | rfl
      · have : j ≠ 15 := fun e => h0 (e ▸ hij)
        rcases Nat.lt_or_ge (j + 1) 15 with h | h
        · exact .inl h
        · exact .inr ⟨by omega, rfl⟩
      · have : j ≠ 15 := fun e => h1 (e ▸ hij)
        have : j ≠ 14 := fun e => h2 (e ▸ hij)
        exact .inl (by omega)
    ihave A2 := (Entails.of_eq (pointsTo_congr (ℓ := (dV).view.loc (thr d L)) (I := dS L 14 512) (q := fullShare) hv2)) $$ F11_dst
    ihave A0 := (Entails.of_eq (pointsTo_congr (ℓ := (dV).view.loc (thr d L)) (I := dS L 15 0) (q := fullShare) hv0)) $$ F9_dst
    ihave A1 := (Entails.of_eq (pointsTo_congr (ℓ := (dV).view.loc (thr d L)) (I := dS L 15 512) (q := fullShare) hv1)) $$ F10_dst
    ihave AP := (Entails.of_eq (pointsTo_congr (ℓ := (dV).view.loc (thr d L)) (q := fullShare) hpool)) $$ HD
    ihave Hab := (pointsTo_union (ℓ := (dV).view.loc (thr d L)) (I := dS L 14 512) (J := dS L 15 0) hab).2 $$ [A2 A0]
    · isplitl [A2]; · iexact A2
      iexact A0
    ihave Habc := (pointsTo_union (ℓ := (dV).view.loc (thr d L)) (I := dS L 14 512 ∪ dS L 15 0) (J := dS L 15 512) habc).2 $$ [Hab A1]
    · isplitl [Hab]; · iexact Hab
      iexact A1
    ihave H := (pointsTo_split_subset (ℓ := (dV).view.loc (thr d L)) hsub).2 $$ [Habc AP]
    · isplitl [Habc]; · iexact Habc
      iexact AP
    iexact H

  isplitl [HE F12_dst]
  · have hpoolE : ∀ i ∈ ePart (wid L) \ eS L 15, fE i = Esp (F := F) X Mc i := by
      intro i hi
      rw [Finset.mem_sdiff] at hi
      obtain ⟨hi, h1⟩ := hi
      obtain ⟨j, hj, hij⟩ := ePart_cover L i hi
      have : j ≠ 15 := fun e => h1 (e ▸ hij)
      exact hDoneE j hj (by omega) i hij
    ihave A := (Entails.of_eq (pointsTo_congr (ℓ := (eV).view.loc (thr d L)) (I := eS L 15) (q := fullShare) hve)) $$ F12_dst
    ihave AP := (Entails.of_eq (pointsTo_congr (ℓ := (eV).view.loc (thr d L)) (q := fullShare) hpoolE)) $$ HE
    ihave H := (pointsTo_split_subset (ℓ := (eV).view.loc (thr d L)) (eS_subset L 15)).2 $$ [A AP]
    · isplitl [A]; · iexact A
      iexact AP
    iexact H

  isplitl [HC']
  · ihave HC2 := (Entails.of_eq (hC _).symm) $$ HC'
    have hCval : ∀ i ∈ cPart (wid L), ((csl (k0_off434 L) (k0_off434_inb L)).view.writes (Elt F) C0 [⟨Rect.whole S16, tile_run_value.sl.dma2 d L g2 acc⟩]) i = Csp (F := F) Mc i := by
      have hw : ∀ l : Fin 16, tile_run_value.sl.dma2 d L g2 acc (Idealize.ShloMosaic.ValueIdx.ix1 l) = Csp (F := F) Mc (Idealize.ShloMosaic.ValueIdx.ix1 (uT L l.val)) := by
        intro l
        have hemb : (Rect.unit (s := S16) ![0] S16.size inb_S16_S16_0).emb (Idealize.ShloMosaic.ValueIdx.ix1 l) = Idealize.ShloMosaic.ValueIdx.ix1 l := by
          funext a; apply Fin.ext
          match a with
          | 0 => show 0 + 1 * l.val = l.val; omega
        have h := View.read_writes_cons_emb (Val := Elt F) (Memref.whole (cc0_scratch5 : Ref sig .scVector)).view g2
          (Rect.unit (s := S16) ![0] S16.size inb_S16_S16_0) (k0_pay1 acc) [] (Idealize.ShloMosaic.ValueIdx.ix1 l)
        rw [hemb] at h
        exact h.trans ((congrFun (pay1_eq acc) (Idealize.ShloMosaic.ValueIdx.ix1 l)).trans (hAcc l l.isLt))
      intro i hi
      exact csl_written L Mc C0 (k0_off434 L) (k0_off434_inb L) e434 _ hw i ((cS_eq L).symm ▸ hi)
    iapply (Entails.of_eq (pointsTo_congr (ℓ := (cV').view.loc (thr d L)) (q := fullShare) hCval)); iexact HC2
  isplitl [F9_src]; · iexists _; iexact F9_src
  isplitl [F10_src]; · iexists _; iexact F10_src
  isplitl [F11_src]; · iexists _; iexact F11_src
  isplitl [Hmall]; · iexists _; iexact Hmall
  isplitl [F12_src]; · iexists _; iexact F12_src
  isplitl [Hg2]; · iexists _; iexact Hg2
  isplitl [S6]; · iexact S6
  isplitl [S7]; · iexact S7
  isplitl [S8]; · iexact S8
  isplitl [F9]; · iexact F9
  isplitl [F10]; · iexact F10
  isplitl [F11]; · iexact F11
  isplitl [F12]; · iexact F12
  isplitl [Sa]; · iexact Sa
  isplitl [Sb]; · iexact Sb
  iexists (insert (SemLoc.dma cc0_scoped1.sem, (default : HIx 1)) (insert (SemLoc.dma cc0_scratch10.sem, (default : HIx 1)) (insert (SemLoc.dma cc0_scratch9.sem, (default : HIx 1))
    (insert (SemLoc.dma cc0_scratch11.sem, (default : HIx 1)) (insert (SemLoc.dma cc0_scratch12.sem, (default : HIx 1)) W')))))
  isplitr
  · ipureintro
    intro p hp
    simp only [Finset.mem_insert] at hp
    rcases hp with (rfl | rfl | rfl | rfl | rfl | hp)
    · exact .inr rfl
    · exact .inr rfl
    · exact .inr rfl
    · exact .inr rfl
    · exact .inr rfl
    · exact hW' p hp
  iexact HO

end Cert.Proof.KI

end
-- ==== Proof.VTileObl.lean ====
import proofs.«204522_g36051955483029_cont_8to1_b_1192_15_alg».proof.Proof.TileObl
import proofs.«204522_g36051955483029_cont_8to1_b_1192_15_alg».proof.Proof.VPay
import proofs.«204522_g36051955483029_cont_8to1_b_1192_15_alg».proof.Proof.VTileRun

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S512x64x1024 EltTy.f32)
local notation "mV" => (Memref.whole Cert.KernelIdeal.main_v1_scv : Memref Cert.KernelIdeal.sig Kind.scVector Space.hbm Cert.KernelIdeal.S512x64 EltTy.f32)
local notation "dV" => (Memref.whole Cert.KernelIdeal.main_v2_0_scv : Memref Cert.KernelIdeal.sig Kind.scVector Space.hbm Cert.KernelIdeal.S512x64x1024 EltTy.f32)
local notation "eV" => (Memref.whole Cert.KernelIdeal.main_v2_1_scv : Memref Cert.KernelIdeal.sig Kind.scVector Space.hbm Cert.KernelIdeal.S512x1024 EltTy.f32)
local notation "cV'" => (Memref.whole Cert.KernelIdeal.main_v2_2_scv : Memref Cert.KernelIdeal.sig Kind.scVector Space.hbm Cert.KernelIdeal.S512 EltTy.f32)
local notation "b0" => (Memref.whole Cert.KernelIdeal.cc0_scratch0 : Memref Cert.KernelIdeal.sig Kind.scVector Space.vmem Cert.KernelIdeal.S64x512 EltTy.f32)
local notation "b1" => (Memref.whole Cert.KernelIdeal.cc0_scratch1 : Memref Cert.KernelIdeal.sig Kind.scVector Space.vmem Cert.KernelIdeal.S64x512 EltTy.f32)
local notation "b2" => (Memref.whole Cert.KernelIdeal.cc0_scratch2 : Memref Cert.KernelIdeal.sig Kind.scVector Space.vmem Cert.KernelIdeal.S64x512 EltTy.f32)
local notation "mall" => (Memref.whole Cert.KernelIdeal.cc0_scratch3 : Memref Cert.KernelIdeal.sig Kind.scVector Space.vmem Cert.KernelIdeal.S16x64 EltTy.f32)
local notation "meanb" => (Memref.whole Cert.KernelIdeal.cc0_scratch4 : Memref Cert.KernelIdeal.sig Kind.scVector Space.vmem Cert.KernelIdeal.S1024 EltTy.f32)
local notation "cmb" => (Memref.whole Cert.KernelIdeal.cc0_scratch5 : Memref Cert.KernelIdeal.sig Kind.scVector Space.vmem Cert.KernelIdeal.S16 EltTy.f32)

variable [FloatOps F]

section Tile

variable (d : Dev nD) (L : grid0.Coords)

theorem tile_wrapV (m : (ℓ : Loc nD τ sig) → Buf (Elt F) ℓ) (Xv : (d : Dev nD) → Buf (Elt F) (xLoc d)) (Mv : (d : Dev nD) → Buf (Elt F) (mLoc d))
    (j : Fin 32) (hj : wid L = j) (O : CellTallies nD τ sig (HIx 1)) (W : Waits sig (HIx 1)) (hO : ∀ g, O g none = 0) (q : Fin 1) :
    iprop(levAts (K (F := F)).L (K (F := F)).lev ∗ emp ∗ tileGo m Xv Mv d j ∗ scopedBufs (thr d L) ∗ scopedSems0 (thr d L) ∗ owes (thr d L) O W)
      ⊢ wp frame (wpE (defs₀ (F := F)) 𝒱₀ (thr d L) none) Set.univ
          (cc0__sc_body L xV (Memref.isWhole_whole _) mV (Memref.isWhole_whole _) dV (Memref.isWhole_whole _) eV (Memref.isWhole_whole _) cV' (Memref.isWhole_whole _)
          b0 (Memref.isWhole_whole _) b1 (Memref.isWhole_whole _) b2 (Memref.isWhole_whole _) mall (Memref.isWhole_whole _) meanb (Memref.isWhole_whole _) cmb (Memref.isWhole_whole _)
          cc0_scratch6 cc0_scratch7 cc0_scratch8 cc0_scratch9 cc0_scratch10 cc0_scratch11 cc0_scratch12 cc0_scoped0 cc0_scoped1)
          fun _ => iprop(tileTdV (F := F) Xv Mv d j ∗ scopedBufs (thr d L) ∗ scopedSems0 (thr d L)
            ∗ ∃ W', ⌜∀ p ∈ W', p ∈ W ∨ p.2 = none ∨ p.2 = some q⌝ ∗ owes (thr d L) O W') := by
  subst hj
  rw [(K (F := F)).scopedBufs_V facts d (cV L) (jV L), SparseCore.Cfg.scopedSems0_V (Val := Elt F) d (cV L) (jV L), ownSems0_V, ownBufs_V]
  unfold tileGo tileTdV
  iintro ⟨#Hlv, -, ⟨Hx, Hm, Hd, He, Hc⟩, ⟨⟨%f0, H0⟩, ⟨%f1, H1⟩, ⟨%f2, H2⟩, ⟨%g0, H3⟩, ⟨%g1, H4⟩, ⟨%g2, H5⟩, Hbufs⟩, ⟨⟨S6, S7, S8, S9, S10, S11, S12, T0, T1⟩, Hsems⟩, HO⟩
  ihave Hmw := ((K (F := F)).mayWaits_none (thr := thr d L) hO) $$ []
  · iexact Hlv
  ihave H0' := (Entails.of_eq (pts_b0 (F := F) d L _).symm) $$ H0
  ihave H1' := (Entails.of_eq (pts_b1 (F := F) d L _).symm) $$ H1
  ihave H2' := (Entails.of_eq (pts_b2 (F := F) d L _).symm) $$ H2
  ihave H3' := (Entails.of_eq (pts_mall (F := F) d L _).symm) $$ H3
  ihave H4' := (Entails.of_eq (pts_meanb (F := F) d L _).symm) $$ H4
  ihave H5' := (Entails.of_eq (pts_cmb (F := F) d L _).symm) $$ H5
  ihave Hwp := (tile_run_value (F := F) d L O W (tok (wid L)) (Xv d) (Mv d) (m (dLoc d)) (m (eLoc d)) (m (cLoc d)) f0 f1 f2 g0 g1 g2)
    $$ [Hmw HO Hx Hm Hd He Hc H0' H1' H2' H3' H4' H5' S6 S7 S8 S9 S10 S11 S12 T0 T1]
  · isplitl [Hmw]; · iexact Hmw
    isplitl [HO]; · iexact HO
    isplitl [Hx]; · iexact Hx
    isplitl [Hm]; · iexact Hm
    isplitl [Hd]; · iexact Hd
    isplitl [He]; · iexact He
    isplitl [Hc]; · iexact Hc
    isplitl [H0']; · iexact H0'
    isplitl [H1']; · iexact H1'
    isplitl [H2']; · iexact H2'
    isplitl [H3']; · iexact H3'
    isplitl [H4']; · iexact H4'
    isplitl [H5']; · iexact H5'
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [T0]; · iexact T0
    iexact T1
  iapply (wp_wand_r frame (wpE (defs₀ (F := F)) 𝒱₀ (thr d L) none) Set.univ)
  isplitl [Hwp]; · iexact Hwp
  iintro %_ ⟨Hx, Hm, Hd, He, Hc, ⟨%f0', H0⟩, ⟨%f1', H1⟩, ⟨%f2', H2⟩, ⟨%g0', H3⟩, ⟨%g1', H4⟩, ⟨%g2', H5⟩, S6, S7, S8, S9, S10, S11, S12, T0, T1, %W', %hW', HO⟩
  ihave H0' := (Entails.of_eq (pts_b0 (F := F) d L _)) $$ H0
  ihave H1' := (Entails.of_eq (pts_b1 (F := F) d L _)) $$ H1
  ihave H2' := (Entails.of_eq (pts_b2 (F := F) d L _)) $$ H2
  ihave H3' := (Entails.of_eq (pts_mall (F := F) d L _)) $$ H3
  ihave H4' := (Entails.of_eq (pts_meanb (F := F) d L _)) $$ H4
  ihave H5' := (Entails.of_eq (pts_cmb (F := F) d L _)) $$ H5
  isplitl [Hx Hm Hd He Hc]
  · isplitl [Hx]; · iexact Hx
    isplitl [Hm]; · iexact Hm
    isplitl [Hd]; · iexact Hd
    isplitl [He]; · iexact He
    iexact Hc
  isplitl [H0' H1' H2' H3' H4' H5' Hbufs]
  · isplitl [H0']; · iexists _; iexact H0'
    isplitl [H1']; · iexists _; iexact H1'
    isplitl [H2']; · iexists _; iexact H2'
    isplitl [H3']; · iexists _; iexact H3'
    isplitl [H4']; · iexists _; iexact H4'
    isplitl [H5']; · iexists _; iexact H5'
    iexact Hbufs
  isplitl [S6 S7 S8 S9 S10 S11 S12 T0 T1 Hsems]
  · isplitl [S6 S7 S8 S9 S10 S11 S12 T0 T1]
    · isplitl [S6]; · iexact S6
      isplitl [S7]; · iexact S7
      isplitl [S8]; · iexact S8
      isplitl [S9]; · iexact S9
      isplitl [S10]; · iexact S10
      isplitl [S11]; · iexact S11
      isplitl [S12]; · iexact S12
      isplitl [T0]; · iexact T0
      iexact T1
    iexact Hsems
  iexists W'; isplitr
  · ipureintro; exact fun p hp => (hW' p hp).imp_right Or.inl
  · iexact HO

end Tile

theorem tileOblV (m : (ℓ : Loc nD τ sig) → Buf (Elt F) ℓ) : (K (F := F)).TileObl (D (F := F)) 𝒱 (PV m (Xv m) (Mv m)) v₀ 0 := by
  intro d c i O W hO _ _

  simp only [show (PV m (Xv m) (Mv m)).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_wrapV d (coordsV ⟨_, hc.1⟩ ⟨_, hc.2⟩) m (Xv m) (Mv m) (widN (Fin.cast nCore_zero c) (Fin.cast nSub_zero i))
    (wid_coordsV' hc.1 hc.2 (Fin.cast nCore_zero c) (Fin.cast nSub_zero i) rfl rfl) O W hO 0

end Cert.Proof.KI

end
-- ==== Proof.KernelValue.lean ====
import proofs.«204522_g36051955483029_cont_8to1_b_1192_15_alg».proof.Proof.RefSide
import Idealize.ShloMosaic.Lib.Pipeline.Value
import Idealize.ShloMosaic.Lib.ValueIdx
import Idealize.ShloMosaic.PureOps.Ideal.Laws
import Mathlib.Algebra.BigOperators.Fin
import Mathlib.Algebra.BigOperators.Group.Finset.Sigma
import Mathlib.Data.Fintype.BigOperators
import Mathlib.Logic.Equiv.Fin.Basic

noncomputable section

namespace Cert.Proof.KernelValue

open Idealize.ShloMosaic Idealize.ShloMosaic.ValueIdx
open Cert.ReferenceIdeal (S4x8192x1024 S4x8192 S4x128x1024 S4x128 S4x128x64x1024 S128 S1x128)
open Cert.Proof.RefSide
open scoped BigOperators

abbrev S512x64x1024 : Shape := ⟨3, ![512, 64, 1024]⟩
abbrev S512x64 : Shape := ⟨2, ![512, 64]⟩
abbrev S512x1024 : Shape := ⟨2, ![512, 1024]⟩
abbrev S512 : Shape := ⟨1, ![512]⟩

theorem foldl_add_eq {α : Type} (f : α → EReal) (l : List α) (init : EReal) :
    l.foldl (fun a t => a + f t) init = init + (l.map f).sum := by
  induction l generalizing init with
  | nil => simp
  | cons a l ih => rw [List.foldl_cons, ih, List.map_cons, List.sum_cons, add_assoc]

theorem foldl_finRange_eq {n : Nat} (f : Fin n → EReal) (init : EReal) :
    (List.finRange n).foldl (fun a t => a + f t) init = init + ∑ t : Fin n, f t := by
  rw [foldl_add_eq, Fin.sum_univ_def]

def acc4 (g : Fin 64 → EReal) (j : Fin 4) : EReal :=
  (List.finRange 16).foldl (fun a t => a + g ⟨4 * t.val + j.val, by omega⟩) 0

theorem acc4_eq (g : Fin 64 → EReal) (j : Fin 4) : acc4 g j = ∑ t : Fin 16, g ⟨4 * t.val + j.val, by omega⟩ := by
  unfold acc4
  rw [foldl_finRange_eq (fun t : Fin 16 => g ⟨4 * t.val + j.val, by omega⟩), zero_add]

theorem sum_split4 (g : Fin 64 → EReal) :
    ∑ r : Fin 64, g r = ∑ j : Fin 4, ∑ t : Fin 16, g ⟨4 * t.val + j.val, by omega⟩ := by
  rw [← Equiv.sum_comp (finProdFinEquiv (m := 16) (n := 4)) g, Fintype.sum_prod_type, Finset.sum_comm]
  refine Finset.sum_congr rfl fun j _ => Finset.sum_congr rfl fun t _ => congrArg g (Fin.ext ?_)
  show j.val + 4 * t.val = 4 * t.val + j.val
  omega

theorem sum4 (g : Fin 64 → EReal) : (acc4 g 0 + acc4 g 1) + (acc4 g 2 + acc4 g 3) = ∑ r : Fin 64, g r := by
  rw [sum_split4, Fin.sum_univ_four, acc4_eq, acc4_eq, acc4_eq, acc4_eq]
  simp only [add_assoc]

def cntFold (g : Fin 64 → EReal) : EReal :=
  (List.finRange 63).foldl (fun a t => a + g ⟨t.val + 1, by omega⟩) (g 0)

theorem cntFold_eq (g : Fin 64 → EReal) : cntFold g = ∑ r : Fin 64, g r := by
  unfold cntFold
  rw [foldl_finRange_eq (fun t : Fin 63 => g ⟨t.val + 1, by omega⟩), Fin.sum_univ_succ]
  rfl

abbrev unitOf (b : Fin 4) (n : Fin 128) : Fin 512 := ⟨128 * b.val + n.val, by omega⟩

def cntK (M' : FVec Ideal S512x64 .f32) (u : Fin 512) : EReal := ∑ r : Fin 64, M' (ix2 u r)

def sumK (X' : FVec Ideal S512x64x1024 .f32) (M' : FVec Ideal S512x64 .f32) (u : Fin 512) (c : Fin 1024) : EReal :=
  ∑ r : Fin 64, X' (ix3 u r c) * M' (ix2 u r)

def meanK (X' : FVec Ideal S512x64x1024 .f32) (M' : FVec Ideal S512x64 .f32) (u : Fin 512) (c : Fin 1024) : EReal :=
  sumK X' M' u c * Ideal.div 1 (cntK M' u + eps)

def diffK (X' : FVec Ideal S512x64x1024 .f32) (M' : FVec Ideal S512x64 .f32) (u : Fin 512) (r : Fin 64) (c : Fin 1024) : EReal :=
  meanK X' M' u c - X' (ix3 u r c) * M' (ix2 u r)

def cmK (M' : FVec Ideal S512x64 .f32) (u : Fin 512) : EReal :=
  Scalar.sitofp (F := Ideal) .f32 (Scalar.extui (Scalar.cmpf (F := Ideal) (φ := .f32) .ogt (cntK M' u) (Scalar.ofBits (F := Ideal) .f32 0x00000000#32)))

theorem cntK_eq_cntFold (M' : FVec Ideal S512x64 .f32) (u : Fin 512) : cntK M' u = cntFold fun r => M' (ix2 u r) :=
  (cntFold_eq _).symm

theorem sumK_eq_acc4 (X' : FVec Ideal S512x64x1024 .f32) (M' : FVec Ideal S512x64 .f32) (u : Fin 512) (c : Fin 1024) :
    sumK X' M' u c
      = (acc4 (fun r => X' (ix3 u r c) * M' (ix2 u r)) 0 + acc4 (fun r => X' (ix3 u r c) * M' (ix2 u r)) 1)
        + (acc4 (fun r => X' (ix3 u r c) * M' (ix2 u r)) 2 + acc4 (fun r => X' (ix3 u r c) * M' (ix2 u r)) 3) :=
  (sum4 _).symm

theorem sitofp_extui (w : BitVec 1) : Scalar.sitofp (F := Ideal) .f32 (Scalar.extui w) = FloatOps.uitofp (F := Ideal) .f32 w := by
  rcases BitVec.eq_zero_or_eq_one w with rfl | rfl
  · show (((Scalar.extui 0#1).toInt : ℝ) : EReal) = (((0#1 : BitVec 1).toNat : ℝ) : EReal)
    norm_num [Scalar.extui]
  · show (((Scalar.extui 1#1).toInt : ℝ) : EReal) = (((1#1 : BitVec 1).toNat : ℝ) : EReal)
    norm_num [Scalar.extui]

theorem cmK_eq (M' : FVec Ideal S512x64 .f32) (u : Fin 512) :
    cmK M' u = FloatOps.uitofp (F := Ideal) .f32 (Ideal.cmp .ogt (cntK M' u) 0) := by
  unfold cmK
  rw [sitofp_extui, Ideal.scalar_cmpf_def]
  show FloatOps.uitofp (F := Ideal) .f32 (Ideal.cmp .ogt (cntK M' u) (Ideal.ofBits .f32 0x00000000#32)) = _
  rw [Ideal.ofBits_zero_f32]

theorem X'_at (x : FVec Ideal S4x8192x1024 .f32) (h1 : S4x8192x1024.ShapeCasts S512x64x1024)
    (b : Fin 4) (n : Fin 128) (r : Fin 64) (c : Fin 1024) :
    shapeCast S512x64x1024 x h1 (ix3 (unitOf b n) r c) = x (ix3 b (blockRow n r) c) := by
  refine shapeCast_apply x h1 _ _ ?_
  rw [Shape.rowMajor_val_three, Shape.rowMajor_val_three]
  have hb := b.isLt; have hn := n.isLt; have hr := r.isLt; have hc := c.isLt
  show (b.val * 8192 + (64 * n.val + r.val)) * 1024 + c.val = ((128 * b.val + n.val) * 64 + r.val) * 1024 + c.val
  omega

theorem M'_at (mk : FVec Ideal S4x8192 .f32) (h2 : S4x8192.ShapeCasts S512x64) (b : Fin 4) (n : Fin 128) (r : Fin 64) :
    shapeCast S512x64 mk h2 (ix2 (unitOf b n) r) = mk (ix2 b (blockRow n r)) := by
  refine shapeCast_apply mk h2 _ _ ?_
  rw [Shape.rowMajor_val_two, Shape.rowMajor_val_two]
  have hb := b.isLt; have hn := n.isLt; have hr := r.isLt
  show b.val * 8192 + (64 * n.val + r.val) = (128 * b.val + n.val) * 64 + r.val
  omega

theorem cntK_reshape (mk : FVec Ideal S4x8192 .f32) (h2 : S4x8192.ShapeCasts S512x64) (b : Fin 4) (n : Fin 128) :
    cntK (shapeCast S512x64 mk h2) (unitOf b n) = countR mk b n := by
  unfold cntK countR
  exact Finset.sum_congr rfl fun r _ => M'_at mk h2 b n r

theorem sumK_reshape (x : FVec Ideal S4x8192x1024 .f32) (mk : FVec Ideal S4x8192 .f32)
    (h1 : S4x8192x1024.ShapeCasts S512x64x1024) (h2 : S4x8192.ShapeCasts S512x64) (b : Fin 4) (n : Fin 128) (c : Fin 1024) :
    sumK (shapeCast S512x64x1024 x h1) (shapeCast S512x64 mk h2) (unitOf b n) c = sumR x mk b n c := by
  unfold sumK sumR
  exact Finset.sum_congr rfl fun r _ => by rw [X'_at, M'_at]

theorem meanK_reshape (x : FVec Ideal S4x8192x1024 .f32) (mk : FVec Ideal S4x8192 .f32)
    (h : Cert.Pre_finite_inputs.fn (F := Ideal) x mk = fun _ => 1#1)
    (h1 : S4x8192x1024.ShapeCasts S512x64x1024) (h2 : S4x8192.ShapeCasts S512x64) (b : Fin 4) (n : Fin 128) (c : Fin 1024) :
    meanK (shapeCast S512x64x1024 x h1) (shapeCast S512x64 mk h2) (unitOf b n) c = meanR x mk (ix3 b n c) := by
  unfold meanK
  rw [sumK_reshape, cntK_reshape]
  exact meanR_eq_mul_recip mk x h b n c

theorem diffK_reshape (x : FVec Ideal S4x8192x1024 .f32) (mk : FVec Ideal S4x8192 .f32)
    (h : Cert.Pre_finite_inputs.fn (F := Ideal) x mk = fun _ => 1#1)
    (h1 : S4x8192x1024.ShapeCasts S512x64x1024) (h2 : S4x8192.ShapeCasts S512x64) (b : Fin 4) (n : Fin 128) (r : Fin 64) (c : Fin 1024) :
    diffK (shapeCast S512x64x1024 x h1) (shapeCast S512x64 mk h2) (unitOf b n) r c = diffR x mk (ix4 b n r c) := by
  unfold diffK
  rw [meanK_reshape x mk h, X'_at, M'_at, diffR_apply]

theorem cmK_reshape (mk : FVec Ideal S4x8192 .f32) (h2 : S4x8192.ShapeCasts S512x64) (b : Fin 4) (n : Fin 128) :
    cmK (shapeCast S512x64 mk h2) (unitOf b n) = cmR mk (ix2 b n) := by
  rw [cmK_eq, cntK_reshape, cmR_apply]

theorem mean_back (x : FVec Ideal S4x8192x1024 .f32) (mk : FVec Ideal S4x8192 .f32)
    (h : Cert.Pre_finite_inputs.fn (F := Ideal) x mk = fun _ => 1#1)
    (h1 : S4x8192x1024.ShapeCasts S512x64x1024) (h2 : S4x8192.ShapeCasts S512x64) (h3 : S512x1024.ShapeCasts S4x128x1024) :
    shapeCast S4x128x1024 (fun i : S512x1024.Idx =>
      meanK (shapeCast S512x64x1024 x h1) (shapeCast S512x64 mk h2) (i 0) (i 1)) h3 = meanR x mk := by
  funext i
  obtain ⟨b, n, c, rfl⟩ : ∃ (b : Fin 4) (n : Fin 128) (c : Fin 1024), i = ix3 b n c := ⟨i 0, i 1, i 2, eq_ix3 i⟩
  refine (shapeCast_apply _ h3 (ix3 b n c) (ix2 (unitOf b n) c) ?_).trans ?_
  · rw [Shape.rowMajor_val_two, Shape.rowMajor_val_three]
    have hb := b.isLt; have hn := n.isLt; have hc := c.isLt
    show (128 * b.val + n.val) * 1024 + c.val = (b.val * 128 + n.val) * 1024 + c.val
    omega
  · exact meanK_reshape x mk h h1 h2 b n c

theorem diff_back (x : FVec Ideal S4x8192x1024 .f32) (mk : FVec Ideal S4x8192 .f32)
    (h : Cert.Pre_finite_inputs.fn (F := Ideal) x mk = fun _ => 1#1)
    (h1 : S4x8192x1024.ShapeCasts S512x64x1024) (h2 : S4x8192.ShapeCasts S512x64) (h4 : S512x64x1024.ShapeCasts S4x128x64x1024) :
    shapeCast S4x128x64x1024 (fun i : S512x64x1024.Idx =>
      diffK (shapeCast S512x64x1024 x h1) (shapeCast S512x64 mk h2) (i 0) (i 1) (i 2)) h4 = diffR x mk := by
  funext i
  obtain ⟨b, n, r, c, rfl⟩ : ∃ (b : Fin 4) (n : Fin 128) (r : Fin 64) (c : Fin 1024), i = ix4 b n r c :=
    ⟨i 0, i 1, i 2, i 3, eq_ix4 i⟩
  refine (shapeCast_apply _ h4 (ix4 b n r c) (ix3 (unitOf b n) r c) ?_).trans ?_
  · rw [Shape.rowMajor_val_three, Shape.rowMajor_val_four]
    have hb := b.isLt; have hn := n.isLt; have hr := r.isLt; have hc := c.isLt
    show ((128 * b.val + n.val) * 64 + r.val) * 1024 + c.val = ((b.val * 128 + n.val) * 64 + r.val) * 1024 + c.val
    omega
  · exact diffK_reshape x mk h h1 h2 b n r c

theorem cm_back (mk : FVec Ideal S4x8192 .f32) (h2 : S4x8192.ShapeCasts S512x64) (h5 : S512.ShapeCasts S4x128) :
    shapeCast S4x128 (fun i : S512.Idx => cmK (shapeCast S512x64 mk h2) (i 0)) h5 = cmR mk := by
  funext i
  obtain ⟨b, n, rfl⟩ : ∃ (b : Fin 4) (n : Fin 128), i = ix2 b n := ⟨i 0, i 1, eq_ix2 i⟩
  refine (shapeCast_apply _ h5 (ix2 b n) (ix1 (unitOf b n)) ?_).trans ?_
  · rw [Shape.rowMajor_val_one, Shape.rowMajor_val_two]
    have hb := b.isLt; have hn := n.isLt
    show 128 * b.val + n.val = b.val * 128 + n.val
    omega
  · exact cmK_reshape mk h2 b n

theorem idx_back (hb1 : S128.BroadcastsInDim S1x128 (![1] : Fin 1 → Fin S1x128.rank))
    (hb2 : S1x128.BroadcastsInDim S4x128 (![0, 1] : Fin 2 → Fin S4x128.rank)) :
    broadcastInDim S4x128 ![0, 1] hb2 (broadcastInDim S1x128 ![1] hb1 (iotaInDim S128 32 0)) = idxR :=
  idx_eq

end Cert.Proof.KernelValue

end
-- ==== Proof.SpecBridge.lean ====
import proofs.«204522_g36051955483029_cont_8to1_b_1192_15_alg».proof.Proof.Spec
import proofs.«204522_g36051955483029_cont_8to1_b_1192_15_alg».proof.Proof.KernelValue
import Idealize.ShloMosaic.Lib.IdealHost

noncomputable section

namespace Cert.Proof.KI

open Cert.KernelIdeal Cert.KernelIdeal.Gen
open Idealize.ShloMosaic Idealize.ShloMosaic.ValueIdx
open Cert.Proof.KernelValue (acc4 cntFold cntK sumK meanK diffK cmK cntK_eq_cntFold sumK_eq_acc4)
open Cert.Proof.RefSide (eps)

theorem cntF_ideal (ms : Fin 64 → Ideal .f32) : cntF (F := Ideal) ms = cntFold ms := rfl

theorem rcpF_ideal (ms : Fin 64 → Ideal .f32) (i : S16.Idx) : rcpF (F := Ideal) ms i = Ideal.div 1 (cntFold ms + eps) := by
  have h1 : Scalar.ofBits (F := Ideal) .f32 0x3F800000#32 = (1 : EReal) := Ideal.ofBits_one_f32
  unfold rcpF
  simp only [divf, addf, broadcast, Ideal.divf_def, Ideal.addf_def]
  rw [h1, cntF_ideal]
  rfl

theorem blkU_col {F : FTy → Type} (X : S512x64x1024.Idx → F .f32) (u : Fin 512) (c : Fin 1024) (r : Fin 64) :
    blkU X u (halfOf c) (ix2 r (colOf c)) = X (ix3 u r c) := by
  show X (ix3 u r ⟨512 * (c.val / 512) + c.val % 512, _⟩) = X (ix3 u r c)
  exact congrArg (fun cc => X (ix3 u r cc)) (Fin.ext (Nat.div_add_mod c.val 512))

theorem accS_ideal (g : S64x512.Idx → Ideal .f32) (ms : Fin 64 → Ideal .f32) (c : Fin 512) (j : Fin 4) :
    accS (F := Ideal) g ms c j = acc4 (fun r => g (ix2 r c) * ms r) j := by
  unfold accS acc4
  rw [show Scalar.ofBits (F := Ideal) .f32 0x00000000#32 = (0 : EReal) from Ideal.ofBits_zero_f32]
  rfl

theorem colMean_ideal (X : S512x64x1024.Idx → Ideal .f32) (M : S512x64.Idx → Ideal .f32) (u : Fin 512) (c : Fin 1024) :
    colMean (F := Ideal) (blkU X u (halfOf c)) (msU M u) (rcpF (msU M u)) (colOf c) = meanK X M u c := by
  have hf : (fun r : Fin 64 => blkU X u (halfOf c) (ix2 r (colOf c)) * msU M u r) = fun r => X (ix3 u r c) * M (ix2 u r) :=
    funext fun r => by rw [blkU_col]; rfl
  unfold colMean meanK
  rw [accS_ideal, accS_ideal, accS_ideal, accS_ideal, hf, rcpF_ideal, sumK_eq_acc4, cntK_eq_cntFold]
  rfl

theorem Esp_ideal (X : S512x64x1024.Idx → Ideal .f32) (M : S512x64.Idx → Ideal .f32) (j : S512x1024.Idx) :
    Esp (F := Ideal) X M j = meanK X M (j 0) (j 1) :=
  colMean_ideal X M (j 0) (j 1)

theorem Dsp_ideal (X : S512x64x1024.Idx → Ideal .f32) (M : S512x64.Idx → Ideal .f32) (i : S512x64x1024.Idx) :
    Dsp (F := Ideal) X M i = diffK X M (i 0) (i 1) (i 2) := by
  show colMean (F := Ideal) (blkU X (i 0) (halfOf (i 2))) (msU M (i 0)) (rcpF (msU M (i 0))) (colOf (i 2))
      - blkU X (i 0) (halfOf (i 2)) (ix2 (i 1) (colOf (i 2))) * M (ix2 (i 0) (i 1)) = _
  exact congrArg₂ (· - ·) (colMean_ideal X M (i 0) (i 2)) (congrArg (· * M (ix2 (i 0) (i 1))) (blkU_col X (i 0) (i 2) (i 1)))

theorem Csp_ideal (M : S512x64.Idx → Ideal .f32) (j : S512.Idx) : Csp (F := Ideal) M j = cmK M (j 0) := by
  show Scalar.sitofp (F := Ideal) .f32 (Scalar.extui (Scalar.cmpf (F := Ideal) (φ := .f32) .ogt (cntF (F := Ideal) (msU M (j 0))) (Scalar.ofBits (F := Ideal) .f32 0x00000000#32))) = _
  exact congrArg (fun t => Scalar.sitofp (F := Ideal) .f32 (Scalar.extui (Scalar.cmpf (F := Ideal) (φ := .f32) .ogt t (Scalar.ofBits (F := Ideal) .f32 0x00000000#32))))
    ((cntF_ideal _).trans (cntK_eq_cntFold M (j 0)).symm)

end Cert.Proof.KI

end
-- ==== Proof.Algebraic.lean ====
import proofs.«204522_g36051955483029_cont_8to1_b_1192_15_alg».proof.Proof.VLaunch
import proofs.«204522_g36051955483029_cont_8to1_b_1192_15_alg».proof.Proof.VTileObl
import proofs.«204522_g36051955483029_cont_8to1_b_1192_15_alg».proof.Proof.SpecBridge
import proofs.«204522_g36051955483029_cont_8to1_b_1192_15_alg».proof.Proof.RefSide

noncomputable section

namespace Cert.Proof

open Idealize.ShloMosaic Idealize.SL.Sem
open Cert.Proof.RefSide (meanR cmR diffR idxR ref_run)
open Cert.Proof.KernelValue (meanK diffK cmK mean_back cm_back diff_back idx_back)
open Cert.Proof.KI (Xv Mv rE rC rD Esp_ideal Dsp_ideal Csp_ideal run_value tileOblV)

theorem algebraic : Cert.algebraic_KernelIdeal_ReferenceIdeal := by
  intro m g m' g' hpre hag
  refine ⟨fun c => meanR (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => cmR (m ((c.tc : Thread Cert.KernelIdeal.nD Cert.KernelIdeal.τ).loc Cert.KernelIdeal.main_arg1)),
    fun c => diffR (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun _ => idxR, ?_, ?_⟩
  ·
    refine (θ_run Cert.KernelIdeal.defs _ _).mono ?_ (run_value (F := Ideal) m g (tileOblV m))
    intro r h c
    obtain ⟨h6, h7, h8, h5, ha, hb⟩ := h c
    have eE : rE m c = fun i => meanK (Xv m c) (Mv m c) (i 0) (i 1) := funext fun i => Esp_ideal _ _ i
    have eC : rC m c = fun i => cmK (Mv m c) (i 0) := funext fun i => Csp_ideal _ i
    have eD : rD m c = fun i => diffK (Xv m c) (Mv m c) (i 0) (i 1) (i 2) := funext fun i => Dsp_ideal _ _ i
    rw [eE] at h6
    rw [eC] at h7
    rw [eD] at h8
    exact ⟨h6.trans (mean_back _ _ (hpre c) _ _ _), h7.trans (cm_back _ _ _), h8.trans (diff_back _ _ (hpre c) _ _ _),
      h5.trans (idx_back _ _), ha, hb⟩
  ·
    refine (θ_run Cert.ReferenceIdeal.defs _ _).mono ?_ (ref_run m' g')
    intro r h c
    obtain ⟨h1, h2, h3, h4, ha, hb⟩ := h c
    rw [(hag c).1, (hag c).2] at h1 h3
    rw [(hag c).2] at h2
    exact ⟨h1, h2, h3, h4, ha, hb⟩

end Cert.Proof

end
-- ==== Proof.lean ====
import proofs.«204522_g36051955483029_cont_8to1_b_1192_15_alg».proof.Defs
import proofs.«204522_g36051955483029_cont_8to1_b_1192_15_alg».proof.Proof.Gen.Kernel
import proofs.«204522_g36051955483029_cont_8to1_b_1192_15_alg».proof.Proof.Gen.Kernel.Skeleton
import proofs.«204522_g36051955483029_cont_8to1_b_1192_15_alg».proof.Proof.Gen.KernelIdeal
import proofs.«204522_g36051955483029_cont_8to1_b_1192_15_alg».proof.Proof.Gen.KernelIdeal.Skeleton
import proofs.«204522_g36051955483029_cont_8to1_b_1192_15_alg».proof.Proof.Gen.ReferenceIdeal
import proofs.«204522_g36051955483029_cont_8to1_b_1192_15_alg».proof.Proof.Gen.Pre_finite_inputs
import Idealize.ShloMosaic.Adequacy
import Idealize.ShloMosaic.Init
import proofs.«204522_g36051955483029_cont_8to1_b_1192_15_alg».proof.Proof.RefSide
import proofs.«204522_g36051955483029_cont_8to1_b_1192_15_alg».proof.Proof.KB_Launch
import proofs.«204522_g36051955483029_cont_8to1_b_1192_15_alg».proof.Proof.KB_TileObl
import proofs.«204522_g36051955483029_cont_8to1_b_1192_15_alg».proof.Proof.Algebraic

noncomputable section

namespace Cert.Proof

open Idealize.ShloMosaic Idealize.SL.Sem

theorem frame_K : Cert.frame_Kernel := fun m ρ _ =>
  (θ_run Cert.Kernel.defs _ _).mono (fun _ h c => h c) (Cert.Proof.KB.run_main (F := Bits) m ρ (Cert.Proof.KB.tileObl m))

theorem frame_KI : Cert.frame_KernelIdeal := fun m ρ _ =>
  (θ_run Cert.KernelIdeal.defs _ _).mono (fun _ h c => (h c).2.2.2.2) (Cert.Proof.KI.run_value (F := Ideal) m ρ (Cert.Proof.KI.tileOblV m))

theorem frame_R : Cert.frame_ReferenceIdeal := fun m ρ _ =>
  (θ_run Cert.ReferenceIdeal.defs _ _).mono (fun _ h c => ⟨(h c).2.2.2.2.1, (h c).2.2.2.2.2⟩) (Cert.Proof.RefSide.ref_run m ρ)

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
